-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v294)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v294) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v418) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x8 : Shape := ⟨2, ![800000, 8]⟩
abbrev S1x128 : Shape := ⟨2, ![1, 128]⟩
abbrev S3x8x128 : Shape := ⟨3, ![3, 8, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S2x800000 : Shape := ⟨2, ![2, 800000]⟩
abbrev S50000 : Shape := ⟨1, ![50000]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S1x128 : S_.BroadcastsInDim S1x128 (![] : Fin 0 → Fin S1x128.rank)
  reducesTo_S1x128_S_d0_1 : S1x128.ReducesTo [0, 1] S_
  bcast_S_S3x8x128 : S_.BroadcastsInDim S3x8x128 (![] : Fin 0 → Fin S3x8x128.rank)
  reducesTo_S3x8x128_S_d0_1_2 : S3x8x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x256 : S_.BroadcastsInDim S3x128x256 (![] : Fin 0 → Fin S3x128x256.rank)
  reducesTo_S3x128x256_S_d0_1_2 : S3x128x256.ReducesTo [0, 1, 2] S_
  bcast_S_S3x256 : S_.BroadcastsInDim S3x256 (![] : Fin 0 → Fin S3x256.rank)
  reducesTo_S3x256_S_d0_1 : S3x256.ReducesTo [0, 1] S_
  bcast_S_S3x256x128 : S_.BroadcastsInDim S3x256x128 (![] : Fin 0 → Fin S3x256x128.rank)
  reducesTo_S3x256x128_S_d0_1_2 : S3x256x128.ReducesTo [0, 1, 2] S_
  bcast_S_S2x128x256 : S_.BroadcastsInDim S2x128x256 (![] : Fin 0 → Fin S2x128x256.rank)
  reducesTo_S2x128x256_S_d0_1_2 : S2x128x256.ReducesTo [0, 1, 2] S_
  bcast_S_S2x256 : S_.BroadcastsInDim S2x256 (![] : Fin 0 → Fin S2x256.rank)
  reducesTo_S2x256_S_d0_1 : S2x256.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part6 {F : FTy → Type} [FloatOps F] (main_arg21 : IVec S2x800000 32) (main_v98 : IVec S_ 1) (main_v101 : IVec S2x128 1) (main_c_39 : IVec S_ 1) : IVec S_ 1 :=
  let main_v102 : IVec S_ 1 := (fun x v => Host.reduce IntOp.andi x v reducesTo_S2x128_S_d0_1 h_S_) main_v101 main_c_39
  let main_v103 : IVec S_ 1 := andi main_v98 main_v102
  let main_v104 : IVec S1x800000 32 := (extractStridedSlice S1x800000 ![0, 0] · slices_S2x800000_S1x800000_0_0) main_arg21
  let main_v105 : IVec S800000 32 := shapeCast S800000 main_v104 shapeCasts_S1x800000_S800000
  let main_c_40 : IVec S_ 32 := constantI S_ 32 0#32
  let main_v106 : IVec S800000 32 := broadcastInDim S800000 ![] bcast_S_S800000 main_c_40
  let main_v107 : IVec S800000 1 := cmpi .sge main_v105 main_v106
  let main_v108 : IVec S1x800000 32 := (extractStridedSlice S1x800000 ![0, 0] · slices_S2x800000_S1x800000_0_0) main_arg21
  let main_v109 : IVec S800000 32 := shapeCast S800000 main_v108 shapeCasts_S1x800000_S800000
  let main_c_41 : IVec S_ 32 := constantI S_ 32 50000#32
  let main_v110 : IVec S800000 32 := broadcastInDim S800000 ![] bcast_S_S800000 main_c_41
  let main_v111 : IVec S800000 1 := cmpi .slt main_v109 main_v110
  let main_v112 : IVec S800000 1 := andi main_v107 main_v111
  let main_c_42 : IVec S_ 1 := constantI S_ 1 1#1
  let main_v113 : IVec S_ 1 := (fun x v => Host.reduce IntOp.andi x v reducesTo_S800000_S_d0 h_S_) main_v112 main_c_42
  let main_v114 : IVec S_ 1 := andi main_v103 main_v113
  main_v114

def fn_part5 {F : FTy → Type} [FloatOps F] (main_arg18 : FVec F S2x128 .f32) (main_arg19 : FVec F S2x128 .f32) (main_arg20 : FVec F S2x128 .f32) (main_arg21 : IVec S2x800000 32) (main_v83 : IVec S_ 1) (main_v84 : FVec F S2x256x128 .f32) (main_cst_32 : FVec F S_ .f32) : IVec S_ 1 :=
  let main_v85 : FVec F S2x256x128 .f32 := broadcastInDim S2x256x128 ![] bcast_S_S2x256x128 main_cst_32
  let main_v86 : IVec S2x256x128 1 := cmpf .olt main_v84 main_v85
  let main_c_33 : IVec S_ 1 := constantI S_ 1 1#1
  let main_v87 : IVec S_ 1 := (fun x v => Host.reduce IntOp.andi x v reducesTo_S2x256x128_S_d0_1_2 h_S_) main_v86 main_c_33
  let main_v88 : IVec S_ 1 := andi main_v83 main_v87
  let main_v89 : FVec F S2x128 .f32 := Host.absf main_arg18
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2x128 .f32 := Host.absf main_arg19
  let main_cst_36 : FVec F S_ .f32 := constant S_ .f32 0x7F800000#32
  let main_v95 : FVec F S2x128 .f32 := broadcastInDim S2x128 ![] bcast_S_S2x128 main_cst_36
  let main_v96 : IVec S2x128 1 := cmpf .olt main_v94 main_v95
  let main_c_37 : IVec S_ 1 := constantI S_ 1 1#1
  let main_v97 : IVec S_ 1 := (fun x v => Host.reduce IntOp.andi x v reducesTo_S2x128_S_d0_1 h_S_) main_v96 main_c_37
  let main_v98 : IVec S_ 1 := andi main_v93 main_v97
  let main_v99 : FVec F S2x128 .f32 := Host.absf main_arg20
  let main_cst_38 : FVec F S_ .f32 := constant S_ .f32 0x7F800000#32
  let main_v100 : FVec F S2x128 .f32 := broadcastInDim S2x128 ![] bcast_S_S2x128 main_cst_38
  let main_v101 : IVec S2x128 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S2x256 .f32) (main_arg15 : FVec F S2x256 .f32) (main_arg16 : FVec F S2x256 .f32) (main_arg17 : FVec F S2x256x128 .f32) (main_arg18 : FVec F S2x128 .f32) (main_arg19 : FVec F S2x128 .f32) (main_arg20 : FVec F S2x128 .f32) (main_arg21 : IVec S2x800000 32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256 .f32 := Host.absf main_arg15
  let main_cst_28 : FVec F S_ .f32 := constant S_ .f32 0x7F800000#32
  let main_v75 : FVec F S2x256 .f32 := broadcastInDim S2x256 ![] bcast_S_S2x256 main_cst_28
  let main_v76 : IVec S2x256 1 := cmpf .olt main_v74 main_v75
  let main_c_29 : IVec S_ 1 := constantI S_ 1 1#1
  let main_v77 : IVec S_ 1 := (fun x v => Host.reduce IntOp.andi x v reducesTo_S2x256_S_d0_1 h_S_) main_v76 main_c_29
  let main_v78 : IVec S_ 1 := andi main_v73 main_v77
  let main_v79 : FVec F S2x256 .f32 := Host.absf main_arg16
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  let main_v84 : FVec F S2x256x128 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S3x128 .f32) (main_arg12 : FVec F S3x128 .f32) (main_arg13 : FVec F S2x128x256 .f32) (main_arg14 : FVec F S2x256 .f32) (main_arg15 : FVec F S2x256 .f32) (main_arg16 : FVec F S2x256 .f32) (main_arg17 : FVec F S2x256x128 .f32) (main_arg18 : FVec F S2x128 .f32) (main_arg19 : FVec F S2x128 .f32) (main_arg20 : FVec F S2x128 .f32) (main_arg21 : IVec S2x800000 32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg12
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S2x128x256 .f32 := Host.absf main_arg13
  let main_cst_24 : FVec F S_ .f32 := constant S_ .f32 0x7F800000#32
  let main_v65 : FVec F S2x128x256 .f32 := broadcastInDim S2x128x256 ![] bcast_S_S2x128x256 main_cst_24
  let main_v66 : IVec S2x128x256 1 := cmpf .olt main_v64 main_v65
  let main_c_25 : IVec S_ 1 := constantI S_ 1 1#1
  let main_v67 : IVec S_ 1 := (fun x v => Host.reduce IntOp.andi x v reducesTo_S2x128x256_S_d0_1_2 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S3x256 .f32) (main_arg8 : FVec F S3x256 .f32) (main_arg9 : FVec F S3x256x128 .f32) (main_arg10 : FVec F S3x128 .f32) (main_arg11 : FVec F S3x128 .f32) (main_arg12 : FVec F S3x128 .f32) (main_arg13 : FVec F S2x128x256 .f32) (main_arg14 : FVec F S2x256 .f32) (main_arg15 : FVec F S2x256 .f32) (main_arg16 : FVec F S2x256 .f32) (main_arg17 : FVec F S2x256x128 .f32) (main_arg18 : FVec F S2x128 .f32) (main_arg19 : FVec F S2x128 .f32) (main_arg20 : FVec F S2x128 .f32) (main_arg21 : IVec S2x800000 32) (main_v33 : IVec S_ 1) : IVec S_ 1 :=
  let main_v34 : FVec F S3x256 .f32 := Host.absf main_arg7
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg8
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S3x256x128 .f32 := Host.absf main_arg9
  let main_cst_16 : FVec F S_ .f32 := constant S_ .f32 0x7F800000#32
  let main_v45 : FVec F S3x256x128 .f32 := broadcastInDim S3x256x128 ![] bcast_S_S3x256x128 main_cst_16
  let main_v46 : IVec S3x256x128 1 := cmpf .olt main_v44 main_v45
  let main_c_17 : IVec S_ 1 := constantI S_ 1 1#1
  let main_v47 : IVec S_ 1 := (fun x v => Host.reduce IntOp.andi x v reducesTo_S3x256x128_S_d0_1_2 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S3x128 .f32) (main_arg5 : FVec F S3x128x256 .f32) (main_arg6 : FVec F S3x256 .f32) (main_arg7 : FVec F S3x256 .f32) (main_arg8 : FVec F S3x256 .f32) (main_arg9 : FVec F S3x256x128 .f32) (main_arg10 : FVec F S3x128 .f32) (main_arg11 : FVec F S3x128 .f32) (main_arg12 : FVec F S3x128 .f32) (main_arg13 : FVec F S2x128x256 .f32) (main_arg14 : FVec F S2x256 .f32) (main_arg15 : FVec F S2x256 .f32) (main_arg16 : FVec F S2x256 .f32) (main_arg17 : FVec F S2x256x128 .f32) (main_arg18 : FVec F S2x128 .f32) (main_arg19 : FVec F S2x128 .f32) (main_arg20 : FVec F S2x128 .f32) (main_arg21 : IVec S2x800000 32) (main_v13 : IVec S_ 1) (main_v16 : IVec S3x8x128 1) : IVec S_ 1 :=
  let main_c_5 : IVec S_ 1 := constantI S_ 1 1#1
  let main_v17 : IVec S_ 1 := (fun x v => Host.reduce IntOp.andi x v reducesTo_S3x8x128_S_d0_1_2 h_S_) main_v16 main_c_5
  let main_v18 : IVec S_ 1 := andi main_v13 main_v17
  let main_v19 : FVec F S3x128 .f32 := Host.absf main_arg4
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128x256 .f32 := Host.absf main_arg5
  let main_cst_8 : FVec F S_ .f32 := constant S_ .f32 0x7F800000#32
  let main_v25 : FVec F S3x128x256 .f32 := broadcastInDim S3x128x256 ![] bcast_S_S3x128x256 main_cst_8
  let main_v26 : IVec S3x128x256 1 := cmpf .olt main_v24 main_v25
  let main_c_9 : IVec S_ 1 := constantI S_ 1 1#1
  let main_v27 : IVec S_ 1 := (fun x v => Host.reduce IntOp.andi x v reducesTo_S3x128x256_S_d0_1_2 h_S_) main_v26 main_c_9
  let main_v28 : IVec S_ 1 := andi main_v23 main_v27
  let main_v29 : FVec F S3x256 .f32 := Host.absf main_arg6
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : FVec F S800000x8 .f32) (main_arg2 : FVec F S1x128 .f32) (main_arg3 : FVec F S3x8x128 .f32) (main_arg4 : FVec F S3x128 .f32) (main_arg5 : FVec F S3x128x256 .f32) (main_arg6 : FVec F S3x256 .f32) (main_arg7 : FVec F S3x256 .f32) (main_arg8 : FVec F S3x256 .f32) (main_arg9 : FVec F S3x256x128 .f32) (main_arg10 : FVec F S3x128 .f32) (main_arg11 : FVec F S3x128 .f32) (main_arg12 : FVec F S3x128 .f32) (main_arg13 : FVec F S2x128x256 .f32) (main_arg14 : FVec F S2x256 .f32) (main_arg15 : FVec F S2x256 .f32) (main_arg16 : FVec F S2x256 .f32) (main_arg17 : FVec F S2x256x128 .f32) (main_arg18 : FVec F S2x128 .f32) (main_arg19 : FVec F S2x128 .f32) (main_arg20 : FVec F S2x128 .f32) (main_arg21 : IVec S2x800000 32) (main_arg22 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x8 .f32 := Host.absf main_arg1
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S3x8x128 .f32 := Host.absf main_arg3
  let main_cst_4 : FVec F S_ .f32 := constant S_ .f32 0x7F800000#32
  let main_v15 : FVec F S3x8x128 .f32 := broadcastInDim S3x8x128 ![] bcast_S_S3x8x128 main_cst_4
  let main_v16 : IVec S3x8x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S800000x8 : Shape := ⟨2, ![800000, 8]⟩
abbrev S1x128 : Shape := ⟨2, ![1, 128]⟩
abbrev S3x8x128 : Shape := ⟨3, ![3, 8, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S512x128 : Shape := ⟨2, ![512, 128]⟩
abbrev S_ : Shape := ⟨0, ![]⟩
abbrev S50000x1 : Shape := ⟨2, ![50000, 1]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x8x128 : Shape := ⟨3, ![1, 8, 128]⟩
abbrev S8x128 : Shape := ⟨2, ![8, 128]⟩
abbrev S128 : Shape := ⟨1, ![128]⟩
abbrev S8000x128 : Shape := ⟨2, ![8000, 128]⟩
abbrev S8000x8 : Shape := ⟨2, ![8000, 8]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S50000x256 : Shape := ⟨2, ![50000, 256]⟩
abbrev S2000x128 : Shape := ⟨2, ![2000, 128]⟩
abbrev S2000x256 : Shape := ⟨2, ![2000, 256]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 645
  | .vmem => 136
  | .smem => 0
  | _ => 0

abbrev hbmTy0_0 (i : Nat) : BufTy := match i % 128 with
  | 0 => ⟨S50000x128, .f32⟩
  | 1 => ⟨S800000x8, .f32⟩
  | 2 => ⟨S1x128, .f32⟩
  | 3 => ⟨S3x8x128, .f32⟩
  | 4 => ⟨S3x128, .f32⟩
  | 5 => ⟨S3x128x256, .f32⟩
  | 6 => ⟨S3x256, .f32⟩
  | 7 => ⟨S3x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S2x128x256, .f32⟩
  | 14 => ⟨S2x256, .f32⟩
  | 15 => ⟨S2x256, .f32⟩
  | 16 => ⟨S2x256, .f32⟩
  | 17 => ⟨S2x256x128, .f32⟩
  | 18 => ⟨S2x128, .f32⟩
  | 19 => ⟨S2x128, .f32⟩
  | 20 => ⟨S2x128, .f32⟩
  | 21 => ⟨S2x800000, .i32⟩
  | 22 => ⟨S50000, .i32⟩
  | 23 => ⟨S1x800000, .i32⟩
  | 24 => ⟨S800000, .i32⟩
  | 25 => ⟨S1x800000, .i32⟩
  | 26 => ⟨S800000, .i32⟩
  | 27 => ⟨S512x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S1, .i32⟩
  | 47 => ⟨S_, .i32⟩
  | 48 => ⟨S800000x1, .i32⟩
  | 49 => ⟨S800000x1, .i1⟩
  | 50 => ⟨S1x1, .i32⟩
  | 51 => ⟨S800000x1, .i32⟩
  | 52 => ⟨S800000x1, .i1⟩
  | 53 => ⟨S800000x1, .i1⟩
  | 54 => ⟨S_, .i1⟩
  | 55 => ⟨S800000, .i1⟩
  | 56 => ⟨S800000x128, .f32⟩
  | 57 => ⟨S800000x128, .i1⟩
  | 58 => ⟨S_, .f32⟩
  | 59 => ⟨S800000x128, .f32⟩
  | 60 => ⟨S800000x128, .f32⟩
  | 61 => ⟨S1x8x128, .f32⟩
  | 62 => ⟨S8x128, .f32⟩
  | 63 => ⟨S1x128, .f32⟩
  | 64 => ⟨S128, .f32⟩
  | 65 => ⟨S1x128, .f32⟩
  | 66 => ⟨S800000x128, .f32⟩
  | 67 => ⟨S_, .f32⟩
  | 68 => ⟨S50000x128, .f32⟩
  | 69 => ⟨S800000x1, .i32⟩
  | 70 => ⟨S50000x128, .f32⟩
  | 71 => ⟨S1x128x256, .f32⟩
  | 72 => ⟨S128x256, .f32⟩
  | 73 => ⟨S1x256, .f32⟩
  | 74 => ⟨S256, .f32⟩
  | 75 => ⟨S1x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S50000x256, .f32⟩
  | 90 => ⟨S50000x256, .f32⟩
  | 91 => ⟨S50000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S256, .f32⟩
  | 107 => ⟨S_, .f32⟩
  | 108 => ⟨S256, .f32⟩
  | 109 => ⟨S256, .f32⟩
  | 110 => ⟨S256, .f32⟩
  | 111 => ⟨S256, .f32⟩
  | 112 => ⟨S1x256, .f32⟩
  | 113 => ⟨S256, .f32⟩
  | 114 => ⟨S256, .f32⟩
  | 115 => ⟨S256, .f32⟩
  | 116 => ⟨S1x256, .f32⟩
  | 117 => ⟨S1x256, .f32⟩
  | 118 => ⟨S50000x256, .f32⟩
  | 119 => ⟨S1x256x128, .f32⟩
  | 120 => ⟨S256x128, .f32⟩
  | 121 => ⟨S1x128, .f32⟩
  | 122 => ⟨S128, .f32⟩
  | 123 => ⟨S1x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S50000x128, .f32⟩
  | 10 => ⟨S50000x128, .f32⟩
  | 11 => ⟨S50000x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S128, .f32⟩
  | 27 => ⟨S_, .f32⟩
  | 28 => ⟨S128, .f32⟩
  | 29 => ⟨S128, .f32⟩
  | 30 => ⟨S128, .f32⟩
  | 31 => ⟨S128, .f32⟩
  | 32 => ⟨S1x128, .f32⟩
  | 33 => ⟨S128, .f32⟩
  | 34 => ⟨S128, .f32⟩
  | 35 => ⟨S128, .f32⟩
  | 36 => ⟨S1x128, .f32⟩
  | 37 => ⟨S1x128, .f32⟩
  | 38 => ⟨S50000x128, .f32⟩
  | 39 => ⟨S_, .f32⟩
  | 40 => ⟨S512x128, .f32⟩
  | 41 => ⟨S50000x1, .i32⟩
  | 42 => ⟨S512x128, .f32⟩
  | 43 => ⟨S1x128x256, .f32⟩
  | 44 => ⟨S128x256, .f32⟩
  | 45 => ⟨S1x256, .f32⟩
  | 46 => ⟨S256, .f32⟩
  | 47 => ⟨S1x256, .f32⟩
  | 48 => ⟨S512x256, .f32⟩
  | 49 => ⟨S_, .f32⟩
  | 50 => ⟨S256, .f32⟩
  | 51 => ⟨S_, .f32⟩
  | 52 => ⟨S256, .f32⟩
  | 53 => ⟨S256, .f32⟩
  | 54 => ⟨S_, .i32⟩
  | 55 => ⟨S_, .f32⟩
  | 56 => ⟨S256, .f32⟩
  | 57 => ⟨S1x256, .f32⟩
  | 58 => ⟨S_, .f32⟩
  | 59 => ⟨S1x256, .f32⟩
  | 60 => ⟨S1x256, .f32⟩
  | 61 => ⟨S512x256, .f32⟩
  | 62 => ⟨S512x256, .f32⟩
  | 63 => ⟨S512x256, .f32⟩
  | 64 => ⟨S_, .f32⟩
  | 65 => ⟨S_, .f32⟩
  | 66 => ⟨S_, .f32⟩
  | 67 => ⟨S_, .f32⟩
  | 68 => ⟨S256, .f32⟩
  | 69 => ⟨S256, .f32⟩
  | 70 => ⟨S256, .f32⟩
  | 71 => ⟨S_, .f32⟩
  | 72 => ⟨S_, .i1⟩
  | 73 => ⟨S_, .f32⟩
  | 74 => ⟨S_, .f32⟩
  | 75 => ⟨S256, .f32⟩
  | 76 => ⟨S256, .f32⟩
  | 77 => ⟨S1x256, .f32⟩
  | 78 => ⟨S256, .f32⟩
  | 79 => ⟨S_, .f32⟩
  | 80 => ⟨S256, .f32⟩
  | 81 => ⟨S256, .f32⟩
  | 82 => ⟨S256, .f32⟩
  | 83 => ⟨S256, .f32⟩
  | 84 => ⟨S1x256, .f32⟩
  | 85 => ⟨S256, .f32⟩
  | 86 => ⟨S256, .f32⟩
  | 87 => ⟨S256, .f32⟩
  | 88 => ⟨S1x256, .f32⟩
  | 89 => ⟨S1x256, .f32⟩
  | 90 => ⟨S512x256, .f32⟩
  | 91 => ⟨S1x256x128, .f32⟩
  | 92 => ⟨S256x128, .f32⟩
  | 93 => ⟨S1x128, .f32⟩
  | 94 => ⟨S128, .f32⟩
  | 95 => ⟨S1x128, .f32⟩
  | 96 => ⟨S512x128, .f32⟩
  | 97 => ⟨S_, .f32⟩
  | 98 => ⟨S128, .f32⟩
  | 99 => ⟨S_, .f32⟩
  | 100 => ⟨S128, .f32⟩
  | 101 => ⟨S128, .f32⟩
  | 102 => ⟨S_, .i32⟩
  | 103 => ⟨S_, .f32⟩
  | 104 => ⟨S128, .f32⟩
  | 105 => ⟨S1x128, .f32⟩
  | 106 => ⟨S_, .f32⟩
  | 107 => ⟨S1x128, .f32⟩
  | 108 => ⟨S1x128, .f32⟩
  | 109 => ⟨S512x128, .f32⟩
  | 110 => ⟨S512x128, .f32⟩
  | 111 => ⟨S512x128, .f32⟩
  | 112 => ⟨S_, .f32⟩
  | 113 => ⟨S_, .f32⟩
  | 114 => ⟨S_, .f32⟩
  | 115 => ⟨S_, .f32⟩
  | 116 => ⟨S128, .f32⟩
  | 117 => ⟨S128, .f32⟩
  | 118 => ⟨S128, .f32⟩
  | 119 => ⟨S_, .f32⟩
  | 120 => ⟨S_, .i1⟩
  | 121 => ⟨S_, .f32⟩
  | 122 => ⟨S_, .f32⟩
  | 123 => ⟨S128, .f32⟩
  | 124 => ⟨S128, .f32⟩
  | 125 => ⟨S1x128, .f32⟩
  | 126 => ⟨S128, .f32⟩
  | 127 => ⟨S_, .f32⟩
  | _ => ⟨S50000x128, .f32⟩

abbrev hbmTy0_2 (i : Nat) : BufTy := match i % 128 with
  | 0 => ⟨S128, .f32⟩
  | 1 => ⟨S128, .f32⟩
  | 2 => ⟨S128, .f32⟩
  | 3 => ⟨S128, .f32⟩
  | 4 => ⟨S1x128, .f32⟩
  | 5 => ⟨S128, .f32⟩
  | 6 => ⟨S128, .f32⟩
  | 7 => ⟨S128, .f32⟩
  | 8 => ⟨S1x128, .f32⟩
  | 9 => ⟨S1x128, .f32⟩
  | 10 => ⟨S512x128, .f32⟩
  | 11 => ⟨S_, .i32⟩
  | 12 => ⟨S50000, .i32⟩
  | 13 => ⟨S50000, .i1⟩
  | 14 => ⟨S_, .i32⟩
  | 15 => ⟨S50000, .i32⟩
  | 16 => ⟨S50000, .i32⟩
  | 17 => ⟨S50000, .i32⟩
  | 18 => ⟨S50000x1, .i32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x128, .f32⟩
  | 40 => ⟨S800000x128, .i1⟩
  | 41 => ⟨S_, .f32⟩
  | 42 => ⟨S800000x128, .f32⟩
  | 43 => ⟨S800000x128, .f32⟩
  | 44 => ⟨S1x8x128, .f32⟩
  | 45 => ⟨S8x128, .f32⟩
  | 46 => ⟨S1x128, .f32⟩
  | 47 => ⟨S128, .f32⟩
  | 48 => ⟨S1x128, .f32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S1x128x256, .f32⟩
  | 55 => ⟨S128x256, .f32⟩
  | 56 => ⟨S1x256, .f32⟩
  | 57 => ⟨S256, .f32⟩
  | 58 => ⟨S1x256, .f32⟩
  | 59 => ⟨S50000x256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S50000x256, .f32⟩
  | 73 => ⟨S50000x256, .f32⟩
  | 74 => ⟨S50000x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S256, .f32⟩
  | 90 => ⟨S_, .f32⟩
  | 91 => ⟨S256, .f32⟩
  | 92 => ⟨S256, .f32⟩
  | 93 => ⟨S256, .f32⟩
  | 94 => ⟨S256, .f32⟩
  | 95 => ⟨S1x256, .f32⟩
  | 96 => ⟨S256, .f32⟩
  | 97 => ⟨S256, .f32⟩
  | 98 => ⟨S256, .f32⟩
  | 99 => ⟨S1x256, .f32⟩
  | 100 => ⟨S1x256, .f32⟩
  | 101 => ⟨S50000x256, .f32⟩
  | 102 => ⟨S1x256x128, .f32⟩
  | 103 => ⟨S256x128, .f32⟩
  | 104 => ⟨S1x128, .f32⟩
  | 105 => ⟨S128, .f32⟩
  | 106 => ⟨S1x128, .f32⟩
  | 107 => ⟨S50000x128, .f32⟩
  | 108 => ⟨S_, .f32⟩
  | 109 => ⟨S128, .f32⟩
  | 110 => ⟨S_, .f32⟩
  | 111 => ⟨S128, .f32⟩
  | 112 => ⟨S128, .f32⟩
  | 113 => ⟨S_, .i32⟩
  | 114 => ⟨S_, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S50000x128, .f32⟩
  | 121 => ⟨S50000x128, .f32⟩
  | 122 => ⟨S50000x128, .f32⟩
  | 123 => ⟨S_, .f32⟩
  | 124 => ⟨S_, .f32⟩
  | 125 => ⟨S_, .f32⟩
  | 126 => ⟨S_, .f32⟩
  | 127 => ⟨S128, .f32⟩
  | _ => ⟨S50000x128, .f32⟩

abbrev hbmTy0_3 (i : Nat) : BufTy := match i % 128 with
  | 0 => ⟨S128, .f32⟩
  | 1 => ⟨S128, .f32⟩
  | 2 => ⟨S_, .f32⟩
  | 3 => ⟨S_, .i1⟩
  | 4 => ⟨S_, .f32⟩
  | 5 => ⟨S_, .f32⟩
  | 6 => ⟨S128, .f32⟩
  | 7 => ⟨S128, .f32⟩
  | 8 => ⟨S1x128, .f32⟩
  | 9 => ⟨S128, .f32⟩
  | 10 => ⟨S_, .f32⟩
  | 11 => ⟨S128, .f32⟩
  | 12 => ⟨S128, .f32⟩
  | 13 => ⟨S128, .f32⟩
  | 14 => ⟨S128, .f32⟩
  | 15 => ⟨S1x128, .f32⟩
  | 16 => ⟨S128, .f32⟩
  | 17 => ⟨S128, .f32⟩
  | 18 => ⟨S128, .f32⟩
  | 19 => ⟨S1x128, .f32⟩
  | 20 => ⟨S1x128, .f32⟩
  | 21 => ⟨S50000x128, .f32⟩
  | 22 => ⟨S_, .f32⟩
  | 23 => ⟨S512x128, .f32⟩
  | 24 => ⟨S50000x1, .i32⟩
  | 25 => ⟨S512x128, .f32⟩
  | 26 => ⟨S1x128x256, .f32⟩
  | 27 => ⟨S128x256, .f32⟩
  | 28 => ⟨S1x256, .f32⟩
  | 29 => ⟨S256, .f32⟩
  | 30 => ⟨S1x256, .f32⟩
  | 31 => ⟨S512x256, .f32⟩
  | 32 => ⟨S_, .f32⟩
  | 33 => ⟨S256, .f32⟩
  | 34 => ⟨S_, .f32⟩
  | 35 => ⟨S256, .f32⟩
  | 36 => ⟨S256, .f32⟩
  | 37 => ⟨S_, .i32⟩
  | 38 => ⟨S_, .f32⟩
  | 39 => ⟨S256, .f32⟩
  | 40 => ⟨S1x256, .f32⟩
  | 41 => ⟨S_, .f32⟩
  | 42 => ⟨S1x256, .f32⟩
  | 43 => ⟨S1x256, .f32⟩
  | 44 => ⟨S512x256, .f32⟩
  | 45 => ⟨S512x256, .f32⟩
  | 46 => ⟨S512x256, .f32⟩
  | 47 => ⟨S_, .f32⟩
  | 48 => ⟨S_, .f32⟩
  | 49 => ⟨S_, .f32⟩
  | 50 => ⟨S_, .f32⟩
  | 51 => ⟨S256, .f32⟩
  | 52 => ⟨S256, .f32⟩
  | 53 => ⟨S256, .f32⟩
  | 54 => ⟨S_, .f32⟩
  | 55 => ⟨S_, .i1⟩
  | 56 => ⟨S_, .f32⟩
  | 57 => ⟨S_, .f32⟩
  | 58 => ⟨S256, .f32⟩
  | 59 => ⟨S256, .f32⟩
  | 60 => ⟨S1x256, .f32⟩
  | 61 => ⟨S256, .f32⟩
  | 62 => ⟨S_, .f32⟩
  | 63 => ⟨S256, .f32⟩
  | 64 => ⟨S256, .f32⟩
  | 65 => ⟨S256, .f32⟩
  | 66 => ⟨S256, .f32⟩
  | 67 => ⟨S1x256, .f32⟩
  | 68 => ⟨S256, .f32⟩
  | 69 => ⟨S256, .f32⟩
  | 70 => ⟨S256, .f32⟩
  | 71 => ⟨S1x256, .f32⟩
  | 72 => ⟨S1x256, .f32⟩
  | 73 => ⟨S512x256, .f32⟩
  | 74 => ⟨S1x256x128, .f32⟩
  | 75 => ⟨S256x128, .f32⟩
  | 76 => ⟨S1x128, .f32⟩
  | 77 => ⟨S128, .f32⟩
  | 78 => ⟨S1x128, .f32⟩
  | 79 => ⟨S512x128, .f32⟩
  | 80 => ⟨S_, .f32⟩
  | 81 => ⟨S128, .f32⟩
  | 82 => ⟨S_, .f32⟩
  | 83 => ⟨S128, .f32⟩
  | 84 => ⟨S128, .f32⟩
  | 85 => ⟨S_, .i32⟩
  | 86 => ⟨S_, .f32⟩
  | 87 => ⟨S128, .f32⟩
  | 88 => ⟨S1x128, .f32⟩
  | 89 => ⟨S_, .f32⟩
  | 90 => ⟨S1x128, .f32⟩
  | 91 => ⟨S1x128, .f32⟩
  | 92 => ⟨S512x128, .f32⟩
  | 93 => ⟨S512x128, .f32⟩
  | 94 => ⟨S512x128, .f32⟩
  | 95 => ⟨S_, .f32⟩
  | 96 => ⟨S_, .f32⟩
  | 97 => ⟨S_, .f32⟩
  | 98 => ⟨S_, .f32⟩
  | 99 => ⟨S128, .f32⟩
  | 100 => ⟨S128, .f32⟩
  | 101 => ⟨S128, .f32⟩
  | 102 => ⟨S_, .f32⟩
  | 103 => ⟨S_, .i1⟩
  | 104 => ⟨S_, .f32⟩
  | 105 => ⟨S_, .f32⟩
  | 106 => ⟨S128, .f32⟩
  | 107 => ⟨S128, .f32⟩
  | 108 => ⟨S1x128, .f32⟩
  | 109 => ⟨S128, .f32⟩
  | 110 => ⟨S_, .f32⟩
  | 111 => ⟨S128, .f32⟩
  | 112 => ⟨S128, .f32⟩
  | 113 => ⟨S128, .f32⟩
  | 114 => ⟨S128, .f32⟩
  | 115 => ⟨S1x128, .f32⟩
  | 116 => ⟨S128, .f32⟩
  | 117 => ⟨S128, .f32⟩
  | 118 => ⟨S128, .f32⟩
  | 119 => ⟨S1x128, .f32⟩
  | 120 => ⟨S1x128, .f32⟩
  | 121 => ⟨S512x128, .f32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S50000x128, .f32⟩

abbrev hbmTy0_4 (i : Nat) : BufTy := match i % 128 with
  | 0 => ⟨S50000, .i32⟩
  | 1 => ⟨S50000x1, .i32⟩
  | 2 => ⟨S50000x128, .f32⟩
  | 3 => ⟨S50000x128, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S1, .i32⟩
  | 13 => ⟨S_, .i32⟩
  | 14 => ⟨S800000x1, .i32⟩
  | 15 => ⟨S800000x1, .i1⟩
  | 16 => ⟨S1x1, .i32⟩
  | 17 => ⟨S800000x1, .i32⟩
  | 18 => ⟨S800000x1, .i1⟩
  | 19 => ⟨S800000x1, .i1⟩
  | 20 => ⟨S_, .i1⟩
  | 21 => ⟨S800000, .i1⟩
  | 22 => ⟨S800000x128, .f32⟩
  | 23 => ⟨S800000x128, .i1⟩
  | 24 => ⟨S_, .f32⟩
  | 25 => ⟨S800000x128, .f32⟩
  | 26 => ⟨S800000x128, .f32⟩
  | 27 => ⟨S1x8x128, .f32⟩
  | 28 => ⟨S8x128, .f32⟩
  | 29 => ⟨S1x128, .f32⟩
  | 30 => ⟨S128, .f32⟩
  | 31 => ⟨S1x128, .f32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x256, .f32⟩
  | 38 => ⟨S128x256, .f32⟩
  | 39 => ⟨S1x256, .f32⟩
  | 40 => ⟨S256, .f32⟩
  | 41 => ⟨S1x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S_, .i32⟩
  | 49 => ⟨S_, .f32⟩
  | 50 => ⟨S256, .f32⟩
  | 51 => ⟨S1x256, .f32⟩
  | 52 => ⟨S_, .f32⟩
  | 53 => ⟨S1x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S_, .f32⟩
  | 60 => ⟨S_, .f32⟩
  | 61 => ⟨S_, .f32⟩
  | 62 => ⟨S256, .f32⟩
  | 63 => ⟨S256, .f32⟩
  | 64 => ⟨S256, .f32⟩
  | 65 => ⟨S_, .f32⟩
  | 66 => ⟨S_, .i1⟩
  | 67 => ⟨S_, .f32⟩
  | 68 => ⟨S_, .f32⟩
  | 69 => ⟨S256, .f32⟩
  | 70 => ⟨S256, .f32⟩
  | 71 => ⟨S1x256, .f32⟩
  | 72 => ⟨S256, .f32⟩
  | 73 => ⟨S_, .f32⟩
  | 74 => ⟨S256, .f32⟩
  | 75 => ⟨S256, .f32⟩
  | 76 => ⟨S256, .f32⟩
  | 77 => ⟨S256, .f32⟩
  | 78 => ⟨S1x256, .f32⟩
  | 79 => ⟨S256, .f32⟩
  | 80 => ⟨S256, .f32⟩
  | 81 => ⟨S256, .f32⟩
  | 82 => ⟨S1x256, .f32⟩
  | 83 => ⟨S1x256, .f32⟩
  | 84 => ⟨S50000x256, .f32⟩
  | 85 => ⟨S1x256x128, .f32⟩
  | 86 => ⟨S256x128, .f32⟩
  | 87 => ⟨S1x128, .f32⟩
  | 88 => ⟨S128, .f32⟩
  | 89 => ⟨S1x128, .f32⟩
  | 90 => ⟨S50000x128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S50000x128, .f32⟩
  | 104 => ⟨S50000x128, .f32⟩
  | 105 => ⟨S50000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S128, .f32⟩
  | 121 => ⟨S_, .f32⟩
  | 122 => ⟨S128, .f32⟩
  | 123 => ⟨S128, .f32⟩
  | 124 => ⟨S128, .f32⟩
  | 125 => ⟨S128, .f32⟩
  | 126 => ⟨S1x128, .f32⟩
  | 127 => ⟨S128, .f32⟩
  | _ => ⟨S50000x128, .f32⟩

abbrev hbmTy0_5 (i : Nat) : BufTy := match i % 128 with
  | 0 => ⟨S128, .f32⟩
  | 1 => ⟨S128, .f32⟩
  | 2 => ⟨S1x128, .f32⟩
  | 3 => ⟨S1x128, .f32⟩
  | 4 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev vmemTy0_0 (i : Nat) : BufTy := match i % 128 with
  | 0 => ⟨S8000x128, .f32⟩
  | 1 => ⟨S8000x128, .f32⟩
  | 2 => ⟨S8000x8, .f32⟩
  | 3 => ⟨S8000x8, .f32⟩
  | 4 => ⟨S8x128, .f32⟩
  | 5 => ⟨S1x128, .f32⟩
  | 6 => ⟨S8000x128, .f32⟩
  | 7 => ⟨S8000x128, .f32⟩
  | 8 => ⟨S2000x128, .f32⟩
  | 9 => ⟨S2000x128, .f32⟩
  | 10 => ⟨S2000x128, .f32⟩
  | 11 => ⟨S2000x128, .f32⟩
  | 12 => ⟨S128x256, .f32⟩
  | 13 => ⟨S1x256, .f32⟩
  | 14 => ⟨S2000x256, .f32⟩
  | 15 => ⟨S2000x256, .f32⟩
  | 16 => ⟨S2000x256, .f32⟩
  | 17 => ⟨S2000x256, .f32⟩
  | 18 => ⟨S1x256, .f32⟩
  | 19 => ⟨S1x256, .f32⟩
  | 20 => ⟨S2000x256, .f32⟩
  | 21 => ⟨S2000x256, .f32⟩
  | 22 => ⟨S2000x256, .f32⟩
  | 23 => ⟨S2000x256, .f32⟩
  | 24 => ⟨S256x128, .f32⟩
  | 25 => ⟨S1x128, .f32⟩
  | 26 => ⟨S2000x128, .f32⟩
  | 27 => ⟨S2000x128, .f32⟩
  | 28 => ⟨S2000x128, .f32⟩
  | 29 => ⟨S2000x128, .f32⟩
  | 30 => ⟨S1x128, .f32⟩
  | 31 => ⟨S1x128, .f32⟩
  | 32 => ⟨S2000x128, .f32⟩
  | 33 => ⟨S2000x128, .f32⟩
  | 34 => ⟨S512x128, .f32⟩
  | 35 => ⟨S512x128, .f32⟩
  | 36 => ⟨S128x256, .f32⟩
  | 37 => ⟨S1x256, .f32⟩
  | 38 => ⟨S512x256, .f32⟩
  | 39 => ⟨S512x256, .f32⟩
  | 40 => ⟨S1x256, .f32⟩
  | 41 => ⟨S1x256, .f32⟩
  | 42 => ⟨S512x256, .f32⟩
  | 43 => ⟨S512x256, .f32⟩
  | 44 => ⟨S256x128, .f32⟩
  | 45 => ⟨S1x128, .f32⟩
  | 46 => ⟨S512x128, .f32⟩
  | 47 => ⟨S512x128, .f32⟩
  | 48 => ⟨S1x128, .f32⟩
  | 49 => ⟨S1x128, .f32⟩
  | 50 => ⟨S512x128, .f32⟩
  | 51 => ⟨S8000x128, .f32⟩
  | 52 => ⟨S8000x128, .f32⟩
  | 53 => ⟨S8000x8, .f32⟩
  | 54 => ⟨S8000x8, .f32⟩
  | 55 => ⟨S8x128, .f32⟩
  | 56 => ⟨S1x128, .f32⟩
  | 57 => ⟨S8000x128, .f32⟩
  | 58 => ⟨S8000x128, .f32⟩
  | 59 => ⟨S2000x128, .f32⟩
  | 60 => ⟨S2000x128, .f32⟩
  | 61 => ⟨S2000x128, .f32⟩
  | 62 => ⟨S2000x128, .f32⟩
  | 63 => ⟨S128x256, .f32⟩
  | 64 => ⟨S1x256, .f32⟩
  | 65 => ⟨S2000x256, .f32⟩
  | 66 => ⟨S2000x256, .f32⟩
  | 67 => ⟨S2000x256, .f32⟩
  | 68 => ⟨S2000x256, .f32⟩
  | 69 => ⟨S1x256, .f32⟩
  | 70 => ⟨S1x256, .f32⟩
  | 71 => ⟨S2000x256, .f32⟩
  | 72 => ⟨S2000x256, .f32⟩
  | 73 => ⟨S2000x256, .f32⟩
  | 74 => ⟨S2000x256, .f32⟩
  | 75 => ⟨S256x128, .f32⟩
  | 76 => ⟨S1x128, .f32⟩
  | 77 => ⟨S2000x128, .f32⟩
  | 78 => ⟨S2000x128, .f32⟩
  | 79 => ⟨S2000x128, .f32⟩
  | 80 => ⟨S2000x128, .f32⟩
  | 81 => ⟨S1x128, .f32⟩
  | 82 => ⟨S1x128, .f32⟩
  | 83 => ⟨S2000x128, .f32⟩
  | 84 => ⟨S2000x128, .f32⟩
  | 85 => ⟨S512x128, .f32⟩
  | 86 => ⟨S512x128, .f32⟩
  | 87 => ⟨S128x256, .f32⟩
  | 88 => ⟨S1x256, .f32⟩
  | 89 => ⟨S512x256, .f32⟩
  | 90 => ⟨S512x256, .f32⟩
  | 91 => ⟨S1x256, .f32⟩
  | 92 => ⟨S1x256, .f32⟩
  | 93 => ⟨S512x256, .f32⟩
  | 94 => ⟨S512x256, .f32⟩
  | 95 => ⟨S256x128, .f32⟩
  | 96 => ⟨S1x128, .f32⟩
  | 97 => ⟨S512x128, .f32⟩
  | 98 => ⟨S512x128, .f32⟩
  | 99 => ⟨S1x128, .f32⟩
  | 100 => ⟨S1x128, .f32⟩
  | 101 => ⟨S512x128, .f32⟩
  | 102 => ⟨S8000x128, .f32⟩
  | 103 => ⟨S8000x128, .f32⟩
  | 104 => ⟨S8000x8, .f32⟩
  | 105 => ⟨S8000x8, .f32⟩
  | 106 => ⟨S8x128, .f32⟩
  | 107 => ⟨S1x128, .f32⟩
  | 108 => ⟨S8000x128, .f32⟩
  | 109 => ⟨S8000x128, .f32⟩
  | 110 => ⟨S2000x128, .f32⟩
  | 111 => ⟨S2000x128, .f32⟩
  | 112 => ⟨S2000x128, .f32⟩
  | 113 => ⟨S2000x128, .f32⟩
  | 114 => ⟨S128x256, .f32⟩
  | 115 => ⟨S1x256, .f32⟩
  | 116 => ⟨S2000x256, .f32⟩
  | 117 => ⟨S2000x256, .f32⟩
  | 118 => ⟨S2000x256, .f32⟩
  | 119 => ⟨S2000x256, .f32⟩
  | 120 => ⟨S1x256, .f32⟩
  | 121 => ⟨S1x256, .f32⟩
  | 122 => ⟨S2000x256, .f32⟩
  | 123 => ⟨S2000x256, .f32⟩
  | 124 => ⟨S2000x256, .f32⟩
  | 125 => ⟨S2000x256, .f32⟩
  | 126 => ⟨S256x128, .f32⟩
  | 127 => ⟨S1x128, .f32⟩
  | _ => ⟨S50000x128, .f32⟩

abbrev vmemTy0_1 (i : Nat) : BufTy := match i % 128 with
  | 0 => ⟨S2000x128, .f32⟩
  | 1 => ⟨S2000x128, .f32⟩
  | 2 => ⟨S2000x128, .f32⟩
  | 3 => ⟨S2000x128, .f32⟩
  | 4 => ⟨S1x128, .f32⟩
  | 5 => ⟨S1x128, .f32⟩
  | 6 => ⟨S2000x128, .f32⟩
  | 7 => ⟨S2000x128, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 136 → Bool
  | ⟨i, _⟩ => dmaSemScopedAt i

abbrev sig : RefSig :=
  ofTc nBuf bufTy 0 136 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_c_1 : Ref sig .tc := ⟨.hbm, 46, rfl⟩
abbrev main_call0_c_2 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_3 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_call0_cst : Ref sig .tc := ⟨.hbm, 58, rfl⟩
abbrev main_call0_v15 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_cst_1 : Ref sig .tc := ⟨.hbm, 77, rfl⟩
abbrev main_v29 : Ref sig .tc := ⟨.hbm, 78, rfl⟩
abbrev main_cst_2 : Ref sig .tc := ⟨.hbm, 79, rfl⟩
abbrev main_v30 : Ref sig .tc := ⟨.hbm, 80, rfl⟩
abbrev main_v31 : Ref sig .tc := ⟨.hbm, 81, rfl⟩
abbrev main_c_3 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_cst_3 : Ref sig .tc := ⟨.hbm, 99, rfl⟩
abbrev main_call1_v12 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v32 : Ref sig .tc := ⟨.hbm, 104, rfl⟩
abbrev main_v33 : Ref sig .tc := ⟨.hbm, 105, rfl⟩
abbrev main_v34 : Ref sig .tc := ⟨.hbm, 106, rfl⟩
abbrev main_cst_4 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_cst_5 : Ref sig .tc := ⟨.hbm, 125, rfl⟩
abbrev main_v52 : Ref sig .tc := ⟨.hbm, 126, rfl⟩
abbrev main_cst_6 : Ref sig .tc := ⟨.hbm, 127, rfl⟩
abbrev main_v53 : Ref sig .tc := ⟨.hbm, 128, rfl⟩
abbrev main_v54 : Ref sig .tc := ⟨.hbm, 129, rfl⟩
abbrev main_c_7 : Ref sig .tc := ⟨.hbm, 130, rfl⟩
abbrev main_call2_cst : Ref sig .tc := ⟨.hbm, 131, rfl⟩
abbrev main_call2_v0 : Ref sig .tc := ⟨.hbm, 132, rfl⟩
abbrev main_call2_v1 : Ref sig .tc := ⟨.hbm, 133, rfl⟩
abbrev main_call2_cst_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_v6 : Ref sig .tc := ⟨.hbm, 139, rfl⟩
abbrev main_call2_v7 : Ref sig .tc := ⟨.hbm, 140, rfl⟩
abbrev main_call2_cst_1 : Ref sig .tc := ⟨.hbm, 141, rfl⟩
abbrev main_call2_v8 : Ref sig .tc := ⟨.hbm, 142, rfl⟩
abbrev main_call2_cst_2 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_cst_3 : Ref sig .tc := ⟨.hbm, 147, rfl⟩
abbrev main_call2_v12 : Ref sig .tc := ⟨.hbm, 148, rfl⟩
abbrev main_call2_cst_4 : Ref sig .tc := ⟨.hbm, 149, rfl⟩
abbrev main_call2_call0_v0 : Ref sig .tc := ⟨.hbm, 150, rfl⟩
abbrev main_call2_call0_v1 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_cst_8 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_cst_9 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_cst_10 : Ref sig .tc := ⟨.hbm, 177, rfl⟩
abbrev main_v78 : Ref sig .tc := ⟨.hbm, 178, rfl⟩
abbrev main_cst_11 : Ref sig .tc := ⟨.hbm, 179, rfl⟩
abbrev main_v79 : Ref sig .tc := ⟨.hbm, 180, rfl⟩
abbrev main_v80 : Ref sig .tc := ⟨.hbm, 181, rfl⟩
abbrev main_c_12 : Ref sig .tc := ⟨.hbm, 182, rfl⟩
abbrev main_call3_cst : Ref sig .tc := ⟨.hbm, 183, rfl⟩
abbrev main_call3_v0 : Ref sig .tc := ⟨.hbm, 184, rfl⟩
abbrev main_call3_v1 : Ref sig .tc := ⟨.hbm, 185, rfl⟩
abbrev main_call3_cst_0 : Ref sig .tc := ⟨.hbm, 186, rfl⟩
abbrev main_call3_v2 : Ref sig .tc := ⟨.hbm, 187, rfl⟩
abbrev main_call3_v3 : Ref sig .tc := ⟨.hbm, 188, rfl⟩
abbrev main_call3_v4 : Ref sig .tc := ⟨.hbm, 189, rfl⟩
abbrev main_call3_v5 : Ref sig .tc := ⟨.hbm, 190, rfl⟩
abbrev main_call3_v6 : Ref sig .tc := ⟨.hbm, 191, rfl⟩
abbrev main_call3_v7 : Ref sig .tc := ⟨.hbm, 192, rfl⟩
abbrev main_call3_cst_1 : Ref sig .tc := ⟨.hbm, 193, rfl⟩
abbrev main_call3_v8 : Ref sig .tc := ⟨.hbm, 194, rfl⟩
abbrev main_call3_cst_2 : Ref sig .tc := ⟨.hbm, 195, rfl⟩
abbrev main_call3_v9 : Ref sig .tc := ⟨.hbm, 196, rfl⟩
abbrev main_call3_v10 : Ref sig .tc := ⟨.hbm, 197, rfl⟩
abbrev main_call3_v11 : Ref sig .tc := ⟨.hbm, 198, rfl⟩
abbrev main_call3_cst_3 : Ref sig .tc := ⟨.hbm, 199, rfl⟩
abbrev main_call3_v12 : Ref sig .tc := ⟨.hbm, 200, rfl⟩
abbrev main_call3_cst_4 : Ref sig .tc := ⟨.hbm, 201, rfl⟩
abbrev main_call3_call0_v0 : Ref sig .tc := ⟨.hbm, 202, rfl⟩
abbrev main_call3_call0_v1 : Ref sig .tc := ⟨.hbm, 203, rfl⟩
abbrev main_v81 : Ref sig .tc := ⟨.hbm, 204, rfl⟩
abbrev main_v82 : Ref sig .tc := ⟨.hbm, 205, rfl⟩
abbrev main_v83 : Ref sig .tc := ⟨.hbm, 206, rfl⟩
abbrev main_cst_13 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_v88 : Ref sig .tc := ⟨.hbm, 212, rfl⟩
abbrev main_v89 : Ref sig .tc := ⟨.hbm, 213, rfl⟩
abbrev main_v90 : Ref sig .tc := ⟨.hbm, 214, rfl⟩
abbrev main_v91 : Ref sig .tc := ⟨.hbm, 215, rfl⟩
abbrev main_v92 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_cst_14 : Ref sig .tc := ⟨.hbm, 225, rfl⟩
abbrev main_v101 : Ref sig .tc := ⟨.hbm, 226, rfl⟩
abbrev main_cst_15 : Ref sig .tc := ⟨.hbm, 227, rfl⟩
abbrev main_v102 : Ref sig .tc := ⟨.hbm, 228, rfl⟩
abbrev main_v103 : Ref sig .tc := ⟨.hbm, 229, rfl⟩
abbrev main_c_16 : Ref sig .tc := ⟨.hbm, 230, rfl⟩
abbrev main_call4_cst : Ref sig .tc := ⟨.hbm, 231, rfl⟩
abbrev main_call4_v0 : Ref sig .tc := ⟨.hbm, 232, rfl⟩
abbrev main_call4_v1 : Ref sig .tc := ⟨.hbm, 233, rfl⟩
abbrev main_call4_cst_0 : Ref sig .tc := ⟨.hbm, 234, rfl⟩
abbrev main_call4_v2 : Ref sig .tc := ⟨.hbm, 235, rfl⟩
abbrev main_call4_v3 : Ref sig .tc := ⟨.hbm, 236, rfl⟩
abbrev main_call4_v4 : Ref sig .tc := ⟨.hbm, 237, rfl⟩
abbrev main_call4_v5 : Ref sig .tc := ⟨.hbm, 238, rfl⟩
abbrev main_call4_v6 : Ref sig .tc := ⟨.hbm, 239, rfl⟩
abbrev main_call4_v7 : Ref sig .tc := ⟨.hbm, 240, rfl⟩
abbrev main_call4_cst_1 : Ref sig .tc := ⟨.hbm, 241, rfl⟩
abbrev main_call4_v8 : Ref sig .tc := ⟨.hbm, 242, rfl⟩
abbrev main_call4_cst_2 : Ref sig .tc := ⟨.hbm, 243, rfl⟩
abbrev main_call4_v9 : Ref sig .tc := ⟨.hbm, 244, rfl⟩
abbrev main_call4_v10 : Ref sig .tc := ⟨.hbm, 245, rfl⟩
abbrev main_call4_v11 : Ref sig .tc := ⟨.hbm, 246, rfl⟩
abbrev main_call4_cst_3 : Ref sig .tc := ⟨.hbm, 247, rfl⟩
abbrev main_call4_v12 : Ref sig .tc := ⟨.hbm, 248, rfl⟩
abbrev main_call4_cst_4 : Ref sig .tc := ⟨.hbm, 249, rfl⟩
abbrev main_call4_call0_v0 : Ref sig .tc := ⟨.hbm, 250, rfl⟩
abbrev main_call4_call0_v1 : Ref sig .tc := ⟨.hbm, 251, rfl⟩
abbrev main_v104 : Ref sig .tc := ⟨.hbm, 252, rfl⟩
abbrev main_v105 : Ref sig .tc := ⟨.hbm, 253, rfl⟩
abbrev main_v106 : Ref sig .tc := ⟨.hbm, 254, rfl⟩
abbrev main_cst_17 : Ref sig .tc := ⟨.hbm, 255, rfl⟩
abbrev main_v107 : Ref sig .tc := ⟨.hbm, 256, rfl⟩
abbrev main_v108 : Ref sig .tc := ⟨.hbm, 257, rfl⟩
abbrev main_v109 : Ref sig .tc := ⟨.hbm, 258, rfl⟩
abbrev main_v110 : Ref sig .tc := ⟨.hbm, 259, rfl⟩
abbrev main_v111 : Ref sig .tc := ⟨.hbm, 260, rfl⟩
abbrev main_v112 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_v116 : Ref sig .tc := ⟨.hbm, 265, rfl⟩
abbrev main_v117 : Ref sig .tc := ⟨.hbm, 266, rfl⟩
abbrev main_c_18 : Ref sig .tc := ⟨.hbm, 267, rfl⟩
abbrev main_v118 : Ref sig .tc := ⟨.hbm, 268, rfl⟩
abbrev main_v119 : Ref sig .tc := ⟨.hbm, 269, rfl⟩
abbrev main_c_19 : Ref sig .tc := ⟨.hbm, 270, rfl⟩
abbrev main_v120 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩
abbrev main_v124 : Ref sig .tc := ⟨.hbm, 275, rfl⟩
abbrev main_v125 : Ref sig .tc := ⟨.hbm, 276, rfl⟩
abbrev main_call5_c : Ref sig .tc := ⟨.hbm, 277, rfl⟩
abbrev main_call5_v0 : Ref sig .tc := ⟨.hbm, 278, rfl⟩
abbrev main_call5_v1 : Ref sig .tc := ⟨.hbm, 279, rfl⟩
abbrev main_call5_c_0 : Ref sig .tc := ⟨.hbm, 280, rfl⟩
abbrev main_call5_v2 : Ref sig .tc := ⟨.hbm, 281, rfl⟩
abbrev main_call5_v3 : Ref sig .tc := ⟨.hbm, 282, rfl⟩
abbrev main_call5_v4 : Ref sig .tc := ⟨.hbm, 283, rfl⟩
abbrev main_call5_v5 : Ref sig .tc := ⟨.hbm, 284, rfl⟩
abbrev main_call5_c_1 : Ref sig .tc := ⟨.hbm, 285, rfl⟩
abbrev main_call5_c_2 : Ref sig .tc := ⟨.hbm, 286, rfl⟩
abbrev main_call5_v6 : Ref sig .tc := ⟨.hbm, 287, rfl⟩
abbrev main_call5_v7 : Ref sig .tc := ⟨.hbm, 288, rfl⟩
abbrev main_call5_v8 : Ref sig .tc := ⟨.hbm, 289, rfl⟩
abbrev main_call5_v9 : Ref sig .tc := ⟨.hbm, 290, rfl⟩
abbrev main_call5_v10 : Ref sig .tc := ⟨.hbm, 291, rfl⟩
abbrev main_call5_v11 : Ref sig .tc := ⟨.hbm, 292, rfl⟩
abbrev main_call5_c_3 : Ref sig .tc := ⟨.hbm, 293, rfl⟩
abbrev main_call5_v12 : Ref sig .tc := ⟨.hbm, 294, rfl⟩
abbrev main_call5_v13 : Ref sig .tc := ⟨.hbm, 295, rfl⟩
abbrev main_call5_v14 : Ref sig .tc := ⟨.hbm, 296, rfl⟩
abbrev main_call5_cst : Ref sig .tc := ⟨.hbm, 297, rfl⟩
abbrev main_call5_v15 : Ref sig .tc := ⟨.hbm, 298, rfl⟩
abbrev main_v126 : Ref sig .tc := ⟨.hbm, 299, rfl⟩
abbrev main_v127 : Ref sig .tc := ⟨.hbm, 300, rfl⟩
abbrev main_v128 : Ref sig .tc := ⟨.hbm, 301, rfl⟩
abbrev main_v129 : Ref sig .tc := ⟨.hbm, 302, rfl⟩
abbrev main_v130 : Ref sig .tc := ⟨.hbm, 303, rfl⟩
abbrev main_v131 : Ref sig .tc := ⟨.hbm, 304, rfl⟩
abbrev main_v132 : Ref sig .tc := ⟨.hbm, 305, rfl⟩
abbrev main_cst_20 : Ref sig .tc := ⟨.hbm, 306, rfl⟩
abbrev main_v133 : Ref sig .tc := ⟨.hbm, 307, rfl⟩
abbrev main_v134 : Ref sig .tc := ⟨.hbm, 308, rfl⟩
abbrev main_v135 : Ref sig .tc := ⟨.hbm, 309, rfl⟩
abbrev main_v136 : Ref sig .tc := ⟨.hbm, 310, rfl⟩
abbrev main_v137 : Ref sig .tc := ⟨.hbm, 311, rfl⟩
abbrev main_v138 : Ref sig .tc := ⟨.hbm, 312, rfl⟩
abbrev main_v139 : Ref sig .tc := ⟨.hbm, 313, rfl⟩
abbrev main_v140 : Ref sig .tc := ⟨.hbm, 314, rfl⟩
abbrev main_v141 : Ref sig .tc := ⟨.hbm, 315, rfl⟩
abbrev main_cst_21 : Ref sig .tc := ⟨.hbm, 316, rfl⟩
abbrev main_v142 : Ref sig .tc := ⟨.hbm, 317, rfl⟩
abbrev main_cst_22 : Ref sig .tc := ⟨.hbm, 318, rfl⟩
abbrev main_v143 : Ref sig .tc := ⟨.hbm, 319, rfl⟩
abbrev main_v144 : Ref sig .tc := ⟨.hbm, 320, rfl⟩
abbrev main_c_23 : Ref sig .tc := ⟨.hbm, 321, rfl⟩
abbrev main_call6_cst : Ref sig .tc := ⟨.hbm, 322, rfl⟩
abbrev main_call6_v0 : Ref sig .tc := ⟨.hbm, 323, rfl⟩
abbrev main_call6_v1 : Ref sig .tc := ⟨.hbm, 324, rfl⟩
abbrev main_call6_cst_0 : Ref sig .tc := ⟨.hbm, 325, rfl⟩
abbrev main_call6_v2 : Ref sig .tc := ⟨.hbm, 326, rfl⟩
abbrev main_call6_v3 : Ref sig .tc := ⟨.hbm, 327, rfl⟩
abbrev main_call6_v4 : Ref sig .tc := ⟨.hbm, 328, rfl⟩
abbrev main_call6_v5 : Ref sig .tc := ⟨.hbm, 329, rfl⟩
abbrev main_call6_v6 : Ref sig .tc := ⟨.hbm, 330, rfl⟩
abbrev main_call6_v7 : Ref sig .tc := ⟨.hbm, 331, rfl⟩
abbrev main_call6_cst_1 : Ref sig .tc := ⟨.hbm, 332, rfl⟩
abbrev main_call6_v8 : Ref sig .tc := ⟨.hbm, 333, rfl⟩
abbrev main_call6_cst_2 : Ref sig .tc := ⟨.hbm, 334, rfl⟩
abbrev main_call6_v9 : Ref sig .tc := ⟨.hbm, 335, rfl⟩
abbrev main_call6_v10 : Ref sig .tc := ⟨.hbm, 336, rfl⟩
abbrev main_call6_v11 : Ref sig .tc := ⟨.hbm, 337, rfl⟩
abbrev main_call6_cst_3 : Ref sig .tc := ⟨.hbm, 338, rfl⟩
abbrev main_call6_v12 : Ref sig .tc := ⟨.hbm, 339, rfl⟩
abbrev main_call6_cst_4 : Ref sig .tc := ⟨.hbm, 340, rfl⟩
abbrev main_call6_call0_v0 : Ref sig .tc := ⟨.hbm, 341, rfl⟩
abbrev main_call6_call0_v1 : Ref sig .tc := ⟨.hbm, 342, rfl⟩
abbrev main_v145 : Ref sig .tc := ⟨.hbm, 343, rfl⟩
abbrev main_v146 : Ref sig .tc := ⟨.hbm, 344, rfl⟩
abbrev main_v147 : Ref sig .tc := ⟨.hbm, 345, rfl⟩
abbrev main_cst_24 : Ref sig .tc := ⟨.hbm, 346, rfl⟩
abbrev main_v148 : Ref sig .tc := ⟨.hbm, 347, rfl⟩
abbrev main_v149 : Ref sig .tc := ⟨.hbm, 348, rfl⟩
abbrev main_v150 : Ref sig .tc := ⟨.hbm, 349, rfl⟩
abbrev main_v151 : Ref sig .tc := ⟨.hbm, 350, rfl⟩
abbrev main_v152 : Ref sig .tc := ⟨.hbm, 351, rfl⟩
abbrev main_v153 : Ref sig .tc := ⟨.hbm, 352, rfl⟩
abbrev main_v154 : Ref sig .tc := ⟨.hbm, 353, rfl⟩
abbrev main_v155 : Ref sig .tc := ⟨.hbm, 354, rfl⟩
abbrev main_v156 : Ref sig .tc := ⟨.hbm, 355, rfl⟩
abbrev main_v157 : Ref sig .tc := ⟨.hbm, 356, rfl⟩
abbrev main_v158 : Ref sig .tc := ⟨.hbm, 357, rfl⟩
abbrev main_v159 : Ref sig .tc := ⟨.hbm, 358, rfl⟩
abbrev main_v160 : Ref sig .tc := ⟨.hbm, 359, rfl⟩
abbrev main_v161 : Ref sig .tc := ⟨.hbm, 360, rfl⟩
abbrev main_v162 : Ref sig .tc := ⟨.hbm, 361, rfl⟩
abbrev main_v163 : Ref sig .tc := ⟨.hbm, 362, rfl⟩
abbrev main_v164 : Ref sig .tc := ⟨.hbm, 363, rfl⟩
abbrev main_cst_25 : Ref sig .tc := ⟨.hbm, 364, rfl⟩
abbrev main_v165 : Ref sig .tc := ⟨.hbm, 365, rfl⟩
abbrev main_cst_26 : Ref sig .tc := ⟨.hbm, 366, rfl⟩
abbrev main_v166 : Ref sig .tc := ⟨.hbm, 367, rfl⟩
abbrev main_v167 : Ref sig .tc := ⟨.hbm, 368, rfl⟩
abbrev main_c_27 : Ref sig .tc := ⟨.hbm, 369, rfl⟩
abbrev main_call7_cst : Ref sig .tc := ⟨.hbm, 370, rfl⟩
abbrev main_call7_v0 : Ref sig .tc := ⟨.hbm, 371, rfl⟩
abbrev main_call7_v1 : Ref sig .tc := ⟨.hbm, 372, rfl⟩
abbrev main_call7_cst_0 : Ref sig .tc := ⟨.hbm, 373, rfl⟩
abbrev main_call7_v2 : Ref sig .tc := ⟨.hbm, 374, rfl⟩
abbrev main_call7_v3 : Ref sig .tc := ⟨.hbm, 375, rfl⟩
abbrev main_call7_v4 : Ref sig .tc := ⟨.hbm, 376, rfl⟩
abbrev main_call7_v5 : Ref sig .tc := ⟨.hbm, 377, rfl⟩
abbrev main_call7_v6 : Ref sig .tc := ⟨.hbm, 378, rfl⟩
abbrev main_call7_v7 : Ref sig .tc := ⟨.hbm, 379, rfl⟩
abbrev main_call7_cst_1 : Ref sig .tc := ⟨.hbm, 380, rfl⟩
abbrev main_call7_v8 : Ref sig .tc := ⟨.hbm, 381, rfl⟩
abbrev main_call7_cst_2 : Ref sig .tc := ⟨.hbm, 382, rfl⟩
abbrev main_call7_v9 : Ref sig .tc := ⟨.hbm, 383, rfl⟩
abbrev main_call7_v10 : Ref sig .tc := ⟨.hbm, 384, rfl⟩
abbrev main_call7_v11 : Ref sig .tc := ⟨.hbm, 385, rfl⟩
abbrev main_call7_cst_3 : Ref sig .tc := ⟨.hbm, 386, rfl⟩
abbrev main_call7_v12 : Ref sig .tc := ⟨.hbm, 387, rfl⟩
abbrev main_call7_cst_4 : Ref sig .tc := ⟨.hbm, 388, rfl⟩
abbrev main_call7_call0_v0 : Ref sig .tc := ⟨.hbm, 389, rfl⟩
abbrev main_call7_call0_v1 : Ref sig .tc := ⟨.hbm, 390, rfl⟩
abbrev main_v168 : Ref sig .tc := ⟨.hbm, 391, rfl⟩
abbrev main_v169 : Ref sig .tc := ⟨.hbm, 392, rfl⟩
abbrev main_v170 : Ref sig .tc := ⟨.hbm, 393, rfl⟩
abbrev main_cst_28 : Ref sig .tc := ⟨.hbm, 394, rfl⟩
abbrev main_v171 : Ref sig .tc := ⟨.hbm, 395, rfl⟩
abbrev main_v172 : Ref sig .tc := ⟨.hbm, 396, rfl⟩
abbrev main_v173 : Ref sig .tc := ⟨.hbm, 397, rfl⟩
abbrev main_v174 : Ref sig .tc := ⟨.hbm, 398, rfl⟩
abbrev main_v175 : Ref sig .tc := ⟨.hbm, 399, rfl⟩
abbrev main_v176 : Ref sig .tc := ⟨.hbm, 400, rfl⟩
abbrev main_v177 : Ref sig .tc := ⟨.hbm, 401, rfl⟩
abbrev main_v178 : Ref sig .tc := ⟨.hbm, 402, rfl⟩
abbrev main_v179 : Ref sig .tc := ⟨.hbm, 403, rfl⟩
abbrev main_v180 : Ref sig .tc := ⟨.hbm, 404, rfl⟩
abbrev main_v181 : Ref sig .tc := ⟨.hbm, 405, rfl⟩
abbrev main_cst_29 : Ref sig .tc := ⟨.hbm, 406, rfl⟩
abbrev main_v182 : Ref sig .tc := ⟨.hbm, 407, rfl⟩
abbrev main_v183 : Ref sig .tc := ⟨.hbm, 408, rfl⟩
abbrev main_v184 : Ref sig .tc := ⟨.hbm, 409, rfl⟩
abbrev main_v185 : Ref sig .tc := ⟨.hbm, 410, rfl⟩
abbrev main_v186 : Ref sig .tc := ⟨.hbm, 411, rfl⟩
abbrev main_v187 : Ref sig .tc := ⟨.hbm, 412, rfl⟩
abbrev main_v188 : Ref sig .tc := ⟨.hbm, 413, rfl⟩
abbrev main_v189 : Ref sig .tc := ⟨.hbm, 414, rfl⟩
abbrev main_v190 : Ref sig .tc := ⟨.hbm, 415, rfl⟩
abbrev main_cst_30 : Ref sig .tc := ⟨.hbm, 416, rfl⟩
abbrev main_v191 : Ref sig .tc := ⟨.hbm, 417, rfl⟩
abbrev main_cst_31 : Ref sig .tc := ⟨.hbm, 418, rfl⟩
abbrev main_v192 : Ref sig .tc := ⟨.hbm, 419, rfl⟩
abbrev main_v193 : Ref sig .tc := ⟨.hbm, 420, rfl⟩
abbrev main_c_32 : Ref sig .tc := ⟨.hbm, 421, rfl⟩
abbrev main_call8_cst : Ref sig .tc := ⟨.hbm, 422, rfl⟩
abbrev main_call8_v0 : Ref sig .tc := ⟨.hbm, 423, rfl⟩
abbrev main_call8_v1 : Ref sig .tc := ⟨.hbm, 424, rfl⟩
abbrev main_call8_cst_0 : Ref sig .tc := ⟨.hbm, 425, rfl⟩
abbrev main_call8_v2 : Ref sig .tc := ⟨.hbm, 426, rfl⟩
abbrev main_call8_v3 : Ref sig .tc := ⟨.hbm, 427, rfl⟩
abbrev main_call8_v4 : Ref sig .tc := ⟨.hbm, 428, rfl⟩
abbrev main_call8_v5 : Ref sig .tc := ⟨.hbm, 429, rfl⟩
abbrev main_call8_v6 : Ref sig .tc := ⟨.hbm, 430, rfl⟩
abbrev main_call8_v7 : Ref sig .tc := ⟨.hbm, 431, rfl⟩
abbrev main_call8_cst_1 : Ref sig .tc := ⟨.hbm, 432, rfl⟩
abbrev main_call8_v8 : Ref sig .tc := ⟨.hbm, 433, rfl⟩
abbrev main_call8_cst_2 : Ref sig .tc := ⟨.hbm, 434, rfl⟩
abbrev main_call8_v9 : Ref sig .tc := ⟨.hbm, 435, rfl⟩
abbrev main_call8_v10 : Ref sig .tc := ⟨.hbm, 436, rfl⟩
abbrev main_call8_v11 : Ref sig .tc := ⟨.hbm, 437, rfl⟩
abbrev main_call8_cst_3 : Ref sig .tc := ⟨.hbm, 438, rfl⟩
abbrev main_call8_v12 : Ref sig .tc := ⟨.hbm, 439, rfl⟩
abbrev main_call8_cst_4 : Ref sig .tc := ⟨.hbm, 440, rfl⟩
abbrev main_call8_call0_v0 : Ref sig .tc := ⟨.hbm, 441, rfl⟩
abbrev main_call8_call0_v1 : Ref sig .tc := ⟨.hbm, 442, rfl⟩
abbrev main_v194 : Ref sig .tc := ⟨.hbm, 443, rfl⟩
abbrev main_v195 : Ref sig .tc := ⟨.hbm, 444, rfl⟩
abbrev main_v196 : Ref sig .tc := ⟨.hbm, 445, rfl⟩
abbrev main_cst_33 : Ref sig .tc := ⟨.hbm, 446, rfl⟩
abbrev main_v197 : Ref sig .tc := ⟨.hbm, 447, rfl⟩
abbrev main_v198 : Ref sig .tc := ⟨.hbm, 448, rfl⟩
abbrev main_v199 : Ref sig .tc := ⟨.hbm, 449, rfl⟩
abbrev main_v200 : Ref sig .tc := ⟨.hbm, 450, rfl⟩
abbrev main_v201 : Ref sig .tc := ⟨.hbm, 451, rfl⟩
abbrev main_v202 : Ref sig .tc := ⟨.hbm, 452, rfl⟩
abbrev main_v203 : Ref sig .tc := ⟨.hbm, 453, rfl⟩
abbrev main_v204 : Ref sig .tc := ⟨.hbm, 454, rfl⟩
abbrev main_v205 : Ref sig .tc := ⟨.hbm, 455, rfl⟩
abbrev main_v206 : Ref sig .tc := ⟨.hbm, 456, rfl⟩
abbrev main_v207 : Ref sig .tc := ⟨.hbm, 457, rfl⟩
abbrev main_v208 : Ref sig .tc := ⟨.hbm, 458, rfl⟩
abbrev main_v209 : Ref sig .tc := ⟨.hbm, 459, rfl⟩
abbrev main_v210 : Ref sig .tc := ⟨.hbm, 460, rfl⟩
abbrev main_v211 : Ref sig .tc := ⟨.hbm, 461, rfl⟩
abbrev main_v212 : Ref sig .tc := ⟨.hbm, 462, rfl⟩
abbrev main_v213 : Ref sig .tc := ⟨.hbm, 463, rfl⟩
abbrev main_cst_34 : Ref sig .tc := ⟨.hbm, 464, rfl⟩
abbrev main_v214 : Ref sig .tc := ⟨.hbm, 465, rfl⟩
abbrev main_cst_35 : Ref sig .tc := ⟨.hbm, 466, rfl⟩
abbrev main_v215 : Ref sig .tc := ⟨.hbm, 467, rfl⟩
abbrev main_v216 : Ref sig .tc := ⟨.hbm, 468, rfl⟩
abbrev main_c_36 : Ref sig .tc := ⟨.hbm, 469, rfl⟩
abbrev main_call9_cst : Ref sig .tc := ⟨.hbm, 470, rfl⟩
abbrev main_call9_v0 : Ref sig .tc := ⟨.hbm, 471, rfl⟩
abbrev main_call9_v1 : Ref sig .tc := ⟨.hbm, 472, rfl⟩
abbrev main_call9_cst_0 : Ref sig .tc := ⟨.hbm, 473, rfl⟩
abbrev main_call9_v2 : Ref sig .tc := ⟨.hbm, 474, rfl⟩
abbrev main_call9_v3 : Ref sig .tc := ⟨.hbm, 475, rfl⟩
abbrev main_call9_v4 : Ref sig .tc := ⟨.hbm, 476, rfl⟩
abbrev main_call9_v5 : Ref sig .tc := ⟨.hbm, 477, rfl⟩
abbrev main_call9_v6 : Ref sig .tc := ⟨.hbm, 478, rfl⟩
abbrev main_call9_v7 : Ref sig .tc := ⟨.hbm, 479, rfl⟩
abbrev main_call9_cst_1 : Ref sig .tc := ⟨.hbm, 480, rfl⟩
abbrev main_call9_v8 : Ref sig .tc := ⟨.hbm, 481, rfl⟩
abbrev main_call9_cst_2 : Ref sig .tc := ⟨.hbm, 482, rfl⟩
abbrev main_call9_v9 : Ref sig .tc := ⟨.hbm, 483, rfl⟩
abbrev main_call9_v10 : Ref sig .tc := ⟨.hbm, 484, rfl⟩
abbrev main_call9_v11 : Ref sig .tc := ⟨.hbm, 485, rfl⟩
abbrev main_call9_cst_3 : Ref sig .tc := ⟨.hbm, 486, rfl⟩
abbrev main_call9_v12 : Ref sig .tc := ⟨.hbm, 487, rfl⟩
abbrev main_call9_cst_4 : Ref sig .tc := ⟨.hbm, 488, rfl⟩
abbrev main_call9_call0_v0 : Ref sig .tc := ⟨.hbm, 489, rfl⟩
abbrev main_call9_call0_v1 : Ref sig .tc := ⟨.hbm, 490, rfl⟩
abbrev main_v217 : Ref sig .tc := ⟨.hbm, 491, rfl⟩
abbrev main_v218 : Ref sig .tc := ⟨.hbm, 492, rfl⟩
abbrev main_v219 : Ref sig .tc := ⟨.hbm, 493, rfl⟩
abbrev main_cst_37 : Ref sig .tc := ⟨.hbm, 494, rfl⟩
abbrev main_v220 : Ref sig .tc := ⟨.hbm, 495, rfl⟩
abbrev main_v221 : Ref sig .tc := ⟨.hbm, 496, rfl⟩
abbrev main_v222 : Ref sig .tc := ⟨.hbm, 497, rfl⟩
abbrev main_v223 : Ref sig .tc := ⟨.hbm, 498, rfl⟩
abbrev main_v224 : Ref sig .tc := ⟨.hbm, 499, rfl⟩
abbrev main_v225 : Ref sig .tc := ⟨.hbm, 500, rfl⟩
abbrev main_v226 : Ref sig .tc := ⟨.hbm, 501, rfl⟩
abbrev main_v227 : Ref sig .tc := ⟨.hbm, 502, rfl⟩
abbrev main_v228 : Ref sig .tc := ⟨.hbm, 503, rfl⟩
abbrev main_v229 : Ref sig .tc := ⟨.hbm, 504, rfl⟩
abbrev main_v230 : Ref sig .tc := ⟨.hbm, 505, rfl⟩
abbrev main_c_38 : Ref sig .tc := ⟨.hbm, 506, rfl⟩
abbrev main_v231 : Ref sig .tc := ⟨.hbm, 507, rfl⟩
abbrev main_v232 : Ref sig .tc := ⟨.hbm, 508, rfl⟩
abbrev main_c_39 : Ref sig .tc := ⟨.hbm, 509, rfl⟩
abbrev main_v233 : Ref sig .tc := ⟨.hbm, 510, rfl⟩
abbrev main_v234 : Ref sig .tc := ⟨.hbm, 511, rfl⟩
abbrev main_v235 : Ref sig .tc := ⟨.hbm, 512, rfl⟩
abbrev main_v236 : Ref sig .tc := ⟨.hbm, 513, rfl⟩
abbrev main_v237 : Ref sig .tc := ⟨.hbm, 514, rfl⟩
abbrev main_v238 : Ref sig .tc := ⟨.hbm, 515, rfl⟩
abbrev main_call10_c : Ref sig .tc := ⟨.hbm, 516, rfl⟩
abbrev main_call10_v0 : Ref sig .tc := ⟨.hbm, 517, rfl⟩
abbrev main_call10_v1 : Ref sig .tc := ⟨.hbm, 518, rfl⟩
abbrev main_call10_c_0 : Ref sig .tc := ⟨.hbm, 519, rfl⟩
abbrev main_call10_v2 : Ref sig .tc := ⟨.hbm, 520, rfl⟩
abbrev main_call10_v3 : Ref sig .tc := ⟨.hbm, 521, rfl⟩
abbrev main_call10_v4 : Ref sig .tc := ⟨.hbm, 522, rfl⟩
abbrev main_call10_v5 : Ref sig .tc := ⟨.hbm, 523, rfl⟩
abbrev main_call10_c_1 : Ref sig .tc := ⟨.hbm, 524, rfl⟩
abbrev main_call10_c_2 : Ref sig .tc := ⟨.hbm, 525, rfl⟩
abbrev main_call10_v6 : Ref sig .tc := ⟨.hbm, 526, rfl⟩
abbrev main_call10_v7 : Ref sig .tc := ⟨.hbm, 527, rfl⟩
abbrev main_call10_v8 : Ref sig .tc := ⟨.hbm, 528, rfl⟩
abbrev main_call10_v9 : Ref sig .tc := ⟨.hbm, 529, rfl⟩
abbrev main_call10_v10 : Ref sig .tc := ⟨.hbm, 530, rfl⟩
abbrev main_call10_v11 : Ref sig .tc := ⟨.hbm, 531, rfl⟩
abbrev main_call10_c_3 : Ref sig .tc := ⟨.hbm, 532, rfl⟩
abbrev main_call10_v12 : Ref sig .tc := ⟨.hbm, 533, rfl⟩
abbrev main_call10_v13 : Ref sig .tc := ⟨.hbm, 534, rfl⟩
abbrev main_call10_v14 : Ref sig .tc := ⟨.hbm, 535, rfl⟩
abbrev main_call10_cst : Ref sig .tc := ⟨.hbm, 536, rfl⟩
abbrev main_call10_v15 : Ref sig .tc := ⟨.hbm, 537, rfl⟩
abbrev main_v239 : Ref sig .tc := ⟨.hbm, 538, rfl⟩
abbrev main_v240 : Ref sig .tc := ⟨.hbm, 539, rfl⟩
abbrev main_v241 : Ref sig .tc := ⟨.hbm, 540, rfl⟩
abbrev main_v242 : Ref sig .tc := ⟨.hbm, 541, rfl⟩
abbrev main_v243 : Ref sig .tc := ⟨.hbm, 542, rfl⟩
abbrev main_v244 : Ref sig .tc := ⟨.hbm, 543, rfl⟩
abbrev main_v245 : Ref sig .tc := ⟨.hbm, 544, rfl⟩
abbrev main_cst_40 : Ref sig .tc := ⟨.hbm, 545, rfl⟩
abbrev main_v246 : Ref sig .tc := ⟨.hbm, 546, rfl⟩
abbrev main_v247 : Ref sig .tc := ⟨.hbm, 547, rfl⟩
abbrev main_v248 : Ref sig .tc := ⟨.hbm, 548, rfl⟩
abbrev main_v249 : Ref sig .tc := ⟨.hbm, 549, rfl⟩
abbrev main_v250 : Ref sig .tc := ⟨.hbm, 550, rfl⟩
abbrev main_v251 : Ref sig .tc := ⟨.hbm, 551, rfl⟩
abbrev main_v252 : Ref sig .tc := ⟨.hbm, 552, rfl⟩
abbrev main_v253 : Ref sig .tc := ⟨.hbm, 553, rfl⟩
abbrev main_v254 : Ref sig .tc := ⟨.hbm, 554, rfl⟩
abbrev main_cst_41 : Ref sig .tc := ⟨.hbm, 555, rfl⟩
abbrev main_v255 : Ref sig .tc := ⟨.hbm, 556, rfl⟩
abbrev main_cst_42 : Ref sig .tc := ⟨.hbm, 557, rfl⟩
abbrev main_v256 : Ref sig .tc := ⟨.hbm, 558, rfl⟩
abbrev main_v257 : Ref sig .tc := ⟨.hbm, 559, rfl⟩
abbrev main_c_43 : Ref sig .tc := ⟨.hbm, 560, rfl⟩
abbrev main_call11_cst : Ref sig .tc := ⟨.hbm, 561, rfl⟩
abbrev main_call11_v0 : Ref sig .tc := ⟨.hbm, 562, rfl⟩
abbrev main_call11_v1 : Ref sig .tc := ⟨.hbm, 563, rfl⟩
abbrev main_call11_cst_0 : Ref sig .tc := ⟨.hbm, 564, rfl⟩
abbrev main_call11_v2 : Ref sig .tc := ⟨.hbm, 565, rfl⟩
abbrev main_call11_v3 : Ref sig .tc := ⟨.hbm, 566, rfl⟩
abbrev main_call11_v4 : Ref sig .tc := ⟨.hbm, 567, rfl⟩
abbrev main_call11_v5 : Ref sig .tc := ⟨.hbm, 568, rfl⟩
abbrev main_call11_v6 : Ref sig .tc := ⟨.hbm, 569, rfl⟩
abbrev main_call11_v7 : Ref sig .tc := ⟨.hbm, 570, rfl⟩
abbrev main_call11_cst_1 : Ref sig .tc := ⟨.hbm, 571, rfl⟩
abbrev main_call11_v8 : Ref sig .tc := ⟨.hbm, 572, rfl⟩
abbrev main_call11_cst_2 : Ref sig .tc := ⟨.hbm, 573, rfl⟩
abbrev main_call11_v9 : Ref sig .tc := ⟨.hbm, 574, rfl⟩
abbrev main_call11_v10 : Ref sig .tc := ⟨.hbm, 575, rfl⟩
abbrev main_call11_v11 : Ref sig .tc := ⟨.hbm, 576, rfl⟩
abbrev main_call11_cst_3 : Ref sig .tc := ⟨.hbm, 577, rfl⟩
abbrev main_call11_v12 : Ref sig .tc := ⟨.hbm, 578, rfl⟩
abbrev main_call11_cst_4 : Ref sig .tc := ⟨.hbm, 579, rfl⟩
abbrev main_call11_call0_v0 : Ref sig .tc := ⟨.hbm, 580, rfl⟩
abbrev main_call11_call0_v1 : Ref sig .tc := ⟨.hbm, 581, rfl⟩
abbrev main_v258 : Ref sig .tc := ⟨.hbm, 582, rfl⟩
abbrev main_v259 : Ref sig .tc := ⟨.hbm, 583, rfl⟩
abbrev main_v260 : Ref sig .tc := ⟨.hbm, 584, rfl⟩
abbrev main_cst_44 : Ref sig .tc := ⟨.hbm, 585, rfl⟩
abbrev main_v261 : Ref sig .tc := ⟨.hbm, 586, rfl⟩
abbrev main_v262 : Ref sig .tc := ⟨.hbm, 587, rfl⟩
abbrev main_v263 : Ref sig .tc := ⟨.hbm, 588, rfl⟩
abbrev main_v264 : Ref sig .tc := ⟨.hbm, 589, rfl⟩
abbrev main_v265 : Ref sig .tc := ⟨.hbm, 590, rfl⟩
abbrev main_v266 : Ref sig .tc := ⟨.hbm, 591, rfl⟩
abbrev main_v267 : Ref sig .tc := ⟨.hbm, 592, rfl⟩
abbrev main_v268 : Ref sig .tc := ⟨.hbm, 593, rfl⟩
abbrev main_v269 : Ref sig .tc := ⟨.hbm, 594, rfl⟩
abbrev main_v270 : Ref sig .tc := ⟨.hbm, 595, rfl⟩
abbrev main_v271 : Ref sig .tc := ⟨.hbm, 596, rfl⟩
abbrev main_v272 : Ref sig .tc := ⟨.hbm, 597, rfl⟩
abbrev main_v273 : Ref sig .tc := ⟨.hbm, 598, rfl⟩
abbrev main_v274 : Ref sig .tc := ⟨.hbm, 599, rfl⟩
abbrev main_v275 : Ref sig .tc := ⟨.hbm, 600, rfl⟩
abbrev main_v276 : Ref sig .tc := ⟨.hbm, 601, rfl⟩
abbrev main_v277 : Ref sig .tc := ⟨.hbm, 602, rfl⟩
abbrev main_cst_45 : Ref sig .tc := ⟨.hbm, 603, rfl⟩
abbrev main_v278 : Ref sig .tc := ⟨.hbm, 604, rfl⟩
abbrev main_cst_46 : Ref sig .tc := ⟨.hbm, 605, rfl⟩
abbrev main_v279 : Ref sig .tc := ⟨.hbm, 606, rfl⟩
abbrev main_v280 : Ref sig .tc := ⟨.hbm, 607, rfl⟩
abbrev main_c_47 : Ref sig .tc := ⟨.hbm, 608, rfl⟩
abbrev main_call12_cst : Ref sig .tc := ⟨.hbm, 609, rfl⟩
abbrev main_call12_v0 : Ref sig .tc := ⟨.hbm, 610, rfl⟩
abbrev main_call12_v1 : Ref sig .tc := ⟨.hbm, 611, rfl⟩
abbrev main_call12_cst_0 : Ref sig .tc := ⟨.hbm, 612, rfl⟩
abbrev main_call12_v2 : Ref sig .tc := ⟨.hbm, 613, rfl⟩
abbrev main_call12_v3 : Ref sig .tc := ⟨.hbm, 614, rfl⟩
abbrev main_call12_v4 : Ref sig .tc := ⟨.hbm, 615, rfl⟩
abbrev main_call12_v5 : Ref sig .tc := ⟨.hbm, 616, rfl⟩
abbrev main_call12_v6 : Ref sig .tc := ⟨.hbm, 617, rfl⟩
abbrev main_call12_v7 : Ref sig .tc := ⟨.hbm, 618, rfl⟩
abbrev main_call12_cst_1 : Ref sig .tc := ⟨.hbm, 619, rfl⟩
abbrev main_call12_v8 : Ref sig .tc := ⟨.hbm, 620, rfl⟩
abbrev main_call12_cst_2 : Ref sig .tc := ⟨.hbm, 621, rfl⟩
abbrev main_call12_v9 : Ref sig .tc := ⟨.hbm, 622, rfl⟩
abbrev main_call12_v10 : Ref sig .tc := ⟨.hbm, 623, rfl⟩
abbrev main_call12_v11 : Ref sig .tc := ⟨.hbm, 624, rfl⟩
abbrev main_call12_cst_3 : Ref sig .tc := ⟨.hbm, 625, rfl⟩
abbrev main_call12_v12 : Ref sig .tc := ⟨.hbm, 626, rfl⟩
abbrev main_call12_cst_4 : Ref sig .tc := ⟨.hbm, 627, rfl⟩
abbrev main_call12_call0_v0 : Ref sig .tc := ⟨.hbm, 628, rfl⟩
abbrev main_call12_call0_v1 : Ref sig .tc := ⟨.hbm, 629, rfl⟩
abbrev main_v281 : Ref sig .tc := ⟨.hbm, 630, rfl⟩
abbrev main_v282 : Ref sig .tc := ⟨.hbm, 631, rfl⟩
abbrev main_v283 : Ref sig .tc := ⟨.hbm, 632, rfl⟩
abbrev main_cst_48 : Ref sig .tc := ⟨.hbm, 633, rfl⟩
abbrev main_v284 : Ref sig .tc := ⟨.hbm, 634, rfl⟩
abbrev main_v285 : Ref sig .tc := ⟨.hbm, 635, rfl⟩
abbrev main_v286 : Ref sig .tc := ⟨.hbm, 636, rfl⟩
abbrev main_v287 : Ref sig .tc := ⟨.hbm, 637, rfl⟩
abbrev main_v288 : Ref sig .tc := ⟨.hbm, 638, rfl⟩
abbrev main_v289 : Ref sig .tc := ⟨.hbm, 639, rfl⟩
abbrev main_v290 : Ref sig .tc := ⟨.hbm, 640, rfl⟩
abbrev main_v291 : Ref sig .tc := ⟨.hbm, 641, rfl⟩
abbrev main_v292 : Ref sig .tc := ⟨.hbm, 642, rfl⟩
abbrev main_v293 : Ref sig .tc := ⟨.hbm, 643, rfl⟩
abbrev main_v294 : Ref sig .tc := ⟨.hbm, 644, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc7_stg0_0 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc8_stg0_0 : Ref sig .tc := ⟨.vmem, 47, rfl⟩
abbrev cc8_stg1_0 : Ref sig .tc := ⟨.vmem, 48, rfl⟩
abbrev cc8_stg2_0 : Ref sig .tc := ⟨.vmem, 49, rfl⟩
abbrev cc8_stg3_0 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg1_1 : Ref sig .tc := ⟨.vmem, 54, rfl⟩
abbrev cc9_stg2_0 : Ref sig .tc := ⟨.vmem, 55, rfl⟩
abbrev cc9_stg3_0 : Ref sig .tc := ⟨.vmem, 56, rfl⟩
abbrev cc9_stg4_0 : Ref sig .tc := ⟨.vmem, 57, rfl⟩
abbrev cc9_stg4_1 : Ref sig .tc := ⟨.vmem, 58, rfl⟩
abbrev cc10_stg0_0 : Ref sig .tc := ⟨.vmem, 59, rfl⟩
abbrev cc10_stg0_1 : Ref sig .tc := ⟨.vmem, 60, rfl⟩
abbrev cc10_stg1_0 : Ref sig .tc := ⟨.vmem, 61, rfl⟩
abbrev cc10_stg1_1 : Ref sig .tc := ⟨.vmem, 62, rfl⟩
abbrev cc10_stg2_0 : Ref sig .tc := ⟨.vmem, 63, rfl⟩
abbrev cc10_stg3_0 : Ref sig .tc := ⟨.vmem, 64, rfl⟩
abbrev cc10_stg4_0 : Ref sig .tc := ⟨.vmem, 65, rfl⟩
abbrev cc10_stg4_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg2_0 : Ref sig .tc := ⟨.vmem, 70, rfl⟩
abbrev cc11_stg3_0 : Ref sig .tc := ⟨.vmem, 71, rfl⟩
abbrev cc11_stg3_1 : Ref sig .tc := ⟨.vmem, 72, rfl⟩
abbrev cc12_stg0_0 : Ref sig .tc := ⟨.vmem, 73, rfl⟩
abbrev cc12_stg0_1 : Ref sig .tc := ⟨.vmem, 74, rfl⟩
abbrev cc12_stg1_0 : Ref sig .tc := ⟨.vmem, 75, rfl⟩
abbrev cc12_stg2_0 : Ref sig .tc := ⟨.vmem, 76, rfl⟩
abbrev cc12_stg3_0 : Ref sig .tc := ⟨.vmem, 77, rfl⟩
abbrev cc12_stg3_1 : Ref sig .tc := ⟨.vmem, 78, rfl⟩
abbrev cc13_stg0_0 : Ref sig .tc := ⟨.vmem, 79, rfl⟩
abbrev cc13_stg0_1 : Ref sig .tc := ⟨.vmem, 80, rfl⟩
abbrev cc13_stg1_0 : Ref sig .tc := ⟨.vmem, 81, rfl⟩
abbrev cc13_stg2_0 : Ref sig .tc := ⟨.vmem, 82, rfl⟩
abbrev cc13_stg3_0 : Ref sig .tc := ⟨.vmem, 83, rfl⟩
abbrev cc13_stg3_1 : Ref sig .tc := ⟨.vmem, 84, rfl⟩
abbrev cc14_stg0_0 : Ref sig .tc := ⟨.vmem, 85, rfl⟩
abbrev cc14_stg1_0 : Ref sig .tc := ⟨.vmem, 86, rfl⟩
abbrev cc14_stg2_0 : Ref sig .tc := ⟨.vmem, 87, rfl⟩
abbrev cc14_stg3_0 : Ref sig .tc := ⟨.vmem, 88, rfl⟩
abbrev cc14_stg4_0 : Ref sig .tc := ⟨.vmem, 89, rfl⟩
abbrev cc15_stg0_0 : Ref sig .tc := ⟨.vmem, 90, rfl⟩
abbrev cc15_stg1_0 : Ref sig .tc := ⟨.vmem, 91, rfl⟩
abbrev cc15_stg2_0 : Ref sig .tc := ⟨.vmem, 92, rfl⟩
abbrev cc15_stg3_0 : Ref sig .tc := ⟨.vmem, 93, rfl⟩
abbrev cc16_stg0_0 : Ref sig .tc := ⟨.vmem, 94, rfl⟩
abbrev cc16_stg1_0 : Ref sig .tc := ⟨.vmem, 95, rfl⟩
abbrev cc16_stg2_0 : Ref sig .tc := ⟨.vmem, 96, rfl⟩
abbrev cc16_stg3_0 : Ref sig .tc := ⟨.vmem, 97, rfl⟩
abbrev cc17_stg0_0 : Ref sig .tc := ⟨.vmem, 98, rfl⟩
abbrev cc17_stg1_0 : Ref sig .tc := ⟨.vmem, 99, rfl⟩
abbrev cc17_stg2_0 : Ref sig .tc := ⟨.vmem, 100, rfl⟩
abbrev cc17_stg3_0 : Ref sig .tc := ⟨.vmem, 101, rfl⟩
abbrev cc18_stg0_0 : Ref sig .tc := ⟨.vmem, 102, rfl⟩
abbrev cc18_stg0_1 : Ref sig .tc := ⟨.vmem, 103, rfl⟩
abbrev cc18_stg1_0 : Ref sig .tc := ⟨.vmem, 104, rfl⟩
abbrev cc18_stg1_1 : Ref sig .tc := ⟨.vmem, 105, rfl⟩
abbrev cc18_stg2_0 : Ref sig .tc := ⟨.vmem, 106, rfl⟩
abbrev cc18_stg3_0 : Ref sig .tc := ⟨.vmem, 107, rfl⟩
abbrev cc18_stg4_0 : Ref sig .tc := ⟨.vmem, 108, rfl⟩
abbrev cc18_stg4_1 : Ref sig .tc := ⟨.vmem, 109, rfl⟩
abbrev cc19_stg0_0 : Ref sig .tc := ⟨.vmem, 110, rfl⟩
abbrev cc19_stg0_1 : Ref sig .tc := ⟨.vmem, 111, rfl⟩
abbrev cc19_stg1_0 : Ref sig .tc := ⟨.vmem, 112, rfl⟩
abbrev cc19_stg1_1 : Ref sig .tc := ⟨.vmem, 113, rfl⟩
abbrev cc19_stg2_0 : Ref sig .tc := ⟨.vmem, 114, rfl⟩
abbrev cc19_stg3_0 : Ref sig .tc := ⟨.vmem, 115, rfl⟩
abbrev cc19_stg4_0 : Ref sig .tc := ⟨.vmem, 116, rfl⟩
abbrev cc19_stg4_1 : Ref sig .tc := ⟨.vmem, 117, rfl⟩
abbrev cc20_stg0_0 : Ref sig .tc := ⟨.vmem, 118, rfl⟩
abbrev cc20_stg0_1 : Ref sig .tc := ⟨.vmem, 119, rfl⟩
abbrev cc20_stg1_0 : Ref sig .tc := ⟨.vmem, 120, rfl⟩
abbrev cc20_stg2_0 : Ref sig .tc := ⟨.vmem, 121, rfl⟩
abbrev cc20_stg3_0 : Ref sig .tc := ⟨.vmem, 122, rfl⟩
abbrev cc20_stg3_1 : Ref sig .tc := ⟨.vmem, 123, rfl⟩
abbrev cc21_stg0_0 : Ref sig .tc := ⟨.vmem, 124, rfl⟩
abbrev cc21_stg0_1 : Ref sig .tc := ⟨.vmem, 125, rfl⟩
abbrev cc21_stg1_0 : Ref sig .tc := ⟨.vmem, 126, rfl⟩
abbrev cc21_stg2_0 : Ref sig .tc := ⟨.vmem, 127, rfl⟩
abbrev cc21_stg3_0 : Ref sig .tc := ⟨.vmem, 128, rfl⟩
abbrev cc21_stg3_1 : Ref sig .tc := ⟨.vmem, 129, rfl⟩
abbrev cc22_stg0_0 : Ref sig .tc := ⟨.vmem, 130, rfl⟩
abbrev cc22_stg0_1 : Ref sig .tc := ⟨.vmem, 131, rfl⟩
abbrev cc22_stg1_0 : Ref sig .tc := ⟨.vmem, 132, rfl⟩
abbrev cc22_stg2_0 : Ref sig .tc := ⟨.vmem, 133, rfl⟩
abbrev cc22_stg3_0 : Ref sig .tc := ⟨.vmem, 134, rfl⟩
abbrev cc22_stg3_1 : Ref sig .tc := ⟨.vmem, 135, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc6_sem0_0 : DmaSem sig := 39
abbrev cc6_sem1_0 : DmaSem sig := 40
abbrev cc6_sem2_0 : DmaSem sig := 41
abbrev cc6_sem3_0 : DmaSem sig := 42
abbrev cc7_sem0_0 : DmaSem sig := 43
abbrev cc7_sem1_0 : DmaSem sig := 44
abbrev cc7_sem2_0 : DmaSem sig := 45
abbrev cc7_sem3_0 : DmaSem sig := 46
abbrev cc8_sem0_0 : DmaSem sig := 47
abbrev cc8_sem1_0 : DmaSem sig := 48
abbrev cc8_sem2_0 : DmaSem sig := 49
abbrev cc8_sem3_0 : DmaSem sig := 50
abbrev cc9_sem0_0 : DmaSem sig := 51
abbrev cc9_sem0_1 : DmaSem sig := 52
abbrev cc9_sem1_0 : DmaSem sig := 53
abbrev cc9_sem1_1 : DmaSem sig := 54
abbrev cc9_sem2_0 : DmaSem sig := 55
abbrev cc9_sem3_0 : DmaSem sig := 56
abbrev cc9_sem4_0 : DmaSem sig := 57
abbrev cc9_sem4_1 : DmaSem sig := 58
abbrev cc10_sem0_0 : DmaSem sig := 59
abbrev cc10_sem0_1 : DmaSem sig := 60
abbrev cc10_sem1_0 : DmaSem sig := 61
abbrev cc10_sem1_1 : DmaSem sig := 62
abbrev cc10_sem2_0 : DmaSem sig := 63
abbrev cc10_sem3_0 : DmaSem sig := 64
abbrev cc10_sem4_0 : DmaSem sig := 65
abbrev cc10_sem4_1 : DmaSem sig := 66
abbrev cc11_sem0_0 : DmaSem sig := 67
abbrev cc11_sem0_1 : DmaSem sig := 68
abbrev cc11_sem1_0 : DmaSem sig := 69
abbrev cc11_sem2_0 : DmaSem sig := 70
abbrev cc11_sem3_0 : DmaSem sig := 71
abbrev cc11_sem3_1 : DmaSem sig := 72
abbrev cc12_sem0_0 : DmaSem sig := 73
abbrev cc12_sem0_1 : DmaSem sig := 74
abbrev cc12_sem1_0 : DmaSem sig := 75
abbrev cc12_sem2_0 : DmaSem sig := 76
abbrev cc12_sem3_0 : DmaSem sig := 77
abbrev cc12_sem3_1 : DmaSem sig := 78
abbrev cc13_sem0_0 : DmaSem sig := 79
abbrev cc13_sem0_1 : DmaSem sig := 80
abbrev cc13_sem1_0 : DmaSem sig := 81
abbrev cc13_sem2_0 : DmaSem sig := 82
abbrev cc13_sem3_0 : DmaSem sig := 83
abbrev cc13_sem3_1 : DmaSem sig := 84
abbrev cc14_sem0_0 : DmaSem sig := 85
abbrev cc14_sem1_0 : DmaSem sig := 86
abbrev cc14_sem2_0 : DmaSem sig := 87
abbrev cc14_sem3_0 : DmaSem sig := 88
abbrev cc14_sem4_0 : DmaSem sig := 89
abbrev cc15_sem0_0 : DmaSem sig := 90
abbrev cc15_sem1_0 : DmaSem sig := 91
abbrev cc15_sem2_0 : DmaSem sig := 92
abbrev cc15_sem3_0 : DmaSem sig := 93
abbrev cc16_sem0_0 : DmaSem sig := 94
abbrev cc16_sem1_0 : DmaSem sig := 95
abbrev cc16_sem2_0 : DmaSem sig := 96
abbrev cc16_sem3_0 : DmaSem sig := 97
abbrev cc17_sem0_0 : DmaSem sig := 98
abbrev cc17_sem1_0 : DmaSem sig := 99
abbrev cc17_sem2_0 : DmaSem sig := 100
abbrev cc17_sem3_0 : DmaSem sig := 101
abbrev cc18_sem0_0 : DmaSem sig := 102
abbrev cc18_sem0_1 : DmaSem sig := 103
abbrev cc18_sem1_0 : DmaSem sig := 104
abbrev cc18_sem1_1 : DmaSem sig := 105
abbrev cc18_sem2_0 : DmaSem sig := 106
abbrev cc18_sem3_0 : DmaSem sig := 107
abbrev cc18_sem4_0 : DmaSem sig := 108
abbrev cc18_sem4_1 : DmaSem sig := 109
abbrev cc19_sem0_0 : DmaSem sig := 110
abbrev cc19_sem0_1 : DmaSem sig := 111
abbrev cc19_sem1_0 : DmaSem sig := 112
abbrev cc19_sem1_1 : DmaSem sig := 113
abbrev cc19_sem2_0 : DmaSem sig := 114
abbrev cc19_sem3_0 : DmaSem sig := 115
abbrev cc19_sem4_0 : DmaSem sig := 116
abbrev cc19_sem4_1 : DmaSem sig := 117
abbrev cc20_sem0_0 : DmaSem sig := 118
abbrev cc20_sem0_1 : DmaSem sig := 119
abbrev cc20_sem1_0 : DmaSem sig := 120
abbrev cc20_sem2_0 : DmaSem sig := 121
abbrev cc20_sem3_0 : DmaSem sig := 122
abbrev cc20_sem3_1 : DmaSem sig := 123
abbrev cc21_sem0_0 : DmaSem sig := 124
abbrev cc21_sem0_1 : DmaSem sig := 125
abbrev cc21_sem1_0 : DmaSem sig := 126
abbrev cc21_sem2_0 : DmaSem sig := 127
abbrev cc21_sem3_0 : DmaSem sig := 128
abbrev cc21_sem3_1 : DmaSem sig := 129
abbrev cc22_sem0_0 : DmaSem sig := 130
abbrev cc22_sem0_1 : DmaSem sig := 131
abbrev cc22_sem1_0 : DmaSem sig := 132
abbrev cc22_sem2_0 : DmaSem sig := 133
abbrev cc22_sem3_0 : DmaSem sig := 134
abbrev cc22_sem3_1 : DmaSem sig := 135

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S512x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S128x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S512x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S8000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S8000x8 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S8x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S8000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S2000x256 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S2000x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S2000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S2000x128 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 1 → Memref sig .tc .vmem S512x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true]

abbrev stage14_1 : Fin 1 → Memref sig .tc .vmem S512x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![true]

abbrev stage14_2 : Fin 1 → Memref sig .tc .vmem S128x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S512x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![true]

abbrev grid15 : Pipeline.Grid := ⟨1, ![1], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 1 → Memref sig .tc .vmem S512x256 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))
abbrev reads15_0 : Fin grid15.rank → Bool := ![true]

abbrev stage15_1 : Fin 1 → Memref sig .tc .vmem S1x256 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x256 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S512x256 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 1 → Memref sig .tc .vmem S512x256 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true]

abbrev stage16_1 : Fin 1 → Memref sig .tc .vmem S256x128 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x128 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S512x128 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![true]

abbrev grid17 : Pipeline.Grid := ⟨1, ![1], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 1 → Memref sig .tc .vmem S512x128 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))
abbrev reads17_0 : Fin grid17.rank → Bool := ![true]

abbrev stage17_1 : Fin 1 → Memref sig .tc .vmem S1x128 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x128 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S512x128 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![true]

abbrev grid18 : Pipeline.Grid := ⟨1, ![100], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S8000x128 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S8000x8 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 1 → Memref sig .tc .vmem S8x128 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 1 → Memref sig .tc .vmem S1x128 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 2 → Memref sig .tc .vmem S8000x128 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![25], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S2000x128 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S2000x128 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 1 → Memref sig .tc .vmem S128x256 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 1 → Memref sig .tc .vmem S1x256 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))
abbrev reads19_3 : Fin grid19.rank → Bool := ![false]

abbrev stage19_4 : Fin 2 → Memref sig .tc .vmem S2000x256 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev grid20 : Pipeline.Grid := ⟨1, ![25], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S2000x256 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S1x256 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x256 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S2000x256 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev grid21 : Pipeline.Grid := ⟨1, ![25], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S2000x256 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S256x128 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x128 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S2000x128 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev grid22 : Pipeline.Grid := ⟨1, ![25], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S2000x128 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S1x128 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x128 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S2000x128 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1x128_S512x128_0_1 : S1x128.BroadcastsInDim S512x128 (![0, 1] : Fin 2 → Fin S512x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S3x8x128_S1x8x128_0_0_0 : S3x8x128.Slices ![0, 0, 0] S1x8x128
  shapeCasts_S1x8x128_S8x128 : S1x8x128.ShapeCasts S8x128
  slices_S3x128_S1x128_0_0 : S3x128.Slices ![0, 0] S1x128
  shapeCasts_S1x128_S128 : S1x128.ShapeCasts S128
  shapeCasts_S128_S1x128 : S128.ShapeCasts S1x128
  inb_S8000x8_S8000x8_0_0 : ∀ a, (![0, 0] : Fin 2 → Nat) a + S8000x8.size a ≤ S8000x8.size a
  h_S8000x8 : 0 < S8000x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  shapeCasts_S2000x256_S2000x256 : S2000x256.ShapeCasts S2000x256
  slices_S3x256x128_S1x256x128_0_0_0 : S3x256x128.Slices ![0, 0, 0] S1x256x128
  shapeCasts_S1x256x128_S256x128 : S1x256x128.ShapeCasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S2000x128 : S1x128.Broadcasts S2000x128
  reducesTo_S50000x128_S128_d0 : S50000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  slices_S2x128x256_S1x128x256_0_0_0 : S2x128x256.Slices ![0, 0, 0] S1x128x256
  slices_S2x256_S1x256_0_0 : S2x256.Slices ![0, 0] S1x256
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x256_S512x256 : S1x256.Broadcasts S512x256
  inb_S512x256_S512x256_0_0 : ∀ a, (![0, 0] : Fin 2 → Nat) a + S512x256.size a ≤ S512x256.size a
  h_S512x256 : 0 < S512x256.numel
  reducesTo_S512x256_S256_d0 : S512x256.ReducesTo [0] S256
  bcast_S1x256_S512x256_0_1 : S1x256.BroadcastsInDim S512x256 (![0, 1] : Fin 2 → Fin S512x256.rank)
  shapeCasts_S512x256_S512x256 : S512x256.ShapeCasts S512x256
  slices_S2x256x128_S1x256x128_0_0_0 : S2x256x128.Slices ![0, 0, 0] S1x256x128
  slices_S2x128_S1x128_0_0 : S2x128.Slices ![0, 0] S1x128
  broadcasts_S1x128_S512x128 : S1x128.Broadcasts S512x128
  reducesTo_S512x128_S128_d0 : S512x128.ReducesTo [0] S128
  slices_S3x8x128_S1x8x128_1_0_0 : S3x8x128.Slices ![1, 0, 0] S1x8x128
  slices_S3x128_S1x128_1_0 : S3x128.Slices ![1, 0] S1x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S2x128x256_S1x128x256_1_0_0 : S2x128x256.Slices ![1, 0, 0] S1x128x256
  slices_S2x256_S1x256_1_0 : S2x256.Slices ![1, 0] S1x256
  slices_S2x256x128_S1x256x128_1_0_0 : S2x256x128.Slices ![1, 0, 0] S1x256x128
  slices_S2x128_S1x128_1_0 : S2x128.Slices ![1, 0] S1x128
  slices_S3x8x128_S1x8x128_2_0_0 : S3x8x128.Slices ![2, 0, 0] S1x8x128
  slices_S3x128_S1x128_2_0 : S3x128.Slices ![2, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  gather_S512x128_S50000x1_S50000x128_1_0_n_n_0_1_1128_wf : GatherDims.WF S512x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  dot_S8000x8_S8x128_S8000x128_1_0_0_1_n_n_wf : DotDims.WF S8000x8 S8x128 S8000x128 [1] [0] [0] [1] [] []
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  scatter_S512x128_S50000x1_S50000x128_1_0_0_1_wf : ScatterDims.WF S512x128 S50000x1 S50000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S800000x8.size a
  hwx0_1 : ∀ i : grid0.Coords, EltTy.bits .f32 = 32 ∨ (Rect.block (s := S800000x8) S8000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x128.size a ≤ S800000x128.size a
  hwx0_4 : ∀ i : grid0.Coords, EltTy.bits .f32 = 32 ∨ (Rect.block (s := S800000x128) S8000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 1
  hreads5_0 : ∀ i i' : grid5.Coords, (∀ a, reads5_0 a = true → i a = i' a) → cc5_transform_0 i = cc5_transform_0 i'
  hinb5_0 : ∀ (i : grid5.Coords) a, (cc5_transform_0 i a + 1) * S512x128.size a ≤ S512x128.size a
  hwx5_0 : ∀ i : grid5.Coords, EltTy.bits .f32 = 32 ∨ (Rect.block (s := S512x128) S512x128.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S512x128.size a
  hwx5_1 : ∀ i : grid5.Coords, EltTy.bits .f32 = 32 ∨ (Rect.block (s := S512x128) S512x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x256.size a ≤ S128x256.size a
  hwx5_2 : ∀ i : grid5.Coords, EltTy.bits .f32 = 32 ∨ (Rect.block (s := S128x256) S128x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 false = 1
  hreads5_4 : ∀ i i' : grid5.Coords, (∀ a, reads5_4 a = true → i a = i' a) → cc5_transform_4 i = cc5_transform_4 i'
  hinb5_4 : ∀ (i : grid5.Coords) a, (cc5_transform_4 i a + 1) * S512x256.size a ≤ S512x256.size a
  hwx5_4 : ∀ i : grid5.Coords, EltTy.bits .f32 = 32 ∨ (Rect.block (s := S512x256) S512x256.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S512x256.size a
  hwx6_0 : ∀ i : grid6.Coords, EltTy.bits .f32 = 32 ∨ (Rect.block (s := S512x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S512x256.size a ≤ S512x256.size a
  hwx6_3 : ∀ i : grid6.Coords, EltTy.bits .f32 = 32 ∨ (Rect.block (s := S512x256) S512x256.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x256.size a ≤ S512x256.size a
  hwx7_0 : ∀ i : grid7.Coords, EltTy.bits .f32 = 32 ∨ (Rect.block (s := S512x256) S512x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .f32 = 32 ∨ (Rect.block (s := S256x128) S256x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S512x128.size a ≤ S512x128.size a
  hwx7_3 : ∀ i : grid7.Coords, EltTy.bits .f32 = 32 ∨ (Rect.block (s := S512x128) S512x128.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S512x128.size a ≤ S512x128.size a
  hwx8_3 : ∀ i : grid8.Coords, EltTy.bits .f32 = 32 ∨ (Rect.block (s := S512x128) S512x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S8000x128.size a ≤ S800000x128.size a
  hwx9_0 : ∀ i : grid9.Coords, EltTy.bits .f32 = 32 ∨ (Rect.block (s := S800000x128) S8000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S8000x8.size a ≤ S800000x8.size a
  hwx9_1 : ∀ i : grid9.Coords, EltTy.bits .f32 = 32 ∨ (Rect.block (s := S800000x8) S8000x8.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S8x128.size a ≤ S8x128.size a
  hwx9_2 : ∀ i : grid9.Coords, EltTy.bits .f32 = 32 ∨ (Rect.block (s := S8x128) S8x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S8000x128.size a ≤ S800000x128.size a
  hwx9_4 : ∀ i : grid9.Coords, EltTy.bits .f32 = 32 ∨ (Rect.block (s := S800000x128) S8000x128.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x128.size a ≤ S50000x128.size a
  hwx10_0 : ∀ i : grid10.Coords, EltTy.bits .f32 = 32 ∨ (Rect.block (s := S50000x128) S2000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x128.size a ≤ S50000x128.size a
  hwx10_1 : ∀ i : grid10.Coords, EltTy.bits .f32 = 32 ∨ (Rect.block (s := S50000x128) S2000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x256.size a ≤ S128x256.size a
  hwx10_2 : ∀ i : grid10.Coords, EltTy.bits .f32 = 32 ∨ (Rect.block (s := S128x256) S128x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x256.size a ≤ S50000x256.size a
  hwx10_4 : ∀ i : grid10.Coords, EltTy.bits .f32 = 32 ∨ (Rect.block (s := S50000x256) S2000x256.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S2000x256.size a ≤ S50000x256.size a
  hwx11_3 : ∀ i : grid11.Coords, EltTy.bits .f32 = 32 ∨ (Rect.block (s := S50000x256) S2000x256.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x256.size a ≤ S50000x256.size a
  hwx12_0 : ∀ i : grid12.Coords, EltTy.bits .f32 = 32 ∨ (Rect.block (s := S50000x256) S2000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x128.size a ≤ S256x128.size a
  hwx12_1 : ∀ i : grid12.Coords, EltTy.bits .f32 = 32 ∨ (Rect.block (s := S256x128) S256x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x128.size a ≤ S50000x128.size a
  hwx12_3 : ∀ i : grid12.Coords, EltTy.bits .f32 = 32 ∨ (Rect.block (s := S50000x128) S2000x128.size (cc12_transform_3 i) (hinb12_3 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x128.size a ≤ S50000x128.size a
  hwx13_0 : ∀ i : grid13.Coords, EltTy.bits .f32 = 32 ∨ (Rect.block (s := S50000x128) S2000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S2000x128.size a ≤ S50000x128.size a
  hwx13_3 : ∀ i : grid13.Coords, EltTy.bits .f32 = 32 ∨ (Rect.block (s := S50000x128) S2000x128.size (cc13_transform_3 i) (hinb13_3 i)).WholeWords (EltTy.packing .f32)
  hrank14 : 0 < grid14.rank
  hstage14_0 : ∀ j, (stage14_0 j).IsWhole
  nbuf14_0 : grid14.bufCount reads14_0 false = 1
  hreads14_0 : ∀ i i' : grid14.Coords, (∀ a, reads14_0 a = true → i a = i' a) → cc14_transform_0 i = cc14_transform_0 i'
  hinb14_0 : ∀ (i : grid14.Coords) a, (cc14_transform_0 i a + 1) * S512x128.size a ≤ S512x128.size a
  hwx14_0 : ∀ i : grid14.Coords, EltTy.bits .f32 = 32 ∨ (Rect.block (s := S512x128) S512x128.size (cc14_transform_0 i) (hinb14_0 i)).WholeWords (EltTy.packing .f32)
  hstage14_1 : ∀ j, (stage14_1 j).IsWhole
  nbuf14_1 : grid14.bufCount reads14_1 false = 1
  hreads14_1 : ∀ i i' : grid14.Coords, (∀ a, reads14_1 a = true → i a = i' a) → cc14_transform_1 i = cc14_transform_1 i'
  hinb14_1 : ∀ (i : grid14.Coords) a, (cc14_transform_1 i a + 1) * S512x128.size a ≤ S512x128.size a
  hwx14_1 : ∀ i : grid14.Coords, EltTy.bits .f32 = 32 ∨ (Rect.block (s := S512x128) S512x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x256.size a ≤ S128x256.size a
  hwx14_2 : ∀ i : grid14.Coords, EltTy.bits .f32 = 32 ∨ (Rect.block (s := S128x256) S128x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 false = 1
  hreads14_4 : ∀ i i' : grid14.Coords, (∀ a, reads14_4 a = true → i a = i' a) → cc14_transform_4 i = cc14_transform_4 i'
  hinb14_4 : ∀ (i : grid14.Coords) a, (cc14_transform_4 i a + 1) * S512x256.size a ≤ S512x256.size a
  hwx14_4 : ∀ i : grid14.Coords, EltTy.bits .f32 = 32 ∨ (Rect.block (s := S512x256) S512x256.size (cc14_transform_4 i) (hinb14_4 i)).WholeWords (EltTy.packing .f32)
  hrank15 : 0 < grid15.rank
  hstage15_0 : ∀ j, (stage15_0 j).IsWhole
  nbuf15_0 : grid15.bufCount reads15_0 false = 1
  hreads15_0 : ∀ i i' : grid15.Coords, (∀ a, reads15_0 a = true → i a = i' a) → cc15_transform_0 i = cc15_transform_0 i'
  hinb15_0 : ∀ (i : grid15.Coords) a, (cc15_transform_0 i a + 1) * S512x256.size a ≤ S512x256.size a
  hwx15_0 : ∀ i : grid15.Coords, EltTy.bits .f32 = 32 ∨ (Rect.block (s := S512x256) S512x256.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x256.size a ≤ S1x256.size a
  hwx15_1 : ∀ i : grid15.Coords, EltTy.bits .f32 = 32 ∨ (Rect.block (s := S1x256) S1x256.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x256.size a ≤ S1x256.size a
  hwx15_2 : ∀ i : grid15.Coords, EltTy.bits .f32 = 32 ∨ (Rect.block (s := S1x256) S1x256.size (cc15_transform_2 i) (hinb15_2 i)).WholeWords (EltTy.packing .f32)
  hstage15_3 : ∀ j, (stage15_3 j).IsWhole
  nbuf15_3 : grid15.bufCount reads15_3 false = 1
  hreads15_3 : ∀ i i' : grid15.Coords, (∀ a, reads15_3 a = true → i a = i' a) → cc15_transform_3 i = cc15_transform_3 i'
  hinb15_3 : ∀ (i : grid15.Coords) a, (cc15_transform_3 i a + 1) * S512x256.size a ≤ S512x256.size a
  hwx15_3 : ∀ i : grid15.Coords, EltTy.bits .f32 = 32 ∨ (Rect.block (s := S512x256) S512x256.size (cc15_transform_3 i) (hinb15_3 i)).WholeWords (EltTy.packing .f32)
  hrank16 : 0 < grid16.rank
  hstage16_0 : ∀ j, (stage16_0 j).IsWhole
  nbuf16_0 : grid16.bufCount reads16_0 false = 1
  hreads16_0 : ∀ i i' : grid16.Coords, (∀ a, reads16_0 a = true → i a = i' a) → cc16_transform_0 i = cc16_transform_0 i'
  hinb16_0 : ∀ (i : grid16.Coords) a, (cc16_transform_0 i a + 1) * S512x256.size a ≤ S512x256.size a
  hwx16_0 : ∀ i : grid16.Coords, EltTy.bits .f32 = 32 ∨ (Rect.block (s := S512x256) S512x256.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S256x128.size a ≤ S256x128.size a
  hwx16_1 : ∀ i : grid16.Coords, EltTy.bits .f32 = 32 ∨ (Rect.block (s := S256x128) S256x128.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x128.size a ≤ S1x128.size a
  hwx16_2 : ∀ i : grid16.Coords, EltTy.bits .f32 = 32 ∨ (Rect.block (s := S1x128) S1x128.size (cc16_transform_2 i) (hinb16_2 i)).WholeWords (EltTy.packing .f32)
  hstage16_3 : ∀ j, (stage16_3 j).IsWhole
  nbuf16_3 : grid16.bufCount reads16_3 false = 1
  hreads16_3 : ∀ i i' : grid16.Coords, (∀ a, reads16_3 a = true → i a = i' a) → cc16_transform_3 i = cc16_transform_3 i'
  hinb16_3 : ∀ (i : grid16.Coords) a, (cc16_transform_3 i a + 1) * S512x128.size a ≤ S512x128.size a
  hwx16_3 : ∀ i : grid16.Coords, EltTy.bits .f32 = 32 ∨ (Rect.block (s := S512x128) S512x128.size (cc16_transform_3 i) (hinb16_3 i)).WholeWords (EltTy.packing .f32)
  hrank17 : 0 < grid17.rank
  hstage17_0 : ∀ j, (stage17_0 j).IsWhole
  nbuf17_0 : grid17.bufCount reads17_0 false = 1
  hreads17_0 : ∀ i i' : grid17.Coords, (∀ a, reads17_0 a = true → i a = i' a) → cc17_transform_0 i = cc17_transform_0 i'
  hinb17_0 : ∀ (i : grid17.Coords) a, (cc17_transform_0 i a + 1) * S512x128.size a ≤ S512x128.size a
  hwx17_0 : ∀ i : grid17.Coords, EltTy.bits .f32 = 32 ∨ (Rect.block (s := S512x128) S512x128.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x128.size a ≤ S1x128.size a
  hwx17_1 : ∀ i : grid17.Coords, EltTy.bits .f32 = 32 ∨ (Rect.block (s := S1x128) S1x128.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x128.size a ≤ S1x128.size a
  hwx17_2 : ∀ i : grid17.Coords, EltTy.bits .f32 = 32 ∨ (Rect.block (s := S1x128) S1x128.size (cc17_transform_2 i) (hinb17_2 i)).WholeWords (EltTy.packing .f32)
  hstage17_3 : ∀ j, (stage17_3 j).IsWhole
  nbuf17_3 : grid17.bufCount reads17_3 false = 1
  hreads17_3 : ∀ i i' : grid17.Coords, (∀ a, reads17_3 a = true → i a = i' a) → cc17_transform_3 i = cc17_transform_3 i'
  hinb17_3 : ∀ (i : grid17.Coords) a, (cc17_transform_3 i a + 1) * S512x128.size a ≤ S512x128.size a
  hwx17_3 : ∀ i : grid17.Coords, EltTy.bits .f32 = 32 ∨ (Rect.block (s := S512x128) S512x128.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S8000x128.size a ≤ S800000x128.size a
  hwx18_0 : ∀ i : grid18.Coords, EltTy.bits .f32 = 32 ∨ (Rect.block (s := S800000x128) S8000x128.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S8000x8.size a ≤ S800000x8.size a
  hwx18_1 : ∀ i : grid18.Coords, EltTy.bits .f32 = 32 ∨ (Rect.block (s := S800000x8) S8000x8.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S8x128.size a ≤ S8x128.size a
  hwx18_2 : ∀ i : grid18.Coords, EltTy.bits .f32 = 32 ∨ (Rect.block (s := S8x128) S8x128.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S1x128.size a ≤ S1x128.size a
  hwx18_3 : ∀ i : grid18.Coords, EltTy.bits .f32 = 32 ∨ (Rect.block (s := S1x128) S1x128.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S8000x128.size a ≤ S800000x128.size a
  hwx18_4 : ∀ i : grid18.Coords, EltTy.bits .f32 = 32 ∨ (Rect.block (s := S800000x128) S8000x128.size (cc18_transform_4 i) (hinb18_4 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S2000x128.size a ≤ S50000x128.size a
  hwx19_0 : ∀ i : grid19.Coords, EltTy.bits .f32 = 32 ∨ (Rect.block (s := S50000x128) S2000x128.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S2000x128.size a ≤ S50000x128.size a
  hwx19_1 : ∀ i : grid19.Coords, EltTy.bits .f32 = 32 ∨ (Rect.block (s := S50000x128) S2000x128.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S128x256.size a ≤ S128x256.size a
  hwx19_2 : ∀ i : grid19.Coords, EltTy.bits .f32 = 32 ∨ (Rect.block (s := S128x256) S128x256.size (cc19_transform_2 i) (hinb19_2 i)).WholeWords (EltTy.packing .f32)
  hstage19_3 : ∀ j, (stage19_3 j).IsWhole
  nbuf19_3 : grid19.bufCount reads19_3 true = 1
  hreads19_3 : ∀ i i' : grid19.Coords, (∀ a, reads19_3 a = true → i a = i' a) → cc19_transform_3 i = cc19_transform_3 i'
  hinb19_3 : ∀ (i : grid19.Coords) a, (cc19_transform_3 i a + 1) * S1x256.size a ≤ S1x256.size a
  hwx19_3 : ∀ i : grid19.Coords, EltTy.bits .f32 = 32 ∨ (Rect.block (s := S1x256) S1x256.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S2000x256.size a ≤ S50000x256.size a
  hwx19_4 : ∀ i : grid19.Coords, EltTy.bits .f32 = 32 ∨ (Rect.block (s := S50000x256) S2000x256.size (cc19_transform_4 i) (hinb19_4 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x256.size a ≤ S50000x256.size a
  hwx20_0 : ∀ i : grid20.Coords, EltTy.bits .f32 = 32 ∨ (Rect.block (s := S50000x256) S2000x256.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S1x256.size a ≤ S1x256.size a
  hwx20_1 : ∀ i : grid20.Coords, EltTy.bits .f32 = 32 ∨ (Rect.block (s := S1x256) S1x256.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x256.size a ≤ S1x256.size a
  hwx20_2 : ∀ i : grid20.Coords, EltTy.bits .f32 = 32 ∨ (Rect.block (s := S1x256) S1x256.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S2000x256.size a ≤ S50000x256.size a
  hwx20_3 : ∀ i : grid20.Coords, EltTy.bits .f32 = 32 ∨ (Rect.block (s := S50000x256) S2000x256.size (cc20_transform_3 i) (hinb20_3 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S2000x256.size a ≤ S50000x256.size a
  hwx21_0 : ∀ i : grid21.Coords, EltTy.bits .f32 = 32 ∨ (Rect.block (s := S50000x256) S2000x256.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S256x128.size a ≤ S256x128.size a
  hwx21_1 : ∀ i : grid21.Coords, EltTy.bits .f32 = 32 ∨ (Rect.block (s := S256x128) S256x128.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x128.size a ≤ S1x128.size a
  hwx21_2 : ∀ i : grid21.Coords, EltTy.bits .f32 = 32 ∨ (Rect.block (s := S1x128) S1x128.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S2000x128.size a ≤ S50000x128.size a
  hwx21_3 : ∀ i : grid21.Coords, EltTy.bits .f32 = 32 ∨ (Rect.block (s := S50000x128) S2000x128.size (cc21_transform_3 i) (hinb21_3 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S2000x128.size a ≤ S50000x128.size a
  hwx22_0 : ∀ i : grid22.Coords, EltTy.bits .f32 = 32 ∨ (Rect.block (s := S50000x128) S2000x128.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S1x128.size a ≤ S1x128.size a
  hwx22_1 : ∀ i : grid22.Coords, EltTy.bits .f32 = 32 ∨ (Rect.block (s := S1x128) S1x128.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x128.size a ≤ S1x128.size a
  hwx22_2 : ∀ i : grid22.Coords, EltTy.bits .f32 = 32 ∨ (Rect.block (s := S1x128) S1x128.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S2000x128.size a ≤ S50000x128.size a
  hwx22_3 : ∀ i : grid22.Coords, EltTy.bits .f32 = 32 ∨ (Rect.block (s := S50000x128) S2000x128.size (cc22_transform_3 i) (hinb22_3 i)).WholeWords (EltTy.packing .f32)

variable [Facts₀]

def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v13) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S8000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v51) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v71) S512x128.size cc5_transform_0 reads5_0 false false 1 stage5_0 sem5_0
    hrank5 hreads5_0 hinb5_0 nbuf5_0 (Memref.isWhole_whole _) hwx5_0 hstage5_0

abbrev win5_1 : Pipeline.Window sig grid5 :=
  Pipeline.Window.ofSpec (Memref.whole main_v4) S512x128.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S128x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S512x256.size cc5_transform_4 reads5_4 true false 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v77) S512x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v92) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v93) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v94) S512x256.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v94) S512x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_v96) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v100) S512x128.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v100) S512x128.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_v115) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v116) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S512x128.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v126) S8000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg1) S8000x8.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v128) S8x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S8000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v125) S2000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S2000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v137) S128x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v140) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v141) S2000x256.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v141) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v156) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v157) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v158) S2000x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v158) S2000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v160) S256x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v163) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v164) S2000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_v164) S2000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v179) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v180) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v181) S2000x128.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v184) S512x128.size cc14_transform_0 reads14_0 false false 1 stage14_0 sem14_0
    hrank14 hreads14_0 hinb14_0 nbuf14_0 (Memref.isWhole_whole _) hwx14_0 hstage14_0

abbrev win14_1 : Pipeline.Window sig grid14 :=
  Pipeline.Window.ofSpec (Memref.whole main_v117) S512x128.size cc14_transform_1 reads14_1 false false 1 stage14_1 sem14_1
    hrank14 hreads14_1 hinb14_1 nbuf14_1 (Memref.isWhole_whole _) hwx14_1 hstage14_1

abbrev win14_2 : Pipeline.Window sig grid14 :=
  Pipeline.Window.ofSpec (Memref.whole main_v186) S128x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v189) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v190) S512x256.size cc14_transform_4 reads14_4 true false 1 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

abbrev win15_0 : Pipeline.Window sig grid15 :=
  Pipeline.Window.ofSpec (Memref.whole main_v190) S512x256.size cc15_transform_0 reads15_0 false false 1 stage15_0 sem15_0
    hrank15 hreads15_0 hinb15_0 nbuf15_0 (Memref.isWhole_whole _) hwx15_0 hstage15_0

abbrev win15_1 : Pipeline.Window sig grid15 :=
  Pipeline.Window.ofSpec (Memref.whole main_v205) S1x256.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v206) S1x256.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v207) S512x256.size cc15_transform_3 reads15_3 true false 1 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v207) S512x256.size cc16_transform_0 reads16_0 false false 1 stage16_0 sem16_0
    hrank16 hreads16_0 hinb16_0 nbuf16_0 (Memref.isWhole_whole _) hwx16_0 hstage16_0

abbrev win16_1 : Pipeline.Window sig grid16 :=
  Pipeline.Window.ofSpec (Memref.whole main_v209) S256x128.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v212) S1x128.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v213) S512x128.size cc16_transform_3 reads16_3 true false 1 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_v213) S512x128.size cc17_transform_0 reads17_0 false false 1 stage17_0 sem17_0
    hrank17 hreads17_0 hinb17_0 nbuf17_0 (Memref.isWhole_whole _) hwx17_0 hstage17_0

abbrev win17_1 : Pipeline.Window sig grid17 :=
  Pipeline.Window.ofSpec (Memref.whole main_v228) S1x128.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v229) S1x128.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v230) S512x128.size cc17_transform_3 reads17_3 true false 1 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v239) S8000x128.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg1) S8000x8.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v241) S8x128.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v244) S1x128.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v245) S8000x128.size cc18_transform_4 reads18_4 true false 2 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v238) S2000x128.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v248) S2000x128.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v250) S128x256.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v253) S1x256.size cc19_transform_3 reads19_3 false true 1 stage19_3 sem19_3
    hrank19 hreads19_3 hinb19_3 nbuf19_3 (Memref.isWhole_whole _) hwx19_3 hstage19_3

abbrev win19_4 : Pipeline.Window sig grid19 :=
  Pipeline.Window.ofSpec (Memref.whole main_v254) S2000x256.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v254) S2000x256.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v269) S1x256.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v270) S1x256.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v271) S2000x256.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_v271) S2000x256.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v273) S256x128.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v276) S1x128.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v277) S2000x128.size cc21_transform_3 reads21_3 true false 2 stage21_3 sem21_3
    hrank21 hreads21_3 hinb21_3 nbuf21_3 (Memref.isWhole_whole _) hwx21_3 hstage21_3

abbrev win21 : Fin 4 → Pipeline.Window sig grid21 := fun | 0 => win21_0 | 1 => win21_1 | 2 => win21_2 | 3 => win21_3 | ⟨_ + 4, h⟩ => absurd h (Nat.not_lt.2 (Nat.le_add_left _ _))
abbrev spec21 : Fin 4 → Pipeline.WinSpec sig grid21.rank := fun w => (win21 w).toWinSpec

abbrev win22_0 : Pipeline.Window sig grid22 :=
  Pipeline.Window.ofSpec (Memref.whole main_v277) S2000x128.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v292) S1x128.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v293) S1x128.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v294) S2000x128.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

class Facts : Prop extends Facts₀ where

variable [Facts]
-- ==== ReferenceIdeal.lean ====
abbrev S50000x128 : Shape := ⟨2, ![50000, 128]⟩
abbrev S800000x8 : Shape := ⟨2, ![800000, 8]⟩
abbrev S1x128 : Shape := ⟨2, ![1, 128]⟩
abbrev S3x8x128 : Shape := ⟨3, ![3, 8, 128]⟩
abbrev S3x128 : Shape := ⟨2, ![3, 128]⟩
abbrev S3x128x256 : Shape := ⟨3, ![3, 128, 256]⟩
abbrev S3x256 : Shape := ⟨2, ![3, 256]⟩
abbrev S3x256x128 : Shape := ⟨3, ![3, 256, 128]⟩
abbrev S2x128x256 : Shape := ⟨3, ![2, 128, 256]⟩
abbrev S2x256 : Shape := ⟨2, ![2, 256]⟩
abbrev S2x256x128 : Shape := ⟨3, ![2, 256, 128]⟩
abbrev S2x128 : Shape := ⟨2, ![2, 128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S512x128 : Shape := ⟨2, ![512, 128]⟩
abbrev S_ : Shape := ⟨0, ![]⟩
abbrev S50000x1 : Shape := ⟨2, ![50000, 1]⟩
abbrev S1x8x128 : Shape := ⟨3, ![1, 8, 128]⟩
abbrev S8x128 : Shape := ⟨2, ![8, 128]⟩
abbrev S800000x128 : Shape := ⟨2, ![800000, 128]⟩
abbrev S128 : Shape := ⟨1, ![128]⟩
abbrev S800000x1 : Shape := ⟨2, ![800000, 1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 733
  | .vmem => 0
  | .smem => 0
  | _ => 0

abbrev hbmTy0_0 (i : Nat) : BufTy := match i % 128 with
  | 0 => ⟨S50000x128, .f32⟩
  | 1 => ⟨S800000x8, .f32⟩
  | 2 => ⟨S1x128, .f32⟩
  | 3 => ⟨S3x8x128, .f32⟩
  | 4 => ⟨S3x128, .f32⟩
  | 5 => ⟨S3x128x256, .f32⟩
  | 6 => ⟨S3x256, .f32⟩
  | 7 => ⟨S3x256, .f32⟩
  | 8 => ⟨S3x256, .f32⟩
  | 9 => ⟨S3x256x128, .f32⟩
  | 10 => ⟨S3x128, .f32⟩
  | 11 => ⟨S3x128, .f32⟩
  | 12 => ⟨S3x128, .f32⟩
  | 13 => ⟨S2x128x256, .f32⟩
  | 14 => ⟨S2x256, .f32⟩
  | 15 => ⟨S2x256, .f32⟩
  | 16 => ⟨S2x256, .f32⟩
  | 17 => ⟨S2x256x128, .f32⟩
  | 18 => ⟨S2x128, .f32⟩
  | 19 => ⟨S2x128, .f32⟩
  | 20 => ⟨S2x128, .f32⟩
  | 21 => ⟨S2x800000, .i32⟩
  | 22 => ⟨S50000, .i32⟩
  | 23 => ⟨S1x800000, .i32⟩
  | 24 => ⟨S800000, .i32⟩
  | 25 => ⟨S1x800000, .i32⟩
  | 26 => ⟨S800000, .i32⟩
  | 27 => ⟨S512x128, .f32⟩
  | 28 => ⟨S_, .i32⟩
  | 29 => ⟨S50000, .i32⟩
  | 30 => ⟨S50000, .i1⟩
  | 31 => ⟨S_, .i32⟩
  | 32 => ⟨S50000, .i32⟩
  | 33 => ⟨S50000, .i32⟩
  | 34 => ⟨S50000, .i32⟩
  | 35 => ⟨S50000x1, .i32⟩
  | 36 => ⟨S50000x128, .f32⟩
  | 37 => ⟨S50000x128, .f32⟩
  | 38 => ⟨S1x8x128, .f32⟩
  | 39 => ⟨S8x128, .f32⟩
  | 40 => ⟨S800000x128, .f32⟩
  | 41 => ⟨S1x128, .f32⟩
  | 42 => ⟨S128, .f32⟩
  | 43 => ⟨S1x128, .f32⟩
  | 44 => ⟨S800000x128, .f32⟩
  | 45 => ⟨S800000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S_, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S50000x128, .f32⟩
  | 64 => ⟨S1x128x256, .f32⟩
  | 65 => ⟨S128x256, .f32⟩
  | 66 => ⟨S50000x256, .f32⟩
  | 67 => ⟨S1x256, .f32⟩
  | 68 => ⟨S256, .f32⟩
  | 69 => ⟨S1x256, .f32⟩
  | 70 => ⟨S50000x256, .f32⟩
  | 71 => ⟨S50000x256, .f32⟩
  | 72 => ⟨S1x256, .f32⟩
  | 73 => ⟨S256, .f32⟩
  | 74 => ⟨S1x256, .f32⟩
  | 75 => ⟨S256, .f32⟩
  | 76 => ⟨S_, .f32⟩
  | 77 => ⟨S256, .f32⟩
  | 78 => ⟨S_, .f32⟩
  | 79 => ⟨S256, .f32⟩
  | 80 => ⟨S256, .f32⟩
  | 81 => ⟨S_, .i32⟩
  | 82 => ⟨S_, .f32⟩
  | 83 => ⟨S256, .f32⟩
  | 84 => ⟨S1x256, .f32⟩
  | 85 => ⟨S_, .f32⟩
  | 86 => ⟨S1x256, .f32⟩
  | 87 => ⟨S1x256, .f32⟩
  | 88 => ⟨S50000x256, .f32⟩
  | 89 => ⟨S50000x256, .f32⟩
  | 90 => ⟨S50000x256, .f32⟩
  | 91 => ⟨S_, .f32⟩
  | 92 => ⟨S_, .f32⟩
  | 93 => ⟨S_, .f32⟩
  | 94 => ⟨S_, .f32⟩
  | 95 => ⟨S256, .f32⟩
  | 96 => ⟨S256, .f32⟩
  | 97 => ⟨S256, .f32⟩
  | 98 => ⟨S_, .f32⟩
  | 99 => ⟨S_, .i1⟩
  | 100 => ⟨S_, .f32⟩
  | 101 => ⟨S_, .f32⟩
  | 102 => ⟨S256, .f32⟩
  | 103 => ⟨S256, .f32⟩
  | 104 => ⟨S1x256, .f32⟩
  | 105 => ⟨S50000x256, .f32⟩
  | 106 => ⟨S50000x256, .f32⟩
  | 107 => ⟨S1x256, .f32⟩
  | 108 => ⟨S50000x256, .f32⟩
  | 109 => ⟨S50000x256, .f32⟩
  | 110 => ⟨S_, .f32⟩
  | 111 => ⟨S256, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S1x256x128, .f32⟩
  | 124 => ⟨S256x128, .f32⟩
  | 125 => ⟨S50000x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S128, .f32⟩
  | 5 => ⟨S1x128, .f32⟩
  | 6 => ⟨S128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S128, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .f32⟩
  | 55 => ⟨S512x128, .f32⟩
  | 56 => ⟨S50000x1, .i32⟩
  | 57 => ⟨S512x128, .f32⟩
  | 58 => ⟨S512x128, .f32⟩
  | 59 => ⟨S1x128x256, .f32⟩
  | 60 => ⟨S128x256, .f32⟩
  | 61 => ⟨S512x256, .f32⟩
  | 62 => ⟨S1x256, .f32⟩
  | 63 => ⟨S256, .f32⟩
  | 64 => ⟨S1x256, .f32⟩
  | 65 => ⟨S512x256, .f32⟩
  | 66 => ⟨S512x256, .f32⟩
  | 67 => ⟨S1x256, .f32⟩
  | 68 => ⟨S256, .f32⟩
  | 69 => ⟨S1x256, .f32⟩
  | 70 => ⟨S256, .f32⟩
  | 71 => ⟨S_, .f32⟩
  | 72 => ⟨S256, .f32⟩
  | 73 => ⟨S_, .f32⟩
  | 74 => ⟨S256, .f32⟩
  | 75 => ⟨S256, .f32⟩
  | 76 => ⟨S_, .i32⟩
  | 77 => ⟨S_, .f32⟩
  | 78 => ⟨S256, .f32⟩
  | 79 => ⟨S1x256, .f32⟩
  | 80 => ⟨S_, .f32⟩
  | 81 => ⟨S1x256, .f32⟩
  | 82 => ⟨S1x256, .f32⟩
  | 83 => ⟨S512x256, .f32⟩
  | 84 => ⟨S512x256, .f32⟩
  | 85 => ⟨S512x256, .f32⟩
  | 86 => ⟨S_, .f32⟩
  | 87 => ⟨S_, .f32⟩
  | 88 => ⟨S_, .f32⟩
  | 89 => ⟨S_, .f32⟩
  | 90 => ⟨S256, .f32⟩
  | 91 => ⟨S256, .f32⟩
  | 92 => ⟨S256, .f32⟩
  | 93 => ⟨S_, .f32⟩
  | 94 => ⟨S_, .i1⟩
  | 95 => ⟨S_, .f32⟩
  | 96 => ⟨S_, .f32⟩
  | 97 => ⟨S256, .f32⟩
  | 98 => ⟨S256, .f32⟩
  | 99 => ⟨S1x256, .f32⟩
  | 100 => ⟨S512x256, .f32⟩
  | 101 => ⟨S512x256, .f32⟩
  | 102 => ⟨S1x256, .f32⟩
  | 103 => ⟨S512x256, .f32⟩
  | 104 => ⟨S512x256, .f32⟩
  | 105 => ⟨S_, .f32⟩
  | 106 => ⟨S256, .f32⟩
  | 107 => ⟨S256, .f32⟩
  | 108 => ⟨S256, .f32⟩
  | 109 => ⟨S1x256, .f32⟩
  | 110 => ⟨S512x256, .f32⟩
  | 111 => ⟨S512x256, .f32⟩
  | 112 => ⟨S1x256, .f32⟩
  | 113 => ⟨S512x256, .f32⟩
  | 114 => ⟨S512x256, .f32⟩
  | 115 => ⟨S_, .f32⟩
  | 116 => ⟨S512x256, .f32⟩
  | 117 => ⟨S512x256, .f32⟩
  | 118 => ⟨S1x256x128, .f32⟩
  | 119 => ⟨S256x128, .f32⟩
  | 120 => ⟨S512x128, .f32⟩
  | 121 => ⟨S1x128, .f32⟩
  | 122 => ⟨S128, .f32⟩
  | 123 => ⟨S1x128, .f32⟩
  | 124 => ⟨S512x128, .f32⟩
  | 125 => ⟨S512x128, .f32⟩
  | 126 => ⟨S1x128, .f32⟩
  | 127 => ⟨S128, .f32⟩
  | _ => ⟨S50000x128, .f32⟩

abbrev hbmTy0_2 (i : Nat) : BufTy := match i % 128 with
  | 0 => ⟨S1x128, .f32⟩
  | 1 => ⟨S128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S512x128, .f32⟩
  | 15 => ⟨S512x128, .f32⟩
  | 16 => ⟨S512x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S512x128, .f32⟩
  | 32 => ⟨S512x128, .f32⟩
  | 33 => ⟨S1x128, .f32⟩
  | 34 => ⟨S512x128, .f32⟩
  | 35 => ⟨S512x128, .f32⟩
  | 36 => ⟨S_, .f32⟩
  | 37 => ⟨S128, .f32⟩
  | 38 => ⟨S128, .f32⟩
  | 39 => ⟨S128, .f32⟩
  | 40 => ⟨S1x128, .f32⟩
  | 41 => ⟨S512x128, .f32⟩
  | 42 => ⟨S512x128, .f32⟩
  | 43 => ⟨S1x128, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x128, .f32⟩
  | 58 => ⟨S50000x128, .f32⟩
  | 59 => ⟨S1x8x128, .f32⟩
  | 60 => ⟨S8x128, .f32⟩
  | 61 => ⟨S800000x128, .f32⟩
  | 62 => ⟨S1x128, .f32⟩
  | 63 => ⟨S128, .f32⟩
  | 64 => ⟨S1x128, .f32⟩
  | 65 => ⟨S800000x128, .f32⟩
  | 66 => ⟨S800000x128, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x128, .f32⟩
  | 76 => ⟨S800000x128, .f32⟩
  | 77 => ⟨S_, .f32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S1x128x256, .f32⟩
  | 86 => ⟨S128x256, .f32⟩
  | 87 => ⟨S50000x256, .f32⟩
  | 88 => ⟨S1x256, .f32⟩
  | 89 => ⟨S256, .f32⟩
  | 90 => ⟨S1x256, .f32⟩
  | 91 => ⟨S50000x256, .f32⟩
  | 92 => ⟨S50000x256, .f32⟩
  | 93 => ⟨S1x256, .f32⟩
  | 94 => ⟨S256, .f32⟩
  | 95 => ⟨S1x256, .f32⟩
  | 96 => ⟨S256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_3 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S1x256x128, .f32⟩
  | 17 => ⟨S256x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S1x128, .f32⟩
  | 25 => ⟨S128, .f32⟩
  | 26 => ⟨S1x128, .f32⟩
  | 27 => ⟨S128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S50000x128, .f32⟩
  | 41 => ⟨S50000x128, .f32⟩
  | 42 => ⟨S50000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S1x128, .f32⟩
  | 57 => ⟨S50000x128, .f32⟩
  | 58 => ⟨S50000x128, .f32⟩
  | 59 => ⟨S1x128, .f32⟩
  | 60 => ⟨S50000x128, .f32⟩
  | 61 => ⟨S50000x128, .f32⟩
  | 62 => ⟨S_, .f32⟩
  | 63 => ⟨S128, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S_, .f32⟩
  | 76 => ⟨S512x128, .f32⟩
  | 77 => ⟨S50000x1, .i32⟩
  | 78 => ⟨S512x128, .f32⟩
  | 79 => ⟨S512x128, .f32⟩
  | 80 => ⟨S1x128x256, .f32⟩
  | 81 => ⟨S128x256, .f32⟩
  | 82 => ⟨S512x256, .f32⟩
  | 83 => ⟨S1x256, .f32⟩
  | 84 => ⟨S256, .f32⟩
  | 85 => ⟨S1x256, .f32⟩
  | 86 => ⟨S512x256, .f32⟩
  | 87 => ⟨S512x256, .f32⟩
  | 88 => ⟨S1x256, .f32⟩
  | 89 => ⟨S256, .f32⟩
  | 90 => ⟨S1x256, .f32⟩
  | 91 => ⟨S256, .f32⟩
  | 92 => ⟨S_, .f32⟩
  | 93 => ⟨S256, .f32⟩
  | 94 => ⟨S_, .f32⟩
  | 95 => ⟨S256, .f32⟩
  | 96 => ⟨S256, .f32⟩
  | 97 => ⟨S_, .i32⟩
  | 98 => ⟨S_, .f32⟩
  | 99 => ⟨S256, .f32⟩
  | 100 => ⟨S1x256, .f32⟩
  | 101 => ⟨S_, .f32⟩
  | 102 => ⟨S1x256, .f32⟩
  | 103 => ⟨S1x256, .f32⟩
  | 104 => ⟨S512x256, .f32⟩
  | 105 => ⟨S512x256, .f32⟩
  | 106 => ⟨S512x256, .f32⟩
  | 107 => ⟨S_, .f32⟩
  | 108 => ⟨S_, .f32⟩
  | 109 => ⟨S_, .f32⟩
  | 110 => ⟨S_, .f32⟩
  | 111 => ⟨S256, .f32⟩
  | 112 => ⟨S256, .f32⟩
  | 113 => ⟨S256, .f32⟩
  | 114 => ⟨S_, .f32⟩
  | 115 => ⟨S_, .i1⟩
  | 116 => ⟨S_, .f32⟩
  | 117 => ⟨S_, .f32⟩
  | 118 => ⟨S256, .f32⟩
  | 119 => ⟨S256, .f32⟩
  | 120 => ⟨S1x256, .f32⟩
  | 121 => ⟨S512x256, .f32⟩
  | 122 => ⟨S512x256, .f32⟩
  | 123 => ⟨S1x256, .f32⟩
  | 124 => ⟨S512x256, .f32⟩
  | 125 => ⟨S512x256, .f32⟩
  | 126 => ⟨S_, .f32⟩
  | 127 => ⟨S256, .f32⟩
  | _ => ⟨S50000x128, .f32⟩

abbrev hbmTy0_4 (i : Nat) : BufTy := match i % 128 with
  | 0 => ⟨S256, .f32⟩
  | 1 => ⟨S256, .f32⟩
  | 2 => ⟨S1x256, .f32⟩
  | 3 => ⟨S512x256, .f32⟩
  | 4 => ⟨S512x256, .f32⟩
  | 5 => ⟨S1x256, .f32⟩
  | 6 => ⟨S512x256, .f32⟩
  | 7 => ⟨S512x256, .f32⟩
  | 8 => ⟨S_, .f32⟩
  | 9 => ⟨S512x256, .f32⟩
  | 10 => ⟨S512x256, .f32⟩
  | 11 => ⟨S1x256x128, .f32⟩
  | 12 => ⟨S256x128, .f32⟩
  | 13 => ⟨S512x128, .f32⟩
  | 14 => ⟨S1x128, .f32⟩
  | 15 => ⟨S128, .f32⟩
  | 16 => ⟨S1x128, .f32⟩
  | 17 => ⟨S512x128, .f32⟩
  | 18 => ⟨S512x128, .f32⟩
  | 19 => ⟨S1x128, .f32⟩
  | 20 => ⟨S128, .f32⟩
  | 21 => ⟨S1x128, .f32⟩
  | 22 => ⟨S128, .f32⟩
  | 23 => ⟨S_, .f32⟩
  | 24 => ⟨S128, .f32⟩
  | 25 => ⟨S_, .f32⟩
  | 26 => ⟨S128, .f32⟩
  | 27 => ⟨S128, .f32⟩
  | 28 => ⟨S_, .i32⟩
  | 29 => ⟨S_, .f32⟩
  | 30 => ⟨S128, .f32⟩
  | 31 => ⟨S1x128, .f32⟩
  | 32 => ⟨S_, .f32⟩
  | 33 => ⟨S1x128, .f32⟩
  | 34 => ⟨S1x128, .f32⟩
  | 35 => ⟨S512x128, .f32⟩
  | 36 => ⟨S512x128, .f32⟩
  | 37 => ⟨S512x128, .f32⟩
  | 38 => ⟨S_, .f32⟩
  | 39 => ⟨S_, .f32⟩
  | 40 => ⟨S_, .f32⟩
  | 41 => ⟨S_, .f32⟩
  | 42 => ⟨S128, .f32⟩
  | 43 => ⟨S128, .f32⟩
  | 44 => ⟨S128, .f32⟩
  | 45 => ⟨S_, .f32⟩
  | 46 => ⟨S_, .i1⟩
  | 47 => ⟨S_, .f32⟩
  | 48 => ⟨S_, .f32⟩
  | 49 => ⟨S128, .f32⟩
  | 50 => ⟨S128, .f32⟩
  | 51 => ⟨S1x128, .f32⟩
  | 52 => ⟨S512x128, .f32⟩
  | 53 => ⟨S512x128, .f32⟩
  | 54 => ⟨S1x128, .f32⟩
  | 55 => ⟨S512x128, .f32⟩
  | 56 => ⟨S512x128, .f32⟩
  | 57 => ⟨S_, .f32⟩
  | 58 => ⟨S128, .f32⟩
  | 59 => ⟨S128, .f32⟩
  | 60 => ⟨S128, .f32⟩
  | 61 => ⟨S1x128, .f32⟩
  | 62 => ⟨S512x128, .f32⟩
  | 63 => ⟨S512x128, .f32⟩
  | 64 => ⟨S1x128, .f32⟩
  | 65 => ⟨S512x128, .f32⟩
  | 66 => ⟨S512x128, .f32⟩
  | 67 => ⟨S_, .f32⟩
  | 68 => ⟨S512x128, .f32⟩
  | 69 => ⟨S512x128, .f32⟩
  | 70 => ⟨S_, .i32⟩
  | 71 => ⟨S50000, .i32⟩
  | 72 => ⟨S50000, .i1⟩
  | 73 => ⟨S_, .i32⟩
  | 74 => ⟨S50000, .i32⟩
  | 75 => ⟨S50000, .i32⟩
  | 76 => ⟨S50000, .i32⟩
  | 77 => ⟨S50000x1, .i32⟩
  | 78 => ⟨S50000x128, .f32⟩
  | 79 => ⟨S50000x128, .f32⟩
  | 80 => ⟨S1x8x128, .f32⟩
  | 81 => ⟨S8x128, .f32⟩
  | 82 => ⟨S800000x128, .f32⟩
  | 83 => ⟨S1x128, .f32⟩
  | 84 => ⟨S128, .f32⟩
  | 85 => ⟨S1x128, .f32⟩
  | 86 => ⟨S800000x128, .f32⟩
  | 87 => ⟨S800000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x128, .f32⟩
  | 98 => ⟨S_, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S50000x128, .f32⟩
  | 106 => ⟨S1x128x256, .f32⟩
  | 107 => ⟨S128x256, .f32⟩
  | 108 => ⟨S50000x256, .f32⟩
  | 109 => ⟨S1x256, .f32⟩
  | 110 => ⟨S256, .f32⟩
  | 111 => ⟨S1x256, .f32⟩
  | 112 => ⟨S50000x256, .f32⟩
  | 113 => ⟨S50000x256, .f32⟩
  | 114 => ⟨S1x256, .f32⟩
  | 115 => ⟨S256, .f32⟩
  | 116 => ⟨S1x256, .f32⟩
  | 117 => ⟨S256, .f32⟩
  | 118 => ⟨S_, .f32⟩
  | 119 => ⟨S256, .f32⟩
  | 120 => ⟨S_, .f32⟩
  | 121 => ⟨S256, .f32⟩
  | 122 => ⟨S256, .f32⟩
  | 123 => ⟨S_, .i32⟩
  | 124 => ⟨S_, .f32⟩
  | 125 => ⟨S256, .f32⟩
  | 126 => ⟨S1x256, .f32⟩
  | 127 => ⟨S_, .f32⟩
  | _ => ⟨S50000x128, .f32⟩

abbrev hbmTy0_5 (i : Nat) : BufTy := match i % 128 with
  | 0 => ⟨S1x256, .f32⟩
  | 1 => ⟨S1x256, .f32⟩
  | 2 => ⟨S50000x256, .f32⟩
  | 3 => ⟨S50000x256, .f32⟩
  | 4 => ⟨S50000x256, .f32⟩
  | 5 => ⟨S_, .f32⟩
  | 6 => ⟨S_, .f32⟩
  | 7 => ⟨S_, .f32⟩
  | 8 => ⟨S_, .f32⟩
  | 9 => ⟨S256, .f32⟩
  | 10 => ⟨S256, .f32⟩
  | 11 => ⟨S256, .f32⟩
  | 12 => ⟨S_, .f32⟩
  | 13 => ⟨S_, .i1⟩
  | 14 => ⟨S_, .f32⟩
  | 15 => ⟨S_, .f32⟩
  | 16 => ⟨S256, .f32⟩
  | 17 => ⟨S256, .f32⟩
  | 18 => ⟨S1x256, .f32⟩
  | 19 => ⟨S50000x256, .f32⟩
  | 20 => ⟨S50000x256, .f32⟩
  | 21 => ⟨S1x256, .f32⟩
  | 22 => ⟨S50000x256, .f32⟩
  | 23 => ⟨S50000x256, .f32⟩
  | 24 => ⟨S_, .f32⟩
  | 25 => ⟨S256, .f32⟩
  | 26 => ⟨S256, .f32⟩
  | 27 => ⟨S256, .f32⟩
  | 28 => ⟨S1x256, .f32⟩
  | 29 => ⟨S50000x256, .f32⟩
  | 30 => ⟨S50000x256, .f32⟩
  | 31 => ⟨S1x256, .f32⟩
  | 32 => ⟨S50000x256, .f32⟩
  | 33 => ⟨S50000x256, .f32⟩
  | 34 => ⟨S_, .f32⟩
  | 35 => ⟨S50000x256, .f32⟩
  | 36 => ⟨S50000x256, .f32⟩
  | 37 => ⟨S1x256x128, .f32⟩
  | 38 => ⟨S256x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_call0_cst : Ref sig .tc := ⟨.hbm, 56, rfl⟩
abbrev main_call0_v0 : Ref sig .tc := ⟨.hbm, 57, rfl⟩
abbrev main_v29 : Ref sig .tc := ⟨.hbm, 58, rfl⟩
abbrev main_cst : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_3 : Ref sig .tc := ⟨.hbm, 76, rfl⟩
abbrev main_v46 : Ref sig .tc := ⟨.hbm, 77, rfl⟩
abbrev main_cst_4 : Ref sig .tc := ⟨.hbm, 78, rfl⟩
abbrev main_v47 : Ref sig .tc := ⟨.hbm, 79, rfl⟩
abbrev main_v48 : Ref sig .tc := ⟨.hbm, 80, rfl⟩
abbrev main_c_5 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_cst_3 : Ref sig .tc := ⟨.hbm, 98, rfl⟩
abbrev main_call1_v12 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_6 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_call2_cst : Ref sig .tc := ⟨.hbm, 120, rfl⟩
abbrev main_call2_v0 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_7 : Ref sig .tc := ⟨.hbm, 135, rfl⟩
abbrev main_v78 : Ref sig .tc := ⟨.hbm, 136, rfl⟩
abbrev main_cst_8 : Ref sig .tc := ⟨.hbm, 137, rfl⟩
abbrev main_v79 : Ref sig .tc := ⟨.hbm, 138, rfl⟩
abbrev main_v80 : Ref sig .tc := ⟨.hbm, 139, rfl⟩
abbrev main_c_9 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_call3_v5 : Ref sig .tc := ⟨.hbm, 148, rfl⟩
abbrev main_call3_v6 : Ref sig .tc := ⟨.hbm, 149, rfl⟩
abbrev main_call3_v7 : Ref sig .tc := ⟨.hbm, 150, rfl⟩
abbrev main_call3_cst_1 : Ref sig .tc := ⟨.hbm, 151, rfl⟩
abbrev main_call3_v8 : Ref sig .tc := ⟨.hbm, 152, rfl⟩
abbrev main_call3_cst_2 : Ref sig .tc := ⟨.hbm, 153, rfl⟩
abbrev main_call3_v9 : Ref sig .tc := ⟨.hbm, 154, rfl⟩
abbrev main_call3_v10 : Ref sig .tc := ⟨.hbm, 155, rfl⟩
abbrev main_call3_v11 : Ref sig .tc := ⟨.hbm, 156, rfl⟩
abbrev main_call3_cst_3 : Ref sig .tc := ⟨.hbm, 157, rfl⟩
abbrev main_call3_v12 : Ref sig .tc := ⟨.hbm, 158, rfl⟩
abbrev main_call3_cst_4 : Ref sig .tc := ⟨.hbm, 159, rfl⟩
abbrev main_call3_call0_v0 : Ref sig .tc := ⟨.hbm, 160, rfl⟩
abbrev main_call3_call0_v1 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_cst_10 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_call4_cst : Ref sig .tc := ⟨.hbm, 179, rfl⟩
abbrev main_call4_v0 : Ref sig .tc := ⟨.hbm, 180, rfl⟩
abbrev main_v97 : Ref sig .tc := ⟨.hbm, 181, rfl⟩
abbrev main_cst_11 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_cst_12 : Ref sig .tc := ⟨.hbm, 199, rfl⟩
abbrev main_v114 : Ref sig .tc := ⟨.hbm, 200, rfl⟩
abbrev main_cst_13 : Ref sig .tc := ⟨.hbm, 201, rfl⟩
abbrev main_v115 : Ref sig .tc := ⟨.hbm, 202, rfl⟩
abbrev main_v116 : Ref sig .tc := ⟨.hbm, 203, rfl⟩
abbrev main_c_14 : Ref sig .tc := ⟨.hbm, 204, rfl⟩
abbrev main_call5_cst : Ref sig .tc := ⟨.hbm, 205, rfl⟩
abbrev main_call5_v0 : Ref sig .tc := ⟨.hbm, 206, rfl⟩
abbrev main_call5_v1 : Ref sig .tc := ⟨.hbm, 207, rfl⟩
abbrev main_call5_cst_0 : Ref sig .tc := ⟨.hbm, 208, rfl⟩
abbrev main_call5_v2 : Ref sig .tc := ⟨.hbm, 209, rfl⟩
abbrev main_call5_v3 : Ref sig .tc := ⟨.hbm, 210, rfl⟩
abbrev main_call5_v4 : Ref sig .tc := ⟨.hbm, 211, rfl⟩
abbrev main_call5_v5 : Ref sig .tc := ⟨.hbm, 212, rfl⟩
abbrev main_call5_v6 : Ref sig .tc := ⟨.hbm, 213, rfl⟩
abbrev main_call5_v7 : Ref sig .tc := ⟨.hbm, 214, rfl⟩
abbrev main_call5_cst_1 : Ref sig .tc := ⟨.hbm, 215, rfl⟩
abbrev main_call5_v8 : Ref sig .tc := ⟨.hbm, 216, rfl⟩
abbrev main_call5_cst_2 : Ref sig .tc := ⟨.hbm, 217, rfl⟩
abbrev main_call5_v9 : Ref sig .tc := ⟨.hbm, 218, rfl⟩
abbrev main_call5_v10 : Ref sig .tc := ⟨.hbm, 219, rfl⟩
abbrev main_call5_v11 : Ref sig .tc := ⟨.hbm, 220, rfl⟩
abbrev main_call5_cst_3 : Ref sig .tc := ⟨.hbm, 221, rfl⟩
abbrev main_call5_v12 : Ref sig .tc := ⟨.hbm, 222, rfl⟩
abbrev main_call5_cst_4 : Ref sig .tc := ⟨.hbm, 223, rfl⟩
abbrev main_call5_call0_v0 : Ref sig .tc := ⟨.hbm, 224, rfl⟩
abbrev main_call5_call0_v1 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_cst_15 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_v128 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_v132 : Ref sig .tc := ⟨.hbm, 242, rfl⟩
abbrev main_call6_cst : Ref sig .tc := ⟨.hbm, 243, rfl⟩
abbrev main_call6_v0 : Ref sig .tc := ⟨.hbm, 244, rfl⟩
abbrev main_v133 : Ref sig .tc := ⟨.hbm, 245, rfl⟩
abbrev main_v134 : Ref sig .tc := ⟨.hbm, 246, rfl⟩
abbrev main_v135 : Ref sig .tc := ⟨.hbm, 247, rfl⟩
abbrev main_v136 : Ref sig .tc := ⟨.hbm, 248, rfl⟩
abbrev main_v137 : Ref sig .tc := ⟨.hbm, 249, rfl⟩
abbrev main_v138 : Ref sig .tc := ⟨.hbm, 250, rfl⟩
abbrev main_v139 : Ref sig .tc := ⟨.hbm, 251, rfl⟩
abbrev main_v140 : Ref sig .tc := ⟨.hbm, 252, rfl⟩
abbrev main_v141 : Ref sig .tc := ⟨.hbm, 253, rfl⟩
abbrev main_v142 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩
abbrev main_cst_16 : Ref sig .tc := ⟨.hbm, 258, rfl⟩
abbrev main_v146 : Ref sig .tc := ⟨.hbm, 259, rfl⟩
abbrev main_cst_17 : Ref sig .tc := ⟨.hbm, 260, rfl⟩
abbrev main_v147 : Ref sig .tc := ⟨.hbm, 261, rfl⟩
abbrev main_v148 : Ref sig .tc := ⟨.hbm, 262, rfl⟩
abbrev main_c_18 : Ref sig .tc := ⟨.hbm, 263, rfl⟩
abbrev main_call7_cst : Ref sig .tc := ⟨.hbm, 264, rfl⟩
abbrev main_call7_v0 : Ref sig .tc := ⟨.hbm, 265, rfl⟩
abbrev main_call7_v1 : Ref sig .tc := ⟨.hbm, 266, rfl⟩
abbrev main_call7_cst_0 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_call7_v5 : Ref sig .tc := ⟨.hbm, 271, rfl⟩
abbrev main_call7_v6 : Ref sig .tc := ⟨.hbm, 272, rfl⟩
abbrev main_call7_v7 : Ref sig .tc := ⟨.hbm, 273, rfl⟩
abbrev main_call7_cst_1 : Ref sig .tc := ⟨.hbm, 274, rfl⟩
abbrev main_call7_v8 : Ref sig .tc := ⟨.hbm, 275, rfl⟩
abbrev main_call7_cst_2 : Ref sig .tc := ⟨.hbm, 276, rfl⟩
abbrev main_call7_v9 : Ref sig .tc := ⟨.hbm, 277, rfl⟩
abbrev main_call7_v10 : Ref sig .tc := ⟨.hbm, 278, rfl⟩
abbrev main_call7_v11 : Ref sig .tc := ⟨.hbm, 279, rfl⟩
abbrev main_call7_cst_3 : Ref sig .tc := ⟨.hbm, 280, rfl⟩
abbrev main_call7_v12 : Ref sig .tc := ⟨.hbm, 281, rfl⟩
abbrev main_call7_cst_4 : Ref sig .tc := ⟨.hbm, 282, rfl⟩
abbrev main_call7_call0_v0 : Ref sig .tc := ⟨.hbm, 283, rfl⟩
abbrev main_call7_call0_v1 : Ref sig .tc := ⟨.hbm, 284, rfl⟩
abbrev main_v149 : Ref sig .tc := ⟨.hbm, 285, rfl⟩
abbrev main_v150 : Ref sig .tc := ⟨.hbm, 286, rfl⟩
abbrev main_v151 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩
abbrev main_cst_19 : Ref sig .tc := ⟨.hbm, 292, rfl⟩
abbrev main_v156 : Ref sig .tc := ⟨.hbm, 293, rfl⟩
abbrev main_v157 : Ref sig .tc := ⟨.hbm, 294, rfl⟩
abbrev main_v158 : Ref sig .tc := ⟨.hbm, 295, rfl⟩
abbrev main_v159 : Ref sig .tc := ⟨.hbm, 296, rfl⟩
abbrev main_v160 : Ref sig .tc := ⟨.hbm, 297, rfl⟩
abbrev main_v161 : Ref sig .tc := ⟨.hbm, 298, rfl⟩
abbrev main_v162 : Ref sig .tc := ⟨.hbm, 299, rfl⟩
abbrev main_v163 : Ref sig .tc := ⟨.hbm, 300, rfl⟩
abbrev main_v164 : Ref sig .tc := ⟨.hbm, 301, rfl⟩
abbrev main_call8_cst : Ref sig .tc := ⟨.hbm, 302, rfl⟩
abbrev main_call8_v0 : Ref sig .tc := ⟨.hbm, 303, rfl⟩
abbrev main_v165 : Ref sig .tc := ⟨.hbm, 304, rfl⟩
abbrev main_c_20 : Ref sig .tc := ⟨.hbm, 305, rfl⟩
abbrev main_v166 : Ref sig .tc := ⟨.hbm, 306, rfl⟩
abbrev main_v167 : Ref sig .tc := ⟨.hbm, 307, rfl⟩
abbrev main_c_21 : Ref sig .tc := ⟨.hbm, 308, rfl⟩
abbrev main_v168 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_c_22 : Ref sig .tc := ⟨.hbm, 323, rfl⟩
abbrev main_v182 : Ref sig .tc := ⟨.hbm, 324, rfl⟩
abbrev main_v183 : Ref sig .tc := ⟨.hbm, 325, rfl⟩
abbrev main_c_23 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_call9_cst : Ref sig .tc := ⟨.hbm, 333, rfl⟩
abbrev main_call9_v0 : Ref sig .tc := ⟨.hbm, 334, rfl⟩
abbrev main_v190 : Ref sig .tc := ⟨.hbm, 335, rfl⟩
abbrev main_cst_24 : Ref sig .tc := ⟨.hbm, 336, rfl⟩
abbrev main_v191 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_v200 : Ref sig .tc := ⟨.hbm, 346, rfl⟩
abbrev main_v201 : Ref sig .tc := ⟨.hbm, 347, rfl⟩
abbrev main_v202 : Ref sig .tc := ⟨.hbm, 348, rfl⟩
abbrev main_v203 : Ref sig .tc := ⟨.hbm, 349, rfl⟩
abbrev main_v204 : Ref sig .tc := ⟨.hbm, 350, rfl⟩
abbrev main_v205 : Ref sig .tc := ⟨.hbm, 351, rfl⟩
abbrev main_v206 : Ref sig .tc := ⟨.hbm, 352, rfl⟩
abbrev main_cst_25 : Ref sig .tc := ⟨.hbm, 353, rfl⟩
abbrev main_v207 : Ref sig .tc := ⟨.hbm, 354, rfl⟩
abbrev main_cst_26 : Ref sig .tc := ⟨.hbm, 355, rfl⟩
abbrev main_v208 : Ref sig .tc := ⟨.hbm, 356, rfl⟩
abbrev main_v209 : Ref sig .tc := ⟨.hbm, 357, rfl⟩
abbrev main_c_27 : Ref sig .tc := ⟨.hbm, 358, rfl⟩
abbrev main_call10_cst : Ref sig .tc := ⟨.hbm, 359, rfl⟩
abbrev main_call10_v0 : Ref sig .tc := ⟨.hbm, 360, rfl⟩
abbrev main_call10_v1 : Ref sig .tc := ⟨.hbm, 361, rfl⟩
abbrev main_call10_cst_0 : Ref sig .tc := ⟨.hbm, 362, rfl⟩
abbrev main_call10_v2 : Ref sig .tc := ⟨.hbm, 363, rfl⟩
abbrev main_call10_v3 : Ref sig .tc := ⟨.hbm, 364, rfl⟩
abbrev main_call10_v4 : Ref sig .tc := ⟨.hbm, 365, rfl⟩
abbrev main_call10_v5 : Ref sig .tc := ⟨.hbm, 366, rfl⟩
abbrev main_call10_v6 : Ref sig .tc := ⟨.hbm, 367, rfl⟩
abbrev main_call10_v7 : Ref sig .tc := ⟨.hbm, 368, rfl⟩
abbrev main_call10_cst_1 : Ref sig .tc := ⟨.hbm, 369, rfl⟩
abbrev main_call10_v8 : Ref sig .tc := ⟨.hbm, 370, rfl⟩
abbrev main_call10_cst_2 : Ref sig .tc := ⟨.hbm, 371, rfl⟩
abbrev main_call10_v9 : Ref sig .tc := ⟨.hbm, 372, rfl⟩
abbrev main_call10_v10 : Ref sig .tc := ⟨.hbm, 373, rfl⟩
abbrev main_call10_v11 : Ref sig .tc := ⟨.hbm, 374, rfl⟩
abbrev main_call10_cst_3 : Ref sig .tc := ⟨.hbm, 375, rfl⟩
abbrev main_call10_v12 : Ref sig .tc := ⟨.hbm, 376, rfl⟩
abbrev main_call10_cst_4 : Ref sig .tc := ⟨.hbm, 377, rfl⟩
abbrev main_call10_call0_v0 : Ref sig .tc := ⟨.hbm, 378, rfl⟩
abbrev main_call10_call0_v1 : Ref sig .tc := ⟨.hbm, 379, rfl⟩
abbrev main_v210 : Ref sig .tc := ⟨.hbm, 380, rfl⟩
abbrev main_v211 : Ref sig .tc := ⟨.hbm, 381, rfl⟩
abbrev main_v212 : Ref sig .tc := ⟨.hbm, 382, rfl⟩
abbrev main_v213 : Ref sig .tc := ⟨.hbm, 383, rfl⟩
abbrev main_v214 : Ref sig .tc := ⟨.hbm, 384, rfl⟩
abbrev main_v215 : Ref sig .tc := ⟨.hbm, 385, rfl⟩
abbrev main_v216 : Ref sig .tc := ⟨.hbm, 386, rfl⟩
abbrev main_cst_28 : Ref sig .tc := ⟨.hbm, 387, rfl⟩
abbrev main_v217 : Ref sig .tc := ⟨.hbm, 388, rfl⟩
abbrev main_v218 : Ref sig .tc := ⟨.hbm, 389, rfl⟩
abbrev main_v219 : Ref sig .tc := ⟨.hbm, 390, rfl⟩
abbrev main_v220 : Ref sig .tc := ⟨.hbm, 391, rfl⟩
abbrev main_v221 : Ref sig .tc := ⟨.hbm, 392, rfl⟩
abbrev main_v222 : Ref sig .tc := ⟨.hbm, 393, rfl⟩
abbrev main_v223 : Ref sig .tc := ⟨.hbm, 394, rfl⟩
abbrev main_v224 : Ref sig .tc := ⟨.hbm, 395, rfl⟩
abbrev main_v225 : Ref sig .tc := ⟨.hbm, 396, rfl⟩
abbrev main_call11_cst : Ref sig .tc := ⟨.hbm, 397, rfl⟩
abbrev main_call11_v0 : Ref sig .tc := ⟨.hbm, 398, rfl⟩
abbrev main_v226 : Ref sig .tc := ⟨.hbm, 399, rfl⟩
abbrev main_v227 : Ref sig .tc := ⟨.hbm, 400, rfl⟩
abbrev main_v228 : Ref sig .tc := ⟨.hbm, 401, rfl⟩
abbrev main_v229 : Ref sig .tc := ⟨.hbm, 402, rfl⟩
abbrev main_v230 : Ref sig .tc := ⟨.hbm, 403, rfl⟩
abbrev main_v231 : Ref sig .tc := ⟨.hbm, 404, rfl⟩
abbrev main_v232 : Ref sig .tc := ⟨.hbm, 405, rfl⟩
abbrev main_v233 : Ref sig .tc := ⟨.hbm, 406, rfl⟩
abbrev main_v234 : Ref sig .tc := ⟨.hbm, 407, rfl⟩
abbrev main_v235 : Ref sig .tc := ⟨.hbm, 408, rfl⟩
abbrev main_v236 : Ref sig .tc := ⟨.hbm, 409, rfl⟩
abbrev main_v237 : Ref sig .tc := ⟨.hbm, 410, rfl⟩
abbrev main_v238 : Ref sig .tc := ⟨.hbm, 411, rfl⟩
abbrev main_cst_29 : Ref sig .tc := ⟨.hbm, 412, rfl⟩
abbrev main_v239 : Ref sig .tc := ⟨.hbm, 413, rfl⟩
abbrev main_cst_30 : Ref sig .tc := ⟨.hbm, 414, rfl⟩
abbrev main_v240 : Ref sig .tc := ⟨.hbm, 415, rfl⟩
abbrev main_v241 : Ref sig .tc := ⟨.hbm, 416, rfl⟩
abbrev main_c_31 : Ref sig .tc := ⟨.hbm, 417, rfl⟩
abbrev main_call12_cst : Ref sig .tc := ⟨.hbm, 418, rfl⟩
abbrev main_call12_v0 : Ref sig .tc := ⟨.hbm, 419, rfl⟩
abbrev main_call12_v1 : Ref sig .tc := ⟨.hbm, 420, rfl⟩
abbrev main_call12_cst_0 : Ref sig .tc := ⟨.hbm, 421, rfl⟩
abbrev main_call12_v2 : Ref sig .tc := ⟨.hbm, 422, rfl⟩
abbrev main_call12_v3 : Ref sig .tc := ⟨.hbm, 423, rfl⟩
abbrev main_call12_v4 : Ref sig .tc := ⟨.hbm, 424, rfl⟩
abbrev main_call12_v5 : Ref sig .tc := ⟨.hbm, 425, rfl⟩
abbrev main_call12_v6 : Ref sig .tc := ⟨.hbm, 426, rfl⟩
abbrev main_call12_v7 : Ref sig .tc := ⟨.hbm, 427, rfl⟩
abbrev main_call12_cst_1 : Ref sig .tc := ⟨.hbm, 428, rfl⟩
abbrev main_call12_v8 : Ref sig .tc := ⟨.hbm, 429, rfl⟩
abbrev main_call12_cst_2 : Ref sig .tc := ⟨.hbm, 430, rfl⟩
abbrev main_call12_v9 : Ref sig .tc := ⟨.hbm, 431, rfl⟩
abbrev main_call12_v10 : Ref sig .tc := ⟨.hbm, 432, rfl⟩
abbrev main_call12_v11 : Ref sig .tc := ⟨.hbm, 433, rfl⟩
abbrev main_call12_cst_3 : Ref sig .tc := ⟨.hbm, 434, rfl⟩
abbrev main_call12_v12 : Ref sig .tc := ⟨.hbm, 435, rfl⟩
abbrev main_call12_cst_4 : Ref sig .tc := ⟨.hbm, 436, rfl⟩
abbrev main_call12_call0_v0 : Ref sig .tc := ⟨.hbm, 437, rfl⟩
abbrev main_call12_call0_v1 : Ref sig .tc := ⟨.hbm, 438, rfl⟩
abbrev main_v242 : Ref sig .tc := ⟨.hbm, 439, rfl⟩
abbrev main_v243 : Ref sig .tc := ⟨.hbm, 440, rfl⟩
abbrev main_v244 : Ref sig .tc := ⟨.hbm, 441, rfl⟩
abbrev main_v245 : Ref sig .tc := ⟨.hbm, 442, rfl⟩
abbrev main_v246 : Ref sig .tc := ⟨.hbm, 443, rfl⟩
abbrev main_v247 : Ref sig .tc := ⟨.hbm, 444, rfl⟩
abbrev main_v248 : Ref sig .tc := ⟨.hbm, 445, rfl⟩
abbrev main_cst_32 : Ref sig .tc := ⟨.hbm, 446, rfl⟩
abbrev main_v249 : Ref sig .tc := ⟨.hbm, 447, rfl⟩
abbrev main_v250 : Ref sig .tc := ⟨.hbm, 448, rfl⟩
abbrev main_v251 : Ref sig .tc := ⟨.hbm, 449, rfl⟩
abbrev main_v252 : Ref sig .tc := ⟨.hbm, 450, rfl⟩
abbrev main_v253 : Ref sig .tc := ⟨.hbm, 451, rfl⟩
abbrev main_v254 : Ref sig .tc := ⟨.hbm, 452, rfl⟩
abbrev main_v255 : Ref sig .tc := ⟨.hbm, 453, rfl⟩
abbrev main_v256 : Ref sig .tc := ⟨.hbm, 454, rfl⟩
abbrev main_v257 : Ref sig .tc := ⟨.hbm, 455, rfl⟩
abbrev main_call13_cst : Ref sig .tc := ⟨.hbm, 456, rfl⟩
abbrev main_call13_v0 : Ref sig .tc := ⟨.hbm, 457, rfl⟩
abbrev main_v258 : Ref sig .tc := ⟨.hbm, 458, rfl⟩
abbrev main_cst_33 : Ref sig .tc := ⟨.hbm, 459, rfl⟩
abbrev main_v259 : Ref sig .tc := ⟨.hbm, 460, rfl⟩
abbrev main_v260 : Ref sig .tc := ⟨.hbm, 461, rfl⟩
abbrev main_v261 : Ref sig .tc := ⟨.hbm, 462, rfl⟩
abbrev main_v262 : Ref sig .tc := ⟨.hbm, 463, rfl⟩
abbrev main_v263 : Ref sig .tc := ⟨.hbm, 464, rfl⟩
abbrev main_v264 : Ref sig .tc := ⟨.hbm, 465, rfl⟩
abbrev main_v265 : Ref sig .tc := ⟨.hbm, 466, rfl⟩
abbrev main_v266 : Ref sig .tc := ⟨.hbm, 467, rfl⟩
abbrev main_v267 : Ref sig .tc := ⟨.hbm, 468, rfl⟩
abbrev main_v268 : Ref sig .tc := ⟨.hbm, 469, rfl⟩
abbrev main_v269 : Ref sig .tc := ⟨.hbm, 470, rfl⟩
abbrev main_v270 : Ref sig .tc := ⟨.hbm, 471, rfl⟩
abbrev main_v271 : Ref sig .tc := ⟨.hbm, 472, rfl⟩
abbrev main_v272 : Ref sig .tc := ⟨.hbm, 473, rfl⟩
abbrev main_v273 : Ref sig .tc := ⟨.hbm, 474, rfl⟩
abbrev main_v274 : Ref sig .tc := ⟨.hbm, 475, rfl⟩
abbrev main_cst_34 : Ref sig .tc := ⟨.hbm, 476, rfl⟩
abbrev main_v275 : Ref sig .tc := ⟨.hbm, 477, rfl⟩
abbrev main_cst_35 : Ref sig .tc := ⟨.hbm, 478, rfl⟩
abbrev main_v276 : Ref sig .tc := ⟨.hbm, 479, rfl⟩
abbrev main_v277 : Ref sig .tc := ⟨.hbm, 480, rfl⟩
abbrev main_c_36 : Ref sig .tc := ⟨.hbm, 481, rfl⟩
abbrev main_call14_cst : Ref sig .tc := ⟨.hbm, 482, rfl⟩
abbrev main_call14_v0 : Ref sig .tc := ⟨.hbm, 483, rfl⟩
abbrev main_call14_v1 : Ref sig .tc := ⟨.hbm, 484, rfl⟩
abbrev main_call14_cst_0 : Ref sig .tc := ⟨.hbm, 485, rfl⟩
abbrev main_call14_v2 : Ref sig .tc := ⟨.hbm, 486, rfl⟩
abbrev main_call14_v3 : Ref sig .tc := ⟨.hbm, 487, rfl⟩
abbrev main_call14_v4 : Ref sig .tc := ⟨.hbm, 488, rfl⟩
abbrev main_call14_v5 : Ref sig .tc := ⟨.hbm, 489, rfl⟩
abbrev main_call14_v6 : Ref sig .tc := ⟨.hbm, 490, rfl⟩
abbrev main_call14_v7 : Ref sig .tc := ⟨.hbm, 491, rfl⟩
abbrev main_call14_cst_1 : Ref sig .tc := ⟨.hbm, 492, rfl⟩
abbrev main_call14_v8 : Ref sig .tc := ⟨.hbm, 493, rfl⟩
abbrev main_call14_cst_2 : Ref sig .tc := ⟨.hbm, 494, rfl⟩
abbrev main_call14_v9 : Ref sig .tc := ⟨.hbm, 495, rfl⟩
abbrev main_call14_v10 : Ref sig .tc := ⟨.hbm, 496, rfl⟩
abbrev main_call14_v11 : Ref sig .tc := ⟨.hbm, 497, rfl⟩
abbrev main_call14_cst_3 : Ref sig .tc := ⟨.hbm, 498, rfl⟩
abbrev main_call14_v12 : Ref sig .tc := ⟨.hbm, 499, rfl⟩
abbrev main_call14_cst_4 : Ref sig .tc := ⟨.hbm, 500, rfl⟩
abbrev main_call14_call0_v0 : Ref sig .tc := ⟨.hbm, 501, rfl⟩
abbrev main_call14_call0_v1 : Ref sig .tc := ⟨.hbm, 502, rfl⟩
abbrev main_v278 : Ref sig .tc := ⟨.hbm, 503, rfl⟩
abbrev main_v279 : Ref sig .tc := ⟨.hbm, 504, rfl⟩
abbrev main_v280 : Ref sig .tc := ⟨.hbm, 505, rfl⟩
abbrev main_v281 : Ref sig .tc := ⟨.hbm, 506, rfl⟩
abbrev main_v282 : Ref sig .tc := ⟨.hbm, 507, rfl⟩
abbrev main_v283 : Ref sig .tc := ⟨.hbm, 508, rfl⟩
abbrev main_v284 : Ref sig .tc := ⟨.hbm, 509, rfl⟩
abbrev main_cst_37 : Ref sig .tc := ⟨.hbm, 510, rfl⟩
abbrev main_v285 : Ref sig .tc := ⟨.hbm, 511, rfl⟩
abbrev main_v286 : Ref sig .tc := ⟨.hbm, 512, rfl⟩
abbrev main_v287 : Ref sig .tc := ⟨.hbm, 513, rfl⟩
abbrev main_v288 : Ref sig .tc := ⟨.hbm, 514, rfl⟩
abbrev main_v289 : Ref sig .tc := ⟨.hbm, 515, rfl⟩
abbrev main_v290 : Ref sig .tc := ⟨.hbm, 516, rfl⟩
abbrev main_v291 : Ref sig .tc := ⟨.hbm, 517, rfl⟩
abbrev main_v292 : Ref sig .tc := ⟨.hbm, 518, rfl⟩
abbrev main_v293 : Ref sig .tc := ⟨.hbm, 519, rfl⟩
abbrev main_call15_cst : Ref sig .tc := ⟨.hbm, 520, rfl⟩
abbrev main_call15_v0 : Ref sig .tc := ⟨.hbm, 521, rfl⟩
abbrev main_v294 : Ref sig .tc := ⟨.hbm, 522, rfl⟩
abbrev main_v295 : Ref sig .tc := ⟨.hbm, 523, rfl⟩
abbrev main_v296 : Ref sig .tc := ⟨.hbm, 524, rfl⟩
abbrev main_v297 : Ref sig .tc := ⟨.hbm, 525, rfl⟩
abbrev main_v298 : Ref sig .tc := ⟨.hbm, 526, rfl⟩
abbrev main_v299 : Ref sig .tc := ⟨.hbm, 527, rfl⟩
abbrev main_v300 : Ref sig .tc := ⟨.hbm, 528, rfl⟩
abbrev main_v301 : Ref sig .tc := ⟨.hbm, 529, rfl⟩
abbrev main_v302 : Ref sig .tc := ⟨.hbm, 530, rfl⟩
abbrev main_v303 : Ref sig .tc := ⟨.hbm, 531, rfl⟩
abbrev main_v304 : Ref sig .tc := ⟨.hbm, 532, rfl⟩
abbrev main_v305 : Ref sig .tc := ⟨.hbm, 533, rfl⟩
abbrev main_v306 : Ref sig .tc := ⟨.hbm, 534, rfl⟩
abbrev main_cst_38 : Ref sig .tc := ⟨.hbm, 535, rfl⟩
abbrev main_v307 : Ref sig .tc := ⟨.hbm, 536, rfl⟩
abbrev main_cst_39 : Ref sig .tc := ⟨.hbm, 537, rfl⟩
abbrev main_v308 : Ref sig .tc := ⟨.hbm, 538, rfl⟩
abbrev main_v309 : Ref sig .tc := ⟨.hbm, 539, rfl⟩
abbrev main_c_40 : Ref sig .tc := ⟨.hbm, 540, rfl⟩
abbrev main_call16_cst : Ref sig .tc := ⟨.hbm, 541, rfl⟩
abbrev main_call16_v0 : Ref sig .tc := ⟨.hbm, 542, rfl⟩
abbrev main_call16_v1 : Ref sig .tc := ⟨.hbm, 543, rfl⟩
abbrev main_call16_cst_0 : Ref sig .tc := ⟨.hbm, 544, rfl⟩
abbrev main_call16_v2 : Ref sig .tc := ⟨.hbm, 545, rfl⟩
abbrev main_call16_v3 : Ref sig .tc := ⟨.hbm, 546, rfl⟩
abbrev main_call16_v4 : Ref sig .tc := ⟨.hbm, 547, rfl⟩
abbrev main_call16_v5 : Ref sig .tc := ⟨.hbm, 548, rfl⟩
abbrev main_call16_v6 : Ref sig .tc := ⟨.hbm, 549, rfl⟩
abbrev main_call16_v7 : Ref sig .tc := ⟨.hbm, 550, rfl⟩
abbrev main_call16_cst_1 : Ref sig .tc := ⟨.hbm, 551, rfl⟩
abbrev main_call16_v8 : Ref sig .tc := ⟨.hbm, 552, rfl⟩
abbrev main_call16_cst_2 : Ref sig .tc := ⟨.hbm, 553, rfl⟩
abbrev main_call16_v9 : Ref sig .tc := ⟨.hbm, 554, rfl⟩
abbrev main_call16_v10 : Ref sig .tc := ⟨.hbm, 555, rfl⟩
abbrev main_call16_v11 : Ref sig .tc := ⟨.hbm, 556, rfl⟩
abbrev main_call16_cst_3 : Ref sig .tc := ⟨.hbm, 557, rfl⟩
abbrev main_call16_v12 : Ref sig .tc := ⟨.hbm, 558, rfl⟩
abbrev main_call16_cst_4 : Ref sig .tc := ⟨.hbm, 559, rfl⟩
abbrev main_call16_call0_v0 : Ref sig .tc := ⟨.hbm, 560, rfl⟩
abbrev main_call16_call0_v1 : Ref sig .tc := ⟨.hbm, 561, rfl⟩
abbrev main_v310 : Ref sig .tc := ⟨.hbm, 562, rfl⟩
abbrev main_v311 : Ref sig .tc := ⟨.hbm, 563, rfl⟩
abbrev main_v312 : Ref sig .tc := ⟨.hbm, 564, rfl⟩
abbrev main_v313 : Ref sig .tc := ⟨.hbm, 565, rfl⟩
abbrev main_v314 : Ref sig .tc := ⟨.hbm, 566, rfl⟩
abbrev main_v315 : Ref sig .tc := ⟨.hbm, 567, rfl⟩
abbrev main_v316 : Ref sig .tc := ⟨.hbm, 568, rfl⟩
abbrev main_cst_41 : Ref sig .tc := ⟨.hbm, 569, rfl⟩
abbrev main_v317 : Ref sig .tc := ⟨.hbm, 570, rfl⟩
abbrev main_v318 : Ref sig .tc := ⟨.hbm, 571, rfl⟩
abbrev main_v319 : Ref sig .tc := ⟨.hbm, 572, rfl⟩
abbrev main_v320 : Ref sig .tc := ⟨.hbm, 573, rfl⟩
abbrev main_v321 : Ref sig .tc := ⟨.hbm, 574, rfl⟩
abbrev main_v322 : Ref sig .tc := ⟨.hbm, 575, rfl⟩
abbrev main_v323 : Ref sig .tc := ⟨.hbm, 576, rfl⟩
abbrev main_v324 : Ref sig .tc := ⟨.hbm, 577, rfl⟩
abbrev main_v325 : Ref sig .tc := ⟨.hbm, 578, rfl⟩
abbrev main_call17_cst : Ref sig .tc := ⟨.hbm, 579, rfl⟩
abbrev main_call17_v0 : Ref sig .tc := ⟨.hbm, 580, rfl⟩
abbrev main_v326 : Ref sig .tc := ⟨.hbm, 581, rfl⟩
abbrev main_c_42 : Ref sig .tc := ⟨.hbm, 582, rfl⟩
abbrev main_v327 : Ref sig .tc := ⟨.hbm, 583, rfl⟩
abbrev main_v328 : Ref sig .tc := ⟨.hbm, 584, rfl⟩
abbrev main_c_43 : Ref sig .tc := ⟨.hbm, 585, rfl⟩
abbrev main_v329 : Ref sig .tc := ⟨.hbm, 586, rfl⟩
abbrev main_v330 : Ref sig .tc := ⟨.hbm, 587, rfl⟩
abbrev main_v331 : Ref sig .tc := ⟨.hbm, 588, rfl⟩
abbrev main_v332 : Ref sig .tc := ⟨.hbm, 589, rfl⟩
abbrev main_v333 : Ref sig .tc := ⟨.hbm, 590, rfl⟩
abbrev main_v334 : Ref sig .tc := ⟨.hbm, 591, rfl⟩
abbrev main_v335 : Ref sig .tc := ⟨.hbm, 592, rfl⟩
abbrev main_v336 : Ref sig .tc := ⟨.hbm, 593, rfl⟩
abbrev main_v337 : Ref sig .tc := ⟨.hbm, 594, rfl⟩
abbrev main_v338 : Ref sig .tc := ⟨.hbm, 595, rfl⟩
abbrev main_v339 : Ref sig .tc := ⟨.hbm, 596, rfl⟩
abbrev main_v340 : Ref sig .tc := ⟨.hbm, 597, rfl⟩
abbrev main_v341 : Ref sig .tc := ⟨.hbm, 598, rfl⟩
abbrev main_v342 : Ref sig .tc := ⟨.hbm, 599, rfl⟩
abbrev main_c_44 : Ref sig .tc := ⟨.hbm, 600, rfl⟩
abbrev main_v343 : Ref sig .tc := ⟨.hbm, 601, rfl⟩
abbrev main_v344 : Ref sig .tc := ⟨.hbm, 602, rfl⟩
abbrev main_c_45 : Ref sig .tc := ⟨.hbm, 603, rfl⟩
abbrev main_v345 : Ref sig .tc := ⟨.hbm, 604, rfl⟩
abbrev main_v346 : Ref sig .tc := ⟨.hbm, 605, rfl⟩
abbrev main_v347 : Ref sig .tc := ⟨.hbm, 606, rfl⟩
abbrev main_v348 : Ref sig .tc := ⟨.hbm, 607, rfl⟩
abbrev main_v349 : Ref sig .tc := ⟨.hbm, 608, rfl⟩
abbrev main_v350 : Ref sig .tc := ⟨.hbm, 609, rfl⟩
abbrev main_call18_cst : Ref sig .tc := ⟨.hbm, 610, rfl⟩
abbrev main_call18_v0 : Ref sig .tc := ⟨.hbm, 611, rfl⟩
abbrev main_v351 : Ref sig .tc := ⟨.hbm, 612, rfl⟩
abbrev main_cst_46 : Ref sig .tc := ⟨.hbm, 613, rfl⟩
abbrev main_v352 : Ref sig .tc := ⟨.hbm, 614, rfl⟩
abbrev main_v353 : Ref sig .tc := ⟨.hbm, 615, rfl⟩
abbrev main_v354 : Ref sig .tc := ⟨.hbm, 616, rfl⟩
abbrev main_v355 : Ref sig .tc := ⟨.hbm, 617, rfl⟩
abbrev main_v356 : Ref sig .tc := ⟨.hbm, 618, rfl⟩
abbrev main_v357 : Ref sig .tc := ⟨.hbm, 619, rfl⟩
abbrev main_v358 : Ref sig .tc := ⟨.hbm, 620, rfl⟩
abbrev main_v359 : Ref sig .tc := ⟨.hbm, 621, rfl⟩
abbrev main_v360 : Ref sig .tc := ⟨.hbm, 622, rfl⟩
abbrev main_v361 : Ref sig .tc := ⟨.hbm, 623, rfl⟩
abbrev main_v362 : Ref sig .tc := ⟨.hbm, 624, rfl⟩
abbrev main_v363 : Ref sig .tc := ⟨.hbm, 625, rfl⟩
abbrev main_v364 : Ref sig .tc := ⟨.hbm, 626, rfl⟩
abbrev main_v365 : Ref sig .tc := ⟨.hbm, 627, rfl⟩
abbrev main_v366 : Ref sig .tc := ⟨.hbm, 628, rfl⟩
abbrev main_v367 : Ref sig .tc := ⟨.hbm, 629, rfl⟩
abbrev main_cst_47 : Ref sig .tc := ⟨.hbm, 630, rfl⟩
abbrev main_v368 : Ref sig .tc := ⟨.hbm, 631, rfl⟩
abbrev main_cst_48 : Ref sig .tc := ⟨.hbm, 632, rfl⟩
abbrev main_v369 : Ref sig .tc := ⟨.hbm, 633, rfl⟩
abbrev main_v370 : Ref sig .tc := ⟨.hbm, 634, rfl⟩
abbrev main_c_49 : Ref sig .tc := ⟨.hbm, 635, rfl⟩
abbrev main_call19_cst : Ref sig .tc := ⟨.hbm, 636, rfl⟩
abbrev main_call19_v0 : Ref sig .tc := ⟨.hbm, 637, rfl⟩
abbrev main_call19_v1 : Ref sig .tc := ⟨.hbm, 638, rfl⟩
abbrev main_call19_cst_0 : Ref sig .tc := ⟨.hbm, 639, rfl⟩
abbrev main_call19_v2 : Ref sig .tc := ⟨.hbm, 640, rfl⟩
abbrev main_call19_v3 : Ref sig .tc := ⟨.hbm, 641, rfl⟩
abbrev main_call19_v4 : Ref sig .tc := ⟨.hbm, 642, rfl⟩
abbrev main_call19_v5 : Ref sig .tc := ⟨.hbm, 643, rfl⟩
abbrev main_call19_v6 : Ref sig .tc := ⟨.hbm, 644, rfl⟩
abbrev main_call19_v7 : Ref sig .tc := ⟨.hbm, 645, rfl⟩
abbrev main_call19_cst_1 : Ref sig .tc := ⟨.hbm, 646, rfl⟩
abbrev main_call19_v8 : Ref sig .tc := ⟨.hbm, 647, rfl⟩
abbrev main_call19_cst_2 : Ref sig .tc := ⟨.hbm, 648, rfl⟩
abbrev main_call19_v9 : Ref sig .tc := ⟨.hbm, 649, rfl⟩
abbrev main_call19_v10 : Ref sig .tc := ⟨.hbm, 650, rfl⟩
abbrev main_call19_v11 : Ref sig .tc := ⟨.hbm, 651, rfl⟩
abbrev main_call19_cst_3 : Ref sig .tc := ⟨.hbm, 652, rfl⟩
abbrev main_call19_v12 : Ref sig .tc := ⟨.hbm, 653, rfl⟩
abbrev main_call19_cst_4 : Ref sig .tc := ⟨.hbm, 654, rfl⟩
abbrev main_call19_call0_v0 : Ref sig .tc := ⟨.hbm, 655, rfl⟩
abbrev main_call19_call0_v1 : Ref sig .tc := ⟨.hbm, 656, rfl⟩
abbrev main_v371 : Ref sig .tc := ⟨.hbm, 657, rfl⟩
abbrev main_v372 : Ref sig .tc := ⟨.hbm, 658, rfl⟩
abbrev main_v373 : Ref sig .tc := ⟨.hbm, 659, rfl⟩
abbrev main_v374 : Ref sig .tc := ⟨.hbm, 660, rfl⟩
abbrev main_v375 : Ref sig .tc := ⟨.hbm, 661, rfl⟩
abbrev main_v376 : Ref sig .tc := ⟨.hbm, 662, rfl⟩
abbrev main_v377 : Ref sig .tc := ⟨.hbm, 663, rfl⟩
abbrev main_cst_50 : Ref sig .tc := ⟨.hbm, 664, rfl⟩
abbrev main_v378 : Ref sig .tc := ⟨.hbm, 665, rfl⟩
abbrev main_v379 : Ref sig .tc := ⟨.hbm, 666, rfl⟩
abbrev main_v380 : Ref sig .tc := ⟨.hbm, 667, rfl⟩
abbrev main_v381 : Ref sig .tc := ⟨.hbm, 668, rfl⟩
abbrev main_v382 : Ref sig .tc := ⟨.hbm, 669, rfl⟩
abbrev main_v383 : Ref sig .tc := ⟨.hbm, 670, rfl⟩
abbrev main_v384 : Ref sig .tc := ⟨.hbm, 671, rfl⟩
abbrev main_v385 : Ref sig .tc := ⟨.hbm, 672, rfl⟩
abbrev main_v386 : Ref sig .tc := ⟨.hbm, 673, rfl⟩
abbrev main_call20_cst : Ref sig .tc := ⟨.hbm, 674, rfl⟩
abbrev main_call20_v0 : Ref sig .tc := ⟨.hbm, 675, rfl⟩
abbrev main_v387 : Ref sig .tc := ⟨.hbm, 676, rfl⟩
abbrev main_v388 : Ref sig .tc := ⟨.hbm, 677, rfl⟩
abbrev main_v389 : Ref sig .tc := ⟨.hbm, 678, rfl⟩
abbrev main_v390 : Ref sig .tc := ⟨.hbm, 679, rfl⟩
abbrev main_v391 : Ref sig .tc := ⟨.hbm, 680, rfl⟩
abbrev main_v392 : Ref sig .tc := ⟨.hbm, 681, rfl⟩
abbrev main_v393 : Ref sig .tc := ⟨.hbm, 682, rfl⟩
abbrev main_v394 : Ref sig .tc := ⟨.hbm, 683, rfl⟩
abbrev main_v395 : Ref sig .tc := ⟨.hbm, 684, rfl⟩
abbrev main_v396 : Ref sig .tc := ⟨.hbm, 685, rfl⟩
abbrev main_v397 : Ref sig .tc := ⟨.hbm, 686, rfl⟩
abbrev main_v398 : Ref sig .tc := ⟨.hbm, 687, rfl⟩
abbrev main_v399 : Ref sig .tc := ⟨.hbm, 688, rfl⟩
abbrev main_cst_51 : Ref sig .tc := ⟨.hbm, 689, rfl⟩
abbrev main_v400 : Ref sig .tc := ⟨.hbm, 690, rfl⟩
abbrev main_cst_52 : Ref sig .tc := ⟨.hbm, 691, rfl⟩
abbrev main_v401 : Ref sig .tc := ⟨.hbm, 692, rfl⟩
abbrev main_v402 : Ref sig .tc := ⟨.hbm, 693, rfl⟩
abbrev main_c_53 : Ref sig .tc := ⟨.hbm, 694, rfl⟩
abbrev main_call21_cst : Ref sig .tc := ⟨.hbm, 695, rfl⟩
abbrev main_call21_v0 : Ref sig .tc := ⟨.hbm, 696, rfl⟩
abbrev main_call21_v1 : Ref sig .tc := ⟨.hbm, 697, rfl⟩
abbrev main_call21_cst_0 : Ref sig .tc := ⟨.hbm, 698, rfl⟩
abbrev main_call21_v2 : Ref sig .tc := ⟨.hbm, 699, rfl⟩
abbrev main_call21_v3 : Ref sig .tc := ⟨.hbm, 700, rfl⟩
abbrev main_call21_v4 : Ref sig .tc := ⟨.hbm, 701, rfl⟩
abbrev main_call21_v5 : Ref sig .tc := ⟨.hbm, 702, rfl⟩
abbrev main_call21_v6 : Ref sig .tc := ⟨.hbm, 703, rfl⟩
abbrev main_call21_v7 : Ref sig .tc := ⟨.hbm, 704, rfl⟩
abbrev main_call21_cst_1 : Ref sig .tc := ⟨.hbm, 705, rfl⟩
abbrev main_call21_v8 : Ref sig .tc := ⟨.hbm, 706, rfl⟩
abbrev main_call21_cst_2 : Ref sig .tc := ⟨.hbm, 707, rfl⟩
abbrev main_call21_v9 : Ref sig .tc := ⟨.hbm, 708, rfl⟩
abbrev main_call21_v10 : Ref sig .tc := ⟨.hbm, 709, rfl⟩
abbrev main_call21_v11 : Ref sig .tc := ⟨.hbm, 710, rfl⟩
abbrev main_call21_cst_3 : Ref sig .tc := ⟨.hbm, 711, rfl⟩
abbrev main_call21_v12 : Ref sig .tc := ⟨.hbm, 712, rfl⟩
abbrev main_call21_cst_4 : Ref sig .tc := ⟨.hbm, 713, rfl⟩
abbrev main_call21_call0_v0 : Ref sig .tc := ⟨.hbm, 714, rfl⟩
abbrev main_call21_call0_v1 : Ref sig .tc := ⟨.hbm, 715, rfl⟩
abbrev main_v403 : Ref sig .tc := ⟨.hbm, 716, rfl⟩
abbrev main_v404 : Ref sig .tc := ⟨.hbm, 717, rfl⟩
abbrev main_v405 : Ref sig .tc := ⟨.hbm, 718, rfl⟩
abbrev main_v406 : Ref sig .tc := ⟨.hbm, 719, rfl⟩
abbrev main_v407 : Ref sig .tc := ⟨.hbm, 720, rfl⟩
abbrev main_v408 : Ref sig .tc := ⟨.hbm, 721, rfl⟩
abbrev main_v409 : Ref sig .tc := ⟨.hbm, 722, rfl⟩
abbrev main_cst_54 : Ref sig .tc := ⟨.hbm, 723, rfl⟩
abbrev main_v410 : Ref sig .tc := ⟨.hbm, 724, rfl⟩
abbrev main_v411 : Ref sig .tc := ⟨.hbm, 725, rfl⟩
abbrev main_v412 : Ref sig .tc := ⟨.hbm, 726, rfl⟩
abbrev main_v413 : Ref sig .tc := ⟨.hbm, 727, rfl⟩
abbrev main_v414 : Ref sig .tc := ⟨.hbm, 728, rfl⟩
abbrev main_v415 : Ref sig .tc := ⟨.hbm, 729, rfl⟩
abbrev main_v416 : Ref sig .tc := ⟨.hbm, 730, rfl⟩
abbrev main_v417 : Ref sig .tc := ⟨.hbm, 731, rfl⟩
abbrev main_v418 : Ref sig .tc := ⟨.hbm, 732, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S1x128_S512x128_0_1 : S1x128.BroadcastsInDim S512x128 (![0, 1] : Fin 2 → Fin S512x128.rank)
  bcast_S_S50000 : S_.BroadcastsInDim S50000 (![] : Fin 0 → Fin S50000.rank)
  bcast_S50000_S50000x1_0 : S50000.BroadcastsInDim S50000x1 (![0] : Fin 1 → Fin S50000x1.rank)
  slices_S3x8x128_S1x8x128_0_0_0 : S3x8x128.Slices ![0, 0, 0] S1x8x128
  shapeCasts_S1x8x128_S8x128 : S1x8x128.ShapeCasts S8x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  slices_S3x128x256_S1x128x256_0_0_0 : S3x128x256.Slices ![0, 0, 0] S1x128x256
  shapeCasts_S1x128x256_S128x256 : S1x128x256.ShapeCasts S128x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  slices_S3x256x128_S1x256x128_0_0_0 : S3x256x128.Slices ![0, 0, 0] S1x256x128
  shapeCasts_S1x256x128_S256x128 : S1x256x128.ShapeCasts S256x128
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  slices_S2x128x256_S1x128x256_0_0_0 : S2x128x256.Slices ![0, 0, 0] S1x128x256
  slices_S2x256_S1x256_0_0 : S2x256.Slices ![0, 0] S1x256
  bcast_S1x256_S512x256_0_1 : S1x256.BroadcastsInDim S512x256 (![0, 1] : Fin 2 → Fin S512x256.rank)
  reducesTo_S512x256_S256_d0 : S512x256.ReducesTo [0] S256
  bcast_S_S512x256 : S_.BroadcastsInDim S512x256 (![] : Fin 0 → Fin S512x256.rank)
  slices_S2x256x128_S1x256x128_0_0_0 : S2x256x128.Slices ![0, 0, 0] S1x256x128
  slices_S2x128_S1x128_0_0 : S2x128.Slices ![0, 0] S1x128
  reducesTo_S512x128_S128_d0 : S512x128.ReducesTo [0] S128
  slices_S3x8x128_S1x8x128_1_0_0 : S3x8x128.Slices ![1, 0, 0] S1x8x128
  slices_S3x128_S1x128_1_0 : S3x128.Slices ![1, 0] S1x128
  slices_S3x128x256_S1x128x256_1_0_0 : S3x128x256.Slices ![1, 0, 0] S1x128x256
  slices_S3x256_S1x256_1_0 : S3x256.Slices ![1, 0] S1x256
  slices_S3x256x128_S1x256x128_1_0_0 : S3x256x128.Slices ![1, 0, 0] S1x256x128
  slices_S2x128x256_S1x128x256_1_0_0 : S2x128x256.Slices ![1, 0, 0] S1x128x256
  slices_S2x256_S1x256_1_0 : S2x256.Slices ![1, 0] S1x256
  slices_S2x256x128_S1x256x128_1_0_0 : S2x256x128.Slices ![1, 0, 0] S1x256x128
  slices_S2x128_S1x128_1_0 : S2x128.Slices ![1, 0] S1x128
  slices_S3x8x128_S1x8x128_2_0_0 : S3x8x128.Slices ![2, 0, 0] S1x8x128
  slices_S3x128_S1x128_2_0 : S3x128.Slices ![2, 0] S1x128
  slices_S3x128x256_S1x128x256_2_0_0 : S3x128x256.Slices ![2, 0, 0] S1x128x256
  slices_S3x256_S1x256_2_0 : S3x256.Slices ![2, 0] S1x256
  slices_S3x256x128_S1x256x128_2_0_0 : S3x256x128.Slices ![2, 0, 0] S1x256x128
  gather_S512x128_S50000x1_S50000x128_1_0_n_n_0_1_1128_wf : GatherDims.WF S512x128 S50000x1 S50000x128 [1] [0] [] [0] [] 1 ![1, 128]
  dot_S800000x8_S8x128_S800000x128_1_0_0_1_n_n_wf : DotDims.WF S800000x8 S8x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S512x128_S50000x1_S50000x128_1_0_0_1_wf : ScatterDims.WF S512x128 S50000x1 S50000x128 [1] [0] [0] 1
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []

variable [Facts₀]

def gather_S512x128_S50000x1_S50000x128_1_0_n_n_0_1_1128 : GatherDims S512x128 S50000x1 S50000x128 where
  offsetDims := [1]
  collapsedSliceDims := [0]
  operandBatchingDims := []
  startIndicesBatchingDims := []
  startIndexMap := [0]
  indexVectorDim := 1
  sliceSizes := ![1, 128]
  wf := gather_S512x128_S50000x1_S50000x128_1_0_n_n_0_1_1128_wf
def dot_S800000x8_S8x128_S800000x128_1_0_0_1_n_n : DotDims S800000x8 S8x128 S800000x128 where
  lhsContracting := [1]
  rhsContracting := [0]
  lhsNonContracting := [0]
  rhsNonContracting := [1]
  lhsBatch := []
  rhsBatch := []
  wf := dot_S800000x8_S8x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

class Facts : Prop extends Facts₀ where

variable [Facts]
-- ==== Proof.Spec.lean ====
import Idealize.ShloMosaic.PureOps.Ideal
import Idealize.ShloMosaic.Lib.ValueIdx

noncomputable section

namespace Cert.Spec

open Idealize.ShloMosaic Idealize.ShloMosaic.ValueIdx

abbrev Mat (n d : Nat) := (⟨2, ![n, d]⟩ : Shape).Idx → ℝ
abbrev Vc (d : Nat) := (⟨1, ![d]⟩ : Shape).Idx → ℝ
abbrev Ten (a b c : Nat) := (⟨3, ![a, b, c]⟩ : Shape).Idx → ℝ

def up {S : Shape} (a : S.Idx → ℝ) : S.Idx → EReal := fun i => ((a i : ℝ) : EReal)

def eps : ℝ := (Ideal.ofBits .f32 0x3727C5AC#32).toReal

def row3 {a b c : Nat} (l : Fin a) (w : Ten a b c) : Mat b c := fun i => w (ix3 l (i 0) (i 1))
def row2 {a d : Nat} (l : Fin a) (w : Mat a d) : Vc d := fun i => w (ix2 l (i 0))

def lin {n k d : Nat} (x : Mat n k) (W : Mat k d) (b : Vc d) : Mat n d :=
  fun i => (∑ t : Fin k, x (ix2 (i 0) t) * W (ix2 t (i 1))) + b (ix1 (i 1))
def madd {n d : Nat} (a b : Mat n d) : Mat n d := fun i => a i + b i
def relu {n d : Nat} (a : Mat n d) : Mat n d := fun i => max (a i) 0

def mean {n d : Nat} (y : Mat n d) : Vc d := fun j => (∑ r : Fin n, y (ix2 r (j 0))) / (n : ℝ)
def var {n d : Nat} (y : Mat n d) : Vc d :=
  fun j => (∑ r : Fin n, (y (ix2 r (j 0)) - mean y j) * (y (ix2 r (j 0)) - mean y j)) / (n : ℝ)

def bn {n d : Nat} (y : Mat n d) (g b : Vc d) : Mat n d :=
  fun i => g (ix1 (i 1)) * (y i - mean y (ix1 (i 1))) * (Real.sqrt (var y (ix1 (i 1)) + eps))⁻¹ + b (ix1 (i 1))

def wrapWord (n w : BitVec 32) : BitVec 32 := if w.toInt < 0 then w + n else w

def rowOf (N : Nat) (hN : 0 < N) (w : BitVec 32) : Fin N := ⟨min w.toInt.toNat (N - 1), by omega⟩

def gatherRows {N E D : Nat} (hN : 0 < N) (nW : BitVec 32) (x : Mat N D) (w : Fin E → BitVec 32) : Mat E D :=
  fun i => x (ix2 (rowOf N hN (wrapWord nW (w (i 0)))) (i 1))

def segSum {N E D : Nat} (w : Fin E → BitVec 32) (upd : Mat E D) : Mat N D :=
  fun i => ∑ e ∈ Finset.univ.filter (fun e : Fin E => (w e).toInt = (((i 0).val : Nat) : Int)), upd (ix2 e (i 1))

def linR {n k d : Nat} (x : Mat n k) (W : Mat k d) (b : Mat 1 d) : Mat n d :=
  fun i => (∑ t : Fin k, x (ix2 (i 0) t) * W (ix2 t (i 1))) + b (ix2 0 (i 1))

def edgeR {E : Nat} (hs : Mat E 128) (ea : Mat E 8) (We : Mat 8 128) (be : Mat 1 128) : Mat E 128 :=
  fun i => max (hs i + linR ea We be i) 0

def lin2R {n k d : Nat} (a b : Mat n k) (W : Mat k d) (bias : Mat 1 d) : Mat n d := linR (madd a b) W bias

def affR {n d : Nat} (y : Mat n d) (s t : Mat 1 d) : Mat n d := fun i => y i * s (ix2 0 (i 1)) + t (ix2 0 (i 1))
def affReluR {n d : Nat} (y : Mat n d) (s t : Mat 1 d) : Mat n d := fun i => max (y i * s (ix2 0 (i 1)) + t (ix2 0 (i 1))) 0

def scaleOf {n d : Nat} (y : Mat n d) (g : Vc d) : Mat 1 d :=
  fun i => g (ix1 (i 1)) * (Real.sqrt (var y (ix1 (i 1)) + eps))⁻¹
def shiftOf {n d : Nat} (y : Mat n d) (g b : Vc d) : Mat 1 d :=
  fun i => b (ix1 (i 1)) - mean y (ix1 (i 1)) * scaleOf y g i

def asRow {d : Nat} (v : Vc d) : Mat 1 d := fun i => v (ix1 (i 1))

structure Args where
  x : Mat 50000 128
  ea : Mat 800000 8
  vn0 : Mat 1 128
  We : Ten 3 8 128
  be : Mat 3 128
  W1 : Ten 3 128 256
  b1 : Mat 3 256
  g1 : Mat 3 256
  bt1 : Mat 3 256
  W2 : Ten 3 256 128
  b2 : Mat 3 128
  gb : Mat 3 128
  bb : Mat 3 128
  Wv1 : Ten 2 128 256
  bv1 : Mat 2 256
  gv1 : Mat 2 256
  btv1 : Mat 2 256
  Wv2 : Ten 2 256 128
  bv2 : Mat 2 128
  gv2 : Mat 2 128
  btv2 : Mat 2 128
  ei : (⟨2, ![2, 800000]⟩ : Shape).Idx → BitVec 32
  batch : (⟨1, ![50000]⟩ : Shape).Idx → BitVec 32

variable (A : Args)

def srcw : Fin 800000 → BitVec 32 := fun e => A.ei (ix2 0 e)
def dstw : Fin 800000 → BitVec 32 := fun e => A.ei (ix2 1 e)
def batchw : Fin 50000 → BitVec 32 := fun n => A.batch (ix1 n)

def vnB : Mat 512 128 := fun i => A.vn0 (ix2 0 (i 1))

def hinOf (h : Mat 50000 128) (vn : Mat 512 128) : Mat 50000 128 :=
  madd h (gatherRows (by norm_num) 512#32 vn (batchw A))
def msgOf (l : Fin 3) (hin : Mat 50000 128) : Mat 800000 128 :=
  relu (madd (gatherRows (by norm_num) 50000#32 hin (srcw A)) (lin A.ea (row3 l A.We) (row2 l A.be)))
def aggrOf (msg : Mat 800000 128) : Mat 50000 128 := segSum (dstw A) msg
def lin1Of (l : Fin 3) (hin aggr : Mat 50000 128) : Mat 50000 256 := lin (madd hin aggr) (row3 l A.W1) (row2 l A.b1)
def zOf (l : Fin 3) (lin1 : Mat 50000 256) : Mat 50000 256 := relu (bn lin1 (row2 l A.g1) (row2 l A.bt1))
def lin2Of (l : Fin 3) (z : Mat 50000 256) : Mat 50000 128 := lin z (row3 l A.W2) (row2 l A.b2)
def hbnOf (l : Fin 3) (lin2 : Mat 50000 128) : Mat 50000 128 := bn lin2 (row2 l A.gb) (row2 l A.bb)
def pooledOf (hin : Mat 50000 128) : Mat 512 128 := segSum (batchw A) hin
def linv1Of (l : Fin 2) (pooled vn : Mat 512 128) : Mat 512 256 := lin (madd pooled vn) (row3 l A.Wv1) (row2 l A.bv1)
def tOf (l : Fin 2) (linv1 : Mat 512 256) : Mat 512 256 := relu (bn linv1 (row2 l A.gv1) (row2 l A.btv1))
def linv2Of (l : Fin 2) (t : Mat 512 256) : Mat 512 128 := lin t (row3 l A.Wv2) (row2 l A.bv2)
def vnOf (l : Fin 2) (linv2 : Mat 512 128) : Mat 512 128 := relu (bn linv2 (row2 l A.gv2) (row2 l A.btv2))

def nodeOf (l : Fin 3) (h : Mat 50000 128) (vn : Mat 512 128) : Mat 50000 128 :=
  hbnOf A l (lin2Of A l (zOf A l (lin1Of A l (hinOf A h vn) (aggrOf A (msgOf A l (hinOf A h vn))))))

def vnNext (l : Fin 2) (h : Mat 50000 128) (vn : Mat 512 128) : Mat 512 128 :=
  vnOf A l (linv2Of A l (tOf A l (linv1Of A l (pooledOf A (hinOf A h vn)) vn)))

def h1 : Mat 50000 128 := relu (nodeOf A 0 A.x (vnB A))
def vn1 : Mat 512 128 := vnNext A 0 A.x (vnB A)
def h2 : Mat 50000 128 := relu (nodeOf A 1 (h1 A) (vn1 A))
def vn2 : Mat 512 128 := vnNext A 1 (h1 A) (vn1 A)

def out : Mat 50000 128 := nodeOf A 2 (h2 A) (vn2 A)

end Cert.Spec

end
-- ==== Proof.PreFacts.lean ====
import proofs.«403290_j73710228734482_1_alg».proof.Pre_finite_inputs
import proofs.«403290_j73710228734482_1_alg».proof.Proof.Spec
import Idealize.ShloMosaic.Lib.ReduceAll
import Idealize.ShloMosaic.Lib.IdealHost
import Idealize.ShloMosaic.Lib.ValueLayout

noncomputable section

namespace Cert.PreFacts

open Idealize.ShloMosaic Idealize.ShloMosaic.ValueIdx Cert.Spec Cert.Pre_finite_inputs

instance subsingleton_idx0 : Subsingleton (⟨0, ![]⟩ : Shape).Idx := ⟨fun a b => funext fun d => d.elim0⟩

theorem ofBits_inf : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) :
    ∃ r : ℝ, x = (r : EReal) := by
  rw [ofBits_inf] at h
  have h' : max x (-x) < ⊤ := by
    by_contra hn
    simp [Ideal.cmp, hn] at h
  induction x using EReal.rec with
  | bot => simp at h'
  | coe r => exact ⟨r, rfl⟩
  | top => simp at h'

theorem finite_of_all {S : Shape} {axes : List (Fin S.rank)} (a : FVec Ideal S .f32)
    (hb : (⟨0, ![]⟩ : Shape).BroadcastsInDim S ![]) (hr : S.ReducesTo axes ⟨0, ![]⟩)
    (h0 : 0 < (⟨0, ![]⟩ : Shape).numel)
    (h : Host.reduce IntOp.andi
        (cmpf .olt (Host.absf a) (broadcastInDim S ![] hb (constant (F := Ideal) ⟨0, ![]⟩ .f32 0x7F800000#32)))
        (constantI ⟨0, ![]⟩ 1 1#1) hr h0 ix0 = 1#1) :
    ∃ r : S.Idx → ℝ, a = up r := by
  have key : ∀ i, ∃ r : ℝ, a i = (r : EReal) := fun i => by
    have hi := Host.reduce_andi_all _ _ hr h0 ix0 h i
    exact real_of_abs_lt (a i) hi
  choose r hr' using key
  exact ⟨r, funext hr'⟩

theorem row0_apply {n : Nat} (a : IVec ⟨2, ![2, n]⟩ 32)
    (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] a hs) hc (ix1 e) = a (ix2 0 e) := by
  rw [shapeCast_1a_a_apply]
  exact slice2_axis0_apply 0 a hs (0 : Fin 1) e (0 : Fin 2) rfl

theorem range_of_all {n : Nat} (a : IVec ⟨2, ![2, n]⟩ 32)
    (hs : (⟨2, ![2, n]⟩ : Shape).Slices ![0, 0] ⟨2, ![1, n]⟩)
    (hc : (⟨2, ![1, n]⟩ : Shape).ShapeCasts ⟨1, ![n]⟩)
    (hb : (⟨0, ![]⟩ : Shape).BroadcastsInDim ⟨1, ![n]⟩ ![]) (hr : (⟨1, ![n]⟩ : Shape).ReducesTo [0] ⟨0, ![]⟩)
    (h0 : 0 < (⟨0, ![]⟩ : Shape).numel)
    (h : Host.reduce IntOp.andi
        (andi
          (cmpi .sge (shapeCast ⟨1, ![n]⟩ (extractStridedSlice ⟨2, ![1, n]⟩ ![0, 0] a hs) hc)
            (broadcastInDim ⟨1, ![n]⟩ ![] hb (constantI ⟨0, ![]⟩ 32 0#32)))
          (cmpi .slt (shapeCast ⟨1, ![n]⟩ (extractStridedSlice ⟨2, ![1, n]⟩ ![0, 0] a hs) hc)
            (broadcastInDim ⟨1, ![n]⟩ ![] hb (constantI ⟨0, ![]⟩ 32 50000#32))))
        (constantI ⟨0, ![]⟩ 1 1#1) hr h0 ix0 = 1#1) (e : Fin n) :
    0 ≤ (a (ix2 0 e)).toInt ∧ (a (ix2 0 e)).toInt < 50000 := by
  have hi := Host.reduce_andi_all _ _ hr h0 ix0 h (ix1 e)
  obtain ⟨h1, h2⟩ := IntOp.andi_eq_one.1 hi
  have h1' := IntOp.cmpi_sge.1 h1
  have h2' := IntOp.cmpi_slt.1 h2
  rw [row0_apply] at h1' h2'
  rw [broadcastInDim_scalar_apply] at h1' h2'
  exact ⟨h1', h2'⟩

theorem and_split {x y : IVec ⟨0, ![]⟩ 1} (h : andi x y ix0 = 1#1) : x ix0 = 1#1 ∧ y ix0 = 1#1 :=
  IntOp.andi_eq_one.1 h

theorem args_of_pre [Cert.Pre_finite_inputs.Facts]
    (a0 : FVec Ideal S50000x128 .f32) (a1 : FVec Ideal S800000x8 .f32) (a2 : FVec Ideal S1x128 .f32)
    (a3 : FVec Ideal S3x8x128 .f32) (a4 : FVec Ideal S3x128 .f32) (a5 : FVec Ideal S3x128x256 .f32)
    (a6 a7 a8 : FVec Ideal S3x256 .f32) (a9 : FVec Ideal S3x256x128 .f32) (a10 a11 a12 : FVec Ideal S3x128 .f32)
    (a13 : FVec Ideal S2x128x256 .f32) (a14 a15 a16 : FVec Ideal S2x256 .f32) (a17 : FVec Ideal S2x256x128 .f32)
    (a18 a19 a20 : FVec Ideal S2x128 .f32) (a21 : IVec S2x800000 32) (a22 : IVec S50000 32)
    (h : Cert.Pre_finite_inputs.fn (F := Ideal) a0 a1 a2 a3 a4 a5 a6 a7 a8 a9 a10 a11 a12 a13 a14 a15 a16 a17 a18 a19 a20
      a21 a22 = (fun _ => 1#1)) :
    ∃ A : Cert.Spec.Args, a0 = up A.x ∧ a1 = up A.ea ∧ a2 = up A.vn0 ∧ a3 = up A.We ∧ a4 = up A.be ∧ a5 = up A.W1 ∧
      a6 = up A.b1 ∧ a7 = up A.g1 ∧ a8 = up A.bt1 ∧ a9 = up A.W2 ∧ a10 = up A.b2 ∧ a11 = up A.gb ∧ a12 = up A.bb ∧
      a13 = up A.Wv1 ∧ a14 = up A.bv1 ∧ a15 = up A.gv1 ∧ a16 = up A.btv1 ∧ a17 = up A.Wv2 ∧ a18 = up A.bv2 ∧
      a19 = up A.gv2 ∧ a20 = up A.btv2 ∧ a21 = A.ei ∧ a22 = A.batch ∧
      ∀ e : Fin 800000, 0 ≤ (Cert.Spec.srcw A e).toInt ∧ (Cert.Spec.srcw A e).toInt < 50000 := by
  have c0 := congrFun h ix0
  simp only [fn, fn_part1, fn_part2, fn_part3, fn_part4, fn_part5, fn_part6] at c0
  obtain ⟨c0, cR⟩ := and_split c0
  obtain ⟨c0, c20⟩ := and_split c0
  obtain ⟨c0, c19⟩ := and_split c0
  obtain ⟨c0, c18⟩ := and_split c0
  obtain ⟨c0, c17⟩ := and_split c0
  obtain ⟨c0, c16⟩ := and_split c0
  obtain ⟨c0, c15⟩ := and_split c0
  obtain ⟨c0, c14⟩ := and_split c0
  obtain ⟨c0, c13⟩ := and_split c0
  obtain ⟨c0, c12⟩ := and_split c0
  obtain ⟨c0, c11⟩ := and_split c0
  obtain ⟨c0, c10⟩ := and_split c0
  obtain ⟨c0, c9⟩ := and_split c0
  obtain ⟨c0, c8⟩ := and_split c0
  obtain ⟨c0, c7⟩ := and_split c0
  obtain ⟨c0, c6⟩ := and_split c0
  obtain ⟨c0, c5⟩ := and_split c0
  obtain ⟨c0, c4⟩ := and_split c0
  obtain ⟨c0, c3⟩ := and_split c0
  obtain ⟨c0, c2⟩ := and_split c0
  obtain ⟨c0, c1⟩ := and_split c0
  obtain ⟨r0, rfl⟩ := finite_of_all a0 _ _ _ c0
  obtain ⟨r1, rfl⟩ := finite_of_all a1 _ _ _ c1
  obtain ⟨r2, rfl⟩ := finite_of_all a2 _ _ _ c2
  obtain ⟨r3, rfl⟩ := finite_of_all a3 _ _ _ c3
  obtain ⟨r4, rfl⟩ := finite_of_all a4 _ _ _ c4
  obtain ⟨r5, rfl⟩ := finite_of_all a5 _ _ _ c5
  obtain ⟨r6, rfl⟩ := finite_of_all a6 _ _ _ c6
  obtain ⟨r7, rfl⟩ := finite_of_all a7 _ _ _ c7
  obtain ⟨r8, rfl⟩ := finite_of_all a8 _ _ _ c8
  obtain ⟨r9, rfl⟩ := finite_of_all a9 _ _ _ c9
  obtain ⟨r10, rfl⟩ := finite_of_all a10 _ _ _ c10
  obtain ⟨r11, rfl⟩ := finite_of_all a11 _ _ _ c11
  obtain ⟨r12, rfl⟩ := finite_of_all a12 _ _ _ c12
  obtain ⟨r13, rfl⟩ := finite_of_all a13 _ _ _ c13
  obtain ⟨r14, rfl⟩ := finite_of_all a14 _ _ _ c14
  obtain ⟨r15, rfl⟩ := finite_of_all a15 _ _ _ c15
  obtain ⟨r16, rfl⟩ := finite_of_all a16 _ _ _ c16
  obtain ⟨r17, rfl⟩ := finite_of_all a17 _ _ _ c17
  obtain ⟨r18, rfl⟩ := finite_of_all a18 _ _ _ c18
  obtain ⟨r19, rfl⟩ := finite_of_all a19 _ _ _ c19
  obtain ⟨r20, rfl⟩ := finite_of_all a20 _ _ _ c20
  exact ⟨⟨r0, r1, r2, r3, r4, r5, r6, r7, r8, r9, r10, r11, r12, r13, r14, r15, r16, r17, r18, r19, r20, a21, a22⟩,
    rfl, rfl, rfl, rfl, rfl, rfl, rfl, rfl, rfl, rfl, rfl, rfl, rfl, rfl, rfl, rfl, rfl, rfl, rfl, rfl, rfl, rfl, rfl,
    fun e => range_of_all a21 _ _ _ _ _ cR e⟩

end Cert.PreFacts

end
-- ==== Proof.KKeep.lean ====
import proofs.«403290_j73710228734482_1_alg».proof.Proof.Gen.KernelIdeal.Launch
import Idealize.ShloMosaic.Lib.StableHlo.Run

noncomputable section

namespace Cert.KernelIdeal.Hand

open Idealize.ShloMosaic Idealize.ShloMosaic.TcCoe Cert.KernelIdeal Cert.KernelIdeal.Gen

variable {F : FTy → Type} [FloatOps F]

/-- Every operation of `ops` writes only references of the list `W`. -/
abbrev WritesIn (ops : List (HloOp τ sig (Elt F))) (W : List (Ref sig .tc)) : Prop :=
  ops.Forall fun op => op.writes ⊆ (W.map (Proc.devRef (τ := τ) .tc)).toFinset

/-- A host operation writes its one result reference, so it writes inside any list holding that reference. -/
theorem wsub {W : List (Ref sig .tc)} {y : Ref sig .tc} (h : y ∈ W := by decide) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A reference outside the list keeps its contents through the operations. -/
theorem after_keep {ops : List (HloOp τ sig (Elt F))} {W : List (Ref sig .tc)} (hW : WritesIn ops W)
    (X : Valuation τ sig (Elt F)) (r : Ref sig .tc) (h : r ∉ W) :
    StableHlo.after ops X (Proc.devRef .tc r) = X (Proc.devRef .tc r) :=
  StableHlo.after_of_writes_sub ops X hW h

abbrev hostOps0_W : List (Ref sig .tc) := [main_v0, main_v1, main_v2, main_v3, main_v4, main_c, main_v5, main_v6, main_c_0, main_v7, main_v8, main_v9, main_v10, main_v11, main_v12]
theorem hostOps0_writes : WritesIn (F := F) hostOps0 hostOps0_W :=
  ⟨wsub, wsub, wsub, wsub, wsub, wsub, wsub, wsub, wsub, wsub, wsub, wsub, wsub, wsub, wsub⟩

abbrev hostOps0_1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v13]
theorem hostOps0_1_writes : WritesIn (F := F) hostOps0_1 hostOps0_1_W :=
  ⟨wsub, wsub, wsub, wsub, wsub, wsub, wsub, wsub, wsub, wsub, wsub, wsub, wsub, wsub, wsub, wsub, wsub, wsub, wsub, wsub, wsub, wsub, wsub⟩

abbrev hostOps0_2_W : List (Ref sig .tc) := [main_v14, main_v15, main_v16, main_v17, main_v18]
theorem hostOps0_2_writes : WritesIn (F := F) hostOps0_2 hostOps0_2_W :=
  ⟨wsub, wsub, wsub, wsub, wsub⟩

abbrev hostOps1_W : List (Ref sig .tc) := [main_cst, main_v20, main_v21, main_v22, main_v23, main_v24, main_v25, main_v26, main_v27]
theorem hostOps1_writes : WritesIn (F := F) hostOps1 hostOps1_W :=
  ⟨wsub, wsub, wsub, wsub, wsub, wsub, wsub, wsub, wsub⟩

abbrev hostOps2_W : List (Ref sig .tc) := [main_cst_1, main_v29, main_cst_2, main_v30, main_v31, main_c_3]
theorem hostOps2_writes : WritesIn (F := F) hostOps2 hostOps2_W :=
  ⟨wsub, wsub, wsub, wsub, wsub, wsub⟩

abbrev hostOps2_1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v32]
theorem hostOps2_1_writes : WritesIn (F := F) hostOps2_1 hostOps2_1_W :=
  ⟨wsub, wsub, wsub, wsub, wsub, wsub, wsub, wsub, wsub, wsub, wsub, wsub, wsub, wsub, wsub, wsub, wsub, wsub, wsub, wsub, wsub, wsub⟩

abbrev hostOps2_2_W : List (Ref sig .tc) := [main_v33, main_v34, main_cst_4, main_v35, main_v36, main_v37, main_v38, main_v39, main_v40, main_v41, main_v42, main_v43, main_v44]
theorem hostOps2_2_writes : WritesIn (F := F) hostOps2_2 hostOps2_2_W :=
  ⟨wsub, wsub, wsub, wsub, wsub, wsub, wsub, wsub, wsub, wsub, wsub, wsub, wsub⟩

abbrev hostOps3_W : List (Ref sig .tc) := [main_v46, main_v47, main_v48, main_v49, main_v50]
theorem hostOps3_writes : WritesIn (F := F) hostOps3 hostOps3_W :=
  ⟨wsub, wsub, wsub, wsub, wsub⟩

abbrev hostOps4_W : List (Ref sig .tc) := [main_cst_5, main_v52, main_cst_6, main_v53, main_v54, main_c_7]
theorem hostOps4_writes : WritesIn (F := F) hostOps4 hostOps4_W :=
  ⟨wsub, wsub, wsub, wsub, wsub, wsub⟩

abbrev hostOps4_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v55]
theorem hostOps4_1_writes : WritesIn (F := F) hostOps4_1 hostOps4_1_W :=
  ⟨wsub, wsub, wsub, wsub, wsub, wsub, wsub, wsub, wsub, wsub, wsub, wsub, wsub, wsub, wsub, wsub, wsub, wsub, wsub, wsub, wsub, wsub⟩

abbrev hostOps4_2_W : List (Ref sig .tc) := [main_v56, main_v57, main_cst_8, main_v58, main_v59, main_v60, main_v61, main_v62, main_v63, main_v64, main_v65, main_v66, main_v67]
theorem hostOps4_2_writes : WritesIn (F := F) hostOps4_2 hostOps4_2_W :=
  ⟨wsub, wsub, wsub, wsub, wsub, wsub, wsub, wsub, wsub, wsub, wsub, wsub, wsub⟩

abbrev hostOps5_W : List (Ref sig .tc) := [main_cst_9, main_v69, main_v70, main_v71, main_v72, main_v73, main_v74, main_v75, main_v76]
theorem hostOps5_writes : WritesIn (F := F) hostOps5 hostOps5_W :=
  ⟨wsub, wsub, wsub, wsub, wsub, wsub, wsub, wsub, wsub⟩

abbrev hostOps6_W : List (Ref sig .tc) := [main_cst_10, main_v78, main_cst_11, main_v79, main_v80, main_c_12]
theorem hostOps6_writes : WritesIn (F := F) hostOps6 hostOps6_W :=
  ⟨wsub, wsub, wsub, wsub, wsub, wsub⟩

abbrev hostOps6_1_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v81]
theorem hostOps6_1_writes : WritesIn (F := F) hostOps6_1 hostOps6_1_W :=
  ⟨wsub, wsub, wsub, wsub, wsub, wsub, wsub, wsub, wsub, wsub, wsub, wsub, wsub, wsub, wsub, wsub, wsub, wsub, wsub, wsub, wsub, wsub⟩

abbrev hostOps6_2_W : List (Ref sig .tc) := [main_v82, main_v83, main_cst_13, main_v84, main_v85, main_v86, main_v87, main_v88, main_v89, main_v90, main_v91, main_v92, main_v93]
theorem hostOps6_2_writes : WritesIn (F := F) hostOps6_2 hostOps6_2_W :=
  ⟨wsub, wsub, wsub, wsub, wsub, wsub, wsub, wsub, wsub, wsub, wsub, wsub, wsub⟩

abbrev hostOps7_W : List (Ref sig .tc) := [main_v95, main_v96, main_v97, main_v98, main_v99]
theorem hostOps7_writes : WritesIn (F := F) hostOps7 hostOps7_W :=
  ⟨wsub, wsub, wsub, wsub, wsub⟩

abbrev hostOps8_W : List (Ref sig .tc) := [main_cst_14, main_v101, main_cst_15, main_v102, main_v103, main_c_16]
theorem hostOps8_writes : WritesIn (F := F) hostOps8 hostOps8_W :=
  ⟨wsub, wsub, wsub, wsub, wsub, wsub⟩

abbrev hostOps8_1_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v104]
theorem hostOps8_1_writes : WritesIn (F := F) hostOps8_1 hostOps8_1_W :=
  ⟨wsub, wsub, wsub, wsub, wsub, wsub, wsub, wsub, wsub, wsub, wsub, wsub, wsub, wsub, wsub, wsub, wsub, wsub, wsub, wsub, wsub, wsub⟩

abbrev hostOps8_2_W : List (Ref sig .tc) := [main_v105, main_v106, main_cst_17, main_v107, main_v108, main_v109, main_v110, main_v111, main_v112, main_v113, main_v114, main_v115, main_v116]
theorem hostOps8_2_writes : WritesIn (F := F) hostOps8_2 hostOps8_2_W :=
  ⟨wsub, wsub, wsub, wsub, wsub, wsub, wsub, wsub, wsub, wsub, wsub, wsub, wsub⟩

abbrev hostOps9_W : List (Ref sig .tc) := [main_c_18, main_v118, main_v119, main_c_19, main_v120, main_v121, main_v122, main_v123, main_v124, main_v125]
theorem hostOps9_writes : WritesIn (F := F) hostOps9 hostOps9_W :=
  ⟨wsub, wsub, wsub, wsub, wsub, wsub, wsub, wsub, wsub, wsub⟩

abbrev hostOps9_1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v126]
theorem hostOps9_1_writes : WritesIn (F := F) hostOps9_1 hostOps9_1_W :=
  ⟨wsub, wsub, wsub, wsub, wsub, wsub, wsub, wsub, wsub, wsub, wsub, wsub, wsub, wsub, wsub, wsub, wsub, wsub, wsub, wsub, wsub, wsub, wsub⟩

abbrev hostOps9_2_W : List (Ref sig .tc) := [main_v127, main_v128, main_v129, main_v130, main_v131]
theorem hostOps9_2_writes : WritesIn (F := F) hostOps9_2 hostOps9_2_W :=
  ⟨wsub, wsub, wsub, wsub, wsub⟩

abbrev hostOps10_W : List (Ref sig .tc) := [main_cst_20, main_v133, main_v134, main_v135, main_v136, main_v137, main_v138, main_v139, main_v140]
theorem hostOps10_writes : WritesIn (F := F) hostOps10 hostOps10_W :=
  ⟨wsub, wsub, wsub, wsub, wsub, wsub, wsub, wsub, wsub⟩

abbrev hostOps11_W : List (Ref sig .tc) := [main_cst_21, main_v142, main_cst_22, main_v143, main_v144, main_c_23]
theorem hostOps11_writes : WritesIn (F := F) hostOps11 hostOps11_W :=
  ⟨wsub, wsub, wsub, wsub, wsub, wsub⟩

abbrev hostOps11_1_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v145]
theorem hostOps11_1_writes : WritesIn (F := F) hostOps11_1 hostOps11_1_W :=
  ⟨wsub, wsub, wsub, wsub, wsub, wsub, wsub, wsub, wsub, wsub, wsub, wsub, wsub, wsub, wsub, wsub, wsub, wsub, wsub, wsub, wsub, wsub⟩

abbrev hostOps11_2_W : List (Ref sig .tc) := [main_v146, main_v147, main_cst_24, main_v148, main_v149, main_v150, main_v151, main_v152, main_v153, main_v154, main_v155, main_v156, main_v157]
theorem hostOps11_2_writes : WritesIn (F := F) hostOps11_2 hostOps11_2_W :=
  ⟨wsub, wsub, wsub, wsub, wsub, wsub, wsub, wsub, wsub, wsub, wsub, wsub, wsub⟩

abbrev hostOps12_W : List (Ref sig .tc) := [main_v159, main_v160, main_v161, main_v162, main_v163]
theorem hostOps12_writes : WritesIn (F := F) hostOps12 hostOps12_W :=
  ⟨wsub, wsub, wsub, wsub, wsub⟩

abbrev hostOps13_W : List (Ref sig .tc) := [main_cst_25, main_v165, main_cst_26, main_v166, main_v167, main_c_27]
theorem hostOps13_writes : WritesIn (F := F) hostOps13 hostOps13_W :=
  ⟨wsub, wsub, wsub, wsub, wsub, wsub⟩

abbrev hostOps13_1_W : List (Ref sig .tc) := [main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v168]
theorem hostOps13_1_writes : WritesIn (F := F) hostOps13_1 hostOps13_1_W :=
  ⟨wsub, wsub, wsub, wsub, wsub, wsub, wsub, wsub, wsub, wsub, wsub, wsub, wsub, wsub, wsub, wsub, wsub, wsub, wsub, wsub, wsub, wsub⟩

abbrev hostOps13_2_W : List (Ref sig .tc) := [main_v169, main_v170, main_cst_28, main_v171, main_v172, main_v173, main_v174, main_v175, main_v176, main_v177, main_v178, main_v179, main_v180]
theorem hostOps13_2_writes : WritesIn (F := F) hostOps13_2 hostOps13_2_W :=
  ⟨wsub, wsub, wsub, wsub, wsub, wsub, wsub, wsub, wsub, wsub, wsub, wsub, wsub⟩

abbrev hostOps14_W : List (Ref sig .tc) := [main_cst_29, main_v182, main_v183, main_v184, main_v185, main_v186, main_v187, main_v188, main_v189]
theorem hostOps14_writes : WritesIn (F := F) hostOps14 hostOps14_W :=
  ⟨wsub, wsub, wsub, wsub, wsub, wsub, wsub, wsub, wsub⟩

abbrev hostOps15_W : List (Ref sig .tc) := [main_cst_30, main_v191, main_cst_31, main_v192, main_v193, main_c_32]
theorem hostOps15_writes : WritesIn (F := F) hostOps15 hostOps15_W :=
  ⟨wsub, wsub, wsub, wsub, wsub, wsub⟩

abbrev hostOps15_1_W : List (Ref sig .tc) := [main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v194]
theorem hostOps15_1_writes : WritesIn (F := F) hostOps15_1 hostOps15_1_W :=
  ⟨wsub, wsub, wsub, wsub, wsub, wsub, wsub, wsub, wsub, wsub, wsub, wsub, wsub, wsub, wsub, wsub, wsub, wsub, wsub, wsub, wsub, wsub⟩

abbrev hostOps15_2_W : List (Ref sig .tc) := [main_v195, main_v196, main_cst_33, main_v197, main_v198, main_v199, main_v200, main_v201, main_v202, main_v203, main_v204, main_v205, main_v206]
theorem hostOps15_2_writes : WritesIn (F := F) hostOps15_2 hostOps15_2_W :=
  ⟨wsub, wsub, wsub, wsub, wsub, wsub, wsub, wsub, wsub, wsub, wsub, wsub, wsub⟩

abbrev hostOps16_W : List (Ref sig .tc) := [main_v208, main_v209, main_v210, main_v211, main_v212]
theorem hostOps16_writes : WritesIn (F := F) hostOps16 hostOps16_W :=
  ⟨wsub, wsub, wsub, wsub, wsub⟩

abbrev hostOps17_W : List (Ref sig .tc) := [main_cst_34, main_v214, main_cst_35, main_v215, main_v216, main_c_36]
theorem hostOps17_writes : WritesIn (F := F) hostOps17 hostOps17_W :=
  ⟨wsub, wsub, wsub, wsub, wsub, wsub⟩

abbrev hostOps17_1_W : List (Ref sig .tc) := [main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v217]
theorem hostOps17_1_writes : WritesIn (F := F) hostOps17_1 hostOps17_1_W :=
  ⟨wsub, wsub, wsub, wsub, wsub, wsub, wsub, wsub, wsub, wsub, wsub, wsub, wsub, wsub, wsub, wsub, wsub, wsub, wsub, wsub, wsub, wsub⟩

abbrev hostOps17_2_W : List (Ref sig .tc) := [main_v218, main_v219, main_cst_37, main_v220, main_v221, main_v222, main_v223, main_v224, main_v225, main_v226, main_v227, main_v228, main_v229]
theorem hostOps17_2_writes : WritesIn (F := F) hostOps17_2 hostOps17_2_W :=
  ⟨wsub, wsub, wsub, wsub, wsub, wsub, wsub, wsub, wsub, wsub, wsub, wsub, wsub⟩

abbrev hostOps18_W : List (Ref sig .tc) := [main_c_38, main_v231, main_v232, main_c_39, main_v233, main_v234, main_v235, main_v236, main_v237, main_v238]
theorem hostOps18_writes : WritesIn (F := F) hostOps18 hostOps18_W :=
  ⟨wsub, wsub, wsub, wsub, wsub, wsub, wsub, wsub, wsub, wsub⟩

abbrev hostOps18_1_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v239]
theorem hostOps18_1_writes : WritesIn (F := F) hostOps18_1 hostOps18_1_W :=
  ⟨wsub, wsub, wsub, wsub, wsub, wsub, wsub, wsub, wsub, wsub, wsub, wsub, wsub, wsub, wsub, wsub, wsub, wsub, wsub, wsub, wsub, wsub, wsub⟩

abbrev hostOps18_2_W : List (Ref sig .tc) := [main_v240, main_v241, main_v242, main_v243, main_v244]
theorem hostOps18_2_writes : WritesIn (F := F) hostOps18_2 hostOps18_2_W :=
  ⟨wsub, wsub, wsub, wsub, wsub⟩

abbrev hostOps19_W : List (Ref sig .tc) := [main_cst_40, main_v246, main_v247, main_v248, main_v249, main_v250, main_v251, main_v252, main_v253]
theorem hostOps19_writes : WritesIn (F := F) hostOps19 hostOps19_W :=
  ⟨wsub, wsub, wsub, wsub, wsub, wsub, wsub, wsub, wsub⟩

abbrev hostOps20_W : List (Ref sig .tc) := [main_cst_41, main_v255, main_cst_42, main_v256, main_v257, main_c_43]
theorem hostOps20_writes : WritesIn (F := F) hostOps20 hostOps20_W :=
  ⟨wsub, wsub, wsub, wsub, wsub, wsub⟩

abbrev hostOps20_1_W : List (Ref sig .tc) := [main_call11_cst, main_call11_v0, main_call11_v1, main_call11_cst_0, main_call11_v2, main_call11_v3, main_call11_v4, main_call11_v5, main_call11_v6, main_call11_v7, main_call11_cst_1, main_call11_v8, main_call11_cst_2, main_call11_v9, main_call11_v10, main_call11_v11, main_call11_cst_3, main_call11_v12, main_call11_cst_4, main_call11_call0_v0, main_call11_call0_v1, main_v258]
theorem hostOps20_1_writes : WritesIn (F := F) hostOps20_1 hostOps20_1_W :=
  ⟨wsub, wsub, wsub, wsub, wsub, wsub, wsub, wsub, wsub, wsub, wsub, wsub, wsub, wsub, wsub, wsub, wsub, wsub, wsub, wsub, wsub, wsub⟩

abbrev hostOps20_2_W : List (Ref sig .tc) := [main_v259, main_v260, main_cst_44, main_v261, main_v262, main_v263, main_v264, main_v265, main_v266, main_v267, main_v268, main_v269, main_v270]
theorem hostOps20_2_writes : WritesIn (F := F) hostOps20_2 hostOps20_2_W :=
  ⟨wsub, wsub, wsub, wsub, wsub, wsub, wsub, wsub, wsub, wsub, wsub, wsub, wsub⟩

abbrev hostOps21_W : List (Ref sig .tc) := [main_v272, main_v273, main_v274, main_v275, main_v276]
theorem hostOps21_writes : WritesIn (F := F) hostOps21 hostOps21_W :=
  ⟨wsub, wsub, wsub, wsub, wsub⟩

abbrev hostOps22_W : List (Ref sig .tc) := [main_cst_45, main_v278, main_cst_46, main_v279, main_v280, main_c_47]
theorem hostOps22_writes : WritesIn (F := F) hostOps22 hostOps22_W :=
  ⟨wsub, wsub, wsub, wsub, wsub, wsub⟩

abbrev hostOps22_1_W : List (Ref sig .tc) := [main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v281]
theorem hostOps22_1_writes : WritesIn (F := F) hostOps22_1 hostOps22_1_W :=
  ⟨wsub, wsub, wsub, wsub, wsub, wsub, wsub, wsub, wsub, wsub, wsub, wsub, wsub, wsub, wsub, wsub, wsub, wsub, wsub, wsub, wsub, wsub⟩

abbrev hostOps22_2_W : List (Ref sig .tc) := [main_v282, main_v283, main_cst_48, main_v284, main_v285, main_v286, main_v287, main_v288, main_v289, main_v290, main_v291, main_v292, main_v293]
theorem hostOps22_2_writes : WritesIn (F := F) hostOps22_2 hostOps22_2_W :=
  ⟨wsub, wsub, wsub, wsub, wsub, wsub, wsub, wsub, wsub, wsub, wsub, wsub, wsub⟩

abbrev Kept0 (r : Ref sig .tc) : Prop := r ∉ hostOps0_W ∧ r ∉ hostOps0_1_W ∧ r ∉ hostOps0_2_W ∧ ∀ w, Pipeline.arrRef spec0 w ≠ r
abbrev Kept1 (r : Ref sig .tc) : Prop := r ∉ hostOps1_W ∧ ∀ w, Pipeline.arrRef spec1 w ≠ r
abbrev Kept2 (r : Ref sig .tc) : Prop := r ∉ hostOps2_W ∧ r ∉ hostOps2_1_W ∧ r ∉ hostOps2_2_W ∧ ∀ w, Pipeline.arrRef spec2 w ≠ r
abbrev Kept3 (r : Ref sig .tc) : Prop := r ∉ hostOps3_W ∧ ∀ w, Pipeline.arrRef spec3 w ≠ r
abbrev Kept4 (r : Ref sig .tc) : Prop := r ∉ hostOps4_W ∧ r ∉ hostOps4_1_W ∧ r ∉ hostOps4_2_W ∧ ∀ w, Pipeline.arrRef spec4 w ≠ r
abbrev Kept5 (r : Ref sig .tc) : Prop := r ∉ hostOps5_W ∧ ∀ w, Pipeline.arrRef spec5 w ≠ r
abbrev Kept6 (r : Ref sig .tc) : Prop := r ∉ hostOps6_W ∧ r ∉ hostOps6_1_W ∧ r ∉ hostOps6_2_W ∧ ∀ w, Pipeline.arrRef spec6 w ≠ r
abbrev Kept7 (r : Ref sig .tc) : Prop := r ∉ hostOps7_W ∧ ∀ w, Pipeline.arrRef spec7 w ≠ r
abbrev Kept8 (r : Ref sig .tc) : Prop := r ∉ hostOps8_W ∧ r ∉ hostOps8_1_W ∧ r ∉ hostOps8_2_W ∧ ∀ w, Pipeline.arrRef spec8 w ≠ r
abbrev Kept9 (r : Ref sig .tc) : Prop := r ∉ hostOps9_W ∧ r ∉ hostOps9_1_W ∧ r ∉ hostOps9_2_W ∧ ∀ w, Pipeline.arrRef spec9 w ≠ r
abbrev Kept10 (r : Ref sig .tc) : Prop := r ∉ hostOps10_W ∧ ∀ w, Pipeline.arrRef spec10 w ≠ r
abbrev Kept11 (r : Ref sig .tc) : Prop := r ∉ hostOps11_W ∧ r ∉ hostOps11_1_W ∧ r ∉ hostOps11_2_W ∧ ∀ w, Pipeline.arrRef spec11 w ≠ r
abbrev Kept12 (r : Ref sig .tc) : Prop := r ∉ hostOps12_W ∧ ∀ w, Pipeline.arrRef spec12 w ≠ r
abbrev Kept13 (r : Ref sig .tc) : Prop := r ∉ hostOps13_W ∧ r ∉ hostOps13_1_W ∧ r ∉ hostOps13_2_W ∧ ∀ w, Pipeline.arrRef spec13 w ≠ r
abbrev Kept14 (r : Ref sig .tc) : Prop := r ∉ hostOps14_W ∧ ∀ w, Pipeline.arrRef spec14 w ≠ r
abbrev Kept15 (r : Ref sig .tc) : Prop := r ∉ hostOps15_W ∧ r ∉ hostOps15_1_W ∧ r ∉ hostOps15_2_W ∧ ∀ w, Pipeline.arrRef spec15 w ≠ r
abbrev Kept16 (r : Ref sig .tc) : Prop := r ∉ hostOps16_W ∧ ∀ w, Pipeline.arrRef spec16 w ≠ r
abbrev Kept17 (r : Ref sig .tc) : Prop := r ∉ hostOps17_W ∧ r ∉ hostOps17_1_W ∧ r ∉ hostOps17_2_W ∧ ∀ w, Pipeline.arrRef spec17 w ≠ r
abbrev Kept18 (r : Ref sig .tc) : Prop := r ∉ hostOps18_W ∧ r ∉ hostOps18_1_W ∧ r ∉ hostOps18_2_W ∧ ∀ w, Pipeline.arrRef spec18 w ≠ r
abbrev Kept19 (r : Ref sig .tc) : Prop := r ∉ hostOps19_W ∧ ∀ w, Pipeline.arrRef spec19 w ≠ r
abbrev Kept20 (r : Ref sig .tc) : Prop := r ∉ hostOps20_W ∧ r ∉ hostOps20_1_W ∧ r ∉ hostOps20_2_W ∧ ∀ w, Pipeline.arrRef spec20 w ≠ r
abbrev Kept21 (r : Ref sig .tc) : Prop := r ∉ hostOps21_W ∧ ∀ w, Pipeline.arrRef spec21 w ≠ r
abbrev Kept22 (r : Ref sig .tc) : Prop := r ∉ hostOps22_W ∧ r ∉ hostOps22_1_W ∧ r ∉ hostOps22_2_W ∧ ∀ w, Pipeline.arrRef spec22 w ≠ r

end Cert.KernelIdeal.Hand

end
-- ==== Proof.KKeepW.lean ====
import proofs.«403290_j73710228734482_1_alg».proof.Proof.Gen.KernelIdeal.Frame
import proofs.«403290_j73710228734482_1_alg».proof.Proof.KKeep

noncomputable section

namespace Cert.KernelIdeal.Hand

open Idealize.ShloMosaic Idealize.ShloMosaic.TcCoe Cert.KernelIdeal Cert.KernelIdeal.Gen

variable {F : FTy → Type} [FloatOps F]
variable (m : (ℓ : Loc nD τ sig) → Buf (Elt F) ℓ) (ρ : Dev nD → PrngReg) (c : Dev nD)

theorem keep0 (r : Ref sig .tc) (h : Kept0 r) :
    W4 m ρ c (Proc.devRef .tc r) = W0 m ρ c (Proc.devRef .tc r) :=
  (W4_of_ne m ρ c r h.2.2.2).trans ((after_keep hostOps0_2_writes _ r h.2.2.1).trans ((after_keep hostOps0_1_writes _ r h.2.1).trans (after_keep hostOps0_writes _ r h.1)))
theorem keep1 (r : Ref sig .tc) (h : Kept1 r) :
    W6 m ρ c (Proc.devRef .tc r) = W4 m ρ c (Proc.devRef .tc r) :=
  (W6_of_ne m ρ c r h.2).trans (after_keep hostOps1_writes _ r h.1)
theorem keep2 (r : Ref sig .tc) (h : Kept2 r) :
    W10 m ρ c (Proc.devRef .tc r) = W6 m ρ c (Proc.devRef .tc r) :=
  (W10_of_ne m ρ c r h.2.2.2).trans ((after_keep hostOps2_2_writes _ r h.2.2.1).trans ((after_keep hostOps2_1_writes _ r h.2.1).trans (after_keep hostOps2_writes _ r h.1)))
theorem keep3 (r : Ref sig .tc) (h : Kept3 r) :
    W12 m ρ c (Proc.devRef .tc r) = W10 m ρ c (Proc.devRef .tc r) :=
  (W12_of_ne m ρ c r h.2).trans (after_keep hostOps3_writes _ r h.1)
theorem keep4 (r : Ref sig .tc) (h : Kept4 r) :
    W16 m ρ c (Proc.devRef .tc r) = W12 m ρ c (Proc.devRef .tc r) :=
  (W16_of_ne m ρ c r h.2.2.2).trans ((after_keep hostOps4_2_writes _ r h.2.2.1).trans ((after_keep hostOps4_1_writes _ r h.2.1).trans (after_keep hostOps4_writes _ r h.1)))
theorem keep5 (r : Ref sig .tc) (h : Kept5 r) :
    W18 m ρ c (Proc.devRef .tc r) = W16 m ρ c (Proc.devRef .tc r) :=
  (W18_of_ne m ρ c r h.2).trans (after_keep hostOps5_writes _ r h.1)
theorem keep6 (r : Ref sig .tc) (h : Kept6 r) :
    W22 m ρ c (Proc.devRef .tc r) = W18 m ρ c (Proc.devRef .tc r) :=
  (W22_of_ne m ρ c r h.2.2.2).trans ((after_keep hostOps6_2_writes _ r h.2.2.1).trans ((after_keep hostOps6_1_writes _ r h.2.1).trans (after_keep hostOps6_writes _ r h.1)))
theorem keep7 (r : Ref sig .tc) (h : Kept7 r) :
    W24 m ρ c (Proc.devRef .tc r) = W22 m ρ c (Proc.devRef .tc r) :=
  (W24_of_ne m ρ c r h.2).trans (after_keep hostOps7_writes _ r h.1)
theorem keep8 (r : Ref sig .tc) (h : Kept8 r) :
    W28 m ρ c (Proc.devRef .tc r) = W24 m ρ c (Proc.devRef .tc r) :=
  (W28_of_ne m ρ c r h.2.2.2).trans ((after_keep hostOps8_2_writes _ r h.2.2.1).trans ((after_keep hostOps8_1_writes _ r h.2.1).trans (after_keep hostOps8_writes _ r h.1)))
theorem keep9 (r : Ref sig .tc) (h : Kept9 r) :
    W32 m ρ c (Proc.devRef .tc r) = W28 m ρ c (Proc.devRef .tc r) :=
  (W32_of_ne m ρ c r h.2.2.2).trans ((after_keep hostOps9_2_writes _ r h.2.2.1).trans ((after_keep hostOps9_1_writes _ r h.2.1).trans (after_keep hostOps9_writes _ r h.1)))
theorem keep10 (r : Ref sig .tc) (h : Kept10 r) :
    W34 m ρ c (Proc.devRef .tc r) = W32 m ρ c (Proc.devRef .tc r) :=
  (W34_of_ne m ρ c r h.2).trans (after_keep hostOps10_writes _ r h.1)
theorem keep11 (r : Ref sig .tc) (h : Kept11 r) :
    W38 m ρ c (Proc.devRef .tc r) = W34 m ρ c (Proc.devRef .tc r) :=
  (W38_of_ne m ρ c r h.2.2.2).trans ((after_keep hostOps11_2_writes _ r h.2.2.1).trans ((after_keep hostOps11_1_writes _ r h.2.1).trans (after_keep hostOps11_writes _ r h.1)))
theorem keep12 (r : Ref sig .tc) (h : Kept12 r) :
    W40 m ρ c (Proc.devRef .tc r) = W38 m ρ c (Proc.devRef .tc r) :=
  (W40_of_ne m ρ c r h.2).trans (after_keep hostOps12_writes _ r h.1)
theorem keep13 (r : Ref sig .tc) (h : Kept13 r) :
    W44 m ρ c (Proc.devRef .tc r) = W40 m ρ c (Proc.devRef .tc r) :=
  (W44_of_ne m ρ c r h.2.2.2).trans ((after_keep hostOps13_2_writes _ r h.2.2.1).trans ((after_keep hostOps13_1_writes _ r h.2.1).trans (after_keep hostOps13_writes _ r h.1)))
theorem keep14 (r : Ref sig .tc) (h : Kept14 r) :
    W46 m ρ c (Proc.devRef .tc r) = W44 m ρ c (Proc.devRef .tc r) :=
  (W46_of_ne m ρ c r h.2).trans (after_keep hostOps14_writes _ r h.1)
theorem keep15 (r : Ref sig .tc) (h : Kept15 r) :
    W50 m ρ c (Proc.devRef .tc r) = W46 m ρ c (Proc.devRef .tc r) :=
  (W50_of_ne m ρ c r h.2.2.2).trans ((after_keep hostOps15_2_writes _ r h.2.2.1).trans ((after_keep hostOps15_1_writes _ r h.2.1).trans (after_keep hostOps15_writes _ r h.1)))
theorem keep16 (r : Ref sig .tc) (h : Kept16 r) :
    W52 m ρ c (Proc.devRef .tc r) = W50 m ρ c (Proc.devRef .tc r) :=
  (W52_of_ne m ρ c r h.2).trans (after_keep hostOps16_writes _ r h.1)
theorem keep17 (r : Ref sig .tc) (h : Kept17 r) :
    W56 m ρ c (Proc.devRef .tc r) = W52 m ρ c (Proc.devRef .tc r) :=
  (W56_of_ne m ρ c r h.2.2.2).trans ((after_keep hostOps17_2_writes _ r h.2.2.1).trans ((after_keep hostOps17_1_writes _ r h.2.1).trans (after_keep hostOps17_writes _ r h.1)))
theorem keep18 (r : Ref sig .tc) (h : Kept18 r) :
    W60 m ρ c (Proc.devRef .tc r) = W56 m ρ c (Proc.devRef .tc r) :=
  (W60_of_ne m ρ c r h.2.2.2).trans ((after_keep hostOps18_2_writes _ r h.2.2.1).trans ((after_keep hostOps18_1_writes _ r h.2.1).trans (after_keep hostOps18_writes _ r h.1)))
theorem keep19 (r : Ref sig .tc) (h : Kept19 r) :
    W62 m ρ c (Proc.devRef .tc r) = W60 m ρ c (Proc.devRef .tc r) :=
  (W62_of_ne m ρ c r h.2).trans (after_keep hostOps19_writes _ r h.1)
theorem keep20 (r : Ref sig .tc) (h : Kept20 r) :
    W66 m ρ c (Proc.devRef .tc r) = W62 m ρ c (Proc.devRef .tc r) :=
  (W66_of_ne m ρ c r h.2.2.2).trans ((after_keep hostOps20_2_writes _ r h.2.2.1).trans ((after_keep hostOps20_1_writes _ r h.2.1).trans (after_keep hostOps20_writes _ r h.1)))
theorem keep21 (r : Ref sig .tc) (h : Kept21 r) :
    W68 m ρ c (Proc.devRef .tc r) = W66 m ρ c (Proc.devRef .tc r) :=
  (W68_of_ne m ρ c r h.2).trans (after_keep hostOps21_writes _ r h.1)
theorem keep22 (r : Ref sig .tc) (h : Kept22 r) :
    W72 m ρ c (Proc.devRef .tc r) = W68 m ρ c (Proc.devRef .tc r) :=
  (W72_of_ne m ρ c r h.2.2.2).trans ((after_keep hostOps22_2_writes _ r h.2.2.1).trans ((after_keep hostOps22_1_writes _ r h.2.1).trans (after_keep hostOps22_writes _ r h.1)))

theorem regin0_1 : W4 m ρ c (Proc.devRef .tc (Pipeline.arrRef spec0 1)) = W3 m ρ c (Proc.devRef .tc (Pipeline.arrRef spec0 1)) :=
  (W4_arr m ρ c 1).trans (((dat0 (V3 m ρ) c).arrAt_in 1 rfl _).trans (A_eq0 (V3 m ρ) c 1))
theorem regin1_0 : W6 m ρ c (Proc.devRef .tc (Pipeline.arrRef spec1 0)) = W5 m ρ c (Proc.devRef .tc (Pipeline.arrRef spec1 0)) :=
  (W6_arr m ρ c 0).trans (((dat1 (V5 m ρ) c).arrAt_in 0 rfl _).trans (A_eq1 (V5 m ρ) c 0))
theorem regin9_1 : W32 m ρ c (Proc.devRef .tc (Pipeline.arrRef spec9 1)) = W31 m ρ c (Proc.devRef .tc (Pipeline.arrRef spec9 1)) :=
  (W32_arr m ρ c 1).trans (((dat9 (V31 m ρ) c).arrAt_in 1 rfl _).trans (A_eq9 (V31 m ρ) c 1))
theorem regin10_0 : W34 m ρ c (Proc.devRef .tc (Pipeline.arrRef spec10 0)) = W33 m ρ c (Proc.devRef .tc (Pipeline.arrRef spec10 0)) :=
  (W34_arr m ρ c 0).trans (((dat10 (V33 m ρ) c).arrAt_in 0 rfl _).trans (A_eq10 (V33 m ρ) c 0))
theorem regin19_0 : W62 m ρ c (Proc.devRef .tc (Pipeline.arrRef spec19 0)) = W61 m ρ c (Proc.devRef .tc (Pipeline.arrRef spec19 0)) :=
  (W62_arr m ρ c 0).trans (((dat19 (V61 m ρ) c).arrAt_in 0 rfl _).trans (A_eq19 (V61 m ρ) c 0))

/-- The parameter arrays: no host stretch writes them and no region takes them as an array. -/
abbrev paramRefs : List (Ref sig .tc) := [main_arg3, main_arg4, main_arg5, main_arg6, main_arg7, main_arg8, main_arg9, main_arg10, main_arg11, main_arg12, main_arg13, main_arg14, main_arg15, main_arg16, main_arg17, main_arg18, main_arg19, main_arg20, main_arg22]

/-- A parameter array holds its launch contents at every stage entry: each stage keeps it. -/
theorem argsAt0 (r : Ref sig .tc) (hr : r ∈ paramRefs) :
    W0 m ρ c (Proc.devRef .tc r) = m ((c : Thread nD τ).loc r) := rfl
theorem argsAt1 (r : Ref sig .tc) (hr : r ∈ paramRefs) :
    W4 m ρ c (Proc.devRef .tc r) = m ((c : Thread nD τ).loc r) :=
  (keep0 m ρ c r ((by decide +kernel : ∀ r ∈ paramRefs, Kept0 r) r hr)).trans (argsAt0 m ρ c r hr)
theorem argsAt2 (r : Ref sig .tc) (hr : r ∈ paramRefs) :
    W6 m ρ c (Proc.devRef .tc r) = m ((c : Thread nD τ).loc r) :=
  (keep1 m ρ c r ((by decide +kernel : ∀ r ∈ paramRefs, Kept1 r) r hr)).trans (argsAt1 m ρ c r hr)
theorem argsAt3 (r : Ref sig .tc) (hr : r ∈ paramRefs) :
    W10 m ρ c (Proc.devRef .tc r) = m ((c : Thread nD τ).loc r) :=
  (keep2 m ρ c r ((by decide +kernel : ∀ r ∈ paramRefs, Kept2 r) r hr)).trans (argsAt2 m ρ c r hr)
theorem argsAt4 (r : Ref sig .tc) (hr : r ∈ paramRefs) :
    W12 m ρ c (Proc.devRef .tc r) = m ((c : Thread nD τ).loc r) :=
  (keep3 m ρ c r ((by decide +kernel : ∀ r ∈ paramRefs, Kept3 r) r hr)).trans (argsAt3 m ρ c r hr)
theorem argsAt5 (r : Ref sig .tc) (hr : r ∈ paramRefs) :
    W16 m ρ c (Proc.devRef .tc r) = m ((c : Thread nD τ).loc r) :=
  (keep4 m ρ c r ((by decide +kernel : ∀ r ∈ paramRefs, Kept4 r) r hr)).trans (argsAt4 m ρ c r hr)
theorem argsAt6 (r : Ref sig .tc) (hr : r ∈ paramRefs) :
    W18 m ρ c (Proc.devRef .tc r) = m ((c : Thread nD τ).loc r) :=
  (keep5 m ρ c r ((by decide +kernel : ∀ r ∈ paramRefs, Kept5 r) r hr)).trans (argsAt5 m ρ c r hr)
theorem argsAt7 (r : Ref sig .tc) (hr : r ∈ paramRefs) :
    W22 m ρ c (Proc.devRef .tc r) = m ((c : Thread nD τ).loc r) :=
  (keep6 m ρ c r ((by decide +kernel : ∀ r ∈ paramRefs, Kept6 r) r hr)).trans (argsAt6 m ρ c r hr)
theorem argsAt8 (r : Ref sig .tc) (hr : r ∈ paramRefs) :
    W24 m ρ c (Proc.devRef .tc r) = m ((c : Thread nD τ).loc r) :=
  (keep7 m ρ c r ((by decide +kernel : ∀ r ∈ paramRefs, Kept7 r) r hr)).trans (argsAt7 m ρ c r hr)
theorem argsAt9 (r : Ref sig .tc) (hr : r ∈ paramRefs) :
    W28 m ρ c (Proc.devRef .tc r) = m ((c : Thread nD τ).loc r) :=
  (keep8 m ρ c r ((by decide +kernel : ∀ r ∈ paramRefs, Kept8 r) r hr)).trans (argsAt8 m ρ c r hr)
theorem argsAt10 (r : Ref sig .tc) (hr : r ∈ paramRefs) :
    W32 m ρ c (Proc.devRef .tc r) = m ((c : Thread nD τ).loc r) :=
  (keep9 m ρ c r ((by decide +kernel : ∀ r ∈ paramRefs, Kept9 r) r hr)).trans (argsAt9 m ρ c r hr)
theorem argsAt11 (r : Ref sig .tc) (hr : r ∈ paramRefs) :
    W34 m ρ c (Proc.devRef .tc r) = m ((c : Thread nD τ).loc r) :=
  (keep10 m ρ c r ((by decide +kernel : ∀ r ∈ paramRefs, Kept10 r) r hr)).trans (argsAt10 m ρ c r hr)
theorem argsAt12 (r : Ref sig .tc) (hr : r ∈ paramRefs) :
    W38 m ρ c (Proc.devRef .tc r) = m ((c : Thread nD τ).loc r) :=
  (keep11 m ρ c r ((by decide +kernel : ∀ r ∈ paramRefs, Kept11 r) r hr)).trans (argsAt11 m ρ c r hr)
theorem argsAt13 (r : Ref sig .tc) (hr : r ∈ paramRefs) :
    W40 m ρ c (Proc.devRef .tc r) = m ((c : Thread nD τ).loc r) :=
  (keep12 m ρ c r ((by decide +kernel : ∀ r ∈ paramRefs, Kept12 r) r hr)).trans (argsAt12 m ρ c r hr)
theorem argsAt14 (r : Ref sig .tc) (hr : r ∈ paramRefs) :
    W44 m ρ c (Proc.devRef .tc r) = m ((c : Thread nD τ).loc r) :=
  (keep13 m ρ c r ((by decide +kernel : ∀ r ∈ paramRefs, Kept13 r) r hr)).trans (argsAt13 m ρ c r hr)
theorem argsAt15 (r : Ref sig .tc) (hr : r ∈ paramRefs) :
    W46 m ρ c (Proc.devRef .tc r) = m ((c : Thread nD τ).loc r) :=
  (keep14 m ρ c r ((by decide +kernel : ∀ r ∈ paramRefs, Kept14 r) r hr)).trans (argsAt14 m ρ c r hr)
theorem argsAt16 (r : Ref sig .tc) (hr : r ∈ paramRefs) :
    W50 m ρ c (Proc.devRef .tc r) = m ((c : Thread nD τ).loc r) :=
  (keep15 m ρ c r ((by decide +kernel : ∀ r ∈ paramRefs, Kept15 r) r hr)).trans (argsAt15 m ρ c r hr)
theorem argsAt17 (r : Ref sig .tc) (hr : r ∈ paramRefs) :
    W52 m ρ c (Proc.devRef .tc r) = m ((c : Thread nD τ).loc r) :=
  (keep16 m ρ c r ((by decide +kernel : ∀ r ∈ paramRefs, Kept16 r) r hr)).trans (argsAt16 m ρ c r hr)
theorem argsAt18 (r : Ref sig .tc) (hr : r ∈ paramRefs) :
    W56 m ρ c (Proc.devRef .tc r) = m ((c : Thread nD τ).loc r) :=
  (keep17 m ρ c r ((by decide +kernel : ∀ r ∈ paramRefs, Kept17 r) r hr)).trans (argsAt17 m ρ c r hr)
theorem argsAt19 (r : Ref sig .tc) (hr : r ∈ paramRefs) :
    W60 m ρ c (Proc.devRef .tc r) = m ((c : Thread nD τ).loc r) :=
  (keep18 m ρ c r ((by decide +kernel : ∀ r ∈ paramRefs, Kept18 r) r hr)).trans (argsAt18 m ρ c r hr)
theorem argsAt20 (r : Ref sig .tc) (hr : r ∈ paramRefs) :
    W62 m ρ c (Proc.devRef .tc r) = m ((c : Thread nD τ).loc r) :=
  (keep19 m ρ c r ((by decide +kernel : ∀ r ∈ paramRefs, Kept19 r) r hr)).trans (argsAt19 m ρ c r hr)
theorem argsAt21 (r : Ref sig .tc) (hr : r ∈ paramRefs) :
    W66 m ρ c (Proc.devRef .tc r) = m ((c : Thread nD τ).loc r) :=
  (keep20 m ρ c r ((by decide +kernel : ∀ r ∈ paramRefs, Kept20 r) r hr)).trans (argsAt20 m ρ c r hr)
theorem argsAt22 (r : Ref sig .tc) (hr : r ∈ paramRefs) :
    W68 m ρ c (Proc.devRef .tc r) = m ((c : Thread nD τ).loc r) :=
  (keep21 m ρ c r ((by decide +kernel : ∀ r ∈ paramRefs, Kept21 r) r hr)).trans (argsAt21 m ρ c r hr)

theorem arg1At0 : W0 m ρ c (Proc.devRef .tc main_arg1) = m ((c : Thread nD τ).loc main_arg1) := rfl
theorem arg1At1 : W4 m ρ c (Proc.devRef .tc main_arg1) = m ((c : Thread nD τ).loc main_arg1) :=
  ((regin0_1 m ρ c).trans ((after_keep hostOps0_2_writes _ main_arg1 (by decide)).trans ((after_keep hostOps0_1_writes _ main_arg1 (by decide)).trans (after_keep hostOps0_writes _ main_arg1 (by decide))))).trans (arg1At0 m ρ c)
theorem arg1At2 : W6 m ρ c (Proc.devRef .tc main_arg1) = m ((c : Thread nD τ).loc main_arg1) :=
  (keep1 m ρ c main_arg1 (by decide)).trans (arg1At1 m ρ c)
theorem arg1At3 : W10 m ρ c (Proc.devRef .tc main_arg1) = m ((c : Thread nD τ).loc main_arg1) :=
  (keep2 m ρ c main_arg1 (by decide)).trans (arg1At2 m ρ c)
theorem arg1At4 : W12 m ρ c (Proc.devRef .tc main_arg1) = m ((c : Thread nD τ).loc main_arg1) :=
  (keep3 m ρ c main_arg1 (by decide)).trans (arg1At3 m ρ c)
theorem arg1At5 : W16 m ρ c (Proc.devRef .tc main_arg1) = m ((c : Thread nD τ).loc main_arg1) :=
  (keep4 m ρ c main_arg1 (by decide)).trans (arg1At4 m ρ c)
theorem arg1At6 : W18 m ρ c (Proc.devRef .tc main_arg1) = m ((c : Thread nD τ).loc main_arg1) :=
  (keep5 m ρ c main_arg1 (by decide)).trans (arg1At5 m ρ c)
theorem arg1At7 : W22 m ρ c (Proc.devRef .tc main_arg1) = m ((c : Thread nD τ).loc main_arg1) :=
  (keep6 m ρ c main_arg1 (by decide)).trans (arg1At6 m ρ c)
theorem arg1At8 : W24 m ρ c (Proc.devRef .tc main_arg1) = m ((c : Thread nD τ).loc main_arg1) :=
  (keep7 m ρ c main_arg1 (by decide)).trans (arg1At7 m ρ c)
theorem arg1At9 : W28 m ρ c (Proc.devRef .tc main_arg1) = m ((c : Thread nD τ).loc main_arg1) :=
  (keep8 m ρ c main_arg1 (by decide)).trans (arg1At8 m ρ c)
theorem arg1At10 : W32 m ρ c (Proc.devRef .tc main_arg1) = m ((c : Thread nD τ).loc main_arg1) :=
  ((regin9_1 m ρ c).trans ((after_keep hostOps9_2_writes _ main_arg1 (by decide)).trans ((after_keep hostOps9_1_writes _ main_arg1 (by decide)).trans (after_keep hostOps9_writes _ main_arg1 (by decide))))).trans (arg1At9 m ρ c)
theorem arg1At11 : W34 m ρ c (Proc.devRef .tc main_arg1) = m ((c : Thread nD τ).loc main_arg1) :=
  (keep10 m ρ c main_arg1 (by decide)).trans (arg1At10 m ρ c)
theorem arg1At12 : W38 m ρ c (Proc.devRef .tc main_arg1) = m ((c : Thread nD τ).loc main_arg1) :=
  (keep11 m ρ c main_arg1 (by decide)).trans (arg1At11 m ρ c)
theorem arg1At13 : W40 m ρ c (Proc.devRef .tc main_arg1) = m ((c : Thread nD τ).loc main_arg1) :=
  (keep12 m ρ c main_arg1 (by decide)).trans (arg1At12 m ρ c)
theorem arg1At14 : W44 m ρ c (Proc.devRef .tc main_arg1) = m ((c : Thread nD τ).loc main_arg1) :=
  (keep13 m ρ c main_arg1 (by decide)).trans (arg1At13 m ρ c)
theorem arg1At15 : W46 m ρ c (Proc.devRef .tc main_arg1) = m ((c : Thread nD τ).loc main_arg1) :=
  (keep14 m ρ c main_arg1 (by decide)).trans (arg1At14 m ρ c)
theorem arg1At16 : W50 m ρ c (Proc.devRef .tc main_arg1) = m ((c : Thread nD τ).loc main_arg1) :=
  (keep15 m ρ c main_arg1 (by decide)).trans (arg1At15 m ρ c)
theorem arg1At17 : W52 m ρ c (Proc.devRef .tc main_arg1) = m ((c : Thread nD τ).loc main_arg1) :=
  (keep16 m ρ c main_arg1 (by decide)).trans (arg1At16 m ρ c)
theorem arg1At18 : W56 m ρ c (Proc.devRef .tc main_arg1) = m ((c : Thread nD τ).loc main_arg1) :=
  (keep17 m ρ c main_arg1 (by decide)).trans (arg1At17 m ρ c)

end Cert.KernelIdeal.Hand

end
-- ==== Proof.LibUp.lean ====
import proofs.«403290_j73710228734482_1_alg».proof.Proof.Spec
import Idealize.ShloMosaic.PureOps.Ideal.Laws
import Idealize.ShloMosaic.Lib.IdealHost

noncomputable section

namespace Cert.Spec

open Idealize.ShloMosaic Idealize.ShloMosaic.ValueIdx

theorem up_apply {S : Shape} (a : S.Idx → ℝ) (i : S.Idx) : up a i = ((a i : ℝ) : EReal) := rfl

theorem coe_sum {ι : Type} (s : Finset ι) (f : ι → ℝ) : ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

theorem coe_max (a b : ℝ) : max ((a : ℝ) : EReal) ((b : ℝ) : EReal) = ((max a b : ℝ) : EReal) := by
  rcases le_total a b with h | h
  · rw [max_eq_right h, max_eq_right (EReal.coe_le_coe_iff.2 h)]
  · rw [max_eq_left h, max_eq_left (EReal.coe_le_coe_iff.2 h)]

theorem ofBits_zero : Ideal.ofBits .f32 0x00000000#32 = ((0 : ℝ) : EReal) := by
  rw [Ideal.ofBits_zero_f32, EReal.coe_zero]
theorem ofBits_50000 : Ideal.ofBits .f32 0x47435000#32 = ((50000 : ℝ) : EReal) := by
  simp [Ideal.ofBits, Ideal.ieee, -EReal.coe_mul] <;> norm_num
theorem ofBits_512 : Ideal.ofBits .f32 0x44000000#32 = ((512 : ℝ) : EReal) := by
  simp [Ideal.ofBits, Ideal.ieee, -EReal.coe_mul] <;> norm_num

theorem ofBits_eps_real : Ideal.ofBits .f32 0x3727C5AC#32 = (((10995116 : ℝ) * (2 : ℝ) ^ (-40 : Int) : ℝ) : EReal) := by
  simp [Ideal.ofBits, Ideal.ieee, -EReal.coe_mul] <;> norm_num
theorem ofBits_eps : Ideal.ofBits .f32 0x3727C5AC#32 = ((eps : ℝ) : EReal) := by
  unfold eps
  rw [ofBits_eps_real, EReal.toReal_coe]
theorem eps_pos : 0 < eps := by
  unfold eps
  rw [ofBits_eps_real, EReal.toReal_coe]
  positivity

theorem ofBits_nan : Ideal.ofBits .f32 0x7FC00000#32 = (⊥ : EReal) := by
  simp [Ideal.ofBits, Ideal.ieee]

theorem ofBits_50000_nat : Ideal.ofBits .f32 0x47435000#32 = ((((50000 : ℕ) : ℝ)) : EReal) := by
  rw [ofBits_50000]; norm_num
theorem ofBits_512_nat : Ideal.ofBits .f32 0x44000000#32 = ((((512 : ℕ) : ℝ)) : EReal) := by
  rw [ofBits_512]; norm_num

theorem up_addf {S : Shape} (a b : S.Idx → ℝ) :
    addf (F := Ideal) (φ := .f32) (up a : FVec Ideal S .f32) (up b) = up (fun i => a i + b i) := by
  funext i; exact (EReal.coe_add (a i) (b i)).symm
theorem up_subf {S : Shape} (a b : S.Idx → ℝ) :
    subf (F := Ideal) (φ := .f32) (up a : FVec Ideal S .f32) (up b) = up (fun i => a i - b i) := by
  funext i; exact (EReal.coe_sub (a i) (b i)).symm
theorem up_mulf {S : Shape} (a b : S.Idx → ℝ) :
    mulf (F := Ideal) (φ := .f32) (up a : FVec Ideal S .f32) (up b) = up (fun i => a i * b i) := by
  funext i; exact (EReal.coe_mul (a i) (b i)).symm

theorem up_max_zero {S : Shape} (a : S.Idx → ℝ) (z : FVec Ideal S .f32) (hz : ∀ i, z i = ((0 : ℝ) : EReal)) :
    maximumf (F := Ideal) (φ := .f32) (up a : FVec Ideal S .f32) z = up (fun i => max (a i) 0) := by
  funext i
  show max ((a i : ℝ) : EReal) (z i) = ((max (a i) 0 : ℝ) : EReal)
  rw [hz i, coe_max]

theorem up_divf_const {S : Shape} (a : S.Idx → ℝ) (cv : FVec Ideal S .f32) (r : ℝ) (hr : r ≠ 0)
    (hc : ∀ i, cv i = ((r : ℝ) : EReal)) :
    Host.divf (F := Ideal) (φ := .f32) (up a : FVec Ideal S .f32) cv = up (fun i => a i / r) := by
  funext i
  show Ideal.div ((a i : ℝ) : EReal) (cv i) = ((a i / r : ℝ) : EReal)
  rw [hc i, Ideal.div_coe hr, ← EReal.coe_mul, mul_one_div]

theorem up_divf_up {S : Shape} (a : S.Idx → ℝ) (r : ℝ) (hr : r ≠ 0) :
    Host.divf (F := Ideal) (φ := .f32) (up a : FVec Ideal S .f32) (up (fun _ => r)) = up (fun i => a i / r) :=
  up_divf_const a _ r hr (fun _ => rfl)

theorem up_rsqrt {S : Shape} (a : S.Idx → ℝ) (h : ∀ i, 0 < a i) :
    Host.rsqrt (F := Ideal) (φ := .f32) (up a : FVec Ideal S .f32) = up (fun i => (Real.sqrt (a i))⁻¹) := by
  funext i
  show Ideal.rsqrt ((a i : ℝ) : EReal) = (((Real.sqrt (a i))⁻¹ : ℝ) : EReal)
  rw [Ideal.rsqrt_coe, if_neg (not_lt.2 (h i).le), if_neg (h i).ne']

theorem bn_affine (y m g r b : ℝ) : y * (g * r) + (b - m * (g * r)) = g * (y - m) * r + b := by ring

theorem var_add_eps_pos {n d : Nat} (y : Mat n d) (j : (⟨1, ![d]⟩ : Shape).Idx) : 0 < var y j + eps := by
  have h0 : 0 ≤ var y j := by
    unfold var
    exact div_nonneg (Finset.sum_nonneg fun r _ => mul_self_nonneg _) (Nat.cast_nonneg n)
  exact add_pos_of_nonneg_of_pos h0 eps_pos

theorem constant_eq_up {S : Shape} (b : BitVec 32) (r : ℝ) (hb : Ideal.ofBits .f32 b = ((r : ℝ) : EReal)) :
    constant (F := Ideal) S .f32 b = up (fun _ => r) := funext fun _ => hb

theorem broadcastInDim_up {s t : Shape} (dims : Fin s.rank → Fin t.rank) (h : s.BroadcastsInDim t dims) (a : s.Idx → ℝ) :
    broadcastInDim t dims h (up a) = up (broadcastInDim t dims h a) := rfl

theorem bcast_scalar_up {T : Shape} (h : (⟨0, ![]⟩ : Shape).BroadcastsInDim T ![]) (a : (⟨0, ![]⟩ : Shape).Idx → ℝ) :
    broadcastInDim T ![] h (up a) = up (fun _ => a ix0) :=
  funext fun j => broadcastInDim_scalar_apply h (up a) j

theorem bcast_scalar_const_apply {T : Shape} (h : (⟨0, ![]⟩ : Shape).BroadcastsInDim T ![]) (b : BitVec 32) (r : ℝ)
    (hb : Ideal.ofBits .f32 b = ((r : ℝ) : EReal)) (j : T.Idx) :
    broadcastInDim T ![] h (constant (F := Ideal) ⟨0, ![]⟩ .f32 b) j = ((r : ℝ) : EReal) :=
  (broadcastInDim_scalar_apply h _ j).trans hb
theorem bcast_scalar_const_up {T : Shape} (h : (⟨0, ![]⟩ : Shape).BroadcastsInDim T ![]) (b : BitVec 32) (r : ℝ)
    (hb : Ideal.ofBits .f32 b = ((r : ℝ) : EReal)) :
    broadcastInDim T ![] h (constant (F := Ideal) ⟨0, ![]⟩ .f32 b) = up (fun _ => r) :=
  funext fun j => bcast_scalar_const_apply h b r hb j

theorem sitofp_zero_word {S : Shape} : sitofp (F := Ideal) .f32 (constantI S 32 0#32) = up (fun _ => (0 : ℝ)) := by
  funext i
  show ((((0#32 : BitVec 32).toInt : ℝ)) : EReal) = ((0 : ℝ) : EReal)
  simp

theorem cmpf_ogt_up {S : Shape} (a b : S.Idx → ℝ) :
    cmpf (F := Ideal) (φ := .f32) .ogt (up a : FVec Ideal S .f32) (up b) = fun i => BitVec.ofBool (decide (b i < a i)) := by
  funext i
  show Ideal.cmp .ogt ((a i : ℝ) : EReal) ((b i : ℝ) : EReal) = _
  simp only [Ideal.cmp, EReal.coe_lt_coe_iff]

theorem cmpf_ogt_up_of_lt {S : Shape} (a b : S.Idx → ℝ) (h : ∀ i, b i < a i) :
    cmpf (F := Ideal) (φ := .f32) .ogt (up a : FVec Ideal S .f32) (up b) = fun _ => 1#1 := by
  rw [cmpf_ogt_up]; funext i; rw [decide_eq_true (h i)]; rfl

theorem select_i1_apply {S : Shape} {α : Type} (c : IVec S 1) (a b : S.Idx → α) (i : S.Idx) :
    select c a b i = if c i = 1#1 then a i else b i := rfl

theorem select_all_ones {S : Shape} {α : Type} (c : IVec S 1) (hc : ∀ i, c i = 1#1) (a b : S.Idx → α) :
    select c a b = a := by
  funext i; rw [select_i1_apply, if_pos (hc i)]

def colSum {n d : Nat} (y : Mat n d) : Vc d := fun j => ∑ r : Fin n, y (ix2 r (j 0))

theorem mean_eq_colSum {n d : Nat} (y : Mat n d) : mean y = fun j => colSum y j / (n : ℝ) := rfl

theorem lift_axis0 {n d : Nat} (hR : (⟨2, ![n, d]⟩ : Shape).Reduces [0] ⟨1, ![d]⟩) (j : (⟨1, ![d]⟩ : Shape).Idx)
    (k : Fin n) : hR.lift j k = ix2 k (j 0) := by
  funext c
  apply Fin.ext
  show hR.liftVal j k.val c = (ix2 k (j 0) c).val
  match c with
  | ⟨0, _⟩ => simp [Shape.Reduces.liftVal]
  | ⟨1, _⟩ => simp [Shape.Reduces.liftVal]

theorem up_reduceAdd_axis0 {n d : Nat} (y : Mat n d) (init : (⟨0, ![]⟩ : Shape).Idx → EReal)
    (hred : (⟨2, ![n, d]⟩ : Shape).ReducesTo [0] ⟨1, ![d]⟩) (hu : 0 < (⟨0, ![]⟩ : Shape).numel)
    (hinit : ∀ i, init i = ((0 : ℝ) : EReal)) :
    Host.reduceAdd (F := Ideal) (φ := .f32) (up y : FVec Ideal ⟨2, ![n, d]⟩ .f32) init hred hu = up (colSum y) := by
  have hR : (⟨2, ![n, d]⟩ : Shape).Reduces [0] ⟨1, ![d]⟩ := ⟨hred.1, Nat.one_pos, hred.2⟩
  funext j
  refine (Ideal.hostReduceAdd_single hred hR (up y) (init (Shape.Idx.first hu)) j).trans ?_
  rw [hinit, EReal.coe_zero, zero_add]
  show ∑ k : Fin n, ((y (hR.lift j k) : ℝ) : EReal) = ((∑ r : Fin n, y (ix2 r (j 0)) : ℝ) : EReal)
  rw [coe_sum]
  exact congrArg _ (Finset.sum_congr rfl fun k _ => congrArg y (lift_axis0 hR j k))

theorem up_reduceAdd_axis0_const {n d : Nat} (y : Mat n d)
    (hred : (⟨2, ![n, d]⟩ : Shape).ReducesTo [0] ⟨1, ![d]⟩) (hu : 0 < (⟨0, ![]⟩ : Shape).numel) :
    (Host.reduceAdd (F := Ideal) (up y : FVec Ideal ⟨2, ![n, d]⟩ .f32) (constant (F := Ideal) ⟨0, ![]⟩ .f32 0x00000000#32) hred hu) = up (colSum y) :=
  up_reduceAdd_axis0 y _ hred hu fun _ => ofBits_zero

theorem bcast_row_apply {α : Type} {d : Nat} (h : (⟨1, ![d]⟩ : Shape).BroadcastsInDim ⟨2, ![1, d]⟩ ![1])
    (v : (⟨1, ![d]⟩ : Shape).Idx → α) (i : (⟨2, ![1, d]⟩ : Shape).Idx) :
    broadcastInDim ⟨2, ![1, d]⟩ ![1] h v i = v (ix1 (i 1)) := by
  unfold broadcastInDim
  refine congrArg v (funext fun a => Fin.ext ?_)
  match a with
  | ⟨0, _⟩ =>
    split
    · next h1 =>
      have h1' : d = 1 := h1
      have hlt := idx2_lt1 i
      show 0 = (i 1).val
      omega
    · rfl
theorem bcast_row_up {d : Nat} (h : (⟨1, ![d]⟩ : Shape).BroadcastsInDim ⟨2, ![1, d]⟩ ![1]) (v : Vc d) :
    broadcastInDim ⟨2, ![1, d]⟩ ![1] h (up v) = up (asRow v) :=
  funext fun i => bcast_row_apply h (up v) i

theorem bcast_rows_apply {α : Type} {n d : Nat} (h : (⟨2, ![1, d]⟩ : Shape).BroadcastsInDim ⟨2, ![n, d]⟩ ![0, 1])
    (v : (⟨2, ![1, d]⟩ : Shape).Idx → α) (i : (⟨2, ![n, d]⟩ : Shape).Idx) :
    broadcastInDim ⟨2, ![n, d]⟩ ![0, 1] h v i = v (ix2 (0 : Fin 1) (i 1)) := by
  unfold broadcastInDim
  refine congrArg v (funext fun a => Fin.ext ?_)
  match a with
  | ⟨0, _⟩ =>
    split
    · rfl
    · next h1 => exact absurd rfl h1
  | ⟨1, _⟩ =>
    split
    · next h1 =>
      have h1' : d = 1 := h1
      have hlt := idx2_lt1 i
      show 0 = (i 1).val
      omega
    · rfl
theorem bcast_rows_up {n d : Nat} (h : (⟨2, ![1, d]⟩ : Shape).BroadcastsInDim ⟨2, ![n, d]⟩ ![0, 1]) (w : Mat 1 d) :
    broadcastInDim ⟨2, ![n, d]⟩ ![0, 1] h (up w) = up (fun i : (⟨2, ![n, d]⟩ : Shape).Idx => w (ix2 (0 : Fin 1) (i 1))) :=
  funext fun i => bcast_rows_apply h (up w) i

theorem up_mean {n d : Nat} (hn : 0 < n) (Nw : BitVec 32) (hNw : Ideal.ofBits .f32 Nw = ((((n : ℕ) : ℝ)) : EReal))
    (y : Mat n d)
    (hred : (⟨2, ![n, d]⟩ : Shape).ReducesTo [0] ⟨1, ![d]⟩) (hu : 0 < (⟨0, ![]⟩ : Shape).numel)
    (hb4 : (⟨0, ![]⟩ : Shape).BroadcastsInDim ⟨1, ![d]⟩ ![]) :
    Host.divf (Host.reduceAdd (F := Ideal) (up y : FVec Ideal ⟨2, ![n, d]⟩ .f32) (constant (F := Ideal) ⟨0, ![]⟩ .f32 0x00000000#32) hred hu) (broadcastInDim ⟨1, ![d]⟩ ![] hb4 (constant (F := Ideal) ⟨0, ![]⟩ .f32 Nw)) = up (mean y) := by
  have hn' : ((n : ℕ) : ℝ) ≠ 0 := Nat.cast_ne_zero.2 hn.ne'
  rw [up_reduceAdd_axis0_const y hred hu,
    up_divf_const (colSum y) _ ((n : ℕ) : ℝ) hn' (fun j => bcast_scalar_const_apply hb4 Nw _ hNw j)]
  rfl

theorem count_eq_up {n : Nat} (Nw : BitVec 32) (hNw : Ideal.ofBits .f32 Nw = ((((n : ℕ) : ℝ)) : EReal)) :
    (subf (constant (F := Ideal) ⟨0, ![]⟩ .f32 Nw) (sitofp (F := Ideal) .f32 (constantI ⟨0, ![]⟩ 32 0#32))) = up (fun _ => ((n : ℕ) : ℝ)) := by
  rw [constant_eq_up Nw _ hNw, sitofp_zero_word, up_subf]
  exact congrArg up (funext fun _ => sub_zero _)

theorem var_chain {n d : Nat} (hn : 0 < n) (Nw : BitVec 32) (hNw : Ideal.ofBits .f32 Nw = ((((n : ℕ) : ℝ)) : EReal))
    (y : Mat n d)
    (hred : (⟨2, ![n, d]⟩ : Shape).ReducesTo [0] ⟨1, ![d]⟩) (hu : 0 < (⟨0, ![]⟩ : Shape).numel)
    (hb1 : (⟨1, ![d]⟩ : Shape).BroadcastsInDim ⟨2, ![1, d]⟩ ![1])
    (hb2 : (⟨0, ![]⟩ : Shape).BroadcastsInDim ⟨2, ![1, d]⟩ ![])
    (hb3 : (⟨2, ![1, d]⟩ : Shape).BroadcastsInDim ⟨2, ![n, d]⟩ ![0, 1])
    (hb4 : (⟨0, ![]⟩ : Shape).BroadcastsInDim ⟨1, ![d]⟩ ![])
    (nanv : FVec Ideal ⟨1, ![d]⟩ .f32) :
    select (broadcastInDim ⟨1, ![d]⟩ ![] hb4 (cmpf (F := Ideal) .ogt (subf (constant (F := Ideal) ⟨0, ![]⟩ .f32 Nw) (sitofp (F := Ideal) .f32 (constantI ⟨0, ![]⟩ 32 0#32))) (constant (F := Ideal) ⟨0, ![]⟩ .f32 0x00000000#32)))
      (Host.divf (Host.reduceAdd (F := Ideal) (mulf (subf (up y : FVec Ideal ⟨2, ![n, d]⟩ .f32) (broadcastInDim ⟨2, ![n, d]⟩ ![0, 1] hb3 (Host.divf (broadcastInDim ⟨2, ![1, d]⟩ ![1] hb1 (Host.reduceAdd (F := Ideal) (up y : FVec Ideal ⟨2, ![n, d]⟩ .f32) (constant (F := Ideal) ⟨0, ![]⟩ .f32 0x00000000#32) hred hu)) (broadcastInDim ⟨2, ![1, d]⟩ ![] hb2 (constant (F := Ideal) ⟨0, ![]⟩ .f32 Nw))))) (subf (up y : FVec Ideal ⟨2, ![n, d]⟩ .f32) (broadcastInDim ⟨2, ![n, d]⟩ ![0, 1] hb3 (Host.divf (broadcastInDim ⟨2, ![1, d]⟩ ![1] hb1 (Host.reduceAdd (F := Ideal) (up y : FVec Ideal ⟨2, ![n, d]⟩ .f32) (constant (F := Ideal) ⟨0, ![]⟩ .f32 0x00000000#32) hred hu)) (broadcastInDim ⟨2, ![1, d]⟩ ![] hb2 (constant (F := Ideal) ⟨0, ![]⟩ .f32 Nw)))))) (constant (F := Ideal) ⟨0, ![]⟩ .f32 0x00000000#32) hred hu) (broadcastInDim ⟨1, ![d]⟩ ![] hb4 (subf (constant (F := Ideal) ⟨0, ![]⟩ .f32 Nw) (sitofp (F := Ideal) .f32 (constantI ⟨0, ![]⟩ 32 0#32)))))
      nanv = up (var y) := by
  have hn' : ((n : ℕ) : ℝ) ≠ 0 := Nat.cast_ne_zero.2 hn.ne'
  have hpos : (0 : ℝ) < ((n : ℕ) : ℝ) := Nat.cast_pos.2 hn
  rw [count_eq_up Nw hNw, constant_eq_up 0x00000000#32 0 ofBits_zero, cmpf_ogt_up_of_lt _ _ (fun _ => hpos)]
  rw [select_all_ones _ (fun j => broadcastInDim_scalar_apply hb4 _ j)]
  rw [← constant_eq_up 0x00000000#32 0 ofBits_zero]
  rw [up_reduceAdd_axis0_const y hred hu, bcast_row_up, bcast_scalar_const_up hb2 Nw _ hNw,
    up_divf_up (asRow (colSum y)) _ hn', bcast_rows_up, up_subf, up_mulf,
    up_reduceAdd_axis0_const _ hred hu, bcast_scalar_up, up_divf_up _ _ hn']
  rfl

end Cert.Spec

end
-- ==== Proof.SpecGlue.lean ====
import proofs.«403290_j73710228734482_1_alg».proof.Proof.Spec
import proofs.«403290_j73710228734482_1_alg».proof.Proof.LibUp

noncomputable section

namespace Cert.Spec

open Idealize.ShloMosaic Idealize.ShloMosaic.ValueIdx

theorem linR_glue {n k d : Nat} (x : Mat n k) (W : Mat k d) (b : Vc d) : linR x W (asRow b) = lin x W b := by
  funext i; rfl

theorem lin2R_glue {n k d : Nat} (a b : Mat n k) (W : Mat k d) (bias : Vc d) :
    lin2R a b W (asRow bias) = lin (madd a b) W bias := by
  funext i; rfl

theorem edgeR_glue (A : Args) (l : Fin 3) (hin : Mat 50000 128) :
    edgeR (gatherRows (by norm_num) 50000#32 hin (srcw A)) A.ea (row3 l A.We) (asRow (row2 l A.be)) = msgOf A l hin := by
  funext i; rfl

theorem affR_glue {n d : Nat} (y : Mat n d) (g b : Vc d) : affR y (scaleOf y g) (shiftOf y g b) = bn y g b := by
  funext i
  exact bn_affine (y i) (mean y (ix1 (i 1))) (g (ix1 (i 1))) ((Real.sqrt (var y (ix1 (i 1)) + eps))⁻¹) (b (ix1 (i 1)))

theorem affReluR_glue {n d : Nat} (y : Mat n d) (g b : Vc d) :
    affReluR y (scaleOf y g) (shiftOf y g b) = relu (bn y g b) := by
  funext i
  exact congrArg (fun v : ℝ => max v 0) (congrFun (affR_glue y g b) i)

variable (A : Args)

theorem lin1Of_glue (l : Fin 3) (hin aggr : Mat 50000 128) :
    lin2R hin aggr (row3 l A.W1) (asRow (row2 l A.b1)) = lin1Of A l hin aggr := by
  funext i; rfl
theorem zOf_glue (l : Fin 3) (y : Mat 50000 256) :
    affReluR y (scaleOf y (row2 l A.g1)) (shiftOf y (row2 l A.g1) (row2 l A.bt1)) = zOf A l y :=
  affReluR_glue y _ _
theorem lin2Of_glue (l : Fin 3) (z : Mat 50000 256) :
    linR z (row3 l A.W2) (asRow (row2 l A.b2)) = lin2Of A l z := by
  funext i; rfl
theorem hbnOf_relu_glue (l : Fin 3) (y : Mat 50000 128) :
    affReluR y (scaleOf y (row2 l A.gb)) (shiftOf y (row2 l A.gb) (row2 l A.bb)) = relu (hbnOf A l y) :=
  affReluR_glue y _ _
theorem hbnOf_glue (l : Fin 3) (y : Mat 50000 128) :
    affR y (scaleOf y (row2 l A.gb)) (shiftOf y (row2 l A.gb) (row2 l A.bb)) = hbnOf A l y :=
  affR_glue y _ _
theorem linv1Of_glue (l : Fin 2) (pooled vn : Mat 512 128) :
    lin2R pooled vn (row3 l A.Wv1) (asRow (row2 l A.bv1)) = linv1Of A l pooled vn := by
  funext i; rfl
theorem tOf_glue (l : Fin 2) (y : Mat 512 256) :
    affReluR y (scaleOf y (row2 l A.gv1)) (shiftOf y (row2 l A.gv1) (row2 l A.btv1)) = tOf A l y :=
  affReluR_glue y _ _
theorem linv2Of_glue (l : Fin 2) (t : Mat 512 256) :
    linR t (row3 l A.Wv2) (asRow (row2 l A.bv2)) = linv2Of A l t := by
  funext i; rfl
theorem vnOf_glue (l : Fin 2) (y : Mat 512 128) :
    affReluR y (scaleOf y (row2 l A.gv2)) (shiftOf y (row2 l A.gv2) (row2 l A.btv2)) = vnOf A l y :=
  affReluR_glue y _ _

end Cert.Spec

end
-- ==== Proof.LibIndexRead.lean ====
import Idealize.ShloMosaic.PureOps.Ideal
import Idealize.ShloMosaic.Lib.ValueIdx

noncomputable section

namespace Cert.Sage.IndexRead

open Idealize.ShloMosaic Idealize.ShloMosaic.ValueIdx

private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem vec_window (j : (⟨1, ![E]⟩ : Shape).Idx) : d.window j 0 = 0 := by
  obtain ⟨uw, iw, sd, iv, wf⟩ := d
  simp only at h1 h2 h3 h4
  subst h1 h2 h3 h4
  rfl

private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1

  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

private theorem rows_window0 (j : (⟨2, ![E, D]⟩ : Shape).Idx) : d.window j 0 = 0 := by
  obtain ⟨uw, iw, sd, iv, wf⟩ := d
  simp only at h1 h2 h3 h4
  subst h1 h2 h3 h4
  rfl

private theorem rows_window1 (j : (⟨2, ![E, D]⟩ : Shape).Idx) : d.window j 1 = (j 1).val := by
  obtain ⟨uw, iw, sd, iv, wf⟩ := d
  simp only at h1 h2 h3 h4
  subst h1 h2 h3 h4
  rfl

private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1

  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

private theorem gather_batch (j : (⟨2, ![E, D]⟩ : Shape).Idx) (a : Fin 2) : d.batchCoord j a = 0 :=
  d.batchCoord_eq_zero j a (by rw [h3]; exact List.not_mem_nil)

private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by

  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega

  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

theorem gather_rows_clamp {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (hN : 0 < N) :
    Host.gather d x idx (ix2 e q) = x (ix2 ⟨min (idx (ix2 e 0)).toInt.toNat (N - 1), by omega⟩ q) := by

  have f0 : d.start (ix2 e q) idx 0 + d.batchCoord (ix2 e q) 0 + d.offCoord (ix2 e q) 0
      = min (idx (ix2 e 0)).toInt.toNat (N - 1) := by
    rw [gather_start0 d h1 h2 h3 h4 h5 h6 h7, gather_batch d h1 h2 h3 h4 h5 h6 h7, gather_off0 d h1 h2 h3 h4 h5 h6 h7]
    rfl

  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.LibRows.lean ====
import proofs.«403290_j73710228734482_1_alg».proof.Proof.Spec
import proofs.«403290_j73710228734482_1_alg».proof.Proof.LibUp
import proofs.«403290_j73710228734482_1_alg».proof.Proof.LibIndexRead
import Idealize.ShloMosaic.PureOps.Ideal.Laws
import Idealize.ShloMosaic.PureOps.Reduce

noncomputable section

namespace Cert.Spec

open Idealize.ShloMosaic Idealize.ShloMosaic.ValueIdx

theorem bcast_col_apply {α : Type} {n : Nat} (h : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h v i = v (ix1 (i 0)) := by
  simp only [broadcastInDim]
  congr 1
  funext a
  have ha : a = 0 := Subsingleton.elim _ _
  subst ha
  apply Fin.ext
  have hp : (i 0).val < n := (i 0).isLt
  split
  · next h1 => change n = 1 at h1; show (0 : Nat) = (i 0).val; omega
  · rfl

theorem bcast_axis0_apply {α : Type} {n m : Nat} (h : (⟨1, ![n]⟩ : Shape).BroadcastsInDim ⟨2, ![n, m]⟩ ![0])
    (v : (⟨1, ![n]⟩ : Shape).Idx → α) (i : (⟨2, ![n, m]⟩ : Shape).Idx) :
    broadcastInDim ⟨2, ![n, m]⟩ ![0] h v i = v (ix1 (i 0)) := by
  simp only [broadcastInDim]
  congr 1
  funext a
  have ha : a = 0 := Subsingleton.elim _ _
  subst ha
  apply Fin.ext
  have hp : (i 0).val < n := (i 0).isLt
  split
  · next h1 => change n = 1 at h1; show (0 : Nat) = (i 0).val; omega
  · rfl

theorem up_gather_rows {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (x : Mat N D) (idx : IVec ⟨2, ![E, 1]⟩ 32) :
    Host.gather d (up x : FVec Ideal ⟨2, ![N, D]⟩ .f32) idx
      = up (fun i => x (ix2 (rowOf N hN (idx (ix2 (i 0) 0))) (i 1))) := by
  funext i
  obtain ⟨p, q, rfl⟩ : ∃ p q, i = ix2 p q := ⟨i 0, i 1, eq_ix2 i⟩
  exact Cert.Sage.IndexRead.gather_rows_clamp d h1 h2 h3 h4 h5 h6 h7 (up x) idx p q hN

theorem cmpi_slt_zero (a : BitVec 32) : IntOp.cmpi .slt a 0#32 = if a.toInt < 0 then 1#1 else 0#1 := by
  unfold IntOp.cmpi
  by_cases h : a.toInt < 0
  · rw [if_pos h]
    have : a.slt 0#32 = true := by simp only [BitVec.slt, BitVec.toInt_zero, decide_eq_true_eq]; exact h
    rw [this]; rfl
  · rw [if_neg h]
    have : a.slt 0#32 = false := by simp only [BitVec.slt, BitVec.toInt_zero, decide_eq_false_iff_not]; exact h
    rw [this]; rfl

theorem wrap_select {E : Nat} (nW : BitVec 32)
    (hz hn : (⟨0, ![]⟩ : Shape).BroadcastsInDim ⟨1, ![E]⟩ ![])
    (hc : (⟨1, ![E]⟩ : Shape).BroadcastsInDim ⟨2, ![E, 1]⟩ ![0])
    (w : IVec ⟨1, ![E]⟩ 32) (i : (⟨2, ![E, 1]⟩ : Shape).Idx) :
    broadcastInDim ⟨2, ![E, 1]⟩ ![0] hc
        (select (cmpi .slt w (broadcastInDim ⟨1, ![E]⟩ ![] hz (constantI ⟨0, ![]⟩ 32 0#32)))
          (addi w (broadcastInDim ⟨1, ![E]⟩ ![] hn (constantI ⟨0, ![]⟩ 32 nW))) w) i
      = wrapWord nW (w (ix1 (i 0))) := by
  rw [bcast_col_apply]
  show Scalar.select (IntOp.cmpi .slt (w (ix1 (i 0))) 0#32) (IntOp.addi (w (ix1 (i 0))) nW) (w (ix1 (i 0))) = _
  rw [cmpi_slt_zero]
  unfold wrapWord
  by_cases h : (w (ix1 (i 0))).toInt < 0
  · rw [if_pos h, if_pos h, select_one]; rfl
  · rw [if_neg h, if_neg h, select_zero]

theorem gather_chain_idx {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (nW : BitVec 32)
    (hz hn : (⟨0, ![]⟩ : Shape).BroadcastsInDim ⟨1, ![E]⟩ ![])
    (hc : (⟨1, ![E]⟩ : Shape).BroadcastsInDim ⟨2, ![E, 1]⟩ ![0])
    (x : Mat N D) (w : IVec ⟨1, ![E]⟩ 32) :
    Host.gather d (up x : FVec Ideal ⟨2, ![N, D]⟩ .f32)
        (broadcastInDim ⟨2, ![E, 1]⟩ ![0] hc
          (select (cmpi .slt w (broadcastInDim ⟨1, ![E]⟩ ![] hz (constantI ⟨0, ![]⟩ 32 0#32)))
            (addi w (broadcastInDim ⟨1, ![E]⟩ ![] hn (constantI ⟨0, ![]⟩ 32 nW))) w))
      = up (gatherRows hN nW x (fun e => w (ix1 e))) := by
  rw [up_gather_rows hN d h1 h2 h3 h4 h5 h6 h7]
  congr 1
  funext i
  unfold gatherRows
  rw [wrap_select]
  rfl

theorem gather_chain {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (nW : BitVec 32)
    (hz hn : (⟨0, ![]⟩ : Shape).BroadcastsInDim ⟨1, ![E]⟩ ![])
    (hc : (⟨1, ![E]⟩ : Shape).BroadcastsInDim ⟨2, ![E, 1]⟩ ![0])
    (x : Mat N D) (wf : Fin E → BitVec 32) :
    Host.gather d (up x : FVec Ideal ⟨2, ![N, D]⟩ .f32)
        (broadcastInDim ⟨2, ![E, 1]⟩ ![0] hc
          (select (cmpi .slt (fun i => wf (i 0) : IVec ⟨1, ![E]⟩ 32) (broadcastInDim ⟨1, ![E]⟩ ![] hz (constantI ⟨0, ![]⟩ 32 0#32)))
            (addi (fun i => wf (i 0) : IVec ⟨1, ![E]⟩ 32) (broadcastInDim ⟨1, ![E]⟩ ![] hn (constantI ⟨0, ![]⟩ 32 nW)))
            (fun i => wf (i 0) : IVec ⟨1, ![E]⟩ 32)))
      = up (gatherRows hN nW x wf) :=
  gather_chain_idx hN d h1 h2 h3 h4 h5 h6 h7 nW hz hn hc x (fun i => wf (i 0))

theorem up_scatterAdd_rows_idx {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (hz : (⟨0, ![]⟩ : Shape).BroadcastsInDim ⟨2, ![N, D]⟩ ![])
    (hc : (⟨1, ![E]⟩ : Shape).BroadcastsInDim ⟨2, ![E, 1]⟩ ![0])
    (w : IVec ⟨1, ![E]⟩ 32) (upd : Mat E D) :
    Host.scatterAdd (F := Ideal) d (broadcastInDim ⟨2, ![N, D]⟩ ![] hz (constant ⟨0, ![]⟩ .f32 0x00000000#32))
        (broadcastInDim ⟨2, ![E, 1]⟩ ![0] hc w) (up upd : FVec Ideal ⟨2, ![E, D]⟩ .f32)
      = up (segSum (fun e => w (ix1 e)) upd) := by
  funext i
  obtain ⟨p, q, rfl⟩ : ∃ p q, i = ix2 p q := ⟨i 0, i 1, eq_ix2 i⟩
  show Ideal.hostScatterAdd d _ _ (up upd) (ix2 p q) = _
  rw [Cert.Sage.IndexRead.scatterAdd_rows d h1 h2 h3 h4]
  have hw : ∀ e : Fin E, broadcastInDim ⟨2, ![E, 1]⟩ ![0] hc w (ix2 e 0) = w (ix1 e) := fun e => bcast_col_apply hc w _
  simp only [hw]
  show Ideal.ofBits .f32 0x00000000#32 + _ = _
  rw [Ideal.ofBits_zero_f32, zero_add]
  show ∑ e ∈ _, ((upd (ix2 e q) : ℝ) : EReal) = _
  rw [coe_sum]
  rfl

theorem up_scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (hz : (⟨0, ![]⟩ : Shape).BroadcastsInDim ⟨2, ![N, D]⟩ ![])
    (hc : (⟨1, ![E]⟩ : Shape).BroadcastsInDim ⟨2, ![E, 1]⟩ ![0])
    (wf : Fin E → BitVec 32) (upd : Mat E D) :
    Host.scatterAdd (F := Ideal) d (broadcastInDim ⟨2, ![N, D]⟩ ![] hz (constant ⟨0, ![]⟩ .f32 0x00000000#32))
        (broadcastInDim ⟨2, ![E, 1]⟩ ![0] hc (fun i => wf (i 0) : IVec ⟨1, ![E]⟩ 32)) (up upd : FVec Ideal ⟨2, ![E, D]⟩ .f32)
      = up (segSum wf upd) :=
  up_scatterAdd_rows_idx d h1 h2 h3 h4 hz hc (fun i => wf (i 0)) upd

theorem foldl_andi_ones {ι : Type} (f : ι → BitVec 1) (l : List ι) (hl : ∀ i ∈ l, f i = 1#1) :
    l.foldl (fun r i => IntOp.andi r (f i)) 1#1 = 1#1 := by
  induction l with
  | nil => rfl
  | cons a l ih =>
    rw [List.foldl_cons, hl a List.mem_cons_self, show IntOp.andi 1#1 1#1 = 1#1 from by decide]
    exact ih fun i hi => hl i (List.mem_cons_of_mem _ hi)

theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hinit : ∀ k, init k = 1#1) :
    Host.reduce IntOp.andi x init h hu j = 1#1 := by
  rw [Host.reduce_eq_foldl, hinit]
  exact foldl_andi_ones x _ fun i _ => hx i

theorem cmpi_sge_zero (a : BitVec 32) (h : 0 ≤ a.toInt) : IntOp.cmpi .sge a 0#32 = 1#1 := by
  unfold IntOp.cmpi
  have : (0#32 : BitVec 32).sle a = true := by simp only [BitVec.sle, BitVec.toInt_zero, decide_eq_true_eq]; exact h
  rw [this]; rfl

theorem cmpi_sle_of_le (a b : BitVec 32) (h : a.toInt ≤ b.toInt) : IntOp.cmpi .sle a b = 1#1 := by
  unfold IntOp.cmpi
  have : a.sle b = true := by simp only [BitVec.sle, decide_eq_true_eq]; exact h
  rw [this]; rfl

theorem take_mask_apply {E : Nat} (kW : BitVec 32)
    (hz2 : (⟨0, ![]⟩ : Shape).BroadcastsInDim ⟨2, ![E, 1]⟩ ![])
    (hk1 : (⟨1, ![1]⟩ : Shape).BroadcastsInDim ⟨2, ![1, 1]⟩ ![1])
    (hk2 : (⟨2, ![1, 1]⟩ : Shape).BroadcastsInDim ⟨2, ![E, 1]⟩ ![0, 1])
    (v : IVec ⟨2, ![E, 1]⟩ 32) (j : (⟨2, ![E, 1]⟩ : Shape).Idx) :
    andi (cmpi .sge v (broadcastInDim ⟨2, ![E, 1]⟩ ![] hz2 (constantI ⟨0, ![]⟩ 32 0#32)))
        (cmpi .sle v (broadcastInDim ⟨2, ![E, 1]⟩ ![0, 1] hk2 (broadcastInDim ⟨2, ![1, 1]⟩ ![1] hk1 (constantI ⟨1, ![1]⟩ 32 kW)))) j
      = IntOp.andi (IntOp.cmpi .sge (v j) 0#32) (IntOp.cmpi .sle (v j) kW) := rfl

theorem take_chain_idx {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (nW kW : BitVec 32) (hk : kW.toInt = (N : Int) - 1)
    (hz hn : (⟨0, ![]⟩ : Shape).BroadcastsInDim ⟨1, ![E]⟩ ![])
    (hc : (⟨1, ![E]⟩ : Shape).BroadcastsInDim ⟨2, ![E, 1]⟩ ![0])
    (hz2 : (⟨0, ![]⟩ : Shape).BroadcastsInDim ⟨2, ![E, 1]⟩ ![])
    (hk1 : (⟨1, ![1]⟩ : Shape).BroadcastsInDim ⟨2, ![1, 1]⟩ ![1])
    (hk2 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (hm : (⟨1, ![E]⟩ : Shape).BroadcastsInDim ⟨2, ![E, D]⟩ ![0])
    (hf : (⟨0, ![]⟩ : Shape).BroadcastsInDim ⟨2, ![E, D]⟩ ![])
    (x : Mat N D) (w : IVec ⟨1, ![E]⟩ 32) (hw : ∀ e : Fin E, 0 ≤ (w (ix1 e)).toInt ∧ (w (ix1 e)).toInt < (N : Int)) :
    select
        (broadcastInDim ⟨2, ![E, D]⟩ ![0] hm
          (Host.reduce IntOp.andi
            (andi
              (cmpi .sge
                (broadcastInDim ⟨2, ![E, 1]⟩ ![0] hc
                  (select (cmpi .slt w (broadcastInDim ⟨1, ![E]⟩ ![] hz (constantI ⟨0, ![]⟩ 32 0#32)))
                    (addi w (broadcastInDim ⟨1, ![E]⟩ ![] hn (constantI ⟨0, ![]⟩ 32 nW))) w))
                (broadcastInDim ⟨2, ![E, 1]⟩ ![] hz2 (constantI ⟨0, ![]⟩ 32 0#32)))
              (cmpi .sle
                (broadcastInDim ⟨2, ![E, 1]⟩ ![0] hc
                  (select (cmpi .slt w (broadcastInDim ⟨1, ![E]⟩ ![] hz (constantI ⟨0, ![]⟩ 32 0#32)))
                    (addi w (broadcastInDim ⟨1, ![E]⟩ ![] hn (constantI ⟨0, ![]⟩ 32 nW))) w))
                (broadcastInDim ⟨2, ![E, 1]⟩ ![0, 1] hk2 (broadcastInDim ⟨2, ![1, 1]⟩ ![1] hk1 (constantI ⟨1, ![1]⟩ 32 kW)))))
            (constantI ⟨0, ![]⟩ 1 1#1) hr hu))
        (Host.gather d (up x : FVec Ideal ⟨2, ![N, D]⟩ .f32)
          (broadcastInDim ⟨2, ![E, 1]⟩ ![0] hc
            (select (cmpi .slt w (broadcastInDim ⟨1, ![E]⟩ ![] hz (constantI ⟨0, ![]⟩ 32 0#32)))
              (addi w (broadcastInDim ⟨1, ![E]⟩ ![] hn (constantI ⟨0, ![]⟩ 32 nW))) w)))
        (broadcastInDim ⟨2, ![E, D]⟩ ![] hf (constant (F := Ideal) ⟨0, ![]⟩ .f32 0x7FC00000#32))
      = up (gatherRows hN nW x (fun e => w (ix1 e))) := by
  rw [gather_chain_idx hN d h1 h2 h3 h4 h5 h6 h7 nW hz hn hc x w]
  funext i
  rw [select_apply, bcast_axis0_apply, reduce_andi_ones, select_one]
  ·
    intro j
    rw [take_mask_apply, wrap_select]
    obtain ⟨h0, hlt⟩ := hw (j 0)
    have hwrap : wrapWord nW (w (ix1 (j 0))) = w (ix1 (j 0)) := by
      unfold wrapWord; rw [if_neg (by omega)]
    rw [hwrap, cmpi_sge_zero _ h0, cmpi_sle_of_le _ _ (by omega)]
    decide
  · intro k
    rfl

theorem take_chain {N E D : Nat} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D]) (nW kW : BitVec 32) (hk : kW.toInt = (N : Int) - 1)
    (hz hn : (⟨0, ![]⟩ : Shape).BroadcastsInDim ⟨1, ![E]⟩ ![])
    (hc : (⟨1, ![E]⟩ : Shape).BroadcastsInDim ⟨2, ![E, 1]⟩ ![0])
    (hz2 : (⟨0, ![]⟩ : Shape).BroadcastsInDim ⟨2, ![E, 1]⟩ ![])
    (hk1 : (⟨1, ![1]⟩ : Shape).BroadcastsInDim ⟨2, ![1, 1]⟩ ![1])
    (hk2 : (⟨2, ![1, 1]⟩ : Shape).BroadcastsInDim ⟨2, ![E, 1]⟩ ![0, 1])
    (hr : (⟨2, ![E, 1]⟩ : Shape).ReducesTo [1] ⟨1, ![E]⟩) (hu : 0 < (⟨0, ![]⟩ : Shape).numel)
    (hm : (⟨1, ![E]⟩ : Shape).BroadcastsInDim ⟨2, ![E, D]⟩ ![0])
    (hf : (⟨0, ![]⟩ : Shape).BroadcastsInDim ⟨2, ![E, D]⟩ ![])
    (x : Mat N D) (wf : Fin E → BitVec 32) (hw : ∀ e : Fin E, 0 ≤ (wf e).toInt ∧ (wf e).toInt < (N : Int)) :
    select
        (broadcastInDim ⟨2, ![E, D]⟩ ![0] hm
          (Host.reduce IntOp.andi
            (andi
              (cmpi .sge
                (broadcastInDim ⟨2, ![E, 1]⟩ ![0] hc
                  (select (cmpi .slt (fun i => wf (i 0) : IVec ⟨1, ![E]⟩ 32) (broadcastInDim ⟨1, ![E]⟩ ![] hz (constantI ⟨0, ![]⟩ 32 0#32)))
                    (addi (fun i => wf (i 0) : IVec ⟨1, ![E]⟩ 32) (broadcastInDim ⟨1, ![E]⟩ ![] hn (constantI ⟨0, ![]⟩ 32 nW)))
                    (fun i => wf (i 0) : IVec ⟨1, ![E]⟩ 32)))
                (broadcastInDim ⟨2, ![E, 1]⟩ ![] hz2 (constantI ⟨0, ![]⟩ 32 0#32)))
              (cmpi .sle
                (broadcastInDim ⟨2, ![E, 1]⟩ ![0] hc
                  (select (cmpi .slt (fun i => wf (i 0) : IVec ⟨1, ![E]⟩ 32) (broadcastInDim ⟨1, ![E]⟩ ![] hz (constantI ⟨0, ![]⟩ 32 0#32)))
                    (addi (fun i => wf (i 0) : IVec ⟨1, ![E]⟩ 32) (broadcastInDim ⟨1, ![E]⟩ ![] hn (constantI ⟨0, ![]⟩ 32 nW)))
                    (fun i => wf (i 0) : IVec ⟨1, ![E]⟩ 32)))
                (broadcastInDim ⟨2, ![E, 1]⟩ ![0, 1] hk2 (broadcastInDim ⟨2, ![1, 1]⟩ ![1] hk1 (constantI ⟨1, ![1]⟩ 32 kW)))))
            (constantI ⟨0, ![]⟩ 1 1#1) hr hu))
        (Host.gather d (up x : FVec Ideal ⟨2, ![N, D]⟩ .f32)
          (broadcastInDim ⟨2, ![E, 1]⟩ ![0] hc
            (select (cmpi .slt (fun i => wf (i 0) : IVec ⟨1, ![E]⟩ 32) (broadcastInDim ⟨1, ![E]⟩ ![] hz (constantI ⟨0, ![]⟩ 32 0#32)))
              (addi (fun i => wf (i 0) : IVec ⟨1, ![E]⟩ 32) (broadcastInDim ⟨1, ![E]⟩ ![] hn (constantI ⟨0, ![]⟩ 32 nW)))
              (fun i => wf (i 0) : IVec ⟨1, ![E]⟩ 32))))
        (broadcastInDim ⟨2, ![E, D]⟩ ![] hf (constant (F := Ideal) ⟨0, ![]⟩ .f32 0x7FC00000#32))
      = up (gatherRows hN nW x wf) :=
  take_chain_idx hN d h1 h2 h3 h4 h5 h6 h7 nW kW hk hz hn hc hz2 hk1 hk2 hr hu hm hf x (fun i => wf (i 0)) hw

end Cert.Spec

end
-- ==== Proof.KHostNode.lean ====
import proofs.«403290_j73710228734482_1_alg».proof.Proof.Spec
import Idealize.ShloMosaic.Lib.Pipeline.Value

noncomputable section

namespace Cert.KernelIdeal.Hand

open Idealize.ShloMosaic Idealize.ShloMosaic.ValueIdx Cert.Spec

theorem slice3_apply {α : Type} {a b c : Nat} (l : Fin a) (w : (⟨3, ![a, b, c]⟩ : Shape).Idx → α)
    (hs : (⟨3, ![a, b, c]⟩ : Shape).Slices ![l.val, 0, 0] ⟨3, ![1, b, c]⟩)
    (hc : (⟨3, ![1, b, c]⟩ : Shape).ShapeCasts ⟨2, ![b, c]⟩) (j : (⟨2, ![b, c]⟩ : Shape).Idx) :
    shapeCast ⟨2, ![b, c]⟩ (extractStridedSlice ⟨3, ![1, b, c]⟩ ![l.val, 0, 0] w hs) hc j = w (ix3 l (j 0) (j 1)) := by
  refine (shapeCast_dropUnit_apply ![b, c] _ hc j).trans ?_
  refine extractStridedSlice_apply _ w hs _ (ix3 l (j 0) (j 1)) ?_
  intro x
  match x with
  | ⟨0, _⟩ => rfl
  | ⟨1, _⟩ => exact (Nat.zero_add _).symm
  | ⟨2, _⟩ => exact (Nat.zero_add _).symm

theorem slice_row3 {a b c : Nat} (l : Fin a) (w : Ten a b c)
    (hs : (⟨3, ![a, b, c]⟩ : Shape).Slices ![l.val, 0, 0] ⟨3, ![1, b, c]⟩)
    (hc : (⟨3, ![1, b, c]⟩ : Shape).ShapeCasts ⟨2, ![b, c]⟩) :
    shapeCast ⟨2, ![b, c]⟩ (extractStridedSlice ⟨3, ![1, b, c]⟩ ![l.val, 0, 0] (up w) hs) hc = up (row3 l w) :=
  funext fun j => slice3_apply l (up w) hs hc j

theorem slice_row {α : Type} {a d : Nat} (l : Fin a) (w : (⟨2, ![a, d]⟩ : Shape).Idx → α)
    (hs : (⟨2, ![a, d]⟩ : Shape).Slices ![l.val, 0] ⟨2, ![1, d]⟩)
    (hc : (⟨2, ![1, d]⟩ : Shape).ShapeCasts ⟨1, ![d]⟩) :
    shapeCast ⟨1, ![d]⟩ (extractStridedSlice ⟨2, ![1, d]⟩ ![l.val, 0] w hs) hc = fun i => w (ix2 l (i 0)) := by
  funext j
  refine (shapeCast_dropUnit_apply ![d] _ hc j).trans ?_
  refine extractStridedSlice_apply _ w hs _ (ix2 l (j 0)) ?_
  intro x
  match x with
  | ⟨0, _⟩ => rfl
  | ⟨1, _⟩ => exact (Nat.zero_add _).symm

theorem slice_row2 {a d : Nat} (l : Fin a) (w : Mat a d)
    (hs : (⟨2, ![a, d]⟩ : Shape).Slices ![l.val, 0] ⟨2, ![1, d]⟩)
    (hc : (⟨2, ![1, d]⟩ : Shape).ShapeCasts ⟨1, ![d]⟩) :
    shapeCast ⟨1, ![d]⟩ (extractStridedSlice ⟨2, ![1, d]⟩ ![l.val, 0] (up w) hs) hc = up (row2 l w) :=
  slice_row l (up w) hs hc

theorem vec_asRow {d : Nat} (v : Vc d) (hc : (⟨1, ![d]⟩ : Shape).ShapeCasts ⟨2, ![1, d]⟩) :
    shapeCast ⟨2, ![1, d]⟩ (up v) hc = up (asRow v) := by
  funext j
  refine (shapeCast_addUnit_apply ![d] _ hc j).trans ?_
  show up v _ = up v (ix1 (j 1))
  congr 1
  funext x
  match x with
  | ⟨0, _⟩ => rfl

theorem slice_asRow {a d : Nat} (l : Fin a) (w : Mat a d)
    (hs : (⟨2, ![a, d]⟩ : Shape).Slices ![l.val, 0] ⟨2, ![1, d]⟩)
    (hc : (⟨2, ![1, d]⟩ : Shape).ShapeCasts ⟨1, ![d]⟩) (hc' : (⟨1, ![d]⟩ : Shape).ShapeCasts ⟨2, ![1, d]⟩) :
    shapeCast ⟨2, ![1, d]⟩ (shapeCast ⟨1, ![d]⟩ (extractStridedSlice ⟨2, ![1, d]⟩ ![l.val, 0] (up w) hs) hc) hc'
      = up (asRow (row2 l w)) := by
  rw [slice_row2 l w hs hc, vec_asRow]

theorem bcast_oneRow_up {m n : Nat} (h : (⟨2, ![1, n]⟩ : Shape).BroadcastsInDim ⟨2, ![m, n]⟩ ![0, 1]) (v : Mat 1 n) :
    broadcastInDim ⟨2, ![m, n]⟩ ![0, 1] h (up v) = up (fun i : (⟨2, ![m, n]⟩ : Shape).Idx => v (ix2 0 (i 1))) := by
  funext j
  refine broadcastInDim_apply ![0, 1] h (up v) j (ix2 0 (j 1)) ?_
  intro x
  match x with
  | ⟨0, _⟩ => rfl
  | ⟨1, _⟩ =>
    show (j 1).val = if n = 1 then 0 else (j 1).val
    split
    · have := (j 1).isLt; have e : (j 1).val < n := this; omega
    · rfl

end Cert.KernelIdeal.Hand

end
-- ==== Proof.KHostNode0.lean ====
import proofs.«403290_j73710228734482_1_alg».proof.Proof.Gen.KernelIdeal.Launch
import proofs.«403290_j73710228734482_1_alg».proof.Proof.KKeep
import proofs.«403290_j73710228734482_1_alg».proof.Proof.Spec
import proofs.«403290_j73710228734482_1_alg».proof.Proof.LibUp
import proofs.«403290_j73710228734482_1_alg».proof.Proof.LibRows
import proofs.«403290_j73710228734482_1_alg».proof.Proof.KHostNode

noncomputable section

namespace Cert.KernelIdeal.Hand

open Idealize.ShloMosaic Idealize.ShloMosaic.StableHlo Idealize.ShloMosaic.ValueIdx Cert.KernelIdeal Cert.KernelIdeal.Gen Cert.Spec

theorem hin_chain (A : Args) (h : Mat 50000 128) (vn : Mat 512 128) :
    addf (F := Ideal) (φ := .f32) (up h : FVec Ideal S50000x128 .f32)
      (Host.gather gather_S512x128_S50000x1_S50000x128_1_0_n_n_0_1_1128 (up vn : FVec Ideal S512x128 .f32)
        (broadcastInDim S50000x1 ![0] bcast_S50000_S50000x1_0
          (select (cmpi .slt (A.batch : IVec S50000 32) (broadcastInDim S50000 ![] bcast_S_S50000 (constantI S_ 32 0#32)))
            (addi (A.batch : IVec S50000 32) (broadcastInDim S50000 ![] bcast_S_S50000 (constantI S_ 32 512#32)))
            (A.batch : IVec S50000 32))))
      = up (hinOf A h vn) := by
  rw [gather_chain_idx (by norm_num : 0 < 512) gather_S512x128_S50000x1_S50000x128_1_0_n_n_0_1_1128 rfl rfl rfl rfl rfl rfl rfl
        512#32 bcast_S_S50000 bcast_S_S50000 bcast_S50000_S50000x1_0 vn A.batch, up_addf]
  rfl

theorem khost0_a (A : Args) (X : Valuation τ sig (Elt Ideal))
    (h0 : X (Proc.devRef .tc main_arg0) = up A.x) (h2 : X (Proc.devRef .tc main_arg2) = up A.vn0)
    (h21 : X (Proc.devRef .tc main_arg21) = A.ei) (h22 : X (Proc.devRef .tc main_arg22) = A.batch) :
    StableHlo.after (hostOps0 (F := Ideal)) X (Proc.devRef .tc main_v12) = up (hinOf A A.x (vnB A))
    ∧ StableHlo.after (hostOps0 (F := Ideal)) X (Proc.devRef .tc main_v4) = up (vnB A)
    ∧ StableHlo.after (hostOps0 (F := Ideal)) X (Proc.devRef .tc main_v1) = (fun i => srcw A (i 0))
    ∧ StableHlo.after (hostOps0 (F := Ideal)) X (Proc.devRef .tc main_v3) = (fun i => dstw A (i 0)) := by
  refine ⟨?_, ?_, ?_, ?_⟩
  · after_results
    rw [h0, h2, h22, bcast_oneRow_up]
    exact hin_chain A A.x (vnB A)
  · after_results
    rw [h2]
    exact bcast_oneRow_up _ A.vn0
  · after_results
    rw [h21]
    exact slice_row (0 : Fin 2) A.ei _ _
  · after_results
    rw [h21]
    exact slice_row (1 : Fin 2) A.ei _ _

theorem khost0_c (A : Args) (X : Valuation τ sig (Elt Ideal))
    (h3 : X (Proc.devRef .tc main_arg3) = up A.We) (h4 : X (Proc.devRef .tc main_arg4) = up A.be) :
    StableHlo.after (hostOps0_2 (F := Ideal)) X (Proc.devRef .tc main_v15) = up (row3 0 A.We)
    ∧ StableHlo.after (hostOps0_2 (F := Ideal)) X (Proc.devRef .tc main_v18) = up (asRow (row2 0 A.be)) := by
  refine ⟨?_, ?_⟩
  · after_results
    rw [h3]
    exact slice_row3 (0 : Fin 3) A.We _ _
  · after_results
    rw [h4]
    exact slice_asRow (0 : Fin 3) A.be _ _ _

theorem khost0_b (A : Args) (X : Valuation τ sig (Elt Ideal)) (hin : Mat 50000 128)
    (hv12 : X (Proc.devRef .tc main_v12) = up hin) (hv1 : X (Proc.devRef .tc main_v1) = (fun i => srcw A (i 0)))
    (hsrc : ∀ e : Fin 800000, 0 ≤ (srcw A e).toInt ∧ (srcw A e).toInt < 50000) :
    StableHlo.after (hostOps0_1 (F := Ideal)) X (Proc.devRef .tc main_v13) = up (gatherRows (by norm_num) 50000#32 hin (srcw A)) := by
  after_results_simp
  try simp only [TRef.ofBuf, TRef.toBuf, cast_eq]
  rw [hv12, hv1]
  exact take_chain (by norm_num) gather_S50000x128_S800000x1_S800000x128_1_0_n_n_0_1_1128 rfl rfl rfl rfl rfl rfl rfl 50000#32 49999#32 (by decide)
    _ _ _ _ _ _ _ _ _ _ hin (srcw A) (fun e => ⟨(hsrc e).1, by have := (hsrc e).2; exact_mod_cast this⟩)

theorem khost0 (A : Args) (X : Valuation τ sig (Elt Ideal))
    (h0 : X (Proc.devRef .tc main_arg0) = up A.x) (h2 : X (Proc.devRef .tc main_arg2) = up A.vn0)
    (h1 : X (Proc.devRef .tc main_arg1) = up A.ea) (h3 : X (Proc.devRef .tc main_arg3) = up A.We)
    (h4 : X (Proc.devRef .tc main_arg4) = up A.be) (h21 : X (Proc.devRef .tc main_arg21) = A.ei)
    (h22 : X (Proc.devRef .tc main_arg22) = A.batch)
    (hsrc : ∀ e : Fin 800000, 0 ≤ (srcw A e).toInt ∧ (srcw A e).toInt < 50000) :
    StableHlo.after (hostOps0_2 (F := Ideal)) (StableHlo.after (hostOps0_1 (F := Ideal)) (StableHlo.after (hostOps0 (F := Ideal)) X)) (Proc.devRef .tc main_v12) = up (hinOf A A.x (vnB A))
    ∧ StableHlo.after (hostOps0_2 (F := Ideal)) (StableHlo.after (hostOps0_1 (F := Ideal)) (StableHlo.after (hostOps0 (F := Ideal)) X)) (Proc.devRef .tc main_v13) = up (gatherRows (by norm_num) 50000#32 (hinOf A A.x (vnB A)) (srcw A))
    ∧ StableHlo.after (hostOps0_2 (F := Ideal)) (StableHlo.after (hostOps0_1 (F := Ideal)) (StableHlo.after (hostOps0 (F := Ideal)) X)) (Proc.devRef .tc main_arg1) = up A.ea
    ∧ StableHlo.after (hostOps0_2 (F := Ideal)) (StableHlo.after (hostOps0_1 (F := Ideal)) (StableHlo.after (hostOps0 (F := Ideal)) X)) (Proc.devRef .tc main_v15) = up (row3 0 A.We)
    ∧ StableHlo.after (hostOps0_2 (F := Ideal)) (StableHlo.after (hostOps0_1 (F := Ideal)) (StableHlo.after (hostOps0 (F := Ideal)) X)) (Proc.devRef .tc main_v18) = up (asRow (row2 0 A.be))
    ∧ StableHlo.after (hostOps0_2 (F := Ideal)) (StableHlo.after (hostOps0_1 (F := Ideal)) (StableHlo.after (hostOps0 (F := Ideal)) X)) (Proc.devRef .tc main_v4) = up (vnB A)
    ∧ StableHlo.after (hostOps0_2 (F := Ideal)) (StableHlo.after (hostOps0_1 (F := Ideal)) (StableHlo.after (hostOps0 (F := Ideal)) X)) (Proc.devRef .tc main_v1) = (fun i => srcw A (i 0))
    ∧ StableHlo.after (hostOps0_2 (F := Ideal)) (StableHlo.after (hostOps0_1 (F := Ideal)) (StableHlo.after (hostOps0 (F := Ideal)) X)) (Proc.devRef .tc main_v3) = (fun i => dstw A (i 0)) := by
  obtain ⟨a12, a4, a1, a3⟩ := khost0_a A X h0 h2 h21 h22
  have b13 := khost0_b A (StableHlo.after (hostOps0 (F := Ideal)) X) (hinOf A A.x (vnB A)) a12 a1 hsrc
  obtain ⟨c15, c18⟩ := khost0_c A (StableHlo.after (hostOps0_1 (F := Ideal)) (StableHlo.after (hostOps0 (F := Ideal)) X))
    (((after_keep (F := Ideal) hostOps0_1_writes _ main_arg3 (by decide)).trans (after_keep (F := Ideal) hostOps0_writes _ main_arg3 (by decide))).trans h3) (((after_keep (F := Ideal) hostOps0_1_writes _ main_arg4 (by decide)).trans (after_keep (F := Ideal) hostOps0_writes _ main_arg4 (by decide))).trans h4)
  exact ⟨((after_keep (F := Ideal) hostOps0_2_writes _ main_v12 (by decide)).trans (after_keep (F := Ideal) hostOps0_1_writes _ main_v12 (by decide))).trans a12,
    (after_keep (F := Ideal) hostOps0_2_writes _ main_v13 (by decide)).trans b13,
    (((after_keep (F := Ideal) hostOps0_2_writes _ main_arg1 (by decide)).trans (after_keep (F := Ideal) hostOps0_1_writes _ main_arg1 (by decide))).trans (after_keep (F := Ideal) hostOps0_writes _ main_arg1 (by decide))).trans h1,
    c15, c18,
    ((after_keep (F := Ideal) hostOps0_2_writes _ main_v4 (by decide)).trans (after_keep (F := Ideal) hostOps0_1_writes _ main_v4 (by decide))).trans a4,
    ((after_keep (F := Ideal) hostOps0_2_writes _ main_v1 (by decide)).trans (after_keep (F := Ideal) hostOps0_1_writes _ main_v1 (by decide))).trans a1,
    ((after_keep (F := Ideal) hostOps0_2_writes _ main_v3 (by decide)).trans (after_keep (F := Ideal) hostOps0_1_writes _ main_v3 (by decide))).trans a3⟩

theorem khost1 (A : Args) (X : Valuation τ sig (Elt Ideal)) (hin : Mat 50000 128) (msg : Mat 800000 128)
    (hh : X (Proc.devRef .tc main_v12) = up hin) (hm : X (Proc.devRef .tc main_v19) = up msg)
    (hd : X (Proc.devRef .tc main_v3) = (fun i => dstw A (i 0)))
    (h5 : X (Proc.devRef .tc main_arg5) = up A.W1) (h6 : X (Proc.devRef .tc main_arg6) = up A.b1) :
    StableHlo.after (hostOps1 (F := Ideal)) X (Proc.devRef .tc main_v12) = up hin
    ∧ StableHlo.after (hostOps1 (F := Ideal)) X (Proc.devRef .tc main_v22) = up (aggrOf A msg)
    ∧ StableHlo.after (hostOps1 (F := Ideal)) X (Proc.devRef .tc main_v24) = up (row3 0 A.W1)
    ∧ StableHlo.after (hostOps1 (F := Ideal)) X (Proc.devRef .tc main_v27) = up (asRow (row2 0 A.b1)) := by
  refine ⟨?_, ?_, ?_, ?_⟩
  · exact (after_keep (F := Ideal) hostOps1_writes X main_v12 (by decide)).trans hh
  · after_results
    rw [hm, hd]
    exact up_scatterAdd_rows scatter_S50000x128_S800000x1_S800000x128_1_0_0_1 rfl rfl rfl rfl _ _ (dstw A) msg
  · after_results
    rw [h5]
    exact slice_row3 (0 : Fin 3) A.W1 _ _
  · after_results
    rw [h6]
    exact slice_asRow (0 : Fin 3) A.b1 _ _ _

end Cert.KernelIdeal.Hand

end
-- ==== Proof.KHostNode1.lean ====
import proofs.«403290_j73710228734482_1_alg».proof.Proof.Gen.KernelIdeal.Launch
import proofs.«403290_j73710228734482_1_alg».proof.Proof.KKeep
import proofs.«403290_j73710228734482_1_alg».proof.Proof.Spec
import proofs.«403290_j73710228734482_1_alg».proof.Proof.LibUp
import proofs.«403290_j73710228734482_1_alg».proof.Proof.LibRows
import proofs.«403290_j73710228734482_1_alg».proof.Proof.KHostNode

noncomputable section

namespace Cert.KernelIdeal.Hand

open Idealize.ShloMosaic Idealize.ShloMosaic.StableHlo Idealize.ShloMosaic.ValueIdx Cert.KernelIdeal Cert.KernelIdeal.Gen Cert.Spec

theorem hin_chain1 (A : Args) (h : Mat 50000 128) (vn : Mat 512 128) :
    addf (F := Ideal) (φ := .f32) (up h : FVec Ideal S50000x128 .f32)
      (Host.gather gather_S512x128_S50000x1_S50000x128_1_0_n_n_0_1_1128 (up vn : FVec Ideal S512x128 .f32)
        (broadcastInDim S50000x1 ![0] bcast_S50000_S50000x1_0
          (select (cmpi .slt (A.batch : IVec S50000 32) (broadcastInDim S50000 ![] bcast_S_S50000 (constantI S_ 32 0#32)))
            (addi (A.batch : IVec S50000 32) (broadcastInDim S50000 ![] bcast_S_S50000 (constantI S_ 32 512#32)))
            (A.batch : IVec S50000 32))))
      = up (hinOf A h vn) := by
  rw [gather_chain_idx (by norm_num : 0 < 512) gather_S512x128_S50000x1_S50000x128_1_0_n_n_0_1_1128 rfl rfl rfl rfl rfl rfl rfl
        512#32 bcast_S_S50000 bcast_S_S50000 bcast_S50000_S50000x1_0 vn A.batch, up_addf]
  rfl

theorem khost9_a (A : Args) (X : Valuation τ sig (Elt Ideal)) (h : Mat 50000 128) (vn : Mat 512 128)
    (hh : X (Proc.devRef .tc main_v68) = up h) (hv : X (Proc.devRef .tc main_v117) = up vn)
    (h22 : X (Proc.devRef .tc main_arg22) = A.batch) :
    StableHlo.after (hostOps9 (F := Ideal)) X (Proc.devRef .tc main_v125) = up (hinOf A h vn) := by
  after_results
  rw [hh, hv, h22]
  exact hin_chain1 A h vn

theorem khost9_b (A : Args) (X : Valuation τ sig (Elt Ideal)) (hin : Mat 50000 128)
    (hv12 : X (Proc.devRef .tc main_v125) = up hin) (hv1 : X (Proc.devRef .tc main_v1) = (fun i => srcw A (i 0)))
    (hsrc : ∀ e : Fin 800000, 0 ≤ (srcw A e).toInt ∧ (srcw A e).toInt < 50000) :
    StableHlo.after (hostOps9_1 (F := Ideal)) X (Proc.devRef .tc main_v126) = up (gatherRows (by norm_num) 50000#32 hin (srcw A)) := by
  after_results_simp
  try simp only [TRef.ofBuf, TRef.toBuf, cast_eq]
  rw [hv12, hv1]
  exact take_chain (by norm_num) gather_S50000x128_S800000x1_S800000x128_1_0_n_n_0_1_1128 rfl rfl rfl rfl rfl rfl rfl 50000#32 49999#32 (by decide)
    _ _ _ _ _ _ _ _ _ _ hin (srcw A) (fun e => ⟨(hsrc e).1, by have := (hsrc e).2; exact_mod_cast this⟩)

theorem khost9_c (A : Args) (X : Valuation τ sig (Elt Ideal))
    (h3 : X (Proc.devRef .tc main_arg3) = up A.We) (h4 : X (Proc.devRef .tc main_arg4) = up A.be) :
    StableHlo.after (hostOps9_2 (F := Ideal)) X (Proc.devRef .tc main_v128) = up (row3 1 A.We)
    ∧ StableHlo.after (hostOps9_2 (F := Ideal)) X (Proc.devRef .tc main_v131) = up (asRow (row2 1 A.be)) := by
  refine ⟨?_, ?_⟩
  · after_results
    rw [h3]
    exact slice_row3 (1 : Fin 3) A.We _ _
  · after_results
    rw [h4]
    exact slice_asRow (1 : Fin 3) A.be _ _ _

theorem khost9 (A : Args) (X : Valuation τ sig (Elt Ideal)) (h : Mat 50000 128) (vn : Mat 512 128)
    (hh : X (Proc.devRef .tc main_v68) = up h) (hv : X (Proc.devRef .tc main_v117) = up vn)
    (h1 : X (Proc.devRef .tc main_arg1) = up A.ea) (h3 : X (Proc.devRef .tc main_arg3) = up A.We)
    (h4 : X (Proc.devRef .tc main_arg4) = up A.be) (h22 : X (Proc.devRef .tc main_arg22) = A.batch)
    (hv1 : X (Proc.devRef .tc main_v1) = (fun i => srcw A (i 0)))
    (hsrc : ∀ e : Fin 800000, 0 ≤ (srcw A e).toInt ∧ (srcw A e).toInt < 50000) :
    StableHlo.after (hostOps9_2 (F := Ideal)) (StableHlo.after (hostOps9_1 (F := Ideal)) (StableHlo.after (hostOps9 (F := Ideal)) X)) (Proc.devRef .tc main_v125) = up (hinOf A h vn)
    ∧ StableHlo.after (hostOps9_2 (F := Ideal)) (StableHlo.after (hostOps9_1 (F := Ideal)) (StableHlo.after (hostOps9 (F := Ideal)) X)) (Proc.devRef .tc main_v126) = up (gatherRows (by norm_num) 50000#32 (hinOf A h vn) (srcw A))
    ∧ StableHlo.after (hostOps9_2 (F := Ideal)) (StableHlo.after (hostOps9_1 (F := Ideal)) (StableHlo.after (hostOps9 (F := Ideal)) X)) (Proc.devRef .tc main_arg1) = up A.ea
    ∧ StableHlo.after (hostOps9_2 (F := Ideal)) (StableHlo.after (hostOps9_1 (F := Ideal)) (StableHlo.after (hostOps9 (F := Ideal)) X)) (Proc.devRef .tc main_v128) = up (row3 1 A.We)
    ∧ StableHlo.after (hostOps9_2 (F := Ideal)) (StableHlo.after (hostOps9_1 (F := Ideal)) (StableHlo.after (hostOps9 (F := Ideal)) X)) (Proc.devRef .tc main_v131) = up (asRow (row2 1 A.be)) := by
  have a := khost9_a A X h vn hh hv h22
  have b := khost9_b A (StableHlo.after (hostOps9 (F := Ideal)) X) (hinOf A h vn) a ((after_keep (F := Ideal) hostOps9_writes _ main_v1 (by decide)).trans hv1) hsrc
  obtain ⟨c1, c2⟩ := khost9_c A (StableHlo.after (hostOps9_1 (F := Ideal)) (StableHlo.after (hostOps9 (F := Ideal)) X))
    (((after_keep (F := Ideal) hostOps9_1_writes _ main_arg3 (by decide)).trans (after_keep (F := Ideal) hostOps9_writes _ main_arg3 (by decide))).trans h3) (((after_keep (F := Ideal) hostOps9_1_writes _ main_arg4 (by decide)).trans (after_keep (F := Ideal) hostOps9_writes _ main_arg4 (by decide))).trans h4)
  exact ⟨((after_keep (F := Ideal) hostOps9_2_writes _ main_v125 (by decide)).trans (after_keep (F := Ideal) hostOps9_1_writes _ main_v125 (by decide))).trans a,
    (after_keep (F := Ideal) hostOps9_2_writes _ main_v126 (by decide)).trans b,
    (((after_keep (F := Ideal) hostOps9_2_writes _ main_arg1 (by decide)).trans (after_keep (F := Ideal) hostOps9_1_writes _ main_arg1 (by decide))).trans (after_keep (F := Ideal) hostOps9_writes _ main_arg1 (by decide))).trans h1,
    c1, c2⟩

theorem khost10 (A : Args) (X : Valuation τ sig (Elt Ideal)) (hin : Mat 50000 128) (msg : Mat 800000 128)
    (hh : X (Proc.devRef .tc main_v125) = up hin) (hm : X (Proc.devRef .tc main_v132) = up msg)
    (hd : X (Proc.devRef .tc main_v3) = (fun i => dstw A (i 0)))
    (h5 : X (Proc.devRef .tc main_arg5) = up A.W1) (h6 : X (Proc.devRef .tc main_arg6) = up A.b1) :
    StableHlo.after (hostOps10 (F := Ideal)) X (Proc.devRef .tc main_v125) = up hin
    ∧ StableHlo.after (hostOps10 (F := Ideal)) X (Proc.devRef .tc main_v135) = up (aggrOf A msg)
    ∧ StableHlo.after (hostOps10 (F := Ideal)) X (Proc.devRef .tc main_v137) = up (row3 1 A.W1)
    ∧ StableHlo.after (hostOps10 (F := Ideal)) X (Proc.devRef .tc main_v140) = up (asRow (row2 1 A.b1)) := by
  refine ⟨?_, ?_, ?_, ?_⟩
  · exact (after_keep (F := Ideal) hostOps10_writes X main_v125 (by decide)).trans hh
  · after_results
    rw [hm, hd]
    exact up_scatterAdd_rows scatter_S50000x128_S800000x1_S800000x128_1_0_0_1 rfl rfl rfl rfl _ _ (dstw A) msg
  · after_results
    rw [h5]
    exact slice_row3 (1 : Fin 3) A.W1 _ _
  · after_results
    rw [h6]
    exact slice_asRow (1 : Fin 3) A.b1 _ _ _

end Cert.KernelIdeal.Hand

end
-- ==== Proof.KHostNode2.lean ====
import proofs.«403290_j73710228734482_1_alg».proof.Proof.Gen.KernelIdeal.Launch
import proofs.«403290_j73710228734482_1_alg».proof.Proof.Spec
import proofs.«403290_j73710228734482_1_alg».proof.Proof.LibUp
import proofs.«403290_j73710228734482_1_alg».proof.Proof.LibRows
import proofs.«403290_j73710228734482_1_alg».proof.Proof.KHostNode
import Idealize.ShloMosaic.Lib.StableHlo.Run

noncomputable section

namespace Cert.KernelIdeal.Hand

open Idealize.ShloMosaic Idealize.ShloMosaic.StableHlo Idealize.ShloMosaic.TcCoe Idealize.SL.Sem Cert.KernelIdeal Cert.KernelIdeal.Gen
open Idealize.ShloMosaic.ValueIdx Cert.Spec
set_option Elab.async false

theorem khost18_s0_hin (X : Valuation τ sig (Elt Ideal)) :
    StableHlo.after (hostOps18 (F := Ideal)) X (Proc.devRef .tc main_v238)
      = (addf ((X (Proc.devRef .tc main_v181) : FVec Ideal S50000x128 .f32)) (Host.gather gather_S512x128_S50000x1_S50000x128_1_0_n_n_0_1_1128 ((X (Proc.devRef .tc main_v230) : FVec Ideal S512x128 .f32)) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32))))) : FVec Ideal S50000x128 .f32) := by
    after_results <;> (try simp only [TRef.ofBuf, TRef.toBuf, cast_eq]) <;> rfl

theorem khost18_keep_main_v1 (X : Valuation τ sig (Elt Ideal)) :
    StableHlo.after (hostOps18 (F := Ideal)) X (Proc.devRef .tc main_v1) = X (Proc.devRef .tc main_v1) := by
  after_results

theorem khost18_keep_main_arg1 (X : Valuation τ sig (Elt Ideal)) :
    StableHlo.after (hostOps18 (F := Ideal)) X (Proc.devRef .tc main_arg1) = X (Proc.devRef .tc main_arg1) := by
  after_results

theorem khost18_keep_main_arg3 (X : Valuation τ sig (Elt Ideal)) :
    StableHlo.after (hostOps18 (F := Ideal)) X (Proc.devRef .tc main_arg3) = X (Proc.devRef .tc main_arg3) := by
  after_results

theorem khost18_keep_main_arg4 (X : Valuation τ sig (Elt Ideal)) :
    StableHlo.after (hostOps18 (F := Ideal)) X (Proc.devRef .tc main_arg4) = X (Proc.devRef .tc main_arg4) := by
  after_results

theorem khost18_b (A : Args) (X : Valuation τ sig (Elt Ideal)) (hin : Mat 50000 128)
    (hv12 : X (Proc.devRef .tc main_v238) = up hin) (hv1 : X (Proc.devRef .tc main_v1) = (fun i => srcw A (i 0)))
    (hsrc : ∀ e : Fin 800000, 0 ≤ (srcw A e).toInt ∧ (srcw A e).toInt < 50000) :
    StableHlo.after (hostOps18_1 (F := Ideal)) X (Proc.devRef .tc main_v239) = up (gatherRows (by norm_num) 50000#32 hin (srcw A)) := by
  after_results_simp
  try simp only [TRef.ofBuf, TRef.toBuf, cast_eq]
  rw [hv12, hv1]
  exact take_chain (by norm_num) gather_S50000x128_S800000x1_S800000x128_1_0_n_n_0_1_1128 rfl rfl rfl rfl rfl rfl rfl 50000#32 49999#32 (by decide)
    _ _ _ _ _ _ _ _ _ _ hin (srcw A) (fun e => ⟨(hsrc e).1, by have := (hsrc e).2; exact_mod_cast this⟩)

theorem khost18_1_keep_main_v238 (X : Valuation τ sig (Elt Ideal)) :
    StableHlo.after (hostOps18_1 (F := Ideal)) X (Proc.devRef .tc main_v238) = X (Proc.devRef .tc main_v238) := by
  after_results

theorem khost18_1_keep_main_arg1 (X : Valuation τ sig (Elt Ideal)) :
    StableHlo.after (hostOps18_1 (F := Ideal)) X (Proc.devRef .tc main_arg1) = X (Proc.devRef .tc main_arg1) := by
  after_results

theorem khost18_1_keep_main_arg3 (X : Valuation τ sig (Elt Ideal)) :
    StableHlo.after (hostOps18_1 (F := Ideal)) X (Proc.devRef .tc main_arg3) = X (Proc.devRef .tc main_arg3) := by
  after_results

theorem khost18_1_keep_main_arg4 (X : Valuation τ sig (Elt Ideal)) :
    StableHlo.after (hostOps18_1 (F := Ideal)) X (Proc.devRef .tc main_arg4) = X (Proc.devRef .tc main_arg4) := by
  after_results

theorem khost18_2_We (X : Valuation τ sig (Elt Ideal)) :
    StableHlo.after (hostOps18_2 (F := Ideal)) X (Proc.devRef .tc main_v241)
      = (shapeCast S8x128 (extractStridedSlice S1x8x128 ![2, 0, 0] ((X (Proc.devRef .tc main_arg3) : FVec Ideal S3x8x128 .f32)) slices_S3x8x128_S1x8x128_2_0_0) shapeCasts_S1x8x128_S8x128 : FVec Ideal S8x128 .f32) := by
    after_results <;> (try simp only [TRef.ofBuf, TRef.toBuf, cast_eq]) <;> rfl

theorem khost18_2_be (X : Valuation τ sig (Elt Ideal)) :
    StableHlo.after (hostOps18_2 (F := Ideal)) X (Proc.devRef .tc main_v244)
      = (shapeCast S1x128 (shapeCast S128 (extractStridedSlice S1x128 ![2, 0] ((X (Proc.devRef .tc main_arg4) : FVec Ideal S3x128 .f32)) slices_S3x128_S1x128_2_0) shapeCasts_S1x128_S128) shapeCasts_S128_S1x128 : FVec Ideal S1x128 .f32) := by
    after_results <;> (try simp only [TRef.ofBuf, TRef.toBuf, cast_eq]) <;> rfl

theorem khost18_2_keep_main_v238 (X : Valuation τ sig (Elt Ideal)) :
    StableHlo.after (hostOps18_2 (F := Ideal)) X (Proc.devRef .tc main_v238) = X (Proc.devRef .tc main_v238) := by
  after_results

theorem khost18_2_keep_main_v239 (X : Valuation τ sig (Elt Ideal)) :
    StableHlo.after (hostOps18_2 (F := Ideal)) X (Proc.devRef .tc main_v239) = X (Proc.devRef .tc main_v239) := by
  after_results

theorem khost18_2_keep_main_arg1 (X : Valuation τ sig (Elt Ideal)) :
    StableHlo.after (hostOps18_2 (F := Ideal)) X (Proc.devRef .tc main_arg1) = X (Proc.devRef .tc main_arg1) := by
  after_results

theorem khost18_a_hin (A : Args) (X : Valuation τ sig (Elt Ideal)) (h : Mat 50000 128) (vn : Mat 512 128)
    (hh : X (Proc.devRef .tc main_v181) = up h) (hvn : X (Proc.devRef .tc main_v230) = up vn) (hbatch : X (Proc.devRef .tc main_arg22) = A.batch) :
    StableHlo.after (hostOps18 (F := Ideal)) X (Proc.devRef .tc main_v238) = up (hinOf A h vn) := by
  rw [khost18_s0_hin, hh, hvn, hbatch,
    gather_chain_idx (by norm_num) gather_S512x128_S50000x1_S50000x128_1_0_n_n_0_1_1128 rfl rfl rfl rfl rfl rfl rfl 512#32, up_addf]
  rfl

theorem khost18_hin (A : Args) (X : Valuation τ sig (Elt Ideal)) (h : Mat 50000 128) (vn : Mat 512 128)
    (hh : X (Proc.devRef .tc main_v181) = up h) (hvn : X (Proc.devRef .tc main_v230) = up vn) (hbatch : X (Proc.devRef .tc main_arg22) = A.batch) :
    StableHlo.after (hostOps18_2 (F := Ideal)) (StableHlo.after (hostOps18_1 (F := Ideal)) (StableHlo.after (hostOps18 (F := Ideal)) X)) (Proc.devRef .tc main_v238) = up (hinOf A h vn) := by
  rw [khost18_2_keep_main_v238, khost18_1_keep_main_v238]
  exact khost18_a_hin A X h vn hh hvn hbatch

theorem khost18_take (A : Args) (X : Valuation τ sig (Elt Ideal)) (h : Mat 50000 128) (vn : Mat 512 128)
    (hh : X (Proc.devRef .tc main_v181) = up h) (hvn : X (Proc.devRef .tc main_v230) = up vn) (hbatch : X (Proc.devRef .tc main_arg22) = A.batch)
    (hsrcw : X (Proc.devRef .tc main_v1) = (fun i => srcw A (i 0) : IVec S800000 32))
    (hsrc : ∀ e : Fin 800000, 0 ≤ (srcw A e).toInt ∧ (srcw A e).toInt < 50000) :
    StableHlo.after (hostOps18_2 (F := Ideal)) (StableHlo.after (hostOps18_1 (F := Ideal)) (StableHlo.after (hostOps18 (F := Ideal)) X)) (Proc.devRef .tc main_v239)
      = up (gatherRows (by norm_num) 50000#32 (hinOf A h vn) (srcw A)) := by
  rw [khost18_2_keep_main_v239]
  exact khost18_b A _ (hinOf A h vn) (khost18_a_hin A X h vn hh hvn hbatch)
    ((khost18_keep_main_v1 X).trans hsrcw) hsrc

theorem khost18_ea (A : Args) (X : Valuation τ sig (Elt Ideal)) (hea : X (Proc.devRef .tc main_arg1) = up A.ea) :
    StableHlo.after (hostOps18_2 (F := Ideal)) (StableHlo.after (hostOps18_1 (F := Ideal)) (StableHlo.after (hostOps18 (F := Ideal)) X)) (Proc.devRef .tc main_arg1) = up A.ea := by
  rw [khost18_2_keep_main_arg1, khost18_1_keep_main_arg1, khost18_keep_main_arg1, hea]

theorem khost18_We (A : Args) (X : Valuation τ sig (Elt Ideal)) (hWe : X (Proc.devRef .tc main_arg3) = up A.We) :
    StableHlo.after (hostOps18_2 (F := Ideal)) (StableHlo.after (hostOps18_1 (F := Ideal)) (StableHlo.after (hostOps18 (F := Ideal)) X)) (Proc.devRef .tc main_v241) = up (row3 2 A.We) := by
  rw [khost18_2_We, khost18_1_keep_main_arg3, khost18_keep_main_arg3, hWe]
  exact slice_row3 (2 : Fin 3) A.We _ _

theorem khost18_be (A : Args) (X : Valuation τ sig (Elt Ideal)) (hbe : X (Proc.devRef .tc main_arg4) = up A.be) :
    StableHlo.after (hostOps18_2 (F := Ideal)) (StableHlo.after (hostOps18_1 (F := Ideal)) (StableHlo.after (hostOps18 (F := Ideal)) X)) (Proc.devRef .tc main_v244) = up (asRow (row2 2 A.be)) := by
  rw [khost18_2_be, khost18_1_keep_main_arg4, khost18_keep_main_arg4, hbe]
  exact slice_asRow (2 : Fin 3) A.be _ _ _

theorem khost18 (A : Args) (X : Valuation τ sig (Elt Ideal)) (h : Mat 50000 128) (vn : Mat 512 128)
    (hh : X (Proc.devRef .tc main_v181) = up h) (hvn : X (Proc.devRef .tc main_v230) = up vn) (hea : X (Proc.devRef .tc main_arg1) = up A.ea)
    (hWe : X (Proc.devRef .tc main_arg3) = up A.We) (hbe : X (Proc.devRef .tc main_arg4) = up A.be) (hbatch : X (Proc.devRef .tc main_arg22) = A.batch)
    (hsrcw : X (Proc.devRef .tc main_v1) = (fun i => srcw A (i 0) : IVec S800000 32))
    (hsrc : ∀ e : Fin 800000, 0 ≤ (srcw A e).toInt ∧ (srcw A e).toInt < 50000) :
    StableHlo.after (hostOps18_2 (F := Ideal)) (StableHlo.after (hostOps18_1 (F := Ideal)) (StableHlo.after (hostOps18 (F := Ideal)) X)) (Proc.devRef .tc main_v238) = up (hinOf A h vn) ∧
    StableHlo.after (hostOps18_2 (F := Ideal)) (StableHlo.after (hostOps18_1 (F := Ideal)) (StableHlo.after (hostOps18 (F := Ideal)) X)) (Proc.devRef .tc main_v239) = up (gatherRows (by norm_num) 50000#32 (hinOf A h vn) (srcw A)) ∧
    StableHlo.after (hostOps18_2 (F := Ideal)) (StableHlo.after (hostOps18_1 (F := Ideal)) (StableHlo.after (hostOps18 (F := Ideal)) X)) (Proc.devRef .tc main_arg1) = up A.ea ∧
    StableHlo.after (hostOps18_2 (F := Ideal)) (StableHlo.after (hostOps18_1 (F := Ideal)) (StableHlo.after (hostOps18 (F := Ideal)) X)) (Proc.devRef .tc main_v241) = up (row3 2 A.We) ∧
    StableHlo.after (hostOps18_2 (F := Ideal)) (StableHlo.after (hostOps18_1 (F := Ideal)) (StableHlo.after (hostOps18 (F := Ideal)) X)) (Proc.devRef .tc main_v244) = up (asRow (row2 2 A.be)) :=
  ⟨khost18_hin A X h vn hh hvn hbatch, khost18_take A X h vn hh hvn hbatch hsrcw hsrc, khost18_ea A X hea,
    khost18_We A X hWe, khost18_be A X hbe⟩

theorem khost19_hin (A : Args) (X : Valuation τ sig (Elt Ideal)) (hin : Mat 50000 128) (hhin : X (Proc.devRef .tc main_v238) = up hin) :
    StableHlo.after (hostOps19 (F := Ideal)) X (Proc.devRef .tc main_v238) = up hin := by
  have e : StableHlo.after (hostOps19 (F := Ideal)) X (Proc.devRef .tc main_v238)
      = ((X (Proc.devRef .tc main_v238) : FVec Ideal S50000x128 .f32) : FVec Ideal S50000x128 .f32) := by
    after_results <;> (try simp only [TRef.ofBuf, TRef.toBuf, cast_eq]) <;> rfl
  rw [e, hhin]

theorem khost19_aggr (A : Args) (X : Valuation τ sig (Elt Ideal)) (msg : Mat 800000 128) (hmsg : X (Proc.devRef .tc main_v245) = up msg)
    (hdst : X (Proc.devRef .tc main_v3) = (fun i => dstw A (i 0) : IVec S800000 32)) :
    StableHlo.after (hostOps19 (F := Ideal)) X (Proc.devRef .tc main_v248) = up (aggrOf A msg) := by
  have e : StableHlo.after (hostOps19 (F := Ideal)) X (Proc.devRef .tc main_v248)
      = (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 ((X (Proc.devRef .tc main_v3) : IVec S800000 32))) ((X (Proc.devRef .tc main_v245) : FVec Ideal S800000x128 .f32)) : FVec Ideal S50000x128 .f32) := by
    after_results <;> (try simp only [TRef.ofBuf, TRef.toBuf, cast_eq]) <;> rfl
  rw [e, hmsg, hdst, up_scatterAdd_rows_idx scatter_S50000x128_S800000x1_S800000x128_1_0_0_1 rfl rfl rfl rfl]
  rfl

theorem khost19_W (A : Args) (X : Valuation τ sig (Elt Ideal)) (hW : X (Proc.devRef .tc main_arg5) = up A.W1) :
    StableHlo.after (hostOps19 (F := Ideal)) X (Proc.devRef .tc main_v250) = up (row3 2 A.W1) := by
  have e : StableHlo.after (hostOps19 (F := Ideal)) X (Proc.devRef .tc main_v250)
      = (shapeCast S128x256 (extractStridedSlice S1x128x256 ![2, 0, 0] ((X (Proc.devRef .tc main_arg5) : FVec Ideal S3x128x256 .f32)) slices_S3x128x256_S1x128x256_2_0_0) shapeCasts_S1x128x256_S128x256 : FVec Ideal S128x256 .f32) := by
    after_results <;> (try simp only [TRef.ofBuf, TRef.toBuf, cast_eq]) <;> rfl
  rw [e, hW]
  exact slice_row3 (2 : Fin 3) A.W1 _ _

theorem khost19_b (A : Args) (X : Valuation τ sig (Elt Ideal)) (hb : X (Proc.devRef .tc main_arg6) = up A.b1) :
    StableHlo.after (hostOps19 (F := Ideal)) X (Proc.devRef .tc main_v253) = up (asRow (row2 2 A.b1)) := by
  have e : StableHlo.after (hostOps19 (F := Ideal)) X (Proc.devRef .tc main_v253)
      = (shapeCast S1x256 (shapeCast S256 (extractStridedSlice S1x256 ![2, 0] ((X (Proc.devRef .tc main_arg6) : FVec Ideal S3x256 .f32)) slices_S3x256_S1x256_2_0) shapeCasts_S1x256_S256) shapeCasts_S256_S1x256 : FVec Ideal S1x256 .f32) := by
    after_results <;> (try simp only [TRef.ofBuf, TRef.toBuf, cast_eq]) <;> rfl
  rw [e, hb]
  exact slice_asRow (2 : Fin 3) A.b1 _ _ _

theorem khost19 (A : Args) (X : Valuation τ sig (Elt Ideal)) (hin : Mat 50000 128) (msg : Mat 800000 128)
    (hhin : X (Proc.devRef .tc main_v238) = up hin) (hmsg : X (Proc.devRef .tc main_v245) = up msg)
    (hdst : X (Proc.devRef .tc main_v3) = (fun i => dstw A (i 0) : IVec S800000 32))
    (hW : X (Proc.devRef .tc main_arg5) = up A.W1) (hb : X (Proc.devRef .tc main_arg6) = up A.b1) :
    StableHlo.after (hostOps19 (F := Ideal)) X (Proc.devRef .tc main_v238) = up hin ∧
    StableHlo.after (hostOps19 (F := Ideal)) X (Proc.devRef .tc main_v248) = up (aggrOf A msg) ∧
    StableHlo.after (hostOps19 (F := Ideal)) X (Proc.devRef .tc main_v250) = up (row3 2 A.W1) ∧
    StableHlo.after (hostOps19 (F := Ideal)) X (Proc.devRef .tc main_v253) = up (asRow (row2 2 A.b1)) :=
  ⟨khost19_hin A X hin hhin, khost19_aggr A X msg hmsg hdst, khost19_W A X hW, khost19_b A X hb⟩

end Cert.KernelIdeal.Hand

end
-- ==== Proof.KHostNodeBn.lean ====
/- The host code between the kernel's regions, for the node part's batch-normalisation and dense stages: from real
   arrays in the stage's input buffers to real arrays in the next region's operand buffers. A batch-normalisation stage
   computes the column means and biased variances of the dense layer's output, and from them the scale
   g / sqrt (var + eps) and the shift b - mean * scale, each as a one-row matrix; a dense stage cuts the layer's weight
   matrix and bias row out of the parameter stacks. -/
import proofs.«403290_j73710228734482_1_alg».proof.Proof.Gen.KernelIdeal.Launch
import proofs.«403290_j73710228734482_1_alg».proof.Proof.Spec
import proofs.«403290_j73710228734482_1_alg».proof.Proof.LibUp
import Idealize.ShloMosaic.Lib.StableHlo.Run
import Idealize.ShloMosaic.Lib.ValueLayout
import Idealize.ShloMosaic.Lib.Pipeline.Value

set_option maxRecDepth 4000

noncomputable section

namespace Cert.KernelIdeal.Hand.Bn

open Idealize.ShloMosaic Idealize.ShloMosaic.ValueIdx Cert.Spec
/-- Slice `l` of a stack of real matrices, its unit axis dropped. -/
theorem slab {a b c : Nat} (l : Nat) (hl : l < a) (W : Ten a b c)
    (hs : (⟨3, ![a, b, c]⟩ : Shape).Slices ![l, 0, 0] ⟨3, ![1, b, c]⟩)
    (hc : (⟨3, ![1, b, c]⟩ : Shape).ShapeCasts ⟨2, ![b, c]⟩) :
    shapeCast ⟨2, ![b, c]⟩ (extractStridedSlice ⟨3, ![1, b, c]⟩ ![l, 0, 0] (up W) hs) hc = up (row3 ⟨l, hl⟩ W) := by
  funext i
  obtain ⟨p, q, rfl⟩ : ∃ p q, i = ix2 p q := ⟨i 0, i 1, eq_ix2 i⟩
  rw [shapeCast_1ab_ab_apply]
  exact extractStridedSlice_apply _ _ hs _ (ix3 ⟨l, hl⟩ p q) (fun ax => match ax with
    | ⟨0, _⟩ => rfl | ⟨1, _⟩ => (Nat.zero_add _).symm | ⟨2, _⟩ => (Nat.zero_add _).symm)

/-- Row `l` of a real matrix as a vector. -/
theorem rowVec {a d : Nat} (l : Nat) (hl : l < a) (b : Mat a d)
    (hs : (⟨2, ![a, d]⟩ : Shape).Slices ![l, 0] ⟨2, ![1, d]⟩)
    (hc : (⟨2, ![1, d]⟩ : Shape).ShapeCasts ⟨1, ![d]⟩) :
    shapeCast ⟨1, ![d]⟩ (extractStridedSlice ⟨2, ![1, d]⟩ ![l, 0] (up b) hs) hc = up (row2 ⟨l, hl⟩ b) := by
  funext i
  obtain ⟨q, rfl⟩ : ∃ q, i = ix1 q := ⟨i 0, eq_ix1 i⟩
  rw [shapeCast_1a_a_apply]
  exact extractStridedSlice_apply _ _ hs _ (ix2 ⟨l, hl⟩ q) (fun ax => match ax with
    | ⟨0, _⟩ => rfl | ⟨1, _⟩ => (Nat.zero_add _).symm)

/-- A real vector as a one-row matrix. -/
theorem vecRow {d : Nat} (v : Vc d) (hc : (⟨1, ![d]⟩ : Shape).ShapeCasts ⟨2, ![1, d]⟩) :
    shapeCast ⟨2, ![1, d]⟩ (up v) hc = up (asRow v) := by
  funext i
  obtain ⟨u, q, rfl⟩ : ∃ u q, i = ix2 u q := ⟨i 0, i 1, eq_ix2 i⟩
  rw [shapeCast_a_1a_apply]
  rfl

/-- Row `l` of a real matrix as a one-row matrix. -/
theorem rowMat {a d : Nat} (l : Nat) (hl : l < a) (b : Mat a d)
    (hs : (⟨2, ![a, d]⟩ : Shape).Slices ![l, 0] ⟨2, ![1, d]⟩)
    (hc : (⟨2, ![1, d]⟩ : Shape).ShapeCasts ⟨1, ![d]⟩) (hc' : (⟨1, ![d]⟩ : Shape).ShapeCasts ⟨2, ![1, d]⟩) :
    shapeCast ⟨2, ![1, d]⟩ (shapeCast ⟨1, ![d]⟩ (extractStridedSlice ⟨2, ![1, d]⟩ ![l, 0] (up b) hs) hc) hc'
      = up (asRow (row2 ⟨l, hl⟩ b)) := by
  rw [rowVec l hl b hs hc, vecRow]

/-- The batch normalisation's scale as a vector: row `l` of the gains times the reciprocal square root of the
    variance plus epsilon. -/
theorem scaleVec {n a d : Nat} (l : Nat) (hl : l < a) (g : Mat a d) (y : Mat n d)
    (hs : (⟨2, ![a, d]⟩ : Shape).Slices ![l, 0] ⟨2, ![1, d]⟩)
    (hc : (⟨2, ![1, d]⟩ : Shape).ShapeCasts ⟨1, ![d]⟩)
    (hb : (⟨0, ![]⟩ : Shape).BroadcastsInDim ⟨1, ![d]⟩ ![]) :
    mulf (F := Ideal) (φ := .f32) (shapeCast ⟨1, ![d]⟩ (extractStridedSlice ⟨2, ![1, d]⟩ ![l, 0] (up g) hs) hc)
        (Host.rsqrt (F := Ideal) (φ := .f32) (addf (F := Ideal) (φ := .f32) (up (var y))
          (broadcastInDim ⟨1, ![d]⟩ ![] hb (constant (F := Ideal) ⟨0, ![]⟩ .f32 0x3727C5AC#32))))
      = up (fun j : (⟨1, ![d]⟩ : Shape).Idx => row2 ⟨l, hl⟩ g j * (Real.sqrt (var y j + eps))⁻¹) := by
  rw [rowVec l hl g hs hc, bcast_scalar_const_up hb _ eps ofBits_eps, up_addf,
    up_rsqrt _ (fun j => var_add_eps_pos y j), up_mulf]

/-- The scale as a one-row matrix. -/
theorem scaleRow {n a d : Nat} (l : Nat) (hl : l < a) (g : Mat a d) (y : Mat n d)
    (hs : (⟨2, ![a, d]⟩ : Shape).Slices ![l, 0] ⟨2, ![1, d]⟩)
    (hc : (⟨2, ![1, d]⟩ : Shape).ShapeCasts ⟨1, ![d]⟩)
    (hb : (⟨0, ![]⟩ : Shape).BroadcastsInDim ⟨1, ![d]⟩ ![]) (hc' : (⟨1, ![d]⟩ : Shape).ShapeCasts ⟨2, ![1, d]⟩) :
    shapeCast ⟨2, ![1, d]⟩
        (mulf (F := Ideal) (φ := .f32) (shapeCast ⟨1, ![d]⟩ (extractStridedSlice ⟨2, ![1, d]⟩ ![l, 0] (up g) hs) hc)
          (Host.rsqrt (F := Ideal) (φ := .f32) (addf (F := Ideal) (φ := .f32) (up (var y))
            (broadcastInDim ⟨1, ![d]⟩ ![] hb (constant (F := Ideal) ⟨0, ![]⟩ .f32 0x3727C5AC#32))))) hc'
      = up (scaleOf y (row2 ⟨l, hl⟩ g)) := by
  rw [scaleVec l hl g y hs hc hb, vecRow]
  rfl

/-- The shift as a one-row matrix: row `l` of the offsets minus the mean times the scale. -/
theorem shiftRow {n a d : Nat} (l : Nat) (hl : l < a) (g bt : Mat a d) (y : Mat n d)
    (hs : (⟨2, ![a, d]⟩ : Shape).Slices ![l, 0] ⟨2, ![1, d]⟩)
    (hc : (⟨2, ![1, d]⟩ : Shape).ShapeCasts ⟨1, ![d]⟩)
    (hb : (⟨0, ![]⟩ : Shape).BroadcastsInDim ⟨1, ![d]⟩ ![]) (hc' : (⟨1, ![d]⟩ : Shape).ShapeCasts ⟨2, ![1, d]⟩) :
    shapeCast ⟨2, ![1, d]⟩
        (subf (F := Ideal) (φ := .f32) (shapeCast ⟨1, ![d]⟩ (extractStridedSlice ⟨2, ![1, d]⟩ ![l, 0] (up bt) hs) hc)
          (mulf (F := Ideal) (φ := .f32) (up (mean y))
            (mulf (F := Ideal) (φ := .f32) (shapeCast ⟨1, ![d]⟩ (extractStridedSlice ⟨2, ![1, d]⟩ ![l, 0] (up g) hs) hc)
              (Host.rsqrt (F := Ideal) (φ := .f32) (addf (F := Ideal) (φ := .f32) (up (var y))
                (broadcastInDim ⟨1, ![d]⟩ ![] hb (constant (F := Ideal) ⟨0, ![]⟩ .f32 0x3727C5AC#32))))))) hc'
      = up (shiftOf y (row2 ⟨l, hl⟩ g) (row2 ⟨l, hl⟩ bt)) := by
  rw [scaleVec l hl g y hs hc hb, rowVec l hl bt hs hc, up_mulf, up_subf, vecRow]
  rfl

end Cert.KernelIdeal.Hand.Bn

namespace Cert.KernelIdeal.Hand

open Idealize.ShloMosaic Idealize.ShloMosaic.ValueIdx Idealize.ShloMosaic.StableHlo Cert.KernelIdeal Cert.KernelIdeal.Gen Cert.Spec
open Cert.KernelIdeal.Hand.Bn

set_option maxHeartbeats 4000000 in
/-- Stage 2: the host code leaves the dense layer's output `y` in place and computes from it the batch normalisation's
    scale and shift rows (layer 0). -/
theorem khost2 (A : Args) (X : Valuation τ sig (Elt Ideal)) (y : Mat 50000 256)
    (hy : X (Proc.devRef .tc main_v28) = up y) (hg : X (Proc.devRef .tc main_arg7) = up A.g1)
    (hb : X (Proc.devRef .tc main_arg8) = up A.bt1) :
    StableHlo.after (hostOps2_2 (F := Ideal)) (StableHlo.after (hostOps2_1 (F := Ideal)) (StableHlo.after (hostOps2 (F := Ideal)) X)) (Proc.devRef .tc main_v28) = up y ∧
    StableHlo.after (hostOps2_2 (F := Ideal)) (StableHlo.after (hostOps2_1 (F := Ideal)) (StableHlo.after (hostOps2 (F := Ideal)) X)) (Proc.devRef .tc main_v43) = up (scaleOf y (row2 0 A.g1)) ∧
    StableHlo.after (hostOps2_2 (F := Ideal)) (StableHlo.after (hostOps2_1 (F := Ideal)) (StableHlo.after (hostOps2 (F := Ideal)) X)) (Proc.devRef .tc main_v44) = up (shiftOf y (row2 0 A.g1) (row2 0 A.bt1)) := by
  have ay : StableHlo.after (hostOps2 (F := Ideal)) X (Proc.devRef .tc main_v28) = up y := by
    after_results; exact hy
  have ag : StableHlo.after (hostOps2 (F := Ideal)) X (Proc.devRef .tc main_arg7) = up A.g1 := by
    after_results; exact hg
  have ab : StableHlo.after (hostOps2 (F := Ideal)) X (Proc.devRef .tc main_arg8) = up A.bt1 := by
    after_results; exact hb
  have am : StableHlo.after (hostOps2 (F := Ideal)) X (Proc.devRef .tc main_v31) = up (mean y) := by
    after_results
    rw [hy]
    exact up_mean (by norm_num) _ ofBits_50000_nat y _ _ _
  have az : StableHlo.after (hostOps2 (F := Ideal)) X (Proc.devRef .tc main_c_3) = constantI S_ 32 0#32 := by
    after_results
  generalize StableHlo.after (hostOps2 (F := Ideal)) X = X1 at *
  have cy : StableHlo.after (hostOps2_1 (F := Ideal)) X1 (Proc.devRef .tc main_v28) = up y := by
    after_results; exact ay
  have cg : StableHlo.after (hostOps2_1 (F := Ideal)) X1 (Proc.devRef .tc main_arg7) = up A.g1 := by
    after_results; exact ag
  have cb : StableHlo.after (hostOps2_1 (F := Ideal)) X1 (Proc.devRef .tc main_arg8) = up A.bt1 := by
    after_results; exact ab
  have cm : StableHlo.after (hostOps2_1 (F := Ideal)) X1 (Proc.devRef .tc main_v31) = up (mean y) := by
    after_results; exact am
  have cv : StableHlo.after (hostOps2_1 (F := Ideal)) X1 (Proc.devRef .tc main_v32) = up (var y) := by
    after_results
    simp only [TRef.ofBuf, TRef.toBuf, cast_eq]
    rw [ay, az]
    exact var_chain (by norm_num) _ ofBits_50000_nat y _ _ _ _ _ _ _
  generalize StableHlo.after (hostOps2_1 (F := Ideal)) X1 = X2 at *
  refine ⟨?_, ?_, ?_⟩
  · after_results; exact cy
  · after_results
    rw [cg, cv]
    exact scaleRow 0 (by decide) A.g1 y _ _ _ _
  · after_results
    rw [cb, cm, cg, cv]
    exact shiftRow 0 (by decide) A.g1 A.bt1 y _ _ _ _

/-- Stage 3: the host code leaves the activations `z` in place and cuts out the second dense layer's weight matrix and
    bias row (layer 0). -/
theorem khost3 (A : Args) (X : Valuation τ sig (Elt Ideal)) (z : Mat 50000 256)
    (hz : X (Proc.devRef .tc main_v45) = up z) (hw : X (Proc.devRef .tc main_arg9) = up A.W2)
    (hb : X (Proc.devRef .tc main_arg10) = up A.b2) :
    StableHlo.after (hostOps3 (F := Ideal)) X (Proc.devRef .tc main_v45) = up z ∧
    StableHlo.after (hostOps3 (F := Ideal)) X (Proc.devRef .tc main_v47) = up (row3 0 A.W2) ∧
    StableHlo.after (hostOps3 (F := Ideal)) X (Proc.devRef .tc main_v50) = up (asRow (row2 0 A.b2)) := by
  refine ⟨?_, ?_, ?_⟩
  · after_results; exact hz
  · after_results
    rw [hw]
    exact slab 0 (by decide) A.W2 _ _
  · after_results
    rw [hb]
    exact rowMat 0 (by decide) A.b2 _ _ _

set_option maxHeartbeats 4000000 in
/-- Stage 4: the host code leaves the dense layer's output `y` in place and computes from it the batch normalisation's
    scale and shift rows (layer 0). -/
theorem khost4 (A : Args) (X : Valuation τ sig (Elt Ideal)) (y : Mat 50000 128)
    (hy : X (Proc.devRef .tc main_v51) = up y) (hg : X (Proc.devRef .tc main_arg11) = up A.gb)
    (hb : X (Proc.devRef .tc main_arg12) = up A.bb) :
    StableHlo.after (hostOps4_2 (F := Ideal)) (StableHlo.after (hostOps4_1 (F := Ideal)) (StableHlo.after (hostOps4 (F := Ideal)) X)) (Proc.devRef .tc main_v51) = up y ∧
    StableHlo.after (hostOps4_2 (F := Ideal)) (StableHlo.after (hostOps4_1 (F := Ideal)) (StableHlo.after (hostOps4 (F := Ideal)) X)) (Proc.devRef .tc main_v66) = up (scaleOf y (row2 0 A.gb)) ∧
    StableHlo.after (hostOps4_2 (F := Ideal)) (StableHlo.after (hostOps4_1 (F := Ideal)) (StableHlo.after (hostOps4 (F := Ideal)) X)) (Proc.devRef .tc main_v67) = up (shiftOf y (row2 0 A.gb) (row2 0 A.bb)) := by
  have ay : StableHlo.after (hostOps4 (F := Ideal)) X (Proc.devRef .tc main_v51) = up y := by
    after_results; exact hy
  have ag : StableHlo.after (hostOps4 (F := Ideal)) X (Proc.devRef .tc main_arg11) = up A.gb := by
    after_results; exact hg
  have ab : StableHlo.after (hostOps4 (F := Ideal)) X (Proc.devRef .tc main_arg12) = up A.bb := by
    after_results; exact hb
  have am : StableHlo.after (hostOps4 (F := Ideal)) X (Proc.devRef .tc main_v54) = up (mean y) := by
    after_results
    rw [hy]
    exact up_mean (by norm_num) _ ofBits_50000_nat y _ _ _
  have az : StableHlo.after (hostOps4 (F := Ideal)) X (Proc.devRef .tc main_c_7) = constantI S_ 32 0#32 := by
    after_results
  generalize StableHlo.after (hostOps4 (F := Ideal)) X = X1 at *
  have cy : StableHlo.after (hostOps4_1 (F := Ideal)) X1 (Proc.devRef .tc main_v51) = up y := by
    after_results; exact ay
  have cg : StableHlo.after (hostOps4_1 (F := Ideal)) X1 (Proc.devRef .tc main_arg11) = up A.gb := by
    after_results; exact ag
  have cb : StableHlo.after (hostOps4_1 (F := Ideal)) X1 (Proc.devRef .tc main_arg12) = up A.bb := by
    after_results; exact ab
  have cm : StableHlo.after (hostOps4_1 (F := Ideal)) X1 (Proc.devRef .tc main_v54) = up (mean y) := by
    after_results; exact am
  have cv : StableHlo.after (hostOps4_1 (F := Ideal)) X1 (Proc.devRef .tc main_v55) = up (var y) := by
    after_results
    simp only [TRef.ofBuf, TRef.toBuf, cast_eq]
    rw [ay, az]
    exact var_chain (by norm_num) _ ofBits_50000_nat y _ _ _ _ _ _ _
  generalize StableHlo.after (hostOps4_1 (F := Ideal)) X1 = X2 at *
  refine ⟨?_, ?_, ?_⟩
  · after_results; exact cy
  · after_results
    rw [cg, cv]
    exact scaleRow 0 (by decide) A.gb y _ _ _ _
  · after_results
    rw [cb, cm, cg, cv]
    exact shiftRow 0 (by decide) A.gb A.bb y _ _ _ _

set_option maxHeartbeats 4000000 in
/-- Stage 11: the host code leaves the dense layer's output `y` in place and computes from it the batch normalisation's
    scale and shift rows (layer 1). -/
theorem khost11 (A : Args) (X : Valuation τ sig (Elt Ideal)) (y : Mat 50000 256)
    (hy : X (Proc.devRef .tc main_v141) = up y) (hg : X (Proc.devRef .tc main_arg7) = up A.g1)
    (hb : X (Proc.devRef .tc main_arg8) = up A.bt1) :
    StableHlo.after (hostOps11_2 (F := Ideal)) (StableHlo.after (hostOps11_1 (F := Ideal)) (StableHlo.after (hostOps11 (F := Ideal)) X)) (Proc.devRef .tc main_v141) = up y ∧
    StableHlo.after (hostOps11_2 (F := Ideal)) (StableHlo.after (hostOps11_1 (F := Ideal)) (StableHlo.after (hostOps11 (F := Ideal)) X)) (Proc.devRef .tc main_v156) = up (scaleOf y (row2 1 A.g1)) ∧
    StableHlo.after (hostOps11_2 (F := Ideal)) (StableHlo.after (hostOps11_1 (F := Ideal)) (StableHlo.after (hostOps11 (F := Ideal)) X)) (Proc.devRef .tc main_v157) = up (shiftOf y (row2 1 A.g1) (row2 1 A.bt1)) := by
  have ay : StableHlo.after (hostOps11 (F := Ideal)) X (Proc.devRef .tc main_v141) = up y := by
    after_results; exact hy
  have ag : StableHlo.after (hostOps11 (F := Ideal)) X (Proc.devRef .tc main_arg7) = up A.g1 := by
    after_results; exact hg
  have ab : StableHlo.after (hostOps11 (F := Ideal)) X (Proc.devRef .tc main_arg8) = up A.bt1 := by
    after_results; exact hb
  have am : StableHlo.after (hostOps11 (F := Ideal)) X (Proc.devRef .tc main_v144) = up (mean y) := by
    after_results
    rw [hy]
    exact up_mean (by norm_num) _ ofBits_50000_nat y _ _ _
  have az : StableHlo.after (hostOps11 (F := Ideal)) X (Proc.devRef .tc main_c_23) = constantI S_ 32 0#32 := by
    after_results
  generalize StableHlo.after (hostOps11 (F := Ideal)) X = X1 at *
  have cy : StableHlo.after (hostOps11_1 (F := Ideal)) X1 (Proc.devRef .tc main_v141) = up y := by
    after_results; exact ay
  have cg : StableHlo.after (hostOps11_1 (F := Ideal)) X1 (Proc.devRef .tc main_arg7) = up A.g1 := by
    after_results; exact ag
  have cb : StableHlo.after (hostOps11_1 (F := Ideal)) X1 (Proc.devRef .tc main_arg8) = up A.bt1 := by
    after_results; exact ab
  have cm : StableHlo.after (hostOps11_1 (F := Ideal)) X1 (Proc.devRef .tc main_v144) = up (mean y) := by
    after_results; exact am
  have cv : StableHlo.after (hostOps11_1 (F := Ideal)) X1 (Proc.devRef .tc main_v145) = up (var y) := by
    after_results
    simp only [TRef.ofBuf, TRef.toBuf, cast_eq]
    rw [ay, az]
    exact var_chain (by norm_num) _ ofBits_50000_nat y _ _ _ _ _ _ _
  generalize StableHlo.after (hostOps11_1 (F := Ideal)) X1 = X2 at *
  refine ⟨?_, ?_, ?_⟩
  · after_results; exact cy
  · after_results
    rw [cg, cv]
    exact scaleRow 1 (by decide) A.g1 y _ _ _ _
  · after_results
    rw [cb, cm, cg, cv]
    exact shiftRow 1 (by decide) A.g1 A.bt1 y _ _ _ _

/-- Stage 12: the host code leaves the activations `z` in place and cuts out the second dense layer's weight matrix and
    bias row (layer 1). -/
theorem khost12 (A : Args) (X : Valuation τ sig (Elt Ideal)) (z : Mat 50000 256)
    (hz : X (Proc.devRef .tc main_v158) = up z) (hw : X (Proc.devRef .tc main_arg9) = up A.W2)
    (hb : X (Proc.devRef .tc main_arg10) = up A.b2) :
    StableHlo.after (hostOps12 (F := Ideal)) X (Proc.devRef .tc main_v158) = up z ∧
    StableHlo.after (hostOps12 (F := Ideal)) X (Proc.devRef .tc main_v160) = up (row3 1 A.W2) ∧
    StableHlo.after (hostOps12 (F := Ideal)) X (Proc.devRef .tc main_v163) = up (asRow (row2 1 A.b2)) := by
  refine ⟨?_, ?_, ?_⟩
  · after_results; exact hz
  · after_results
    rw [hw]
    exact slab 1 (by decide) A.W2 _ _
  · after_results
    rw [hb]
    exact rowMat 1 (by decide) A.b2 _ _ _

set_option maxHeartbeats 4000000 in
/-- Stage 13: the host code leaves the dense layer's output `y` in place and computes from it the batch normalisation's
    scale and shift rows (layer 1). -/
theorem khost13 (A : Args) (X : Valuation τ sig (Elt Ideal)) (y : Mat 50000 128)
    (hy : X (Proc.devRef .tc main_v164) = up y) (hg : X (Proc.devRef .tc main_arg11) = up A.gb)
    (hb : X (Proc.devRef .tc main_arg12) = up A.bb) :
    StableHlo.after (hostOps13_2 (F := Ideal)) (StableHlo.after (hostOps13_1 (F := Ideal)) (StableHlo.after (hostOps13 (F := Ideal)) X)) (Proc.devRef .tc main_v164) = up y ∧
    StableHlo.after (hostOps13_2 (F := Ideal)) (StableHlo.after (hostOps13_1 (F := Ideal)) (StableHlo.after (hostOps13 (F := Ideal)) X)) (Proc.devRef .tc main_v179) = up (scaleOf y (row2 1 A.gb)) ∧
    StableHlo.after (hostOps13_2 (F := Ideal)) (StableHlo.after (hostOps13_1 (F := Ideal)) (StableHlo.after (hostOps13 (F := Ideal)) X)) (Proc.devRef .tc main_v180) = up (shiftOf y (row2 1 A.gb) (row2 1 A.bb)) := by
  have ay : StableHlo.after (hostOps13 (F := Ideal)) X (Proc.devRef .tc main_v164) = up y := by
    after_results; exact hy
  have ag : StableHlo.after (hostOps13 (F := Ideal)) X (Proc.devRef .tc main_arg11) = up A.gb := by
    after_results; exact hg
  have ab : StableHlo.after (hostOps13 (F := Ideal)) X (Proc.devRef .tc main_arg12) = up A.bb := by
    after_results; exact hb
  have am : StableHlo.after (hostOps13 (F := Ideal)) X (Proc.devRef .tc main_v167) = up (mean y) := by
    after_results
    rw [hy]
    exact up_mean (by norm_num) _ ofBits_50000_nat y _ _ _
  have az : StableHlo.after (hostOps13 (F := Ideal)) X (Proc.devRef .tc main_c_27) = constantI S_ 32 0#32 := by
    after_results
  generalize StableHlo.after (hostOps13 (F := Ideal)) X = X1 at *
  have cy : StableHlo.after (hostOps13_1 (F := Ideal)) X1 (Proc.devRef .tc main_v164) = up y := by
    after_results; exact ay
  have cg : StableHlo.after (hostOps13_1 (F := Ideal)) X1 (Proc.devRef .tc main_arg11) = up A.gb := by
    after_results; exact ag
  have cb : StableHlo.after (hostOps13_1 (F := Ideal)) X1 (Proc.devRef .tc main_arg12) = up A.bb := by
    after_results; exact ab
  have cm : StableHlo.after (hostOps13_1 (F := Ideal)) X1 (Proc.devRef .tc main_v167) = up (mean y) := by
    after_results; exact am
  have cv : StableHlo.after (hostOps13_1 (F := Ideal)) X1 (Proc.devRef .tc main_v168) = up (var y) := by
    after_results
    simp only [TRef.ofBuf, TRef.toBuf, cast_eq]
    rw [ay, az]
    exact var_chain (by norm_num) _ ofBits_50000_nat y _ _ _ _ _ _ _
  generalize StableHlo.after (hostOps13_1 (F := Ideal)) X1 = X2 at *
  refine ⟨?_, ?_, ?_⟩
  · after_results; exact cy
  · after_results
    rw [cg, cv]
    exact scaleRow 1 (by decide) A.gb y _ _ _ _
  · after_results
    rw [cb, cm, cg, cv]
    exact shiftRow 1 (by decide) A.gb A.bb y _ _ _ _

set_option maxHeartbeats 4000000 in
/-- Stage 20: the host code leaves the dense layer's output `y` in place and computes from it the batch normalisation's
    scale and shift rows (layer 2). -/
theorem khost20 (A : Args) (X : Valuation τ sig (Elt Ideal)) (y : Mat 50000 256)
    (hy : X (Proc.devRef .tc main_v254) = up y) (hg : X (Proc.devRef .tc main_arg7) = up A.g1)
    (hb : X (Proc.devRef .tc main_arg8) = up A.bt1) :
    StableHlo.after (hostOps20_2 (F := Ideal)) (StableHlo.after (hostOps20_1 (F := Ideal)) (StableHlo.after (hostOps20 (F := Ideal)) X)) (Proc.devRef .tc main_v254) = up y ∧
    StableHlo.after (hostOps20_2 (F := Ideal)) (StableHlo.after (hostOps20_1 (F := Ideal)) (StableHlo.after (hostOps20 (F := Ideal)) X)) (Proc.devRef .tc main_v269) = up (scaleOf y (row2 2 A.g1)) ∧
    StableHlo.after (hostOps20_2 (F := Ideal)) (StableHlo.after (hostOps20_1 (F := Ideal)) (StableHlo.after (hostOps20 (F := Ideal)) X)) (Proc.devRef .tc main_v270) = up (shiftOf y (row2 2 A.g1) (row2 2 A.bt1)) := by
  have ay : StableHlo.after (hostOps20 (F := Ideal)) X (Proc.devRef .tc main_v254) = up y := by
    after_results; exact hy
  have ag : StableHlo.after (hostOps20 (F := Ideal)) X (Proc.devRef .tc main_arg7) = up A.g1 := by
    after_results; exact hg
  have ab : StableHlo.after (hostOps20 (F := Ideal)) X (Proc.devRef .tc main_arg8) = up A.bt1 := by
    after_results; exact hb
  have am : StableHlo.after (hostOps20 (F := Ideal)) X (Proc.devRef .tc main_v257) = up (mean y) := by
    after_results
    rw [hy]
    exact up_mean (by norm_num) _ ofBits_50000_nat y _ _ _
  have az : StableHlo.after (hostOps20 (F := Ideal)) X (Proc.devRef .tc main_c_43) = constantI S_ 32 0#32 := by
    after_results
  generalize StableHlo.after (hostOps20 (F := Ideal)) X = X1 at *
  have cy : StableHlo.after (hostOps20_1 (F := Ideal)) X1 (Proc.devRef .tc main_v254) = up y := by
    after_results; exact ay
  have cg : StableHlo.after (hostOps20_1 (F := Ideal)) X1 (Proc.devRef .tc main_arg7) = up A.g1 := by
    after_results; exact ag
  have cb : StableHlo.after (hostOps20_1 (F := Ideal)) X1 (Proc.devRef .tc main_arg8) = up A.bt1 := by
    after_results; exact ab
  have cm : StableHlo.after (hostOps20_1 (F := Ideal)) X1 (Proc.devRef .tc main_v257) = up (mean y) := by
    after_results; exact am
  have cv : StableHlo.after (hostOps20_1 (F := Ideal)) X1 (Proc.devRef .tc main_v258) = up (var y) := by
    after_results
    simp only [TRef.ofBuf, TRef.toBuf, cast_eq]
    rw [ay, az]
    exact var_chain (by norm_num) _ ofBits_50000_nat y _ _ _ _ _ _ _
  generalize StableHlo.after (hostOps20_1 (F := Ideal)) X1 = X2 at *
  refine ⟨?_, ?_, ?_⟩
  · after_results; exact cy
  · after_results
    rw [cg, cv]
    exact scaleRow 2 (by decide) A.g1 y _ _ _ _
  · after_results
    rw [cb, cm, cg, cv]
    exact shiftRow 2 (by decide) A.g1 A.bt1 y _ _ _ _

/-- Stage 21: the host code leaves the activations `z` in place and cuts out the second dense layer's weight matrix and
    bias row (layer 2). -/
theorem khost21 (A : Args) (X : Valuation τ sig (Elt Ideal)) (z : Mat 50000 256)
    (hz : X (Proc.devRef .tc main_v271) = up z) (hw : X (Proc.devRef .tc main_arg9) = up A.W2)
    (hb : X (Proc.devRef .tc main_arg10) = up A.b2) :
    StableHlo.after (hostOps21 (F := Ideal)) X (Proc.devRef .tc main_v271) = up z ∧
    StableHlo.after (hostOps21 (F := Ideal)) X (Proc.devRef .tc main_v273) = up (row3 2 A.W2) ∧
    StableHlo.after (hostOps21 (F := Ideal)) X (Proc.devRef .tc main_v276) = up (asRow (row2 2 A.b2)) := by
  refine ⟨?_, ?_, ?_⟩
  · after_results; exact hz
  · after_results
    rw [hw]
    exact slab 2 (by decide) A.W2 _ _
  · after_results
    rw [hb]
    exact rowMat 2 (by decide) A.b2 _ _ _

set_option maxHeartbeats 4000000 in
/-- Stage 22: the host code leaves the dense layer's output `y` in place and computes from it the batch normalisation's
    scale and shift rows (layer 2). -/
theorem khost22 (A : Args) (X : Valuation τ sig (Elt Ideal)) (y : Mat 50000 128)
    (hy : X (Proc.devRef .tc main_v277) = up y) (hg : X (Proc.devRef .tc main_arg11) = up A.gb)
    (hb : X (Proc.devRef .tc main_arg12) = up A.bb) :
    StableHlo.after (hostOps22_2 (F := Ideal)) (StableHlo.after (hostOps22_1 (F := Ideal)) (StableHlo.after (hostOps22 (F := Ideal)) X)) (Proc.devRef .tc main_v277) = up y ∧
    StableHlo.after (hostOps22_2 (F := Ideal)) (StableHlo.after (hostOps22_1 (F := Ideal)) (StableHlo.after (hostOps22 (F := Ideal)) X)) (Proc.devRef .tc main_v292) = up (scaleOf y (row2 2 A.gb)) ∧
    StableHlo.after (hostOps22_2 (F := Ideal)) (StableHlo.after (hostOps22_1 (F := Ideal)) (StableHlo.after (hostOps22 (F := Ideal)) X)) (Proc.devRef .tc main_v293) = up (shiftOf y (row2 2 A.gb) (row2 2 A.bb)) := by
  have ay : StableHlo.after (hostOps22 (F := Ideal)) X (Proc.devRef .tc main_v277) = up y := by
    after_results; exact hy
  have ag : StableHlo.after (hostOps22 (F := Ideal)) X (Proc.devRef .tc main_arg11) = up A.gb := by
    after_results; exact hg
  have ab : StableHlo.after (hostOps22 (F := Ideal)) X (Proc.devRef .tc main_arg12) = up A.bb := by
    after_results; exact hb
  have am : StableHlo.after (hostOps22 (F := Ideal)) X (Proc.devRef .tc main_v280) = up (mean y) := by
    after_results
    rw [hy]
    exact up_mean (by norm_num) _ ofBits_50000_nat y _ _ _
  have az : StableHlo.after (hostOps22 (F := Ideal)) X (Proc.devRef .tc main_c_47) = constantI S_ 32 0#32 := by
    after_results
  generalize StableHlo.after (hostOps22 (F := Ideal)) X = X1 at *
  have cy : StableHlo.after (hostOps22_1 (F := Ideal)) X1 (Proc.devRef .tc main_v277) = up y := by
    after_results; exact ay
  have cg : StableHlo.after (hostOps22_1 (F := Ideal)) X1 (Proc.devRef .tc main_arg11) = up A.gb := by
    after_results; exact ag
  have cb : StableHlo.after (hostOps22_1 (F := Ideal)) X1 (Proc.devRef .tc main_arg12) = up A.bb := by
    after_results; exact ab
  have cm : StableHlo.after (hostOps22_1 (F := Ideal)) X1 (Proc.devRef .tc main_v280) = up (mean y) := by
    after_results; exact am
  have cv : StableHlo.after (hostOps22_1 (F := Ideal)) X1 (Proc.devRef .tc main_v281) = up (var y) := by
    after_results
    simp only [TRef.ofBuf, TRef.toBuf, cast_eq]
    rw [ay, az]
    exact var_chain (by norm_num) _ ofBits_50000_nat y _ _ _ _ _ _ _
  generalize StableHlo.after (hostOps22_1 (F := Ideal)) X1 = X2 at *
  refine ⟨?_, ?_, ?_⟩
  · after_results; exact cy
  · after_results
    rw [cg, cv]
    exact scaleRow 2 (by decide) A.gb y _ _ _ _
  · after_results
    rw [cb, cm, cg, cv]
    exact shiftRow 2 (by decide) A.gb A.bb y _ _ _ _

end Cert.KernelIdeal.Hand

end
-- ==== Proof.KHostVn.lean ====
import proofs.«403290_j73710228734482_1_alg».proof.Proof.Gen.KernelIdeal.Launch
import proofs.«403290_j73710228734482_1_alg».proof.Proof.KKeep
import proofs.«403290_j73710228734482_1_alg».proof.Proof.Spec
import proofs.«403290_j73710228734482_1_alg».proof.Proof.LibUp
import proofs.«403290_j73710228734482_1_alg».proof.Proof.LibIndexRead
import Idealize.ShloMosaic.Lib.StableHlo.Run
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value
noncomputable section
namespace Cert.KernelIdeal.Hand.Vn
open Idealize.ShloMosaic Idealize.ShloMosaic.ValueIdx Cert.Spec

theorem ofBits_512n : Ideal.ofBits .f32 0x44000000#32 = ((((512 : ℕ) : ℝ) : ℝ) : EReal) := by
  rw [ofBits_512]; norm_cast

theorem slice_row3 {a b c : Nat} (l : Nat) (hl : l < a) (W : Ten a b c)
    (hs : (⟨3, ![a, b, c]⟩ : Shape).Slices ![l, 0, 0] ⟨3, ![1, b, c]⟩)
    (hc : (⟨3, ![1, b, c]⟩ : Shape).ShapeCasts ⟨2, ![b, c]⟩) :
    shapeCast ⟨2, ![b, c]⟩ (extractStridedSlice ⟨3, ![1, b, c]⟩ ![l, 0, 0] (up W) hs) hc = up (row3 ⟨l, hl⟩ W) := by
  funext i
  obtain ⟨p, q, rfl⟩ : ∃ p q, i = ix2 p q := ⟨i 0, i 1, eq_ix2 i⟩
  rw [shapeCast_1ab_ab_apply]
  exact extractStridedSlice_apply _ _ hs _ (ix3 ⟨l, hl⟩ p q) (fun ax => match ax with
    | ⟨0, _⟩ => rfl | ⟨1, _⟩ => (Nat.zero_add _).symm | ⟨2, _⟩ => (Nat.zero_add _).symm)

theorem slice_row2 {a d : Nat} (l : Nat) (hl : l < a) (b : Mat a d)
    (hs : (⟨2, ![a, d]⟩ : Shape).Slices ![l, 0] ⟨2, ![1, d]⟩)
    (hc : (⟨2, ![1, d]⟩ : Shape).ShapeCasts ⟨1, ![d]⟩) :
    shapeCast ⟨1, ![d]⟩ (extractStridedSlice ⟨2, ![1, d]⟩ ![l, 0] (up b) hs) hc = up (row2 ⟨l, hl⟩ b) := by
  funext i
  obtain ⟨q, rfl⟩ : ∃ q, i = ix1 q := ⟨i 0, eq_ix1 i⟩
  rw [shapeCast_1a_a_apply]
  exact extractStridedSlice_apply _ _ hs _ (ix2 ⟨l, hl⟩ q) (fun ax => match ax with
    | ⟨0, _⟩ => rfl | ⟨1, _⟩ => (Nat.zero_add _).symm)

theorem cast_asRow {d : Nat} (v : Vc d) (hc : (⟨1, ![d]⟩ : Shape).ShapeCasts ⟨2, ![1, d]⟩) :
    shapeCast ⟨2, ![1, d]⟩ (up v) hc = up (asRow v) := by
  funext i
  obtain ⟨u, q, rfl⟩ : ∃ u q, i = ix2 u q := ⟨i 0, i 1, eq_ix2 i⟩
  rw [shapeCast_a_1a_apply]
  rfl

theorem bias_row {a d : Nat} (l : Nat) (hl : l < a) (b : Mat a d)
    (hs : (⟨2, ![a, d]⟩ : Shape).Slices ![l, 0] ⟨2, ![1, d]⟩)
    (hc : (⟨2, ![1, d]⟩ : Shape).ShapeCasts ⟨1, ![d]⟩) (hc' : (⟨1, ![d]⟩ : Shape).ShapeCasts ⟨2, ![1, d]⟩) :
    shapeCast ⟨2, ![1, d]⟩ (shapeCast ⟨1, ![d]⟩ (extractStridedSlice ⟨2, ![1, d]⟩ ![l, 0] (up b) hs) hc) hc'
      = up (asRow (row2 ⟨l, hl⟩ b)) := by
  rw [slice_row2 l hl b hs hc, cast_asRow]

theorem bcast_const {T : Shape} (w : BitVec 32) (r : ℝ) (hw : Ideal.ofBits .f32 w = ((r : ℝ) : EReal))
    (hb : (⟨0, ![]⟩ : Shape).BroadcastsInDim T ![]) (j : T.Idx) :
    broadcastInDim T ![] hb (constant (F := Ideal) ⟨0, ![]⟩ .f32 w) j = ((r : ℝ) : EReal) := by
  rw [broadcastInDim_scalar_apply, constant_apply, hw]

theorem bcast_vec_row {d : Nat} (v : Vc d) (hb : (⟨1, ![d]⟩ : Shape).BroadcastsInDim ⟨2, ![1, d]⟩ ![1]) :
    broadcastInDim ⟨2, ![1, d]⟩ ![1] hb (up v) = up (fun i : (⟨2, ![1, d]⟩ : Shape).Idx => v (ix1 (i 1))) := by
  funext i
  refine broadcastInDim_apply ![1] hb (up v) i (ix1 (i 1)) (fun ax => match ax with
    | ⟨0, _⟩ => ?_)
  show (i 1).val = if d = 1 then 0 else (i 1).val
  have := idx2_lt1 i
  split <;> omega

theorem bcast_row_mat {n d : Nat} (r : Mat 1 d) (hb : (⟨2, ![1, d]⟩ : Shape).BroadcastsInDim ⟨2, ![n, d]⟩ ![0, 1]) :
    broadcastInDim ⟨2, ![n, d]⟩ ![0, 1] hb (up r) = up (fun i : (⟨2, ![n, d]⟩ : Shape).Idx => r (ix2 0 (i 1))) := by
  funext i
  refine broadcastInDim_apply ![0, 1] hb (up r) i (ix2 0 (i 1)) (fun ax => match ax with
    | ⟨0, _⟩ => rfl
    | ⟨1, _⟩ => ?_)
  show (i 1).val = if d = 1 then 0 else (i 1).val
  have := idx2_lt1 i
  split <;> omega

theorem reduce0_up {n d : Nat} (y : Mat n d)
    (hr : (⟨2, ![n, d]⟩ : Shape).ReducesTo [0] ⟨1, ![d]⟩) (hR : (⟨2, ![n, d]⟩ : Shape).Reduces [0] ⟨1, ![d]⟩)
    (hu : 0 < (⟨0, ![]⟩ : Shape).numel) :
    Host.reduceAdd (F := Ideal) (φ := .f32) (up y) (constant (F := Ideal) ⟨0, ![]⟩ .f32 0x00000000#32) hr hu
      = up (fun j : (⟨1, ![d]⟩ : Shape).Idx => ∑ r : Fin n, y (ix2 r (j 0))) := by
  funext j
  refine Eq.trans ?_ (coe_sum Finset.univ (fun r : Fin n => y (ix2 r (j 0))))
  rw [hostReduceAdd_apply, Ideal.hostReduceAdd_single hr hR, constant_apply, Ideal.ofBits_zero_f32, zero_add]
  refine Finset.sum_congr rfl fun k _ => ?_
  have e : hR.lift j k = ix2 k (j 0) := by
    funext c
    match c with
    | ⟨0, _⟩ => rfl
    | ⟨1, _⟩ => rfl
  rw [e]
  rfl

theorem mean_up {n d : Nat} (y : Mat n d) (w : BitVec 32) (hw : Ideal.ofBits .f32 w = (((n : ℝ) : ℝ) : EReal)) (hn : (n : ℝ) ≠ 0)
    (hr : (⟨2, ![n, d]⟩ : Shape).ReducesTo [0] ⟨1, ![d]⟩) (hR : (⟨2, ![n, d]⟩ : Shape).Reduces [0] ⟨1, ![d]⟩)
    (hu : 0 < (⟨0, ![]⟩ : Shape).numel) (hb : (⟨0, ![]⟩ : Shape).BroadcastsInDim ⟨1, ![d]⟩ ![]) :
    Host.divf (F := Ideal) (φ := .f32)
        (Host.reduceAdd (F := Ideal) (φ := .f32) (up y) (constant (F := Ideal) ⟨0, ![]⟩ .f32 0x00000000#32) hr hu)
        (broadcastInDim ⟨1, ![d]⟩ ![] hb (constant (F := Ideal) ⟨0, ![]⟩ .f32 w))
      = up (mean y) := by
  rw [reduce0_up y hr hR hu, up_divf_const _ _ (n : ℝ) hn (fun i => bcast_const w _ hw hb i)]
  rfl

def centred {n d : Nat} (y' : FVec Ideal ⟨2, ![n, d]⟩ .f32) (w : BitVec 32)
    (hr : (⟨2, ![n, d]⟩ : Shape).ReducesTo [0] ⟨1, ![d]⟩) (hu : 0 < (⟨0, ![]⟩ : Shape).numel)
    (hb1 : (⟨1, ![d]⟩ : Shape).BroadcastsInDim ⟨2, ![1, d]⟩ ![1]) (hb2 : (⟨0, ![]⟩ : Shape).BroadcastsInDim ⟨2, ![1, d]⟩ ![])
    (hb3 : (⟨2, ![1, d]⟩ : Shape).BroadcastsInDim ⟨2, ![n, d]⟩ ![0, 1]) : FVec Ideal ⟨2, ![n, d]⟩ .f32 :=
  subf (F := Ideal) (φ := .f32) y'
    (broadcastInDim ⟨2, ![n, d]⟩ ![0, 1] hb3
      (Host.divf (F := Ideal) (φ := .f32)
        (broadcastInDim ⟨2, ![1, d]⟩ ![1] hb1
          (Host.reduceAdd (F := Ideal) (φ := .f32) y' (constant (F := Ideal) ⟨0, ![]⟩ .f32 0x00000000#32) hr hu))
        (broadcastInDim ⟨2, ![1, d]⟩ ![] hb2 (constant (F := Ideal) ⟨0, ![]⟩ .f32 w))))

theorem centred_up {n d : Nat} (y : Mat n d) (w : BitVec 32) (hw : Ideal.ofBits .f32 w = (((n : ℝ) : ℝ) : EReal)) (hn : (n : ℝ) ≠ 0)
    (hr : (⟨2, ![n, d]⟩ : Shape).ReducesTo [0] ⟨1, ![d]⟩) (hR : (⟨2, ![n, d]⟩ : Shape).Reduces [0] ⟨1, ![d]⟩)
    (hu : 0 < (⟨0, ![]⟩ : Shape).numel)
    (hb1 : (⟨1, ![d]⟩ : Shape).BroadcastsInDim ⟨2, ![1, d]⟩ ![1]) (hb2 : (⟨0, ![]⟩ : Shape).BroadcastsInDim ⟨2, ![1, d]⟩ ![])
    (hb3 : (⟨2, ![1, d]⟩ : Shape).BroadcastsInDim ⟨2, ![n, d]⟩ ![0, 1]) :
    centred (up y) w hr hu hb1 hb2 hb3 = up (fun i : (⟨2, ![n, d]⟩ : Shape).Idx => y i - mean y (ix1 (i 1))) := by
  unfold centred
  rw [reduce0_up y hr hR hu, bcast_vec_row, up_divf_const _ _ (n : ℝ) hn (fun i => bcast_const w _ hw hb2 i),
    bcast_row_mat, up_subf]
  rfl

theorem var_up {n d : Nat} (y : Mat n d) (w : BitVec 32) (hw : Ideal.ofBits .f32 w = (((n : ℝ) : ℝ) : EReal)) (hn : 0 < n)
    (c0 : IVec ⟨0, ![]⟩ 32) (hc0 : ∀ i, c0 i = 0#32) (fill : FVec Ideal ⟨1, ![d]⟩ .f32)
    (hr : (⟨2, ![n, d]⟩ : Shape).ReducesTo [0] ⟨1, ![d]⟩) (hR : (⟨2, ![n, d]⟩ : Shape).Reduces [0] ⟨1, ![d]⟩)
    (hu : 0 < (⟨0, ![]⟩ : Shape).numel) (hb : (⟨0, ![]⟩ : Shape).BroadcastsInDim ⟨1, ![d]⟩ ![])
    (hb1 : (⟨1, ![d]⟩ : Shape).BroadcastsInDim ⟨2, ![1, d]⟩ ![1]) (hb2 : (⟨0, ![]⟩ : Shape).BroadcastsInDim ⟨2, ![1, d]⟩ ![])
    (hb3 : (⟨2, ![1, d]⟩ : Shape).BroadcastsInDim ⟨2, ![n, d]⟩ ![0, 1]) :
    select
        (broadcastInDim ⟨1, ![d]⟩ ![] hb
          (cmpf (F := Ideal) (φ := .f32) .ogt
            (subf (F := Ideal) (φ := .f32) (constant (F := Ideal) ⟨0, ![]⟩ .f32 w) (sitofp (F := Ideal) .f32 c0))
            (constant (F := Ideal) ⟨0, ![]⟩ .f32 0x00000000#32)))
        (Host.divf (F := Ideal) (φ := .f32)
          (Host.reduceAdd (F := Ideal) (φ := .f32)
            (mulf (F := Ideal) (φ := .f32) (centred (up y) w hr hu hb1 hb2 hb3) (centred (up y) w hr hu hb1 hb2 hb3))
            (constant (F := Ideal) ⟨0, ![]⟩ .f32 0x00000000#32) hr hu)
          (broadcastInDim ⟨1, ![d]⟩ ![] hb
            (subf (F := Ideal) (φ := .f32) (constant (F := Ideal) ⟨0, ![]⟩ .f32 w) (sitofp (F := Ideal) .f32 c0))))
        fill
      = up (var y) := by
  have hn' : (n : ℝ) ≠ 0 := by exact_mod_cast hn.ne'
  have hcnt : ∀ i, subf (F := Ideal) (φ := .f32) (constant (F := Ideal) ⟨0, ![]⟩ .f32 w) (sitofp (F := Ideal) .f32 c0) i
      = (((n : ℝ) : ℝ) : EReal) := fun i => by
    rw [subf_apply, constant_apply, sitofp_apply, hw, hc0]
    show (((n : ℝ) : ℝ) : EReal) - ((((0#32 : BitVec 32).toInt : ℤ) : ℝ) : EReal) = _
    simp
  have hpos : FloatOps.cmpf (F := Ideal) (φ := .f32) .ogt (((n : ℝ) : ℝ) : EReal) (0 : EReal) = 1#1 := by
    have h0 : (0 : EReal) < (((n : ℝ) : ℝ) : EReal) := by exact_mod_cast hn
    show BitVec.ofBool (decide ((0 : EReal) < (((n : ℝ) : ℝ) : EReal))) = 1#1
    rw [decide_eq_true h0]
    rfl
  funext j
  rw [select_apply, broadcastInDim_scalar_apply, cmpf_apply, hcnt, constant_apply, Ideal.ofBits_zero_f32, hpos, select_one,
    centred_up y w hw hn' hr hR hu hb1 hb2 hb3, up_mulf, reduce0_up _ hr hR hu,
    up_divf_const _ _ (n : ℝ) hn' (fun i => by rw [broadcastInDim_scalar_apply]; exact hcnt _)]
  obtain ⟨q, rfl⟩ : ∃ q, j = ix1 q := ⟨j 0, eq_ix1 j⟩
  rfl

theorem scale_up {d : Nat} (g v : Vc d) (hv : ∀ j, 0 < v j + eps) (hb : (⟨0, ![]⟩ : Shape).BroadcastsInDim ⟨1, ![d]⟩ ![]) :
    mulf (F := Ideal) (φ := .f32) (up g)
        (Host.rsqrt (F := Ideal) (φ := .f32)
          (addf (F := Ideal) (φ := .f32) (up v) (broadcastInDim ⟨1, ![d]⟩ ![] hb (constant (F := Ideal) ⟨0, ![]⟩ .f32 0x3727C5AC#32))))
      = up (fun j : (⟨1, ![d]⟩ : Shape).Idx => g j * (Real.sqrt (v j + eps))⁻¹) := by
  have he : broadcastInDim ⟨1, ![d]⟩ ![] hb (constant (F := Ideal) ⟨0, ![]⟩ .f32 0x3727C5AC#32)
      = up (fun _ : (⟨1, ![d]⟩ : Shape).Idx => eps) := funext fun j => bcast_const _ _ ofBits_eps hb j
  rw [he, up_addf, up_rsqrt _ hv, up_mulf]

theorem scale_row {a d : Nat} (l : Nat) (hl : l < a) (G : Mat a d) (v : Vc d) (hv : ∀ j, 0 < v j + eps)
    (hs : (⟨2, ![a, d]⟩ : Shape).Slices ![l, 0] ⟨2, ![1, d]⟩)
    (hc : (⟨2, ![1, d]⟩ : Shape).ShapeCasts ⟨1, ![d]⟩) (hc' : (⟨1, ![d]⟩ : Shape).ShapeCasts ⟨2, ![1, d]⟩)
    (hb : (⟨0, ![]⟩ : Shape).BroadcastsInDim ⟨1, ![d]⟩ ![]) :
    shapeCast ⟨2, ![1, d]⟩
        (mulf (F := Ideal) (φ := .f32) (shapeCast ⟨1, ![d]⟩ (extractStridedSlice ⟨2, ![1, d]⟩ ![l, 0] (up G) hs) hc)
          (Host.rsqrt (F := Ideal) (φ := .f32)
            (addf (F := Ideal) (φ := .f32) (up v) (broadcastInDim ⟨1, ![d]⟩ ![] hb (constant (F := Ideal) ⟨0, ![]⟩ .f32 0x3727C5AC#32))))) hc'
      = up (fun i : (⟨2, ![1, d]⟩ : Shape).Idx => row2 ⟨l, hl⟩ G (ix1 (i 1)) * (Real.sqrt (v (ix1 (i 1)) + eps))⁻¹) := by
  rw [slice_row2 l hl G hs hc, scale_up _ _ hv hb, cast_asRow]
  rfl

theorem shift_row {a d : Nat} (l : Nat) (hl : l < a) (G B : Mat a d) (m v : Vc d) (hv : ∀ j, 0 < v j + eps)
    (hs : (⟨2, ![a, d]⟩ : Shape).Slices ![l, 0] ⟨2, ![1, d]⟩)
    (hc : (⟨2, ![1, d]⟩ : Shape).ShapeCasts ⟨1, ![d]⟩) (hc' : (⟨1, ![d]⟩ : Shape).ShapeCasts ⟨2, ![1, d]⟩)
    (hb : (⟨0, ![]⟩ : Shape).BroadcastsInDim ⟨1, ![d]⟩ ![]) :
    shapeCast ⟨2, ![1, d]⟩
        (subf (F := Ideal) (φ := .f32) (shapeCast ⟨1, ![d]⟩ (extractStridedSlice ⟨2, ![1, d]⟩ ![l, 0] (up B) hs) hc)
          (mulf (F := Ideal) (φ := .f32) (up m)
            (mulf (F := Ideal) (φ := .f32) (shapeCast ⟨1, ![d]⟩ (extractStridedSlice ⟨2, ![1, d]⟩ ![l, 0] (up G) hs) hc)
              (Host.rsqrt (F := Ideal) (φ := .f32)
                (addf (F := Ideal) (φ := .f32) (up v) (broadcastInDim ⟨1, ![d]⟩ ![] hb (constant (F := Ideal) ⟨0, ![]⟩ .f32 0x3727C5AC#32))))))) hc'
      = up (fun i : (⟨2, ![1, d]⟩ : Shape).Idx =>
          row2 ⟨l, hl⟩ B (ix1 (i 1)) - m (ix1 (i 1)) * (row2 ⟨l, hl⟩ G (ix1 (i 1)) * (Real.sqrt (v (ix1 (i 1)) + eps))⁻¹)) := by
  rw [slice_row2 l hl G hs hc, slice_row2 l hl B hs hc, scale_up _ _ hv hb, up_mulf, up_subf, cast_asRow]
  rfl

theorem pooled_up {N E D : Nat} (rec : ScatterDims ⟨2, ![N, D]⟩ ⟨2, ![E, 1]⟩ ⟨2, ![E, D]⟩)
    (h1 : rec.updateWindowDims = [1]) (h2 : rec.insertedWindowDims = [0]) (h3 : rec.scatterDimsToOperandDims = [0])
    (h4 : rec.indexVectorDim = 1)
    (words : (⟨1, ![E]⟩ : Shape).Idx → BitVec 32) (upd : Mat E D)
    (hb : (⟨0, ![]⟩ : Shape).BroadcastsInDim ⟨2, ![N, D]⟩ ![])
    (hbi : (⟨1, ![E]⟩ : Shape).BroadcastsInDim ⟨2, ![E, 1]⟩ ![0]) :
    Host.scatterAdd (F := Ideal) (φ := .f32) rec
        (broadcastInDim ⟨2, ![N, D]⟩ ![] hb (constant (F := Ideal) ⟨0, ![]⟩ .f32 0x00000000#32))
        (broadcastInDim ⟨2, ![E, 1]⟩ ![0] hbi words) (up upd)
      = up (segSum (fun e => words (ix1 e)) upd) := by
  funext i
  obtain ⟨p, q, rfl⟩ : ∃ p q, i = ix2 p q := ⟨i 0, i 1, eq_ix2 i⟩
  have hidx : ∀ e : Fin E, broadcastInDim ⟨2, ![E, 1]⟩ ![0] hbi words (ix2 e 0) = words (ix1 e) := fun e =>
    broadcastInDim_apply ![0] hbi words (ix2 e 0) (ix1 e) (fun ax => match ax with
      | ⟨0, _⟩ => by
        show e.val = if E = 1 then 0 else e.val
        have := e.isLt
        split <;> omega)
  refine Eq.trans (Cert.Sage.IndexRead.scatterAdd_rows rec h1 h2 h3 h4 _ _ _ p q) ?_
  rw [bcast_const _ 0 ofBits_zero hb, EReal.coe_zero, zero_add]
  refine Eq.trans ?_ (coe_sum (Finset.univ.filter (fun e : Fin E => (words (ix1 e)).toInt = (p.val : Int))) (fun e => upd (ix2 e q)))
  refine Finset.sum_congr (Finset.filter_congr fun e _ => by rw [hidx e]) (fun e _ => rfl)

end Cert.KernelIdeal.Hand.Vn

namespace Cert.KernelIdeal.Hand
open Idealize.ShloMosaic Idealize.ShloMosaic.StableHlo Idealize.ShloMosaic.ValueIdx Cert.Spec Cert.KernelIdeal.Gen

theorem khost5 (A : Args) (X : Valuation τ sig (Elt Ideal)) (hin : Mat 50000 128) (vn : Mat 512 128)
    (hhin : X (Proc.devRef .tc main_v12) = up hin) (hvn : X (Proc.devRef .tc main_v4) = up vn)
    (hb : X (Proc.devRef .tc main_arg22) = A.batch) (hW : X (Proc.devRef .tc main_arg13) = up A.Wv1)
    (hbias : X (Proc.devRef .tc main_arg14) = up A.bv1) :
    StableHlo.after (hostOps5 (F := Ideal)) X (Proc.devRef .tc main_v71) = up (pooledOf A hin)
    ∧ StableHlo.after (hostOps5 (F := Ideal)) X (Proc.devRef .tc main_v4) = up vn
    ∧ StableHlo.after (hostOps5 (F := Ideal)) X (Proc.devRef .tc main_v73) = up (row3 0 A.Wv1)
    ∧ StableHlo.after (hostOps5 (F := Ideal)) X (Proc.devRef .tc main_v76) = up (asRow (row2 0 A.bv1)) := by
  refine ⟨?_, ?_, ?_, ?_⟩
  · after_results
    rw [hb, hhin]
    exact Vn.pooled_up scatter_S512x128_S50000x1_S50000x128_1_0_0_1 rfl rfl rfl rfl A.batch hin _ _
  · rw [after_keep (F := Ideal) hostOps5_writes X main_v4 (by decide), hvn]
  · after_results
    rw [hW]
    dsimp only
    exact Vn.slice_row3 0 (by norm_num) A.Wv1 _ _
  · after_results
    rw [hbias]
    dsimp only
    exact Vn.bias_row 0 (by norm_num) A.bv1 _ _ _

theorem stretch6_0 (X : Valuation τ sig (Elt Ideal)) (y : Mat 512 256) (hy : X (Proc.devRef .tc main_v77) = up y) :
    StableHlo.after (hostOps6 (F := Ideal)) X (Proc.devRef .tc main_v80) = up (mean y)
    ∧ StableHlo.after (hostOps6 (F := Ideal)) X (Proc.devRef .tc main_c_12) = constantI S_ 32 0#32 := by
  refine ⟨?_, ?_⟩
  · after_results
    rw [hy]
    exact Vn.mean_up y _ Vn.ofBits_512n (by norm_num) _ (by decide) _ _
  · after_results

theorem stretch6_1 (Z : Valuation τ sig (Elt Ideal)) (y : Mat 512 256) (hy : Z (Proc.devRef .tc main_v77) = up y)
    (hc : Z (Proc.devRef .tc main_c_12) = constantI S_ 32 0#32) :
    StableHlo.after (hostOps6_1 (F := Ideal)) Z (Proc.devRef .tc main_v81) = up (var y) := by
  after_results_simp
  simp only [TRef.ofBuf, TRef.toBuf, cast_eq]
  rw [hy, hc]
  exact Vn.var_up y _ Vn.ofBits_512n (by norm_num) _ (fun _ => rfl) _ _ (by decide) _ _ _ _ _

theorem stretch6_2 (A : Args) (Z : Valuation τ sig (Elt Ideal)) (y : Mat 512 256)
    (hv : Z (Proc.devRef .tc main_v81) = up (var y)) (hm : Z (Proc.devRef .tc main_v80) = up (mean y))
    (hg : Z (Proc.devRef .tc main_arg15) = up A.gv1) (hbt : Z (Proc.devRef .tc main_arg16) = up A.btv1) :
    StableHlo.after (hostOps6_2 (F := Ideal)) Z (Proc.devRef .tc main_v92) = up (scaleOf y (row2 0 A.gv1))
    ∧ StableHlo.after (hostOps6_2 (F := Ideal)) Z (Proc.devRef .tc main_v93) = up (shiftOf y (row2 0 A.gv1) (row2 0 A.btv1)) := by
  refine ⟨?_, ?_⟩
  · after_results
    rw [hv, hg]
    dsimp only
    exact Vn.scale_row 0 (by norm_num) A.gv1 (var y) (var_add_eps_pos y) _ _ _ _
  · after_results
    rw [hv, hm, hg, hbt]
    dsimp only
    exact Vn.shift_row 0 (by norm_num) A.gv1 A.btv1 (mean y) (var y) (var_add_eps_pos y) _ _ _ _

theorem khost6 (A : Args) (X : Valuation τ sig (Elt Ideal)) (y : Mat 512 256)
    (hy : X (Proc.devRef .tc main_v77) = up y) (hg : X (Proc.devRef .tc main_arg15) = up A.gv1)
    (hbt : X (Proc.devRef .tc main_arg16) = up A.btv1) :
    StableHlo.after (hostOps6_2 (F := Ideal)) (StableHlo.after (hostOps6_1 (F := Ideal)) (StableHlo.after (hostOps6 (F := Ideal)) X))
        (Proc.devRef .tc main_v77) = up y
    ∧ StableHlo.after (hostOps6_2 (F := Ideal)) (StableHlo.after (hostOps6_1 (F := Ideal)) (StableHlo.after (hostOps6 (F := Ideal)) X))
        (Proc.devRef .tc main_v92) = up (scaleOf y (row2 0 A.gv1))
    ∧ StableHlo.after (hostOps6_2 (F := Ideal)) (StableHlo.after (hostOps6_1 (F := Ideal)) (StableHlo.after (hostOps6 (F := Ideal)) X))
        (Proc.devRef .tc main_v93) = up (shiftOf y (row2 0 A.gv1) (row2 0 A.btv1)) := by
  obtain ⟨am, ac⟩ := stretch6_0 X y hy
  have ay : StableHlo.after (hostOps6 (F := Ideal)) X (Proc.devRef .tc main_v77) = up y := by
    rw [after_keep (F := Ideal) hostOps6_writes X main_v77 (by decide), hy]
  have bv := stretch6_1 _ y ay ac
  have bm : StableHlo.after (hostOps6_1 (F := Ideal)) (StableHlo.after (hostOps6 (F := Ideal)) X) (Proc.devRef .tc main_v80) = up (mean y) := by
    rw [after_keep (F := Ideal) hostOps6_1_writes _ main_v80 (by decide), am]
  have bg : StableHlo.after (hostOps6_1 (F := Ideal)) (StableHlo.after (hostOps6 (F := Ideal)) X) (Proc.devRef .tc main_arg15) = up A.gv1 := by
    rw [after_keep (F := Ideal) hostOps6_1_writes _ main_arg15 (by decide), after_keep (F := Ideal) hostOps6_writes _ main_arg15 (by decide), hg]
  have bbt : StableHlo.after (hostOps6_1 (F := Ideal)) (StableHlo.after (hostOps6 (F := Ideal)) X) (Proc.devRef .tc main_arg16) = up A.btv1 := by
    rw [after_keep (F := Ideal) hostOps6_1_writes _ main_arg16 (by decide), after_keep (F := Ideal) hostOps6_writes _ main_arg16 (by decide), hbt]
  obtain ⟨cs, ch⟩ := stretch6_2 A _ y bv bm bg bbt
  exact ⟨by rw [after_keep (F := Ideal) hostOps6_2_writes _ main_v77 (by decide), after_keep (F := Ideal) hostOps6_1_writes _ main_v77 (by decide), after_keep (F := Ideal) hostOps6_writes X main_v77 (by decide), hy], cs, ch⟩

theorem khost7 (A : Args) (X : Valuation τ sig (Elt Ideal)) (t : Mat 512 256)
    (ht : X (Proc.devRef .tc main_v94) = up t) (hW : X (Proc.devRef .tc main_arg17) = up A.Wv2)
    (hbias : X (Proc.devRef .tc main_arg18) = up A.bv2) :
    StableHlo.after (hostOps7 (F := Ideal)) X (Proc.devRef .tc main_v94) = up t
    ∧ StableHlo.after (hostOps7 (F := Ideal)) X (Proc.devRef .tc main_v96) = up (row3 0 A.Wv2)
    ∧ StableHlo.after (hostOps7 (F := Ideal)) X (Proc.devRef .tc main_v99) = up (asRow (row2 0 A.bv2)) := by
  refine ⟨?_, ?_, ?_⟩
  · rw [after_keep (F := Ideal) hostOps7_writes X main_v94 (by decide), ht]
  · after_results
    rw [hW]
    dsimp only
    exact Vn.slice_row3 0 (by norm_num) A.Wv2 _ _
  · after_results
    rw [hbias]
    dsimp only
    exact Vn.bias_row 0 (by norm_num) A.bv2 _ _ _

theorem stretch8_0 (X : Valuation τ sig (Elt Ideal)) (y : Mat 512 128) (hy : X (Proc.devRef .tc main_v100) = up y) :
    StableHlo.after (hostOps8 (F := Ideal)) X (Proc.devRef .tc main_v103) = up (mean y)
    ∧ StableHlo.after (hostOps8 (F := Ideal)) X (Proc.devRef .tc main_c_16) = constantI S_ 32 0#32 := by
  refine ⟨?_, ?_⟩
  · after_results
    rw [hy]
    exact Vn.mean_up y _ Vn.ofBits_512n (by norm_num) _ (by decide) _ _
  · after_results

theorem stretch8_1 (Z : Valuation τ sig (Elt Ideal)) (y : Mat 512 128) (hy : Z (Proc.devRef .tc main_v100) = up y)
    (hc : Z (Proc.devRef .tc main_c_16) = constantI S_ 32 0#32) :
    StableHlo.after (hostOps8_1 (F := Ideal)) Z (Proc.devRef .tc main_v104) = up (var y) := by
  after_results_simp
  simp only [TRef.ofBuf, TRef.toBuf, cast_eq]
  rw [hy, hc]
  exact Vn.var_up y _ Vn.ofBits_512n (by norm_num) _ (fun _ => rfl) _ _ (by decide) _ _ _ _ _

theorem stretch8_2 (A : Args) (Z : Valuation τ sig (Elt Ideal)) (y : Mat 512 128)
    (hv : Z (Proc.devRef .tc main_v104) = up (var y)) (hm : Z (Proc.devRef .tc main_v103) = up (mean y))
    (hg : Z (Proc.devRef .tc main_arg19) = up A.gv2) (hbt : Z (Proc.devRef .tc main_arg20) = up A.btv2) :
    StableHlo.after (hostOps8_2 (F := Ideal)) Z (Proc.devRef .tc main_v115) = up (scaleOf y (row2 0 A.gv2))
    ∧ StableHlo.after (hostOps8_2 (F := Ideal)) Z (Proc.devRef .tc main_v116) = up (shiftOf y (row2 0 A.gv2) (row2 0 A.btv2)) := by
  refine ⟨?_, ?_⟩
  · after_results
    rw [hv, hg]
    dsimp only
    exact Vn.scale_row 0 (by norm_num) A.gv2 (var y) (var_add_eps_pos y) _ _ _ _
  · after_results
    rw [hv, hm, hg, hbt]
    dsimp only
    exact Vn.shift_row 0 (by norm_num) A.gv2 A.btv2 (mean y) (var y) (var_add_eps_pos y) _ _ _ _

theorem khost8 (A : Args) (X : Valuation τ sig (Elt Ideal)) (y : Mat 512 128)
    (hy : X (Proc.devRef .tc main_v100) = up y) (hg : X (Proc.devRef .tc main_arg19) = up A.gv2)
    (hbt : X (Proc.devRef .tc main_arg20) = up A.btv2) :
    StableHlo.after (hostOps8_2 (F := Ideal)) (StableHlo.after (hostOps8_1 (F := Ideal)) (StableHlo.after (hostOps8 (F := Ideal)) X))
        (Proc.devRef .tc main_v100) = up y
    ∧ StableHlo.after (hostOps8_2 (F := Ideal)) (StableHlo.after (hostOps8_1 (F := Ideal)) (StableHlo.after (hostOps8 (F := Ideal)) X))
        (Proc.devRef .tc main_v115) = up (scaleOf y (row2 0 A.gv2))
    ∧ StableHlo.after (hostOps8_2 (F := Ideal)) (StableHlo.after (hostOps8_1 (F := Ideal)) (StableHlo.after (hostOps8 (F := Ideal)) X))
        (Proc.devRef .tc main_v116) = up (shiftOf y (row2 0 A.gv2) (row2 0 A.btv2)) := by
  obtain ⟨am, ac⟩ := stretch8_0 X y hy
  have ay : StableHlo.after (hostOps8 (F := Ideal)) X (Proc.devRef .tc main_v100) = up y := by
    rw [after_keep (F := Ideal) hostOps8_writes X main_v100 (by decide), hy]
  have bv := stretch8_1 _ y ay ac
  have bm : StableHlo.after (hostOps8_1 (F := Ideal)) (StableHlo.after (hostOps8 (F := Ideal)) X) (Proc.devRef .tc main_v103) = up (mean y) := by
    rw [after_keep (F := Ideal) hostOps8_1_writes _ main_v103 (by decide), am]
  have bg : StableHlo.after (hostOps8_1 (F := Ideal)) (StableHlo.after (hostOps8 (F := Ideal)) X) (Proc.devRef .tc main_arg19) = up A.gv2 := by
    rw [after_keep (F := Ideal) hostOps8_1_writes _ main_arg19 (by decide), after_keep (F := Ideal) hostOps8_writes _ main_arg19 (by decide), hg]
  have bbt : StableHlo.after (hostOps8_1 (F := Ideal)) (StableHlo.after (hostOps8 (F := Ideal)) X) (Proc.devRef .tc main_arg20) = up A.btv2 := by
    rw [after_keep (F := Ideal) hostOps8_1_writes _ main_arg20 (by decide), after_keep (F := Ideal) hostOps8_writes _ main_arg20 (by decide), hbt]
  obtain ⟨cs, ch⟩ := stretch8_2 A _ y bv bm bg bbt
  exact ⟨by rw [after_keep (F := Ideal) hostOps8_2_writes _ main_v100 (by decide), after_keep (F := Ideal) hostOps8_1_writes _ main_v100 (by decide), after_keep (F := Ideal) hostOps8_writes X main_v100 (by decide), hy], cs, ch⟩

theorem khost14 (A : Args) (X : Valuation τ sig (Elt Ideal)) (hin : Mat 50000 128) (vn : Mat 512 128)
    (hhin : X (Proc.devRef .tc main_v125) = up hin) (hvn : X (Proc.devRef .tc main_v117) = up vn)
    (hb : X (Proc.devRef .tc main_arg22) = A.batch) (hW : X (Proc.devRef .tc main_arg13) = up A.Wv1)
    (hbias : X (Proc.devRef .tc main_arg14) = up A.bv1) :
    StableHlo.after (hostOps14 (F := Ideal)) X (Proc.devRef .tc main_v184) = up (pooledOf A hin)
    ∧ StableHlo.after (hostOps14 (F := Ideal)) X (Proc.devRef .tc main_v117) = up vn
    ∧ StableHlo.after (hostOps14 (F := Ideal)) X (Proc.devRef .tc main_v186) = up (row3 1 A.Wv1)
    ∧ StableHlo.after (hostOps14 (F := Ideal)) X (Proc.devRef .tc main_v189) = up (asRow (row2 1 A.bv1)) := by
  refine ⟨?_, ?_, ?_, ?_⟩
  · after_results
    rw [hb, hhin]
    exact Vn.pooled_up scatter_S512x128_S50000x1_S50000x128_1_0_0_1 rfl rfl rfl rfl A.batch hin _ _
  · rw [after_keep (F := Ideal) hostOps14_writes X main_v117 (by decide), hvn]
  · after_results
    rw [hW]
    dsimp only
    exact Vn.slice_row3 1 (by norm_num) A.Wv1 _ _
  · after_results
    rw [hbias]
    dsimp only
    exact Vn.bias_row 1 (by norm_num) A.bv1 _ _ _

theorem stretch15_0 (X : Valuation τ sig (Elt Ideal)) (y : Mat 512 256) (hy : X (Proc.devRef .tc main_v190) = up y) :
    StableHlo.after (hostOps15 (F := Ideal)) X (Proc.devRef .tc main_v193) = up (mean y)
    ∧ StableHlo.after (hostOps15 (F := Ideal)) X (Proc.devRef .tc main_c_32) = constantI S_ 32 0#32 := by
  refine ⟨?_, ?_⟩
  · after_results
    rw [hy]
    exact Vn.mean_up y _ Vn.ofBits_512n (by norm_num) _ (by decide) _ _
  · after_results

theorem stretch15_1 (Z : Valuation τ sig (Elt Ideal)) (y : Mat 512 256) (hy : Z (Proc.devRef .tc main_v190) = up y)
    (hc : Z (Proc.devRef .tc main_c_32) = constantI S_ 32 0#32) :
    StableHlo.after (hostOps15_1 (F := Ideal)) Z (Proc.devRef .tc main_v194) = up (var y) := by
  after_results_simp
  simp only [TRef.ofBuf, TRef.toBuf, cast_eq]
  rw [hy, hc]
  exact Vn.var_up y _ Vn.ofBits_512n (by norm_num) _ (fun _ => rfl) _ _ (by decide) _ _ _ _ _

theorem stretch15_2 (A : Args) (Z : Valuation τ sig (Elt Ideal)) (y : Mat 512 256)
    (hv : Z (Proc.devRef .tc main_v194) = up (var y)) (hm : Z (Proc.devRef .tc main_v193) = up (mean y))
    (hg : Z (Proc.devRef .tc main_arg15) = up A.gv1) (hbt : Z (Proc.devRef .tc main_arg16) = up A.btv1) :
    StableHlo.after (hostOps15_2 (F := Ideal)) Z (Proc.devRef .tc main_v205) = up (scaleOf y (row2 1 A.gv1))
    ∧ StableHlo.after (hostOps15_2 (F := Ideal)) Z (Proc.devRef .tc main_v206) = up (shiftOf y (row2 1 A.gv1) (row2 1 A.btv1)) := by
  refine ⟨?_, ?_⟩
  · after_results
    rw [hv, hg]
    dsimp only
    exact Vn.scale_row 1 (by norm_num) A.gv1 (var y) (var_add_eps_pos y) _ _ _ _
  · after_results
    rw [hv, hm, hg, hbt]
    dsimp only
    exact Vn.shift_row 1 (by norm_num) A.gv1 A.btv1 (mean y) (var y) (var_add_eps_pos y) _ _ _ _

theorem khost15 (A : Args) (X : Valuation τ sig (Elt Ideal)) (y : Mat 512 256)
    (hy : X (Proc.devRef .tc main_v190) = up y) (hg : X (Proc.devRef .tc main_arg15) = up A.gv1)
    (hbt : X (Proc.devRef .tc main_arg16) = up A.btv1) :
    StableHlo.after (hostOps15_2 (F := Ideal)) (StableHlo.after (hostOps15_1 (F := Ideal)) (StableHlo.after (hostOps15 (F := Ideal)) X))
        (Proc.devRef .tc main_v190) = up y
    ∧ StableHlo.after (hostOps15_2 (F := Ideal)) (StableHlo.after (hostOps15_1 (F := Ideal)) (StableHlo.after (hostOps15 (F := Ideal)) X))
        (Proc.devRef .tc main_v205) = up (scaleOf y (row2 1 A.gv1))
    ∧ StableHlo.after (hostOps15_2 (F := Ideal)) (StableHlo.after (hostOps15_1 (F := Ideal)) (StableHlo.after (hostOps15 (F := Ideal)) X))
        (Proc.devRef .tc main_v206) = up (shiftOf y (row2 1 A.gv1) (row2 1 A.btv1)) := by
  obtain ⟨am, ac⟩ := stretch15_0 X y hy
  have ay : StableHlo.after (hostOps15 (F := Ideal)) X (Proc.devRef .tc main_v190) = up y := by
    rw [after_keep (F := Ideal) hostOps15_writes X main_v190 (by decide), hy]
  have bv := stretch15_1 _ y ay ac
  have bm : StableHlo.after (hostOps15_1 (F := Ideal)) (StableHlo.after (hostOps15 (F := Ideal)) X) (Proc.devRef .tc main_v193) = up (mean y) := by
    rw [after_keep (F := Ideal) hostOps15_1_writes _ main_v193 (by decide), am]
  have bg : StableHlo.after (hostOps15_1 (F := Ideal)) (StableHlo.after (hostOps15 (F := Ideal)) X) (Proc.devRef .tc main_arg15) = up A.gv1 := by
    rw [after_keep (F := Ideal) hostOps15_1_writes _ main_arg15 (by decide), after_keep (F := Ideal) hostOps15_writes _ main_arg15 (by decide), hg]
  have bbt : StableHlo.after (hostOps15_1 (F := Ideal)) (StableHlo.after (hostOps15 (F := Ideal)) X) (Proc.devRef .tc main_arg16) = up A.btv1 := by
    rw [after_keep (F := Ideal) hostOps15_1_writes _ main_arg16 (by decide), after_keep (F := Ideal) hostOps15_writes _ main_arg16 (by decide), hbt]
  obtain ⟨cs, ch⟩ := stretch15_2 A _ y bv bm bg bbt
  exact ⟨by rw [after_keep (F := Ideal) hostOps15_2_writes _ main_v190 (by decide), after_keep (F := Ideal) hostOps15_1_writes _ main_v190 (by decide), after_keep (F := Ideal) hostOps15_writes X main_v190 (by decide), hy], cs, ch⟩

theorem khost16 (A : Args) (X : Valuation τ sig (Elt Ideal)) (t : Mat 512 256)
    (ht : X (Proc.devRef .tc main_v207) = up t) (hW : X (Proc.devRef .tc main_arg17) = up A.Wv2)
    (hbias : X (Proc.devRef .tc main_arg18) = up A.bv2) :
    StableHlo.after (hostOps16 (F := Ideal)) X (Proc.devRef .tc main_v207) = up t
    ∧ StableHlo.after (hostOps16 (F := Ideal)) X (Proc.devRef .tc main_v209) = up (row3 1 A.Wv2)
    ∧ StableHlo.after (hostOps16 (F := Ideal)) X (Proc.devRef .tc main_v212) = up (asRow (row2 1 A.bv2)) := by
  refine ⟨?_, ?_, ?_⟩
  · rw [after_keep (F := Ideal) hostOps16_writes X main_v207 (by decide), ht]
  · after_results
    rw [hW]
    dsimp only
    exact Vn.slice_row3 1 (by norm_num) A.Wv2 _ _
  · after_results
    rw [hbias]
    dsimp only
    exact Vn.bias_row 1 (by norm_num) A.bv2 _ _ _

theorem stretch17_0 (X : Valuation τ sig (Elt Ideal)) (y : Mat 512 128) (hy : X (Proc.devRef .tc main_v213) = up y) :
    StableHlo.after (hostOps17 (F := Ideal)) X (Proc.devRef .tc main_v216) = up (mean y)
    ∧ StableHlo.after (hostOps17 (F := Ideal)) X (Proc.devRef .tc main_c_36) = constantI S_ 32 0#32 := by
  refine ⟨?_, ?_⟩
  · after_results
    rw [hy]
    exact Vn.mean_up y _ Vn.ofBits_512n (by norm_num) _ (by decide) _ _
  · after_results

theorem stretch17_1 (Z : Valuation τ sig (Elt Ideal)) (y : Mat 512 128) (hy : Z (Proc.devRef .tc main_v213) = up y)
    (hc : Z (Proc.devRef .tc main_c_36) = constantI S_ 32 0#32) :
    StableHlo.after (hostOps17_1 (F := Ideal)) Z (Proc.devRef .tc main_v217) = up (var y) := by
  after_results_simp
  simp only [TRef.ofBuf, TRef.toBuf, cast_eq]
  rw [hy, hc]
  exact Vn.var_up y _ Vn.ofBits_512n (by norm_num) _ (fun _ => rfl) _ _ (by decide) _ _ _ _ _

theorem stretch17_2 (A : Args) (Z : Valuation τ sig (Elt Ideal)) (y : Mat 512 128)
    (hv : Z (Proc.devRef .tc main_v217) = up (var y)) (hm : Z (Proc.devRef .tc main_v216) = up (mean y))
    (hg : Z (Proc.devRef .tc main_arg19) = up A.gv2) (hbt : Z (Proc.devRef .tc main_arg20) = up A.btv2) :
    StableHlo.after (hostOps17_2 (F := Ideal)) Z (Proc.devRef .tc main_v228) = up (scaleOf y (row2 1 A.gv2))
    ∧ StableHlo.after (hostOps17_2 (F := Ideal)) Z (Proc.devRef .tc main_v229) = up (shiftOf y (row2 1 A.gv2) (row2 1 A.btv2)) := by
  refine ⟨?_, ?_⟩
  · after_results
    rw [hv, hg]
    dsimp only
    exact Vn.scale_row 1 (by norm_num) A.gv2 (var y) (var_add_eps_pos y) _ _ _ _
  · after_results
    rw [hv, hm, hg, hbt]
    dsimp only
    exact Vn.shift_row 1 (by norm_num) A.gv2 A.btv2 (mean y) (var y) (var_add_eps_pos y) _ _ _ _

theorem khost17 (A : Args) (X : Valuation τ sig (Elt Ideal)) (y : Mat 512 128)
    (hy : X (Proc.devRef .tc main_v213) = up y) (hg : X (Proc.devRef .tc main_arg19) = up A.gv2)
    (hbt : X (Proc.devRef .tc main_arg20) = up A.btv2) :
    StableHlo.after (hostOps17_2 (F := Ideal)) (StableHlo.after (hostOps17_1 (F := Ideal)) (StableHlo.after (hostOps17 (F := Ideal)) X))
        (Proc.devRef .tc main_v213) = up y
    ∧ StableHlo.after (hostOps17_2 (F := Ideal)) (StableHlo.after (hostOps17_1 (F := Ideal)) (StableHlo.after (hostOps17 (F := Ideal)) X))
        (Proc.devRef .tc main_v228) = up (scaleOf y (row2 1 A.gv2))
    ∧ StableHlo.after (hostOps17_2 (F := Ideal)) (StableHlo.after (hostOps17_1 (F := Ideal)) (StableHlo.after (hostOps17 (F := Ideal)) X))
        (Proc.devRef .tc main_v229) = up (shiftOf y (row2 1 A.gv2) (row2 1 A.btv2)) := by
  obtain ⟨am, ac⟩ := stretch17_0 X y hy
  have ay : StableHlo.after (hostOps17 (F := Ideal)) X (Proc.devRef .tc main_v213) = up y := by
    rw [after_keep (F := Ideal) hostOps17_writes X main_v213 (by decide), hy]
  have bv := stretch17_1 _ y ay ac
  have bm : StableHlo.after (hostOps17_1 (F := Ideal)) (StableHlo.after (hostOps17 (F := Ideal)) X) (Proc.devRef .tc main_v216) = up (mean y) := by
    rw [after_keep (F := Ideal) hostOps17_1_writes _ main_v216 (by decide), am]
  have bg : StableHlo.after (hostOps17_1 (F := Ideal)) (StableHlo.after (hostOps17 (F := Ideal)) X) (Proc.devRef .tc main_arg19) = up A.gv2 := by
    rw [after_keep (F := Ideal) hostOps17_1_writes _ main_arg19 (by decide), after_keep (F := Ideal) hostOps17_writes _ main_arg19 (by decide), hg]
  have bbt : StableHlo.after (hostOps17_1 (F := Ideal)) (StableHlo.after (hostOps17 (F := Ideal)) X) (Proc.devRef .tc main_arg20) = up A.btv2 := by
    rw [after_keep (F := Ideal) hostOps17_1_writes _ main_arg20 (by decide), after_keep (F := Ideal) hostOps17_writes _ main_arg20 (by decide), hbt]
  obtain ⟨cs, ch⟩ := stretch17_2 A _ y bv bm bg bbt
  exact ⟨by rw [after_keep (F := Ideal) hostOps17_2_writes _ main_v213 (by decide), after_keep (F := Ideal) hostOps17_1_writes _ main_v213 (by decide), after_keep (F := Ideal) hostOps17_writes X main_v213 (by decide), hy], cs, ch⟩

end Cert.KernelIdeal.Hand

end
-- ==== Proof.LibDot.lean ====
import proofs.«403290_j73710228734482_1_alg».proof.Proof.Spec
import proofs.«403290_j73710228734482_1_alg».proof.Proof.LibUp
import Idealize.ShloMosaic.PureOps.Ideal.Laws
import Idealize.ShloMosaic.Lib.ValueIdx
import Idealize.ShloMosaic.Lib.KernelVsHost
import Idealize.ShloMosaic.Lib.StackMember

noncomputable section

namespace Cert.Spec

open Idealize.ShloMosaic Idealize.ShloMosaic.ValueIdx

theorem dotDims_eq_plain {n k d : Nat} (rec : DotDims ⟨2, ![n, k]⟩ ⟨2, ![k, d]⟩ ⟨2, ![n, d]⟩)
    (h1 : rec.lhsContracting = [1]) (h2 : rec.rhsContracting = [0]) (h3 : rec.lhsNonContracting = [0])
    (h4 : rec.rhsNonContracting = [1]) (h5 : rec.lhsBatch = []) (h6 : rec.rhsBatch = []) :
    rec = DotDims.plain n k d := by
  cases rec
  simp only at h1 h2 h3 h4 h5 h6
  subst h1 h2 h3 h4 h5 h6
  rfl

def mmul {n k d : Nat} (x : Mat n k) (w : Mat k d) : Mat n d :=
  fun i => ∑ t : Fin k, x (ix2 (i 0) t) * w (ix2 t (i 1))

theorem mmul_apply {n k d : Nat} (x : Mat n k) (w : Mat k d) (i : (⟨2, ![n, d]⟩ : Shape).Idx) :
    mmul x w i = ∑ t : Fin k, x (ix2 (i 0) t) * w (ix2 t (i 1)) := rfl

theorem lin_eq_mmul {n k d : Nat} (x : Mat n k) (W : Mat k d) (b : Vc d) :
    lin x W b = fun i => mmul x W i + b (ix1 (i 1)) := rfl
theorem linR_eq_mmul {n k d : Nat} (x : Mat n k) (W : Mat k d) (b : Mat 1 d) :
    linR x W b = fun i => mmul x W i + b (ix2 0 (i 1)) := rfl

theorem up_dotGeneral {n k d : Nat} {φ₁ φ₂ : FTy} {prec : Option ContractPrecision}
    (rec : DotDims ⟨2, ![n, k]⟩ ⟨2, ![k, d]⟩ ⟨2, ![n, d]⟩)
    (h1 : rec.lhsContracting = [1]) (h2 : rec.rhsContracting = [0]) (h3 : rec.lhsNonContracting = [0])
    (h4 : rec.rhsNonContracting = [1]) (h5 : rec.lhsBatch = []) (h6 : rec.rhsBatch = [])
    (x : Mat n k) (w : Mat k d) :
    Host.dotGeneral (F := Ideal) (φ₁ := φ₁) (φ₂ := φ₂) rec prec (up x) (up w)
      = up (fun i => ∑ t : Fin k, x (ix2 (i 0) t) * w (ix2 t (i 1))) := by
  have e := dotDims_eq_plain rec h1 h2 h3 h4 h5 h6
  subst e
  funext i
  obtain ⟨a, b, rfl⟩ : ∃ (a : Fin n) (b : Fin d), i = ix2 a b := ⟨i 0, i 1, eq_ix2 i⟩
  rw [StackMember.dotGeneral_plain_apply]
  show ∑ c : Fin k, ((x (ix2 a c) : ℝ) : EReal) * ((w (ix2 c b) : ℝ) : EReal)
    = ((∑ t : Fin k, x (ix2 a t) * w (ix2 t b) : ℝ) : EReal)
  rw [← coe_sum]
  exact Finset.sum_congr rfl fun c _ => (EReal.coe_mul _ _).symm

theorem up_matmul_zero {n k d : Nat} {φ₁ φ₂ : FTy} {prec : Option ContractPrecision}
    (rec : DotDims ⟨2, ![n, k]⟩ ⟨2, ![k, d]⟩ ⟨2, ![n, d]⟩)
    (h1 : rec.lhsContracting = [1]) (h2 : rec.rhsContracting = [0]) (h3 : rec.lhsNonContracting = [0])
    (h4 : rec.rhsNonContracting = [1]) (h5 : rec.lhsBatch = []) (h6 : rec.rhsBatch = [])
    (x : Mat n k) (w : Mat k d) :
    matmul (F := Ideal) (φ₁ := φ₁) (φ₂ := φ₂) rec prec (up x) (up w)
        (constant (F := Ideal) ⟨2, ![n, d]⟩ .f32 0x00000000#32)
      = up (fun i => ∑ t : Fin k, x (ix2 (i 0) t) * w (ix2 t (i 1))) := by
  rw [matmul_zero_eq_dotGeneral]
  exact up_dotGeneral (φ₁ := φ₁) (φ₂ := φ₂) rec h1 h2 h3 h4 h5 h6 x w

theorem up_truncf {S : Shape} {φ ψ : FTy} (a : S.Idx → ℝ) (h : ψ.bits < φ.bits) :
    truncf (F := Ideal) (φ := φ) ψ (up a) h = up a := rfl
theorem up_extf {S : Shape} {φ ψ : FTy} (a : S.Idx → ℝ) (h : φ.bits < ψ.bits) :
    extf (F := Ideal) (φ := φ) ψ (up a) h = up a := rfl

end Cert.Spec

end
-- ==== Proof.KRegionMM_Lib.lean ====
import proofs.«403290_j73710228734482_1_alg».proof.Proof.Spec
import proofs.«403290_j73710228734482_1_alg».proof.Proof.LibUp
import proofs.«403290_j73710228734482_1_alg».proof.Proof.LibDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Cert.Spec

theorem mm_zero_off : (![0, 0] : Fin 2 → Nat) = fun _ => 0 := funext fun a => by fin_cases a <;> rfl

def rowsAt {n d : Nat} (r t : Nat) (h : t * r + r ≤ n) (a : Mat n d) : Mat r d :=
  fun y => a (ix2 ⟨t * r + (y 0).val, by have := idx2_lt0 y; omega⟩ (y 1))

theorem linR_rowsAt {n k d : Nat} (r t : Nat) (h : t * r + r ≤ n) (x : Mat n k) (W : Mat k d) (b : Mat 1 d) :
    linR (rowsAt r t h x) W b = rowsAt r t h (linR x W b) := rfl

theorem lin2R_rowsAt {n k d : Nat} (r t : Nat) (h : t * r + r ≤ n) (a b : Mat n k) (W : Mat k d) (bias : Mat 1 d) :
    lin2R (rowsAt r t h a) (rowsAt r t h b) W bias = rowsAt r t h (lin2R a b W bias) := rfl

theorem edgeR_rowsAt {E : Nat} (r t : Nat) (h : t * r + r ≤ E) (hs : Mat E 128) (ea : Mat E 8) (We : Mat 8 128)
    (be : Mat 1 128) : edgeR (rowsAt r t h hs) (rowsAt r t h ea) We be = rowsAt r t h (edgeR hs ea We be) := rfl

theorem up_broadcastRow {a b : Nat} (v : Mat 1 b) (h : (⟨2, ![1, b]⟩ : Shape).Broadcasts ⟨2, ![a, b]⟩) :
    broadcastTo ⟨2, ![a, b]⟩ (up v) h = up (fun i : (⟨2, ![a, b]⟩ : Shape).Idx => v (ix2 0 (i 1))) := by
  funext i
  obtain ⟨p, q, rfl⟩ : ∃ (p : Fin a) (q : Fin b), i = ix2 p q := ⟨i 0, i 1, eq_ix2 i⟩
  rw [broadcastTo_1b_ab_apply]
  rfl

theorem mm_zero_splat {S : Shape} (i : S.Idx) :
    (broadcast S (Scalar.ofBits (F := Ideal) .f32 0x00000000#32) : FVec Ideal S .f32) i = ((0 : ℝ) : EReal) := by
  rw [broadcast_apply]; exact ofBits_zero

end Cert.KernelIdeal.Hand

end
-- ==== Proof.KRegionMM_E0.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay0_up (hs : Mat 8000 128) (ea : Mat 8000 8) (We : Mat 8 128) (be : Mat 1 128) :
    k0_pay1 (F := Ideal) (up ea) (up We) (up be) (up hs) = up (edgeR hs ea We be) := by
  unfold k0_pay1
  simp only [shapeCast_self]
  rw [up_truncf, up_truncf, up_matmul_zero dot_S8000x8_S8x128_S8000x128_1_0_0_1_n_n rfl rfl rfl rfl rfl rfl,
    up_broadcastRow, up_addf, up_addf, up_max_zero _ _ mm_zero_splat]
  rfl

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem rows0 (t : Fin cfg0.N) : t.val * 8000 + 8000 ≤ 800000 := by
  have h := t.isLt
  have hN : cfg0.N = 100 := N_0
  omega

theorem read0_0 (c : Dev nD) (t : Fin cfg0.N) (a : Mat 800000 128) (h : V c (Pipeline.arrRef spec0 0) = up a) :
    iblk0 V c 0 t = up (rowsAt 8000 t.val (rows0 t) a) := by
  unfold iblk0
  rw [h]
  funext y
  obtain ⟨e0, e1, -⟩ := idx0 t
  refine congrArg (fun j => ((a j : ℝ) : EReal)) (funext fun ax => Fin.ext ?_)
  match ax with
  | ⟨0, _⟩ => show win0_0.index t (0 : Fin 2) * 8000 + 1 * (y 0).val = t.val * 8000 + (y 0).val; omega
  | ⟨1, _⟩ => show win0_0.index t (1 : Fin 2) * 128 + 1 * (y 1).val = (y 1).val; omega

theorem read0_1 (c : Dev nD) (t : Fin cfg0.N) (a : Mat 800000 8) (h : V c (Pipeline.arrRef spec0 1) = up a) :
    iblk0 V c 1 t = up (rowsAt 8000 t.val (rows0 t) a) := by
  unfold iblk0
  rw [h]
  funext y
  obtain ⟨-, -, e0, e1, -⟩ := idx0 t
  refine congrArg (fun j => ((a j : ℝ) : EReal)) (funext fun ax => Fin.ext ?_)
  match ax with
  | ⟨0, _⟩ => show win0_1.index t (0 : Fin 2) * 8000 + 1 * (y 0).val = t.val * 8000 + (y 0).val; omega
  | ⟨1, _⟩ => show win0_1.index t (1 : Fin 2) * 8 + 1 * (y 1).val = (y 1).val; omega

theorem read0_2 (c : Dev nD) (t : Fin cfg0.N) (a : Mat 8 128) (h : V c (Pipeline.arrRef spec0 2) = up a) :
    iblk0 V c 2 t = up a := by
  unfold iblk0
  rw [h]
  funext y
  obtain ⟨-, -, -, -, e0, e1, -⟩ := idx0 t
  refine congrArg (fun j => ((a j : ℝ) : EReal)) (funext fun ax => Fin.ext ?_)
  match ax with
  | ⟨0, _⟩ => show win0_2.index t (0 : Fin 2) * 8 + 1 * (y 0).val = (y 0).val; omega
  | ⟨1, _⟩ => show win0_2.index t (1 : Fin 2) * 128 + 1 * (y 1).val = (y 1).val; omega

theorem read0_3 (c : Dev nD) (t : Fin cfg0.N) (a : Mat 1 128) (h : V c (Pipeline.arrRef spec0 3) = up a) :
    iblk0 V c 3 t = up a := by
  unfold iblk0
  rw [h]
  funext y
  obtain ⟨-, -, -, -, -, -, e0, e1, -⟩ := idx0 t
  refine congrArg (fun j => ((a j : ℝ) : EReal)) (funext fun ax => Fin.ext ?_)
  match ax with
  | ⟨0, _⟩ => show win0_3.index t (0 : Fin 2) * 1 + 1 * (y 0).val = (y 0).val; omega
  | ⟨1, _⟩ => show win0_3.index t (1 : Fin 2) * 128 + 1 * (y 1).val = (y 1).val; omega

theorem read0_4 (t : Fin cfg0.N) (g : Mat 800000 128) :
    ((cfg0.win 4).blk t).view.read (Elt Ideal) (up g) = up (rowsAt 8000 t.val (rows0 t) g) := by
  funext y
  obtain ⟨-, -, -, -, -, -, -, -, e0, e1⟩ := idx0 t
  refine congrArg (fun j => ((g j : ℝ) : EReal)) (funext fun ax => Fin.ext ?_)
  match ax with
  | ⟨0, _⟩ => show win0_4.index t (0 : Fin 2) * 8000 + 1 * (y 0).val = t.val * 8000 + (y 0).val; omega
  | ⟨1, _⟩ => show win0_4.index t (1 : Fin 2) * 128 + 1 * (y 1).val = (y 1).val; omega

theorem flushed0_eq (c : Dev nD) (a0 : Mat 800000 128) (a1 : Mat 800000 8) (a2 : Mat 8 128) (a3 : Mat 1 128)
    (h0 : V c (Pipeline.arrRef spec0 0) = up a0) (h1 : V c (Pipeline.arrRef spec0 1) = up a1)
    (h2 : V c (Pipeline.arrRef spec0 2) = up a2) (h3 : V c (Pipeline.arrRef spec0 3) = up a3) (t : Fin cfg0.N) :
    (dat0 V c).flushed 4 t = ((cfg0.win 4).blk t).view.read (Elt Ideal) (up (edgeR a0 a1 a2 a3)) := by
  show (cfg0.win 4).cut (grid0.coords t) ((dat0 V c).after 4 t) = _
  rw [after0_4]
  unfold out0_4
  rw [View.canon_unit_zero mm_zero_off]
  simp only [View.ld_unit_zero (S := S8000x8) mm_zero_off, View.ld_unit_zero (S := S8x128) mm_zero_off,
    View.ld_unit_zero (S := S1x128) mm_zero_off, View.ld_unit_zero (S := S8000x128) mm_zero_off]
  rw [read0_0 V c t a0 h0, read0_1 V c t a1 h1, read0_2 V c t a2 h2, read0_3 V c t a3 h3, pay0_up, edgeR_rowsAt,
    read0_4]
  rfl

theorem mem_blk0 (t : Fin cfg0.N) (i : S800000x128.Idx) :
    i ∈ ((cfg0.win 4).blk t).view.set ↔ ∀ a : Fin 2, win0_4.index t a * S8000x128.size a ≤ (i a).val
      ∧ (i a).val < win0_4.index t a * S8000x128.size a + S8000x128.size a := by
  show i ∈ ((View.whole main_v19).slice (win0_4.rect t)).set ↔ _
  rw [View.set_slice_whole, Rect.mem_set_unit]
  exact Iff.rfl

theorem cover0 (i : S800000x128.Idx) :
    ∃ t : Fin cfg0.N, (cfg0.win 4).flush t = true ∧ i ∈ ((cfg0.win 4).blk t).view.set := by
  have hN : cfg0.N = 100 := N_0
  have hi0 : (i 0).val < 800000 := (i 0).isLt
  have hi1 : (i 1).val < 128 := (i 1).isLt
  refine ⟨⟨(i 0).val / 8000, by omega⟩, flush0_4 _, ?_⟩
  rw [mem_blk0]
  obtain ⟨-, -, -, -, -, -, -, -, e0, e1⟩ := idx0 ⟨(i 0).val / 8000, by omega⟩
  intro a
  match a with
  | ⟨0, _⟩ =>
    show win0_4.index ⟨(i 0).val / 8000, _⟩ (0 : Fin 2) * 8000 ≤ (i 0).val
      ∧ (i 0).val < win0_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win0_4.index ⟨(i 0).val / 8000, _⟩ (1 : Fin 2) * 128 ≤ (i 1).val
      ∧ (i 1).val < win0_4.index ⟨(i 0).val / 8000, _⟩ (1 : Fin 2) * 128 + 128
    rw [e1]; omega

theorem kregion0 (c : Dev nD) (a0 : Mat 800000 128) (a1 : Mat 800000 8) (a2 : Mat 8 128) (a3 : Mat 1 128)
    (h0 : V c (Pipeline.arrRef spec0 0) = up a0) (h1 : V c (Pipeline.arrRef spec0 1) = up a1)
    (h2 : V c (Pipeline.arrRef spec0 2) = up a2) (h3 : V c (Pipeline.arrRef spec0 3) = up a3) :
    (dat0 (F := Ideal) V c).arrAt 4 cfg0.N = up (edgeR a0 a1 a2 a3) :=
  (dat0 V c).arrAt_eq_of_cover 4 (up (edgeR a0 a1 a2 a3))
    (fun t _ => flushed0_eq V c a0 a1 a2 a3 h0 h1 h2 h3 t) cover0

end Cert.KernelIdeal.Hand

end
-- ==== Proof.KRegionMM_E9.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay9_up (hs : Mat 8000 128) (ea : Mat 8000 8) (We : Mat 8 128) (be : Mat 1 128) :
    k9_pay1 (F := Ideal) (up ea) (up We) (up be) (up hs) = up (edgeR hs ea We be) := by
  unfold k9_pay1
  simp only [shapeCast_self]
  rw [up_truncf, up_truncf, up_matmul_zero dot_S8000x8_S8x128_S8000x128_1_0_0_1_n_n rfl rfl rfl rfl rfl rfl,
    up_broadcastRow, up_addf, up_addf, up_max_zero _ _ mm_zero_splat]
  rfl

theorem idx9 : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

theorem rows9 (t : Fin cfg9.N) : t.val * 8000 + 8000 ≤ 800000 := by
  have h := t.isLt
  have hN : cfg9.N = 100 := N_9
  omega

theorem read9_0 (c : Dev nD) (t : Fin cfg9.N) (a : Mat 800000 128) (h : V c (Pipeline.arrRef spec9 0) = up a) :
    iblk9 V c 0 t = up (rowsAt 8000 t.val (rows9 t) a) := by
  unfold iblk9
  rw [h]
  funext y
  obtain ⟨e0, e1, -⟩ := idx9 t
  refine congrArg (fun j => ((a j : ℝ) : EReal)) (funext fun ax => Fin.ext ?_)
  match ax with
  | ⟨0, _⟩ => show win9_0.index t (0 : Fin 2) * 8000 + 1 * (y 0).val = t.val * 8000 + (y 0).val; omega
  | ⟨1, _⟩ => show win9_0.index t (1 : Fin 2) * 128 + 1 * (y 1).val = (y 1).val; omega

theorem read9_1 (c : Dev nD) (t : Fin cfg9.N) (a : Mat 800000 8) (h : V c (Pipeline.arrRef spec9 1) = up a) :
    iblk9 V c 1 t = up (rowsAt 8000 t.val (rows9 t) a) := by
  unfold iblk9
  rw [h]
  funext y
  obtain ⟨-, -, e0, e1, -⟩ := idx9 t
  refine congrArg (fun j => ((a j : ℝ) : EReal)) (funext fun ax => Fin.ext ?_)
  match ax with
  | ⟨0, _⟩ => show win9_1.index t (0 : Fin 2) * 8000 + 1 * (y 0).val = t.val * 8000 + (y 0).val; omega
  | ⟨1, _⟩ => show win9_1.index t (1 : Fin 2) * 8 + 1 * (y 1).val = (y 1).val; omega

theorem read9_2 (c : Dev nD) (t : Fin cfg9.N) (a : Mat 8 128) (h : V c (Pipeline.arrRef spec9 2) = up a) :
    iblk9 V c 2 t = up a := by
  unfold iblk9
  rw [h]
  funext y
  obtain ⟨-, -, -, -, e0, e1, -⟩ := idx9 t
  refine congrArg (fun j => ((a j : ℝ) : EReal)) (funext fun ax => Fin.ext ?_)
  match ax with
  | ⟨0, _⟩ => show win9_2.index t (0 : Fin 2) * 8 + 1 * (y 0).val = (y 0).val; omega
  | ⟨1, _⟩ => show win9_2.index t (1 : Fin 2) * 128 + 1 * (y 1).val = (y 1).val; omega

theorem read9_3 (c : Dev nD) (t : Fin cfg9.N) (a : Mat 1 128) (h : V c (Pipeline.arrRef spec9 3) = up a) :
    iblk9 V c 3 t = up a := by
  unfold iblk9
  rw [h]
  funext y
  obtain ⟨-, -, -, -, -, -, e0, e1, -⟩ := idx9 t
  refine congrArg (fun j => ((a j : ℝ) : EReal)) (funext fun ax => Fin.ext ?_)
  match ax with
  | ⟨0, _⟩ => show win9_3.index t (0 : Fin 2) * 1 + 1 * (y 0).val = (y 0).val; omega
  | ⟨1, _⟩ => show win9_3.index t (1 : Fin 2) * 128 + 1 * (y 1).val = (y 1).val; omega

theorem read9_4 (t : Fin cfg9.N) (g : Mat 800000 128) :
    ((cfg9.win 4).blk t).view.read (Elt Ideal) (up g) = up (rowsAt 8000 t.val (rows9 t) g) := by
  funext y
  obtain ⟨-, -, -, -, -, -, -, -, e0, e1⟩ := idx9 t
  refine congrArg (fun j => ((g j : ℝ) : EReal)) (funext fun ax => Fin.ext ?_)
  match ax with
  | ⟨0, _⟩ => show win9_4.index t (0 : Fin 2) * 8000 + 1 * (y 0).val = t.val * 8000 + (y 0).val; omega
  | ⟨1, _⟩ => show win9_4.index t (1 : Fin 2) * 128 + 1 * (y 1).val = (y 1).val; omega

theorem flushed9_eq (c : Dev nD) (a0 : Mat 800000 128) (a1 : Mat 800000 8) (a2 : Mat 8 128) (a3 : Mat 1 128)
    (h0 : V c (Pipeline.arrRef spec9 0) = up a0) (h1 : V c (Pipeline.arrRef spec9 1) = up a1)
    (h2 : V c (Pipeline.arrRef spec9 2) = up a2) (h3 : V c (Pipeline.arrRef spec9 3) = up a3) (t : Fin cfg9.N) :
    (dat9 V c).flushed 4 t = ((cfg9.win 4).blk t).view.read (Elt Ideal) (up (edgeR a0 a1 a2 a3)) := by
  show (cfg9.win 4).cut (grid9.coords t) ((dat9 V c).after 4 t) = _
  rw [after9_4]
  unfold out9_4
  rw [View.canon_unit_zero mm_zero_off]
  simp only [View.ld_unit_zero (S := S8000x8) mm_zero_off, View.ld_unit_zero (S := S8x128) mm_zero_off,
    View.ld_unit_zero (S := S1x128) mm_zero_off, View.ld_unit_zero (S := S8000x128) mm_zero_off]
  rw [read9_0 V c t a0 h0, read9_1 V c t a1 h1, read9_2 V c t a2 h2, read9_3 V c t a3 h3, pay9_up, edgeR_rowsAt,
    read9_4]
  rfl

theorem mem_blk9 (t : Fin cfg9.N) (i : S800000x128.Idx) :
    i ∈ ((cfg9.win 4).blk t).view.set ↔ ∀ a : Fin 2, win9_4.index t a * S8000x128.size a ≤ (i a).val
      ∧ (i a).val < win9_4.index t a * S8000x128.size a + S8000x128.size a := by
  show i ∈ ((View.whole main_v132).slice (win9_4.rect t)).set ↔ _
  rw [View.set_slice_whole, Rect.mem_set_unit]
  exact Iff.rfl

theorem cover9 (i : S800000x128.Idx) :
    ∃ t : Fin cfg9.N, (cfg9.win 4).flush t = true ∧ i ∈ ((cfg9.win 4).blk t).view.set := by
  have hN : cfg9.N = 100 := N_9
  have hi0 : (i 0).val < 800000 := (i 0).isLt
  have hi1 : (i 1).val < 128 := (i 1).isLt
  refine ⟨⟨(i 0).val / 8000, by omega⟩, flush9_4 _, ?_⟩
  rw [mem_blk9]
  obtain ⟨-, -, -, -, -, -, -, -, e0, e1⟩ := idx9 ⟨(i 0).val / 8000, by omega⟩
  intro a
  match a with
  | ⟨0, _⟩ =>
    show win9_4.index ⟨(i 0).val / 8000, _⟩ (0 : Fin 2) * 8000 ≤ (i 0).val
      ∧ (i 0).val < win9_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win9_4.index ⟨(i 0).val / 8000, _⟩ (1 : Fin 2) * 128 ≤ (i 1).val
      ∧ (i 1).val < win9_4.index ⟨(i 0).val / 8000, _⟩ (1 : Fin 2) * 128 + 128
    rw [e1]; omega

theorem kregion9 (c : Dev nD) (a0 : Mat 800000 128) (a1 : Mat 800000 8) (a2 : Mat 8 128) (a3 : Mat 1 128)
    (h0 : V c (Pipeline.arrRef spec9 0) = up a0) (h1 : V c (Pipeline.arrRef spec9 1) = up a1)
    (h2 : V c (Pipeline.arrRef spec9 2) = up a2) (h3 : V c (Pipeline.arrRef spec9 3) = up a3) :
    (dat9 (F := Ideal) V c).arrAt 4 cfg9.N = up (edgeR a0 a1 a2 a3) :=
  (dat9 V c).arrAt_eq_of_cover 4 (up (edgeR a0 a1 a2 a3))
    (fun t _ => flushed9_eq V c a0 a1 a2 a3 h0 h1 h2 h3 t) cover9

end Cert.KernelIdeal.Hand

end
-- ==== Proof.KRegionMM_E18.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay18_up (hs : Mat 8000 128) (ea : Mat 8000 8) (We : Mat 8 128) (be : Mat 1 128) :
    k18_pay1 (F := Ideal) (up ea) (up We) (up be) (up hs) = up (edgeR hs ea We be) := by
  unfold k18_pay1
  simp only [shapeCast_self]
  rw [up_truncf, up_truncf, up_matmul_zero dot_S8000x8_S8x128_S8000x128_1_0_0_1_n_n rfl rfl rfl rfl rfl rfl,
    up_broadcastRow, up_addf, up_addf, up_max_zero _ _ mm_zero_splat]
  rfl

theorem idx18 : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = 0 ∧ win18_2.index t (1 : Fin 2) = 0
    ∧ win18_3.index t (0 : Fin 2) = 0 ∧ win18_3.index t (1 : Fin 2) = 0
    ∧ win18_4.index t (0 : Fin 2) = t.val ∧ win18_4.index t (1 : Fin 2) = 0 :=
  (by decide +kernel : ∀ t : Fin grid18.N, _)

theorem rows18 (t : Fin cfg18.N) : t.val * 8000 + 8000 ≤ 800000 := by
  have h := t.isLt
  have hN : cfg18.N = 100 := N_18
  omega

theorem read18_0 (c : Dev nD) (t : Fin cfg18.N) (a : Mat 800000 128) (h : V c (Pipeline.arrRef spec18 0) = up a) :
    iblk18 V c 0 t = up (rowsAt 8000 t.val (rows18 t) a) := by
  unfold iblk18
  rw [h]
  funext y
  obtain ⟨e0, e1, -⟩ := idx18 t
  refine congrArg (fun j => ((a j : ℝ) : EReal)) (funext fun ax => Fin.ext ?_)
  match ax with
  | ⟨0, _⟩ => show win18_0.index t (0 : Fin 2) * 8000 + 1 * (y 0).val = t.val * 8000 + (y 0).val; omega
  | ⟨1, _⟩ => show win18_0.index t (1 : Fin 2) * 128 + 1 * (y 1).val = (y 1).val; omega

theorem read18_1 (c : Dev nD) (t : Fin cfg18.N) (a : Mat 800000 8) (h : V c (Pipeline.arrRef spec18 1) = up a) :
    iblk18 V c 1 t = up (rowsAt 8000 t.val (rows18 t) a) := by
  unfold iblk18
  rw [h]
  funext y
  obtain ⟨-, -, e0, e1, -⟩ := idx18 t
  refine congrArg (fun j => ((a j : ℝ) : EReal)) (funext fun ax => Fin.ext ?_)
  match ax with
  | ⟨0, _⟩ => show win18_1.index t (0 : Fin 2) * 8000 + 1 * (y 0).val = t.val * 8000 + (y 0).val; omega
  | ⟨1, _⟩ => show win18_1.index t (1 : Fin 2) * 8 + 1 * (y 1).val = (y 1).val; omega

theorem read18_2 (c : Dev nD) (t : Fin cfg18.N) (a : Mat 8 128) (h : V c (Pipeline.arrRef spec18 2) = up a) :
    iblk18 V c 2 t = up a := by
  unfold iblk18
  rw [h]
  funext y
  obtain ⟨-, -, -, -, e0, e1, -⟩ := idx18 t
  refine congrArg (fun j => ((a j : ℝ) : EReal)) (funext fun ax => Fin.ext ?_)
  match ax with
  | ⟨0, _⟩ => show win18_2.index t (0 : Fin 2) * 8 + 1 * (y 0).val = (y 0).val; omega
  | ⟨1, _⟩ => show win18_2.index t (1 : Fin 2) * 128 + 1 * (y 1).val = (y 1).val; omega

theorem read18_3 (c : Dev nD) (t : Fin cfg18.N) (a : Mat 1 128) (h : V c (Pipeline.arrRef spec18 3) = up a) :
    iblk18 V c 3 t = up a := by
  unfold iblk18
  rw [h]
  funext y
  obtain ⟨-, -, -, -, -, -, e0, e1, -⟩ := idx18 t
  refine congrArg (fun j => ((a j : ℝ) : EReal)) (funext fun ax => Fin.ext ?_)
  match ax with
  | ⟨0, _⟩ => show win18_3.index t (0 : Fin 2) * 1 + 1 * (y 0).val = (y 0).val; omega
  | ⟨1, _⟩ => show win18_3.index t (1 : Fin 2) * 128 + 1 * (y 1).val = (y 1).val; omega

theorem read18_4 (t : Fin cfg18.N) (g : Mat 800000 128) :
    ((cfg18.win 4).blk t).view.read (Elt Ideal) (up g) = up (rowsAt 8000 t.val (rows18 t) g) := by
  funext y
  obtain ⟨-, -, -, -, -, -, -, -, e0, e1⟩ := idx18 t
  refine congrArg (fun j => ((g j : ℝ) : EReal)) (funext fun ax => Fin.ext ?_)
  match ax with
  | ⟨0, _⟩ => show win18_4.index t (0 : Fin 2) * 8000 + 1 * (y 0).val = t.val * 8000 + (y 0).val; omega
  | ⟨1, _⟩ => show win18_4.index t (1 : Fin 2) * 128 + 1 * (y 1).val = (y 1).val; omega

theorem flushed18_eq (c : Dev nD) (a0 : Mat 800000 128) (a1 : Mat 800000 8) (a2 : Mat 8 128) (a3 : Mat 1 128)
    (h0 : V c (Pipeline.arrRef spec18 0) = up a0) (h1 : V c (Pipeline.arrRef spec18 1) = up a1)
    (h2 : V c (Pipeline.arrRef spec18 2) = up a2) (h3 : V c (Pipeline.arrRef spec18 3) = up a3) (t : Fin cfg18.N) :
    (dat18 V c).flushed 4 t = ((cfg18.win 4).blk t).view.read (Elt Ideal) (up (edgeR a0 a1 a2 a3)) := by
  show (cfg18.win 4).cut (grid18.coords t) ((dat18 V c).after 4 t) = _
  rw [after18_4]
  unfold out18_4
  rw [View.canon_unit_zero mm_zero_off]
  simp only [View.ld_unit_zero (S := S8000x8) mm_zero_off, View.ld_unit_zero (S := S8x128) mm_zero_off,
    View.ld_unit_zero (S := S1x128) mm_zero_off, View.ld_unit_zero (S := S8000x128) mm_zero_off]
  rw [read18_0 V c t a0 h0, read18_1 V c t a1 h1, read18_2 V c t a2 h2, read18_3 V c t a3 h3, pay18_up, edgeR_rowsAt,
    read18_4]
  rfl

theorem mem_blk18 (t : Fin cfg18.N) (i : S800000x128.Idx) :
    i ∈ ((cfg18.win 4).blk t).view.set ↔ ∀ a : Fin 2, win18_4.index t a * S8000x128.size a ≤ (i a).val
      ∧ (i a).val < win18_4.index t a * S8000x128.size a + S8000x128.size a := by
  show i ∈ ((View.whole main_v245).slice (win18_4.rect t)).set ↔ _
  rw [View.set_slice_whole, Rect.mem_set_unit]
  exact Iff.rfl

theorem cover18 (i : S800000x128.Idx) :
    ∃ t : Fin cfg18.N, (cfg18.win 4).flush t = true ∧ i ∈ ((cfg18.win 4).blk t).view.set := by
  have hN : cfg18.N = 100 := N_18
  have hi0 : (i 0).val < 800000 := (i 0).isLt
  have hi1 : (i 1).val < 128 := (i 1).isLt
  refine ⟨⟨(i 0).val / 8000, by omega⟩, flush18_4 _, ?_⟩
  rw [mem_blk18]
  obtain ⟨-, -, -, -, -, -, -, -, e0, e1⟩ := idx18 ⟨(i 0).val / 8000, by omega⟩
  intro a
  match a with
  | ⟨0, _⟩ =>
    show win18_4.index ⟨(i 0).val / 8000, _⟩ (0 : Fin 2) * 8000 ≤ (i 0).val
      ∧ (i 0).val < win18_4.index ⟨(i 0).val / 8000, _⟩ (0 : Fin 2) * 8000 + 8000
    rw [e0]; show (i 0).val / 8000 * 8000 ≤ (i 0).val ∧ (i 0).val < (i 0).val / 8000 * 8000 + 8000; omega
  | ⟨1, _⟩ =>
    show win18_4.index ⟨(i 0).val / 8000, _⟩ (1 : Fin 2) * 128 ≤ (i 1).val
      ∧ (i 1).val < win18_4.index ⟨(i 0).val / 8000, _⟩ (1 : Fin 2) * 128 + 128
    rw [e1]; omega

theorem kregion18 (c : Dev nD) (a0 : Mat 800000 128) (a1 : Mat 800000 8) (a2 : Mat 8 128) (a3 : Mat 1 128)
    (h0 : V c (Pipeline.arrRef spec18 0) = up a0) (h1 : V c (Pipeline.arrRef spec18 1) = up a1)
    (h2 : V c (Pipeline.arrRef spec18 2) = up a2) (h3 : V c (Pipeline.arrRef spec18 3) = up a3) :
    (dat18 (F := Ideal) V c).arrAt 4 cfg18.N = up (edgeR a0 a1 a2 a3) :=
  (dat18 V c).arrAt_eq_of_cover 4 (up (edgeR a0 a1 a2 a3))
    (fun t _ => flushed18_eq V c a0 a1 a2 a3 h0 h1 h2 h3 t) cover18

end Cert.KernelIdeal.Hand

end
-- ==== Proof.KRegionMM_A1.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay1_up (a b : Mat 2000 128) (W : Mat 128 256) (bias : Mat 1 256) :
    k1_pay1 (F := Ideal) (up a) (up b) (up W) (up bias) = up (lin2R a b W bias) := by
  unfold k1_pay1
  simp only [shapeCast_self]
  rw [up_addf, up_truncf, up_truncf, up_matmul_zero dot_S2000x128_S128x256_S2000x256_1_0_0_1_n_n rfl rfl rfl rfl rfl rfl,
    up_broadcastRow, up_addf]
  rfl

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem rows1 (t : Fin cfg1.N) : t.val * 2000 + 2000 ≤ 50000 := by
  have h := t.isLt
  have hN : cfg1.N = 25 := N_1
  omega

theorem read1_0 (c : Dev nD) (t : Fin cfg1.N) (a : Mat 50000 128) (h : V c (Pipeline.arrRef spec1 0) = up a) :
    iblk1 V c 0 t = up (rowsAt 2000 t.val (rows1 t) a) := by
  unfold iblk1
  rw [h]
  funext y
  obtain ⟨e0, e1, -⟩ := idx1 t
  refine congrArg (fun j => ((a j : ℝ) : EReal)) (funext fun ax => Fin.ext ?_)
  match ax with
  | ⟨0, _⟩ => show win1_0.index t (0 : Fin 2) * 2000 + 1 * (y 0).val = t.val * 2000 + (y 0).val; omega
  | ⟨1, _⟩ => show win1_0.index t (1 : Fin 2) * 128 + 1 * (y 1).val = (y 1).val; omega

theorem read1_1 (c : Dev nD) (t : Fin cfg1.N) (a : Mat 50000 128) (h : V c (Pipeline.arrRef spec1 1) = up a) :
    iblk1 V c 1 t = up (rowsAt 2000 t.val (rows1 t) a) := by
  unfold iblk1
  rw [h]
  funext y
  obtain ⟨-, -, e0, e1, -⟩ := idx1 t
  refine congrArg (fun j => ((a j : ℝ) : EReal)) (funext fun ax => Fin.ext ?_)
  match ax with
  | ⟨0, _⟩ => show win1_1.index t (0 : Fin 2) * 2000 + 1 * (y 0).val = t.val * 2000 + (y 0).val; omega
  | ⟨1, _⟩ => show win1_1.index t (1 : Fin 2) * 128 + 1 * (y 1).val = (y 1).val; omega

theorem read1_2 (c : Dev nD) (t : Fin cfg1.N) (a : Mat 128 256) (h : V c (Pipeline.arrRef spec1 2) = up a) :
    iblk1 V c 2 t = up a := by
  unfold iblk1
  rw [h]
  funext y
  obtain ⟨-, -, -, -, e0, e1, -⟩ := idx1 t
  refine congrArg (fun j => ((a j : ℝ) : EReal)) (funext fun ax => Fin.ext ?_)
  match ax with
  | ⟨0, _⟩ => show win1_2.index t (0 : Fin 2) * 128 + 1 * (y 0).val = (y 0).val; omega
  | ⟨1, _⟩ => show win1_2.index t (1 : Fin 2) * 256 + 1 * (y 1).val = (y 1).val; omega

theorem read1_3 (c : Dev nD) (t : Fin cfg1.N) (a : Mat 1 256) (h : V c (Pipeline.arrRef spec1 3) = up a) :
    iblk1 V c 3 t = up a := by
  unfold iblk1
  rw [h]
  funext y
  obtain ⟨-, -, -, -, -, -, e0, e1, -⟩ := idx1 t
  refine congrArg (fun j => ((a j : ℝ) : EReal)) (funext fun ax => Fin.ext ?_)
  match ax with
  | ⟨0, _⟩ => show win1_3.index t (0 : Fin 2) * 1 + 1 * (y 0).val = (y 0).val; omega
  | ⟨1, _⟩ => show win1_3.index t (1 : Fin 2) * 256 + 1 * (y 1).val = (y 1).val; omega

theorem read1_4 (t : Fin cfg1.N) (g : Mat 50000 256) :
    ((cfg1.win 4).blk t).view.read (Elt Ideal) (up g) = up (rowsAt 2000 t.val (rows1 t) g) := by
  funext y
  obtain ⟨-, -, -, -, -, -, -, -, e0, e1⟩ := idx1 t
  refine congrArg (fun j => ((g j : ℝ) : EReal)) (funext fun ax => Fin.ext ?_)
  match ax with
  | ⟨0, _⟩ => show win1_4.index t (0 : Fin 2) * 2000 + 1 * (y 0).val = t.val * 2000 + (y 0).val; omega
  | ⟨1, _⟩ => show win1_4.index t (1 : Fin 2) * 256 + 1 * (y 1).val = (y 1).val; omega

theorem flushed1_eq (c : Dev nD) (a0 a1 : Mat 50000 128) (a2 : Mat 128 256) (a3 : Mat 1 256)
    (h0 : V c (Pipeline.arrRef spec1 0) = up a0) (h1 : V c (Pipeline.arrRef spec1 1) = up a1)
    (h2 : V c (Pipeline.arrRef spec1 2) = up a2) (h3 : V c (Pipeline.arrRef spec1 3) = up a3) (t : Fin cfg1.N) :
    (dat1 V c).flushed 4 t = ((cfg1.win 4).blk t).view.read (Elt Ideal) (up (lin2R a0 a1 a2 a3)) := by
  show (cfg1.win 4).cut (grid1.coords t) ((dat1 V c).after 4 t) = _
  rw [after1_4]
  unfold out1_4
  rw [View.canon_unit_zero mm_zero_off]
  simp only [View.ld_unit_zero (S := S2000x128) mm_zero_off, View.ld_unit_zero (S := S128x256) mm_zero_off,
    View.ld_unit_zero (S := S1x256) mm_zero_off]
  rw [read1_0 V c t a0 h0, read1_1 V c t a1 h1, read1_2 V c t a2 h2, read1_3 V c t a3 h3, pay1_up, lin2R_rowsAt,
    read1_4]
  rfl

theorem mem_blk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole main_v28).slice (win1_4.rect t)).set ↔ _
  rw [View.set_slice_whole, Rect.mem_set_unit]
  exact Iff.rfl

theorem cover1 (i : S50000x256.Idx) :
    ∃ t : Fin cfg1.N, (cfg1.win 4).flush t = true ∧ i ∈ ((cfg1.win 4).blk t).view.set := by
  have hN : cfg1.N = 25 := N_1
  have hi0 : (i 0).val < 50000 := (i 0).isLt
  have hi1 : (i 1).val < 256 := (i 1).isLt
  refine ⟨⟨(i 0).val / 2000, by omega⟩, flush1_4 _, ?_⟩
  rw [mem_blk1]
  obtain ⟨-, -, -, -, -, -, -, -, e0, e1⟩ := idx1 ⟨(i 0).val / 2000, by omega⟩
  intro a
  match a with
  | ⟨0, _⟩ =>
    show win1_4.index ⟨(i 0).val / 2000, _⟩ (0 : Fin 2) * 2000 ≤ (i 0).val
      ∧ (i 0).val < win1_4.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, _⟩ (1 : Fin 2) * 256 ≤ (i 1).val
      ∧ (i 1).val < win1_4.index ⟨(i 0).val / 2000, _⟩ (1 : Fin 2) * 256 + 256
    rw [e1]; omega

theorem kregion1 (c : Dev nD) (a0 a1 : Mat 50000 128) (a2 : Mat 128 256) (a3 : Mat 1 256)
    (h0 : V c (Pipeline.arrRef spec1 0) = up a0) (h1 : V c (Pipeline.arrRef spec1 1) = up a1)
    (h2 : V c (Pipeline.arrRef spec1 2) = up a2) (h3 : V c (Pipeline.arrRef spec1 3) = up a3) :
    (dat1 (F := Ideal) V c).arrAt 4 cfg1.N = up (lin2R a0 a1 a2 a3) :=
  (dat1 V c).arrAt_eq_of_cover 4 (up (lin2R a0 a1 a2 a3))
    (fun t _ => flushed1_eq V c a0 a1 a2 a3 h0 h1 h2 h3 t) cover1

end Cert.KernelIdeal.Hand

end
-- ==== Proof.KRegionMM_A10.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay10_up (a b : Mat 2000 128) (W : Mat 128 256) (bias : Mat 1 256) :
    k10_pay1 (F := Ideal) (up a) (up b) (up W) (up bias) = up (lin2R a b W bias) := by
  unfold k10_pay1
  simp only [shapeCast_self]
  rw [up_addf, up_truncf, up_truncf, up_matmul_zero dot_S2000x128_S128x256_S2000x256_1_0_0_1_n_n rfl rfl rfl rfl rfl rfl,
    up_broadcastRow, up_addf]
  rfl

theorem idx10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

theorem rows10 (t : Fin cfg10.N) : t.val * 2000 + 2000 ≤ 50000 := by
  have h := t.isLt
  have hN : cfg10.N = 25 := N_10
  omega

theorem read10_0 (c : Dev nD) (t : Fin cfg10.N) (a : Mat 50000 128) (h : V c (Pipeline.arrRef spec10 0) = up a) :
    iblk10 V c 0 t = up (rowsAt 2000 t.val (rows10 t) a) := by
  unfold iblk10
  rw [h]
  funext y
  obtain ⟨e0, e1, -⟩ := idx10 t
  refine congrArg (fun j => ((a j : ℝ) : EReal)) (funext fun ax => Fin.ext ?_)
  match ax with
  | ⟨0, _⟩ => show win10_0.index t (0 : Fin 2) * 2000 + 1 * (y 0).val = t.val * 2000 + (y 0).val; omega
  | ⟨1, _⟩ => show win10_0.index t (1 : Fin 2) * 128 + 1 * (y 1).val = (y 1).val; omega

theorem read10_1 (c : Dev nD) (t : Fin cfg10.N) (a : Mat 50000 128) (h : V c (Pipeline.arrRef spec10 1) = up a) :
    iblk10 V c 1 t = up (rowsAt 2000 t.val (rows10 t) a) := by
  unfold iblk10
  rw [h]
  funext y
  obtain ⟨-, -, e0, e1, -⟩ := idx10 t
  refine congrArg (fun j => ((a j : ℝ) : EReal)) (funext fun ax => Fin.ext ?_)
  match ax with
  | ⟨0, _⟩ => show win10_1.index t (0 : Fin 2) * 2000 + 1 * (y 0).val = t.val * 2000 + (y 0).val; omega
  | ⟨1, _⟩ => show win10_1.index t (1 : Fin 2) * 128 + 1 * (y 1).val = (y 1).val; omega

theorem read10_2 (c : Dev nD) (t : Fin cfg10.N) (a : Mat 128 256) (h : V c (Pipeline.arrRef spec10 2) = up a) :
    iblk10 V c 2 t = up a := by
  unfold iblk10
  rw [h]
  funext y
  obtain ⟨-, -, -, -, e0, e1, -⟩ := idx10 t
  refine congrArg (fun j => ((a j : ℝ) : EReal)) (funext fun ax => Fin.ext ?_)
  match ax with
  | ⟨0, _⟩ => show win10_2.index t (0 : Fin 2) * 128 + 1 * (y 0).val = (y 0).val; omega
  | ⟨1, _⟩ => show win10_2.index t (1 : Fin 2) * 256 + 1 * (y 1).val = (y 1).val; omega

theorem read10_3 (c : Dev nD) (t : Fin cfg10.N) (a : Mat 1 256) (h : V c (Pipeline.arrRef spec10 3) = up a) :
    iblk10 V c 3 t = up a := by
  unfold iblk10
  rw [h]
  funext y
  obtain ⟨-, -, -, -, -, -, e0, e1, -⟩ := idx10 t
  refine congrArg (fun j => ((a j : ℝ) : EReal)) (funext fun ax => Fin.ext ?_)
  match ax with
  | ⟨0, _⟩ => show win10_3.index t (0 : Fin 2) * 1 + 1 * (y 0).val = (y 0).val; omega
  | ⟨1, _⟩ => show win10_3.index t (1 : Fin 2) * 256 + 1 * (y 1).val = (y 1).val; omega

theorem read10_4 (t : Fin cfg10.N) (g : Mat 50000 256) :
    ((cfg10.win 4).blk t).view.read (Elt Ideal) (up g) = up (rowsAt 2000 t.val (rows10 t) g) := by
  funext y
  obtain ⟨-, -, -, -, -, -, -, -, e0, e1⟩ := idx10 t
  refine congrArg (fun j => ((g j : ℝ) : EReal)) (funext fun ax => Fin.ext ?_)
  match ax with
  | ⟨0, _⟩ => show win10_4.index t (0 : Fin 2) * 2000 + 1 * (y 0).val = t.val * 2000 + (y 0).val; omega
  | ⟨1, _⟩ => show win10_4.index t (1 : Fin 2) * 256 + 1 * (y 1).val = (y 1).val; omega

theorem flushed10_eq (c : Dev nD) (a0 a1 : Mat 50000 128) (a2 : Mat 128 256) (a3 : Mat 1 256)
    (h0 : V c (Pipeline.arrRef spec10 0) = up a0) (h1 : V c (Pipeline.arrRef spec10 1) = up a1)
    (h2 : V c (Pipeline.arrRef spec10 2) = up a2) (h3 : V c (Pipeline.arrRef spec10 3) = up a3) (t : Fin cfg10.N) :
    (dat10 V c).flushed 4 t = ((cfg10.win 4).blk t).view.read (Elt Ideal) (up (lin2R a0 a1 a2 a3)) := by
  show (cfg10.win 4).cut (grid10.coords t) ((dat10 V c).after 4 t) = _
  rw [after10_4]
  unfold out10_4
  rw [View.canon_unit_zero mm_zero_off]
  simp only [View.ld_unit_zero (S := S2000x128) mm_zero_off, View.ld_unit_zero (S := S128x256) mm_zero_off,
    View.ld_unit_zero (S := S1x256) mm_zero_off]
  rw [read10_0 V c t a0 h0, read10_1 V c t a1 h1, read10_2 V c t a2 h2, read10_3 V c t a3 h3, pay10_up, lin2R_rowsAt,
    read10_4]
  rfl

theorem mem_blk10 (t : Fin cfg10.N) (i : S50000x256.Idx) :
    i ∈ ((cfg10.win 4).blk t).view.set ↔ ∀ a : Fin 2, win10_4.index t a * S2000x256.size a ≤ (i a).val
      ∧ (i a).val < win10_4.index t a * S2000x256.size a + S2000x256.size a := by
  show i ∈ ((View.whole main_v141).slice (win10_4.rect t)).set ↔ _
  rw [View.set_slice_whole, Rect.mem_set_unit]
  exact Iff.rfl

theorem cover10 (i : S50000x256.Idx) :
    ∃ t : Fin cfg10.N, (cfg10.win 4).flush t = true ∧ i ∈ ((cfg10.win 4).blk t).view.set := by
  have hN : cfg10.N = 25 := N_10
  have hi0 : (i 0).val < 50000 := (i 0).isLt
  have hi1 : (i 1).val < 256 := (i 1).isLt
  refine ⟨⟨(i 0).val / 2000, by omega⟩, flush10_4 _, ?_⟩
  rw [mem_blk10]
  obtain ⟨-, -, -, -, -, -, -, -, e0, e1⟩ := idx10 ⟨(i 0).val / 2000, by omega⟩
  intro a
  match a with
  | ⟨0, _⟩ =>
    show win10_4.index ⟨(i 0).val / 2000, _⟩ (0 : Fin 2) * 2000 ≤ (i 0).val
      ∧ (i 0).val < win10_4.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win10_4.index ⟨(i 0).val / 2000, _⟩ (1 : Fin 2) * 256 ≤ (i 1).val
      ∧ (i 1).val < win10_4.index ⟨(i 0).val / 2000, _⟩ (1 : Fin 2) * 256 + 256
    rw [e1]; omega

theorem kregion10 (c : Dev nD) (a0 a1 : Mat 50000 128) (a2 : Mat 128 256) (a3 : Mat 1 256)
    (h0 : V c (Pipeline.arrRef spec10 0) = up a0) (h1 : V c (Pipeline.arrRef spec10 1) = up a1)
    (h2 : V c (Pipeline.arrRef spec10 2) = up a2) (h3 : V c (Pipeline.arrRef spec10 3) = up a3) :
    (dat10 (F := Ideal) V c).arrAt 4 cfg10.N = up (lin2R a0 a1 a2 a3) :=
  (dat10 V c).arrAt_eq_of_cover 4 (up (lin2R a0 a1 a2 a3))
    (fun t _ => flushed10_eq V c a0 a1 a2 a3 h0 h1 h2 h3 t) cover10

end Cert.KernelIdeal.Hand

end
-- ==== Proof.KRegionMM_A19.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay19_up (a b : Mat 2000 128) (W : Mat 128 256) (bias : Mat 1 256) :
    k19_pay1 (F := Ideal) (up a) (up b) (up W) (up bias) = up (lin2R a b W bias) := by
  unfold k19_pay1
  simp only [shapeCast_self]
  rw [up_addf, up_truncf, up_truncf, up_matmul_zero dot_S2000x128_S128x256_S2000x256_1_0_0_1_n_n rfl rfl rfl rfl rfl rfl,
    up_broadcastRow, up_addf]
  rfl

theorem idx19 : ∀ t : Fin cfg19.N,
    win19_0.index t (0 : Fin 2) = t.val ∧ win19_0.index t (1 : Fin 2) = 0
    ∧ win19_1.index t (0 : Fin 2) = t.val ∧ win19_1.index t (1 : Fin 2) = 0
    ∧ win19_2.index t (0 : Fin 2) = 0 ∧ win19_2.index t (1 : Fin 2) = 0
    ∧ win19_3.index t (0 : Fin 2) = 0 ∧ win19_3.index t (1 : Fin 2) = 0
    ∧ win19_4.index t (0 : Fin 2) = t.val ∧ win19_4.index t (1 : Fin 2) = 0 :=
  (by decide +kernel : ∀ t : Fin grid19.N, _)

theorem rows19 (t : Fin cfg19.N) : t.val * 2000 + 2000 ≤ 50000 := by
  have h := t.isLt
  have hN : cfg19.N = 25 := N_19
  omega

theorem read19_0 (c : Dev nD) (t : Fin cfg19.N) (a : Mat 50000 128) (h : V c (Pipeline.arrRef spec19 0) = up a) :
    iblk19 V c 0 t = up (rowsAt 2000 t.val (rows19 t) a) := by
  unfold iblk19
  rw [h]
  funext y
  obtain ⟨e0, e1, -⟩ := idx19 t
  refine congrArg (fun j => ((a j : ℝ) : EReal)) (funext fun ax => Fin.ext ?_)
  match ax with
  | ⟨0, _⟩ => show win19_0.index t (0 : Fin 2) * 2000 + 1 * (y 0).val = t.val * 2000 + (y 0).val; omega
  | ⟨1, _⟩ => show win19_0.index t (1 : Fin 2) * 128 + 1 * (y 1).val = (y 1).val; omega

theorem read19_1 (c : Dev nD) (t : Fin cfg19.N) (a : Mat 50000 128) (h : V c (Pipeline.arrRef spec19 1) = up a) :
    iblk19 V c 1 t = up (rowsAt 2000 t.val (rows19 t) a) := by
  unfold iblk19
  rw [h]
  funext y
  obtain ⟨-, -, e0, e1, -⟩ := idx19 t
  refine congrArg (fun j => ((a j : ℝ) : EReal)) (funext fun ax => Fin.ext ?_)
  match ax with
  | ⟨0, _⟩ => show win19_1.index t (0 : Fin 2) * 2000 + 1 * (y 0).val = t.val * 2000 + (y 0).val; omega
  | ⟨1, _⟩ => show win19_1.index t (1 : Fin 2) * 128 + 1 * (y 1).val = (y 1).val; omega

theorem read19_2 (c : Dev nD) (t : Fin cfg19.N) (a : Mat 128 256) (h : V c (Pipeline.arrRef spec19 2) = up a) :
    iblk19 V c 2 t = up a := by
  unfold iblk19
  rw [h]
  funext y
  obtain ⟨-, -, -, -, e0, e1, -⟩ := idx19 t
  refine congrArg (fun j => ((a j : ℝ) : EReal)) (funext fun ax => Fin.ext ?_)
  match ax with
  | ⟨0, _⟩ => show win19_2.index t (0 : Fin 2) * 128 + 1 * (y 0).val = (y 0).val; omega
  | ⟨1, _⟩ => show win19_2.index t (1 : Fin 2) * 256 + 1 * (y 1).val = (y 1).val; omega

theorem read19_3 (c : Dev nD) (t : Fin cfg19.N) (a : Mat 1 256) (h : V c (Pipeline.arrRef spec19 3) = up a) :
    iblk19 V c 3 t = up a := by
  unfold iblk19
  rw [h]
  funext y
  obtain ⟨-, -, -, -, -, -, e0, e1, -⟩ := idx19 t
  refine congrArg (fun j => ((a j : ℝ) : EReal)) (funext fun ax => Fin.ext ?_)
  match ax with
  | ⟨0, _⟩ => show win19_3.index t (0 : Fin 2) * 1 + 1 * (y 0).val = (y 0).val; omega
  | ⟨1, _⟩ => show win19_3.index t (1 : Fin 2) * 256 + 1 * (y 1).val = (y 1).val; omega

theorem read19_4 (t : Fin cfg19.N) (g : Mat 50000 256) :
    ((cfg19.win 4).blk t).view.read (Elt Ideal) (up g) = up (rowsAt 2000 t.val (rows19 t) g) := by
  funext y
  obtain ⟨-, -, -, -, -, -, -, -, e0, e1⟩ := idx19 t
  refine congrArg (fun j => ((g j : ℝ) : EReal)) (funext fun ax => Fin.ext ?_)
  match ax with
  | ⟨0, _⟩ => show win19_4.index t (0 : Fin 2) * 2000 + 1 * (y 0).val = t.val * 2000 + (y 0).val; omega
  | ⟨1, _⟩ => show win19_4.index t (1 : Fin 2) * 256 + 1 * (y 1).val = (y 1).val; omega

theorem flushed19_eq (c : Dev nD) (a0 a1 : Mat 50000 128) (a2 : Mat 128 256) (a3 : Mat 1 256)
    (h0 : V c (Pipeline.arrRef spec19 0) = up a0) (h1 : V c (Pipeline.arrRef spec19 1) = up a1)
    (h2 : V c (Pipeline.arrRef spec19 2) = up a2) (h3 : V c (Pipeline.arrRef spec19 3) = up a3) (t : Fin cfg19.N) :
    (dat19 V c).flushed 4 t = ((cfg19.win 4).blk t).view.read (Elt Ideal) (up (lin2R a0 a1 a2 a3)) := by
  show (cfg19.win 4).cut (grid19.coords t) ((dat19 V c).after 4 t) = _
  rw [after19_4]
  unfold out19_4
  rw [View.canon_unit_zero mm_zero_off]
  simp only [View.ld_unit_zero (S := S2000x128) mm_zero_off, View.ld_unit_zero (S := S128x256) mm_zero_off,
    View.ld_unit_zero (S := S1x256) mm_zero_off]
  rw [read19_0 V c t a0 h0, read19_1 V c t a1 h1, read19_2 V c t a2 h2, read19_3 V c t a3 h3, pay19_up, lin2R_rowsAt,
    read19_4]
  rfl

theorem mem_blk19 (t : Fin cfg19.N) (i : S50000x256.Idx) :
    i ∈ ((cfg19.win 4).blk t).view.set ↔ ∀ a : Fin 2, win19_4.index t a * S2000x256.size a ≤ (i a).val
      ∧ (i a).val < win19_4.index t a * S2000x256.size a + S2000x256.size a := by
  show i ∈ ((View.whole main_v254).slice (win19_4.rect t)).set ↔ _
  rw [View.set_slice_whole, Rect.mem_set_unit]
  exact Iff.rfl

theorem cover19 (i : S50000x256.Idx) :
    ∃ t : Fin cfg19.N, (cfg19.win 4).flush t = true ∧ i ∈ ((cfg19.win 4).blk t).view.set := by
  have hN : cfg19.N = 25 := N_19
  have hi0 : (i 0).val < 50000 := (i 0).isLt
  have hi1 : (i 1).val < 256 := (i 1).isLt
  refine ⟨⟨(i 0).val / 2000, by omega⟩, flush19_4 _, ?_⟩
  rw [mem_blk19]
  obtain ⟨-, -, -, -, -, -, -, -, e0, e1⟩ := idx19 ⟨(i 0).val / 2000, by omega⟩
  intro a
  match a with
  | ⟨0, _⟩ =>
    show win19_4.index ⟨(i 0).val / 2000, _⟩ (0 : Fin 2) * 2000 ≤ (i 0).val
      ∧ (i 0).val < win19_4.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win19_4.index ⟨(i 0).val / 2000, _⟩ (1 : Fin 2) * 256 ≤ (i 1).val
      ∧ (i 1).val < win19_4.index ⟨(i 0).val / 2000, _⟩ (1 : Fin 2) * 256 + 256
    rw [e1]; omega

theorem kregion19 (c : Dev nD) (a0 a1 : Mat 50000 128) (a2 : Mat 128 256) (a3 : Mat 1 256)
    (h0 : V c (Pipeline.arrRef spec19 0) = up a0) (h1 : V c (Pipeline.arrRef spec19 1) = up a1)
    (h2 : V c (Pipeline.arrRef spec19 2) = up a2) (h3 : V c (Pipeline.arrRef spec19 3) = up a3) :
    (dat19 (F := Ideal) V c).arrAt 4 cfg19.N = up (lin2R a0 a1 a2 a3) :=
  (dat19 V c).arrAt_eq_of_cover 4 (up (lin2R a0 a1 a2 a3))
    (fun t _ => flushed19_eq V c a0 a1 a2 a3 h0 h1 h2 h3 t) cover19

end Cert.KernelIdeal.Hand

end
-- ==== Proof.KRegionMM_P5.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay5_up (a b : Mat 512 128) (W : Mat 128 256) (bias : Mat 1 256) :
    k5_pay1 (F := Ideal) (up a) (up b) (up W) (up bias) = up (lin2R a b W bias) := by
  unfold k5_pay1
  simp only [shapeCast_self]
  rw [up_addf, up_truncf, up_truncf, up_matmul_zero dot_S512x128_S128x256_S512x256_1_0_0_1_n_n rfl rfl rfl rfl rfl rfl,
    up_broadcastRow, up_addf]
  rfl

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

theorem rows5 (t : Fin cfg5.N) : t.val * 512 + 512 ≤ 512 := by
  have h := t.isLt
  have hN : cfg5.N = 1 := N_5
  omega

theorem read5_0 (c : Dev nD) (t : Fin cfg5.N) (a : Mat 512 128) (h : V c (Pipeline.arrRef spec5 0) = up a) :
    iblk5 V c 0 t = up (rowsAt 512 t.val (rows5 t) a) := by
  unfold iblk5
  rw [h]
  funext y
  obtain ⟨e0, e1, -⟩ := idx5 t
  refine congrArg (fun j => ((a j : ℝ) : EReal)) (funext fun ax => Fin.ext ?_)
  match ax with
  | ⟨0, _⟩ => show win5_0.index t (0 : Fin 2) * 512 + 1 * (y 0).val = t.val * 512 + (y 0).val; omega
  | ⟨1, _⟩ => show win5_0.index t (1 : Fin 2) * 128 + 1 * (y 1).val = (y 1).val; omega

theorem read5_1 (c : Dev nD) (t : Fin cfg5.N) (a : Mat 512 128) (h : V c (Pipeline.arrRef spec5 1) = up a) :
    iblk5 V c 1 t = up (rowsAt 512 t.val (rows5 t) a) := by
  unfold iblk5
  rw [h]
  funext y
  obtain ⟨-, -, e0, e1, -⟩ := idx5 t
  refine congrArg (fun j => ((a j : ℝ) : EReal)) (funext fun ax => Fin.ext ?_)
  match ax with
  | ⟨0, _⟩ => show win5_1.index t (0 : Fin 2) * 512 + 1 * (y 0).val = t.val * 512 + (y 0).val; omega
  | ⟨1, _⟩ => show win5_1.index t (1 : Fin 2) * 128 + 1 * (y 1).val = (y 1).val; omega

theorem read5_2 (c : Dev nD) (t : Fin cfg5.N) (a : Mat 128 256) (h : V c (Pipeline.arrRef spec5 2) = up a) :
    iblk5 V c 2 t = up a := by
  unfold iblk5
  rw [h]
  funext y
  obtain ⟨-, -, -, -, e0, e1, -⟩ := idx5 t
  refine congrArg (fun j => ((a j : ℝ) : EReal)) (funext fun ax => Fin.ext ?_)
  match ax with
  | ⟨0, _⟩ => show win5_2.index t (0 : Fin 2) * 128 + 1 * (y 0).val = (y 0).val; omega
  | ⟨1, _⟩ => show win5_2.index t (1 : Fin 2) * 256 + 1 * (y 1).val = (y 1).val; omega

theorem read5_3 (c : Dev nD) (t : Fin cfg5.N) (a : Mat 1 256) (h : V c (Pipeline.arrRef spec5 3) = up a) :
    iblk5 V c 3 t = up a := by
  unfold iblk5
  rw [h]
  funext y
  obtain ⟨-, -, -, -, -, -, e0, e1, -⟩ := idx5 t
  refine congrArg (fun j => ((a j : ℝ) : EReal)) (funext fun ax => Fin.ext ?_)
  match ax with
  | ⟨0, _⟩ => show win5_3.index t (0 : Fin 2) * 1 + 1 * (y 0).val = (y 0).val; omega
  | ⟨1, _⟩ => show win5_3.index t (1 : Fin 2) * 256 + 1 * (y 1).val = (y 1).val; omega

theorem read5_4 (t : Fin cfg5.N) (g : Mat 512 256) :
    ((cfg5.win 4).blk t).view.read (Elt Ideal) (up g) = up (rowsAt 512 t.val (rows5 t) g) := by
  funext y
  obtain ⟨-, -, -, -, -, -, -, -, e0, e1⟩ := idx5 t
  refine congrArg (fun j => ((g j : ℝ) : EReal)) (funext fun ax => Fin.ext ?_)
  match ax with
  | ⟨0, _⟩ => show win5_4.index t (0 : Fin 2) * 512 + 1 * (y 0).val = t.val * 512 + (y 0).val; omega
  | ⟨1, _⟩ => show win5_4.index t (1 : Fin 2) * 256 + 1 * (y 1).val = (y 1).val; omega

theorem flushed5_eq (c : Dev nD) (a0 a1 : Mat 512 128) (a2 : Mat 128 256) (a3 : Mat 1 256)
    (h0 : V c (Pipeline.arrRef spec5 0) = up a0) (h1 : V c (Pipeline.arrRef spec5 1) = up a1)
    (h2 : V c (Pipeline.arrRef spec5 2) = up a2) (h3 : V c (Pipeline.arrRef spec5 3) = up a3) (t : Fin cfg5.N) :
    (dat5 V c).flushed 4 t = ((cfg5.win 4).blk t).view.read (Elt Ideal) (up (lin2R a0 a1 a2 a3)) := by
  show (cfg5.win 4).cut (grid5.coords t) ((dat5 V c).after 4 t) = _
  rw [after5_4]
  unfold out5_4
  rw [View.canon_unit_zero mm_zero_off]
  simp only [View.ld_unit_zero (S := S512x128) mm_zero_off, View.ld_unit_zero (S := S128x256) mm_zero_off,
    View.ld_unit_zero (S := S1x256) mm_zero_off]
  rw [read5_0 V c t a0 h0, read5_1 V c t a1 h1, read5_2 V c t a2 h2, read5_3 V c t a3 h3, pay5_up, lin2R_rowsAt,
    read5_4]
  rfl

theorem mem_blk5 (t : Fin cfg5.N) (i : S512x256.Idx) :
    i ∈ ((cfg5.win 4).blk t).view.set ↔ ∀ a : Fin 2, win5_4.index t a * S512x256.size a ≤ (i a).val
      ∧ (i a).val < win5_4.index t a * S512x256.size a + S512x256.size a := by
  show i ∈ ((View.whole main_v77).slice (win5_4.rect t)).set ↔ _
  rw [View.set_slice_whole, Rect.mem_set_unit]
  exact Iff.rfl

theorem cover5 (i : S512x256.Idx) :
    ∃ t : Fin cfg5.N, (cfg5.win 4).flush t = true ∧ i ∈ ((cfg5.win 4).blk t).view.set := by
  have hN : cfg5.N = 1 := N_5
  have hi0 : (i 0).val < 512 := (i 0).isLt
  have hi1 : (i 1).val < 256 := (i 1).isLt
  refine ⟨⟨(i 0).val / 512, by omega⟩, flush5_4 _, ?_⟩
  rw [mem_blk5]
  obtain ⟨-, -, -, -, -, -, -, -, e0, e1⟩ := idx5 ⟨(i 0).val / 512, by omega⟩
  intro a
  match a with
  | ⟨0, _⟩ =>
    show win5_4.index ⟨(i 0).val / 512, _⟩ (0 : Fin 2) * 512 ≤ (i 0).val
      ∧ (i 0).val < win5_4.index ⟨(i 0).val / 512, _⟩ (0 : Fin 2) * 512 + 512
    rw [e0]; show (i 0).val / 512 * 512 ≤ (i 0).val ∧ (i 0).val < (i 0).val / 512 * 512 + 512; omega
  | ⟨1, _⟩ =>
    show win5_4.index ⟨(i 0).val / 512, _⟩ (1 : Fin 2) * 256 ≤ (i 1).val
      ∧ (i 1).val < win5_4.index ⟨(i 0).val / 512, _⟩ (1 : Fin 2) * 256 + 256
    rw [e1]; omega

theorem kregion5 (c : Dev nD) (a0 a1 : Mat 512 128) (a2 : Mat 128 256) (a3 : Mat 1 256)
    (h0 : V c (Pipeline.arrRef spec5 0) = up a0) (h1 : V c (Pipeline.arrRef spec5 1) = up a1)
    (h2 : V c (Pipeline.arrRef spec5 2) = up a2) (h3 : V c (Pipeline.arrRef spec5 3) = up a3) :
    (dat5 (F := Ideal) V c).arrAt 4 cfg5.N = up (lin2R a0 a1 a2 a3) :=
  (dat5 V c).arrAt_eq_of_cover 4 (up (lin2R a0 a1 a2 a3))
    (fun t _ => flushed5_eq V c a0 a1 a2 a3 h0 h1 h2 h3 t) cover5

end Cert.KernelIdeal.Hand

end
-- ==== Proof.KRegionMM_P14.lean ====
import proofs.«403290_j73710228734482_1_alg».proof.Proof.Gen.KernelIdeal.Frame
import proofs.«403290_j73710228734482_1_alg».proof.Proof.KRegionMM_Lib
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem pay14_up (a b : Mat 512 128) (W : Mat 128 256) (bias : Mat 1 256) :
    k14_pay1 (F := Ideal) (up a) (up b) (up W) (up bias) = up (lin2R a b W bias) := by
  unfold k14_pay1
  simp only [shapeCast_self]
  rw [up_addf, up_truncf, up_truncf, up_matmul_zero dot_S512x128_S128x256_S512x256_1_0_0_1_n_n rfl rfl rfl rfl rfl rfl,
    up_broadcastRow, up_addf]
  rfl

theorem idx14 : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = t.val ∧ win14_4.index t (1 : Fin 2) = 0 :=
  (by decide +kernel : ∀ t : Fin grid14.N, _)

theorem rows14 (t : Fin cfg14.N) : t.val * 512 + 512 ≤ 512 := by
  have h := t.isLt
  have hN : cfg14.N = 1 := N_14
  omega

theorem read14_0 (c : Dev nD) (t : Fin cfg14.N) (a : Mat 512 128) (h : V c (Pipeline.arrRef spec14 0) = up a) :
    iblk14 V c 0 t = up (rowsAt 512 t.val (rows14 t) a) := by
  unfold iblk14
  rw [h]
  funext y
  obtain ⟨e0, e1, -⟩ := idx14 t
  refine congrArg (fun j => ((a j : ℝ) : EReal)) (funext fun ax => Fin.ext ?_)
  match ax with
  | ⟨0, _⟩ => show win14_0.index t (0 : Fin 2) * 512 + 1 * (y 0).val = t.val * 512 + (y 0).val; omega
  | ⟨1, _⟩ => show win14_0.index t (1 : Fin 2) * 128 + 1 * (y 1).val = (y 1).val; omega

theorem read14_1 (c : Dev nD) (t : Fin cfg14.N) (a : Mat 512 128) (h : V c (Pipeline.arrRef spec14 1) = up a) :
    iblk14 V c 1 t = up (rowsAt 512 t.val (rows14 t) a) := by
  unfold iblk14
  rw [h]
  funext y
  obtain ⟨-, -, e0, e1, -⟩ := idx14 t
  refine congrArg (fun j => ((a j : ℝ) : EReal)) (funext fun ax => Fin.ext ?_)
  match ax with
  | ⟨0, _⟩ => show win14_1.index t (0 : Fin 2) * 512 + 1 * (y 0).val = t.val * 512 + (y 0).val; omega
  | ⟨1, _⟩ => show win14_1.index t (1 : Fin 2) * 128 + 1 * (y 1).val = (y 1).val; omega

theorem read14_2 (c : Dev nD) (t : Fin cfg14.N) (a : Mat 128 256) (h : V c (Pipeline.arrRef spec14 2) = up a) :
    iblk14 V c 2 t = up a := by
  unfold iblk14
  rw [h]
  funext y
  obtain ⟨-, -, -, -, e0, e1, -⟩ := idx14 t
  refine congrArg (fun j => ((a j : ℝ) : EReal)) (funext fun ax => Fin.ext ?_)
  match ax with
  | ⟨0, _⟩ => show win14_2.index t (0 : Fin 2) * 128 + 1 * (y 0).val = (y 0).val; omega
  | ⟨1, _⟩ => show win14_2.index t (1 : Fin 2) * 256 + 1 * (y 1).val = (y 1).val; omega

theorem read14_3 (c : Dev nD) (t : Fin cfg14.N) (a : Mat 1 256) (h : V c (Pipeline.arrRef spec14 3) = up a) :
    iblk14 V c 3 t = up a := by
  unfold iblk14
  rw [h]
  funext y
  obtain ⟨-, -, -, -, -, -, e0, e1, -⟩ := idx14 t
  refine congrArg (fun j => ((a j : ℝ) : EReal)) (funext fun ax => Fin.ext ?_)
  match ax with
  | ⟨0, _⟩ => show win14_3.index t (0 : Fin 2) * 1 + 1 * (y 0).val = (y 0).val; omega
  | ⟨1, _⟩ => show win14_3.index t (1 : Fin 2) * 256 + 1 * (y 1).val = (y 1).val; omega

theorem read14_4 (t : Fin cfg14.N) (g : Mat 512 256) :
    ((cfg14.win 4).blk t).view.read (Elt Ideal) (up g) = up (rowsAt 512 t.val (rows14 t) g) := by
  funext y
  obtain ⟨-, -, -, -, -, -, -, -, e0, e1⟩ := idx14 t
  refine congrArg (fun j => ((g j : ℝ) : EReal)) (funext fun ax => Fin.ext ?_)
  match ax with
  | ⟨0, _⟩ => show win14_4.index t (0 : Fin 2) * 512 + 1 * (y 0).val = t.val * 512 + (y 0).val; omega
  | ⟨1, _⟩ => show win14_4.index t (1 : Fin 2) * 256 + 1 * (y 1).val = (y 1).val; omega

theorem flushed14_eq (c : Dev nD) (a0 a1 : Mat 512 128) (a2 : Mat 128 256) (a3 : Mat 1 256)
    (h0 : V c (Pipeline.arrRef spec14 0) = up a0) (h1 : V c (Pipeline.arrRef spec14 1) = up a1)
    (h2 : V c (Pipeline.arrRef spec14 2) = up a2) (h3 : V c (Pipeline.arrRef spec14 3) = up a3) (t : Fin cfg14.N) :
    (dat14 V c).flushed 4 t = ((cfg14.win 4).blk t).view.read (Elt Ideal) (up (lin2R a0 a1 a2 a3)) := by
  show (cfg14.win 4).cut (grid14.coords t) ((dat14 V c).after 4 t) = _
  rw [after14_4]
  unfold out14_4
  rw [View.canon_unit_zero mm_zero_off]
  simp only [View.ld_unit_zero (S := S512x128) mm_zero_off, View.ld_unit_zero (S := S128x256) mm_zero_off,
    View.ld_unit_zero (S := S1x256) mm_zero_off]
  rw [read14_0 V c t a0 h0, read14_1 V c t a1 h1, read14_2 V c t a2 h2, read14_3 V c t a3 h3, pay14_up, lin2R_rowsAt,
    read14_4]
  rfl

theorem mem_blk14 (t : Fin cfg14.N) (i : S512x256.Idx) :
    i ∈ ((cfg14.win 4).blk t).view.set ↔ ∀ a : Fin 2, win14_4.index t a * S512x256.size a ≤ (i a).val
      ∧ (i a).val < win14_4.index t a * S512x256.size a + S512x256.size a := by
  show i ∈ ((View.whole main_v190).slice (win14_4.rect t)).set ↔ _
  rw [View.set_slice_whole, Rect.mem_set_unit]
  exact Iff.rfl

theorem cover14 (i : S512x256.Idx) :
    ∃ t : Fin cfg14.N, (cfg14.win 4).flush t = true ∧ i ∈ ((cfg14.win 4).blk t).view.set := by
  have hN : cfg14.N = 1 := N_14
  have hi0 : (i 0).val < 512 := (i 0).isLt
  have hi1 : (i 1).val < 256 := (i 1).isLt
  refine ⟨⟨(i 0).val / 512, by omega⟩, flush14_4 _, ?_⟩
  rw [mem_blk14]
  obtain ⟨-, -, -, -, -, -, -, -, e0, e1⟩ := idx14 ⟨(i 0).val / 512, by omega⟩
  intro a
  match a with
  | ⟨0, _⟩ =>
    show win14_4.index ⟨(i 0).val / 512, _⟩ (0 : Fin 2) * 512 ≤ (i 0).val
      ∧ (i 0).val < win14_4.index ⟨(i 0).val / 512, _⟩ (0 : Fin 2) * 512 + 512
    rw [e0]; show (i 0).val / 512 * 512 ≤ (i 0).val ∧ (i 0).val < (i 0).val / 512 * 512 + 512; omega
  | ⟨1, _⟩ =>
    show win14_4.index ⟨(i 0).val / 512, _⟩ (1 : Fin 2) * 256 ≤ (i 1).val
      ∧ (i 1).val < win14_4.index ⟨(i 0).val / 512, _⟩ (1 : Fin 2) * 256 + 256
    rw [e1]; omega

theorem kregion14 (c : Dev nD) (a0 a1 : Mat 512 128) (a2 : Mat 128 256) (a3 : Mat 1 256)
    (h0 : V c (Pipeline.arrRef spec14 0) = up a0) (h1 : V c (Pipeline.arrRef spec14 1) = up a1)
    (h2 : V c (Pipeline.arrRef spec14 2) = up a2) (h3 : V c (Pipeline.arrRef spec14 3) = up a3) :
    (dat14 (F := Ideal) V c).arrAt 4 cfg14.N = up (lin2R a0 a1 a2 a3) :=
  (dat14 V c).arrAt_eq_of_cover 4 (up (lin2R a0 a1 a2 a3))
    (fun t _ => flushed14_eq V c a0 a1 a2 a3 h0 h1 h2 h3 t) cover14

end Cert.KernelIdeal.Hand

end
-- ==== Proof.KRegionMM.lean ====
import proofs.«403290_j73710228734482_1_alg».proof.Proof.KRegionMM_E0
import proofs.«403290_j73710228734482_1_alg».proof.Proof.KRegionMM_E9
import proofs.«403290_j73710228734482_1_alg».proof.Proof.KRegionMM_E18
import proofs.«403290_j73710228734482_1_alg».proof.Proof.KRegionMM_A1
import proofs.«403290_j73710228734482_1_alg».proof.Proof.KRegionMM_A10
import proofs.«403290_j73710228734482_1_alg».proof.Proof.KRegionMM_A19
import proofs.«403290_j73710228734482_1_alg».proof.Proof.KRegionMM_P5
import proofs.«403290_j73710228734482_1_alg».proof.Proof.KRegionMM_P14
-- ==== Proof.KRegionLin.lean ====
import proofs.«403290_j73710228734482_1_alg».proof.Proof.Gen.KernelIdeal.Frame
import proofs.«403290_j73710228734482_1_alg».proof.Proof.KRegionMM_Lib

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem up_rowsAt_apply {n d : Nat} (r t : Nat) (h : t * r + r ≤ n) (a : Mat n d)
    (j : (⟨2, ![r, d]⟩ : Shape).Idx) (i : (⟨2, ![n, d]⟩ : Shape).Idx)
    (h0 : (i 0).val = t * r + (j 0).val) (h1 : (i 1).val = (j 1).val) : up (rowsAt r t h a) j = up a i := by
  have e : ix2 (⟨t * r + (j 0).val, by have := idx2_lt0 j; omega⟩ : Fin n) (j 1) = i := by
    funext ax; apply Fin.ext
    match ax with
    | ⟨0, _⟩ => exact h0.symm
    | ⟨1, _⟩ => exact h1.symm
  exact congrArg (fun q => ((a q : ℝ) : EReal)) e

variable (V : (c : Dev nD) → (b : Ref sig .tc) → Buf (Elt Ideal) ((c : Thread nD τ).loc b))

theorem pay3 (x0 : Mat 2000 256) (x1 : Mat 256 128) (x2 : Mat 1 128) :
    k3_pay1 (F := Ideal) (up x0) (up x1) (up x2) = up (linR x0 x1 x2) := by
  unfold k3_pay1
  simp only [shapeCast_self]
  rw [up_truncf, up_truncf, up_matmul_zero dot_S2000x256_S256x128_S2000x128_1_0_0_1_n_n rfl rfl rfl rfl rfl rfl,
    up_broadcastRow, up_addf]
  rfl

theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed3 (c : Dev nD) (a0 : Mat 50000 256) (a1 : Mat 256 128) (a2 : Mat 1 128)
    (h0 : V c (Pipeline.arrRef spec3 0) = up a0) (h1 : V c (Pipeline.arrRef spec3 1) = up a1)
    (h2 : V c (Pipeline.arrRef spec3 2) = up a2) (t : Fin cfg3.N) :
    (dat3 (F := Ideal) V c).flushed 3 t = ((cfg3.win 3).blk t).view.read (Elt Ideal) (up (linR a0 a1 a2)) := by
  show (cfg3.win 3).cut (grid3.coords t) ((dat3 (F := Ideal) V c).after 3 t) = _
  rw [after3_3]
  unfold out3_3
  rw [View.canon_unit_zero mm_zero_off]
  simp only [View.ld_unit_zero (S := S2000x256) mm_zero_off, View.ld_unit_zero (S := S256x128) mm_zero_off,
    View.ld_unit_zero (S := S1x128) mm_zero_off]
  obtain ⟨e00, e01, e10, e11, e20, e21, e30, e31⟩ := idx_facts3 t
  have hN : cfg3.N = 25 := N_3
  have ht : t.val * 2000 + 2000 ≤ 50000 := by have := t.isLt; omega
  have hx0 : (iblk3 V c 0 t : FVec Ideal S2000x256 .f32) = up (rowsAt 2000 t.val ht a0) := by
    funext y
    show V c (Pipeline.arrRef spec3 0) (((cfg3.win 0).blk t).view.emb y) = up (rowsAt 2000 t.val ht a0) y
    rw [h0]
    refine (up_rowsAt_apply 2000 t.val ht a0 y _ ?_ ?_).symm
    · show win3_0.index t (0 : Fin 2) * 2000 + 1 * (y 0).val = t.val * 2000 + (y 0).val; omega
    · show win3_0.index t (1 : Fin 2) * 256 + 1 * (y 1).val = (y 1).val; omega
  have hx1 : (iblk3 V c 1 t : FVec Ideal S256x128 .f32) = up a1 := by
    funext y
    show V c (Pipeline.arrRef spec3 1) (((cfg3.win 1).blk t).view.emb y) = up a1 y
    rw [h1]
    refine congrArg (up a1) (funext fun a => Fin.ext ?_)
    match a with
    | ⟨0, _⟩ => show win3_1.index t (0 : Fin 2) * 256 + 1 * (y 0).val = (y 0).val; omega
    | ⟨1, _⟩ => show win3_1.index t (1 : Fin 2) * 128 + 1 * (y 1).val = (y 1).val; omega
  have hx2 : (iblk3 V c 2 t : FVec Ideal S1x128 .f32) = up a2 := by
    funext y
    show V c (Pipeline.arrRef spec3 2) (((cfg3.win 2).blk t).view.emb y) = up a2 y
    rw [h2]
    refine congrArg (up a2) (funext fun a => Fin.ext ?_)
    match a with
    | ⟨0, _⟩ => show win3_2.index t (0 : Fin 2) * 1 + 1 * (y 0).val = (y 0).val; omega
    | ⟨1, _⟩ => show win3_2.index t (1 : Fin 2) * 128 + 1 * (y 1).val = (y 1).val; omega
  funext j
  show k3_pay1 (iblk3 V c 0 t) (iblk3 V c 1 t) (iblk3 V c 2 t) j
      = up (linR a0 a1 a2) (((cfg3.win 3).blk t).view.emb j)
  rw [hx0, hx1, hx2, pay3, linR_rowsAt]
  refine up_rowsAt_apply 2000 t.val ht (linR a0 a1 a2) j _ ?_ ?_
  · show win3_3.index t (0 : Fin 2) * 2000 + 1 * (j 0).val = t.val * 2000 + (j 0).val; omega
  · show win3_3.index t (1 : Fin 2) * 128 + 1 * (j 1).val = (j 1).val; omega

theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v51).slice (win3_3.rect t)).set ↔ _
  rw [View.set_slice_whole, Rect.mem_set_unit]
  exact Iff.rfl

theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 25 := N_3
  have ht : (i 0).val / 2000 < cfg3.N := by rw [hN]; omega
  obtain ⟨e00, e01, e10, e11, e20, e21, e30, e31⟩ := idx_facts3 ⟨(i 0).val / 2000, ht⟩
  have e30' : win3_3.index ⟨(i 0).val / 2000, ht⟩ (0 : Fin 2) = (i 0).val / 2000 := e30
  refine ⟨⟨(i 0).val / 2000, ht⟩, flush3_3 _, ?_⟩
  rw [mem_blk3]
  intro a
  match a with
  | ⟨0, _⟩ =>
    show win3_3.index ⟨(i 0).val / 2000, ht⟩ (0 : Fin 2) * 2000 ≤ (i 0).val
      ∧ (i 0).val < win3_3.index ⟨(i 0).val / 2000, ht⟩ (0 : Fin 2) * 2000 + 2000
    omega
  | ⟨1, _⟩ =>
    show win3_3.index ⟨(i 0).val / 2000, ht⟩ (1 : Fin 2) * 128 ≤ (i 1).val
      ∧ (i 1).val < win3_3.index ⟨(i 0).val / 2000, ht⟩ (1 : Fin 2) * 128 + 128
    omega

theorem kregion3 (c : Dev nD) (a0 : Mat 50000 256) (a1 : Mat 256 128) (a2 : Mat 1 128)
    (h0 : V c (Pipeline.arrRef spec3 0) = up a0) (h1 : V c (Pipeline.arrRef spec3 1) = up a1)
    (h2 : V c (Pipeline.arrRef spec3 2) = up a2) :
    (dat3 (F := Ideal) V c).arrAt 3 cfg3.N = up (linR a0 a1 a2) :=
  (dat3 (F := Ideal) V c).arrAt_eq_of_cover 3 (up (linR a0 a1 a2))
    (fun t _ => flushed3 V c a0 a1 a2 h0 h1 h2 t) cover3

theorem pay12 (x0 : Mat 2000 256) (x1 : Mat 256 128) (x2 : Mat 1 128) :
    k12_pay1 (F := Ideal) (up x0) (up x1) (up x2) = up (linR x0 x1 x2) := by
  unfold k12_pay1
  simp only [shapeCast_self]
  rw [up_truncf, up_truncf, up_matmul_zero dot_S2000x256_S256x128_S2000x128_1_0_0_1_n_n rfl rfl rfl rfl rfl rfl,
    up_broadcastRow, up_addf]
  rfl

theorem idx_facts12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

theorem flushed12 (c : Dev nD) (a0 : Mat 50000 256) (a1 : Mat 256 128) (a2 : Mat 1 128)
    (h0 : V c (Pipeline.arrRef spec12 0) = up a0) (h1 : V c (Pipeline.arrRef spec12 1) = up a1)
    (h2 : V c (Pipeline.arrRef spec12 2) = up a2) (t : Fin cfg12.N) :
    (dat12 (F := Ideal) V c).flushed 3 t = ((cfg12.win 3).blk t).view.read (Elt Ideal) (up (linR a0 a1 a2)) := by
  show (cfg12.win 3).cut (grid12.coords t) ((dat12 (F := Ideal) V c).after 3 t) = _
  rw [after12_3]
  unfold out12_3
  rw [View.canon_unit_zero mm_zero_off]
  simp only [View.ld_unit_zero (S := S2000x256) mm_zero_off, View.ld_unit_zero (S := S256x128) mm_zero_off,
    View.ld_unit_zero (S := S1x128) mm_zero_off]
  obtain ⟨e00, e01, e10, e11, e20, e21, e30, e31⟩ := idx_facts12 t
  have hN : cfg12.N = 25 := N_12
  have ht : t.val * 2000 + 2000 ≤ 50000 := by have := t.isLt; omega
  have hx0 : (iblk12 V c 0 t : FVec Ideal S2000x256 .f32) = up (rowsAt 2000 t.val ht a0) := by
    funext y
    show V c (Pipeline.arrRef spec12 0) (((cfg12.win 0).blk t).view.emb y) = up (rowsAt 2000 t.val ht a0) y
    rw [h0]
    refine (up_rowsAt_apply 2000 t.val ht a0 y _ ?_ ?_).symm
    · show win12_0.index t (0 : Fin 2) * 2000 + 1 * (y 0).val = t.val * 2000 + (y 0).val; omega
    · show win12_0.index t (1 : Fin 2) * 256 + 1 * (y 1).val = (y 1).val; omega
  have hx1 : (iblk12 V c 1 t : FVec Ideal S256x128 .f32) = up a1 := by
    funext y
    show V c (Pipeline.arrRef spec12 1) (((cfg12.win 1).blk t).view.emb y) = up a1 y
    rw [h1]
    refine congrArg (up a1) (funext fun a => Fin.ext ?_)
    match a with
    | ⟨0, _⟩ => show win12_1.index t (0 : Fin 2) * 256 + 1 * (y 0).val = (y 0).val; omega
    | ⟨1, _⟩ => show win12_1.index t (1 : Fin 2) * 128 + 1 * (y 1).val = (y 1).val; omega
  have hx2 : (iblk12 V c 2 t : FVec Ideal S1x128 .f32) = up a2 := by
    funext y
    show V c (Pipeline.arrRef spec12 2) (((cfg12.win 2).blk t).view.emb y) = up a2 y
    rw [h2]
    refine congrArg (up a2) (funext fun a => Fin.ext ?_)
    match a with
    | ⟨0, _⟩ => show win12_2.index t (0 : Fin 2) * 1 + 1 * (y 0).val = (y 0).val; omega
    | ⟨1, _⟩ => show win12_2.index t (1 : Fin 2) * 128 + 1 * (y 1).val = (y 1).val; omega
  funext j
  show k12_pay1 (iblk12 V c 0 t) (iblk12 V c 1 t) (iblk12 V c 2 t) j
      = up (linR a0 a1 a2) (((cfg12.win 3).blk t).view.emb j)
  rw [hx0, hx1, hx2, pay12, linR_rowsAt]
  refine up_rowsAt_apply 2000 t.val ht (linR a0 a1 a2) j _ ?_ ?_
  · show win12_3.index t (0 : Fin 2) * 2000 + 1 * (j 0).val = t.val * 2000 + (j 0).val; omega
  · show win12_3.index t (1 : Fin 2) * 128 + 1 * (j 1).val = (j 1).val; omega

theorem mem_blk12 (t : Fin cfg12.N) (i : S50000x128.Idx) :
    i ∈ ((cfg12.win 3).blk t).view.set ↔ ∀ a : Fin 2, win12_3.index t a * S2000x128.size a ≤ (i a).val
      ∧ (i a).val < win12_3.index t a * S2000x128.size a + S2000x128.size a := by
  show i ∈ ((View.whole main_v164).slice (win12_3.rect t)).set ↔ _
  rw [View.set_slice_whole, Rect.mem_set_unit]
  exact Iff.rfl

theorem cover12 (i : S50000x128.Idx) :
    ∃ t : Fin cfg12.N, (cfg12.win 3).flush t = true ∧ i ∈ ((cfg12.win 3).blk t).view.set := by
  have hi0 : (i 0).val < 50000 := (i 0).isLt
  have hi1 : (i 1).val < 128 := (i 1).isLt
  have hN : cfg12.N = 25 := N_12
  have ht : (i 0).val / 2000 < cfg12.N := by rw [hN]; omega
  obtain ⟨e00, e01, e10, e11, e20, e21, e30, e31⟩ := idx_facts12 ⟨(i 0).val / 2000, ht⟩
  have e30' : win12_3.index ⟨(i 0).val / 2000, ht⟩ (0 : Fin 2) = (i 0).val / 2000 := e30
  refine ⟨⟨(i 0).val / 2000, ht⟩, flush12_3 _, ?_⟩
  rw [mem_blk12]
  intro a
  match a with
  | ⟨0, _⟩ =>
    show win12_3.index ⟨(i 0).val / 2000, ht⟩ (0 : Fin 2) * 2000 ≤ (i 0).val
      ∧ (i 0).val < win12_3.index ⟨(i 0).val / 2000, ht⟩ (0 : Fin 2) * 2000 + 2000
    omega
  | ⟨1, _⟩ =>
    show win12_3.index ⟨(i 0).val / 2000, ht⟩ (1 : Fin 2) * 128 ≤ (i 1).val
      ∧ (i 1).val < win12_3.index ⟨(i 0).val / 2000, ht⟩ (1 : Fin 2) * 128 + 128
    omega

theorem kregion12 (c : Dev nD) (a0 : Mat 50000 256) (a1 : Mat 256 128) (a2 : Mat 1 128)
    (h0 : V c (Pipeline.arrRef spec12 0) = up a0) (h1 : V c (Pipeline.arrRef spec12 1) = up a1)
    (h2 : V c (Pipeline.arrRef spec12 2) = up a2) :
    (dat12 (F := Ideal) V c).arrAt 3 cfg12.N = up (linR a0 a1 a2) :=
  (dat12 (F := Ideal) V c).arrAt_eq_of_cover 3 (up (linR a0 a1 a2))
    (fun t _ => flushed12 V c a0 a1 a2 h0 h1 h2 t) cover12

theorem pay21 (x0 : Mat 2000 256) (x1 : Mat 256 128) (x2 : Mat 1 128) :
    k21_pay1 (F := Ideal) (up x0) (up x1) (up x2) = up (linR x0 x1 x2) := by
  unfold k21_pay1
  simp only [shapeCast_self]
  rw [up_truncf, up_truncf, up_matmul_zero dot_S2000x256_S256x128_S2000x128_1_0_0_1_n_n rfl rfl rfl rfl rfl rfl,
    up_broadcastRow, up_addf]
  rfl

theorem idx_facts21 : ∀ t : Fin cfg21.N,
    win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = t.val ∧ win21_3.index t (1 : Fin 2) = 0 :=
  (by decide +kernel : ∀ t : Fin grid21.N, _)

theorem flushed21 (c : Dev nD) (a0 : Mat 50000 256) (a1 : Mat 256 128) (a2 : Mat 1 128)
    (h0 : V c (Pipeline.arrRef spec21 0) = up a0) (h1 : V c (Pipeline.arrRef spec21 1) = up a1)
    (h2 : V c (Pipeline.arrRef spec21 2) = up a2) (t : Fin cfg21.N) :
    (dat21 (F := Ideal) V c).flushed 3 t = ((cfg21.win 3).blk t).view.read (Elt Ideal) (up (linR a0 a1 a2)) := by
  show (cfg21.win 3).cut (grid21.coords t) ((dat21 (F := Ideal) V c).after 3 t) = _
  rw [after21_3]
  unfold out21_3
  rw [View.canon_unit_zero mm_zero_off]
  simp only [View.ld_unit_zero (S := S2000x256) mm_zero_off, View.ld_unit_zero (S := S256x128) mm_zero_off,
    View.ld_unit_zero (S := S1x128) mm_zero_off]
  obtain ⟨e00, e01, e10, e11, e20, e21, e30, e31⟩ := idx_facts21 t
  have hN : cfg21.N = 25 := N_21
  have ht : t.val * 2000 + 2000 ≤ 50000 := by have := t.isLt; omega
  have hx0 : (iblk21 V c 0 t : FVec Ideal S2000x256 .f32) = up (rowsAt 2000 t.val ht a0) := by
    funext y
    show V c (Pipeline.arrRef spec21 0) (((cfg21.win 0).blk t).view.emb y) = up (rowsAt 2000 t.val ht a0) y
    rw [h0]
    refine (up_rowsAt_apply 2000 t.val ht a0 y _ ?_ ?_).symm
    · show win21_0.index t (0 : Fin 2) * 2000 + 1 * (y 0).val = t.val * 2000 + (y 0).val; omega
    · show win21_0.index t (1 : Fin 2) * 256 + 1 * (y 1).val = (y 1).val; omega
  have hx1 : (iblk21 V c 1 t : FVec Ideal S256x128 .f32) = up a1 := by
    funext y
    show V c (Pipeline.arrRef spec21 1) (((cfg21.win 1).blk t).view.emb y) = up a1 y
    rw [h1]
    refine congrArg (up a1) (funext fun a => Fin.ext ?_)
    match a with
    | ⟨0, _⟩ => show win21_1.index t (0 : Fin 2) * 256 + 1 * (y 0).val = (y 0).val; omega
    | ⟨1, _⟩ => show win21_1.index t (1 : Fin 2) * 128 + 1 * (y 1).val = (y 1).val; omega
  have hx2 : (iblk21 V c 2 t : FVec Ideal S1x128 .f32) = up a2 := by
    funext y
    show V c (Pipeline.arrRef spec21 2) (((cfg21.win 2).blk t).view.emb y) = up a2 y
    rw [h2]
    refine congrArg (up a2) (funext fun a => Fin.ext ?_)
    match a with
    | ⟨0, _⟩ => show win21_2.index t (0 : Fin 2) * 1 + 1 * (y 0).val = (y 0).val; omega
    | ⟨1, _⟩ => show win21_2.index t (1 : Fin 2) * 128 + 1 * (y 1).val = (y 1).val; omega
  funext j
  show k21_pay1 (iblk21 V c 0 t) (iblk21 V c 1 t) (iblk21 V c 2 t) j
      = up (linR a0 a1 a2) (((cfg21.win 3).blk t).view.emb j)
  rw [hx0, hx1, hx2, pay21, linR_rowsAt]
  refine up_rowsAt_apply 2000 t.val ht (linR a0 a1 a2) j _ ?_ ?_
  · show win21_3.index t (0 : Fin 2) * 2000 + 1 * (j 0).val = t.val * 2000 + (j 0).val; omega
  · show win21_3.index t (1 : Fin 2) * 128 + 1 * (j 1).val = (j 1).val; omega

theorem mem_blk21 (t : Fin cfg21.N) (i : S50000x128.Idx) :
    i ∈ ((cfg21.win 3).blk t).view.set ↔ ∀ a : Fin 2, win21_3.index t a * S2000x128.size a ≤ (i a).val
      ∧ (i a).val < win21_3.index t a * S2000x128.size a + S2000x128.size a := by
  show i ∈ ((View.whole main_v277).slice (win21_3.rect t)).set ↔ _
  rw [View.set_slice_whole, Rect.mem_set_unit]
  exact Iff.rfl

theorem cover21 (i : S50000x128.Idx) :
    ∃ t : Fin cfg21.N, (cfg21.win 3).flush t = true ∧ i ∈ ((cfg21.win 3).blk t).view.set := by
  have hi0 : (i 0).val < 50000 := (i 0).isLt
  have hi1 : (i 1).val < 128 := (i 1).isLt
  have hN : cfg21.N = 25 := N_21
  have ht : (i 0).val / 2000 < cfg21.N := by rw [hN]; omega
  obtain ⟨e00, e01, e10, e11, e20, e21, e30, e31⟩ := idx_facts21 ⟨(i 0).val / 2000, ht⟩
  have e30' : win21_3.index ⟨(i 0).val / 2000, ht⟩ (0 : Fin 2) = (i 0).val / 2000 := e30
  refine ⟨⟨(i 0).val / 2000, ht⟩, flush21_3 _, ?_⟩
  rw [mem_blk21]
  intro a
  match a with
  | ⟨0, _⟩ =>
    show win21_3.index ⟨(i 0).val / 2000, ht⟩ (0 : Fin 2) * 2000 ≤ (i 0).val
      ∧ (i 0).val < win21_3.index ⟨(i 0).val / 2000, ht⟩ (0 : Fin 2) * 2000 + 2000
    omega
  | ⟨1, _⟩ =>
    show win21_3.index ⟨(i 0).val / 2000, ht⟩ (1 : Fin 2) * 128 ≤ (i 1).val
      ∧ (i 1).val < win21_3.index ⟨(i 0).val / 2000, ht⟩ (1 : Fin 2) * 128 + 128
    omega

theorem kregion21 (c : Dev nD) (a0 : Mat 50000 256) (a1 : Mat 256 128) (a2 : Mat 1 128)
    (h0 : V c (Pipeline.arrRef spec21 0) = up a0) (h1 : V c (Pipeline.arrRef spec21 1) = up a1)
    (h2 : V c (Pipeline.arrRef spec21 2) = up a2) :
    (dat21 (F := Ideal) V c).arrAt 3 cfg21.N = up (linR a0 a1 a2) :=
  (dat21 (F := Ideal) V c).arrAt_eq_of_cover 3 (up (linR a0 a1 a2))
    (fun t _ => flushed21 V c a0 a1 a2 h0 h1 h2 t) cover21

theorem pay7 (x0 : Mat 512 256) (x1 : Mat 256 128) (x2 : Mat 1 128) :
    k7_pay1 (F := Ideal) (up x0) (up x1) (up x2) = up (linR x0 x1 x2) := by
  unfold k7_pay1
  simp only [shapeCast_self]
  rw [up_truncf, up_truncf, up_matmul_zero dot_S512x256_S256x128_S512x128_1_0_0_1_n_n rfl rfl rfl rfl rfl rfl,
    up_broadcastRow, up_addf]
  rfl

theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem flushed7 (c : Dev nD) (a0 : Mat 512 256) (a1 : Mat 256 128) (a2 : Mat 1 128)
    (h0 : V c (Pipeline.arrRef spec7 0) = up a0) (h1 : V c (Pipeline.arrRef spec7 1) = up a1)
    (h2 : V c (Pipeline.arrRef spec7 2) = up a2) (t : Fin cfg7.N) :
    (dat7 (F := Ideal) V c).flushed 3 t = ((cfg7.win 3).blk t).view.read (Elt Ideal) (up (linR a0 a1 a2)) := by
  show (cfg7.win 3).cut (grid7.coords t) ((dat7 (F := Ideal) V c).after 3 t) = _
  rw [after7_3]
  unfold out7_3
  rw [View.canon_unit_zero mm_zero_off]
  simp only [View.ld_unit_zero (S := S512x256) mm_zero_off, View.ld_unit_zero (S := S256x128) mm_zero_off,
    View.ld_unit_zero (S := S1x128) mm_zero_off]
  obtain ⟨e00, e01, e10, e11, e20, e21, e30, e31⟩ := idx_facts7 t
  have hN : cfg7.N = 1 := N_7
  have ht : t.val * 512 + 512 ≤ 512 := by have := t.isLt; omega
  have hx0 : (iblk7 V c 0 t : FVec Ideal S512x256 .f32) = up (rowsAt 512 t.val ht a0) := by
    funext y
    show V c (Pipeline.arrRef spec7 0) (((cfg7.win 0).blk t).view.emb y) = up (rowsAt 512 t.val ht a0) y
    rw [h0]
    refine (up_rowsAt_apply 512 t.val ht a0 y _ ?_ ?_).symm
    · show win7_0.index t (0 : Fin 2) * 512 + 1 * (y 0).val = t.val * 512 + (y 0).val; omega
    · show win7_0.index t (1 : Fin 2) * 256 + 1 * (y 1).val = (y 1).val; omega
  have hx1 : (iblk7 V c 1 t : FVec Ideal S256x128 .f32) = up a1 := by
    funext y
    show V c (Pipeline.arrRef spec7 1) (((cfg7.win 1).blk t).view.emb y) = up a1 y
    rw [h1]
    refine congrArg (up a1) (funext fun a => Fin.ext ?_)
    match a with
    | ⟨0, _⟩ => show win7_1.index t (0 : Fin 2) * 256 + 1 * (y 0).val = (y 0).val; omega
    | ⟨1, _⟩ => show win7_1.index t (1 : Fin 2) * 128 + 1 * (y 1).val = (y 1).val; omega
  have hx2 : (iblk7 V c 2 t : FVec Ideal S1x128 .f32) = up a2 := by
    funext y
    show V c (Pipeline.arrRef spec7 2) (((cfg7.win 2).blk t).view.emb y) = up a2 y
    rw [h2]
    refine congrArg (up a2) (funext fun a => Fin.ext ?_)
    match a with
    | ⟨0, _⟩ => show win7_2.index t (0 : Fin 2) * 1 + 1 * (y 0).val = (y 0).val; omega
    | ⟨1, _⟩ => show win7_2.index t (1 : Fin 2) * 128 + 1 * (y 1).val = (y 1).val; omega
  funext j
  show k7_pay1 (iblk7 V c 0 t) (iblk7 V c 1 t) (iblk7 V c 2 t) j
      = up (linR a0 a1 a2) (((cfg7.win 3).blk t).view.emb j)
  rw [hx0, hx1, hx2, pay7, linR_rowsAt]
  refine up_rowsAt_apply 512 t.val ht (linR a0 a1 a2) j _ ?_ ?_
  · show win7_3.index t (0 : Fin 2) * 512 + 1 * (j 0).val = t.val * 512 + (j 0).val; omega
  · show win7_3.index t (1 : Fin 2) * 128 + 1 * (j 1).val = (j 1).val; omega

theorem mem_blk7 (t : Fin cfg7.N) (i : S512x128.Idx) :
    i ∈ ((cfg7.win 3).blk t).view.set ↔ ∀ a : Fin 2, win7_3.index t a * S512x128.size a ≤ (i a).val
      ∧ (i a).val < win7_3.index t a * S512x128.size a + S512x128.size a := by
  show i ∈ ((View.whole main_v100).slice (win7_3.rect t)).set ↔ _
  rw [View.set_slice_whole, Rect.mem_set_unit]
  exact Iff.rfl

theorem cover7 (i : S512x128.Idx) :
    ∃ t : Fin cfg7.N, (cfg7.win 3).flush t = true ∧ i ∈ ((cfg7.win 3).blk t).view.set := by
  have hi0 : (i 0).val < 512 := (i 0).isLt
  have hi1 : (i 1).val < 128 := (i 1).isLt
  have hN : cfg7.N = 1 := N_7
  have ht : (i 0).val / 512 < cfg7.N := by rw [hN]; omega
  obtain ⟨e00, e01, e10, e11, e20, e21, e30, e31⟩ := idx_facts7 ⟨(i 0).val / 512, ht⟩
  have e30' : win7_3.index ⟨(i 0).val / 512, ht⟩ (0 : Fin 2) = (i 0).val / 512 := e30
  refine ⟨⟨(i 0).val / 512, ht⟩, flush7_3 _, ?_⟩
  rw [mem_blk7]
  intro a
  match a with
  | ⟨0, _⟩ =>
    show win7_3.index ⟨(i 0).val / 512, ht⟩ (0 : Fin 2) * 512 ≤ (i 0).val
      ∧ (i 0).val < win7_3.index ⟨(i 0).val / 512, ht⟩ (0 : Fin 2) * 512 + 512
    omega
  | ⟨1, _⟩ =>
    show win7_3.index ⟨(i 0).val / 512, ht⟩ (1 : Fin 2) * 128 ≤ (i 1).val
      ∧ (i 1).val < win7_3.index ⟨(i 0).val / 512, ht⟩ (1 : Fin 2) * 128 + 128
    omega

theorem kregion7 (c : Dev nD) (a0 : Mat 512 256) (a1 : Mat 256 128) (a2 : Mat 1 128)
    (h0 : V c (Pipeline.arrRef spec7 0) = up a0) (h1 : V c (Pipeline.arrRef spec7 1) = up a1)
    (h2 : V c (Pipeline.arrRef spec7 2) = up a2) :
    (dat7 (F := Ideal) V c).arrAt 3 cfg7.N = up (linR a0 a1 a2) :=
  (dat7 (F := Ideal) V c).arrAt_eq_of_cover 3 (up (linR a0 a1 a2))
    (fun t _ => flushed7 V c a0 a1 a2 h0 h1 h2 t) cover7

theorem pay16 (x0 : Mat 512 256) (x1 : Mat 256 128) (x2 : Mat 1 128) :
    k16_pay1 (F := Ideal) (up x0) (up x1) (up x2) = up (linR x0 x1 x2) := by
  unfold k16_pay1
  simp only [shapeCast_self]
  rw [up_truncf, up_truncf, up_matmul_zero dot_S512x256_S256x128_S512x128_1_0_0_1_n_n rfl rfl rfl rfl rfl rfl,
    up_broadcastRow, up_addf]
  rfl

theorem idx_facts16 : ∀ t : Fin cfg16.N,
    win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0 :=
  (by decide +kernel : ∀ t : Fin grid16.N, _)

theorem flushed16 (c : Dev nD) (a0 : Mat 512 256) (a1 : Mat 256 128) (a2 : Mat 1 128)
    (h0 : V c (Pipeline.arrRef spec16 0) = up a0) (h1 : V c (Pipeline.arrRef spec16 1) = up a1)
    (h2 : V c (Pipeline.arrRef spec16 2) = up a2) (t : Fin cfg16.N) :
    (dat16 (F := Ideal) V c).flushed 3 t = ((cfg16.win 3).blk t).view.read (Elt Ideal) (up (linR a0 a1 a2)) := by
  show (cfg16.win 3).cut (grid16.coords t) ((dat16 (F := Ideal) V c).after 3 t) = _
  rw [after16_3]
  unfold out16_3
  rw [View.canon_unit_zero mm_zero_off]
  simp only [View.ld_unit_zero (S := S512x256) mm_zero_off, View.ld_unit_zero (S := S256x128) mm_zero_off,
    View.ld_unit_zero (S := S1x128) mm_zero_off]
  obtain ⟨e00, e01, e10, e11, e20, e21, e30, e31⟩ := idx_facts16 t
  have hN : cfg16.N = 1 := N_16
  have ht : t.val * 512 + 512 ≤ 512 := by have := t.isLt; omega
  have hx0 : (iblk16 V c 0 t : FVec Ideal S512x256 .f32) = up (rowsAt 512 t.val ht a0) := by
    funext y
    show V c (Pipeline.arrRef spec16 0) (((cfg16.win 0).blk t).view.emb y) = up (rowsAt 512 t.val ht a0) y
    rw [h0]
    refine (up_rowsAt_apply 512 t.val ht a0 y _ ?_ ?_).symm
    · show win16_0.index t (0 : Fin 2) * 512 + 1 * (y 0).val = t.val * 512 + (y 0).val; omega
    · show win16_0.index t (1 : Fin 2) * 256 + 1 * (y 1).val = (y 1).val; omega
  have hx1 : (iblk16 V c 1 t : FVec Ideal S256x128 .f32) = up a1 := by
    funext y
    show V c (Pipeline.arrRef spec16 1) (((cfg16.win 1).blk t).view.emb y) = up a1 y
    rw [h1]
    refine congrArg (up a1) (funext fun a => Fin.ext ?_)
    match a with
    | ⟨0, _⟩ => show win16_1.index t (0 : Fin 2) * 256 + 1 * (y 0).val = (y 0).val; omega
    | ⟨1, _⟩ => show win16_1.index t (1 : Fin 2) * 128 + 1 * (y 1).val = (y 1).val; omega
  have hx2 : (iblk16 V c 2 t : FVec Ideal S1x128 .f32) = up a2 := by
    funext y
    show V c (Pipeline.arrRef spec16 2) (((cfg16.win 2).blk t).view.emb y) = up a2 y
    rw [h2]
    refine congrArg (up a2) (funext fun a => Fin.ext ?_)
    match a with
    | ⟨0, _⟩ => show win16_2.index t (0 : Fin 2) * 1 + 1 * (y 0).val = (y 0).val; omega
    | ⟨1, _⟩ => show win16_2.index t (1 : Fin 2) * 128 + 1 * (y 1).val = (y 1).val; omega
  funext j
  show k16_pay1 (iblk16 V c 0 t) (iblk16 V c 1 t) (iblk16 V c 2 t) j
      = up (linR a0 a1 a2) (((cfg16.win 3).blk t).view.emb j)
  rw [hx0, hx1, hx2, pay16, linR_rowsAt]
  refine up_rowsAt_apply 512 t.val ht (linR a0 a1 a2) j _ ?_ ?_
  · show win16_3.index t (0 : Fin 2) * 512 + 1 * (j 0).val = t.val * 512 + (j 0).val; omega
  · show win16_3.index t (1 : Fin 2) * 128 + 1 * (j 1).val = (j 1).val; omega

theorem mem_blk16 (t : Fin cfg16.N) (i : S512x128.Idx) :
    i ∈ ((cfg16.win 3).blk t).view.set ↔ ∀ a : Fin 2, win16_3.index t a * S512x128.size a ≤ (i a).val
      ∧ (i a).val < win16_3.index t a * S512x128.size a + S512x128.size a := by
  show i ∈ ((View.whole main_v213).slice (win16_3.rect t)).set ↔ _
  rw [View.set_slice_whole, Rect.mem_set_unit]
  exact Iff.rfl

theorem cover16 (i : S512x128.Idx) :
    ∃ t : Fin cfg16.N, (cfg16.win 3).flush t = true ∧ i ∈ ((cfg16.win 3).blk t).view.set := by
  have hi0 : (i 0).val < 512 := (i 0).isLt
  have hi1 : (i 1).val < 128 := (i 1).isLt
  have hN : cfg16.N = 1 := N_16
  have ht : (i 0).val / 512 < cfg16.N := by rw [hN]; omega
  obtain ⟨e00, e01, e10, e11, e20, e21, e30, e31⟩ := idx_facts16 ⟨(i 0).val / 512, ht⟩
  have e30' : win16_3.index ⟨(i 0).val / 512, ht⟩ (0 : Fin 2) = (i 0).val / 512 := e30
  refine ⟨⟨(i 0).val / 512, ht⟩, flush16_3 _, ?_⟩
  rw [mem_blk16]
  intro a
  match a with
  | ⟨0, _⟩ =>
    show win16_3.index ⟨(i 0).val / 512, ht⟩ (0 : Fin 2) * 512 ≤ (i 0).val
      ∧ (i 0).val < win16_3.index ⟨(i 0).val / 512, ht⟩ (0 : Fin 2) * 512 + 512
    omega
  | ⟨1, _⟩ =>
    show win16_3.index ⟨(i 0).val / 512, ht⟩ (1 : Fin 2) * 128 ≤ (i 1).val
      ∧ (i 1).val < win16_3.index ⟨(i 0).val / 512, ht⟩ (1 : Fin 2) * 128 + 128
    omega

theorem kregion16 (c : Dev nD) (a0 : Mat 512 256) (a1 : Mat 256 128) (a2 : Mat 1 128)
    (h0 : V c (Pipeline.arrRef spec16 0) = up a0) (h1 : V c (Pipeline.arrRef spec16 1) = up a1)
    (h2 : V c (Pipeline.arrRef spec16 2) = up a2) :
    (dat16 (F := Ideal) V c).arrAt 3 cfg16.N = up (linR a0 a1 a2) :=
  (dat16 (F := Ideal) V c).arrAt_eq_of_cover 3 (up (linR a0 a1 a2))
    (fun t _ => flushed16 V c a0 a1 a2 h0 h1 h2 t) cover16

end Cert.KernelIdeal.Hand

end
-- ==== Proof.KRegionAffLib.lean ====
import proofs.«403290_j73710228734482_1_alg».proof.Proof.Spec
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Cert.Spec

theorem zero_off2 : (![0, 0] : Fin 2 → Nat) = fun _ => 0 := funext fun a => by fin_cases a <;> rfl

theorem bcastRow_apply {r d : Nat} (x : FVec Ideal ⟨2, ![1, d]⟩ .f32)
    (hb : Shape.Broadcasts ⟨2, ![1, d]⟩ ⟨2, ![r, d]⟩) (p : Fin r) (q : Fin d) :
    broadcastTo ⟨2, ![r, d]⟩ x hb (ix2 p q) = x (ix2 0 q) := by
  refine broadcastTo_apply x hb (ix2 p q) (ix2 0 q) fun a => ?_
  match a with
  | ⟨0, _⟩ => exact (if_pos rfl).symm
  | ⟨1, _⟩ =>
    show q.val = if d = 1 then 0 else q.val
    split
    · have := q.isLt; omega
    · rfl

theorem affRelu_point {n r d : Nat} (a0 : Mat n d) (a1 a2 : Mat 1 d)
    (x0 : FVec Ideal ⟨2, ![r, d]⟩ .f32) (x1 x2 : FVec Ideal ⟨2, ![1, d]⟩ .f32)
    (hb : Shape.Broadcasts ⟨2, ![1, d]⟩ ⟨2, ![r, d]⟩)
    (j : (⟨2, ![r, d]⟩ : Shape).Idx) (i : (⟨2, ![n, d]⟩ : Shape).Idx)
    (h0 : x0 j = up a0 i) (h1 : x1 = up a1) (h2 : x2 = up a2) (hq : (i 1).val = (j 1).val) :
    maximumf (addf (mulf x0 (broadcastTo ⟨2, ![r, d]⟩ x1 hb)) (broadcastTo ⟨2, ![r, d]⟩ x2 hb))
        (broadcast ⟨2, ![r, d]⟩ (FloatOps.ofBits (F := Ideal) .f32 0x00000000#32)) j
      = up (affReluR a0 a1 a2) i := by
  obtain ⟨p, q, rfl⟩ : ∃ (p : Fin r) (q : Fin d), j = ix2 p q := ⟨j 0, j 1, eq_ix2 j⟩
  obtain ⟨p', q', rfl⟩ : ∃ (p' : Fin n) (q' : Fin d), i = ix2 p' q' := ⟨i 0, i 1, eq_ix2 i⟩
  obtain rfl : q' = q := Fin.ext hq
  subst h1 h2
  rw [maximumf_apply, addf_apply, mulf_apply, broadcast_apply, bcastRow_apply, bcastRow_apply, h0]
  show max (((a0 (ix2 p' q') : ℝ) : EReal) * ((a1 (ix2 0 q') : ℝ) : EReal) + ((a2 (ix2 0 q') : ℝ) : EReal))
      (Ideal.ofBits .f32 0x00000000#32) = ((max (a0 (ix2 p' q') * a1 (ix2 0 q') + a2 (ix2 0 q')) 0 : ℝ) : EReal)
  rw [Ideal.ofBits_zero_f32, EReal.coe_strictMono.monotone.map_max, EReal.coe_add, EReal.coe_mul, EReal.coe_zero]

theorem aff_point {n r d : Nat} (a0 : Mat n d) (a1 a2 : Mat 1 d)
    (x0 : FVec Ideal ⟨2, ![r, d]⟩ .f32) (x1 x2 : FVec Ideal ⟨2, ![1, d]⟩ .f32)
    (hb : Shape.Broadcasts ⟨2, ![1, d]⟩ ⟨2, ![r, d]⟩)
    (j : (⟨2, ![r, d]⟩ : Shape).Idx) (i : (⟨2, ![n, d]⟩ : Shape).Idx)
    (h0 : x0 j = up a0 i) (h1 : x1 = up a1) (h2 : x2 = up a2) (hq : (i 1).val = (j 1).val) :
    addf (mulf x0 (broadcastTo ⟨2, ![r, d]⟩ x1 hb)) (broadcastTo ⟨2, ![r, d]⟩ x2 hb) j
      = up (affR a0 a1 a2) i := by
  obtain ⟨p, q, rfl⟩ : ∃ (p : Fin r) (q : Fin d), j = ix2 p q := ⟨j 0, j 1, eq_ix2 j⟩
  obtain ⟨p', q', rfl⟩ : ∃ (p' : Fin n) (q' : Fin d), i = ix2 p' q' := ⟨i 0, i 1, eq_ix2 i⟩
  obtain rfl : q' = q := Fin.ext hq
  subst h1 h2
  rw [addf_apply, mulf_apply, bcastRow_apply, bcastRow_apply, h0]
  show ((a0 (ix2 p' q') : ℝ) : EReal) * ((a1 (ix2 0 q') : ℝ) : EReal) + ((a2 (ix2 0 q') : ℝ) : EReal)
      = ((a0 (ix2 p' q') * a1 (ix2 0 q') + a2 (ix2 0 q') : ℝ) : EReal)
  rw [EReal.coe_add, EReal.coe_mul]

end Cert.KernelIdeal.Hand

end
-- ==== Proof.KRegionAff2.lean ====
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem flushed2 (c : Dev nD) (a0 : Mat 50000 256) (a1 a2 : Mat 1 256)
    (h0 : V c (Pipeline.arrRef spec2 0) = up a0) (h1 : V c (Pipeline.arrRef spec2 1) = up a1)
    (h2 : V c (Pipeline.arrRef spec2 2) = up a2) (t : Fin cfg2.N) :
    (dat2 (F := Ideal) V c).flushed 3 t = ((cfg2.win 3).blk t).view.read (Elt Ideal) (up (affReluR a0 a1 a2)) := by
  show (cfg2.win 3).cut (grid2.coords t) ((dat2 (F := Ideal) V c).after 3 t) = _
  rw [after2_3]
  unfold out2_3
  rw [View.canon_unit_zero zero_off2]
  simp only [View.ld_unit_zero (S := S2000x256) zero_off2, View.ld_unit_zero (S := S1x256) zero_off2]
  obtain ⟨e00, e01, e10, e11, e20, e21, e30, e31⟩ := idx_facts2 t
  have hx1 : (iblk2 V c 1 t : FVec Ideal S1x256 .f32) = up a1 := by
    funext y
    show V c (Pipeline.arrRef spec2 1) (((cfg2.win 1).blk t).view.emb y) = up a1 y
    rw [h1]
    refine congrArg (up a1) (funext fun a => Fin.ext ?_)
    match a with
    | ⟨0, _⟩ => show win2_1.index t (0 : Fin 2) * 1 + 1 * (y 0).val = (y 0).val; omega
    | ⟨1, _⟩ => show win2_1.index t (1 : Fin 2) * 256 + 1 * (y 1).val = (y 1).val; omega
  have hx2 : (iblk2 V c 2 t : FVec Ideal S1x256 .f32) = up a2 := by
    funext y
    show V c (Pipeline.arrRef spec2 2) (((cfg2.win 2).blk t).view.emb y) = up a2 y
    rw [h2]
    refine congrArg (up a2) (funext fun a => Fin.ext ?_)
    match a with
    | ⟨0, _⟩ => show win2_2.index t (0 : Fin 2) * 1 + 1 * (y 0).val = (y 0).val; omega
    | ⟨1, _⟩ => show win2_2.index t (1 : Fin 2) * 256 + 1 * (y 1).val = (y 1).val; omega
  funext j
  show k2_pay1 (iblk2 V c 0 t) (iblk2 V c 1 t) (iblk2 V c 2 t) j
      = up (affReluR a0 a1 a2) (((cfg2.win 3).blk t).view.emb j)
  unfold k2_pay1
  simp only [shapeCast_self]
  refine affRelu_point (n := 50000) (r := 2000) (d := 256) a0 a1 a2 (iblk2 V c 0 t) (iblk2 V c 1 t) (iblk2 V c 2 t)
    broadcasts_S1x256_S2000x256 j (((cfg2.win 3).blk t).view.emb j) ?_ hx1 hx2 ?_
  · show V c (Pipeline.arrRef spec2 0) (((cfg2.win 0).blk t).view.emb j) = up a0 (((cfg2.win 3).blk t).view.emb j)
    rw [h0]
    refine congrArg (up a0) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * (j 1).val = win2_3.index t (1 : Fin 2) * 256 + 1 * (j 1).val; omega
  · show win2_3.index t (1 : Fin 2) * 256 + 1 * (j 1).val = (j 1).val
    omega

theorem mem_blk2 (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v45).slice (win2_3.rect t)).set ↔ _
  rw [View.set_slice_whole, Rect.mem_set_unit]
  exact Iff.rfl

theorem cover2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have hN : cfg2.N = 25 := N_2
  have ht : (i 0).val / 2000 < cfg2.N := by rw [hN]; omega
  obtain ⟨e00, e01, e10, e11, e20, e21, e30, e31⟩ := idx_facts2 ⟨(i 0).val / 2000, ht⟩
  refine ⟨⟨(i 0).val / 2000, ht⟩, flush2_3 _, ?_⟩
  rw [mem_blk2]
  intro a
  match a with
  | ⟨0, _⟩ =>
    show win2_3.index ⟨(i 0).val / 2000, ht⟩ (0 : Fin 2) * 2000 ≤ (i 0).val
      ∧ (i 0).val < win2_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, ht⟩ (1 : Fin 2) * 256 ≤ (i 1).val
      ∧ (i 1).val < win2_3.index ⟨(i 0).val / 2000, ht⟩ (1 : Fin 2) * 256 + 256
    rw [e31]; omega

theorem kregion2 (c : Dev nD) (a0 : Mat 50000 256) (a1 a2 : Mat 1 256)
    (h0 : V c (Pipeline.arrRef spec2 0) = up a0) (h1 : V c (Pipeline.arrRef spec2 1) = up a1)
    (h2 : V c (Pipeline.arrRef spec2 2) = up a2) :
    (dat2 (F := Ideal) V c).arrAt 3 cfg2.N = up (affReluR a0 a1 a2) :=
  (dat2 (F := Ideal) V c).arrAt_eq_of_cover 3 (up (affReluR a0 a1 a2))
    (fun t _ => flushed2 V c a0 a1 a2 h0 h1 h2 t) cover2

end Cert.KernelIdeal.Hand

end
-- ==== Proof.KRegionAff11.lean ====
/-
  Region 11, a multiply-add region over 50000 x 256 in 25 blocks of 2000 rows: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- What point `t` writes back is block `t` of `relu (y s + t)`. -/
theorem flushed11 (c : Dev nD) (a0 : Mat 50000 256) (a1 a2 : Mat 1 256)
    (h0 : V c (Pipeline.arrRef spec11 0) = up a0) (h1 : V c (Pipeline.arrRef spec11 1) = up a1)
    (h2 : V c (Pipeline.arrRef spec11 2) = up a2) (t : Fin cfg11.N) :
    (dat11 (F := Ideal) V c).flushed 3 t = ((cfg11.win 3).blk t).view.read (Elt Ideal) (up (affReluR a0 a1 a2)) := by
  show (cfg11.win 3).cut (grid11.coords t) ((dat11 (F := Ideal) V c).after 3 t) = _
  rw [after11_3]
  unfold out11_3
  rw [View.canon_unit_zero zero_off2]
  simp only [View.ld_unit_zero (S := S2000x256) zero_off2, View.ld_unit_zero (S := S1x256) zero_off2]
  obtain ⟨e00, e01, e10, e11, e20, e21, e30, e31⟩ := idx_facts11 t
  have hx1 : (iblk11 V c 1 t : FVec Ideal S1x256 .f32) = up a1 := by
    funext y
    show V c (Pipeline.arrRef spec11 1) (((cfg11.win 1).blk t).view.emb y) = up a1 y
    rw [h1]
    refine congrArg (up a1) (funext fun a => Fin.ext ?_)
    match a with
    | ⟨0, _⟩ => show win11_1.index t (0 : Fin 2) * 1 + 1 * (y 0).val = (y 0).val; omega
    | ⟨1, _⟩ => show win11_1.index t (1 : Fin 2) * 256 + 1 * (y 1).val = (y 1).val; omega
  have hx2 : (iblk11 V c 2 t : FVec Ideal S1x256 .f32) = up a2 := by
    funext y
    show V c (Pipeline.arrRef spec11 2) (((cfg11.win 2).blk t).view.emb y) = up a2 y
    rw [h2]
    refine congrArg (up a2) (funext fun a => Fin.ext ?_)
    match a with
    | ⟨0, _⟩ => show win11_2.index t (0 : Fin 2) * 1 + 1 * (y 0).val = (y 0).val; omega
    | ⟨1, _⟩ => show win11_2.index t (1 : Fin 2) * 256 + 1 * (y 1).val = (y 1).val; omega
  funext j
  show k11_pay1 (iblk11 V c 0 t) (iblk11 V c 1 t) (iblk11 V c 2 t) j
      = up (affReluR a0 a1 a2) (((cfg11.win 3).blk t).view.emb j)
  unfold k11_pay1
  simp only [shapeCast_self]
  refine affRelu_point (n := 50000) (r := 2000) (d := 256) a0 a1 a2 (iblk11 V c 0 t) (iblk11 V c 1 t) (iblk11 V c 2 t)
    broadcasts_S1x256_S2000x256 j (((cfg11.win 3).blk t).view.emb j) ?_ hx1 hx2 ?_
  · show V c (Pipeline.arrRef spec11 0) (((cfg11.win 0).blk t).view.emb j) = up a0 (((cfg11.win 3).blk t).view.emb j)
    rw [h0]
    refine congrArg (up a0) (funext fun a => Fin.ext ?_)
    match a with
    | ⟨0, _⟩ => show win11_0.index t (0 : Fin 2) * 2000 + 1 * (j 0).val = win11_3.index t (0 : Fin 2) * 2000 + 1 * (j 0).val; omega
    | ⟨1, _⟩ => show win11_0.index t (1 : Fin 2) * 256 + 1 * (j 1).val = win11_3.index t (1 : Fin 2) * 256 + 1 * (j 1).val; omega
  · show win11_3.index t (1 : Fin 2) * 256 + 1 * (j 1).val = (j 1).val
    omega

/-- An index of the array is in point `t`'s block iff each coordinate is in the block's range on its axis. -/
theorem mem_blk11 (t : Fin cfg11.N) (i : S50000x256.Idx) :
    i ∈ ((cfg11.win 3).blk t).view.set ↔ ∀ a : Fin 2, win11_3.index t a * S2000x256.size a ≤ (i a).val
      ∧ (i a).val < win11_3.index t a * S2000x256.size a + S2000x256.size a := by
  show i ∈ ((View.whole main_v158).slice (win11_3.rect t)).set ↔ _
  rw [View.set_slice_whole, Rect.mem_set_unit]
  exact Iff.rfl

/-- The blocks cover the array: row `r` is in the block of point `r / 2000`. -/
theorem cover11 (i : S50000x256.Idx) :
    ∃ t : Fin cfg11.N, (cfg11.win 3).flush t = true ∧ i ∈ ((cfg11.win 3).blk t).view.set := by
  have hi0 : (i 0).val < 50000 := (i 0).isLt
  have hi1 : (i 1).val < 256 := (i 1).isLt
  have hN : cfg11.N = 25 := N_11
  have ht : (i 0).val / 2000 < cfg11.N := by rw [hN]; omega
  obtain ⟨e00, e01, e10, e11, e20, e21, e30, e31⟩ := idx_facts11 ⟨(i 0).val / 2000, ht⟩
  refine ⟨⟨(i 0).val / 2000, ht⟩, flush11_3 _, ?_⟩
  rw [mem_blk11]
  intro a
  match a with
  | ⟨0, _⟩ =>
    show win11_3.index ⟨(i 0).val / 2000, ht⟩ (0 : Fin 2) * 2000 ≤ (i 0).val
      ∧ (i 0).val < win11_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win11_3.index ⟨(i 0).val / 2000, ht⟩ (1 : Fin 2) * 256 ≤ (i 1).val
      ∧ (i 1).val < win11_3.index ⟨(i 0).val / 2000, ht⟩ (1 : Fin 2) * 256 + 256
    rw [e31]; omega

/-- The array the region leaves. -/
theorem kregion11 (c : Dev nD) (a0 : Mat 50000 256) (a1 a2 : Mat 1 256)
    (h0 : V c (Pipeline.arrRef spec11 0) = up a0) (h1 : V c (Pipeline.arrRef spec11 1) = up a1)
    (h2 : V c (Pipeline.arrRef spec11 2) = up a2) :
    (dat11 (F := Ideal) V c).arrAt 3 cfg11.N = up (affReluR a0 a1 a2) :=
  (dat11 (F := Ideal) V c).arrAt_eq_of_cover 3 (up (affReluR a0 a1 a2))
    (fun t _ => flushed11 V c a0 a1 a2 h0 h1 h2 t) cover11

end Cert.KernelIdeal.Hand

end
-- ==== Proof.KRegionAff20.lean ====
/-
  Region 20, a multiply-add region over 50000 x 256 in 25 blocks of 2000 rows: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts20 : ∀ t : Fin cfg20.N,
    win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = t.val ∧ win20_3.index t (1 : Fin 2) = 0 :=
  (by decide +kernel : ∀ t : Fin grid20.N, _)

/-- What point `t` writes back is block `t` of `relu (y s + t)`. -/
theorem flushed20 (c : Dev nD) (a0 : Mat 50000 256) (a1 a2 : Mat 1 256)
    (h0 : V c (Pipeline.arrRef spec20 0) = up a0) (h1 : V c (Pipeline.arrRef spec20 1) = up a1)
    (h2 : V c (Pipeline.arrRef spec20 2) = up a2) (t : Fin cfg20.N) :
    (dat20 (F := Ideal) V c).flushed 3 t = ((cfg20.win 3).blk t).view.read (Elt Ideal) (up (affReluR a0 a1 a2)) := by
  show (cfg20.win 3).cut (grid20.coords t) ((dat20 (F := Ideal) V c).after 3 t) = _
  rw [after20_3]
  unfold out20_3
  rw [View.canon_unit_zero zero_off2]
  simp only [View.ld_unit_zero (S := S2000x256) zero_off2, View.ld_unit_zero (S := S1x256) zero_off2]
  obtain ⟨e00, e01, e10, e11, e20, e21, e30, e31⟩ := idx_facts20 t
  have hx1 : (iblk20 V c 1 t : FVec Ideal S1x256 .f32) = up a1 := by
    funext y
    show V c (Pipeline.arrRef spec20 1) (((cfg20.win 1).blk t).view.emb y) = up a1 y
    rw [h1]
    refine congrArg (up a1) (funext fun a => Fin.ext ?_)
    match a with
    | ⟨0, _⟩ => show win20_1.index t (0 : Fin 2) * 1 + 1 * (y 0).val = (y 0).val; omega
    | ⟨1, _⟩ => show win20_1.index t (1 : Fin 2) * 256 + 1 * (y 1).val = (y 1).val; omega
  have hx2 : (iblk20 V c 2 t : FVec Ideal S1x256 .f32) = up a2 := by
    funext y
    show V c (Pipeline.arrRef spec20 2) (((cfg20.win 2).blk t).view.emb y) = up a2 y
    rw [h2]
    refine congrArg (up a2) (funext fun a => Fin.ext ?_)
    match a with
    | ⟨0, _⟩ => show win20_2.index t (0 : Fin 2) * 1 + 1 * (y 0).val = (y 0).val; omega
    | ⟨1, _⟩ => show win20_2.index t (1 : Fin 2) * 256 + 1 * (y 1).val = (y 1).val; omega
  funext j
  show k20_pay1 (iblk20 V c 0 t) (iblk20 V c 1 t) (iblk20 V c 2 t) j
      = up (affReluR a0 a1 a2) (((cfg20.win 3).blk t).view.emb j)
  unfold k20_pay1
  simp only [shapeCast_self]
  refine affRelu_point (n := 50000) (r := 2000) (d := 256) a0 a1 a2 (iblk20 V c 0 t) (iblk20 V c 1 t) (iblk20 V c 2 t)
    broadcasts_S1x256_S2000x256 j (((cfg20.win 3).blk t).view.emb j) ?_ hx1 hx2 ?_
  · show V c (Pipeline.arrRef spec20 0) (((cfg20.win 0).blk t).view.emb j) = up a0 (((cfg20.win 3).blk t).view.emb j)
    rw [h0]
    refine congrArg (up a0) (funext fun a => Fin.ext ?_)
    match a with
    | ⟨0, _⟩ => show win20_0.index t (0 : Fin 2) * 2000 + 1 * (j 0).val = win20_3.index t (0 : Fin 2) * 2000 + 1 * (j 0).val; omega
    | ⟨1, _⟩ => show win20_0.index t (1 : Fin 2) * 256 + 1 * (j 1).val = win20_3.index t (1 : Fin 2) * 256 + 1 * (j 1).val; omega
  · show win20_3.index t (1 : Fin 2) * 256 + 1 * (j 1).val = (j 1).val
    omega

/-- An index of the array is in point `t`'s block iff each coordinate is in the block's range on its axis. -/
theorem mem_blk20 (t : Fin cfg20.N) (i : S50000x256.Idx) :
    i ∈ ((cfg20.win 3).blk t).view.set ↔ ∀ a : Fin 2, win20_3.index t a * S2000x256.size a ≤ (i a).val
      ∧ (i a).val < win20_3.index t a * S2000x256.size a + S2000x256.size a := by
  show i ∈ ((View.whole main_v271).slice (win20_3.rect t)).set ↔ _
  rw [View.set_slice_whole, Rect.mem_set_unit]
  exact Iff.rfl

/-- The blocks cover the array: row `r` is in the block of point `r / 2000`. -/
theorem cover20 (i : S50000x256.Idx) :
    ∃ t : Fin cfg20.N, (cfg20.win 3).flush t = true ∧ i ∈ ((cfg20.win 3).blk t).view.set := by
  have hi0 : (i 0).val < 50000 := (i 0).isLt
  have hi1 : (i 1).val < 256 := (i 1).isLt
  have hN : cfg20.N = 25 := N_20
  have ht : (i 0).val / 2000 < cfg20.N := by rw [hN]; omega
  obtain ⟨e00, e01, e10, e11, e20, e21, e30, e31⟩ := idx_facts20 ⟨(i 0).val / 2000, ht⟩
  refine ⟨⟨(i 0).val / 2000, ht⟩, flush20_3 _, ?_⟩
  rw [mem_blk20]
  intro a
  match a with
  | ⟨0, _⟩ =>
    show win20_3.index ⟨(i 0).val / 2000, ht⟩ (0 : Fin 2) * 2000 ≤ (i 0).val
      ∧ (i 0).val < win20_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win20_3.index ⟨(i 0).val / 2000, ht⟩ (1 : Fin 2) * 256 ≤ (i 1).val
      ∧ (i 1).val < win20_3.index ⟨(i 0).val / 2000, ht⟩ (1 : Fin 2) * 256 + 256
    rw [e31]; omega

/-- The array the region leaves. -/
theorem kregion20 (c : Dev nD) (a0 : Mat 50000 256) (a1 a2 : Mat 1 256)
    (h0 : V c (Pipeline.arrRef spec20 0) = up a0) (h1 : V c (Pipeline.arrRef spec20 1) = up a1)
    (h2 : V c (Pipeline.arrRef spec20 2) = up a2) :
    (dat20 (F := Ideal) V c).arrAt 3 cfg20.N = up (affReluR a0 a1 a2) :=
  (dat20 (F := Ideal) V c).arrAt_eq_of_cover 3 (up (affReluR a0 a1 a2))
    (fun t _ => flushed20 V c a0 a1 a2 h0 h1 h2 t) cover20

end Cert.KernelIdeal.Hand

end
-- ==== Proof.KRegionAff6.lean ====
/-
  Region 6, a multiply-add region over 512 x 256 in one block: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `relu (y s + t)`. -/
theorem flushed6 (c : Dev nD) (a0 : Mat 512 256) (a1 a2 : Mat 1 256)
    (h0 : V c (Pipeline.arrRef spec6 0) = up a0) (h1 : V c (Pipeline.arrRef spec6 1) = up a1)
    (h2 : V c (Pipeline.arrRef spec6 2) = up a2) (t : Fin cfg6.N) :
    (dat6 (F := Ideal) V c).flushed 3 t = ((cfg6.win 3).blk t).view.read (Elt Ideal) (up (affReluR a0 a1 a2)) := by
  show (cfg6.win 3).cut (grid6.coords t) ((dat6 (F := Ideal) V c).after 3 t) = _
  rw [after6_3]
  unfold out6_3
  rw [View.canon_unit_zero zero_off2]
  simp only [View.ld_unit_zero (S := S512x256) zero_off2, View.ld_unit_zero (S := S1x256) zero_off2]
  obtain ⟨e00, e01, e10, e11, e20, e21, e30, e31⟩ := idx_facts6 t
  have hx1 : (iblk6 V c 1 t : FVec Ideal S1x256 .f32) = up a1 := by
    funext y
    show V c (Pipeline.arrRef spec6 1) (((cfg6.win 1).blk t).view.emb y) = up a1 y
    rw [h1]
    refine congrArg (up a1) (funext fun a => Fin.ext ?_)
    match a with
    | ⟨0, _⟩ => show win6_1.index t (0 : Fin 2) * 1 + 1 * (y 0).val = (y 0).val; omega
    | ⟨1, _⟩ => show win6_1.index t (1 : Fin 2) * 256 + 1 * (y 1).val = (y 1).val; omega
  have hx2 : (iblk6 V c 2 t : FVec Ideal S1x256 .f32) = up a2 := by
    funext y
    show V c (Pipeline.arrRef spec6 2) (((cfg6.win 2).blk t).view.emb y) = up a2 y
    rw [h2]
    refine congrArg (up a2) (funext fun a => Fin.ext ?_)
    match a with
    | ⟨0, _⟩ => show win6_2.index t (0 : Fin 2) * 1 + 1 * (y 0).val = (y 0).val; omega
    | ⟨1, _⟩ => show win6_2.index t (1 : Fin 2) * 256 + 1 * (y 1).val = (y 1).val; omega
  funext j
  show k6_pay1 (iblk6 V c 0 t) (iblk6 V c 1 t) (iblk6 V c 2 t) j
      = up (affReluR a0 a1 a2) (((cfg6.win 3).blk t).view.emb j)
  unfold k6_pay1
  simp only [shapeCast_self]
  refine affRelu_point (n := 512) (r := 512) (d := 256) a0 a1 a2 (iblk6 V c 0 t) (iblk6 V c 1 t) (iblk6 V c 2 t)
    broadcasts_S1x256_S512x256 j (((cfg6.win 3).blk t).view.emb j) ?_ hx1 hx2 ?_
  · show V c (Pipeline.arrRef spec6 0) (((cfg6.win 0).blk t).view.emb j) = up a0 (((cfg6.win 3).blk t).view.emb j)
    rw [h0]
    refine congrArg (up a0) (funext fun a => Fin.ext ?_)
    match a with
    | ⟨0, _⟩ => show win6_0.index t (0 : Fin 2) * 512 + 1 * (j 0).val = win6_3.index t (0 : Fin 2) * 512 + 1 * (j 0).val; omega
    | ⟨1, _⟩ => show win6_0.index t (1 : Fin 2) * 256 + 1 * (j 1).val = win6_3.index t (1 : Fin 2) * 256 + 1 * (j 1).val; omega
  · show win6_3.index t (1 : Fin 2) * 256 + 1 * (j 1).val = (j 1).val
    omega

/-- An index of the array is in point `t`'s block iff each coordinate is in the block's range on its axis. -/
theorem mem_blk6 (t : Fin cfg6.N) (i : S512x256.Idx) :
    i ∈ ((cfg6.win 3).blk t).view.set ↔ ∀ a : Fin 2, win6_3.index t a * S512x256.size a ≤ (i a).val
      ∧ (i a).val < win6_3.index t a * S512x256.size a + S512x256.size a := by
  show i ∈ ((View.whole main_v94).slice (win6_3.rect t)).set ↔ _
  rw [View.set_slice_whole, Rect.mem_set_unit]
  exact Iff.rfl

/-- The blocks cover the array: row `r` is in the block of point `r / 512`. -/
theorem cover6 (i : S512x256.Idx) :
    ∃ t : Fin cfg6.N, (cfg6.win 3).flush t = true ∧ i ∈ ((cfg6.win 3).blk t).view.set := by
  have hi0 : (i 0).val < 512 := (i 0).isLt
  have hi1 : (i 1).val < 256 := (i 1).isLt
  have hN : cfg6.N = 1 := N_6
  have ht : (i 0).val / 512 < cfg6.N := by rw [hN]; omega
  obtain ⟨e00, e01, e10, e11, e20, e21, e30, e31⟩ := idx_facts6 ⟨(i 0).val / 512, ht⟩
  refine ⟨⟨(i 0).val / 512, ht⟩, flush6_3 _, ?_⟩
  rw [mem_blk6]
  intro a
  match a with
  | ⟨0, _⟩ =>
    show win6_3.index ⟨(i 0).val / 512, ht⟩ (0 : Fin 2) * 512 ≤ (i 0).val
      ∧ (i 0).val < win6_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win6_3.index ⟨(i 0).val / 512, ht⟩ (1 : Fin 2) * 256 ≤ (i 1).val
      ∧ (i 1).val < win6_3.index ⟨(i 0).val / 512, ht⟩ (1 : Fin 2) * 256 + 256
    rw [e31]; omega

/-- The array the region leaves. -/
theorem kregion6 (c : Dev nD) (a0 : Mat 512 256) (a1 a2 : Mat 1 256)
    (h0 : V c (Pipeline.arrRef spec6 0) = up a0) (h1 : V c (Pipeline.arrRef spec6 1) = up a1)
    (h2 : V c (Pipeline.arrRef spec6 2) = up a2) :
    (dat6 (F := Ideal) V c).arrAt 3 cfg6.N = up (affReluR a0 a1 a2) :=
  (dat6 (F := Ideal) V c).arrAt_eq_of_cover 3 (up (affReluR a0 a1 a2))
    (fun t _ => flushed6 V c a0 a1 a2 h0 h1 h2 t) cover6

end Cert.KernelIdeal.Hand

end
-- ==== Proof.KRegionAff15.lean ====
/-
  Region 15, a multiply-add region over 512 x 256 in one block: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts15 : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- What point `t` writes back is block `t` of `relu (y s + t)`. -/
theorem flushed15 (c : Dev nD) (a0 : Mat 512 256) (a1 a2 : Mat 1 256)
    (h0 : V c (Pipeline.arrRef spec15 0) = up a0) (h1 : V c (Pipeline.arrRef spec15 1) = up a1)
    (h2 : V c (Pipeline.arrRef spec15 2) = up a2) (t : Fin cfg15.N) :
    (dat15 (F := Ideal) V c).flushed 3 t = ((cfg15.win 3).blk t).view.read (Elt Ideal) (up (affReluR a0 a1 a2)) := by
  show (cfg15.win 3).cut (grid15.coords t) ((dat15 (F := Ideal) V c).after 3 t) = _
  rw [after15_3]
  unfold out15_3
  rw [View.canon_unit_zero zero_off2]
  simp only [View.ld_unit_zero (S := S512x256) zero_off2, View.ld_unit_zero (S := S1x256) zero_off2]
  obtain ⟨e00, e01, e10, e11, e20, e21, e30, e31⟩ := idx_facts15 t
  have hx1 : (iblk15 V c 1 t : FVec Ideal S1x256 .f32) = up a1 := by
    funext y
    show V c (Pipeline.arrRef spec15 1) (((cfg15.win 1).blk t).view.emb y) = up a1 y
    rw [h1]
    refine congrArg (up a1) (funext fun a => Fin.ext ?_)
    match a with
    | ⟨0, _⟩ => show win15_1.index t (0 : Fin 2) * 1 + 1 * (y 0).val = (y 0).val; omega
    | ⟨1, _⟩ => show win15_1.index t (1 : Fin 2) * 256 + 1 * (y 1).val = (y 1).val; omega
  have hx2 : (iblk15 V c 2 t : FVec Ideal S1x256 .f32) = up a2 := by
    funext y
    show V c (Pipeline.arrRef spec15 2) (((cfg15.win 2).blk t).view.emb y) = up a2 y
    rw [h2]
    refine congrArg (up a2) (funext fun a => Fin.ext ?_)
    match a with
    | ⟨0, _⟩ => show win15_2.index t (0 : Fin 2) * 1 + 1 * (y 0).val = (y 0).val; omega
    | ⟨1, _⟩ => show win15_2.index t (1 : Fin 2) * 256 + 1 * (y 1).val = (y 1).val; omega
  funext j
  show k15_pay1 (iblk15 V c 0 t) (iblk15 V c 1 t) (iblk15 V c 2 t) j
      = up (affReluR a0 a1 a2) (((cfg15.win 3).blk t).view.emb j)
  unfold k15_pay1
  simp only [shapeCast_self]
  refine affRelu_point (n := 512) (r := 512) (d := 256) a0 a1 a2 (iblk15 V c 0 t) (iblk15 V c 1 t) (iblk15 V c 2 t)
    broadcasts_S1x256_S512x256 j (((cfg15.win 3).blk t).view.emb j) ?_ hx1 hx2 ?_
  · show V c (Pipeline.arrRef spec15 0) (((cfg15.win 0).blk t).view.emb j) = up a0 (((cfg15.win 3).blk t).view.emb j)
    rw [h0]
    refine congrArg (up a0) (funext fun a => Fin.ext ?_)
    match a with
    | ⟨0, _⟩ => show win15_0.index t (0 : Fin 2) * 512 + 1 * (j 0).val = win15_3.index t (0 : Fin 2) * 512 + 1 * (j 0).val; omega
    | ⟨1, _⟩ => show win15_0.index t (1 : Fin 2) * 256 + 1 * (j 1).val = win15_3.index t (1 : Fin 2) * 256 + 1 * (j 1).val; omega
  · show win15_3.index t (1 : Fin 2) * 256 + 1 * (j 1).val = (j 1).val
    omega

/-- An index of the array is in point `t`'s block iff each coordinate is in the block's range on its axis. -/
theorem mem_blk15 (t : Fin cfg15.N) (i : S512x256.Idx) :
    i ∈ ((cfg15.win 3).blk t).view.set ↔ ∀ a : Fin 2, win15_3.index t a * S512x256.size a ≤ (i a).val
      ∧ (i a).val < win15_3.index t a * S512x256.size a + S512x256.size a := by
  show i ∈ ((View.whole main_v207).slice (win15_3.rect t)).set ↔ _
  rw [View.set_slice_whole, Rect.mem_set_unit]
  exact Iff.rfl

/-- The blocks cover the array: row `r` is in the block of point `r / 512`. -/
theorem cover15 (i : S512x256.Idx) :
    ∃ t : Fin cfg15.N, (cfg15.win 3).flush t = true ∧ i ∈ ((cfg15.win 3).blk t).view.set := by
  have hi0 : (i 0).val < 512 := (i 0).isLt
  have hi1 : (i 1).val < 256 := (i 1).isLt
  have hN : cfg15.N = 1 := N_15
  have ht : (i 0).val / 512 < cfg15.N := by rw [hN]; omega
  obtain ⟨e00, e01, e10, e11, e20, e21, e30, e31⟩ := idx_facts15 ⟨(i 0).val / 512, ht⟩
  refine ⟨⟨(i 0).val / 512, ht⟩, flush15_3 _, ?_⟩
  rw [mem_blk15]
  intro a
  match a with
  | ⟨0, _⟩ =>
    show win15_3.index ⟨(i 0).val / 512, ht⟩ (0 : Fin 2) * 512 ≤ (i 0).val
      ∧ (i 0).val < win15_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win15_3.index ⟨(i 0).val / 512, ht⟩ (1 : Fin 2) * 256 ≤ (i 1).val
      ∧ (i 1).val < win15_3.index ⟨(i 0).val / 512, ht⟩ (1 : Fin 2) * 256 + 256
    rw [e31]; omega

/-- The array the region leaves. -/
theorem kregion15 (c : Dev nD) (a0 : Mat 512 256) (a1 a2 : Mat 1 256)
    (h0 : V c (Pipeline.arrRef spec15 0) = up a0) (h1 : V c (Pipeline.arrRef spec15 1) = up a1)
    (h2 : V c (Pipeline.arrRef spec15 2) = up a2) :
    (dat15 (F := Ideal) V c).arrAt 3 cfg15.N = up (affReluR a0 a1 a2) :=
  (dat15 (F := Ideal) V c).arrAt_eq_of_cover 3 (up (affReluR a0 a1 a2))
    (fun t _ => flushed15 V c a0 a1 a2 h0 h1 h2 t) cover15

end Cert.KernelIdeal.Hand

end
-- ==== Proof.KRegionAff8.lean ====
/-
  Region 8, a multiply-add region over 512 x 128 in one block: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0 :=
  (by decide +kernel : ∀ t : Fin grid8.N, _)

/-- What point `t` writes back is block `t` of `relu (y s + t)`. -/
theorem flushed8 (c : Dev nD) (a0 : Mat 512 128) (a1 a2 : Mat 1 128)
    (h0 : V c (Pipeline.arrRef spec8 0) = up a0) (h1 : V c (Pipeline.arrRef spec8 1) = up a1)
    (h2 : V c (Pipeline.arrRef spec8 2) = up a2) (t : Fin cfg8.N) :
    (dat8 (F := Ideal) V c).flushed 3 t = ((cfg8.win 3).blk t).view.read (Elt Ideal) (up (affReluR a0 a1 a2)) := by
  show (cfg8.win 3).cut (grid8.coords t) ((dat8 (F := Ideal) V c).after 3 t) = _
  rw [after8_3]
  unfold out8_3
  rw [View.canon_unit_zero zero_off2]
  simp only [View.ld_unit_zero (S := S512x128) zero_off2, View.ld_unit_zero (S := S1x128) zero_off2]
  obtain ⟨e00, e01, e10, e11, e20, e21, e30, e31⟩ := idx_facts8 t
  have hx1 : (iblk8 V c 1 t : FVec Ideal S1x128 .f32) = up a1 := by
    funext y
    show V c (Pipeline.arrRef spec8 1) (((cfg8.win 1).blk t).view.emb y) = up a1 y
    rw [h1]
    refine congrArg (up a1) (funext fun a => Fin.ext ?_)
    match a with
    | ⟨0, _⟩ => show win8_1.index t (0 : Fin 2) * 1 + 1 * (y 0).val = (y 0).val; omega
    | ⟨1, _⟩ => show win8_1.index t (1 : Fin 2) * 128 + 1 * (y 1).val = (y 1).val; omega
  have hx2 : (iblk8 V c 2 t : FVec Ideal S1x128 .f32) = up a2 := by
    funext y
    show V c (Pipeline.arrRef spec8 2) (((cfg8.win 2).blk t).view.emb y) = up a2 y
    rw [h2]
    refine congrArg (up a2) (funext fun a => Fin.ext ?_)
    match a with
    | ⟨0, _⟩ => show win8_2.index t (0 : Fin 2) * 1 + 1 * (y 0).val = (y 0).val; omega
    | ⟨1, _⟩ => show win8_2.index t (1 : Fin 2) * 128 + 1 * (y 1).val = (y 1).val; omega
  funext j
  show k8_pay1 (iblk8 V c 0 t) (iblk8 V c 1 t) (iblk8 V c 2 t) j
      = up (affReluR a0 a1 a2) (((cfg8.win 3).blk t).view.emb j)
  unfold k8_pay1
  simp only [shapeCast_self]
  refine affRelu_point (n := 512) (r := 512) (d := 128) a0 a1 a2 (iblk8 V c 0 t) (iblk8 V c 1 t) (iblk8 V c 2 t)
    broadcasts_S1x128_S512x128 j (((cfg8.win 3).blk t).view.emb j) ?_ hx1 hx2 ?_
  · show V c (Pipeline.arrRef spec8 0) (((cfg8.win 0).blk t).view.emb j) = up a0 (((cfg8.win 3).blk t).view.emb j)
    rw [h0]
    refine congrArg (up a0) (funext fun a => Fin.ext ?_)
    match a with
    | ⟨0, _⟩ => show win8_0.index t (0 : Fin 2) * 512 + 1 * (j 0).val = win8_3.index t (0 : Fin 2) * 512 + 1 * (j 0).val; omega
    | ⟨1, _⟩ => show win8_0.index t (1 : Fin 2) * 128 + 1 * (j 1).val = win8_3.index t (1 : Fin 2) * 128 + 1 * (j 1).val; omega
  · show win8_3.index t (1 : Fin 2) * 128 + 1 * (j 1).val = (j 1).val
    omega

/-- An index of the array is in point `t`'s block iff each coordinate is in the block's range on its axis. -/
theorem mem_blk8 (t : Fin cfg8.N) (i : S512x128.Idx) :
    i ∈ ((cfg8.win 3).blk t).view.set ↔ ∀ a : Fin 2, win8_3.index t a * S512x128.size a ≤ (i a).val
      ∧ (i a).val < win8_3.index t a * S512x128.size a + S512x128.size a := by
  show i ∈ ((View.whole main_v117).slice (win8_3.rect t)).set ↔ _
  rw [View.set_slice_whole, Rect.mem_set_unit]
  exact Iff.rfl

/-- The blocks cover the array: row `r` is in the block of point `r / 512`. -/
theorem cover8 (i : S512x128.Idx) :
    ∃ t : Fin cfg8.N, (cfg8.win 3).flush t = true ∧ i ∈ ((cfg8.win 3).blk t).view.set := by
  have hi0 : (i 0).val < 512 := (i 0).isLt
  have hi1 : (i 1).val < 128 := (i 1).isLt
  have hN : cfg8.N = 1 := N_8
  have ht : (i 0).val / 512 < cfg8.N := by rw [hN]; omega
  obtain ⟨e00, e01, e10, e11, e20, e21, e30, e31⟩ := idx_facts8 ⟨(i 0).val / 512, ht⟩
  refine ⟨⟨(i 0).val / 512, ht⟩, flush8_3 _, ?_⟩
  rw [mem_blk8]
  intro a
  match a with
  | ⟨0, _⟩ =>
    show win8_3.index ⟨(i 0).val / 512, ht⟩ (0 : Fin 2) * 512 ≤ (i 0).val
      ∧ (i 0).val < win8_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win8_3.index ⟨(i 0).val / 512, ht⟩ (1 : Fin 2) * 128 ≤ (i 1).val
      ∧ (i 1).val < win8_3.index ⟨(i 0).val / 512, ht⟩ (1 : Fin 2) * 128 + 128
    rw [e31]; omega

/-- The array the region leaves. -/
theorem kregion8 (c : Dev nD) (a0 : Mat 512 128) (a1 a2 : Mat 1 128)
    (h0 : V c (Pipeline.arrRef spec8 0) = up a0) (h1 : V c (Pipeline.arrRef spec8 1) = up a1)
    (h2 : V c (Pipeline.arrRef spec8 2) = up a2) :
    (dat8 (F := Ideal) V c).arrAt 3 cfg8.N = up (affReluR a0 a1 a2) :=
  (dat8 (F := Ideal) V c).arrAt_eq_of_cover 3 (up (affReluR a0 a1 a2))
    (fun t _ => flushed8 V c a0 a1 a2 h0 h1 h2 t) cover8

end Cert.KernelIdeal.Hand

end
-- ==== Proof.KRegionAff17.lean ====
/-
  Region 17, a multiply-add region over 512 x 128 in one block: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts17 : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- What point `t` writes back is block `t` of `relu (y s + t)`. -/
theorem flushed17 (c : Dev nD) (a0 : Mat 512 128) (a1 a2 : Mat 1 128)
    (h0 : V c (Pipeline.arrRef spec17 0) = up a0) (h1 : V c (Pipeline.arrRef spec17 1) = up a1)
    (h2 : V c (Pipeline.arrRef spec17 2) = up a2) (t : Fin cfg17.N) :
    (dat17 (F := Ideal) V c).flushed 3 t = ((cfg17.win 3).blk t).view.read (Elt Ideal) (up (affReluR a0 a1 a2)) := by
  show (cfg17.win 3).cut (grid17.coords t) ((dat17 (F := Ideal) V c).after 3 t) = _
  rw [after17_3]
  unfold out17_3
  rw [View.canon_unit_zero zero_off2]
  simp only [View.ld_unit_zero (S := S512x128) zero_off2, View.ld_unit_zero (S := S1x128) zero_off2]
  obtain ⟨e00, e01, e10, e11, e20, e21, e30, e31⟩ := idx_facts17 t
  have hx1 : (iblk17 V c 1 t : FVec Ideal S1x128 .f32) = up a1 := by
    funext y
    show V c (Pipeline.arrRef spec17 1) (((cfg17.win 1).blk t).view.emb y) = up a1 y
    rw [h1]
    refine congrArg (up a1) (funext fun a => Fin.ext ?_)
    match a with
    | ⟨0, _⟩ => show win17_1.index t (0 : Fin 2) * 1 + 1 * (y 0).val = (y 0).val; omega
    | ⟨1, _⟩ => show win17_1.index t (1 : Fin 2) * 128 + 1 * (y 1).val = (y 1).val; omega
  have hx2 : (iblk17 V c 2 t : FVec Ideal S1x128 .f32) = up a2 := by
    funext y
    show V c (Pipeline.arrRef spec17 2) (((cfg17.win 2).blk t).view.emb y) = up a2 y
    rw [h2]
    refine congrArg (up a2) (funext fun a => Fin.ext ?_)
    match a with
    | ⟨0, _⟩ => show win17_2.index t (0 : Fin 2) * 1 + 1 * (y 0).val = (y 0).val; omega
    | ⟨1, _⟩ => show win17_2.index t (1 : Fin 2) * 128 + 1 * (y 1).val = (y 1).val; omega
  funext j
  show k17_pay1 (iblk17 V c 0 t) (iblk17 V c 1 t) (iblk17 V c 2 t) j
      = up (affReluR a0 a1 a2) (((cfg17.win 3).blk t).view.emb j)
  unfold k17_pay1
  simp only [shapeCast_self]
  refine affRelu_point (n := 512) (r := 512) (d := 128) a0 a1 a2 (iblk17 V c 0 t) (iblk17 V c 1 t) (iblk17 V c 2 t)
    broadcasts_S1x128_S512x128 j (((cfg17.win 3).blk t).view.emb j) ?_ hx1 hx2 ?_
  · show V c (Pipeline.arrRef spec17 0) (((cfg17.win 0).blk t).view.emb j) = up a0 (((cfg17.win 3).blk t).view.emb j)
    rw [h0]
    refine congrArg (up a0) (funext fun a => Fin.ext ?_)
    match a with
    | ⟨0, _⟩ => show win17_0.index t (0 : Fin 2) * 512 + 1 * (j 0).val = win17_3.index t (0 : Fin 2) * 512 + 1 * (j 0).val; omega
    | ⟨1, _⟩ => show win17_0.index t (1 : Fin 2) * 128 + 1 * (j 1).val = win17_3.index t (1 : Fin 2) * 128 + 1 * (j 1).val; omega
  · show win17_3.index t (1 : Fin 2) * 128 + 1 * (j 1).val = (j 1).val
    omega

/-- An index of the array is in point `t`'s block iff each coordinate is in the block's range on its axis. -/
theorem mem_blk17 (t : Fin cfg17.N) (i : S512x128.Idx) :
    i ∈ ((cfg17.win 3).blk t).view.set ↔ ∀ a : Fin 2, win17_3.index t a * S512x128.size a ≤ (i a).val
      ∧ (i a).val < win17_3.index t a * S512x128.size a + S512x128.size a := by
  show i ∈ ((View.whole main_v230).slice (win17_3.rect t)).set ↔ _
  rw [View.set_slice_whole, Rect.mem_set_unit]
  exact Iff.rfl

/-- The blocks cover the array: row `r` is in the block of point `r / 512`. -/
theorem cover17 (i : S512x128.Idx) :
    ∃ t : Fin cfg17.N, (cfg17.win 3).flush t = true ∧ i ∈ ((cfg17.win 3).blk t).view.set := by
  have hi0 : (i 0).val < 512 := (i 0).isLt
  have hi1 : (i 1).val < 128 := (i 1).isLt
  have hN : cfg17.N = 1 := N_17
  have ht : (i 0).val / 512 < cfg17.N := by rw [hN]; omega
  obtain ⟨e00, e01, e10, e11, e20, e21, e30, e31⟩ := idx_facts17 ⟨(i 0).val / 512, ht⟩
  refine ⟨⟨(i 0).val / 512, ht⟩, flush17_3 _, ?_⟩
  rw [mem_blk17]
  intro a
  match a with
  | ⟨0, _⟩ =>
    show win17_3.index ⟨(i 0).val / 512, ht⟩ (0 : Fin 2) * 512 ≤ (i 0).val
      ∧ (i 0).val < win17_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win17_3.index ⟨(i 0).val / 512, ht⟩ (1 : Fin 2) * 128 ≤ (i 1).val
      ∧ (i 1).val < win17_3.index ⟨(i 0).val / 512, ht⟩ (1 : Fin 2) * 128 + 128
    rw [e31]; omega

/-- The array the region leaves. -/
theorem kregion17 (c : Dev nD) (a0 : Mat 512 128) (a1 a2 : Mat 1 128)
    (h0 : V c (Pipeline.arrRef spec17 0) = up a0) (h1 : V c (Pipeline.arrRef spec17 1) = up a1)
    (h2 : V c (Pipeline.arrRef spec17 2) = up a2) :
    (dat17 (F := Ideal) V c).arrAt 3 cfg17.N = up (affReluR a0 a1 a2) :=
  (dat17 (F := Ideal) V c).arrAt_eq_of_cover 3 (up (affReluR a0 a1 a2))
    (fun t _ => flushed17 V c a0 a1 a2 h0 h1 h2 t) cover17

end Cert.KernelIdeal.Hand

end
-- ==== Proof.KRegionAff4.lean ====
/-
  Region 4, a multiply-add region over 50000 x 128 in 25 blocks of 2000 rows: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of `relu (y s + t)`. -/
theorem flushed4 (c : Dev nD) (a0 : Mat 50000 128) (a1 a2 : Mat 1 128)
    (h0 : V c (Pipeline.arrRef spec4 0) = up a0) (h1 : V c (Pipeline.arrRef spec4 1) = up a1)
    (h2 : V c (Pipeline.arrRef spec4 2) = up a2) (t : Fin cfg4.N) :
    (dat4 (F := Ideal) V c).flushed 3 t = ((cfg4.win 3).blk t).view.read (Elt Ideal) (up (affReluR a0 a1 a2)) := by
  show (cfg4.win 3).cut (grid4.coords t) ((dat4 (F := Ideal) V c).after 3 t) = _
  rw [after4_3]
  unfold out4_3
  rw [View.canon_unit_zero zero_off2]
  simp only [View.ld_unit_zero (S := S2000x128) zero_off2, View.ld_unit_zero (S := S1x128) zero_off2]
  obtain ⟨e00, e01, e10, e11, e20, e21, e30, e31⟩ := idx_facts4 t
  have hx1 : (iblk4 V c 1 t : FVec Ideal S1x128 .f32) = up a1 := by
    funext y
    show V c (Pipeline.arrRef spec4 1) (((cfg4.win 1).blk t).view.emb y) = up a1 y
    rw [h1]
    refine congrArg (up a1) (funext fun a => Fin.ext ?_)
    match a with
    | ⟨0, _⟩ => show win4_1.index t (0 : Fin 2) * 1 + 1 * (y 0).val = (y 0).val; omega
    | ⟨1, _⟩ => show win4_1.index t (1 : Fin 2) * 128 + 1 * (y 1).val = (y 1).val; omega
  have hx2 : (iblk4 V c 2 t : FVec Ideal S1x128 .f32) = up a2 := by
    funext y
    show V c (Pipeline.arrRef spec4 2) (((cfg4.win 2).blk t).view.emb y) = up a2 y
    rw [h2]
    refine congrArg (up a2) (funext fun a => Fin.ext ?_)
    match a with
    | ⟨0, _⟩ => show win4_2.index t (0 : Fin 2) * 1 + 1 * (y 0).val = (y 0).val; omega
    | ⟨1, _⟩ => show win4_2.index t (1 : Fin 2) * 128 + 1 * (y 1).val = (y 1).val; omega
  funext j
  show k4_pay1 (iblk4 V c 0 t) (iblk4 V c 1 t) (iblk4 V c 2 t) j
      = up (affReluR a0 a1 a2) (((cfg4.win 3).blk t).view.emb j)
  unfold k4_pay1
  simp only [shapeCast_self]
  refine affRelu_point (n := 50000) (r := 2000) (d := 128) a0 a1 a2 (iblk4 V c 0 t) (iblk4 V c 1 t) (iblk4 V c 2 t)
    broadcasts_S1x128_S2000x128 j (((cfg4.win 3).blk t).view.emb j) ?_ hx1 hx2 ?_
  · show V c (Pipeline.arrRef spec4 0) (((cfg4.win 0).blk t).view.emb j) = up a0 (((cfg4.win 3).blk t).view.emb j)
    rw [h0]
    refine congrArg (up a0) (funext fun a => Fin.ext ?_)
    match a with
    | ⟨0, _⟩ => show win4_0.index t (0 : Fin 2) * 2000 + 1 * (j 0).val = win4_3.index t (0 : Fin 2) * 2000 + 1 * (j 0).val; omega
    | ⟨1, _⟩ => show win4_0.index t (1 : Fin 2) * 128 + 1 * (j 1).val = win4_3.index t (1 : Fin 2) * 128 + 1 * (j 1).val; omega
  · show win4_3.index t (1 : Fin 2) * 128 + 1 * (j 1).val = (j 1).val
    omega

/-- An index of the array is in point `t`'s block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v68).slice (win4_3.rect t)).set ↔ _
  rw [View.set_slice_whole, Rect.mem_set_unit]
  exact Iff.rfl

/-- The blocks cover the array: row `r` is in the block of point `r / 2000`. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  have ht : (i 0).val / 2000 < cfg4.N := by rw [hN]; omega
  obtain ⟨e00, e01, e10, e11, e20, e21, e30, e31⟩ := idx_facts4 ⟨(i 0).val / 2000, ht⟩
  refine ⟨⟨(i 0).val / 2000, ht⟩, flush4_3 _, ?_⟩
  rw [mem_blk4]
  intro a
  match a with
  | ⟨0, _⟩ =>
    show win4_3.index ⟨(i 0).val / 2000, ht⟩ (0 : Fin 2) * 2000 ≤ (i 0).val
      ∧ (i 0).val < win4_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win4_3.index ⟨(i 0).val / 2000, ht⟩ (1 : Fin 2) * 128 ≤ (i 1).val
      ∧ (i 1).val < win4_3.index ⟨(i 0).val / 2000, ht⟩ (1 : Fin 2) * 128 + 128
    rw [e31]; omega

/-- The array the region leaves. -/
theorem kregion4 (c : Dev nD) (a0 : Mat 50000 128) (a1 a2 : Mat 1 128)
    (h0 : V c (Pipeline.arrRef spec4 0) = up a0) (h1 : V c (Pipeline.arrRef spec4 1) = up a1)
    (h2 : V c (Pipeline.arrRef spec4 2) = up a2) :
    (dat4 (F := Ideal) V c).arrAt 3 cfg4.N = up (affReluR a0 a1 a2) :=
  (dat4 (F := Ideal) V c).arrAt_eq_of_cover 3 (up (affReluR a0 a1 a2))
    (fun t _ => flushed4 V c a0 a1 a2 h0 h1 h2 t) cover4

end Cert.KernelIdeal.Hand

end
-- ==== Proof.KRegionAff13.lean ====
/-
  Region 13, a multiply-add region over 50000 x 128 in 25 blocks of 2000 rows: the array it leaves is
  `relu (y s + t)` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts13 : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- What point `t` writes back is block `t` of `relu (y s + t)`. -/
theorem flushed13 (c : Dev nD) (a0 : Mat 50000 128) (a1 a2 : Mat 1 128)
    (h0 : V c (Pipeline.arrRef spec13 0) = up a0) (h1 : V c (Pipeline.arrRef spec13 1) = up a1)
    (h2 : V c (Pipeline.arrRef spec13 2) = up a2) (t : Fin cfg13.N) :
    (dat13 (F := Ideal) V c).flushed 3 t = ((cfg13.win 3).blk t).view.read (Elt Ideal) (up (affReluR a0 a1 a2)) := by
  show (cfg13.win 3).cut (grid13.coords t) ((dat13 (F := Ideal) V c).after 3 t) = _
  rw [after13_3]
  unfold out13_3
  rw [View.canon_unit_zero zero_off2]
  simp only [View.ld_unit_zero (S := S2000x128) zero_off2, View.ld_unit_zero (S := S1x128) zero_off2]
  obtain ⟨e00, e01, e10, e11, e20, e21, e30, e31⟩ := idx_facts13 t
  have hx1 : (iblk13 V c 1 t : FVec Ideal S1x128 .f32) = up a1 := by
    funext y
    show V c (Pipeline.arrRef spec13 1) (((cfg13.win 1).blk t).view.emb y) = up a1 y
    rw [h1]
    refine congrArg (up a1) (funext fun a => Fin.ext ?_)
    match a with
    | ⟨0, _⟩ => show win13_1.index t (0 : Fin 2) * 1 + 1 * (y 0).val = (y 0).val; omega
    | ⟨1, _⟩ => show win13_1.index t (1 : Fin 2) * 128 + 1 * (y 1).val = (y 1).val; omega
  have hx2 : (iblk13 V c 2 t : FVec Ideal S1x128 .f32) = up a2 := by
    funext y
    show V c (Pipeline.arrRef spec13 2) (((cfg13.win 2).blk t).view.emb y) = up a2 y
    rw [h2]
    refine congrArg (up a2) (funext fun a => Fin.ext ?_)
    match a with
    | ⟨0, _⟩ => show win13_2.index t (0 : Fin 2) * 1 + 1 * (y 0).val = (y 0).val; omega
    | ⟨1, _⟩ => show win13_2.index t (1 : Fin 2) * 128 + 1 * (y 1).val = (y 1).val; omega
  funext j
  show k13_pay1 (iblk13 V c 0 t) (iblk13 V c 1 t) (iblk13 V c 2 t) j
      = up (affReluR a0 a1 a2) (((cfg13.win 3).blk t).view.emb j)
  unfold k13_pay1
  simp only [shapeCast_self]
  refine affRelu_point (n := 50000) (r := 2000) (d := 128) a0 a1 a2 (iblk13 V c 0 t) (iblk13 V c 1 t) (iblk13 V c 2 t)
    broadcasts_S1x128_S2000x128 j (((cfg13.win 3).blk t).view.emb j) ?_ hx1 hx2 ?_
  · show V c (Pipeline.arrRef spec13 0) (((cfg13.win 0).blk t).view.emb j) = up a0 (((cfg13.win 3).blk t).view.emb j)
    rw [h0]
    refine congrArg (up a0) (funext fun a => Fin.ext ?_)
    match a with
    | ⟨0, _⟩ => show win13_0.index t (0 : Fin 2) * 2000 + 1 * (j 0).val = win13_3.index t (0 : Fin 2) * 2000 + 1 * (j 0).val; omega
    | ⟨1, _⟩ => show win13_0.index t (1 : Fin 2) * 128 + 1 * (j 1).val = win13_3.index t (1 : Fin 2) * 128 + 1 * (j 1).val; omega
  · show win13_3.index t (1 : Fin 2) * 128 + 1 * (j 1).val = (j 1).val
    omega

/-- An index of the array is in point `t`'s block iff each coordinate is in the block's range on its axis. -/
theorem mem_blk13 (t : Fin cfg13.N) (i : S50000x128.Idx) :
    i ∈ ((cfg13.win 3).blk t).view.set ↔ ∀ a : Fin 2, win13_3.index t a * S2000x128.size a ≤ (i a).val
      ∧ (i a).val < win13_3.index t a * S2000x128.size a + S2000x128.size a := by
  show i ∈ ((View.whole main_v181).slice (win13_3.rect t)).set ↔ _
  rw [View.set_slice_whole, Rect.mem_set_unit]
  exact Iff.rfl

/-- The blocks cover the array: row `r` is in the block of point `r / 2000`. -/
theorem cover13 (i : S50000x128.Idx) :
    ∃ t : Fin cfg13.N, (cfg13.win 3).flush t = true ∧ i ∈ ((cfg13.win 3).blk t).view.set := by
  have hi0 : (i 0).val < 50000 := (i 0).isLt
  have hi1 : (i 1).val < 128 := (i 1).isLt
  have hN : cfg13.N = 25 := N_13
  have ht : (i 0).val / 2000 < cfg13.N := by rw [hN]; omega
  obtain ⟨e00, e01, e10, e11, e20, e21, e30, e31⟩ := idx_facts13 ⟨(i 0).val / 2000, ht⟩
  refine ⟨⟨(i 0).val / 2000, ht⟩, flush13_3 _, ?_⟩
  rw [mem_blk13]
  intro a
  match a with
  | ⟨0, _⟩ =>
    show win13_3.index ⟨(i 0).val / 2000, ht⟩ (0 : Fin 2) * 2000 ≤ (i 0).val
      ∧ (i 0).val < win13_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win13_3.index ⟨(i 0).val / 2000, ht⟩ (1 : Fin 2) * 128 ≤ (i 1).val
      ∧ (i 1).val < win13_3.index ⟨(i 0).val / 2000, ht⟩ (1 : Fin 2) * 128 + 128
    rw [e31]; omega

/-- The array the region leaves. -/
theorem kregion13 (c : Dev nD) (a0 : Mat 50000 128) (a1 a2 : Mat 1 128)
    (h0 : V c (Pipeline.arrRef spec13 0) = up a0) (h1 : V c (Pipeline.arrRef spec13 1) = up a1)
    (h2 : V c (Pipeline.arrRef spec13 2) = up a2) :
    (dat13 (F := Ideal) V c).arrAt 3 cfg13.N = up (affReluR a0 a1 a2) :=
  (dat13 (F := Ideal) V c).arrAt_eq_of_cover 3 (up (affReluR a0 a1 a2))
    (fun t _ => flushed13 V c a0 a1 a2 h0 h1 h2 t) cover13

end Cert.KernelIdeal.Hand

end
-- ==== Proof.KRegionAff22.lean ====
/-
  Region 22, a multiply-add region over 50000 x 128 in 25 blocks of 2000 rows: the array it leaves is
  `y s + t` of its three operand arrays (the data array, the scale row, the shift row).
-/
import proofs.«403290_j73710228734482_1_alg».proof.Proof.Gen.KernelIdeal.Frame
import proofs.«403290_j73710228734482_1_alg».proof.Proof.KRegionAffLib

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index maps over the grid: at point `t` the data window and the result window are at block row `t`; the
    scale and shift rows are one block each. -/
theorem idx_facts22 : ∀ t : Fin cfg22.N,
    win22_0.index t (0 : Fin 2) = t.val ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = t.val ∧ win22_3.index t (1 : Fin 2) = 0 :=
  (by decide +kernel : ∀ t : Fin grid22.N, _)

/-- What point `t` writes back is block `t` of `y s + t`. -/
theorem flushed22 (c : Dev nD) (a0 : Mat 50000 128) (a1 a2 : Mat 1 128)
    (h0 : V c (Pipeline.arrRef spec22 0) = up a0) (h1 : V c (Pipeline.arrRef spec22 1) = up a1)
    (h2 : V c (Pipeline.arrRef spec22 2) = up a2) (t : Fin cfg22.N) :
    (dat22 (F := Ideal) V c).flushed 3 t = ((cfg22.win 3).blk t).view.read (Elt Ideal) (up (affR a0 a1 a2)) := by
  show (cfg22.win 3).cut (grid22.coords t) ((dat22 (F := Ideal) V c).after 3 t) = _
  rw [after22_3]
  unfold out22_3
  rw [View.canon_unit_zero zero_off2]
  simp only [View.ld_unit_zero (S := S2000x128) zero_off2, View.ld_unit_zero (S := S1x128) zero_off2]
  obtain ⟨e00, e01, e10, e11, e20, e21, e30, e31⟩ := idx_facts22 t
  have hx1 : (iblk22 V c 1 t : FVec Ideal S1x128 .f32) = up a1 := by
    funext y
    show V c (Pipeline.arrRef spec22 1) (((cfg22.win 1).blk t).view.emb y) = up a1 y
    rw [h1]
    refine congrArg (up a1) (funext fun a => Fin.ext ?_)
    match a with
    | ⟨0, _⟩ => show win22_1.index t (0 : Fin 2) * 1 + 1 * (y 0).val = (y 0).val; omega
    | ⟨1, _⟩ => show win22_1.index t (1 : Fin 2) * 128 + 1 * (y 1).val = (y 1).val; omega
  have hx2 : (iblk22 V c 2 t : FVec Ideal S1x128 .f32) = up a2 := by
    funext y
    show V c (Pipeline.arrRef spec22 2) (((cfg22.win 2).blk t).view.emb y) = up a2 y
    rw [h2]
    refine congrArg (up a2) (funext fun a => Fin.ext ?_)
    match a with
    | ⟨0, _⟩ => show win22_2.index t (0 : Fin 2) * 1 + 1 * (y 0).val = (y 0).val; omega
    | ⟨1, _⟩ => show win22_2.index t (1 : Fin 2) * 128 + 1 * (y 1).val = (y 1).val; omega
  funext j
  show k22_pay1 (iblk22 V c 0 t) (iblk22 V c 1 t) (iblk22 V c 2 t) j
      = up (affR a0 a1 a2) (((cfg22.win 3).blk t).view.emb j)
  unfold k22_pay1
  simp only [shapeCast_self]
  refine aff_point (n := 50000) (r := 2000) (d := 128) a0 a1 a2 (iblk22 V c 0 t) (iblk22 V c 1 t) (iblk22 V c 2 t)
    broadcasts_S1x128_S2000x128 j (((cfg22.win 3).blk t).view.emb j) ?_ hx1 hx2 ?_
  · show V c (Pipeline.arrRef spec22 0) (((cfg22.win 0).blk t).view.emb j) = up a0 (((cfg22.win 3).blk t).view.emb j)
    rw [h0]
    refine congrArg (up a0) (funext fun a => Fin.ext ?_)
    match a with
    | ⟨0, _⟩ => show win22_0.index t (0 : Fin 2) * 2000 + 1 * (j 0).val = win22_3.index t (0 : Fin 2) * 2000 + 1 * (j 0).val; omega
    | ⟨1, _⟩ => show win22_0.index t (1 : Fin 2) * 128 + 1 * (j 1).val = win22_3.index t (1 : Fin 2) * 128 + 1 * (j 1).val; omega
  · show win22_3.index t (1 : Fin 2) * 128 + 1 * (j 1).val = (j 1).val
    omega

/-- An index of the array is in point `t`'s block iff each coordinate is in the block's range on its axis. -/
theorem mem_blk22 (t : Fin cfg22.N) (i : S50000x128.Idx) :
    i ∈ ((cfg22.win 3).blk t).view.set ↔ ∀ a : Fin 2, win22_3.index t a * S2000x128.size a ≤ (i a).val
      ∧ (i a).val < win22_3.index t a * S2000x128.size a + S2000x128.size a := by
  show i ∈ ((View.whole main_v294).slice (win22_3.rect t)).set ↔ _
  rw [View.set_slice_whole, Rect.mem_set_unit]
  exact Iff.rfl

/-- The blocks cover the array: row `r` is in the block of point `r / 2000`. -/
theorem cover22 (i : S50000x128.Idx) :
    ∃ t : Fin cfg22.N, (cfg22.win 3).flush t = true ∧ i ∈ ((cfg22.win 3).blk t).view.set := by
  have hi0 : (i 0).val < 50000 := (i 0).isLt
  have hi1 : (i 1).val < 128 := (i 1).isLt
  have hN : cfg22.N = 25 := N_22
  have ht : (i 0).val / 2000 < cfg22.N := by rw [hN]; omega
  obtain ⟨e00, e01, e10, e11, e20, e21, e30, e31⟩ := idx_facts22 ⟨(i 0).val / 2000, ht⟩
  refine ⟨⟨(i 0).val / 2000, ht⟩, flush22_3 _, ?_⟩
  rw [mem_blk22]
  intro a
  match a with
  | ⟨0, _⟩ =>
    show win22_3.index ⟨(i 0).val / 2000, ht⟩ (0 : Fin 2) * 2000 ≤ (i 0).val
      ∧ (i 0).val < win22_3.index ⟨(i 0).val / 2000, ht⟩ (0 : Fin 2) * 2000 + 2000
    rw [e30]; show (i 0).val / 2000 * 2000 ≤ (i 0).val ∧ (i 0).val < (i 0).val / 2000 * 2000 + 2000; omega
  | ⟨1, _⟩ =>
    show win22_3.index ⟨(i 0).val / 2000, ht⟩ (1 : Fin 2) * 128 ≤ (i 1).val
      ∧ (i 1).val < win22_3.index ⟨(i 0).val / 2000, ht⟩ (1 : Fin 2) * 128 + 128
    rw [e31]; omega

/-- The array the region leaves. -/
theorem kregion22 (c : Dev nD) (a0 : Mat 50000 128) (a1 a2 : Mat 1 128)
    (h0 : V c (Pipeline.arrRef spec22 0) = up a0) (h1 : V c (Pipeline.arrRef spec22 1) = up a1)
    (h2 : V c (Pipeline.arrRef spec22 2) = up a2) :
    (dat22 (F := Ideal) V c).arrAt 3 cfg22.N = up (affR a0 a1 a2) :=
  (dat22 (F := Ideal) V c).arrAt_eq_of_cover 3 (up (affR a0 a1 a2))
    (fun t _ => flushed22 V c a0 a1 a2 h0 h1 h2 t) cover22

end Cert.KernelIdeal.Hand

end
-- ==== Proof.KRegionAff.lean ====
import proofs.«403290_j73710228734482_1_alg».proof.Proof.KRegionAff2
import proofs.«403290_j73710228734482_1_alg».proof.Proof.KRegionAff11
import proofs.«403290_j73710228734482_1_alg».proof.Proof.KRegionAff20
import proofs.«403290_j73710228734482_1_alg».proof.Proof.KRegionAff6
import proofs.«403290_j73710228734482_1_alg».proof.Proof.KRegionAff15
import proofs.«403290_j73710228734482_1_alg».proof.Proof.KRegionAff8
import proofs.«403290_j73710228734482_1_alg».proof.Proof.KRegionAff17
import proofs.«403290_j73710228734482_1_alg».proof.Proof.KRegionAff4
import proofs.«403290_j73710228734482_1_alg».proof.Proof.KRegionAff13
import proofs.«403290_j73710228734482_1_alg».proof.Proof.KRegionAff22
-- ==== Proof.KChainStages.lean ====
import proofs.«403290_j73710228734482_1_alg».proof.Proof.Gen.KernelIdeal.Frame
import proofs.«403290_j73710228734482_1_alg».proof.Proof.KKeep
import proofs.«403290_j73710228734482_1_alg».proof.Proof.KKeepW
import proofs.«403290_j73710228734482_1_alg».proof.Proof.Spec
import proofs.«403290_j73710228734482_1_alg».proof.Proof.LibUp
import proofs.«403290_j73710228734482_1_alg».proof.Proof.SpecGlue
import proofs.«403290_j73710228734482_1_alg».proof.Proof.KHostNode0
import proofs.«403290_j73710228734482_1_alg».proof.Proof.KHostNode1
import proofs.«403290_j73710228734482_1_alg».proof.Proof.KHostNode2
import proofs.«403290_j73710228734482_1_alg».proof.Proof.KHostNodeBn
import proofs.«403290_j73710228734482_1_alg».proof.Proof.KHostVn
import proofs.«403290_j73710228734482_1_alg».proof.Proof.KRegionMM
import proofs.«403290_j73710228734482_1_alg».proof.Proof.KRegionLin
import proofs.«403290_j73710228734482_1_alg».proof.Proof.KRegionAff

noncomputable section

namespace Cert.KernelIdeal.Hand

open Idealize.ShloMosaic Idealize.ShloMosaic.TcCoe Cert.KernelIdeal Cert.KernelIdeal.Gen Cert.Spec

local notation "⟪" b "⟫" => Proc.devRef Proc.tc b

structure ArgsAt (m : (ℓ : Loc nD τ sig) → Buf (Elt Ideal) ℓ) (c : Dev nD) (A : Spec.Args) : Prop where
  a0 : m ((c : Thread nD τ).loc main_arg0) = up A.x
  a1 : m ((c : Thread nD τ).loc main_arg1) = up A.ea
  a2 : m ((c : Thread nD τ).loc main_arg2) = up A.vn0
  a3 : m ((c : Thread nD τ).loc main_arg3) = up A.We
  a4 : m ((c : Thread nD τ).loc main_arg4) = up A.be
  a5 : m ((c : Thread nD τ).loc main_arg5) = up A.W1
  a6 : m ((c : Thread nD τ).loc main_arg6) = up A.b1
  a7 : m ((c : Thread nD τ).loc main_arg7) = up A.g1
  a8 : m ((c : Thread nD τ).loc main_arg8) = up A.bt1
  a9 : m ((c : Thread nD τ).loc main_arg9) = up A.W2
  a10 : m ((c : Thread nD τ).loc main_arg10) = up A.b2
  a11 : m ((c : Thread nD τ).loc main_arg11) = up A.gb
  a12 : m ((c : Thread nD τ).loc main_arg12) = up A.bb
  a13 : m ((c : Thread nD τ).loc main_arg13) = up A.Wv1
  a14 : m ((c : Thread nD τ).loc main_arg14) = up A.bv1
  a15 : m ((c : Thread nD τ).loc main_arg15) = up A.gv1
  a16 : m ((c : Thread nD τ).loc main_arg16) = up A.btv1
  a17 : m ((c : Thread nD τ).loc main_arg17) = up A.Wv2
  a18 : m ((c : Thread nD τ).loc main_arg18) = up A.bv2
  a19 : m ((c : Thread nD τ).loc main_arg19) = up A.gv2
  a20 : m ((c : Thread nD τ).loc main_arg20) = up A.btv2
  a21 : m ((c : Thread nD τ).loc main_arg21) = A.ei
  a22 : m ((c : Thread nD τ).loc main_arg22) = A.batch

variable (m : (ℓ : Loc nD τ sig) → Buf (Elt Ideal) ℓ) (ρ : Dev nD → PrngReg) (c : Dev nD) (A : Spec.Args)

theorem st0 (hA : ArgsAt m c A) (hsrc : ∀ e : Fin 800000, 0 ≤ (srcw A e).toInt ∧ (srcw A e).toInt < 50000) :
    W4 m ρ c ⟪main_v19⟫ = up (msgOf A 0 (hinOf A A.x (vnB A)))
    ∧ W4 m ρ c ⟪main_v12⟫ = up (hinOf A A.x (vnB A))
    ∧ W4 m ρ c ⟪main_v4⟫ = up (vnB A)
    ∧ W4 m ρ c ⟪main_v1⟫ = (fun i => srcw A (i 0) : IVec S800000 32)
    ∧ W4 m ρ c ⟪main_v3⟫ = (fun i => dstw A (i 0) : IVec S800000 32) := by
  obtain ⟨h12, h13, h1, h15, h18, h4, hv1, hv3⟩ :=
    khost0 A (W0 m ρ c) hA.a0 hA.a2 hA.a1 hA.a3 hA.a4 hA.a21 hA.a22 hsrc
  refine ⟨?_, (W4_of_ne m ρ c main_v12 (by decide)).trans h12, (W4_of_ne m ρ c main_v4 (by decide)).trans h4,
    (W4_of_ne m ρ c main_v1 (by decide)).trans hv1, (W4_of_ne m ρ c main_v3 (by decide)).trans hv3⟩
  exact ((W4_arr m ρ c 4).trans (kregion0 (V3 m ρ) c _ _ _ _ h13 h1 h15 h18)).trans (congrArg up (edgeR_glue A 0 _))

theorem st1 (hin : Mat 50000 128) (msg : Mat 800000 128) (hA : ArgsAt m c A)
    (hhin : W4 m ρ c ⟪main_v12⟫ = up hin) (hmsg : W4 m ρ c ⟪main_v19⟫ = up msg)
    (hv3 : W4 m ρ c ⟪main_v3⟫ = (fun i => dstw A (i 0) : IVec S800000 32)) :
    W6 m ρ c ⟪main_v28⟫ = up (lin1Of A 0 hin (aggrOf A msg))
    ∧ W6 m ρ c ⟪main_v12⟫ = up hin := by
  obtain ⟨hhin', hag, hW, hb⟩ :=
    khost1 A (W4 m ρ c) hin msg hhin hmsg hv3 ((argsAt1 m ρ c main_arg5 (by decide)).trans hA.a5) ((argsAt1 m ρ c main_arg6 (by decide)).trans hA.a6)
  refine ⟨?_, (regin1_0 m ρ c).trans hhin'⟩
  exact ((W6_arr m ρ c 4).trans (kregion1 (V5 m ρ) c _ _ _ _ hhin' hag hW hb)).trans (congrArg up (lin1Of_glue A 0 _ _))

theorem st2 (y : Mat 50000 256) (hA : ArgsAt m c A) (hy : W6 m ρ c ⟪main_v28⟫ = up y) :
    W10 m ρ c ⟪main_v45⟫ = up (zOf A 0 y) := by
  obtain ⟨hy', hs, ht⟩ := khost2 A (W6 m ρ c) y hy ((argsAt2 m ρ c main_arg7 (by decide)).trans hA.a7) ((argsAt2 m ρ c main_arg8 (by decide)).trans hA.a8)
  exact ((W10_arr m ρ c 3).trans (kregion2 (V9 m ρ) c _ _ _ hy' hs ht)).trans (congrArg up (zOf_glue A 0 _))

theorem st3 (z : Mat 50000 256) (hA : ArgsAt m c A) (hz : W10 m ρ c ⟪main_v45⟫ = up z) :
    W12 m ρ c ⟪main_v51⟫ = up (lin2Of A 0 z) := by
  obtain ⟨hz', hW, hb⟩ := khost3 A (W10 m ρ c) z hz ((argsAt3 m ρ c main_arg9 (by decide)).trans hA.a9) ((argsAt3 m ρ c main_arg10 (by decide)).trans hA.a10)
  exact ((W12_arr m ρ c 3).trans (kregion3 (V11 m ρ) c _ _ _ hz' hW hb)).trans (congrArg up (lin2Of_glue A 0 _))

theorem st4 (y : Mat 50000 128) (hA : ArgsAt m c A) (hy : W12 m ρ c ⟪main_v51⟫ = up y) :
    W16 m ρ c ⟪main_v68⟫ = up (relu (hbnOf A 0 y)) := by
  obtain ⟨hy', hs, ht⟩ := khost4 A (W12 m ρ c) y hy ((argsAt4 m ρ c main_arg11 (by decide)).trans hA.a11) ((argsAt4 m ρ c main_arg12 (by decide)).trans hA.a12)
  exact ((W16_arr m ρ c 3).trans (kregion4 (V15 m ρ) c _ _ _ hy' hs ht)).trans (congrArg up (hbnOf_relu_glue A 0 _))

theorem st5 (hin : Mat 50000 128) (vn : Mat 512 128) (hA : ArgsAt m c A)
    (hhin : W16 m ρ c ⟪main_v12⟫ = up hin) (hvn : W16 m ρ c ⟪main_v4⟫ = up vn) :
    W18 m ρ c ⟪main_v77⟫ = up (linv1Of A 0 (pooledOf A hin) vn) := by
  obtain ⟨hp, hvn', hW, hb⟩ :=
    khost5 A (W16 m ρ c) hin vn hhin hvn ((argsAt5 m ρ c main_arg22 (by decide)).trans hA.a22) ((argsAt5 m ρ c main_arg13 (by decide)).trans hA.a13) ((argsAt5 m ρ c main_arg14 (by decide)).trans hA.a14)
  exact ((W18_arr m ρ c 4).trans (kregion5 (V17 m ρ) c _ _ _ _ hp hvn' hW hb)).trans (congrArg up (linv1Of_glue A 0 _ _))

theorem st6 (y : Mat 512 256) (hA : ArgsAt m c A) (hy : W18 m ρ c ⟪main_v77⟫ = up y) :
    W22 m ρ c ⟪main_v94⟫ = up (tOf A 0 y) := by
  obtain ⟨hy', hs, ht⟩ := khost6 A (W18 m ρ c) y hy ((argsAt6 m ρ c main_arg15 (by decide)).trans hA.a15) ((argsAt6 m ρ c main_arg16 (by decide)).trans hA.a16)
  exact ((W22_arr m ρ c 3).trans (kregion6 (V21 m ρ) c _ _ _ hy' hs ht)).trans (congrArg up (tOf_glue A 0 _))

theorem st7 (t : Mat 512 256) (hA : ArgsAt m c A) (ht : W22 m ρ c ⟪main_v94⟫ = up t) :
    W24 m ρ c ⟪main_v100⟫ = up (linv2Of A 0 t) := by
  obtain ⟨ht', hW, hb⟩ := khost7 A (W22 m ρ c) t ht ((argsAt7 m ρ c main_arg17 (by decide)).trans hA.a17) ((argsAt7 m ρ c main_arg18 (by decide)).trans hA.a18)
  exact ((W24_arr m ρ c 3).trans (kregion7 (V23 m ρ) c _ _ _ ht' hW hb)).trans (congrArg up (linv2Of_glue A 0 _))

theorem st8 (y : Mat 512 128) (hA : ArgsAt m c A) (hy : W24 m ρ c ⟪main_v100⟫ = up y) :
    W28 m ρ c ⟪main_v117⟫ = up (vnOf A 0 y) := by
  obtain ⟨hy', hs, ht⟩ := khost8 A (W24 m ρ c) y hy ((argsAt8 m ρ c main_arg19 (by decide)).trans hA.a19) ((argsAt8 m ρ c main_arg20 (by decide)).trans hA.a20)
  exact ((W28_arr m ρ c 3).trans (kregion8 (V27 m ρ) c _ _ _ hy' hs ht)).trans (congrArg up (vnOf_glue A 0 _))

theorem st9 (h : Mat 50000 128) (vn : Mat 512 128) (hA : ArgsAt m c A) (hsrc : ∀ e : Fin 800000, 0 ≤ (srcw A e).toInt ∧ (srcw A e).toInt < 50000)
    (hh : W28 m ρ c ⟪main_v68⟫ = up h) (hvn : W28 m ρ c ⟪main_v117⟫ = up vn)
    (hv1 : W28 m ρ c ⟪main_v1⟫ = (fun i => srcw A (i 0) : IVec S800000 32)) :
    W32 m ρ c ⟪main_v132⟫ = up (msgOf A 1 (hinOf A h vn))
    ∧ W32 m ρ c ⟪main_v125⟫ = up (hinOf A h vn) := by
  obtain ⟨hhin, htk, h1, hWe, hbe⟩ :=
    khost9 A (W28 m ρ c) h vn hh hvn ((arg1At9 m ρ c).trans hA.a1) ((argsAt9 m ρ c main_arg3 (by decide)).trans hA.a3)
      ((argsAt9 m ρ c main_arg4 (by decide)).trans hA.a4) ((argsAt9 m ρ c main_arg22 (by decide)).trans hA.a22) hv1 hsrc
  refine ⟨?_, (W32_of_ne m ρ c main_v125 (by decide)).trans hhin⟩
  exact ((W32_arr m ρ c 4).trans (kregion9 (V31 m ρ) c _ _ _ _ htk h1 hWe hbe)).trans (congrArg up (edgeR_glue A 1 _))

theorem st10 (hin : Mat 50000 128) (msg : Mat 800000 128) (hA : ArgsAt m c A)
    (hhin : W32 m ρ c ⟪main_v125⟫ = up hin) (hmsg : W32 m ρ c ⟪main_v132⟫ = up msg)
    (hv3 : W32 m ρ c ⟪main_v3⟫ = (fun i => dstw A (i 0) : IVec S800000 32)) :
    W34 m ρ c ⟪main_v141⟫ = up (lin1Of A 1 hin (aggrOf A msg))
    ∧ W34 m ρ c ⟪main_v125⟫ = up hin := by
  obtain ⟨hhin', hag, hW, hb⟩ :=
    khost10 A (W32 m ρ c) hin msg hhin hmsg hv3 ((argsAt10 m ρ c main_arg5 (by decide)).trans hA.a5) ((argsAt10 m ρ c main_arg6 (by decide)).trans hA.a6)
  refine ⟨?_, (regin10_0 m ρ c).trans hhin'⟩
  exact ((W34_arr m ρ c 4).trans (kregion10 (V33 m ρ) c _ _ _ _ hhin' hag hW hb)).trans (congrArg up (lin1Of_glue A 1 _ _))

theorem st11 (y : Mat 50000 256) (hA : ArgsAt m c A) (hy : W34 m ρ c ⟪main_v141⟫ = up y) :
    W38 m ρ c ⟪main_v158⟫ = up (zOf A 1 y) := by
  obtain ⟨hy', hs, ht⟩ := khost11 A (W34 m ρ c) y hy ((argsAt11 m ρ c main_arg7 (by decide)).trans hA.a7) ((argsAt11 m ρ c main_arg8 (by decide)).trans hA.a8)
  exact ((W38_arr m ρ c 3).trans (kregion11 (V37 m ρ) c _ _ _ hy' hs ht)).trans (congrArg up (zOf_glue A 1 _))

theorem st12 (z : Mat 50000 256) (hA : ArgsAt m c A) (hz : W38 m ρ c ⟪main_v158⟫ = up z) :
    W40 m ρ c ⟪main_v164⟫ = up (lin2Of A 1 z) := by
  obtain ⟨hz', hW, hb⟩ := khost12 A (W38 m ρ c) z hz ((argsAt12 m ρ c main_arg9 (by decide)).trans hA.a9) ((argsAt12 m ρ c main_arg10 (by decide)).trans hA.a10)
  exact ((W40_arr m ρ c 3).trans (kregion12 (V39 m ρ) c _ _ _ hz' hW hb)).trans (congrArg up (lin2Of_glue A 1 _))

theorem st13 (y : Mat 50000 128) (hA : ArgsAt m c A) (hy : W40 m ρ c ⟪main_v164⟫ = up y) :
    W44 m ρ c ⟪main_v181⟫ = up (relu (hbnOf A 1 y)) := by
  obtain ⟨hy', hs, ht⟩ := khost13 A (W40 m ρ c) y hy ((argsAt13 m ρ c main_arg11 (by decide)).trans hA.a11) ((argsAt13 m ρ c main_arg12 (by decide)).trans hA.a12)
  exact ((W44_arr m ρ c 3).trans (kregion13 (V43 m ρ) c _ _ _ hy' hs ht)).trans (congrArg up (hbnOf_relu_glue A 1 _))

theorem st14 (hin : Mat 50000 128) (vn : Mat 512 128) (hA : ArgsAt m c A)
    (hhin : W44 m ρ c ⟪main_v125⟫ = up hin) (hvn : W44 m ρ c ⟪main_v117⟫ = up vn) :
    W46 m ρ c ⟪main_v190⟫ = up (linv1Of A 1 (pooledOf A hin) vn) := by
  obtain ⟨hp, hvn', hW, hb⟩ :=
    khost14 A (W44 m ρ c) hin vn hhin hvn ((argsAt14 m ρ c main_arg22 (by decide)).trans hA.a22) ((argsAt14 m ρ c main_arg13 (by decide)).trans hA.a13) ((argsAt14 m ρ c main_arg14 (by decide)).trans hA.a14)
  exact ((W46_arr m ρ c 4).trans (kregion14 (V45 m ρ) c _ _ _ _ hp hvn' hW hb)).trans (congrArg up (linv1Of_glue A 1 _ _))

theorem st15 (y : Mat 512 256) (hA : ArgsAt m c A) (hy : W46 m ρ c ⟪main_v190⟫ = up y) :
    W50 m ρ c ⟪main_v207⟫ = up (tOf A 1 y) := by
  obtain ⟨hy', hs, ht⟩ := khost15 A (W46 m ρ c) y hy ((argsAt15 m ρ c main_arg15 (by decide)).trans hA.a15) ((argsAt15 m ρ c main_arg16 (by decide)).trans hA.a16)
  exact ((W50_arr m ρ c 3).trans (kregion15 (V49 m ρ) c _ _ _ hy' hs ht)).trans (congrArg up (tOf_glue A 1 _))

theorem st16 (t : Mat 512 256) (hA : ArgsAt m c A) (ht : W50 m ρ c ⟪main_v207⟫ = up t) :
    W52 m ρ c ⟪main_v213⟫ = up (linv2Of A 1 t) := by
  obtain ⟨ht', hW, hb⟩ := khost16 A (W50 m ρ c) t ht ((argsAt16 m ρ c main_arg17 (by decide)).trans hA.a17) ((argsAt16 m ρ c main_arg18 (by decide)).trans hA.a18)
  exact ((W52_arr m ρ c 3).trans (kregion16 (V51 m ρ) c _ _ _ ht' hW hb)).trans (congrArg up (linv2Of_glue A 1 _))

theorem st17 (y : Mat 512 128) (hA : ArgsAt m c A) (hy : W52 m ρ c ⟪main_v213⟫ = up y) :
    W56 m ρ c ⟪main_v230⟫ = up (vnOf A 1 y) := by
  obtain ⟨hy', hs, ht⟩ := khost17 A (W52 m ρ c) y hy ((argsAt17 m ρ c main_arg19 (by decide)).trans hA.a19) ((argsAt17 m ρ c main_arg20 (by decide)).trans hA.a20)
  exact ((W56_arr m ρ c 3).trans (kregion17 (V55 m ρ) c _ _ _ hy' hs ht)).trans (congrArg up (vnOf_glue A 1 _))

theorem st18 (h : Mat 50000 128) (vn : Mat 512 128) (hA : ArgsAt m c A) (hsrc : ∀ e : Fin 800000, 0 ≤ (srcw A e).toInt ∧ (srcw A e).toInt < 50000)
    (hh : W56 m ρ c ⟪main_v181⟫ = up h) (hvn : W56 m ρ c ⟪main_v230⟫ = up vn)
    (hv1 : W56 m ρ c ⟪main_v1⟫ = (fun i => srcw A (i 0) : IVec S800000 32)) :
    W60 m ρ c ⟪main_v245⟫ = up (msgOf A 2 (hinOf A h vn))
    ∧ W60 m ρ c ⟪main_v238⟫ = up (hinOf A h vn) := by
  obtain ⟨hhin, htk, h1, hWe, hbe⟩ :=
    khost18 A (W56 m ρ c) h vn hh hvn ((arg1At18 m ρ c).trans hA.a1) ((argsAt18 m ρ c main_arg3 (by decide)).trans hA.a3)
      ((argsAt18 m ρ c main_arg4 (by decide)).trans hA.a4) ((argsAt18 m ρ c main_arg22 (by decide)).trans hA.a22) hv1 hsrc
  refine ⟨?_, (W60_of_ne m ρ c main_v238 (by decide)).trans hhin⟩
  exact ((W60_arr m ρ c 4).trans (kregion18 (V59 m ρ) c _ _ _ _ htk h1 hWe hbe)).trans (congrArg up (edgeR_glue A 2 _))

theorem st19 (hin : Mat 50000 128) (msg : Mat 800000 128) (hA : ArgsAt m c A)
    (hhin : W60 m ρ c ⟪main_v238⟫ = up hin) (hmsg : W60 m ρ c ⟪main_v245⟫ = up msg)
    (hv3 : W60 m ρ c ⟪main_v3⟫ = (fun i => dstw A (i 0) : IVec S800000 32)) :
    W62 m ρ c ⟪main_v254⟫ = up (lin1Of A 2 hin (aggrOf A msg))
    ∧ W62 m ρ c ⟪main_v238⟫ = up hin := by
  obtain ⟨hhin', hag, hW, hb⟩ :=
    khost19 A (W60 m ρ c) hin msg hhin hmsg hv3 ((argsAt19 m ρ c main_arg5 (by decide)).trans hA.a5) ((argsAt19 m ρ c main_arg6 (by decide)).trans hA.a6)
  refine ⟨?_, (regin19_0 m ρ c).trans hhin'⟩
  exact ((W62_arr m ρ c 4).trans (kregion19 (V61 m ρ) c _ _ _ _ hhin' hag hW hb)).trans (congrArg up (lin1Of_glue A 2 _ _))

theorem st20 (y : Mat 50000 256) (hA : ArgsAt m c A) (hy : W62 m ρ c ⟪main_v254⟫ = up y) :
    W66 m ρ c ⟪main_v271⟫ = up (zOf A 2 y) := by
  obtain ⟨hy', hs, ht⟩ := khost20 A (W62 m ρ c) y hy ((argsAt20 m ρ c main_arg7 (by decide)).trans hA.a7) ((argsAt20 m ρ c main_arg8 (by decide)).trans hA.a8)
  exact ((W66_arr m ρ c 3).trans (kregion20 (V65 m ρ) c _ _ _ hy' hs ht)).trans (congrArg up (zOf_glue A 2 _))

theorem st21 (z : Mat 50000 256) (hA : ArgsAt m c A) (hz : W66 m ρ c ⟪main_v271⟫ = up z) :
    W68 m ρ c ⟪main_v277⟫ = up (lin2Of A 2 z) := by
  obtain ⟨hz', hW, hb⟩ := khost21 A (W66 m ρ c) z hz ((argsAt21 m ρ c main_arg9 (by decide)).trans hA.a9) ((argsAt21 m ρ c main_arg10 (by decide)).trans hA.a10)
  exact ((W68_arr m ρ c 3).trans (kregion21 (V67 m ρ) c _ _ _ hz' hW hb)).trans (congrArg up (lin2Of_glue A 2 _))

theorem st22 (y : Mat 50000 128) (hA : ArgsAt m c A) (hy : W68 m ρ c ⟪main_v277⟫ = up y) :
    W72 m ρ c ⟪main_v294⟫ = up (hbnOf A 2 y) := by
  obtain ⟨hy', hs, ht⟩ := khost22 A (W68 m ρ c) y hy ((argsAt22 m ρ c main_arg11 (by decide)).trans hA.a11) ((argsAt22 m ρ c main_arg12 (by decide)).trans hA.a12)
  exact ((W72_arr m ρ c 3).trans (kregion22 (V71 m ρ) c _ _ _ hy' hs ht)).trans (congrArg up (hbnOf_glue A 2 _))

end Cert.KernelIdeal.Hand

end
-- ==== Proof.KChain.lean ====
import proofs.«403290_j73710228734482_1_alg».proof.Proof.KChainStages

noncomputable section

namespace Cert.KernelIdeal.Hand

open Idealize.ShloMosaic Idealize.ShloMosaic.TcCoe Cert.KernelIdeal Cert.KernelIdeal.Gen Cert.Spec

local notation "⟪" b "⟫" => Proc.devRef Proc.tc b

variable (m : (ℓ : Loc nD τ sig) → Buf (Elt Ideal) ℓ) (ρ : Dev nD → PrngReg) (c : Dev nD) (A : Spec.Args)

theorem carry_1_4 (r : Ref sig .tc) (h1 : Kept1 r) (h2 : Kept2 r) (h3 : Kept3 r) (h4 : Kept4 r) :
    W16 m ρ c ⟪r⟫ = W4 m ρ c ⟪r⟫ :=
  (keep4 m ρ c r h4).trans ((keep3 m ρ c r h3).trans ((keep2 m ρ c r h2).trans (keep1 m ρ c r h1)))
theorem carry_2_4 (r : Ref sig .tc) (h2 : Kept2 r) (h3 : Kept3 r) (h4 : Kept4 r) :
    W16 m ρ c ⟪r⟫ = W6 m ρ c ⟪r⟫ :=
  (keep4 m ρ c r h4).trans ((keep3 m ρ c r h3).trans (keep2 m ρ c r h2))
theorem carry_5_8 (r : Ref sig .tc) (h5 : Kept5 r) (h6 : Kept6 r) (h7 : Kept7 r) (h8 : Kept8 r) :
    W28 m ρ c ⟪r⟫ = W16 m ρ c ⟪r⟫ :=
  (keep8 m ρ c r h8).trans ((keep7 m ρ c r h7).trans ((keep6 m ρ c r h6).trans (keep5 m ρ c r h5)))
theorem carry_10_13 (r : Ref sig .tc) (h10 : Kept10 r) (h11 : Kept11 r) (h12 : Kept12 r) (h13 : Kept13 r) :
    W44 m ρ c ⟪r⟫ = W32 m ρ c ⟪r⟫ :=
  (keep13 m ρ c r h13).trans ((keep12 m ρ c r h12).trans ((keep11 m ρ c r h11).trans (keep10 m ρ c r h10)))
theorem carry_11_13 (r : Ref sig .tc) (h11 : Kept11 r) (h12 : Kept12 r) (h13 : Kept13 r) :
    W44 m ρ c ⟪r⟫ = W34 m ρ c ⟪r⟫ :=
  (keep13 m ρ c r h13).trans ((keep12 m ρ c r h12).trans (keep11 m ρ c r h11))
theorem carry_14_17 (r : Ref sig .tc) (h14 : Kept14 r) (h15 : Kept15 r) (h16 : Kept16 r) (h17 : Kept17 r) :
    W56 m ρ c ⟪r⟫ = W44 m ρ c ⟪r⟫ :=
  (keep17 m ρ c r h17).trans ((keep16 m ρ c r h16).trans ((keep15 m ρ c r h15).trans (keep14 m ρ c r h14)))

theorem layer0 (hA : ArgsAt m c A) (hsrc : ∀ e : Fin 800000, 0 ≤ (srcw A e).toInt ∧ (srcw A e).toInt < 50000) :
    W28 m ρ c ⟪main_v68⟫ = up (relu (nodeOf A 0 A.x (vnB A)))
    ∧ W28 m ρ c ⟪main_v117⟫ = up (vnNext A 0 A.x (vnB A))
    ∧ W28 m ρ c ⟪main_v1⟫ = (fun i => srcw A (i 0) : IVec S800000 32)
    ∧ W28 m ρ c ⟪main_v3⟫ = (fun i => dstw A (i 0) : IVec S800000 32) := by
  obtain ⟨h19, h12, h4, hv1, hv3⟩ := st0 m ρ c A hA hsrc
  obtain ⟨h28, h12'⟩ := st1 m ρ c A _ _ hA h12 h19 hv3
  have h45 := st2 m ρ c A _ hA h28
  have h51 := st3 m ρ c A _ hA h45
  have h68 := st4 m ρ c A _ hA h51
  have g12 := (carry_2_4 m ρ c main_v12 (by decide) (by decide) (by decide)).trans h12'
  have g4 := (carry_1_4 m ρ c main_v4 (by decide) (by decide) (by decide) (by decide)).trans h4
  have h77 := st5 m ρ c A _ _ hA g12 g4
  have h94 := st6 m ρ c A _ hA h77
  have h100 := st7 m ρ c A _ hA h94
  have h117 := st8 m ρ c A _ hA h100
  exact ⟨(carry_5_8 m ρ c main_v68 (by decide) (by decide) (by decide) (by decide)).trans h68, h117,
    ((carry_5_8 m ρ c main_v1 (by decide) (by decide) (by decide) (by decide)).trans
      (carry_1_4 m ρ c main_v1 (by decide) (by decide) (by decide) (by decide))).trans hv1,
    ((carry_5_8 m ρ c main_v3 (by decide) (by decide) (by decide) (by decide)).trans
      (carry_1_4 m ρ c main_v3 (by decide) (by decide) (by decide) (by decide))).trans hv3⟩

theorem layer1 (h : Mat 50000 128) (vn : Mat 512 128) (hA : ArgsAt m c A) (hsrc : ∀ e : Fin 800000, 0 ≤ (srcw A e).toInt ∧ (srcw A e).toInt < 50000)
    (hh : W28 m ρ c ⟪main_v68⟫ = up h) (hvn : W28 m ρ c ⟪main_v117⟫ = up vn)
    (hv1 : W28 m ρ c ⟪main_v1⟫ = (fun i => srcw A (i 0) : IVec S800000 32)) (hv3 : W28 m ρ c ⟪main_v3⟫ = (fun i => dstw A (i 0) : IVec S800000 32)) :
    W56 m ρ c ⟪main_v181⟫ = up (relu (nodeOf A 1 h vn))
    ∧ W56 m ρ c ⟪main_v230⟫ = up (vnNext A 1 h vn)
    ∧ W56 m ρ c ⟪main_v1⟫ = (fun i => srcw A (i 0) : IVec S800000 32)
    ∧ W56 m ρ c ⟪main_v3⟫ = (fun i => dstw A (i 0) : IVec S800000 32) := by
  obtain ⟨h132, h125⟩ := st9 m ρ c A h vn hA hsrc hh hvn hv1
  have g3 := (keep9 m ρ c main_v3 (by decide)).trans hv3
  obtain ⟨h141, h125'⟩ := st10 m ρ c A _ _ hA h125 h132 g3
  have h158 := st11 m ρ c A _ hA h141
  have h164 := st12 m ρ c A _ hA h158
  have h181 := st13 m ρ c A _ hA h164
  have g125 := (carry_11_13 m ρ c main_v125 (by decide) (by decide) (by decide)).trans h125'
  have g117 := ((carry_10_13 m ρ c main_v117 (by decide) (by decide) (by decide) (by decide)).trans
    (keep9 m ρ c main_v117 (by decide))).trans hvn
  have h190 := st14 m ρ c A _ _ hA g125 g117
  have h207 := st15 m ρ c A _ hA h190
  have h213 := st16 m ρ c A _ hA h207
  have h230 := st17 m ρ c A _ hA h213
  exact ⟨(carry_14_17 m ρ c main_v181 (by decide) (by decide) (by decide) (by decide)).trans h181, h230,
    ((carry_14_17 m ρ c main_v1 (by decide) (by decide) (by decide) (by decide)).trans
      ((carry_10_13 m ρ c main_v1 (by decide) (by decide) (by decide) (by decide)).trans
        (keep9 m ρ c main_v1 (by decide)))).trans hv1,
    ((carry_14_17 m ρ c main_v3 (by decide) (by decide) (by decide) (by decide)).trans
      ((carry_10_13 m ρ c main_v3 (by decide) (by decide) (by decide) (by decide)).trans
        (keep9 m ρ c main_v3 (by decide)))).trans hv3⟩

theorem layer2 (h : Mat 50000 128) (vn : Mat 512 128) (hA : ArgsAt m c A) (hsrc : ∀ e : Fin 800000, 0 ≤ (srcw A e).toInt ∧ (srcw A e).toInt < 50000)
    (hh : W56 m ρ c ⟪main_v181⟫ = up h) (hvn : W56 m ρ c ⟪main_v230⟫ = up vn)
    (hv1 : W56 m ρ c ⟪main_v1⟫ = (fun i => srcw A (i 0) : IVec S800000 32)) (hv3 : W56 m ρ c ⟪main_v3⟫ = (fun i => dstw A (i 0) : IVec S800000 32)) :
    W72 m ρ c ⟪main_v294⟫ = up (nodeOf A 2 h vn) := by
  obtain ⟨h245, h238⟩ := st18 m ρ c A h vn hA hsrc hh hvn hv1
  have g3 := (keep18 m ρ c main_v3 (by decide)).trans hv3
  obtain ⟨h254, -⟩ := st19 m ρ c A _ _ hA h238 h245 g3
  have h271 := st20 m ρ c A _ hA h254
  have h277 := st21 m ρ c A _ hA h271
  exact st22 m ρ c A _ hA h277

theorem kchain (hargs : ArgsAt m c A) (hsrc : ∀ e : Fin 800000, 0 ≤ (srcw A e).toInt ∧ (srcw A e).toInt < 50000) :
    Gen.W72 (F := Ideal) m ρ c ⟪main_v294⟫ = up (Spec.out A) := by
  obtain ⟨e68, e117, e1, e3⟩ := layer0 m ρ c A hargs hsrc
  obtain ⟨e181, e230, e1', e3'⟩ := layer1 m ρ c A _ _ hargs hsrc e68 e117 e1 e3
  exact layer2 m ρ c A _ _ hargs hsrc e181 e230 e1' e3'

end Cert.KernelIdeal.Hand

end
-- ==== Proof.RChunks.lean ====
import proofs.«403290_j73710228734482_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage 0 of the reference's @main: 36 operations. -/
abbrev rchunk0 : List (HloOp τ sig (Elt F)) :=
  [ unary main_arg21 main_v0 ((extractStridedSlice S1x800000 ![0, 0] · slices_S2x800000_S1x800000_0_0) : (⟨S2x800000, .i32⟩ : BufTy).Contents (Elt F) → (⟨S1x800000, .i32⟩ : BufTy).Contents (Elt F)),  -- %0 = stablehlo.slice %arg21 [0:1, 0:800000] : (tensor<2x800000xi32>) -> tensor<1x800000xi32>  @ reference:47
    reshape main_v0 main_v1 rfl shapeCasts_S1x800000_S800000,  -- %1 = stablehlo.reshape %0 : (tensor<1x800000xi32>) -> tensor<800000xi32>  @ reference:47
    unary main_arg21 main_v2 ((extractStridedSlice S1x800000 ![1, 0] · slices_S2x800000_S1x800000_1_0) : (⟨S2x800000, .i32⟩ : BufTy).Contents (Elt F) → (⟨S1x800000, .i32⟩ : BufTy).Contents (Elt F)),  -- %2 = stablehlo.slice %arg21 [1:2, 0:800000] : (tensor<2x800000xi32>) -> tensor<1x800000xi32>  @ reference:47
    reshape main_v2 main_v3 rfl shapeCasts_S1x800000_S800000,  -- %3 = stablehlo.reshape %2 : (tensor<1x800000xi32>) -> tensor<800000xi32>  @ reference:47
    unary main_arg2 main_v4 (broadcastInDim S512x128 ![0, 1] bcast_S1x128_S512x128_0_1 : (⟨S1x128, .f32⟩ : BufTy).Contents (Elt F) → (⟨S512x128, .f32⟩ : BufTy).Contents (Elt F)),  -- %4 = stablehlo.broadcast_in_dim %arg2, dims = [0, 1] : (tensor<1x128xf32>) -> tensor<512x128xf32>  @ reference:48
    nullary main_c (constantI S_ 32 0#32),  -- %c = stablehlo.constant dense<0> : tensor<i32>
    unary main_c main_v5 (broadcastInDim S50000 ![] bcast_S_S50000 : (⟨S_, .i32⟩ : BufTy).Contents (Elt F) → (⟨S50000, .i32⟩ : BufTy).Contents (Elt F)),  -- %5 = stablehlo.broadcast_in_dim %c, dims = [] : (tensor<i32>) -> tensor<50000xi32>  @ reference:51
    binary main_arg22 main_v5 main_v6 (cmpi .slt : (⟨S50000, .i32⟩ : BufTy).Contents (Elt F) → (⟨S50000, .i32⟩ : BufTy).Contents (Elt F) → (⟨S50000, .i1⟩ : BufTy).Contents (Elt F)),  -- %6 = stablehlo.compare LT, %arg22, %5, SIGNED : (tensor<50000xi32>, tensor<50000xi32>) -> tensor<50000xi1>  @ reference:51
    nullary main_c_0 (constantI S_ 32 512#32),  -- %c_0 = stablehlo.constant dense<512> : tensor<i32>
    unary main_c_0 main_v7 (broadcastInDim S50000 ![] bcast_S_S50000 : (⟨S_, .i32⟩ : BufTy).Contents (Elt F) → (⟨S50000, .i32⟩ : BufTy).Contents (Elt F)),  -- %7 = stablehlo.broadcast_in_dim %c_0, dims = [] : (tensor<i32>) -> tensor<50000xi32>  @ reference:51
    binary main_arg22 main_v7 main_v8 (addi : (⟨S50000, .i32⟩ : BufTy).Contents (Elt F) → (⟨S50000, .i32⟩ : BufTy).Contents (Elt F) → (⟨S50000, .i32⟩ : BufTy).Contents (Elt F)),  -- %8 = stablehlo.add %arg22, %7 : tensor<50000xi32>  @ reference:51
    ternary main_v6 main_v8 main_arg22 main_v9 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),  -- %9 = stablehlo.select %6, %8, %arg22 : tensor<50000xi1>, tensor<50000xi32>  @ reference:51
    unary main_v9 main_v10 (broadcastInDim S50000x1 ![0] bcast_S50000_S50000x1_0 : (⟨S50000, .i32⟩ : BufTy).Contents (Elt F) → (⟨S50000x1, .i32⟩ : BufTy).Contents (Elt F)),  -- %10 = stablehlo.broadcast_in_dim %9, dims = [0] : (tensor<50000xi32>) -> tensor<50000x1xi32>  @ reference:51
    binary main_v4 main_v10 main_v11 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),  -- %11 = "stablehlo.gather"(%4, %10) <{dimension_numbers = #stablehlo.gather<offset_dims = [1], collapsed_slice_dims = [0], start_index_map = [
    binary main_arg0 main_v11 main_v12 (addf : (⟨S50000x128, .f32⟩ : BufTy).Contents (Elt F) → (⟨S50000x128, .f32⟩ : BufTy).Contents (Elt F) → (⟨S50000x128, .f32⟩ : BufTy).Contents (Elt F)),  -- %12 = stablehlo.add %arg0, %11 : tensor<50000x128xf32>  @ reference:51
    unary main_arg3 main_v13 ((extractStridedSlice S1x8x128 ![0, 0, 0] · slices_S3x8x128_S1x8x128_0_0_0) : (⟨S3x8x128, .f32⟩ : BufTy).Contents (Elt F) → (⟨S1x8x128, .f32⟩ : BufTy).Contents (Elt F)),  -- %13 = stablehlo.slice %arg3 [0:1, 0:8, 0:128] : (tensor<3x8x128xf32>) -> tensor<1x8x128xf32>  @ reference:52
    reshape main_v13 main_v14 rfl shapeCasts_S1x8x128_S8x128,  -- %14 = stablehlo.reshape %13 : (tensor<1x8x128xf32>) -> tensor<8x128xf32>  @ reference:52
    binary main_arg1 main_v14 main_v15 ((fun l r => Host.dotGeneral dot_S800000x8_S8x128_S800000x128_1_0_0_1_n_n none l r) : (⟨S800000x8, .f32⟩ : BufTy).Contents (Elt F) → (⟨S8x128, .f32⟩ : BufTy).Contents (Elt F) → (⟨S800000x128, .f32⟩ : BufTy).Contents (Elt F)),  -- %15 = stablehlo.dot_general %arg1, %14, contracting_dims = [1] x [0], precision = [DEFAULT, DEFAULT] : (tensor<800000x8xf32>, tensor<8x128xf
    unary main_arg4 main_v16 ((extractStridedSlice S1x128 ![0, 0] · slices_S3x128_S1x128_0_0) : (⟨S3x128, .f32⟩ : BufTy).Contents (Elt F) → (⟨S1x128, .f32⟩ : BufTy).Contents (Elt F)),  -- %16 = stablehlo.slice %arg4 [0:1, 0:128] : (tensor<3x128xf32>) -> tensor<1x128xf32>  @ reference:52
    reshape main_v16 main_v17 rfl shapeCasts_S1x128_S128,  -- %17 = stablehlo.reshape %16 : (tensor<1x128xf32>) -> tensor<128xf32>  @ reference:52
    unary main_v17 main_v18 (broadcastInDim S1x128 ![1] bcast_S128_S1x128_1 : (⟨S128, .f32⟩ : BufTy).Contents (Elt F) → (⟨S1x128, .f32⟩ : BufTy).Contents (Elt F)),  -- %18 = stablehlo.broadcast_in_dim %17, dims = [1] : (tensor<128xf32>) -> tensor<1x128xf32>  @ reference:52
    unary main_v18 main_v19 (broadcastInDim S800000x128 ![0, 1] bcast_S1x128_S800000x128_0_1 : (⟨S1x128, .f32⟩ : BufTy).Contents (Elt F) → (⟨S800000x128, .f32⟩ : BufTy).Contents (Elt F)),  -- %19 = stablehlo.broadcast_in_dim %18, dims = [0, 1] : (tensor<1x128xf32>) -> tensor<800000x128xf32>  @ reference:52
    binary main_v15 main_v19 main_v20 (addf : (⟨S800000x128, .f32⟩ : BufTy).Contents (Elt F) → (⟨S800000x128, .f32⟩ : BufTy).Contents (Elt F) → (⟨S800000x128, .f32⟩ : BufTy).Contents (Elt F)),  -- %20 = stablehlo.add %15, %19 : tensor<800000x128xf32>  @ reference:52
    nullary main_c_1 (constantI S_ 32 0#32),  -- %c_1 = stablehlo.constant dense<0> : tensor<i32>
    unary main_c_1 main_v21 (broadcastInDim S800000 ![] bcast_S_S800000 : (⟨S_, .i32⟩ : BufTy).Contents (Elt F) → (⟨S800000, .i32⟩ : BufTy).Contents (Elt F)),  -- %21 = stablehlo.broadcast_in_dim %c_1, dims = [] : (tensor<i32>) -> tensor<800000xi32>  @ reference:53
    binary main_v1 main_v21 main_v22 (cmpi .slt : (⟨S800000, .i32⟩ : BufTy).Contents (Elt F) → (⟨S800000, .i32⟩ : BufTy).Contents (Elt F) → (⟨S800000, .i1⟩ : BufTy).Contents (Elt F)),  -- %22 = stablehlo.compare LT, %1, %21, SIGNED : (tensor<800000xi32>, tensor<800000xi32>) -> tensor<800000xi1>  @ reference:53
    nullary main_c_2 (constantI S_ 32 50000#32),  -- %c_2 = stablehlo.constant dense<50000> : tensor<i32>
    unary main_c_2 main_v23 (broadcastInDim S800000 ![] bcast_S_S800000 : (⟨S_, .i32⟩ : BufTy).Contents (Elt F) → (⟨S800000, .i32⟩ : BufTy).Contents (Elt F)),  -- %23 = stablehlo.broadcast_in_dim %c_2, dims = [] : (tensor<i32>) -> tensor<800000xi32>  @ reference:53
    binary main_v1 main_v23 main_v24 (addi : (⟨S800000, .i32⟩ : BufTy).Contents (Elt F) → (⟨S800000, .i32⟩ : BufTy).Contents (Elt F) → (⟨S800000, .i32⟩ : BufTy).Contents (Elt F)),  -- %24 = stablehlo.add %1, %23 : tensor<800000xi32>  @ reference:53
    ternary main_v22 main_v24 main_v1 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %25 = stablehlo.select %22, %24, %1 : tensor<800000xi1>, tensor<800000xi32>  @ reference:53
    unary main_v25 main_v26 (broadcastInDim S800000x1 ![0] bcast_S800000_S800000x1_0 : (⟨S800000, .i32⟩ : BufTy).Contents (Elt F) → (⟨S800000x1, .i32⟩ : BufTy).Contents (Elt F)),  -- %26 = stablehlo.broadcast_in_dim %25, dims = [0] : (tensor<800000xi32>) -> tensor<800000x1xi32>  @ reference:53
    binary main_v12 main_v26 main_v27 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),  -- %27 = "stablehlo.gather"(%12, %26) <{dimension_numbers = #stablehlo.gather<offset_dims = [1], collapsed_slice_dims = [0], start_index_map =
    binary main_v27 main_v20 main_v28 (addf : (⟨S800000x128, .f32⟩ : BufTy).Contents (Elt F) → (⟨S800000x128, .f32⟩ : BufTy).Contents (Elt F) → (⟨S800000x128, .f32⟩ : BufTy).Contents (Elt F)),  -- %28 = stablehlo.add %27, %20 : tensor<800000x128xf32>  @ reference:53
    TRef.nullary main_call0.cst (constant S_ .f32 0x00000000#32),  -- %cst = stablehlo.constant dense<0.000000e+00> : tensor<f32>   [in fn_relu at main_call0]
    TRef.unary main_call0.cst main_call0.v0 (broadcastInDim S800000x128 ![] bcast_S_S800000x128),  -- %0 = stablehlo.broadcast_in_dim %cst, dims = [] : (tensor<f32>) -> tensor<800000x128xf32>   [in fn_relu at main_call0]
    TRef.binary (.of main_v28) main_call0.v0 main_call0.v1 maximumf ]  -- %1 = stablehlo.maximum %arg0, %0 : tensor<800000x128xf32>   [in fn_relu at main_call0]

/-- Stage 1 of the reference's @main: 13 operations. -/
abbrev rchunk1 : List (HloOp τ sig (Elt F)) :=
  [ nullary main_cst (constant S_ .f32 0x00000000#32),  -- %cst = stablehlo.constant dense<0.000000e+00> : tensor<f32>
    unary main_cst main_v30 (broadcastInDim S50000x128 ![] bcast_S_S50000x128 : (⟨S_, .f32⟩ : BufTy).Contents (Elt F) → (⟨S50000x128, .f32⟩ : BufTy).Contents (Elt F)),  -- %30 = stablehlo.broadcast_in_dim %cst, dims = [] : (tensor<f32>) -> tensor<50000x128xf32>  @ reference:54
    unary main_v3 main_v31 (broadcastInDim S800000x1 ![0] bcast_S800000_S800000x1_0 : (⟨S800000, .i32⟩ : BufTy).Contents (Elt F) → (⟨S800000x1, .i32⟩ : BufTy).Contents (Elt F)),  -- %31 = stablehlo.broadcast_in_dim %3, dims = [0] : (tensor<800000xi32>) -> tensor<800000x1xi32>  @ reference:54
    ternary main_v30 main_v31 main_v29 main_v32 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),  -- %32 = "stablehlo.scatter"(%30, %31, %29) <{indices_are_sorted = false, scatter_dimension_numbers = #stablehlo.scatter<update_window_dims = [
    binary main_v12 main_v32 main_v33 (addf : (⟨S50000x128, .f32⟩ : BufTy).Contents (Elt F) → (⟨S50000x128, .f32⟩ : BufTy).Contents (Elt F) → (⟨S50000x128, .f32⟩ : BufTy).Contents (Elt F)),  -- %33 = stablehlo.add %12, %32 : tensor<50000x128xf32>  @ reference:55
    unary main_arg5 main_v34 ((extractStridedSlice S1x128x256 ![0, 0, 0] · slices_S3x128x256_S1x128x256_0_0_0) : (⟨S3x128x256, .f32⟩ : BufTy).Contents (Elt F) → (⟨S1x128x256, .f32⟩ : BufTy).Contents (Elt F)),  -- %34 = stablehlo.slice %arg5 [0:1, 0:128, 0:256] : (tensor<3x128x256xf32>) -> tensor<1x128x256xf32>  @ reference:56
    reshape main_v34 main_v35 rfl shapeCasts_S1x128x256_S128x256,  -- %35 = stablehlo.reshape %34 : (tensor<1x128x256xf32>) -> tensor<128x256xf32>  @ reference:56
    binary main_v33 main_v35 main_v36 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),  -- %36 = stablehlo.dot_general %33, %35, contracting_dims = [1] x [0], precision = [DEFAULT, DEFAULT] : (tensor<50000x128xf32>, tensor<128x256x
    unary main_arg6 main_v37 ((extractStridedSlice S1x256 ![0, 0] · slices_S3x256_S1x256_0_0) : (⟨S3x256, .f32⟩ : BufTy).Contents (Elt F) → (⟨S1x256, .f32⟩ : BufTy).Contents (Elt F)),  -- %37 = stablehlo.slice %arg6 [0:1, 0:256] : (tensor<3x256xf32>) -> tensor<1x256xf32>  @ reference:56
    reshape main_v37 main_v38 rfl shapeCasts_S1x256_S256,  -- %38 = stablehlo.reshape %37 : (tensor<1x256xf32>) -> tensor<256xf32>  @ reference:56
    unary main_v38 main_v39 (broadcastInDim S1x256 ![1] bcast_S256_S1x256_1 : (⟨S256, .f32⟩ : BufTy).Contents (Elt F) → (⟨S1x256, .f32⟩ : BufTy).Contents (Elt F)),  -- %39 = stablehlo.broadcast_in_dim %38, dims = [1] : (tensor<256xf32>) -> tensor<1x256xf32>  @ reference:56
    unary main_v39 main_v40 (broadcastInDim S50000x256 ![0, 1] bcast_S1x256_S50000x256_0_1 : (⟨S1x256, .f32⟩ : BufTy).Contents (Elt F) → (⟨S50000x256, .f32⟩ : BufTy).Contents (Elt F)),  -- %40 = stablehlo.broadcast_in_dim %39, dims = [0, 1] : (tensor<1x256xf32>) -> tensor<50000x256xf32>  @ reference:56
    binary main_v36 main_v40 main_v41 (addf : (⟨S50000x256, .f32⟩ : BufTy).Contents (Elt F) → (⟨S50000x256, .f32⟩ : BufTy).Contents (Elt F) → (⟨S50000x256, .f32⟩ : BufTy).Contents (Elt F)) ]  -- %41 = stablehlo.add %36, %40 : tensor<50000x256xf32>  @ reference:56

/-- Stage 2 of the reference's @main: 51 operations. -/
abbrev rchunk2 : List (HloOp τ sig (Elt F)) :=
  [ unary main_arg7 main_v42 ((extractStridedSlice S1x256 ![0, 0] · slices_S3x256_S1x256_0_0) : (⟨S3x256, .f32⟩ : BufTy).Contents (Elt F) → (⟨S1x256, .f32⟩ : BufTy).Contents (Elt F)),  -- %42 = stablehlo.slice %arg7 [0:1, 0:256] : (tensor<3x256xf32>) -> tensor<1x256xf32>  @ reference:56
    reshape main_v42 main_v43 rfl shapeCasts_S1x256_S256,  -- %43 = stablehlo.reshape %42 : (tensor<1x256xf32>) -> tensor<256xf32>  @ reference:56
    unary main_arg8 main_v44 ((extractStridedSlice S1x256 ![0, 0] · slices_S3x256_S1x256_0_0) : (⟨S3x256, .f32⟩ : BufTy).Contents (Elt F) → (⟨S1x256, .f32⟩ : BufTy).Contents (Elt F)),  -- %44 = stablehlo.slice %arg8 [0:1, 0:256] : (tensor<3x256xf32>) -> tensor<1x256xf32>  @ reference:56
    reshape main_v44 main_v45 rfl shapeCasts_S1x256_S256,  -- %45 = stablehlo.reshape %44 : (tensor<1x256xf32>) -> tensor<256xf32>  @ reference:56
    nullary main_cst_3 (constant S_ .f32 0x00000000#32),  -- %cst_3 = stablehlo.constant dense<0.000000e+00> : tensor<f32>
    binary main_v41 main_cst_3 main_v46 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),  -- %46 = stablehlo.reduce(%41 init: %cst_3) applies stablehlo.add across dimensions = [0] : (tensor<50000x256xf32>, tensor<f32>) -> tensor<256x
    nullary main_cst_4 (constant S_ .f32 0x47435000#32),  -- %cst_4 = stablehlo.constant dense<5.000000e+04> : tensor<f32>
    unary main_cst_4 main_v47 (broadcastInDim S256 ![] bcast_S_S256 : (⟨S_, .f32⟩ : BufTy).Contents (Elt F) → (⟨S256, .f32⟩ : BufTy).Contents (Elt F)),  -- %47 = stablehlo.broadcast_in_dim %cst_4, dims = [] : (tensor<f32>) -> tensor<256xf32>  @ reference:10
    binary main_v46 main_v47 main_v48 (Host.divf : (⟨S256, .f32⟩ : BufTy).Contents (Elt F) → (⟨S256, .f32⟩ : BufTy).Contents (Elt F) → (⟨S256, .f32⟩ : BufTy).Contents (Elt F)),  -- %48 = stablehlo.divide %46, %47 : tensor<256xf32>  @ reference:10
    nullary main_c_5 (constantI S_ 32 0#32),  -- %c_5 = stablehlo.constant dense<0> : tensor<i32>
    TRef.nullary main_call1.cst (constant S_ .f32 0x00000000#32),  -- %cst = stablehlo.constant dense<0.000000e+00> : tensor<f32>   [in fn_var at main_call1]
    TRef.binary (.of main_v41) main_call1.cst main_call1.v0 (fun x v => Host.reduceAdd x v reducesTo_S50000x256_S256_d0 h_S_),  -- %0 = stablehlo.reduce(%arg0 init: %cst) applies stablehlo.add across dimensions = [0] : (tensor<50000x256xf32>, tensor<f32>) -> tensor<256xf
    TRef.unary main_call1.v0 main_call1.v1 (broadcastInDim S1x256 ![1] bcast_S256_S1x256_1),  -- %1 = stablehlo.broadcast_in_dim %0, dims = [1] : (tensor<256xf32>) -> tensor<1x256xf32>   [in fn_var at main_call1]
    TRef.nullary main_call1.cst_0 (constant S_ .f32 0x47435000#32),  -- %cst_0 = stablehlo.constant dense<5.000000e+04> : tensor<f32>   [in fn_var at main_call1]
    TRef.unary main_call1.cst_0 main_call1.v2 (broadcastInDim S1x256 ![] bcast_S_S1x256),  -- %2 = stablehlo.broadcast_in_dim %cst_0, dims = [] : (tensor<f32>) -> tensor<1x256xf32>   [in fn_var at main_call1]
    TRef.binary main_call1.v1 main_call1.v2 main_call1.v3 Host.divf,  -- %3 = stablehlo.divide %1, %2 : tensor<1x256xf32>   [in fn_var at main_call1]
    TRef.unary main_call1.v3 main_call1.v4 (broadcastInDim S50000x256 ![0, 1] bcast_S1x256_S50000x256_0_1),  -- %4 = stablehlo.broadcast_in_dim %3, dims = [0, 1] : (tensor<1x256xf32>) -> tensor<50000x256xf32>   [in fn_var at main_call1]
    TRef.binary (.of main_v41) main_call1.v4 main_call1.v5 subf,  -- %5 = stablehlo.subtract %arg0, %4 : tensor<50000x256xf32>   [in fn_var at main_call1]
    TRef.binary main_call1.v5 main_call1.v5 main_call1.v6 mulf,  -- %6 = chlo.square %5 : tensor<50000x256xf32> -> tensor<50000x256xf32>   [in fn_var at main_call1]
    TRef.unary (.of main_c_5) main_call1.v7 (sitofp .f32),  -- %7 = stablehlo.convert %arg1 : (tensor<i32>) -> tensor<f32>   [in fn_var at main_call1]
    TRef.nullary main_call1.cst_1 (constant S_ .f32 0x47435000#32),  -- %cst_1 = stablehlo.constant dense<5.000000e+04> : tensor<f32>   [in fn_var at main_call1]
    TRef.binary main_call1.cst_1 main_call1.v7 main_call1.v8 subf,  -- %8 = stablehlo.subtract %cst_1, %7 : tensor<f32>   [in fn_var at main_call1]
    TRef.nullary main_call1.cst_2 (constant S_ .f32 0x00000000#32),  -- %cst_2 = stablehlo.constant dense<0.000000e+00> : tensor<f32>   [in fn_var at main_call1]
    TRef.binary main_call1.v6 main_call1.cst_2 main_call1.v9 (fun x v => Host.reduceAdd x v reducesTo_S50000x256_S256_d0 h_S_),  -- %9 = stablehlo.reduce(%6 init: %cst_2) applies stablehlo.add across dimensions = [0] : (tensor<50000x256xf32>, tensor<f32>) -> tensor<256xf3
    TRef.unary main_call1.v8 main_call1.v10 (broadcastInDim S256 ![] bcast_S_S256),  -- %10 = stablehlo.broadcast_in_dim %8, dims = [] : (tensor<f32>) -> tensor<256xf32>   [in fn_var at main_call1]
    TRef.binary main_call1.v9 main_call1.v10 main_call1.v11 Host.divf,  -- %11 = stablehlo.divide %9, %10 : tensor<256xf32>   [in fn_var at main_call1]
    TRef.nullary main_call1.cst_3 (constant S_ .f32 0x00000000#32),  -- %cst_3 = stablehlo.constant dense<0.000000e+00> : tensor<f32>   [in fn_var at main_call1]
    TRef.binary main_call1.v8 main_call1.cst_3 main_call1.v12 (cmpf .ogt),  -- %12 = stablehlo.compare GT, %8, %cst_3, FLOAT : (tensor<f32>, tensor<f32>) -> tensor<i1>   [in fn_var at main_call1]
    TRef.nullary main_call1.cst_4 (constant S_ .f32 0x7FC00000#32),  -- %cst_4 = stablehlo.constant dense<0x7FC00000> : tensor<f32>   [in fn_var at main_call1]
    TRef.unary main_call1.cst_4 main_call1.call0.v0 id,  -- %0 = stablehlo.convert %arg2 : tensor<f32>   [in fn_where at main_call1.call0]   [in fn_var at main_call1]
    TRef.unary main_call1.call0.v0 main_call1.call0.v1 (broadcastInDim S256 ![] bcast_S_S256),  -- %1 = stablehlo.broadcast_in_dim %0, dims = [] : (tensor<f32>) -> tensor<256xf32>   [in fn_where at main_call1.call0]   [in fn_var at main_ca
    TRef.ternary main_call1.v12 main_call1.v11 main_call1.call0.v1 main_call1.call0.v2 (fun p a b => select (broadcastInDim S256 ![] bcast_S_S256 p) a b),  -- %2 = stablehlo.select %arg0, %arg1, %1 : tensor<i1>, tensor<256xf32>   [in fn_where at main_call1.call0]   [in fn_var at main_call1]
    unary main_v48 main_v50 (broadcastInDim S1x256 ![1] bcast_S256_S1x256_1 : (⟨S256, .f32⟩ : BufTy).Contents (Elt F) → (⟨S1x256, .f32⟩ : BufTy).Contents (Elt F)),  -- %50 = stablehlo.broadcast_in_dim %48, dims = [1] : (tensor<256xf32>) -> tensor<1x256xf32>  @ reference:12
    unary main_v50 main_v51 (broadcastInDim S50000x256 ![0, 1] bcast_S1x256_S50000x256_0_1 : (⟨S1x256, .f32⟩ : BufTy).Contents (Elt F) → (⟨S50000x256, .f32⟩ : BufTy).Contents (Elt F)),  -- %51 = stablehlo.broadcast_in_dim %50, dims = [0, 1] : (tensor<1x256xf32>) -> tensor<50000x256xf32>  @ reference:12
    binary main_v41 main_v51 main_v52 (subf : (⟨S50000x256, .f32⟩ : BufTy).Contents (Elt F) → (⟨S50000x256, .f32⟩ : BufTy).Contents (Elt F) → (⟨S50000x256, .f32⟩ : BufTy).Contents (Elt F)),  -- %52 = stablehlo.subtract %41, %51 : tensor<50000x256xf32>  @ reference:12
    unary main_v43 main_v53 (broadcastInDim S1x256 ![1] bcast_S256_S1x256_1 : (⟨S256, .f32⟩ : BufTy).Contents (Elt F) → (⟨S1x256, .f32⟩ : BufTy).Contents (Elt F)),  -- %53 = stablehlo.broadcast_in_dim %43, dims = [1] : (tensor<256xf32>) -> tensor<1x256xf32>  @ reference:12
    unary main_v53 main_v54 (broadcastInDim S50000x256 ![0, 1] bcast_S1x256_S50000x256_0_1 : (⟨S1x256, .f32⟩ : BufTy).Contents (Elt F) → (⟨S50000x256, .f32⟩ : BufTy).Contents (Elt F)),  -- %54 = stablehlo.broadcast_in_dim %53, dims = [0, 1] : (tensor<1x256xf32>) -> tensor<50000x256xf32>  @ reference:12
    binary main_v54 main_v52 main_v55 (mulf : (⟨S50000x256, .f32⟩ : BufTy).Contents (Elt F) → (⟨S50000x256, .f32⟩ : BufTy).Contents (Elt F) → (⟨S50000x256, .f32⟩ : BufTy).Contents (Elt F)),  -- %55 = stablehlo.multiply %54, %52 : tensor<50000x256xf32>  @ reference:12
    nullary main_cst_6 (constant S_ .f32 0x3727C5AC#32),  -- %cst_6 = stablehlo.constant dense<9.99999974E-6> : tensor<f32>
    unary main_cst_6 main_v56 (broadcastInDim S256 ![] bcast_S_S256 : (⟨S_, .f32⟩ : BufTy).Contents (Elt F) → (⟨S256, .f32⟩ : BufTy).Contents (Elt F)),  -- %56 = stablehlo.broadcast_in_dim %cst_6, dims = [] : (tensor<f32>) -> tensor<256xf32>  @ reference:12
    binary main_v49 main_v56 main_v57 (addf : (⟨S256, .f32⟩ : BufTy).Contents (Elt F) → (⟨S256, .f32⟩ : BufTy).Contents (Elt F) → (⟨S256, .f32⟩ : BufTy).Contents (Elt F)),  -- %57 = stablehlo.add %49, %56 : tensor<256xf32>  @ reference:12
    unary main_v57 main_v58 (Host.rsqrt : (⟨S256, .f32⟩ : BufTy).Contents (Elt F) → (⟨S256, .f32⟩ : BufTy).Contents (Elt F)),  -- %58 = stablehlo.rsqrt %57 : tensor<256xf32>  @ reference:12
    unary main_v58 main_v59 (broadcastInDim S1x256 ![1] bcast_S256_S1x256_1 : (⟨S256, .f32⟩ : BufTy).Contents (Elt F) → (⟨S1x256, .f32⟩ : BufTy).Contents (Elt F)),  -- %59 = stablehlo.broadcast_in_dim %58, dims = [1] : (tensor<256xf32>) -> tensor<1x256xf32>  @ reference:12
    unary main_v59 main_v60 (broadcastInDim S50000x256 ![0, 1] bcast_S1x256_S50000x256_0_1 : (⟨S1x256, .f32⟩ : BufTy).Contents (Elt F) → (⟨S50000x256, .f32⟩ : BufTy).Contents (Elt F)),  -- %60 = stablehlo.broadcast_in_dim %59, dims = [0, 1] : (tensor<1x256xf32>) -> tensor<50000x256xf32>  @ reference:12
    binary main_v55 main_v60 main_v61 (mulf : (⟨S50000x256, .f32⟩ : BufTy).Contents (Elt F) → (⟨S50000x256, .f32⟩ : BufTy).Contents (Elt F) → (⟨S50000x256, .f32⟩ : BufTy).Contents (Elt F)),  -- %61 = stablehlo.multiply %55, %60 : tensor<50000x256xf32>  @ reference:12
    unary main_v45 main_v62 (broadcastInDim S1x256 ![1] bcast_S256_S1x256_1 : (⟨S256, .f32⟩ : BufTy).Contents (Elt F) → (⟨S1x256, .f32⟩ : BufTy).Contents (Elt F)),  -- %62 = stablehlo.broadcast_in_dim %45, dims = [1] : (tensor<256xf32>) -> tensor<1x256xf32>  @ reference:12
    unary main_v62 main_v63 (broadcastInDim S50000x256 ![0, 1] bcast_S1x256_S50000x256_0_1 : (⟨S1x256, .f32⟩ : BufTy).Contents (Elt F) → (⟨S50000x256, .f32⟩ : BufTy).Contents (Elt F)),  -- %63 = stablehlo.broadcast_in_dim %62, dims = [0, 1] : (tensor<1x256xf32>) -> tensor<50000x256xf32>  @ reference:12
    binary main_v61 main_v63 main_v64 (addf : (⟨S50000x256, .f32⟩ : BufTy).Contents (Elt F) → (⟨S50000x256, .f32⟩ : BufTy).Contents (Elt F) → (⟨S50000x256, .f32⟩ : BufTy).Contents (Elt F)),  -- %64 = stablehlo.add %61, %63 : tensor<50000x256xf32>  @ reference:12
    TRef.nullary main_call2.cst (constant S_ .f32 0x00000000#32),  -- %cst = stablehlo.constant dense<0.000000e+00> : tensor<f32>   [in fn_relu_0 at main_call2]
    TRef.unary main_call2.cst main_call2.v0 (broadcastInDim S50000x256 ![] bcast_S_S50000x256),  -- %0 = stablehlo.broadcast_in_dim %cst, dims = [] : (tensor<f32>) -> tensor<50000x256xf32>   [in fn_relu_0 at main_call2]
    TRef.binary (.of main_v64) main_call2.v0 main_call2.v1 maximumf ]  -- %1 = stablehlo.maximum %arg0, %0 : tensor<50000x256xf32>   [in fn_relu_0 at main_call2]

/-- Stage 3 of the reference's @main: 8 operations. -/
abbrev rchunk3 : List (HloOp τ sig (Elt F)) :=
  [ unary main_arg9 main_v66 ((extractStridedSlice S1x256x128 ![0, 0, 0] · slices_S3x256x128_S1x256x128_0_0_0) : (⟨S3x256x128, .f32⟩ : BufTy).Contents (Elt F) → (⟨S1x256x128, .f32⟩ : BufTy).Contents (Elt F)),  -- %66 = stablehlo.slice %arg9 [0:1, 0:256, 0:128] : (tensor<3x256x128xf32>) -> tensor<1x256x128xf32>  @ reference:57
    reshape main_v66 main_v67 rfl shapeCasts_S1x256x128_S256x128,  -- %67 = stablehlo.reshape %66 : (tensor<1x256x128xf32>) -> tensor<256x128xf32>  @ reference:57
    binary main_v65 main_v67 main_v68 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),  -- %68 = stablehlo.dot_general %65, %67, contracting_dims = [1] x [0], precision = [DEFAULT, DEFAULT] : (tensor<50000x256xf32>, tensor<256x128x
    unary main_arg10 main_v69 ((extractStridedSlice S1x128 ![0, 0] · slices_S3x128_S1x128_0_0) : (⟨S3x128, .f32⟩ : BufTy).Contents (Elt F) → (⟨S1x128, .f32⟩ : BufTy).Contents (Elt F)),  -- %69 = stablehlo.slice %arg10 [0:1, 0:128] : (tensor<3x128xf32>) -> tensor<1x128xf32>  @ reference:57
    reshape main_v69 main_v70 rfl shapeCasts_S1x128_S128,  -- %70 = stablehlo.reshape %69 : (tensor<1x128xf32>) -> tensor<128xf32>  @ reference:57
    unary main_v70 main_v71 (broadcastInDim S1x128 ![1] bcast_S128_S1x128_1 : (⟨S128, .f32⟩ : BufTy).Contents (Elt F) → (⟨S1x128, .f32⟩ : BufTy).Contents (Elt F)),  -- %71 = stablehlo.broadcast_in_dim %70, dims = [1] : (tensor<128xf32>) -> tensor<1x128xf32>  @ reference:57
    unary main_v71 main_v72 (broadcastInDim S50000x128 ![0, 1] bcast_S1x128_S50000x128_0_1 : (⟨S1x128, .f32⟩ : BufTy).Contents (Elt F) → (⟨S50000x128, .f32⟩ : BufTy).Contents (Elt F)),  -- %72 = stablehlo.broadcast_in_dim %71, dims = [0, 1] : (tensor<1x128xf32>) -> tensor<50000x128xf32>  @ reference:57
    binary main_v68 main_v72 main_v73 (addf : (⟨S50000x128, .f32⟩ : BufTy).Contents (Elt F) → (⟨S50000x128, .f32⟩ : BufTy).Contents (Elt F) → (⟨S50000x128, .f32⟩ : BufTy).Contents (Elt F)) ]  -- %73 = stablehlo.add %68, %72 : tensor<50000x128xf32>  @ reference:57

/-- Stage 4 of the reference's @main: 51 operations. -/
abbrev rchunk4 : List (HloOp τ sig (Elt F)) :=
  [ unary main_arg11 main_v74 ((extractStridedSlice S1x128 ![0, 0] · slices_S3x128_S1x128_0_0) : (⟨S3x128, .f32⟩ : BufTy).Contents (Elt F) → (⟨S1x128, .f32⟩ : BufTy).Contents (Elt F)),  -- %74 = stablehlo.slice %arg11 [0:1, 0:128] : (tensor<3x128xf32>) -> tensor<1x128xf32>  @ reference:57
    reshape main_v74 main_v75 rfl shapeCasts_S1x128_S128,  -- %75 = stablehlo.reshape %74 : (tensor<1x128xf32>) -> tensor<128xf32>  @ reference:57
    unary main_arg12 main_v76 ((extractStridedSlice S1x128 ![0, 0] · slices_S3x128_S1x128_0_0) : (⟨S3x128, .f32⟩ : BufTy).Contents (Elt F) → (⟨S1x128, .f32⟩ : BufTy).Contents (Elt F)),  -- %76 = stablehlo.slice %arg12 [0:1, 0:128] : (tensor<3x128xf32>) -> tensor<1x128xf32>  @ reference:57
    reshape main_v76 main_v77 rfl shapeCasts_S1x128_S128,  -- %77 = stablehlo.reshape %76 : (tensor<1x128xf32>) -> tensor<128xf32>  @ reference:57
    nullary main_cst_7 (constant S_ .f32 0x00000000#32),  -- %cst_7 = stablehlo.constant dense<0.000000e+00> : tensor<f32>
    binary main_v73 main_cst_7 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %78 = stablehlo.reduce(%73 init: %cst_7) applies stablehlo.add across dimensions = [0] : (tensor<50000x128xf32>, tensor<f32>) -> tensor<128x
    nullary main_cst_8 (constant S_ .f32 0x47435000#32),  -- %cst_8 = stablehlo.constant dense<5.000000e+04> : tensor<f32>
    unary main_cst_8 main_v79 (broadcastInDim S128 ![] bcast_S_S128 : (⟨S_, .f32⟩ : BufTy).Contents (Elt F) → (⟨S128, .f32⟩ : BufTy).Contents (Elt F)),  -- %79 = stablehlo.broadcast_in_dim %cst_8, dims = [] : (tensor<f32>) -> tensor<128xf32>  @ reference:10
    binary main_v78 main_v79 main_v80 (Host.divf : (⟨S128, .f32⟩ : BufTy).Contents (Elt F) → (⟨S128, .f32⟩ : BufTy).Contents (Elt F) → (⟨S128, .f32⟩ : BufTy).Contents (Elt F)),  -- %80 = stablehlo.divide %78, %79 : tensor<128xf32>  @ reference:10
    nullary main_c_9 (constantI S_ 32 0#32),  -- %c_9 = stablehlo.constant dense<0> : tensor<i32>
    TRef.nullary main_call3.cst (constant S_ .f32 0x00000000#32),  -- %cst = stablehlo.constant dense<0.000000e+00> : tensor<f32>   [in fn_var_1 at main_call3]
    TRef.binary (.of main_v73) main_call3.cst main_call3.v0 (fun x v => Host.reduceAdd x v reducesTo_S50000x128_S128_d0 h_S_),  -- %0 = stablehlo.reduce(%arg0 init: %cst) applies stablehlo.add across dimensions = [0] : (tensor<50000x128xf32>, tensor<f32>) -> tensor<128xf
    TRef.unary main_call3.v0 main_call3.v1 (broadcastInDim S1x128 ![1] bcast_S128_S1x128_1),  -- %1 = stablehlo.broadcast_in_dim %0, dims = [1] : (tensor<128xf32>) -> tensor<1x128xf32>   [in fn_var_1 at main_call3]
    TRef.nullary main_call3.cst_0 (constant S_ .f32 0x47435000#32),  -- %cst_0 = stablehlo.constant dense<5.000000e+04> : tensor<f32>   [in fn_var_1 at main_call3]
    TRef.unary main_call3.cst_0 main_call3.v2 (broadcastInDim S1x128 ![] bcast_S_S1x128),  -- %2 = stablehlo.broadcast_in_dim %cst_0, dims = [] : (tensor<f32>) -> tensor<1x128xf32>   [in fn_var_1 at main_call3]
    TRef.binary main_call3.v1 main_call3.v2 main_call3.v3 Host.divf,  -- %3 = stablehlo.divide %1, %2 : tensor<1x128xf32>   [in fn_var_1 at main_call3]
    TRef.unary main_call3.v3 main_call3.v4 (broadcastInDim S50000x128 ![0, 1] bcast_S1x128_S50000x128_0_1),  -- %4 = stablehlo.broadcast_in_dim %3, dims = [0, 1] : (tensor<1x128xf32>) -> tensor<50000x128xf32>   [in fn_var_1 at main_call3]
    TRef.binary (.of main_v73) main_call3.v4 main_call3.v5 subf,  -- %5 = stablehlo.subtract %arg0, %4 : tensor<50000x128xf32>   [in fn_var_1 at main_call3]
    TRef.binary main_call3.v5 main_call3.v5 main_call3.v6 mulf,  -- %6 = chlo.square %5 : tensor<50000x128xf32> -> tensor<50000x128xf32>   [in fn_var_1 at main_call3]
    TRef.unary (.of main_c_9) main_call3.v7 (sitofp .f32),  -- %7 = stablehlo.convert %arg1 : (tensor<i32>) -> tensor<f32>   [in fn_var_1 at main_call3]
    TRef.nullary main_call3.cst_1 (constant S_ .f32 0x47435000#32),  -- %cst_1 = stablehlo.constant dense<5.000000e+04> : tensor<f32>   [in fn_var_1 at main_call3]
    TRef.binary main_call3.cst_1 main_call3.v7 main_call3.v8 subf,  -- %8 = stablehlo.subtract %cst_1, %7 : tensor<f32>   [in fn_var_1 at main_call3]
    TRef.nullary main_call3.cst_2 (constant S_ .f32 0x00000000#32),  -- %cst_2 = stablehlo.constant dense<0.000000e+00> : tensor<f32>   [in fn_var_1 at main_call3]
    TRef.binary main_call3.v6 main_call3.cst_2 main_call3.v9 (fun x v => Host.reduceAdd x v reducesTo_S50000x128_S128_d0 h_S_),  -- %9 = stablehlo.reduce(%6 init: %cst_2) applies stablehlo.add across dimensions = [0] : (tensor<50000x128xf32>, tensor<f32>) -> tensor<128xf3
    TRef.unary main_call3.v8 main_call3.v10 (broadcastInDim S128 ![] bcast_S_S128),  -- %10 = stablehlo.broadcast_in_dim %8, dims = [] : (tensor<f32>) -> tensor<128xf32>   [in fn_var_1 at main_call3]
    TRef.binary main_call3.v9 main_call3.v10 main_call3.v11 Host.divf,  -- %11 = stablehlo.divide %9, %10 : tensor<128xf32>   [in fn_var_1 at main_call3]
    TRef.nullary main_call3.cst_3 (constant S_ .f32 0x00000000#32),  -- %cst_3 = stablehlo.constant dense<0.000000e+00> : tensor<f32>   [in fn_var_1 at main_call3]
    TRef.binary main_call3.v8 main_call3.cst_3 main_call3.v12 (cmpf .ogt),  -- %12 = stablehlo.compare GT, %8, %cst_3, FLOAT : (tensor<f32>, tensor<f32>) -> tensor<i1>   [in fn_var_1 at main_call3]
    TRef.nullary main_call3.cst_4 (constant S_ .f32 0x7FC00000#32),  -- %cst_4 = stablehlo.constant dense<0x7FC00000> : tensor<f32>   [in fn_var_1 at main_call3]
    TRef.unary main_call3.cst_4 main_call3.call0.v0 id,  -- %0 = stablehlo.convert %arg2 : tensor<f32>   [in fn_where_2 at main_call3.call0]   [in fn_var_1 at main_call3]
    TRef.unary main_call3.call0.v0 main_call3.call0.v1 (broadcastInDim S128 ![] bcast_S_S128),  -- %1 = stablehlo.broadcast_in_dim %0, dims = [] : (tensor<f32>) -> tensor<128xf32>   [in fn_where_2 at main_call3.call0]   [in fn_var_1 at mai
    TRef.ternary main_call3.v12 main_call3.v11 main_call3.call0.v1 main_call3.call0.v2 (fun p a b => select (broadcastInDim S128 ![] bcast_S_S128 p) a b),  -- %2 = stablehlo.select %arg0, %arg1, %1 : tensor<i1>, tensor<128xf32>   [in fn_where_2 at main_call3.call0]   [in fn_var_1 at main_call3]
    unary main_v80 main_v82 (broadcastInDim S1x128 ![1] bcast_S128_S1x128_1 : (⟨S128, .f32⟩ : BufTy).Contents (Elt F) → (⟨S1x128, .f32⟩ : BufTy).Contents (Elt F)),  -- %82 = stablehlo.broadcast_in_dim %80, dims = [1] : (tensor<128xf32>) -> tensor<1x128xf32>  @ reference:12
    unary main_v82 main_v83 (broadcastInDim S50000x128 ![0, 1] bcast_S1x128_S50000x128_0_1 : (⟨S1x128, .f32⟩ : BufTy).Contents (Elt F) → (⟨S50000x128, .f32⟩ : BufTy).Contents (Elt F)),  -- %83 = stablehlo.broadcast_in_dim %82, dims = [0, 1] : (tensor<1x128xf32>) -> tensor<50000x128xf32>  @ reference:12
    binary main_v73 main_v83 main_v84 (subf : (⟨S50000x128, .f32⟩ : BufTy).Contents (Elt F) → (⟨S50000x128, .f32⟩ : BufTy).Contents (Elt F) → (⟨S50000x128, .f32⟩ : BufTy).Contents (Elt F)),  -- %84 = stablehlo.subtract %73, %83 : tensor<50000x128xf32>  @ reference:12
    unary main_v75 main_v85 (broadcastInDim S1x128 ![1] bcast_S128_S1x128_1 : (⟨S128, .f32⟩ : BufTy).Contents (Elt F) → (⟨S1x128, .f32⟩ : BufTy).Contents (Elt F)),  -- %85 = stablehlo.broadcast_in_dim %75, dims = [1] : (tensor<128xf32>) -> tensor<1x128xf32>  @ reference:12
    unary main_v85 main_v86 (broadcastInDim S50000x128 ![0, 1] bcast_S1x128_S50000x128_0_1 : (⟨S1x128, .f32⟩ : BufTy).Contents (Elt F) → (⟨S50000x128, .f32⟩ : BufTy).Contents (Elt F)),  -- %86 = stablehlo.broadcast_in_dim %85, dims = [0, 1] : (tensor<1x128xf32>) -> tensor<50000x128xf32>  @ reference:12
    binary main_v86 main_v84 main_v87 (mulf : (⟨S50000x128, .f32⟩ : BufTy).Contents (Elt F) → (⟨S50000x128, .f32⟩ : BufTy).Contents (Elt F) → (⟨S50000x128, .f32⟩ : BufTy).Contents (Elt F)),  -- %87 = stablehlo.multiply %86, %84 : tensor<50000x128xf32>  @ reference:12
    nullary main_cst_10 (constant S_ .f32 0x3727C5AC#32),  -- %cst_10 = stablehlo.constant dense<9.99999974E-6> : tensor<f32>
    unary main_cst_10 main_v88 (broadcastInDim S128 ![] bcast_S_S128 : (⟨S_, .f32⟩ : BufTy).Contents (Elt F) → (⟨S128, .f32⟩ : BufTy).Contents (Elt F)),  -- %88 = stablehlo.broadcast_in_dim %cst_10, dims = [] : (tensor<f32>) -> tensor<128xf32>  @ reference:12
    binary main_v81 main_v88 main_v89 (addf : (⟨S128, .f32⟩ : BufTy).Contents (Elt F) → (⟨S128, .f32⟩ : BufTy).Contents (Elt F) → (⟨S128, .f32⟩ : BufTy).Contents (Elt F)),  -- %89 = stablehlo.add %81, %88 : tensor<128xf32>  @ reference:12
    unary main_v89 main_v90 (Host.rsqrt : (⟨S128, .f32⟩ : BufTy).Contents (Elt F) → (⟨S128, .f32⟩ : BufTy).Contents (Elt F)),  -- %90 = stablehlo.rsqrt %89 : tensor<128xf32>  @ reference:12
    unary main_v90 main_v91 (broadcastInDim S1x128 ![1] bcast_S128_S1x128_1 : (⟨S128, .f32⟩ : BufTy).Contents (Elt F) → (⟨S1x128, .f32⟩ : BufTy).Contents (Elt F)),  -- %91 = stablehlo.broadcast_in_dim %90, dims = [1] : (tensor<128xf32>) -> tensor<1x128xf32>  @ reference:12
    unary main_v91 main_v92 (broadcastInDim S50000x128 ![0, 1] bcast_S1x128_S50000x128_0_1 : (⟨S1x128, .f32⟩ : BufTy).Contents (Elt F) → (⟨S50000x128, .f32⟩ : BufTy).Contents (Elt F)),  -- %92 = stablehlo.broadcast_in_dim %91, dims = [0, 1] : (tensor<1x128xf32>) -> tensor<50000x128xf32>  @ reference:12
    binary main_v87 main_v92 main_v93 (mulf : (⟨S50000x128, .f32⟩ : BufTy).Contents (Elt F) → (⟨S50000x128, .f32⟩ : BufTy).Contents (Elt F) → (⟨S50000x128, .f32⟩ : BufTy).Contents (Elt F)),  -- %93 = stablehlo.multiply %87, %92 : tensor<50000x128xf32>  @ reference:12
    unary main_v77 main_v94 (broadcastInDim S1x128 ![1] bcast_S128_S1x128_1 : (⟨S128, .f32⟩ : BufTy).Contents (Elt F) → (⟨S1x128, .f32⟩ : BufTy).Contents (Elt F)),  -- %94 = stablehlo.broadcast_in_dim %77, dims = [1] : (tensor<128xf32>) -> tensor<1x128xf32>  @ reference:12
    unary main_v94 main_v95 (broadcastInDim S50000x128 ![0, 1] bcast_S1x128_S50000x128_0_1 : (⟨S1x128, .f32⟩ : BufTy).Contents (Elt F) → (⟨S50000x128, .f32⟩ : BufTy).Contents (Elt F)),  -- %95 = stablehlo.broadcast_in_dim %94, dims = [0, 1] : (tensor<1x128xf32>) -> tensor<50000x128xf32>  @ reference:12
    binary main_v93 main_v95 main_v96 (addf : (⟨S50000x128, .f32⟩ : BufTy).Contents (Elt F) → (⟨S50000x128, .f32⟩ : BufTy).Contents (Elt F) → (⟨S50000x128, .f32⟩ : BufTy).Contents (Elt F)),  -- %96 = stablehlo.add %93, %95 : tensor<50000x128xf32>  @ reference:12
    TRef.nullary main_call4.cst (constant S_ .f32 0x00000000#32),  -- %cst = stablehlo.constant dense<0.000000e+00> : tensor<f32>   [in fn_relu_3 at main_call4]
    TRef.unary main_call4.cst main_call4.v0 (broadcastInDim S50000x128 ![] bcast_S_S50000x128),  -- %0 = stablehlo.broadcast_in_dim %cst, dims = [] : (tensor<f32>) -> tensor<50000x128xf32>   [in fn_relu_3 at main_call4]
    TRef.binary (.of main_v96) main_call4.v0 main_call4.v1 maximumf ]  -- %1 = stablehlo.maximum %arg0, %0 : tensor<50000x128xf32>   [in fn_relu_3 at main_call4]

/-- Stage 5 of the reference's @main: 13 operations. -/
abbrev rchunk5 : List (HloOp τ sig (Elt F)) :=
  [ nullary main_cst_11 (constant S_ .f32 0x00000000#32),  -- %cst_11 = stablehlo.constant dense<0.000000e+00> : tensor<f32>
    unary main_cst_11 main_v98 (broadcastInDim S512x128 ![] bcast_S_S512x128 : (⟨S_, .f32⟩ : BufTy).Contents (Elt F) → (⟨S512x128, .f32⟩ : BufTy).Contents (Elt F)),  -- %98 = stablehlo.broadcast_in_dim %cst_11, dims = [] : (tensor<f32>) -> tensor<512x128xf32>  @ reference:60
    unary main_arg22 main_v99 (broadcastInDim S50000x1 ![0] bcast_S50000_S50000x1_0 : (⟨S50000, .i32⟩ : BufTy).Contents (Elt F) → (⟨S50000x1, .i32⟩ : BufTy).Contents (Elt F)),  -- %99 = stablehlo.broadcast_in_dim %arg22, dims = [0] : (tensor<50000xi32>) -> tensor<50000x1xi32>  @ reference:60
    ternary main_v98 main_v99 main_v12 main_v100 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),  -- %100 = "stablehlo.scatter"(%98, %99, %12) <{indices_are_sorted = false, scatter_dimension_numbers = #stablehlo.scatter<update_window_dims =
    binary main_v100 main_v4 main_v101 (addf : (⟨S512x128, .f32⟩ : BufTy).Contents (Elt F) → (⟨S512x128, .f32⟩ : BufTy).Contents (Elt F) → (⟨S512x128, .f32⟩ : BufTy).Contents (Elt F)),  -- %101 = stablehlo.add %100, %4 : tensor<512x128xf32>  @ reference:60
    unary main_arg13 main_v102 ((extractStridedSlice S1x128x256 ![0, 0, 0] · slices_S2x128x256_S1x128x256_0_0_0) : (⟨S2x128x256, .f32⟩ : BufTy).Contents (Elt F) → (⟨S1x128x256, .f32⟩ : BufTy).Contents (Elt F)),  -- %102 = stablehlo.slice %arg13 [0:1, 0:128, 0:256] : (tensor<2x128x256xf32>) -> tensor<1x128x256xf32>  @ reference:61
    reshape main_v102 main_v103 rfl shapeCasts_S1x128x256_S128x256,  -- %103 = stablehlo.reshape %102 : (tensor<1x128x256xf32>) -> tensor<128x256xf32>  @ reference:61
    binary main_v101 main_v103 main_v104 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),  -- %104 = stablehlo.dot_general %101, %103, contracting_dims = [1] x [0], precision = [DEFAULT, DEFAULT] : (tensor<512x128xf32>, tensor<128x256
    unary main_arg14 main_v105 ((extractStridedSlice S1x256 ![0, 0] · slices_S2x256_S1x256_0_0) : (⟨S2x256, .f32⟩ : BufTy).Contents (Elt F) → (⟨S1x256, .f32⟩ : BufTy).Contents (Elt F)),  -- %105 = stablehlo.slice %arg14 [0:1, 0:256] : (tensor<2x256xf32>) -> tensor<1x256xf32>  @ reference:61
    reshape main_v105 main_v106 rfl shapeCasts_S1x256_S256,  -- %106 = stablehlo.reshape %105 : (tensor<1x256xf32>) -> tensor<256xf32>  @ reference:61
    unary main_v106 main_v107 (broadcastInDim S1x256 ![1] bcast_S256_S1x256_1 : (⟨S256, .f32⟩ : BufTy).Contents (Elt F) → (⟨S1x256, .f32⟩ : BufTy).Contents (Elt F)),  -- %107 = stablehlo.broadcast_in_dim %106, dims = [1] : (tensor<256xf32>) -> tensor<1x256xf32>  @ reference:61
    unary main_v107 main_v108 (broadcastInDim S512x256 ![0, 1] bcast_S1x256_S512x256_0_1 : (⟨S1x256, .f32⟩ : BufTy).Contents (Elt F) → (⟨S512x256, .f32⟩ : BufTy).Contents (Elt F)),  -- %108 = stablehlo.broadcast_in_dim %107, dims = [0, 1] : (tensor<1x256xf32>) -> tensor<512x256xf32>  @ reference:61
    binary main_v104 main_v108 main_v109 (addf : (⟨S512x256, .f32⟩ : BufTy).Contents (Elt F) → (⟨S512x256, .f32⟩ : BufTy).Contents (Elt F) → (⟨S512x256, .f32⟩ : BufTy).Contents (Elt F)) ]  -- %109 = stablehlo.add %104, %108 : tensor<512x256xf32>  @ reference:61

/-- Stage 6 of the reference's @main: 51 operations. -/
abbrev rchunk6 : List (HloOp τ sig (Elt F)) :=
  [ unary main_arg15 main_v110 ((extractStridedSlice S1x256 ![0, 0] · slices_S2x256_S1x256_0_0) : (⟨S2x256, .f32⟩ : BufTy).Contents (Elt F) → (⟨S1x256, .f32⟩ : BufTy).Contents (Elt F)),  -- %110 = stablehlo.slice %arg15 [0:1, 0:256] : (tensor<2x256xf32>) -> tensor<1x256xf32>  @ reference:61
    reshape main_v110 main_v111 rfl shapeCasts_S1x256_S256,  -- %111 = stablehlo.reshape %110 : (tensor<1x256xf32>) -> tensor<256xf32>  @ reference:61
    unary main_arg16 main_v112 ((extractStridedSlice S1x256 ![0, 0] · slices_S2x256_S1x256_0_0) : (⟨S2x256, .f32⟩ : BufTy).Contents (Elt F) → (⟨S1x256, .f32⟩ : BufTy).Contents (Elt F)),  -- %112 = stablehlo.slice %arg16 [0:1, 0:256] : (tensor<2x256xf32>) -> tensor<1x256xf32>  @ reference:61
    reshape main_v112 main_v113 rfl shapeCasts_S1x256_S256,  -- %113 = stablehlo.reshape %112 : (tensor<1x256xf32>) -> tensor<256xf32>  @ reference:61
    nullary main_cst_12 (constant S_ .f32 0x00000000#32),  -- %cst_12 = stablehlo.constant dense<0.000000e+00> : tensor<f32>
    binary main_v109 main_cst_12 main_v114 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),  -- %114 = stablehlo.reduce(%109 init: %cst_12) applies stablehlo.add across dimensions = [0] : (tensor<512x256xf32>, tensor<f32>) -> tensor<256
    nullary main_cst_13 (constant S_ .f32 0x44000000#32),  -- %cst_13 = stablehlo.constant dense<5.120000e+02> : tensor<f32>
    unary main_cst_13 main_v115 (broadcastInDim S256 ![] bcast_S_S256 : (⟨S_, .f32⟩ : BufTy).Contents (Elt F) → (⟨S256, .f32⟩ : BufTy).Contents (Elt F)),  -- %115 = stablehlo.broadcast_in_dim %cst_13, dims = [] : (tensor<f32>) -> tensor<256xf32>  @ reference:10
    binary main_v114 main_v115 main_v116 (Host.divf : (⟨S256, .f32⟩ : BufTy).Contents (Elt F) → (⟨S256, .f32⟩ : BufTy).Contents (Elt F) → (⟨S256, .f32⟩ : BufTy).Contents (Elt F)),  -- %116 = stablehlo.divide %114, %115 : tensor<256xf32>  @ reference:10
    nullary main_c_14 (constantI S_ 32 0#32),  -- %c_14 = stablehlo.constant dense<0> : tensor<i32>
    TRef.nullary main_call5.cst (constant S_ .f32 0x00000000#32),  -- %cst = stablehlo.constant dense<0.000000e+00> : tensor<f32>   [in fn_var_4 at main_call5]
    TRef.binary (.of main_v109) main_call5.cst main_call5.v0 (fun x v => Host.reduceAdd x v reducesTo_S512x256_S256_d0 h_S_),  -- %0 = stablehlo.reduce(%arg0 init: %cst) applies stablehlo.add across dimensions = [0] : (tensor<512x256xf32>, tensor<f32>) -> tensor<256xf32
    TRef.unary main_call5.v0 main_call5.v1 (broadcastInDim S1x256 ![1] bcast_S256_S1x256_1),  -- %1 = stablehlo.broadcast_in_dim %0, dims = [1] : (tensor<256xf32>) -> tensor<1x256xf32>   [in fn_var_4 at main_call5]
    TRef.nullary main_call5.cst_0 (constant S_ .f32 0x44000000#32),  -- %cst_0 = stablehlo.constant dense<5.120000e+02> : tensor<f32>   [in fn_var_4 at main_call5]
    TRef.unary main_call5.cst_0 main_call5.v2 (broadcastInDim S1x256 ![] bcast_S_S1x256),  -- %2 = stablehlo.broadcast_in_dim %cst_0, dims = [] : (tensor<f32>) -> tensor<1x256xf32>   [in fn_var_4 at main_call5]
    TRef.binary main_call5.v1 main_call5.v2 main_call5.v3 Host.divf,  -- %3 = stablehlo.divide %1, %2 : tensor<1x256xf32>   [in fn_var_4 at main_call5]
    TRef.unary main_call5.v3 main_call5.v4 (broadcastInDim S512x256 ![0, 1] bcast_S1x256_S512x256_0_1),  -- %4 = stablehlo.broadcast_in_dim %3, dims = [0, 1] : (tensor<1x256xf32>) -> tensor<512x256xf32>   [in fn_var_4 at main_call5]
    TRef.binary (.of main_v109) main_call5.v4 main_call5.v5 subf,  -- %5 = stablehlo.subtract %arg0, %4 : tensor<512x256xf32>   [in fn_var_4 at main_call5]
    TRef.binary main_call5.v5 main_call5.v5 main_call5.v6 mulf,  -- %6 = chlo.square %5 : tensor<512x256xf32> -> tensor<512x256xf32>   [in fn_var_4 at main_call5]
    TRef.unary (.of main_c_14) main_call5.v7 (sitofp .f32),  -- %7 = stablehlo.convert %arg1 : (tensor<i32>) -> tensor<f32>   [in fn_var_4 at main_call5]
    TRef.nullary main_call5.cst_1 (constant S_ .f32 0x44000000#32),  -- %cst_1 = stablehlo.constant dense<5.120000e+02> : tensor<f32>   [in fn_var_4 at main_call5]
    TRef.binary main_call5.cst_1 main_call5.v7 main_call5.v8 subf,  -- %8 = stablehlo.subtract %cst_1, %7 : tensor<f32>   [in fn_var_4 at main_call5]
    TRef.nullary main_call5.cst_2 (constant S_ .f32 0x00000000#32),  -- %cst_2 = stablehlo.constant dense<0.000000e+00> : tensor<f32>   [in fn_var_4 at main_call5]
    TRef.binary main_call5.v6 main_call5.cst_2 main_call5.v9 (fun x v => Host.reduceAdd x v reducesTo_S512x256_S256_d0 h_S_),  -- %9 = stablehlo.reduce(%6 init: %cst_2) applies stablehlo.add across dimensions = [0] : (tensor<512x256xf32>, tensor<f32>) -> tensor<256xf32>
    TRef.unary main_call5.v8 main_call5.v10 (broadcastInDim S256 ![] bcast_S_S256),  -- %10 = stablehlo.broadcast_in_dim %8, dims = [] : (tensor<f32>) -> tensor<256xf32>   [in fn_var_4 at main_call5]
    TRef.binary main_call5.v9 main_call5.v10 main_call5.v11 Host.divf,  -- %11 = stablehlo.divide %9, %10 : tensor<256xf32>   [in fn_var_4 at main_call5]
    TRef.nullary main_call5.cst_3 (constant S_ .f32 0x00000000#32),  -- %cst_3 = stablehlo.constant dense<0.000000e+00> : tensor<f32>   [in fn_var_4 at main_call5]
    TRef.binary main_call5.v8 main_call5.cst_3 main_call5.v12 (cmpf .ogt),  -- %12 = stablehlo.compare GT, %8, %cst_3, FLOAT : (tensor<f32>, tensor<f32>) -> tensor<i1>   [in fn_var_4 at main_call5]
    TRef.nullary main_call5.cst_4 (constant S_ .f32 0x7FC00000#32),  -- %cst_4 = stablehlo.constant dense<0x7FC00000> : tensor<f32>   [in fn_var_4 at main_call5]
    TRef.unary main_call5.cst_4 main_call5.call0.v0 id,  -- %0 = stablehlo.convert %arg2 : tensor<f32>   [in fn_where at main_call5.call0]   [in fn_var_4 at main_call5]
    TRef.unary main_call5.call0.v0 main_call5.call0.v1 (broadcastInDim S256 ![] bcast_S_S256),  -- %1 = stablehlo.broadcast_in_dim %0, dims = [] : (tensor<f32>) -> tensor<256xf32>   [in fn_where at main_call5.call0]   [in fn_var_4 at main_
    TRef.ternary main_call5.v12 main_call5.v11 main_call5.call0.v1 main_call5.call0.v2 (fun p a b => select (broadcastInDim S256 ![] bcast_S_S256 p) a b),  -- %2 = stablehlo.select %arg0, %arg1, %1 : tensor<i1>, tensor<256xf32>   [in fn_where at main_call5.call0]   [in fn_var_4 at main_call5]
    unary main_v116 main_v118 (broadcastInDim S1x256 ![1] bcast_S256_S1x256_1 : (⟨S256, .f32⟩ : BufTy).Contents (Elt F) → (⟨S1x256, .f32⟩ : BufTy).Contents (Elt F)),  -- %118 = stablehlo.broadcast_in_dim %116, dims = [1] : (tensor<256xf32>) -> tensor<1x256xf32>  @ reference:12
    unary main_v118 main_v119 (broadcastInDim S512x256 ![0, 1] bcast_S1x256_S512x256_0_1 : (⟨S1x256, .f32⟩ : BufTy).Contents (Elt F) → (⟨S512x256, .f32⟩ : BufTy).Contents (Elt F)),  -- %119 = stablehlo.broadcast_in_dim %118, dims = [0, 1] : (tensor<1x256xf32>) -> tensor<512x256xf32>  @ reference:12
    binary main_v109 main_v119 main_v120 (subf : (⟨S512x256, .f32⟩ : BufTy).Contents (Elt F) → (⟨S512x256, .f32⟩ : BufTy).Contents (Elt F) → (⟨S512x256, .f32⟩ : BufTy).Contents (Elt F)),  -- %120 = stablehlo.subtract %109, %119 : tensor<512x256xf32>  @ reference:12
    unary main_v111 main_v121 (broadcastInDim S1x256 ![1] bcast_S256_S1x256_1 : (⟨S256, .f32⟩ : BufTy).Contents (Elt F) → (⟨S1x256, .f32⟩ : BufTy).Contents (Elt F)),  -- %121 = stablehlo.broadcast_in_dim %111, dims = [1] : (tensor<256xf32>) -> tensor<1x256xf32>  @ reference:12
    unary main_v121 main_v122 (broadcastInDim S512x256 ![0, 1] bcast_S1x256_S512x256_0_1 : (⟨S1x256, .f32⟩ : BufTy).Contents (Elt F) → (⟨S512x256, .f32⟩ : BufTy).Contents (Elt F)),  -- %122 = stablehlo.broadcast_in_dim %121, dims = [0, 1] : (tensor<1x256xf32>) -> tensor<512x256xf32>  @ reference:12
    binary main_v122 main_v120 main_v123 (mulf : (⟨S512x256, .f32⟩ : BufTy).Contents (Elt F) → (⟨S512x256, .f32⟩ : BufTy).Contents (Elt F) → (⟨S512x256, .f32⟩ : BufTy).Contents (Elt F)),  -- %123 = stablehlo.multiply %122, %120 : tensor<512x256xf32>  @ reference:12
    nullary main_cst_15 (constant S_ .f32 0x3727C5AC#32),  -- %cst_15 = stablehlo.constant dense<9.99999974E-6> : tensor<f32>
    unary main_cst_15 main_v124 (broadcastInDim S256 ![] bcast_S_S256 : (⟨S_, .f32⟩ : BufTy).Contents (Elt F) → (⟨S256, .f32⟩ : BufTy).Contents (Elt F)),  -- %124 = stablehlo.broadcast_in_dim %cst_15, dims = [] : (tensor<f32>) -> tensor<256xf32>  @ reference:12
    binary main_v117 main_v124 main_v125 (addf : (⟨S256, .f32⟩ : BufTy).Contents (Elt F) → (⟨S256, .f32⟩ : BufTy).Contents (Elt F) → (⟨S256, .f32⟩ : BufTy).Contents (Elt F)),  -- %125 = stablehlo.add %117, %124 : tensor<256xf32>  @ reference:12
    unary main_v125 main_v126 (Host.rsqrt : (⟨S256, .f32⟩ : BufTy).Contents (Elt F) → (⟨S256, .f32⟩ : BufTy).Contents (Elt F)),  -- %126 = stablehlo.rsqrt %125 : tensor<256xf32>  @ reference:12
    unary main_v126 main_v127 (broadcastInDim S1x256 ![1] bcast_S256_S1x256_1 : (⟨S256, .f32⟩ : BufTy).Contents (Elt F) → (⟨S1x256, .f32⟩ : BufTy).Contents (Elt F)),  -- %127 = stablehlo.broadcast_in_dim %126, dims = [1] : (tensor<256xf32>) -> tensor<1x256xf32>  @ reference:12
    unary main_v127 main_v128 (broadcastInDim S512x256 ![0, 1] bcast_S1x256_S512x256_0_1 : (⟨S1x256, .f32⟩ : BufTy).Contents (Elt F) → (⟨S512x256, .f32⟩ : BufTy).Contents (Elt F)),  -- %128 = stablehlo.broadcast_in_dim %127, dims = [0, 1] : (tensor<1x256xf32>) -> tensor<512x256xf32>  @ reference:12
    binary main_v123 main_v128 main_v129 (mulf : (⟨S512x256, .f32⟩ : BufTy).Contents (Elt F) → (⟨S512x256, .f32⟩ : BufTy).Contents (Elt F) → (⟨S512x256, .f32⟩ : BufTy).Contents (Elt F)),  -- %129 = stablehlo.multiply %123, %128 : tensor<512x256xf32>  @ reference:12
    unary main_v113 main_v130 (broadcastInDim S1x256 ![1] bcast_S256_S1x256_1 : (⟨S256, .f32⟩ : BufTy).Contents (Elt F) → (⟨S1x256, .f32⟩ : BufTy).Contents (Elt F)),  -- %130 = stablehlo.broadcast_in_dim %113, dims = [1] : (tensor<256xf32>) -> tensor<1x256xf32>  @ reference:12
    unary main_v130 main_v131 (broadcastInDim S512x256 ![0, 1] bcast_S1x256_S512x256_0_1 : (⟨S1x256, .f32⟩ : BufTy).Contents (Elt F) → (⟨S512x256, .f32⟩ : BufTy).Contents (Elt F)),  -- %131 = stablehlo.broadcast_in_dim %130, dims = [0, 1] : (tensor<1x256xf32>) -> tensor<512x256xf32>  @ reference:12
    binary main_v129 main_v131 main_v132 (addf : (⟨S512x256, .f32⟩ : BufTy).Contents (Elt F) → (⟨S512x256, .f32⟩ : BufTy).Contents (Elt F) → (⟨S512x256, .f32⟩ : BufTy).Contents (Elt F)),  -- %132 = stablehlo.add %129, %131 : tensor<512x256xf32>  @ reference:12
    TRef.nullary main_call6.cst (constant S_ .f32 0x00000000#32),  -- %cst = stablehlo.constant dense<0.000000e+00> : tensor<f32>   [in fn_relu_5 at main_call6]
    TRef.unary main_call6.cst main_call6.v0 (broadcastInDim S512x256 ![] bcast_S_S512x256),  -- %0 = stablehlo.broadcast_in_dim %cst, dims = [] : (tensor<f32>) -> tensor<512x256xf32>   [in fn_relu_5 at main_call6]
    TRef.binary (.of main_v132) main_call6.v0 main_call6.v1 maximumf ]  -- %1 = stablehlo.maximum %arg0, %0 : tensor<512x256xf32>   [in fn_relu_5 at main_call6]

/-- Stage 7 of the reference's @main: 8 operations. -/
abbrev rchunk7 : List (HloOp τ sig (Elt F)) :=
  [ unary main_arg17 main_v134 ((extractStridedSlice S1x256x128 ![0, 0, 0] · slices_S2x256x128_S1x256x128_0_0_0) : (⟨S2x256x128, .f32⟩ : BufTy).Contents (Elt F) → (⟨S1x256x128, .f32⟩ : BufTy).Contents (Elt F)),  -- %134 = stablehlo.slice %arg17 [0:1, 0:256, 0:128] : (tensor<2x256x128xf32>) -> tensor<1x256x128xf32>  @ reference:62
    reshape main_v134 main_v135 rfl shapeCasts_S1x256x128_S256x128,  -- %135 = stablehlo.reshape %134 : (tensor<1x256x128xf32>) -> tensor<256x128xf32>  @ reference:62
    binary main_v133 main_v135 main_v136 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),  -- %136 = stablehlo.dot_general %133, %135, contracting_dims = [1] x [0], precision = [DEFAULT, DEFAULT] : (tensor<512x256xf32>, tensor<256x128
    unary main_arg18 main_v137 ((extractStridedSlice S1x128 ![0, 0] · slices_S2x128_S1x128_0_0) : (⟨S2x128, .f32⟩ : BufTy).Contents (Elt F) → (⟨S1x128, .f32⟩ : BufTy).Contents (Elt F)),  -- %137 = stablehlo.slice %arg18 [0:1, 0:128] : (tensor<2x128xf32>) -> tensor<1x128xf32>  @ reference:62
    reshape main_v137 main_v138 rfl shapeCasts_S1x128_S128,  -- %138 = stablehlo.reshape %137 : (tensor<1x128xf32>) -> tensor<128xf32>  @ reference:62
    unary main_v138 main_v139 (broadcastInDim S1x128 ![1] bcast_S128_S1x128_1 : (⟨S128, .f32⟩ : BufTy).Contents (Elt F) → (⟨S1x128, .f32⟩ : BufTy).Contents (Elt F)),  -- %139 = stablehlo.broadcast_in_dim %138, dims = [1] : (tensor<128xf32>) -> tensor<1x128xf32>  @ reference:62
    unary main_v139 main_v140 (broadcastInDim S512x128 ![0, 1] bcast_S1x128_S512x128_0_1 : (⟨S1x128, .f32⟩ : BufTy).Contents (Elt F) → (⟨S512x128, .f32⟩ : BufTy).Contents (Elt F)),  -- %140 = stablehlo.broadcast_in_dim %139, dims = [0, 1] : (tensor<1x128xf32>) -> tensor<512x128xf32>  @ reference:62
    binary main_v136 main_v140 main_v141 (addf : (⟨S512x128, .f32⟩ : BufTy).Contents (Elt F) → (⟨S512x128, .f32⟩ : BufTy).Contents (Elt F) → (⟨S512x128, .f32⟩ : BufTy).Contents (Elt F)) ]  -- %141 = stablehlo.add %136, %140 : tensor<512x128xf32>  @ reference:62

/-- Stage 8 of the reference's @main: 51 operations. -/
abbrev rchunk8 : List (HloOp τ sig (Elt F)) :=
  [ unary main_arg19 main_v142 ((extractStridedSlice S1x128 ![0, 0] · slices_S2x128_S1x128_0_0) : (⟨S2x128, .f32⟩ : BufTy).Contents (Elt F) → (⟨S1x128, .f32⟩ : BufTy).Contents (Elt F)),  -- %142 = stablehlo.slice %arg19 [0:1, 0:128] : (tensor<2x128xf32>) -> tensor<1x128xf32>  @ reference:62
    reshape main_v142 main_v143 rfl shapeCasts_S1x128_S128,  -- %143 = stablehlo.reshape %142 : (tensor<1x128xf32>) -> tensor<128xf32>  @ reference:62
    unary main_arg20 main_v144 ((extractStridedSlice S1x128 ![0, 0] · slices_S2x128_S1x128_0_0) : (⟨S2x128, .f32⟩ : BufTy).Contents (Elt F) → (⟨S1x128, .f32⟩ : BufTy).Contents (Elt F)),  -- %144 = stablehlo.slice %arg20 [0:1, 0:128] : (tensor<2x128xf32>) -> tensor<1x128xf32>  @ reference:62
    reshape main_v144 main_v145 rfl shapeCasts_S1x128_S128,  -- %145 = stablehlo.reshape %144 : (tensor<1x128xf32>) -> tensor<128xf32>  @ reference:62
    nullary main_cst_16 (constant S_ .f32 0x00000000#32),  -- %cst_16 = stablehlo.constant dense<0.000000e+00> : tensor<f32>
    binary main_v141 main_cst_16 main_v146 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),  -- %146 = stablehlo.reduce(%141 init: %cst_16) applies stablehlo.add across dimensions = [0] : (tensor<512x128xf32>, tensor<f32>) -> tensor<128
    nullary main_cst_17 (constant S_ .f32 0x44000000#32),  -- %cst_17 = stablehlo.constant dense<5.120000e+02> : tensor<f32>
    unary main_cst_17 main_v147 (broadcastInDim S128 ![] bcast_S_S128 : (⟨S_, .f32⟩ : BufTy).Contents (Elt F) → (⟨S128, .f32⟩ : BufTy).Contents (Elt F)),  -- %147 = stablehlo.broadcast_in_dim %cst_17, dims = [] : (tensor<f32>) -> tensor<128xf32>  @ reference:10
    binary main_v146 main_v147 main_v148 (Host.divf : (⟨S128, .f32⟩ : BufTy).Contents (Elt F) → (⟨S128, .f32⟩ : BufTy).Contents (Elt F) → (⟨S128, .f32⟩ : BufTy).Contents (Elt F)),  -- %148 = stablehlo.divide %146, %147 : tensor<128xf32>  @ reference:10
    nullary main_c_18 (constantI S_ 32 0#32),  -- %c_18 = stablehlo.constant dense<0> : tensor<i32>
    TRef.nullary main_call7.cst (constant S_ .f32 0x00000000#32),  -- %cst = stablehlo.constant dense<0.000000e+00> : tensor<f32>   [in fn_var_6 at main_call7]
    TRef.binary (.of main_v141) main_call7.cst main_call7.v0 (fun x v => Host.reduceAdd x v reducesTo_S512x128_S128_d0 h_S_),  -- %0 = stablehlo.reduce(%arg0 init: %cst) applies stablehlo.add across dimensions = [0] : (tensor<512x128xf32>, tensor<f32>) -> tensor<128xf32
    TRef.unary main_call7.v0 main_call7.v1 (broadcastInDim S1x128 ![1] bcast_S128_S1x128_1),  -- %1 = stablehlo.broadcast_in_dim %0, dims = [1] : (tensor<128xf32>) -> tensor<1x128xf32>   [in fn_var_6 at main_call7]
    TRef.nullary main_call7.cst_0 (constant S_ .f32 0x44000000#32),  -- %cst_0 = stablehlo.constant dense<5.120000e+02> : tensor<f32>   [in fn_var_6 at main_call7]
    TRef.unary main_call7.cst_0 main_call7.v2 (broadcastInDim S1x128 ![] bcast_S_S1x128),  -- %2 = stablehlo.broadcast_in_dim %cst_0, dims = [] : (tensor<f32>) -> tensor<1x128xf32>   [in fn_var_6 at main_call7]
    TRef.binary main_call7.v1 main_call7.v2 main_call7.v3 Host.divf,  -- %3 = stablehlo.divide %1, %2 : tensor<1x128xf32>   [in fn_var_6 at main_call7]
    TRef.unary main_call7.v3 main_call7.v4 (broadcastInDim S512x128 ![0, 1] bcast_S1x128_S512x128_0_1),  -- %4 = stablehlo.broadcast_in_dim %3, dims = [0, 1] : (tensor<1x128xf32>) -> tensor<512x128xf32>   [in fn_var_6 at main_call7]
    TRef.binary (.of main_v141) main_call7.v4 main_call7.v5 subf,  -- %5 = stablehlo.subtract %arg0, %4 : tensor<512x128xf32>   [in fn_var_6 at main_call7]
    TRef.binary main_call7.v5 main_call7.v5 main_call7.v6 mulf,  -- %6 = chlo.square %5 : tensor<512x128xf32> -> tensor<512x128xf32>   [in fn_var_6 at main_call7]
    TRef.unary (.of main_c_18) main_call7.v7 (sitofp .f32),  -- %7 = stablehlo.convert %arg1 : (tensor<i32>) -> tensor<f32>   [in fn_var_6 at main_call7]
    TRef.nullary main_call7.cst_1 (constant S_ .f32 0x44000000#32),  -- %cst_1 = stablehlo.constant dense<5.120000e+02> : tensor<f32>   [in fn_var_6 at main_call7]
    TRef.binary main_call7.cst_1 main_call7.v7 main_call7.v8 subf,  -- %8 = stablehlo.subtract %cst_1, %7 : tensor<f32>   [in fn_var_6 at main_call7]
    TRef.nullary main_call7.cst_2 (constant S_ .f32 0x00000000#32),  -- %cst_2 = stablehlo.constant dense<0.000000e+00> : tensor<f32>   [in fn_var_6 at main_call7]
    TRef.binary main_call7.v6 main_call7.cst_2 main_call7.v9 (fun x v => Host.reduceAdd x v reducesTo_S512x128_S128_d0 h_S_),  -- %9 = stablehlo.reduce(%6 init: %cst_2) applies stablehlo.add across dimensions = [0] : (tensor<512x128xf32>, tensor<f32>) -> tensor<128xf32>
    TRef.unary main_call7.v8 main_call7.v10 (broadcastInDim S128 ![] bcast_S_S128),  -- %10 = stablehlo.broadcast_in_dim %8, dims = [] : (tensor<f32>) -> tensor<128xf32>   [in fn_var_6 at main_call7]
    TRef.binary main_call7.v9 main_call7.v10 main_call7.v11 Host.divf,  -- %11 = stablehlo.divide %9, %10 : tensor<128xf32>   [in fn_var_6 at main_call7]
    TRef.nullary main_call7.cst_3 (constant S_ .f32 0x00000000#32),  -- %cst_3 = stablehlo.constant dense<0.000000e+00> : tensor<f32>   [in fn_var_6 at main_call7]
    TRef.binary main_call7.v8 main_call7.cst_3 main_call7.v12 (cmpf .ogt),  -- %12 = stablehlo.compare GT, %8, %cst_3, FLOAT : (tensor<f32>, tensor<f32>) -> tensor<i1>   [in fn_var_6 at main_call7]
    TRef.nullary main_call7.cst_4 (constant S_ .f32 0x7FC00000#32),  -- %cst_4 = stablehlo.constant dense<0x7FC00000> : tensor<f32>   [in fn_var_6 at main_call7]
    TRef.unary main_call7.cst_4 main_call7.call0.v0 id,  -- %0 = stablehlo.convert %arg2 : tensor<f32>   [in fn_where_2 at main_call7.call0]   [in fn_var_6 at main_call7]
    TRef.unary main_call7.call0.v0 main_call7.call0.v1 (broadcastInDim S128 ![] bcast_S_S128),  -- %1 = stablehlo.broadcast_in_dim %0, dims = [] : (tensor<f32>) -> tensor<128xf32>   [in fn_where_2 at main_call7.call0]   [in fn_var_6 at mai
    TRef.ternary main_call7.v12 main_call7.v11 main_call7.call0.v1 main_call7.call0.v2 (fun p a b => select (broadcastInDim S128 ![] bcast_S_S128 p) a b),  -- %2 = stablehlo.select %arg0, %arg1, %1 : tensor<i1>, tensor<128xf32>   [in fn_where_2 at main_call7.call0]   [in fn_var_6 at main_call7]
    unary main_v148 main_v150 (broadcastInDim S1x128 ![1] bcast_S128_S1x128_1 : (⟨S128, .f32⟩ : BufTy).Contents (Elt F) → (⟨S1x128, .f32⟩ : BufTy).Contents (Elt F)),  -- %150 = stablehlo.broadcast_in_dim %148, dims = [1] : (tensor<128xf32>) -> tensor<1x128xf32>  @ reference:12
    unary main_v150 main_v151 (broadcastInDim S512x128 ![0, 1] bcast_S1x128_S512x128_0_1 : (⟨S1x128, .f32⟩ : BufTy).Contents (Elt F) → (⟨S512x128, .f32⟩ : BufTy).Contents (Elt F)),  -- %151 = stablehlo.broadcast_in_dim %150, dims = [0, 1] : (tensor<1x128xf32>) -> tensor<512x128xf32>  @ reference:12
    binary main_v141 main_v151 main_v152 (subf : (⟨S512x128, .f32⟩ : BufTy).Contents (Elt F) → (⟨S512x128, .f32⟩ : BufTy).Contents (Elt F) → (⟨S512x128, .f32⟩ : BufTy).Contents (Elt F)),  -- %152 = stablehlo.subtract %141, %151 : tensor<512x128xf32>  @ reference:12
    unary main_v143 main_v153 (broadcastInDim S1x128 ![1] bcast_S128_S1x128_1 : (⟨S128, .f32⟩ : BufTy).Contents (Elt F) → (⟨S1x128, .f32⟩ : BufTy).Contents (Elt F)),  -- %153 = stablehlo.broadcast_in_dim %143, dims = [1] : (tensor<128xf32>) -> tensor<1x128xf32>  @ reference:12
    unary main_v153 main_v154 (broadcastInDim S512x128 ![0, 1] bcast_S1x128_S512x128_0_1 : (⟨S1x128, .f32⟩ : BufTy).Contents (Elt F) → (⟨S512x128, .f32⟩ : BufTy).Contents (Elt F)),  -- %154 = stablehlo.broadcast_in_dim %153, dims = [0, 1] : (tensor<1x128xf32>) -> tensor<512x128xf32>  @ reference:12
    binary main_v154 main_v152 main_v155 (mulf : (⟨S512x128, .f32⟩ : BufTy).Contents (Elt F) → (⟨S512x128, .f32⟩ : BufTy).Contents (Elt F) → (⟨S512x128, .f32⟩ : BufTy).Contents (Elt F)),  -- %155 = stablehlo.multiply %154, %152 : tensor<512x128xf32>  @ reference:12
    nullary main_cst_19 (constant S_ .f32 0x3727C5AC#32),  -- %cst_19 = stablehlo.constant dense<9.99999974E-6> : tensor<f32>
    unary main_cst_19 main_v156 (broadcastInDim S128 ![] bcast_S_S128 : (⟨S_, .f32⟩ : BufTy).Contents (Elt F) → (⟨S128, .f32⟩ : BufTy).Contents (Elt F)),  -- %156 = stablehlo.broadcast_in_dim %cst_19, dims = [] : (tensor<f32>) -> tensor<128xf32>  @ reference:12
    binary main_v149 main_v156 main_v157 (addf : (⟨S128, .f32⟩ : BufTy).Contents (Elt F) → (⟨S128, .f32⟩ : BufTy).Contents (Elt F) → (⟨S128, .f32⟩ : BufTy).Contents (Elt F)),  -- %157 = stablehlo.add %149, %156 : tensor<128xf32>  @ reference:12
    unary main_v157 main_v158 (Host.rsqrt : (⟨S128, .f32⟩ : BufTy).Contents (Elt F) → (⟨S128, .f32⟩ : BufTy).Contents (Elt F)),  -- %158 = stablehlo.rsqrt %157 : tensor<128xf32>  @ reference:12
    unary main_v158 main_v159 (broadcastInDim S1x128 ![1] bcast_S128_S1x128_1 : (⟨S128, .f32⟩ : BufTy).Contents (Elt F) → (⟨S1x128, .f32⟩ : BufTy).Contents (Elt F)),  -- %159 = stablehlo.broadcast_in_dim %158, dims = [1] : (tensor<128xf32>) -> tensor<1x128xf32>  @ reference:12
    unary main_v159 main_v160 (broadcastInDim S512x128 ![0, 1] bcast_S1x128_S512x128_0_1 : (⟨S1x128, .f32⟩ : BufTy).Contents (Elt F) → (⟨S512x128, .f32⟩ : BufTy).Contents (Elt F)),  -- %160 = stablehlo.broadcast_in_dim %159, dims = [0, 1] : (tensor<1x128xf32>) -> tensor<512x128xf32>  @ reference:12
    binary main_v155 main_v160 main_v161 (mulf : (⟨S512x128, .f32⟩ : BufTy).Contents (Elt F) → (⟨S512x128, .f32⟩ : BufTy).Contents (Elt F) → (⟨S512x128, .f32⟩ : BufTy).Contents (Elt F)),  -- %161 = stablehlo.multiply %155, %160 : tensor<512x128xf32>  @ reference:12
    unary main_v145 main_v162 (broadcastInDim S1x128 ![1] bcast_S128_S1x128_1 : (⟨S128, .f32⟩ : BufTy).Contents (Elt F) → (⟨S1x128, .f32⟩ : BufTy).Contents (Elt F)),  -- %162 = stablehlo.broadcast_in_dim %145, dims = [1] : (tensor<128xf32>) -> tensor<1x128xf32>  @ reference:12
    unary main_v162 main_v163 (broadcastInDim S512x128 ![0, 1] bcast_S1x128_S512x128_0_1 : (⟨S1x128, .f32⟩ : BufTy).Contents (Elt F) → (⟨S512x128, .f32⟩ : BufTy).Contents (Elt F)),  -- %163 = stablehlo.broadcast_in_dim %162, dims = [0, 1] : (tensor<1x128xf32>) -> tensor<512x128xf32>  @ reference:12
    binary main_v161 main_v163 main_v164 (addf : (⟨S512x128, .f32⟩ : BufTy).Contents (Elt F) → (⟨S512x128, .f32⟩ : BufTy).Contents (Elt F) → (⟨S512x128, .f32⟩ : BufTy).Contents (Elt F)),  -- %164 = stablehlo.add %161, %163 : tensor<512x128xf32>  @ reference:12
    TRef.nullary main_call8.cst (constant S_ .f32 0x00000000#32),  -- %cst = stablehlo.constant dense<0.000000e+00> : tensor<f32>   [in fn_relu_7 at main_call8]
    TRef.unary main_call8.cst main_call8.v0 (broadcastInDim S512x128 ![] bcast_S_S512x128),  -- %0 = stablehlo.broadcast_in_dim %cst, dims = [] : (tensor<f32>) -> tensor<512x128xf32>   [in fn_relu_7 at main_call8]
    TRef.binary (.of main_v164) main_call8.v0 main_call8.v1 maximumf ]  -- %1 = stablehlo.maximum %arg0, %0 : tensor<512x128xf32>   [in fn_relu_7 at main_call8]

/-- Stage 9 of the reference's @main: 31 operations. -/
abbrev rchunk9 : List (HloOp τ sig (Elt F)) :=
  [ nullary main_c_20 (constantI S_ 32 0#32),  -- %c_20 = stablehlo.constant dense<0> : tensor<i32>
    unary main_c_20 main_v166 (broadcastInDim S50000 ![] bcast_S_S50000 : (⟨S_, .i32⟩ : BufTy).Contents (Elt F) → (⟨S50000, .i32⟩ : BufTy).Contents (Elt F)),  -- %166 = stablehlo.broadcast_in_dim %c_20, dims = [] : (tensor<i32>) -> tensor<50000xi32>  @ reference:51
    binary main_arg22 main_v166 main_v167 (cmpi .slt : (⟨S50000, .i32⟩ : BufTy).Contents (Elt F) → (⟨S50000, .i32⟩ : BufTy).Contents (Elt F) → (⟨S50000, .i1⟩ : BufTy).Contents (Elt F)),  -- %167 = stablehlo.compare LT, %arg22, %166, SIGNED : (tensor<50000xi32>, tensor<50000xi32>) -> tensor<50000xi1>  @ reference:51
    nullary main_c_21 (constantI S_ 32 512#32),  -- %c_21 = stablehlo.constant dense<512> : tensor<i32>
    unary main_c_21 main_v168 (broadcastInDim S50000 ![] bcast_S_S50000 : (⟨S_, .i32⟩ : BufTy).Contents (Elt F) → (⟨S50000, .i32⟩ : BufTy).Contents (Elt F)),  -- %168 = stablehlo.broadcast_in_dim %c_21, dims = [] : (tensor<i32>) -> tensor<50000xi32>  @ reference:51
    binary main_arg22 main_v168 main_v169 (addi : (⟨S50000, .i32⟩ : BufTy).Contents (Elt F) → (⟨S50000, .i32⟩ : BufTy).Contents (Elt F) → (⟨S50000, .i32⟩ : BufTy).Contents (Elt F)),  -- %169 = stablehlo.add %arg22, %168 : tensor<50000xi32>  @ reference:51
    ternary main_v167 main_v169 main_arg22 main_v170 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),  -- %170 = stablehlo.select %167, %169, %arg22 : tensor<50000xi1>, tensor<50000xi32>  @ reference:51
    unary main_v170 main_v171 (broadcastInDim S50000x1 ![0] bcast_S50000_S50000x1_0 : (⟨S50000, .i32⟩ : BufTy).Contents (Elt F) → (⟨S50000x1, .i32⟩ : BufTy).Contents (Elt F)),  -- %171 = stablehlo.broadcast_in_dim %170, dims = [0] : (tensor<50000xi32>) -> tensor<50000x1xi32>  @ reference:51
    binary main_v165 main_v171 main_v172 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),  -- %172 = "stablehlo.gather"(%165, %171) <{dimension_numbers = #stablehlo.gather<offset_dims = [1], collapsed_slice_dims = [0], start_index_map
    binary main_v97 main_v172 main_v173 (addf : (⟨S50000x128, .f32⟩ : BufTy).Contents (Elt F) → (⟨S50000x128, .f32⟩ : BufTy).Contents (Elt F) → (⟨S50000x128, .f32⟩ : BufTy).Contents (Elt F)),  -- %173 = stablehlo.add %97, %172 : tensor<50000x128xf32>  @ reference:51
    unary main_arg3 main_v174 ((extractStridedSlice S1x8x128 ![1, 0, 0] · slices_S3x8x128_S1x8x128_1_0_0) : (⟨S3x8x128, .f32⟩ : BufTy).Contents (Elt F) → (⟨S1x8x128, .f32⟩ : BufTy).Contents (Elt F)),  -- %174 = stablehlo.slice %arg3 [1:2, 0:8, 0:128] : (tensor<3x8x128xf32>) -> tensor<1x8x128xf32>  @ reference:52
    reshape main_v174 main_v175 rfl shapeCasts_S1x8x128_S8x128,  -- %175 = stablehlo.reshape %174 : (tensor<1x8x128xf32>) -> tensor<8x128xf32>  @ reference:52
    binary main_arg1 main_v175 main_v176 ((fun l r => Host.dotGeneral dot_S800000x8_S8x128_S800000x128_1_0_0_1_n_n none l r) : (⟨S800000x8, .f32⟩ : BufTy).Contents (Elt F) → (⟨S8x128, .f32⟩ : BufTy).Contents (Elt F) → (⟨S800000x128, .f32⟩ : BufTy).Contents (Elt F)),  -- %176 = stablehlo.dot_general %arg1, %175, contracting_dims = [1] x [0], precision = [DEFAULT, DEFAULT] : (tensor<800000x8xf32>, tensor<8x128
    unary main_arg4 main_v177 ((extractStridedSlice S1x128 ![1, 0] · slices_S3x128_S1x128_1_0) : (⟨S3x128, .f32⟩ : BufTy).Contents (Elt F) → (⟨S1x128, .f32⟩ : BufTy).Contents (Elt F)),  -- %177 = stablehlo.slice %arg4 [1:2, 0:128] : (tensor<3x128xf32>) -> tensor<1x128xf32>  @ reference:52
    reshape main_v177 main_v178 rfl shapeCasts_S1x128_S128,  -- %178 = stablehlo.reshape %177 : (tensor<1x128xf32>) -> tensor<128xf32>  @ reference:52
    unary main_v178 main_v179 (broadcastInDim S1x128 ![1] bcast_S128_S1x128_1 : (⟨S128, .f32⟩ : BufTy).Contents (Elt F) → (⟨S1x128, .f32⟩ : BufTy).Contents (Elt F)),  -- %179 = stablehlo.broadcast_in_dim %178, dims = [1] : (tensor<128xf32>) -> tensor<1x128xf32>  @ reference:52
    unary main_v179 main_v180 (broadcastInDim S800000x128 ![0, 1] bcast_S1x128_S800000x128_0_1 : (⟨S1x128, .f32⟩ : BufTy).Contents (Elt F) → (⟨S800000x128, .f32⟩ : BufTy).Contents (Elt F)),  -- %180 = stablehlo.broadcast_in_dim %179, dims = [0, 1] : (tensor<1x128xf32>) -> tensor<800000x128xf32>  @ reference:52
    binary main_v176 main_v180 main_v181 (addf : (⟨S800000x128, .f32⟩ : BufTy).Contents (Elt F) → (⟨S800000x128, .f32⟩ : BufTy).Contents (Elt F) → (⟨S800000x128, .f32⟩ : BufTy).Contents (Elt F)),  -- %181 = stablehlo.add %176, %180 : tensor<800000x128xf32>  @ reference:52
    nullary main_c_22 (constantI S_ 32 0#32),  -- %c_22 = stablehlo.constant dense<0> : tensor<i32>
    unary main_c_22 main_v182 (broadcastInDim S800000 ![] bcast_S_S800000 : (⟨S_, .i32⟩ : BufTy).Contents (Elt F) → (⟨S800000, .i32⟩ : BufTy).Contents (Elt F)),  -- %182 = stablehlo.broadcast_in_dim %c_22, dims = [] : (tensor<i32>) -> tensor<800000xi32>  @ reference:53
    binary main_v1 main_v182 main_v183 (cmpi .slt : (⟨S800000, .i32⟩ : BufTy).Contents (Elt F) → (⟨S800000, .i32⟩ : BufTy).Contents (Elt F) → (⟨S800000, .i1⟩ : BufTy).Contents (Elt F)),  -- %183 = stablehlo.compare LT, %1, %182, SIGNED : (tensor<800000xi32>, tensor<800000xi32>) -> tensor<800000xi1>  @ reference:53
    nullary main_c_23 (constantI S_ 32 50000#32),  -- %c_23 = stablehlo.constant dense<50000> : tensor<i32>
    unary main_c_23 main_v184 (broadcastInDim S800000 ![] bcast_S_S800000 : (⟨S_, .i32⟩ : BufTy).Contents (Elt F) → (⟨S800000, .i32⟩ : BufTy).Contents (Elt F)),  -- %184 = stablehlo.broadcast_in_dim %c_23, dims = [] : (tensor<i32>) -> tensor<800000xi32>  @ reference:53
    binary main_v1 main_v184 main_v185 (addi : (⟨S800000, .i32⟩ : BufTy).Contents (Elt F) → (⟨S800000, .i32⟩ : BufTy).Contents (Elt F) → (⟨S800000, .i32⟩ : BufTy).Contents (Elt F)),  -- %185 = stablehlo.add %1, %184 : tensor<800000xi32>  @ reference:53
    ternary main_v183 main_v185 main_v1 main_v186 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %186 = stablehlo.select %183, %185, %1 : tensor<800000xi1>, tensor<800000xi32>  @ reference:53
    unary main_v186 main_v187 (broadcastInDim S800000x1 ![0] bcast_S800000_S800000x1_0 : (⟨S800000, .i32⟩ : BufTy).Contents (Elt F) → (⟨S800000x1, .i32⟩ : BufTy).Contents (Elt F)),  -- %187 = stablehlo.broadcast_in_dim %186, dims = [0] : (tensor<800000xi32>) -> tensor<800000x1xi32>  @ reference:53
    binary main_v173 main_v187 main_v188 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),  -- %188 = "stablehlo.gather"(%173, %187) <{dimension_numbers = #stablehlo.gather<offset_dims = [1], collapsed_slice_dims = [0], start_index_map
    binary main_v188 main_v181 main_v189 (addf : (⟨S800000x128, .f32⟩ : BufTy).Contents (Elt F) → (⟨S800000x128, .f32⟩ : BufTy).Contents (Elt F) → (⟨S800000x128, .f32⟩ : BufTy).Contents (Elt F)),  -- %189 = stablehlo.add %188, %181 : tensor<800000x128xf32>  @ reference:53
    TRef.nullary main_call9.cst (constant S_ .f32 0x00000000#32),  -- %cst = stablehlo.constant dense<0.000000e+00> : tensor<f32>   [in fn_relu at main_call9]
    TRef.unary main_call9.cst main_call9.v0 (broadcastInDim S800000x128 ![] bcast_S_S800000x128),  -- %0 = stablehlo.broadcast_in_dim %cst, dims = [] : (tensor<f32>) -> tensor<800000x128xf32>   [in fn_relu at main_call9]
    TRef.binary (.of main_v189) main_call9.v0 main_call9.v1 maximumf ]  -- %1 = stablehlo.maximum %arg0, %0 : tensor<800000x128xf32>   [in fn_relu at main_call9]

/-- Stage 10 of the reference's @main: 13 operations. -/
abbrev rchunk10 : List (HloOp τ sig (Elt F)) :=
  [ nullary main_cst_24 (constant S_ .f32 0x00000000#32),  -- %cst_24 = stablehlo.constant dense<0.000000e+00> : tensor<f32>
    unary main_cst_24 main_v191 (broadcastInDim S50000x128 ![] bcast_S_S50000x128 : (⟨S_, .f32⟩ : BufTy).Contents (Elt F) → (⟨S50000x128, .f32⟩ : BufTy).Contents (Elt F)),  -- %191 = stablehlo.broadcast_in_dim %cst_24, dims = [] : (tensor<f32>) -> tensor<50000x128xf32>  @ reference:54
    unary main_v3 main_v192 (broadcastInDim S800000x1 ![0] bcast_S800000_S800000x1_0 : (⟨S800000, .i32⟩ : BufTy).Contents (Elt F) → (⟨S800000x1, .i32⟩ : BufTy).Contents (Elt F)),  -- %192 = stablehlo.broadcast_in_dim %3, dims = [0] : (tensor<800000xi32>) -> tensor<800000x1xi32>  @ reference:54
    ternary main_v191 main_v192 main_v190 main_v193 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),  -- %193 = "stablehlo.scatter"(%191, %192, %190) <{indices_are_sorted = false, scatter_dimension_numbers = #stablehlo.scatter<update_window_dims
    binary main_v173 main_v193 main_v194 (addf : (⟨S50000x128, .f32⟩ : BufTy).Contents (Elt F) → (⟨S50000x128, .f32⟩ : BufTy).Contents (Elt F) → (⟨S50000x128, .f32⟩ : BufTy).Contents (Elt F)),  -- %194 = stablehlo.add %173, %193 : tensor<50000x128xf32>  @ reference:55
    unary main_arg5 main_v195 ((extractStridedSlice S1x128x256 ![1, 0, 0] · slices_S3x128x256_S1x128x256_1_0_0) : (⟨S3x128x256, .f32⟩ : BufTy).Contents (Elt F) → (⟨S1x128x256, .f32⟩ : BufTy).Contents (Elt F)),  -- %195 = stablehlo.slice %arg5 [1:2, 0:128, 0:256] : (tensor<3x128x256xf32>) -> tensor<1x128x256xf32>  @ reference:56
    reshape main_v195 main_v196 rfl shapeCasts_S1x128x256_S128x256,  -- %196 = stablehlo.reshape %195 : (tensor<1x128x256xf32>) -> tensor<128x256xf32>  @ reference:56
    binary main_v194 main_v196 main_v197 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),  -- %197 = stablehlo.dot_general %194, %196, contracting_dims = [1] x [0], precision = [DEFAULT, DEFAULT] : (tensor<50000x128xf32>, tensor<128x2
    unary main_arg6 main_v198 ((extractStridedSlice S1x256 ![1, 0] · slices_S3x256_S1x256_1_0) : (⟨S3x256, .f32⟩ : BufTy).Contents (Elt F) → (⟨S1x256, .f32⟩ : BufTy).Contents (Elt F)),  -- %198 = stablehlo.slice %arg6 [1:2, 0:256] : (tensor<3x256xf32>) -> tensor<1x256xf32>  @ reference:56
    reshape main_v198 main_v199 rfl shapeCasts_S1x256_S256,  -- %199 = stablehlo.reshape %198 : (tensor<1x256xf32>) -> tensor<256xf32>  @ reference:56
    unary main_v199 main_v200 (broadcastInDim S1x256 ![1] bcast_S256_S1x256_1 : (⟨S256, .f32⟩ : BufTy).Contents (Elt F) → (⟨S1x256, .f32⟩ : BufTy).Contents (Elt F)),  -- %200 = stablehlo.broadcast_in_dim %199, dims = [1] : (tensor<256xf32>) -> tensor<1x256xf32>  @ reference:56
    unary main_v200 main_v201 (broadcastInDim S50000x256 ![0, 1] bcast_S1x256_S50000x256_0_1 : (⟨S1x256, .f32⟩ : BufTy).Contents (Elt F) → (⟨S50000x256, .f32⟩ : BufTy).Contents (Elt F)),  -- %201 = stablehlo.broadcast_in_dim %200, dims = [0, 1] : (tensor<1x256xf32>) -> tensor<50000x256xf32>  @ reference:56
    binary main_v197 main_v201 main_v202 (addf : (⟨S50000x256, .f32⟩ : BufTy).Contents (Elt F) → (⟨S50000x256, .f32⟩ : BufTy).Contents (Elt F) → (⟨S50000x256, .f32⟩ : BufTy).Contents (Elt F)) ]  -- %202 = stablehlo.add %197, %201 : tensor<50000x256xf32>  @ reference:56

/-- Stage 11 of the reference's @main: 51 operations. -/
abbrev rchunk11 : List (HloOp τ sig (Elt F)) :=
  [ unary main_arg7 main_v203 ((extractStridedSlice S1x256 ![1, 0] · slices_S3x256_S1x256_1_0) : (⟨S3x256, .f32⟩ : BufTy).Contents (Elt F) → (⟨S1x256, .f32⟩ : BufTy).Contents (Elt F)),  -- %203 = stablehlo.slice %arg7 [1:2, 0:256] : (tensor<3x256xf32>) -> tensor<1x256xf32>  @ reference:56
    reshape main_v203 main_v204 rfl shapeCasts_S1x256_S256,  -- %204 = stablehlo.reshape %203 : (tensor<1x256xf32>) -> tensor<256xf32>  @ reference:56
    unary main_arg8 main_v205 ((extractStridedSlice S1x256 ![1, 0] · slices_S3x256_S1x256_1_0) : (⟨S3x256, .f32⟩ : BufTy).Contents (Elt F) → (⟨S1x256, .f32⟩ : BufTy).Contents (Elt F)),  -- %205 = stablehlo.slice %arg8 [1:2, 0:256] : (tensor<3x256xf32>) -> tensor<1x256xf32>  @ reference:56
    reshape main_v205 main_v206 rfl shapeCasts_S1x256_S256,  -- %206 = stablehlo.reshape %205 : (tensor<1x256xf32>) -> tensor<256xf32>  @ reference:56
    nullary main_cst_25 (constant S_ .f32 0x00000000#32),  -- %cst_25 = stablehlo.constant dense<0.000000e+00> : tensor<f32>
    binary main_v202 main_cst_25 main_v207 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),  -- %207 = stablehlo.reduce(%202 init: %cst_25) applies stablehlo.add across dimensions = [0] : (tensor<50000x256xf32>, tensor<f32>) -> tensor<2
    nullary main_cst_26 (constant S_ .f32 0x47435000#32),  -- %cst_26 = stablehlo.constant dense<5.000000e+04> : tensor<f32>
    unary main_cst_26 main_v208 (broadcastInDim S256 ![] bcast_S_S256 : (⟨S_, .f32⟩ : BufTy).Contents (Elt F) → (⟨S256, .f32⟩ : BufTy).Contents (Elt F)),  -- %208 = stablehlo.broadcast_in_dim %cst_26, dims = [] : (tensor<f32>) -> tensor<256xf32>  @ reference:10
    binary main_v207 main_v208 main_v209 (Host.divf : (⟨S256, .f32⟩ : BufTy).Contents (Elt F) → (⟨S256, .f32⟩ : BufTy).Contents (Elt F) → (⟨S256, .f32⟩ : BufTy).Contents (Elt F)),  -- %209 = stablehlo.divide %207, %208 : tensor<256xf32>  @ reference:10
    nullary main_c_27 (constantI S_ 32 0#32),  -- %c_27 = stablehlo.constant dense<0> : tensor<i32>
    TRef.nullary main_call10.cst (constant S_ .f32 0x00000000#32),  -- %cst = stablehlo.constant dense<0.000000e+00> : tensor<f32>   [in fn_var at main_call10]
    TRef.binary (.of main_v202) main_call10.cst main_call10.v0 (fun x v => Host.reduceAdd x v reducesTo_S50000x256_S256_d0 h_S_),  -- %0 = stablehlo.reduce(%arg0 init: %cst) applies stablehlo.add across dimensions = [0] : (tensor<50000x256xf32>, tensor<f32>) -> tensor<256xf
    TRef.unary main_call10.v0 main_call10.v1 (broadcastInDim S1x256 ![1] bcast_S256_S1x256_1),  -- %1 = stablehlo.broadcast_in_dim %0, dims = [1] : (tensor<256xf32>) -> tensor<1x256xf32>   [in fn_var at main_call10]
    TRef.nullary main_call10.cst_0 (constant S_ .f32 0x47435000#32),  -- %cst_0 = stablehlo.constant dense<5.000000e+04> : tensor<f32>   [in fn_var at main_call10]
    TRef.unary main_call10.cst_0 main_call10.v2 (broadcastInDim S1x256 ![] bcast_S_S1x256),  -- %2 = stablehlo.broadcast_in_dim %cst_0, dims = [] : (tensor<f32>) -> tensor<1x256xf32>   [in fn_var at main_call10]
    TRef.binary main_call10.v1 main_call10.v2 main_call10.v3 Host.divf,  -- %3 = stablehlo.divide %1, %2 : tensor<1x256xf32>   [in fn_var at main_call10]
    TRef.unary main_call10.v3 main_call10.v4 (broadcastInDim S50000x256 ![0, 1] bcast_S1x256_S50000x256_0_1),  -- %4 = stablehlo.broadcast_in_dim %3, dims = [0, 1] : (tensor<1x256xf32>) -> tensor<50000x256xf32>   [in fn_var at main_call10]
    TRef.binary (.of main_v202) main_call10.v4 main_call10.v5 subf,  -- %5 = stablehlo.subtract %arg0, %4 : tensor<50000x256xf32>   [in fn_var at main_call10]
    TRef.binary main_call10.v5 main_call10.v5 main_call10.v6 mulf,  -- %6 = chlo.square %5 : tensor<50000x256xf32> -> tensor<50000x256xf32>   [in fn_var at main_call10]
    TRef.unary (.of main_c_27) main_call10.v7 (sitofp .f32),  -- %7 = stablehlo.convert %arg1 : (tensor<i32>) -> tensor<f32>   [in fn_var at main_call10]
    TRef.nullary main_call10.cst_1 (constant S_ .f32 0x47435000#32),  -- %cst_1 = stablehlo.constant dense<5.000000e+04> : tensor<f32>   [in fn_var at main_call10]
    TRef.binary main_call10.cst_1 main_call10.v7 main_call10.v8 subf,  -- %8 = stablehlo.subtract %cst_1, %7 : tensor<f32>   [in fn_var at main_call10]
    TRef.nullary main_call10.cst_2 (constant S_ .f32 0x00000000#32),  -- %cst_2 = stablehlo.constant dense<0.000000e+00> : tensor<f32>   [in fn_var at main_call10]
    TRef.binary main_call10.v6 main_call10.cst_2 main_call10.v9 (fun x v => Host.reduceAdd x v reducesTo_S50000x256_S256_d0 h_S_),  -- %9 = stablehlo.reduce(%6 init: %cst_2) applies stablehlo.add across dimensions = [0] : (tensor<50000x256xf32>, tensor<f32>) -> tensor<256xf3
    TRef.unary main_call10.v8 main_call10.v10 (broadcastInDim S256 ![] bcast_S_S256),  -- %10 = stablehlo.broadcast_in_dim %8, dims = [] : (tensor<f32>) -> tensor<256xf32>   [in fn_var at main_call10]
    TRef.binary main_call10.v9 main_call10.v10 main_call10.v11 Host.divf,  -- %11 = stablehlo.divide %9, %10 : tensor<256xf32>   [in fn_var at main_call10]
    TRef.nullary main_call10.cst_3 (constant S_ .f32 0x00000000#32),  -- %cst_3 = stablehlo.constant dense<0.000000e+00> : tensor<f32>   [in fn_var at main_call10]
    TRef.binary main_call10.v8 main_call10.cst_3 main_call10.v12 (cmpf .ogt),  -- %12 = stablehlo.compare GT, %8, %cst_3, FLOAT : (tensor<f32>, tensor<f32>) -> tensor<i1>   [in fn_var at main_call10]
    TRef.nullary main_call10.cst_4 (constant S_ .f32 0x7FC00000#32),  -- %cst_4 = stablehlo.constant dense<0x7FC00000> : tensor<f32>   [in fn_var at main_call10]
    TRef.unary main_call10.cst_4 main_call10.call0.v0 id,  -- %0 = stablehlo.convert %arg2 : tensor<f32>   [in fn_where at main_call10.call0]   [in fn_var at main_call10]
    TRef.unary main_call10.call0.v0 main_call10.call0.v1 (broadcastInDim S256 ![] bcast_S_S256),  -- %1 = stablehlo.broadcast_in_dim %0, dims = [] : (tensor<f32>) -> tensor<256xf32>   [in fn_where at main_call10.call0]   [in fn_var at main_c
    TRef.ternary main_call10.v12 main_call10.v11 main_call10.call0.v1 main_call10.call0.v2 (fun p a b => select (broadcastInDim S256 ![] bcast_S_S256 p) a b),  -- %2 = stablehlo.select %arg0, %arg1, %1 : tensor<i1>, tensor<256xf32>   [in fn_where at main_call10.call0]   [in fn_var at main_call10]
    unary main_v209 main_v211 (broadcastInDim S1x256 ![1] bcast_S256_S1x256_1 : (⟨S256, .f32⟩ : BufTy).Contents (Elt F) → (⟨S1x256, .f32⟩ : BufTy).Contents (Elt F)),  -- %211 = stablehlo.broadcast_in_dim %209, dims = [1] : (tensor<256xf32>) -> tensor<1x256xf32>  @ reference:12
    unary main_v211 main_v212 (broadcastInDim S50000x256 ![0, 1] bcast_S1x256_S50000x256_0_1 : (⟨S1x256, .f32⟩ : BufTy).Contents (Elt F) → (⟨S50000x256, .f32⟩ : BufTy).Contents (Elt F)),  -- %212 = stablehlo.broadcast_in_dim %211, dims = [0, 1] : (tensor<1x256xf32>) -> tensor<50000x256xf32>  @ reference:12
    binary main_v202 main_v212 main_v213 (subf : (⟨S50000x256, .f32⟩ : BufTy).Contents (Elt F) → (⟨S50000x256, .f32⟩ : BufTy).Contents (Elt F) → (⟨S50000x256, .f32⟩ : BufTy).Contents (Elt F)),  -- %213 = stablehlo.subtract %202, %212 : tensor<50000x256xf32>  @ reference:12
    unary main_v204 main_v214 (broadcastInDim S1x256 ![1] bcast_S256_S1x256_1 : (⟨S256, .f32⟩ : BufTy).Contents (Elt F) → (⟨S1x256, .f32⟩ : BufTy).Contents (Elt F)),  -- %214 = stablehlo.broadcast_in_dim %204, dims = [1] : (tensor<256xf32>) -> tensor<1x256xf32>  @ reference:12
    unary main_v214 main_v215 (broadcastInDim S50000x256 ![0, 1] bcast_S1x256_S50000x256_0_1 : (⟨S1x256, .f32⟩ : BufTy).Contents (Elt F) → (⟨S50000x256, .f32⟩ : BufTy).Contents (Elt F)),  -- %215 = stablehlo.broadcast_in_dim %214, dims = [0, 1] : (tensor<1x256xf32>) -> tensor<50000x256xf32>  @ reference:12
    binary main_v215 main_v213 main_v216 (mulf : (⟨S50000x256, .f32⟩ : BufTy).Contents (Elt F) → (⟨S50000x256, .f32⟩ : BufTy).Contents (Elt F) → (⟨S50000x256, .f32⟩ : BufTy).Contents (Elt F)),  -- %216 = stablehlo.multiply %215, %213 : tensor<50000x256xf32>  @ reference:12
    nullary main_cst_28 (constant S_ .f32 0x3727C5AC#32),  -- %cst_28 = stablehlo.constant dense<9.99999974E-6> : tensor<f32>
    unary main_cst_28 main_v217 (broadcastInDim S256 ![] bcast_S_S256 : (⟨S_, .f32⟩ : BufTy).Contents (Elt F) → (⟨S256, .f32⟩ : BufTy).Contents (Elt F)),  -- %217 = stablehlo.broadcast_in_dim %cst_28, dims = [] : (tensor<f32>) -> tensor<256xf32>  @ reference:12
    binary main_v210 main_v217 main_v218 (addf : (⟨S256, .f32⟩ : BufTy).Contents (Elt F) → (⟨S256, .f32⟩ : BufTy).Contents (Elt F) → (⟨S256, .f32⟩ : BufTy).Contents (Elt F)),  -- %218 = stablehlo.add %210, %217 : tensor<256xf32>  @ reference:12
    unary main_v218 main_v219 (Host.rsqrt : (⟨S256, .f32⟩ : BufTy).Contents (Elt F) → (⟨S256, .f32⟩ : BufTy).Contents (Elt F)),  -- %219 = stablehlo.rsqrt %218 : tensor<256xf32>  @ reference:12
    unary main_v219 main_v220 (broadcastInDim S1x256 ![1] bcast_S256_S1x256_1 : (⟨S256, .f32⟩ : BufTy).Contents (Elt F) → (⟨S1x256, .f32⟩ : BufTy).Contents (Elt F)),  -- %220 = stablehlo.broadcast_in_dim %219, dims = [1] : (tensor<256xf32>) -> tensor<1x256xf32>  @ reference:12
    unary main_v220 main_v221 (broadcastInDim S50000x256 ![0, 1] bcast_S1x256_S50000x256_0_1 : (⟨S1x256, .f32⟩ : BufTy).Contents (Elt F) → (⟨S50000x256, .f32⟩ : BufTy).Contents (Elt F)),  -- %221 = stablehlo.broadcast_in_dim %220, dims = [0, 1] : (tensor<1x256xf32>) -> tensor<50000x256xf32>  @ reference:12
    binary main_v216 main_v221 main_v222 (mulf : (⟨S50000x256, .f32⟩ : BufTy).Contents (Elt F) → (⟨S50000x256, .f32⟩ : BufTy).Contents (Elt F) → (⟨S50000x256, .f32⟩ : BufTy).Contents (Elt F)),  -- %222 = stablehlo.multiply %216, %221 : tensor<50000x256xf32>  @ reference:12
    unary main_v206 main_v223 (broadcastInDim S1x256 ![1] bcast_S256_S1x256_1 : (⟨S256, .f32⟩ : BufTy).Contents (Elt F) → (⟨S1x256, .f32⟩ : BufTy).Contents (Elt F)),  -- %223 = stablehlo.broadcast_in_dim %206, dims = [1] : (tensor<256xf32>) -> tensor<1x256xf32>  @ reference:12
    unary main_v223 main_v224 (broadcastInDim S50000x256 ![0, 1] bcast_S1x256_S50000x256_0_1 : (⟨S1x256, .f32⟩ : BufTy).Contents (Elt F) → (⟨S50000x256, .f32⟩ : BufTy).Contents (Elt F)),  -- %224 = stablehlo.broadcast_in_dim %223, dims = [0, 1] : (tensor<1x256xf32>) -> tensor<50000x256xf32>  @ reference:12
    binary main_v222 main_v224 main_v225 (addf : (⟨S50000x256, .f32⟩ : BufTy).Contents (Elt F) → (⟨S50000x256, .f32⟩ : BufTy).Contents (Elt F) → (⟨S50000x256, .f32⟩ : BufTy).Contents (Elt F)),  -- %225 = stablehlo.add %222, %224 : tensor<50000x256xf32>  @ reference:12
    TRef.nullary main_call11.cst (constant S_ .f32 0x00000000#32),  -- %cst = stablehlo.constant dense<0.000000e+00> : tensor<f32>   [in fn_relu_0 at main_call11]
    TRef.unary main_call11.cst main_call11.v0 (broadcastInDim S50000x256 ![] bcast_S_S50000x256),  -- %0 = stablehlo.broadcast_in_dim %cst, dims = [] : (tensor<f32>) -> tensor<50000x256xf32>   [in fn_relu_0 at main_call11]
    TRef.binary (.of main_v225) main_call11.v0 main_call11.v1 maximumf ]  -- %1 = stablehlo.maximum %arg0, %0 : tensor<50000x256xf32>   [in fn_relu_0 at main_call11]

/-- Stage 12 of the reference's @main: 8 operations. -/
abbrev rchunk12 : List (HloOp τ sig (Elt F)) :=
  [ unary main_arg9 main_v227 ((extractStridedSlice S1x256x128 ![1, 0, 0] · slices_S3x256x128_S1x256x128_1_0_0) : (⟨S3x256x128, .f32⟩ : BufTy).Contents (Elt F) → (⟨S1x256x128, .f32⟩ : BufTy).Contents (Elt F)),  -- %227 = stablehlo.slice %arg9 [1:2, 0:256, 0:128] : (tensor<3x256x128xf32>) -> tensor<1x256x128xf32>  @ reference:57
    reshape main_v227 main_v228 rfl shapeCasts_S1x256x128_S256x128,  -- %228 = stablehlo.reshape %227 : (tensor<1x256x128xf32>) -> tensor<256x128xf32>  @ reference:57
    binary main_v226 main_v228 main_v229 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),  -- %229 = stablehlo.dot_general %226, %228, contracting_dims = [1] x [0], precision = [DEFAULT, DEFAULT] : (tensor<50000x256xf32>, tensor<256x1
    unary main_arg10 main_v230 ((extractStridedSlice S1x128 ![1, 0] · slices_S3x128_S1x128_1_0) : (⟨S3x128, .f32⟩ : BufTy).Contents (Elt F) → (⟨S1x128, .f32⟩ : BufTy).Contents (Elt F)),  -- %230 = stablehlo.slice %arg10 [1:2, 0:128] : (tensor<3x128xf32>) -> tensor<1x128xf32>  @ reference:57
    reshape main_v230 main_v231 rfl shapeCasts_S1x128_S128,  -- %231 = stablehlo.reshape %230 : (tensor<1x128xf32>) -> tensor<128xf32>  @ reference:57
    unary main_v231 main_v232 (broadcastInDim S1x128 ![1] bcast_S128_S1x128_1 : (⟨S128, .f32⟩ : BufTy).Contents (Elt F) → (⟨S1x128, .f32⟩ : BufTy).Contents (Elt F)),  -- %232 = stablehlo.broadcast_in_dim %231, dims = [1] : (tensor<128xf32>) -> tensor<1x128xf32>  @ reference:57
    unary main_v232 main_v233 (broadcastInDim S50000x128 ![0, 1] bcast_S1x128_S50000x128_0_1 : (⟨S1x128, .f32⟩ : BufTy).Contents (Elt F) → (⟨S50000x128, .f32⟩ : BufTy).Contents (Elt F)),  -- %233 = stablehlo.broadcast_in_dim %232, dims = [0, 1] : (tensor<1x128xf32>) -> tensor<50000x128xf32>  @ reference:57
    binary main_v229 main_v233 main_v234 (addf : (⟨S50000x128, .f32⟩ : BufTy).Contents (Elt F) → (⟨S50000x128, .f32⟩ : BufTy).Contents (Elt F) → (⟨S50000x128, .f32⟩ : BufTy).Contents (Elt F)) ]  -- %234 = stablehlo.add %229, %233 : tensor<50000x128xf32>  @ reference:57

/-- Stage 13 of the reference's @main: 51 operations. -/
abbrev rchunk13 : List (HloOp τ sig (Elt F)) :=
  [ unary main_arg11 main_v235 ((extractStridedSlice S1x128 ![1, 0] · slices_S3x128_S1x128_1_0) : (⟨S3x128, .f32⟩ : BufTy).Contents (Elt F) → (⟨S1x128, .f32⟩ : BufTy).Contents (Elt F)),  -- %235 = stablehlo.slice %arg11 [1:2, 0:128] : (tensor<3x128xf32>) -> tensor<1x128xf32>  @ reference:57
    reshape main_v235 main_v236 rfl shapeCasts_S1x128_S128,  -- %236 = stablehlo.reshape %235 : (tensor<1x128xf32>) -> tensor<128xf32>  @ reference:57
    unary main_arg12 main_v237 ((extractStridedSlice S1x128 ![1, 0] · slices_S3x128_S1x128_1_0) : (⟨S3x128, .f32⟩ : BufTy).Contents (Elt F) → (⟨S1x128, .f32⟩ : BufTy).Contents (Elt F)),  -- %237 = stablehlo.slice %arg12 [1:2, 0:128] : (tensor<3x128xf32>) -> tensor<1x128xf32>  @ reference:57
    reshape main_v237 main_v238 rfl shapeCasts_S1x128_S128,  -- %238 = stablehlo.reshape %237 : (tensor<1x128xf32>) -> tensor<128xf32>  @ reference:57
    nullary main_cst_29 (constant S_ .f32 0x00000000#32),  -- %cst_29 = stablehlo.constant dense<0.000000e+00> : tensor<f32>
    binary main_v234 main_cst_29 main_v239 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %239 = stablehlo.reduce(%234 init: %cst_29) applies stablehlo.add across dimensions = [0] : (tensor<50000x128xf32>, tensor<f32>) -> tensor<1
    nullary main_cst_30 (constant S_ .f32 0x47435000#32),  -- %cst_30 = stablehlo.constant dense<5.000000e+04> : tensor<f32>
    unary main_cst_30 main_v240 (broadcastInDim S128 ![] bcast_S_S128 : (⟨S_, .f32⟩ : BufTy).Contents (Elt F) → (⟨S128, .f32⟩ : BufTy).Contents (Elt F)),  -- %240 = stablehlo.broadcast_in_dim %cst_30, dims = [] : (tensor<f32>) -> tensor<128xf32>  @ reference:10
    binary main_v239 main_v240 main_v241 (Host.divf : (⟨S128, .f32⟩ : BufTy).Contents (Elt F) → (⟨S128, .f32⟩ : BufTy).Contents (Elt F) → (⟨S128, .f32⟩ : BufTy).Contents (Elt F)),  -- %241 = stablehlo.divide %239, %240 : tensor<128xf32>  @ reference:10
    nullary main_c_31 (constantI S_ 32 0#32),  -- %c_31 = stablehlo.constant dense<0> : tensor<i32>
    TRef.nullary main_call12.cst (constant S_ .f32 0x00000000#32),  -- %cst = stablehlo.constant dense<0.000000e+00> : tensor<f32>   [in fn_var_1 at main_call12]
    TRef.binary (.of main_v234) main_call12.cst main_call12.v0 (fun x v => Host.reduceAdd x v reducesTo_S50000x128_S128_d0 h_S_),  -- %0 = stablehlo.reduce(%arg0 init: %cst) applies stablehlo.add across dimensions = [0] : (tensor<50000x128xf32>, tensor<f32>) -> tensor<128xf
    TRef.unary main_call12.v0 main_call12.v1 (broadcastInDim S1x128 ![1] bcast_S128_S1x128_1),  -- %1 = stablehlo.broadcast_in_dim %0, dims = [1] : (tensor<128xf32>) -> tensor<1x128xf32>   [in fn_var_1 at main_call12]
    TRef.nullary main_call12.cst_0 (constant S_ .f32 0x47435000#32),  -- %cst_0 = stablehlo.constant dense<5.000000e+04> : tensor<f32>   [in fn_var_1 at main_call12]
    TRef.unary main_call12.cst_0 main_call12.v2 (broadcastInDim S1x128 ![] bcast_S_S1x128),  -- %2 = stablehlo.broadcast_in_dim %cst_0, dims = [] : (tensor<f32>) -> tensor<1x128xf32>   [in fn_var_1 at main_call12]
    TRef.binary main_call12.v1 main_call12.v2 main_call12.v3 Host.divf,  -- %3 = stablehlo.divide %1, %2 : tensor<1x128xf32>   [in fn_var_1 at main_call12]
    TRef.unary main_call12.v3 main_call12.v4 (broadcastInDim S50000x128 ![0, 1] bcast_S1x128_S50000x128_0_1),  -- %4 = stablehlo.broadcast_in_dim %3, dims = [0, 1] : (tensor<1x128xf32>) -> tensor<50000x128xf32>   [in fn_var_1 at main_call12]
    TRef.binary (.of main_v234) main_call12.v4 main_call12.v5 subf,  -- %5 = stablehlo.subtract %arg0, %4 : tensor<50000x128xf32>   [in fn_var_1 at main_call12]
    TRef.binary main_call12.v5 main_call12.v5 main_call12.v6 mulf,  -- %6 = chlo.square %5 : tensor<50000x128xf32> -> tensor<50000x128xf32>   [in fn_var_1 at main_call12]
    TRef.unary (.of main_c_31) main_call12.v7 (sitofp .f32),  -- %7 = stablehlo.convert %arg1 : (tensor<i32>) -> tensor<f32>   [in fn_var_1 at main_call12]
    TRef.nullary main_call12.cst_1 (constant S_ .f32 0x47435000#32),  -- %cst_1 = stablehlo.constant dense<5.000000e+04> : tensor<f32>   [in fn_var_1 at main_call12]
    TRef.binary main_call12.cst_1 main_call12.v7 main_call12.v8 subf,  -- %8 = stablehlo.subtract %cst_1, %7 : tensor<f32>   [in fn_var_1 at main_call12]
    TRef.nullary main_call12.cst_2 (constant S_ .f32 0x00000000#32),  -- %cst_2 = stablehlo.constant dense<0.000000e+00> : tensor<f32>   [in fn_var_1 at main_call12]
    TRef.binary main_call12.v6 main_call12.cst_2 main_call12.v9 (fun x v => Host.reduceAdd x v reducesTo_S50000x128_S128_d0 h_S_),  -- %9 = stablehlo.reduce(%6 init: %cst_2) applies stablehlo.add across dimensions = [0] : (tensor<50000x128xf32>, tensor<f32>) -> tensor<128xf3
    TRef.unary main_call12.v8 main_call12.v10 (broadcastInDim S128 ![] bcast_S_S128),  -- %10 = stablehlo.broadcast_in_dim %8, dims = [] : (tensor<f32>) -> tensor<128xf32>   [in fn_var_1 at main_call12]
    TRef.binary main_call12.v9 main_call12.v10 main_call12.v11 Host.divf,  -- %11 = stablehlo.divide %9, %10 : tensor<128xf32>   [in fn_var_1 at main_call12]
    TRef.nullary main_call12.cst_3 (constant S_ .f32 0x00000000#32),  -- %cst_3 = stablehlo.constant dense<0.000000e+00> : tensor<f32>   [in fn_var_1 at main_call12]
    TRef.binary main_call12.v8 main_call12.cst_3 main_call12.v12 (cmpf .ogt),  -- %12 = stablehlo.compare GT, %8, %cst_3, FLOAT : (tensor<f32>, tensor<f32>) -> tensor<i1>   [in fn_var_1 at main_call12]
    TRef.nullary main_call12.cst_4 (constant S_ .f32 0x7FC00000#32),  -- %cst_4 = stablehlo.constant dense<0x7FC00000> : tensor<f32>   [in fn_var_1 at main_call12]
    TRef.unary main_call12.cst_4 main_call12.call0.v0 id,  -- %0 = stablehlo.convert %arg2 : tensor<f32>   [in fn_where_2 at main_call12.call0]   [in fn_var_1 at main_call12]
    TRef.unary main_call12.call0.v0 main_call12.call0.v1 (broadcastInDim S128 ![] bcast_S_S128),  -- %1 = stablehlo.broadcast_in_dim %0, dims = [] : (tensor<f32>) -> tensor<128xf32>   [in fn_where_2 at main_call12.call0]   [in fn_var_1 at ma
    TRef.ternary main_call12.v12 main_call12.v11 main_call12.call0.v1 main_call12.call0.v2 (fun p a b => select (broadcastInDim S128 ![] bcast_S_S128 p) a b),  -- %2 = stablehlo.select %arg0, %arg1, %1 : tensor<i1>, tensor<128xf32>   [in fn_where_2 at main_call12.call0]   [in fn_var_1 at main_call12]
    unary main_v241 main_v243 (broadcastInDim S1x128 ![1] bcast_S128_S1x128_1 : (⟨S128, .f32⟩ : BufTy).Contents (Elt F) → (⟨S1x128, .f32⟩ : BufTy).Contents (Elt F)),  -- %243 = stablehlo.broadcast_in_dim %241, dims = [1] : (tensor<128xf32>) -> tensor<1x128xf32>  @ reference:12
    unary main_v243 main_v244 (broadcastInDim S50000x128 ![0, 1] bcast_S1x128_S50000x128_0_1 : (⟨S1x128, .f32⟩ : BufTy).Contents (Elt F) → (⟨S50000x128, .f32⟩ : BufTy).Contents (Elt F)),  -- %244 = stablehlo.broadcast_in_dim %243, dims = [0, 1] : (tensor<1x128xf32>) -> tensor<50000x128xf32>  @ reference:12
    binary main_v234 main_v244 main_v245 (subf : (⟨S50000x128, .f32⟩ : BufTy).Contents (Elt F) → (⟨S50000x128, .f32⟩ : BufTy).Contents (Elt F) → (⟨S50000x128, .f32⟩ : BufTy).Contents (Elt F)),  -- %245 = stablehlo.subtract %234, %244 : tensor<50000x128xf32>  @ reference:12
    unary main_v236 main_v246 (broadcastInDim S1x128 ![1] bcast_S128_S1x128_1 : (⟨S128, .f32⟩ : BufTy).Contents (Elt F) → (⟨S1x128, .f32⟩ : BufTy).Contents (Elt F)),  -- %246 = stablehlo.broadcast_in_dim %236, dims = [1] : (tensor<128xf32>) -> tensor<1x128xf32>  @ reference:12
    unary main_v246 main_v247 (broadcastInDim S50000x128 ![0, 1] bcast_S1x128_S50000x128_0_1 : (⟨S1x128, .f32⟩ : BufTy).Contents (Elt F) → (⟨S50000x128, .f32⟩ : BufTy).Contents (Elt F)),  -- %247 = stablehlo.broadcast_in_dim %246, dims = [0, 1] : (tensor<1x128xf32>) -> tensor<50000x128xf32>  @ reference:12
    binary main_v247 main_v245 main_v248 (mulf : (⟨S50000x128, .f32⟩ : BufTy).Contents (Elt F) → (⟨S50000x128, .f32⟩ : BufTy).Contents (Elt F) → (⟨S50000x128, .f32⟩ : BufTy).Contents (Elt F)),  -- %248 = stablehlo.multiply %247, %245 : tensor<50000x128xf32>  @ reference:12
    nullary main_cst_32 (constant S_ .f32 0x3727C5AC#32),  -- %cst_32 = stablehlo.constant dense<9.99999974E-6> : tensor<f32>
    unary main_cst_32 main_v249 (broadcastInDim S128 ![] bcast_S_S128 : (⟨S_, .f32⟩ : BufTy).Contents (Elt F) → (⟨S128, .f32⟩ : BufTy).Contents (Elt F)),  -- %249 = stablehlo.broadcast_in_dim %cst_32, dims = [] : (tensor<f32>) -> tensor<128xf32>  @ reference:12
    binary main_v242 main_v249 main_v250 (addf : (⟨S128, .f32⟩ : BufTy).Contents (Elt F) → (⟨S128, .f32⟩ : BufTy).Contents (Elt F) → (⟨S128, .f32⟩ : BufTy).Contents (Elt F)),  -- %250 = stablehlo.add %242, %249 : tensor<128xf32>  @ reference:12
    unary main_v250 main_v251 (Host.rsqrt : (⟨S128, .f32⟩ : BufTy).Contents (Elt F) → (⟨S128, .f32⟩ : BufTy).Contents (Elt F)),  -- %251 = stablehlo.rsqrt %250 : tensor<128xf32>  @ reference:12
    unary main_v251 main_v252 (broadcastInDim S1x128 ![1] bcast_S128_S1x128_1 : (⟨S128, .f32⟩ : BufTy).Contents (Elt F) → (⟨S1x128, .f32⟩ : BufTy).Contents (Elt F)),  -- %252 = stablehlo.broadcast_in_dim %251, dims = [1] : (tensor<128xf32>) -> tensor<1x128xf32>  @ reference:12
    unary main_v252 main_v253 (broadcastInDim S50000x128 ![0, 1] bcast_S1x128_S50000x128_0_1 : (⟨S1x128, .f32⟩ : BufTy).Contents (Elt F) → (⟨S50000x128, .f32⟩ : BufTy).Contents (Elt F)),  -- %253 = stablehlo.broadcast_in_dim %252, dims = [0, 1] : (tensor<1x128xf32>) -> tensor<50000x128xf32>  @ reference:12
    binary main_v248 main_v253 main_v254 (mulf : (⟨S50000x128, .f32⟩ : BufTy).Contents (Elt F) → (⟨S50000x128, .f32⟩ : BufTy).Contents (Elt F) → (⟨S50000x128, .f32⟩ : BufTy).Contents (Elt F)),  -- %254 = stablehlo.multiply %248, %253 : tensor<50000x128xf32>  @ reference:12
    unary main_v238 main_v255 (broadcastInDim S1x128 ![1] bcast_S128_S1x128_1 : (⟨S128, .f32⟩ : BufTy).Contents (Elt F) → (⟨S1x128, .f32⟩ : BufTy).Contents (Elt F)),  -- %255 = stablehlo.broadcast_in_dim %238, dims = [1] : (tensor<128xf32>) -> tensor<1x128xf32>  @ reference:12
    unary main_v255 main_v256 (broadcastInDim S50000x128 ![0, 1] bcast_S1x128_S50000x128_0_1 : (⟨S1x128, .f32⟩ : BufTy).Contents (Elt F) → (⟨S50000x128, .f32⟩ : BufTy).Contents (Elt F)),  -- %256 = stablehlo.broadcast_in_dim %255, dims = [0, 1] : (tensor<1x128xf32>) -> tensor<50000x128xf32>  @ reference:12
    binary main_v254 main_v256 main_v257 (addf : (⟨S50000x128, .f32⟩ : BufTy).Contents (Elt F) → (⟨S50000x128, .f32⟩ : BufTy).Contents (Elt F) → (⟨S50000x128, .f32⟩ : BufTy).Contents (Elt F)),  -- %257 = stablehlo.add %254, %256 : tensor<50000x128xf32>  @ reference:12
    TRef.nullary main_call13.cst (constant S_ .f32 0x00000000#32),  -- %cst = stablehlo.constant dense<0.000000e+00> : tensor<f32>   [in fn_relu_3 at main_call13]
    TRef.unary main_call13.cst main_call13.v0 (broadcastInDim S50000x128 ![] bcast_S_S50000x128),  -- %0 = stablehlo.broadcast_in_dim %cst, dims = [] : (tensor<f32>) -> tensor<50000x128xf32>   [in fn_relu_3 at main_call13]
    TRef.binary (.of main_v257) main_call13.v0 main_call13.v1 maximumf ]  -- %1 = stablehlo.maximum %arg0, %0 : tensor<50000x128xf32>   [in fn_relu_3 at main_call13]

/-- Stage 14 of the reference's @main: 13 operations. -/
abbrev rchunk14 : List (HloOp τ sig (Elt F)) :=
  [ nullary main_cst_33 (constant S_ .f32 0x00000000#32),  -- %cst_33 = stablehlo.constant dense<0.000000e+00> : tensor<f32>
    unary main_cst_33 main_v259 (broadcastInDim S512x128 ![] bcast_S_S512x128 : (⟨S_, .f32⟩ : BufTy).Contents (Elt F) → (⟨S512x128, .f32⟩ : BufTy).Contents (Elt F)),  -- %259 = stablehlo.broadcast_in_dim %cst_33, dims = [] : (tensor<f32>) -> tensor<512x128xf32>  @ reference:60
    unary main_arg22 main_v260 (broadcastInDim S50000x1 ![0] bcast_S50000_S50000x1_0 : (⟨S50000, .i32⟩ : BufTy).Contents (Elt F) → (⟨S50000x1, .i32⟩ : BufTy).Contents (Elt F)),  -- %260 = stablehlo.broadcast_in_dim %arg22, dims = [0] : (tensor<50000xi32>) -> tensor<50000x1xi32>  @ reference:60
    ternary main_v259 main_v260 main_v173 main_v261 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),  -- %261 = "stablehlo.scatter"(%259, %260, %173) <{indices_are_sorted = false, scatter_dimension_numbers = #stablehlo.scatter<update_window_dims
    binary main_v261 main_v165 main_v262 (addf : (⟨S512x128, .f32⟩ : BufTy).Contents (Elt F) → (⟨S512x128, .f32⟩ : BufTy).Contents (Elt F) → (⟨S512x128, .f32⟩ : BufTy).Contents (Elt F)),  -- %262 = stablehlo.add %261, %165 : tensor<512x128xf32>  @ reference:60
    unary main_arg13 main_v263 ((extractStridedSlice S1x128x256 ![1, 0, 0] · slices_S2x128x256_S1x128x256_1_0_0) : (⟨S2x128x256, .f32⟩ : BufTy).Contents (Elt F) → (⟨S1x128x256, .f32⟩ : BufTy).Contents (Elt F)),  -- %263 = stablehlo.slice %arg13 [1:2, 0:128, 0:256] : (tensor<2x128x256xf32>) -> tensor<1x128x256xf32>  @ reference:61
    reshape main_v263 main_v264 rfl shapeCasts_S1x128x256_S128x256,  -- %264 = stablehlo.reshape %263 : (tensor<1x128x256xf32>) -> tensor<128x256xf32>  @ reference:61
    binary main_v262 main_v264 main_v265 ((fun l r => Host.dotGeneral dot_S512x128_S128x256_S512x256_1_0_0_1_n_n none l r) : (⟨S512x128, .f32⟩ : BufTy).Contents (Elt F) → (⟨S128x256, .f32⟩ : BufTy).Contents (Elt F) → (⟨S512x256, .f32⟩ : BufTy).Contents (Elt F)),  -- %265 = stablehlo.dot_general %262, %264, contracting_dims = [1] x [0], precision = [DEFAULT, DEFAULT] : (tensor<512x128xf32>, tensor<128x256
    unary main_arg14 main_v266 ((extractStridedSlice S1x256 ![1, 0] · slices_S2x256_S1x256_1_0) : (⟨S2x256, .f32⟩ : BufTy).Contents (Elt F) → (⟨S1x256, .f32⟩ : BufTy).Contents (Elt F)),  -- %266 = stablehlo.slice %arg14 [1:2, 0:256] : (tensor<2x256xf32>) -> tensor<1x256xf32>  @ reference:61
    reshape main_v266 main_v267 rfl shapeCasts_S1x256_S256,  -- %267 = stablehlo.reshape %266 : (tensor<1x256xf32>) -> tensor<256xf32>  @ reference:61
    unary main_v267 main_v268 (broadcastInDim S1x256 ![1] bcast_S256_S1x256_1 : (⟨S256, .f32⟩ : BufTy).Contents (Elt F) → (⟨S1x256, .f32⟩ : BufTy).Contents (Elt F)),  -- %268 = stablehlo.broadcast_in_dim %267, dims = [1] : (tensor<256xf32>) -> tensor<1x256xf32>  @ reference:61
    unary main_v268 main_v269 (broadcastInDim S512x256 ![0, 1] bcast_S1x256_S512x256_0_1 : (⟨S1x256, .f32⟩ : BufTy).Contents (Elt F) → (⟨S512x256, .f32⟩ : BufTy).Contents (Elt F)),  -- %269 = stablehlo.broadcast_in_dim %268, dims = [0, 1] : (tensor<1x256xf32>) -> tensor<512x256xf32>  @ reference:61
    binary main_v265 main_v269 main_v270 (addf : (⟨S512x256, .f32⟩ : BufTy).Contents (Elt F) → (⟨S512x256, .f32⟩ : BufTy).Contents (Elt F) → (⟨S512x256, .f32⟩ : BufTy).Contents (Elt F)) ]  -- %270 = stablehlo.add %265, %269 : tensor<512x256xf32>  @ reference:61

/-- Stage 15 of the reference's @main: 51 operations. -/
abbrev rchunk15 : List (HloOp τ sig (Elt F)) :=
  [ unary main_arg15 main_v271 ((extractStridedSlice S1x256 ![1, 0] · slices_S2x256_S1x256_1_0) : (⟨S2x256, .f32⟩ : BufTy).Contents (Elt F) → (⟨S1x256, .f32⟩ : BufTy).Contents (Elt F)),  -- %271 = stablehlo.slice %arg15 [1:2, 0:256] : (tensor<2x256xf32>) -> tensor<1x256xf32>  @ reference:61
    reshape main_v271 main_v272 rfl shapeCasts_S1x256_S256,  -- %272 = stablehlo.reshape %271 : (tensor<1x256xf32>) -> tensor<256xf32>  @ reference:61
    unary main_arg16 main_v273 ((extractStridedSlice S1x256 ![1, 0] · slices_S2x256_S1x256_1_0) : (⟨S2x256, .f32⟩ : BufTy).Contents (Elt F) → (⟨S1x256, .f32⟩ : BufTy).Contents (Elt F)),  -- %273 = stablehlo.slice %arg16 [1:2, 0:256] : (tensor<2x256xf32>) -> tensor<1x256xf32>  @ reference:61
    reshape main_v273 main_v274 rfl shapeCasts_S1x256_S256,  -- %274 = stablehlo.reshape %273 : (tensor<1x256xf32>) -> tensor<256xf32>  @ reference:61
    nullary main_cst_34 (constant S_ .f32 0x00000000#32),  -- %cst_34 = stablehlo.constant dense<0.000000e+00> : tensor<f32>
    binary main_v270 main_cst_34 main_v275 ((fun x v => Host.reduceAdd x v reducesTo_S512x256_S256_d0 h_S_) : (⟨S512x256, .f32⟩ : BufTy).Contents (Elt F) → (⟨S_, .f32⟩ : BufTy).Contents (Elt F) → (⟨S256, .f32⟩ : BufTy).Contents (Elt F)),  -- %275 = stablehlo.reduce(%270 init: %cst_34) applies stablehlo.add across dimensions = [0] : (tensor<512x256xf32>, tensor<f32>) -> tensor<256
    nullary main_cst_35 (constant S_ .f32 0x44000000#32),  -- %cst_35 = stablehlo.constant dense<5.120000e+02> : tensor<f32>
    unary main_cst_35 main_v276 (broadcastInDim S256 ![] bcast_S_S256 : (⟨S_, .f32⟩ : BufTy).Contents (Elt F) → (⟨S256, .f32⟩ : BufTy).Contents (Elt F)),  -- %276 = stablehlo.broadcast_in_dim %cst_35, dims = [] : (tensor<f32>) -> tensor<256xf32>  @ reference:10
    binary main_v275 main_v276 main_v277 (Host.divf : (⟨S256, .f32⟩ : BufTy).Contents (Elt F) → (⟨S256, .f32⟩ : BufTy).Contents (Elt F) → (⟨S256, .f32⟩ : BufTy).Contents (Elt F)),  -- %277 = stablehlo.divide %275, %276 : tensor<256xf32>  @ reference:10
    nullary main_c_36 (constantI S_ 32 0#32),  -- %c_36 = stablehlo.constant dense<0> : tensor<i32>
    TRef.nullary main_call14.cst (constant S_ .f32 0x00000000#32),  -- %cst = stablehlo.constant dense<0.000000e+00> : tensor<f32>   [in fn_var_4 at main_call14]
    TRef.binary (.of main_v270) main_call14.cst main_call14.v0 (fun x v => Host.reduceAdd x v reducesTo_S512x256_S256_d0 h_S_),  -- %0 = stablehlo.reduce(%arg0 init: %cst) applies stablehlo.add across dimensions = [0] : (tensor<512x256xf32>, tensor<f32>) -> tensor<256xf32
    TRef.unary main_call14.v0 main_call14.v1 (broadcastInDim S1x256 ![1] bcast_S256_S1x256_1),  -- %1 = stablehlo.broadcast_in_dim %0, dims = [1] : (tensor<256xf32>) -> tensor<1x256xf32>   [in fn_var_4 at main_call14]
    TRef.nullary main_call14.cst_0 (constant S_ .f32 0x44000000#32),  -- %cst_0 = stablehlo.constant dense<5.120000e+02> : tensor<f32>   [in fn_var_4 at main_call14]
    TRef.unary main_call14.cst_0 main_call14.v2 (broadcastInDim S1x256 ![] bcast_S_S1x256),  -- %2 = stablehlo.broadcast_in_dim %cst_0, dims = [] : (tensor<f32>) -> tensor<1x256xf32>   [in fn_var_4 at main_call14]
    TRef.binary main_call14.v1 main_call14.v2 main_call14.v3 Host.divf,  -- %3 = stablehlo.divide %1, %2 : tensor<1x256xf32>   [in fn_var_4 at main_call14]
    TRef.unary main_call14.v3 main_call14.v4 (broadcastInDim S512x256 ![0, 1] bcast_S1x256_S512x256_0_1),  -- %4 = stablehlo.broadcast_in_dim %3, dims = [0, 1] : (tensor<1x256xf32>) -> tensor<512x256xf32>   [in fn_var_4 at main_call14]
    TRef.binary (.of main_v270) main_call14.v4 main_call14.v5 subf,  -- %5 = stablehlo.subtract %arg0, %4 : tensor<512x256xf32>   [in fn_var_4 at main_call14]
    TRef.binary main_call14.v5 main_call14.v5 main_call14.v6 mulf,  -- %6 = chlo.square %5 : tensor<512x256xf32> -> tensor<512x256xf32>   [in fn_var_4 at main_call14]
    TRef.unary (.of main_c_36) main_call14.v7 (sitofp .f32),  -- %7 = stablehlo.convert %arg1 : (tensor<i32>) -> tensor<f32>   [in fn_var_4 at main_call14]
    TRef.nullary main_call14.cst_1 (constant S_ .f32 0x44000000#32),  -- %cst_1 = stablehlo.constant dense<5.120000e+02> : tensor<f32>   [in fn_var_4 at main_call14]
    TRef.binary main_call14.cst_1 main_call14.v7 main_call14.v8 subf,  -- %8 = stablehlo.subtract %cst_1, %7 : tensor<f32>   [in fn_var_4 at main_call14]
    TRef.nullary main_call14.cst_2 (constant S_ .f32 0x00000000#32),  -- %cst_2 = stablehlo.constant dense<0.000000e+00> : tensor<f32>   [in fn_var_4 at main_call14]
    TRef.binary main_call14.v6 main_call14.cst_2 main_call14.v9 (fun x v => Host.reduceAdd x v reducesTo_S512x256_S256_d0 h_S_),  -- %9 = stablehlo.reduce(%6 init: %cst_2) applies stablehlo.add across dimensions = [0] : (tensor<512x256xf32>, tensor<f32>) -> tensor<256xf32>
    TRef.unary main_call14.v8 main_call14.v10 (broadcastInDim S256 ![] bcast_S_S256),  -- %10 = stablehlo.broadcast_in_dim %8, dims = [] : (tensor<f32>) -> tensor<256xf32>   [in fn_var_4 at main_call14]
    TRef.binary main_call14.v9 main_call14.v10 main_call14.v11 Host.divf,  -- %11 = stablehlo.divide %9, %10 : tensor<256xf32>   [in fn_var_4 at main_call14]
    TRef.nullary main_call14.cst_3 (constant S_ .f32 0x00000000#32),  -- %cst_3 = stablehlo.constant dense<0.000000e+00> : tensor<f32>   [in fn_var_4 at main_call14]
    TRef.binary main_call14.v8 main_call14.cst_3 main_call14.v12 (cmpf .ogt),  -- %12 = stablehlo.compare GT, %8, %cst_3, FLOAT : (tensor<f32>, tensor<f32>) -> tensor<i1>   [in fn_var_4 at main_call14]
    TRef.nullary main_call14.cst_4 (constant S_ .f32 0x7FC00000#32),  -- %cst_4 = stablehlo.constant dense<0x7FC00000> : tensor<f32>   [in fn_var_4 at main_call14]
    TRef.unary main_call14.cst_4 main_call14.call0.v0 id,  -- %0 = stablehlo.convert %arg2 : tensor<f32>   [in fn_where at main_call14.call0]   [in fn_var_4 at main_call14]
    TRef.unary main_call14.call0.v0 main_call14.call0.v1 (broadcastInDim S256 ![] bcast_S_S256),  -- %1 = stablehlo.broadcast_in_dim %0, dims = [] : (tensor<f32>) -> tensor<256xf32>   [in fn_where at main_call14.call0]   [in fn_var_4 at main
    TRef.ternary main_call14.v12 main_call14.v11 main_call14.call0.v1 main_call14.call0.v2 (fun p a b => select (broadcastInDim S256 ![] bcast_S_S256 p) a b),  -- %2 = stablehlo.select %arg0, %arg1, %1 : tensor<i1>, tensor<256xf32>   [in fn_where at main_call14.call0]   [in fn_var_4 at main_call14]
    unary main_v277 main_v279 (broadcastInDim S1x256 ![1] bcast_S256_S1x256_1 : (⟨S256, .f32⟩ : BufTy).Contents (Elt F) → (⟨S1x256, .f32⟩ : BufTy).Contents (Elt F)),  -- %279 = stablehlo.broadcast_in_dim %277, dims = [1] : (tensor<256xf32>) -> tensor<1x256xf32>  @ reference:12
    unary main_v279 main_v280 (broadcastInDim S512x256 ![0, 1] bcast_S1x256_S512x256_0_1 : (⟨S1x256, .f32⟩ : BufTy).Contents (Elt F) → (⟨S512x256, .f32⟩ : BufTy).Contents (Elt F)),  -- %280 = stablehlo.broadcast_in_dim %279, dims = [0, 1] : (tensor<1x256xf32>) -> tensor<512x256xf32>  @ reference:12
    binary main_v270 main_v280 main_v281 (subf : (⟨S512x256, .f32⟩ : BufTy).Contents (Elt F) → (⟨S512x256, .f32⟩ : BufTy).Contents (Elt F) → (⟨S512x256, .f32⟩ : BufTy).Contents (Elt F)),  -- %281 = stablehlo.subtract %270, %280 : tensor<512x256xf32>  @ reference:12
    unary main_v272 main_v282 (broadcastInDim S1x256 ![1] bcast_S256_S1x256_1 : (⟨S256, .f32⟩ : BufTy).Contents (Elt F) → (⟨S1x256, .f32⟩ : BufTy).Contents (Elt F)),  -- %282 = stablehlo.broadcast_in_dim %272, dims = [1] : (tensor<256xf32>) -> tensor<1x256xf32>  @ reference:12
    unary main_v282 main_v283 (broadcastInDim S512x256 ![0, 1] bcast_S1x256_S512x256_0_1 : (⟨S1x256, .f32⟩ : BufTy).Contents (Elt F) → (⟨S512x256, .f32⟩ : BufTy).Contents (Elt F)),  -- %283 = stablehlo.broadcast_in_dim %282, dims = [0, 1] : (tensor<1x256xf32>) -> tensor<512x256xf32>  @ reference:12
    binary main_v283 main_v281 main_v284 (mulf : (⟨S512x256, .f32⟩ : BufTy).Contents (Elt F) → (⟨S512x256, .f32⟩ : BufTy).Contents (Elt F) → (⟨S512x256, .f32⟩ : BufTy).Contents (Elt F)),  -- %284 = stablehlo.multiply %283, %281 : tensor<512x256xf32>  @ reference:12
    nullary main_cst_37 (constant S_ .f32 0x3727C5AC#32),  -- %cst_37 = stablehlo.constant dense<9.99999974E-6> : tensor<f32>
    unary main_cst_37 main_v285 (broadcastInDim S256 ![] bcast_S_S256 : (⟨S_, .f32⟩ : BufTy).Contents (Elt F) → (⟨S256, .f32⟩ : BufTy).Contents (Elt F)),  -- %285 = stablehlo.broadcast_in_dim %cst_37, dims = [] : (tensor<f32>) -> tensor<256xf32>  @ reference:12
    binary main_v278 main_v285 main_v286 (addf : (⟨S256, .f32⟩ : BufTy).Contents (Elt F) → (⟨S256, .f32⟩ : BufTy).Contents (Elt F) → (⟨S256, .f32⟩ : BufTy).Contents (Elt F)),  -- %286 = stablehlo.add %278, %285 : tensor<256xf32>  @ reference:12
    unary main_v286 main_v287 (Host.rsqrt : (⟨S256, .f32⟩ : BufTy).Contents (Elt F) → (⟨S256, .f32⟩ : BufTy).Contents (Elt F)),  -- %287 = stablehlo.rsqrt %286 : tensor<256xf32>  @ reference:12
    unary main_v287 main_v288 (broadcastInDim S1x256 ![1] bcast_S256_S1x256_1 : (⟨S256, .f32⟩ : BufTy).Contents (Elt F) → (⟨S1x256, .f32⟩ : BufTy).Contents (Elt F)),  -- %288 = stablehlo.broadcast_in_dim %287, dims = [1] : (tensor<256xf32>) -> tensor<1x256xf32>  @ reference:12
    unary main_v288 main_v289 (broadcastInDim S512x256 ![0, 1] bcast_S1x256_S512x256_0_1 : (⟨S1x256, .f32⟩ : BufTy).Contents (Elt F) → (⟨S512x256, .f32⟩ : BufTy).Contents (Elt F)),  -- %289 = stablehlo.broadcast_in_dim %288, dims = [0, 1] : (tensor<1x256xf32>) -> tensor<512x256xf32>  @ reference:12
    binary main_v284 main_v289 main_v290 (mulf : (⟨S512x256, .f32⟩ : BufTy).Contents (Elt F) → (⟨S512x256, .f32⟩ : BufTy).Contents (Elt F) → (⟨S512x256, .f32⟩ : BufTy).Contents (Elt F)),  -- %290 = stablehlo.multiply %284, %289 : tensor<512x256xf32>  @ reference:12
    unary main_v274 main_v291 (broadcastInDim S1x256 ![1] bcast_S256_S1x256_1 : (⟨S256, .f32⟩ : BufTy).Contents (Elt F) → (⟨S1x256, .f32⟩ : BufTy).Contents (Elt F)),  -- %291 = stablehlo.broadcast_in_dim %274, dims = [1] : (tensor<256xf32>) -> tensor<1x256xf32>  @ reference:12
    unary main_v291 main_v292 (broadcastInDim S512x256 ![0, 1] bcast_S1x256_S512x256_0_1 : (⟨S1x256, .f32⟩ : BufTy).Contents (Elt F) → (⟨S512x256, .f32⟩ : BufTy).Contents (Elt F)),  -- %292 = stablehlo.broadcast_in_dim %291, dims = [0, 1] : (tensor<1x256xf32>) -> tensor<512x256xf32>  @ reference:12
    binary main_v290 main_v292 main_v293 (addf : (⟨S512x256, .f32⟩ : BufTy).Contents (Elt F) → (⟨S512x256, .f32⟩ : BufTy).Contents (Elt F) → (⟨S512x256, .f32⟩ : BufTy).Contents (Elt F)),  -- %293 = stablehlo.add %290, %292 : tensor<512x256xf32>  @ reference:12
    TRef.nullary main_call15.cst (constant S_ .f32 0x00000000#32),  -- %cst = stablehlo.constant dense<0.000000e+00> : tensor<f32>   [in fn_relu_5 at main_call15]
    TRef.unary main_call15.cst main_call15.v0 (broadcastInDim S512x256 ![] bcast_S_S512x256),  -- %0 = stablehlo.broadcast_in_dim %cst, dims = [] : (tensor<f32>) -> tensor<512x256xf32>   [in fn_relu_5 at main_call15]
    TRef.binary (.of main_v293) main_call15.v0 main_call15.v1 maximumf ]  -- %1 = stablehlo.maximum %arg0, %0 : tensor<512x256xf32>   [in fn_relu_5 at main_call15]

/-- Stage 16 of the reference's @main: 8 operations. -/
abbrev rchunk16 : List (HloOp τ sig (Elt F)) :=
  [ unary main_arg17 main_v295 ((extractStridedSlice S1x256x128 ![1, 0, 0] · slices_S2x256x128_S1x256x128_1_0_0) : (⟨S2x256x128, .f32⟩ : BufTy).Contents (Elt F) → (⟨S1x256x128, .f32⟩ : BufTy).Contents (Elt F)),  -- %295 = stablehlo.slice %arg17 [1:2, 0:256, 0:128] : (tensor<2x256x128xf32>) -> tensor<1x256x128xf32>  @ reference:62
    reshape main_v295 main_v296 rfl shapeCasts_S1x256x128_S256x128,  -- %296 = stablehlo.reshape %295 : (tensor<1x256x128xf32>) -> tensor<256x128xf32>  @ reference:62
    binary main_v294 main_v296 main_v297 ((fun l r => Host.dotGeneral dot_S512x256_S256x128_S512x128_1_0_0_1_n_n none l r) : (⟨S512x256, .f32⟩ : BufTy).Contents (Elt F) → (⟨S256x128, .f32⟩ : BufTy).Contents (Elt F) → (⟨S512x128, .f32⟩ : BufTy).Contents (Elt F)),  -- %297 = stablehlo.dot_general %294, %296, contracting_dims = [1] x [0], precision = [DEFAULT, DEFAULT] : (tensor<512x256xf32>, tensor<256x128
    unary main_arg18 main_v298 ((extractStridedSlice S1x128 ![1, 0] · slices_S2x128_S1x128_1_0) : (⟨S2x128, .f32⟩ : BufTy).Contents (Elt F) → (⟨S1x128, .f32⟩ : BufTy).Contents (Elt F)),  -- %298 = stablehlo.slice %arg18 [1:2, 0:128] : (tensor<2x128xf32>) -> tensor<1x128xf32>  @ reference:62
    reshape main_v298 main_v299 rfl shapeCasts_S1x128_S128,  -- %299 = stablehlo.reshape %298 : (tensor<1x128xf32>) -> tensor<128xf32>  @ reference:62
    unary main_v299 main_v300 (broadcastInDim S1x128 ![1] bcast_S128_S1x128_1 : (⟨S128, .f32⟩ : BufTy).Contents (Elt F) → (⟨S1x128, .f32⟩ : BufTy).Contents (Elt F)),  -- %300 = stablehlo.broadcast_in_dim %299, dims = [1] : (tensor<128xf32>) -> tensor<1x128xf32>  @ reference:62
    unary main_v300 main_v301 (broadcastInDim S512x128 ![0, 1] bcast_S1x128_S512x128_0_1 : (⟨S1x128, .f32⟩ : BufTy).Contents (Elt F) → (⟨S512x128, .f32⟩ : BufTy).Contents (Elt F)),  -- %301 = stablehlo.broadcast_in_dim %300, dims = [0, 1] : (tensor<1x128xf32>) -> tensor<512x128xf32>  @ reference:62
    binary main_v297 main_v301 main_v302 (addf : (⟨S512x128, .f32⟩ : BufTy).Contents (Elt F) → (⟨S512x128, .f32⟩ : BufTy).Contents (Elt F) → (⟨S512x128, .f32⟩ : BufTy).Contents (Elt F)) ]  -- %302 = stablehlo.add %297, %301 : tensor<512x128xf32>  @ reference:62

/-- Stage 17 of the reference's @main: 51 operations. -/
abbrev rchunk17 : List (HloOp τ sig (Elt F)) :=
  [ unary main_arg19 main_v303 ((extractStridedSlice S1x128 ![1, 0] · slices_S2x128_S1x128_1_0) : (⟨S2x128, .f32⟩ : BufTy).Contents (Elt F) → (⟨S1x128, .f32⟩ : BufTy).Contents (Elt F)),  -- %303 = stablehlo.slice %arg19 [1:2, 0:128] : (tensor<2x128xf32>) -> tensor<1x128xf32>  @ reference:62
    reshape main_v303 main_v304 rfl shapeCasts_S1x128_S128,  -- %304 = stablehlo.reshape %303 : (tensor<1x128xf32>) -> tensor<128xf32>  @ reference:62
    unary main_arg20 main_v305 ((extractStridedSlice S1x128 ![1, 0] · slices_S2x128_S1x128_1_0) : (⟨S2x128, .f32⟩ : BufTy).Contents (Elt F) → (⟨S1x128, .f32⟩ : BufTy).Contents (Elt F)),  -- %305 = stablehlo.slice %arg20 [1:2, 0:128] : (tensor<2x128xf32>) -> tensor<1x128xf32>  @ reference:62
    reshape main_v305 main_v306 rfl shapeCasts_S1x128_S128,  -- %306 = stablehlo.reshape %305 : (tensor<1x128xf32>) -> tensor<128xf32>  @ reference:62
    nullary main_cst_38 (constant S_ .f32 0x00000000#32),  -- %cst_38 = stablehlo.constant dense<0.000000e+00> : tensor<f32>
    binary main_v302 main_cst_38 main_v307 ((fun x v => Host.reduceAdd x v reducesTo_S512x128_S128_d0 h_S_) : (⟨S512x128, .f32⟩ : BufTy).Contents (Elt F) → (⟨S_, .f32⟩ : BufTy).Contents (Elt F) → (⟨S128, .f32⟩ : BufTy).Contents (Elt F)),  -- %307 = stablehlo.reduce(%302 init: %cst_38) applies stablehlo.add across dimensions = [0] : (tensor<512x128xf32>, tensor<f32>) -> tensor<128
    nullary main_cst_39 (constant S_ .f32 0x44000000#32),  -- %cst_39 = stablehlo.constant dense<5.120000e+02> : tensor<f32>
    unary main_cst_39 main_v308 (broadcastInDim S128 ![] bcast_S_S128 : (⟨S_, .f32⟩ : BufTy).Contents (Elt F) → (⟨S128, .f32⟩ : BufTy).Contents (Elt F)),  -- %308 = stablehlo.broadcast_in_dim %cst_39, dims = [] : (tensor<f32>) -> tensor<128xf32>  @ reference:10
    binary main_v307 main_v308 main_v309 (Host.divf : (⟨S128, .f32⟩ : BufTy).Contents (Elt F) → (⟨S128, .f32⟩ : BufTy).Contents (Elt F) → (⟨S128, .f32⟩ : BufTy).Contents (Elt F)),  -- %309 = stablehlo.divide %307, %308 : tensor<128xf32>  @ reference:10
    nullary main_c_40 (constantI S_ 32 0#32),  -- %c_40 = stablehlo.constant dense<0> : tensor<i32>
    TRef.nullary main_call16.cst (constant S_ .f32 0x00000000#32),  -- %cst = stablehlo.constant dense<0.000000e+00> : tensor<f32>   [in fn_var_6 at main_call16]
    TRef.binary (.of main_v302) main_call16.cst main_call16.v0 (fun x v => Host.reduceAdd x v reducesTo_S512x128_S128_d0 h_S_),  -- %0 = stablehlo.reduce(%arg0 init: %cst) applies stablehlo.add across dimensions = [0] : (tensor<512x128xf32>, tensor<f32>) -> tensor<128xf32
    TRef.unary main_call16.v0 main_call16.v1 (broadcastInDim S1x128 ![1] bcast_S128_S1x128_1),  -- %1 = stablehlo.broadcast_in_dim %0, dims = [1] : (tensor<128xf32>) -> tensor<1x128xf32>   [in fn_var_6 at main_call16]
    TRef.nullary main_call16.cst_0 (constant S_ .f32 0x44000000#32),  -- %cst_0 = stablehlo.constant dense<5.120000e+02> : tensor<f32>   [in fn_var_6 at main_call16]
    TRef.unary main_call16.cst_0 main_call16.v2 (broadcastInDim S1x128 ![] bcast_S_S1x128),  -- %2 = stablehlo.broadcast_in_dim %cst_0, dims = [] : (tensor<f32>) -> tensor<1x128xf32>   [in fn_var_6 at main_call16]
    TRef.binary main_call16.v1 main_call16.v2 main_call16.v3 Host.divf,  -- %3 = stablehlo.divide %1, %2 : tensor<1x128xf32>   [in fn_var_6 at main_call16]
    TRef.unary main_call16.v3 main_call16.v4 (broadcastInDim S512x128 ![0, 1] bcast_S1x128_S512x128_0_1),  -- %4 = stablehlo.broadcast_in_dim %3, dims = [0, 1] : (tensor<1x128xf32>) -> tensor<512x128xf32>   [in fn_var_6 at main_call16]
    TRef.binary (.of main_v302) main_call16.v4 main_call16.v5 subf,  -- %5 = stablehlo.subtract %arg0, %4 : tensor<512x128xf32>   [in fn_var_6 at main_call16]
    TRef.binary main_call16.v5 main_call16.v5 main_call16.v6 mulf,  -- %6 = chlo.square %5 : tensor<512x128xf32> -> tensor<512x128xf32>   [in fn_var_6 at main_call16]
    TRef.unary (.of main_c_40) main_call16.v7 (sitofp .f32),  -- %7 = stablehlo.convert %arg1 : (tensor<i32>) -> tensor<f32>   [in fn_var_6 at main_call16]
    TRef.nullary main_call16.cst_1 (constant S_ .f32 0x44000000#32),  -- %cst_1 = stablehlo.constant dense<5.120000e+02> : tensor<f32>   [in fn_var_6 at main_call16]
    TRef.binary main_call16.cst_1 main_call16.v7 main_call16.v8 subf,  -- %8 = stablehlo.subtract %cst_1, %7 : tensor<f32>   [in fn_var_6 at main_call16]
    TRef.nullary main_call16.cst_2 (constant S_ .f32 0x00000000#32),  -- %cst_2 = stablehlo.constant dense<0.000000e+00> : tensor<f32>   [in fn_var_6 at main_call16]
    TRef.binary main_call16.v6 main_call16.cst_2 main_call16.v9 (fun x v => Host.reduceAdd x v reducesTo_S512x128_S128_d0 h_S_),  -- %9 = stablehlo.reduce(%6 init: %cst_2) applies stablehlo.add across dimensions = [0] : (tensor<512x128xf32>, tensor<f32>) -> tensor<128xf32>
    TRef.unary main_call16.v8 main_call16.v10 (broadcastInDim S128 ![] bcast_S_S128),  -- %10 = stablehlo.broadcast_in_dim %8, dims = [] : (tensor<f32>) -> tensor<128xf32>   [in fn_var_6 at main_call16]
    TRef.binary main_call16.v9 main_call16.v10 main_call16.v11 Host.divf,  -- %11 = stablehlo.divide %9, %10 : tensor<128xf32>   [in fn_var_6 at main_call16]
    TRef.nullary main_call16.cst_3 (constant S_ .f32 0x00000000#32),  -- %cst_3 = stablehlo.constant dense<0.000000e+00> : tensor<f32>   [in fn_var_6 at main_call16]
    TRef.binary main_call16.v8 main_call16.cst_3 main_call16.v12 (cmpf .ogt),  -- %12 = stablehlo.compare GT, %8, %cst_3, FLOAT : (tensor<f32>, tensor<f32>) -> tensor<i1>   [in fn_var_6 at main_call16]
    TRef.nullary main_call16.cst_4 (constant S_ .f32 0x7FC00000#32),  -- %cst_4 = stablehlo.constant dense<0x7FC00000> : tensor<f32>   [in fn_var_6 at main_call16]
    TRef.unary main_call16.cst_4 main_call16.call0.v0 id,  -- %0 = stablehlo.convert %arg2 : tensor<f32>   [in fn_where_2 at main_call16.call0]   [in fn_var_6 at main_call16]
    TRef.unary main_call16.call0.v0 main_call16.call0.v1 (broadcastInDim S128 ![] bcast_S_S128),  -- %1 = stablehlo.broadcast_in_dim %0, dims = [] : (tensor<f32>) -> tensor<128xf32>   [in fn_where_2 at main_call16.call0]   [in fn_var_6 at ma
    TRef.ternary main_call16.v12 main_call16.v11 main_call16.call0.v1 main_call16.call0.v2 (fun p a b => select (broadcastInDim S128 ![] bcast_S_S128 p) a b),  -- %2 = stablehlo.select %arg0, %arg1, %1 : tensor<i1>, tensor<128xf32>   [in fn_where_2 at main_call16.call0]   [in fn_var_6 at main_call16]
    unary main_v309 main_v311 (broadcastInDim S1x128 ![1] bcast_S128_S1x128_1 : (⟨S128, .f32⟩ : BufTy).Contents (Elt F) → (⟨S1x128, .f32⟩ : BufTy).Contents (Elt F)),  -- %311 = stablehlo.broadcast_in_dim %309, dims = [1] : (tensor<128xf32>) -> tensor<1x128xf32>  @ reference:12
    unary main_v311 main_v312 (broadcastInDim S512x128 ![0, 1] bcast_S1x128_S512x128_0_1 : (⟨S1x128, .f32⟩ : BufTy).Contents (Elt F) → (⟨S512x128, .f32⟩ : BufTy).Contents (Elt F)),  -- %312 = stablehlo.broadcast_in_dim %311, dims = [0, 1] : (tensor<1x128xf32>) -> tensor<512x128xf32>  @ reference:12
    binary main_v302 main_v312 main_v313 (subf : (⟨S512x128, .f32⟩ : BufTy).Contents (Elt F) → (⟨S512x128, .f32⟩ : BufTy).Contents (Elt F) → (⟨S512x128, .f32⟩ : BufTy).Contents (Elt F)),  -- %313 = stablehlo.subtract %302, %312 : tensor<512x128xf32>  @ reference:12
    unary main_v304 main_v314 (broadcastInDim S1x128 ![1] bcast_S128_S1x128_1 : (⟨S128, .f32⟩ : BufTy).Contents (Elt F) → (⟨S1x128, .f32⟩ : BufTy).Contents (Elt F)),  -- %314 = stablehlo.broadcast_in_dim %304, dims = [1] : (tensor<128xf32>) -> tensor<1x128xf32>  @ reference:12
    unary main_v314 main_v315 (broadcastInDim S512x128 ![0, 1] bcast_S1x128_S512x128_0_1 : (⟨S1x128, .f32⟩ : BufTy).Contents (Elt F) → (⟨S512x128, .f32⟩ : BufTy).Contents (Elt F)),  -- %315 = stablehlo.broadcast_in_dim %314, dims = [0, 1] : (tensor<1x128xf32>) -> tensor<512x128xf32>  @ reference:12
    binary main_v315 main_v313 main_v316 (mulf : (⟨S512x128, .f32⟩ : BufTy).Contents (Elt F) → (⟨S512x128, .f32⟩ : BufTy).Contents (Elt F) → (⟨S512x128, .f32⟩ : BufTy).Contents (Elt F)),  -- %316 = stablehlo.multiply %315, %313 : tensor<512x128xf32>  @ reference:12
    nullary main_cst_41 (constant S_ .f32 0x3727C5AC#32),  -- %cst_41 = stablehlo.constant dense<9.99999974E-6> : tensor<f32>
    unary main_cst_41 main_v317 (broadcastInDim S128 ![] bcast_S_S128 : (⟨S_, .f32⟩ : BufTy).Contents (Elt F) → (⟨S128, .f32⟩ : BufTy).Contents (Elt F)),  -- %317 = stablehlo.broadcast_in_dim %cst_41, dims = [] : (tensor<f32>) -> tensor<128xf32>  @ reference:12
    binary main_v310 main_v317 main_v318 (addf : (⟨S128, .f32⟩ : BufTy).Contents (Elt F) → (⟨S128, .f32⟩ : BufTy).Contents (Elt F) → (⟨S128, .f32⟩ : BufTy).Contents (Elt F)),  -- %318 = stablehlo.add %310, %317 : tensor<128xf32>  @ reference:12
    unary main_v318 main_v319 (Host.rsqrt : (⟨S128, .f32⟩ : BufTy).Contents (Elt F) → (⟨S128, .f32⟩ : BufTy).Contents (Elt F)),  -- %319 = stablehlo.rsqrt %318 : tensor<128xf32>  @ reference:12
    unary main_v319 main_v320 (broadcastInDim S1x128 ![1] bcast_S128_S1x128_1 : (⟨S128, .f32⟩ : BufTy).Contents (Elt F) → (⟨S1x128, .f32⟩ : BufTy).Contents (Elt F)),  -- %320 = stablehlo.broadcast_in_dim %319, dims = [1] : (tensor<128xf32>) -> tensor<1x128xf32>  @ reference:12
    unary main_v320 main_v321 (broadcastInDim S512x128 ![0, 1] bcast_S1x128_S512x128_0_1 : (⟨S1x128, .f32⟩ : BufTy).Contents (Elt F) → (⟨S512x128, .f32⟩ : BufTy).Contents (Elt F)),  -- %321 = stablehlo.broadcast_in_dim %320, dims = [0, 1] : (tensor<1x128xf32>) -> tensor<512x128xf32>  @ reference:12
    binary main_v316 main_v321 main_v322 (mulf : (⟨S512x128, .f32⟩ : BufTy).Contents (Elt F) → (⟨S512x128, .f32⟩ : BufTy).Contents (Elt F) → (⟨S512x128, .f32⟩ : BufTy).Contents (Elt F)),  -- %322 = stablehlo.multiply %316, %321 : tensor<512x128xf32>  @ reference:12
    unary main_v306 main_v323 (broadcastInDim S1x128 ![1] bcast_S128_S1x128_1 : (⟨S128, .f32⟩ : BufTy).Contents (Elt F) → (⟨S1x128, .f32⟩ : BufTy).Contents (Elt F)),  -- %323 = stablehlo.broadcast_in_dim %306, dims = [1] : (tensor<128xf32>) -> tensor<1x128xf32>  @ reference:12
    unary main_v323 main_v324 (broadcastInDim S512x128 ![0, 1] bcast_S1x128_S512x128_0_1 : (⟨S1x128, .f32⟩ : BufTy).Contents (Elt F) → (⟨S512x128, .f32⟩ : BufTy).Contents (Elt F)),  -- %324 = stablehlo.broadcast_in_dim %323, dims = [0, 1] : (tensor<1x128xf32>) -> tensor<512x128xf32>  @ reference:12
    binary main_v322 main_v324 main_v325 (addf : (⟨S512x128, .f32⟩ : BufTy).Contents (Elt F) → (⟨S512x128, .f32⟩ : BufTy).Contents (Elt F) → (⟨S512x128, .f32⟩ : BufTy).Contents (Elt F)),  -- %325 = stablehlo.add %322, %324 : tensor<512x128xf32>  @ reference:12
    TRef.nullary main_call17.cst (constant S_ .f32 0x00000000#32),  -- %cst = stablehlo.constant dense<0.000000e+00> : tensor<f32>   [in fn_relu_7 at main_call17]
    TRef.unary main_call17.cst main_call17.v0 (broadcastInDim S512x128 ![] bcast_S_S512x128),  -- %0 = stablehlo.broadcast_in_dim %cst, dims = [] : (tensor<f32>) -> tensor<512x128xf32>   [in fn_relu_7 at main_call17]
    TRef.binary (.of main_v325) main_call17.v0 main_call17.v1 maximumf ]  -- %1 = stablehlo.maximum %arg0, %0 : tensor<512x128xf32>   [in fn_relu_7 at main_call17]

/-- Stage 18 of the reference's @main: 31 operations. -/
abbrev rchunk18 : List (HloOp τ sig (Elt F)) :=
  [ nullary main_c_42 (constantI S_ 32 0#32),  -- %c_42 = stablehlo.constant dense<0> : tensor<i32>
    unary main_c_42 main_v327 (broadcastInDim S50000 ![] bcast_S_S50000 : (⟨S_, .i32⟩ : BufTy).Contents (Elt F) → (⟨S50000, .i32⟩ : BufTy).Contents (Elt F)),  -- %327 = stablehlo.broadcast_in_dim %c_42, dims = [] : (tensor<i32>) -> tensor<50000xi32>  @ reference:51
    binary main_arg22 main_v327 main_v328 (cmpi .slt : (⟨S50000, .i32⟩ : BufTy).Contents (Elt F) → (⟨S50000, .i32⟩ : BufTy).Contents (Elt F) → (⟨S50000, .i1⟩ : BufTy).Contents (Elt F)),  -- %328 = stablehlo.compare LT, %arg22, %327, SIGNED : (tensor<50000xi32>, tensor<50000xi32>) -> tensor<50000xi1>  @ reference:51
    nullary main_c_43 (constantI S_ 32 512#32),  -- %c_43 = stablehlo.constant dense<512> : tensor<i32>
    unary main_c_43 main_v329 (broadcastInDim S50000 ![] bcast_S_S50000 : (⟨S_, .i32⟩ : BufTy).Contents (Elt F) → (⟨S50000, .i32⟩ : BufTy).Contents (Elt F)),  -- %329 = stablehlo.broadcast_in_dim %c_43, dims = [] : (tensor<i32>) -> tensor<50000xi32>  @ reference:51
    binary main_arg22 main_v329 main_v330 (addi : (⟨S50000, .i32⟩ : BufTy).Contents (Elt F) → (⟨S50000, .i32⟩ : BufTy).Contents (Elt F) → (⟨S50000, .i32⟩ : BufTy).Contents (Elt F)),  -- %330 = stablehlo.add %arg22, %329 : tensor<50000xi32>  @ reference:51
    ternary main_v328 main_v330 main_arg22 main_v331 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),  -- %331 = stablehlo.select %328, %330, %arg22 : tensor<50000xi1>, tensor<50000xi32>  @ reference:51
    unary main_v331 main_v332 (broadcastInDim S50000x1 ![0] bcast_S50000_S50000x1_0 : (⟨S50000, .i32⟩ : BufTy).Contents (Elt F) → (⟨S50000x1, .i32⟩ : BufTy).Contents (Elt F)),  -- %332 = stablehlo.broadcast_in_dim %331, dims = [0] : (tensor<50000xi32>) -> tensor<50000x1xi32>  @ reference:51
    binary main_v326 main_v332 main_v333 ((fun x i => Host.gather gather_S512x128_S50000x1_S50000x128_1_0_n_n_0_1_1128 x i) : (⟨S512x128, .f32⟩ : BufTy).Contents (Elt F) → (⟨S50000x1, .i32⟩ : BufTy).Contents (Elt F) → (⟨S50000x128, .f32⟩ : BufTy).Contents (Elt F)),  -- %333 = "stablehlo.gather"(%326, %332) <{dimension_numbers = #stablehlo.gather<offset_dims = [1], collapsed_slice_dims = [0], start_index_map
    binary main_v258 main_v333 main_v334 (addf : (⟨S50000x128, .f32⟩ : BufTy).Contents (Elt F) → (⟨S50000x128, .f32⟩ : BufTy).Contents (Elt F) → (⟨S50000x128, .f32⟩ : BufTy).Contents (Elt F)),  -- %334 = stablehlo.add %258, %333 : tensor<50000x128xf32>  @ reference:51
    unary main_arg3 main_v335 ((extractStridedSlice S1x8x128 ![2, 0, 0] · slices_S3x8x128_S1x8x128_2_0_0) : (⟨S3x8x128, .f32⟩ : BufTy).Contents (Elt F) → (⟨S1x8x128, .f32⟩ : BufTy).Contents (Elt F)),  -- %335 = stablehlo.slice %arg3 [2:3, 0:8, 0:128] : (tensor<3x8x128xf32>) -> tensor<1x8x128xf32>  @ reference:52
    reshape main_v335 main_v336 rfl shapeCasts_S1x8x128_S8x128,  -- %336 = stablehlo.reshape %335 : (tensor<1x8x128xf32>) -> tensor<8x128xf32>  @ reference:52
    binary main_arg1 main_v336 main_v337 ((fun l r => Host.dotGeneral dot_S800000x8_S8x128_S800000x128_1_0_0_1_n_n none l r) : (⟨S800000x8, .f32⟩ : BufTy).Contents (Elt F) → (⟨S8x128, .f32⟩ : BufTy).Contents (Elt F) → (⟨S800000x128, .f32⟩ : BufTy).Contents (Elt F)),  -- %337 = stablehlo.dot_general %arg1, %336, contracting_dims = [1] x [0], precision = [DEFAULT, DEFAULT] : (tensor<800000x8xf32>, tensor<8x128
    unary main_arg4 main_v338 ((extractStridedSlice S1x128 ![2, 0] · slices_S3x128_S1x128_2_0) : (⟨S3x128, .f32⟩ : BufTy).Contents (Elt F) → (⟨S1x128, .f32⟩ : BufTy).Contents (Elt F)),  -- %338 = stablehlo.slice %arg4 [2:3, 0:128] : (tensor<3x128xf32>) -> tensor<1x128xf32>  @ reference:52
    reshape main_v338 main_v339 rfl shapeCasts_S1x128_S128,  -- %339 = stablehlo.reshape %338 : (tensor<1x128xf32>) -> tensor<128xf32>  @ reference:52
    unary main_v339 main_v340 (broadcastInDim S1x128 ![1] bcast_S128_S1x128_1 : (⟨S128, .f32⟩ : BufTy).Contents (Elt F) → (⟨S1x128, .f32⟩ : BufTy).Contents (Elt F)),  -- %340 = stablehlo.broadcast_in_dim %339, dims = [1] : (tensor<128xf32>) -> tensor<1x128xf32>  @ reference:52
    unary main_v340 main_v341 (broadcastInDim S800000x128 ![0, 1] bcast_S1x128_S800000x128_0_1 : (⟨S1x128, .f32⟩ : BufTy).Contents (Elt F) → (⟨S800000x128, .f32⟩ : BufTy).Contents (Elt F)),  -- %341 = stablehlo.broadcast_in_dim %340, dims = [0, 1] : (tensor<1x128xf32>) -> tensor<800000x128xf32>  @ reference:52
    binary main_v337 main_v341 main_v342 (addf : (⟨S800000x128, .f32⟩ : BufTy).Contents (Elt F) → (⟨S800000x128, .f32⟩ : BufTy).Contents (Elt F) → (⟨S800000x128, .f32⟩ : BufTy).Contents (Elt F)),  -- %342 = stablehlo.add %337, %341 : tensor<800000x128xf32>  @ reference:52
    nullary main_c_44 (constantI S_ 32 0#32),  -- %c_44 = stablehlo.constant dense<0> : tensor<i32>
    unary main_c_44 main_v343 (broadcastInDim S800000 ![] bcast_S_S800000 : (⟨S_, .i32⟩ : BufTy).Contents (Elt F) → (⟨S800000, .i32⟩ : BufTy).Contents (Elt F)),  -- %343 = stablehlo.broadcast_in_dim %c_44, dims = [] : (tensor<i32>) -> tensor<800000xi32>  @ reference:53
    binary main_v1 main_v343 main_v344 (cmpi .slt : (⟨S800000, .i32⟩ : BufTy).Contents (Elt F) → (⟨S800000, .i32⟩ : BufTy).Contents (Elt F) → (⟨S800000, .i1⟩ : BufTy).Contents (Elt F)),  -- %344 = stablehlo.compare LT, %1, %343, SIGNED : (tensor<800000xi32>, tensor<800000xi32>) -> tensor<800000xi1>  @ reference:53
    nullary main_c_45 (constantI S_ 32 50000#32),  -- %c_45 = stablehlo.constant dense<50000> : tensor<i32>
    unary main_c_45 main_v345 (broadcastInDim S800000 ![] bcast_S_S800000 : (⟨S_, .i32⟩ : BufTy).Contents (Elt F) → (⟨S800000, .i32⟩ : BufTy).Contents (Elt F)),  -- %345 = stablehlo.broadcast_in_dim %c_45, dims = [] : (tensor<i32>) -> tensor<800000xi32>  @ reference:53
    binary main_v1 main_v345 main_v346 (addi : (⟨S800000, .i32⟩ : BufTy).Contents (Elt F) → (⟨S800000, .i32⟩ : BufTy).Contents (Elt F) → (⟨S800000, .i32⟩ : BufTy).Contents (Elt F)),  -- %346 = stablehlo.add %1, %345 : tensor<800000xi32>  @ reference:53
    ternary main_v344 main_v346 main_v1 main_v347 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),  -- %347 = stablehlo.select %344, %346, %1 : tensor<800000xi1>, tensor<800000xi32>  @ reference:53
    unary main_v347 main_v348 (broadcastInDim S800000x1 ![0] bcast_S800000_S800000x1_0 : (⟨S800000, .i32⟩ : BufTy).Contents (Elt F) → (⟨S800000x1, .i32⟩ : BufTy).Contents (Elt F)),  -- %348 = stablehlo.broadcast_in_dim %347, dims = [0] : (tensor<800000xi32>) -> tensor<800000x1xi32>  @ reference:53
    binary main_v334 main_v348 main_v349 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),  -- %349 = "stablehlo.gather"(%334, %348) <{dimension_numbers = #stablehlo.gather<offset_dims = [1], collapsed_slice_dims = [0], start_index_map
    binary main_v349 main_v342 main_v350 (addf : (⟨S800000x128, .f32⟩ : BufTy).Contents (Elt F) → (⟨S800000x128, .f32⟩ : BufTy).Contents (Elt F) → (⟨S800000x128, .f32⟩ : BufTy).Contents (Elt F)),  -- %350 = stablehlo.add %349, %342 : tensor<800000x128xf32>  @ reference:53
    TRef.nullary main_call18.cst (constant S_ .f32 0x00000000#32),  -- %cst = stablehlo.constant dense<0.000000e+00> : tensor<f32>   [in fn_relu at main_call18]
    TRef.unary main_call18.cst main_call18.v0 (broadcastInDim S800000x128 ![] bcast_S_S800000x128),  -- %0 = stablehlo.broadcast_in_dim %cst, dims = [] : (tensor<f32>) -> tensor<800000x128xf32>   [in fn_relu at main_call18]
    TRef.binary (.of main_v350) main_call18.v0 main_call18.v1 maximumf ]  -- %1 = stablehlo.maximum %arg0, %0 : tensor<800000x128xf32>   [in fn_relu at main_call18]

/-- Stage 19 of the reference's @main: 13 operations. -/
abbrev rchunk19 : List (HloOp τ sig (Elt F)) :=
  [ nullary main_cst_46 (constant S_ .f32 0x00000000#32),  -- %cst_46 = stablehlo.constant dense<0.000000e+00> : tensor<f32>
    unary main_cst_46 main_v352 (broadcastInDim S50000x128 ![] bcast_S_S50000x128 : (⟨S_, .f32⟩ : BufTy).Contents (Elt F) → (⟨S50000x128, .f32⟩ : BufTy).Contents (Elt F)),  -- %352 = stablehlo.broadcast_in_dim %cst_46, dims = [] : (tensor<f32>) -> tensor<50000x128xf32>  @ reference:54
    unary main_v3 main_v353 (broadcastInDim S800000x1 ![0] bcast_S800000_S800000x1_0 : (⟨S800000, .i32⟩ : BufTy).Contents (Elt F) → (⟨S800000x1, .i32⟩ : BufTy).Contents (Elt F)),  -- %353 = stablehlo.broadcast_in_dim %3, dims = [0] : (tensor<800000xi32>) -> tensor<800000x1xi32>  @ reference:54
    ternary main_v352 main_v353 main_v351 main_v354 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),  -- %354 = "stablehlo.scatter"(%352, %353, %351) <{indices_are_sorted = false, scatter_dimension_numbers = #stablehlo.scatter<update_window_dims
    binary main_v334 main_v354 main_v355 (addf : (⟨S50000x128, .f32⟩ : BufTy).Contents (Elt F) → (⟨S50000x128, .f32⟩ : BufTy).Contents (Elt F) → (⟨S50000x128, .f32⟩ : BufTy).Contents (Elt F)),  -- %355 = stablehlo.add %334, %354 : tensor<50000x128xf32>  @ reference:55
    unary main_arg5 main_v356 ((extractStridedSlice S1x128x256 ![2, 0, 0] · slices_S3x128x256_S1x128x256_2_0_0) : (⟨S3x128x256, .f32⟩ : BufTy).Contents (Elt F) → (⟨S1x128x256, .f32⟩ : BufTy).Contents (Elt F)),  -- %356 = stablehlo.slice %arg5 [2:3, 0:128, 0:256] : (tensor<3x128x256xf32>) -> tensor<1x128x256xf32>  @ reference:56
    reshape main_v356 main_v357 rfl shapeCasts_S1x128x256_S128x256,  -- %357 = stablehlo.reshape %356 : (tensor<1x128x256xf32>) -> tensor<128x256xf32>  @ reference:56
    binary main_v355 main_v357 main_v358 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),  -- %358 = stablehlo.dot_general %355, %357, contracting_dims = [1] x [0], precision = [DEFAULT, DEFAULT] : (tensor<50000x128xf32>, tensor<128x2
    unary main_arg6 main_v359 ((extractStridedSlice S1x256 ![2, 0] · slices_S3x256_S1x256_2_0) : (⟨S3x256, .f32⟩ : BufTy).Contents (Elt F) → (⟨S1x256, .f32⟩ : BufTy).Contents (Elt F)),  -- %359 = stablehlo.slice %arg6 [2:3, 0:256] : (tensor<3x256xf32>) -> tensor<1x256xf32>  @ reference:56
    reshape main_v359 main_v360 rfl shapeCasts_S1x256_S256,  -- %360 = stablehlo.reshape %359 : (tensor<1x256xf32>) -> tensor<256xf32>  @ reference:56
    unary main_v360 main_v361 (broadcastInDim S1x256 ![1] bcast_S256_S1x256_1 : (⟨S256, .f32⟩ : BufTy).Contents (Elt F) → (⟨S1x256, .f32⟩ : BufTy).Contents (Elt F)),  -- %361 = stablehlo.broadcast_in_dim %360, dims = [1] : (tensor<256xf32>) -> tensor<1x256xf32>  @ reference:56
    unary main_v361 main_v362 (broadcastInDim S50000x256 ![0, 1] bcast_S1x256_S50000x256_0_1 : (⟨S1x256, .f32⟩ : BufTy).Contents (Elt F) → (⟨S50000x256, .f32⟩ : BufTy).Contents (Elt F)),  -- %362 = stablehlo.broadcast_in_dim %361, dims = [0, 1] : (tensor<1x256xf32>) -> tensor<50000x256xf32>  @ reference:56
    binary main_v358 main_v362 main_v363 (addf : (⟨S50000x256, .f32⟩ : BufTy).Contents (Elt F) → (⟨S50000x256, .f32⟩ : BufTy).Contents (Elt F) → (⟨S50000x256, .f32⟩ : BufTy).Contents (Elt F)) ]  -- %363 = stablehlo.add %358, %362 : tensor<50000x256xf32>  @ reference:56

/-- Stage 20 of the reference's @main: 51 operations. -/
abbrev rchunk20 : List (HloOp τ sig (Elt F)) :=
  [ unary main_arg7 main_v364 ((extractStridedSlice S1x256 ![2, 0] · slices_S3x256_S1x256_2_0) : (⟨S3x256, .f32⟩ : BufTy).Contents (Elt F) → (⟨S1x256, .f32⟩ : BufTy).Contents (Elt F)),  -- %364 = stablehlo.slice %arg7 [2:3, 0:256] : (tensor<3x256xf32>) -> tensor<1x256xf32>  @ reference:56
    reshape main_v364 main_v365 rfl shapeCasts_S1x256_S256,  -- %365 = stablehlo.reshape %364 : (tensor<1x256xf32>) -> tensor<256xf32>  @ reference:56
    unary main_arg8 main_v366 ((extractStridedSlice S1x256 ![2, 0] · slices_S3x256_S1x256_2_0) : (⟨S3x256, .f32⟩ : BufTy).Contents (Elt F) → (⟨S1x256, .f32⟩ : BufTy).Contents (Elt F)),  -- %366 = stablehlo.slice %arg8 [2:3, 0:256] : (tensor<3x256xf32>) -> tensor<1x256xf32>  @ reference:56
    reshape main_v366 main_v367 rfl shapeCasts_S1x256_S256,  -- %367 = stablehlo.reshape %366 : (tensor<1x256xf32>) -> tensor<256xf32>  @ reference:56
    nullary main_cst_47 (constant S_ .f32 0x00000000#32),  -- %cst_47 = stablehlo.constant dense<0.000000e+00> : tensor<f32>
    binary main_v363 main_cst_47 main_v368 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),  -- %368 = stablehlo.reduce(%363 init: %cst_47) applies stablehlo.add across dimensions = [0] : (tensor<50000x256xf32>, tensor<f32>) -> tensor<2
    nullary main_cst_48 (constant S_ .f32 0x47435000#32),  -- %cst_48 = stablehlo.constant dense<5.000000e+04> : tensor<f32>
    unary main_cst_48 main_v369 (broadcastInDim S256 ![] bcast_S_S256 : (⟨S_, .f32⟩ : BufTy).Contents (Elt F) → (⟨S256, .f32⟩ : BufTy).Contents (Elt F)),  -- %369 = stablehlo.broadcast_in_dim %cst_48, dims = [] : (tensor<f32>) -> tensor<256xf32>  @ reference:10
    binary main_v368 main_v369 main_v370 (Host.divf : (⟨S256, .f32⟩ : BufTy).Contents (Elt F) → (⟨S256, .f32⟩ : BufTy).Contents (Elt F) → (⟨S256, .f32⟩ : BufTy).Contents (Elt F)),  -- %370 = stablehlo.divide %368, %369 : tensor<256xf32>  @ reference:10
    nullary main_c_49 (constantI S_ 32 0#32),  -- %c_49 = stablehlo.constant dense<0> : tensor<i32>
    TRef.nullary main_call19.cst (constant S_ .f32 0x00000000#32),  -- %cst = stablehlo.constant dense<0.000000e+00> : tensor<f32>   [in fn_var at main_call19]
    TRef.binary (.of main_v363) main_call19.cst main_call19.v0 (fun x v => Host.reduceAdd x v reducesTo_S50000x256_S256_d0 h_S_),  -- %0 = stablehlo.reduce(%arg0 init: %cst) applies stablehlo.add across dimensions = [0] : (tensor<50000x256xf32>, tensor<f32>) -> tensor<256xf
    TRef.unary main_call19.v0 main_call19.v1 (broadcastInDim S1x256 ![1] bcast_S256_S1x256_1),  -- %1 = stablehlo.broadcast_in_dim %0, dims = [1] : (tensor<256xf32>) -> tensor<1x256xf32>   [in fn_var at main_call19]
    TRef.nullary main_call19.cst_0 (constant S_ .f32 0x47435000#32),  -- %cst_0 = stablehlo.constant dense<5.000000e+04> : tensor<f32>   [in fn_var at main_call19]
    TRef.unary main_call19.cst_0 main_call19.v2 (broadcastInDim S1x256 ![] bcast_S_S1x256),  -- %2 = stablehlo.broadcast_in_dim %cst_0, dims = [] : (tensor<f32>) -> tensor<1x256xf32>   [in fn_var at main_call19]
    TRef.binary main_call19.v1 main_call19.v2 main_call19.v3 Host.divf,  -- %3 = stablehlo.divide %1, %2 : tensor<1x256xf32>   [in fn_var at main_call19]
    TRef.unary main_call19.v3 main_call19.v4 (broadcastInDim S50000x256 ![0, 1] bcast_S1x256_S50000x256_0_1),  -- %4 = stablehlo.broadcast_in_dim %3, dims = [0, 1] : (tensor<1x256xf32>) -> tensor<50000x256xf32>   [in fn_var at main_call19]
    TRef.binary (.of main_v363) main_call19.v4 main_call19.v5 subf,  -- %5 = stablehlo.subtract %arg0, %4 : tensor<50000x256xf32>   [in fn_var at main_call19]
    TRef.binary main_call19.v5 main_call19.v5 main_call19.v6 mulf,  -- %6 = chlo.square %5 : tensor<50000x256xf32> -> tensor<50000x256xf32>   [in fn_var at main_call19]
    TRef.unary (.of main_c_49) main_call19.v7 (sitofp .f32),  -- %7 = stablehlo.convert %arg1 : (tensor<i32>) -> tensor<f32>   [in fn_var at main_call19]
    TRef.nullary main_call19.cst_1 (constant S_ .f32 0x47435000#32),  -- %cst_1 = stablehlo.constant dense<5.000000e+04> : tensor<f32>   [in fn_var at main_call19]
    TRef.binary main_call19.cst_1 main_call19.v7 main_call19.v8 subf,  -- %8 = stablehlo.subtract %cst_1, %7 : tensor<f32>   [in fn_var at main_call19]
    TRef.nullary main_call19.cst_2 (constant S_ .f32 0x00000000#32),  -- %cst_2 = stablehlo.constant dense<0.000000e+00> : tensor<f32>   [in fn_var at main_call19]
    TRef.binary main_call19.v6 main_call19.cst_2 main_call19.v9 (fun x v => Host.reduceAdd x v reducesTo_S50000x256_S256_d0 h_S_),  -- %9 = stablehlo.reduce(%6 init: %cst_2) applies stablehlo.add across dimensions = [0] : (tensor<50000x256xf32>, tensor<f32>) -> tensor<256xf3
    TRef.unary main_call19.v8 main_call19.v10 (broadcastInDim S256 ![] bcast_S_S256),  -- %10 = stablehlo.broadcast_in_dim %8, dims = [] : (tensor<f32>) -> tensor<256xf32>   [in fn_var at main_call19]
    TRef.binary main_call19.v9 main_call19.v10 main_call19.v11 Host.divf,  -- %11 = stablehlo.divide %9, %10 : tensor<256xf32>   [in fn_var at main_call19]
    TRef.nullary main_call19.cst_3 (constant S_ .f32 0x00000000#32),  -- %cst_3 = stablehlo.constant dense<0.000000e+00> : tensor<f32>   [in fn_var at main_call19]
    TRef.binary main_call19.v8 main_call19.cst_3 main_call19.v12 (cmpf .ogt),  -- %12 = stablehlo.compare GT, %8, %cst_3, FLOAT : (tensor<f32>, tensor<f32>) -> tensor<i1>   [in fn_var at main_call19]
    TRef.nullary main_call19.cst_4 (constant S_ .f32 0x7FC00000#32),  -- %cst_4 = stablehlo.constant dense<0x7FC00000> : tensor<f32>   [in fn_var at main_call19]
    TRef.unary main_call19.cst_4 main_call19.call0.v0 id,  -- %0 = stablehlo.convert %arg2 : tensor<f32>   [in fn_where at main_call19.call0]   [in fn_var at main_call19]
    TRef.unary main_call19.call0.v0 main_call19.call0.v1 (broadcastInDim S256 ![] bcast_S_S256),  -- %1 = stablehlo.broadcast_in_dim %0, dims = [] : (tensor<f32>) -> tensor<256xf32>   [in fn_where at main_call19.call0]   [in fn_var at main_c
    TRef.ternary main_call19.v12 main_call19.v11 main_call19.call0.v1 main_call19.call0.v2 (fun p a b => select (broadcastInDim S256 ![] bcast_S_S256 p) a b),  -- %2 = stablehlo.select %arg0, %arg1, %1 : tensor<i1>, tensor<256xf32>   [in fn_where at main_call19.call0]   [in fn_var at main_call19]
    unary main_v370 main_v372 (broadcastInDim S1x256 ![1] bcast_S256_S1x256_1 : (⟨S256, .f32⟩ : BufTy).Contents (Elt F) → (⟨S1x256, .f32⟩ : BufTy).Contents (Elt F)),  -- %372 = stablehlo.broadcast_in_dim %370, dims = [1] : (tensor<256xf32>) -> tensor<1x256xf32>  @ reference:12
    unary main_v372 main_v373 (broadcastInDim S50000x256 ![0, 1] bcast_S1x256_S50000x256_0_1 : (⟨S1x256, .f32⟩ : BufTy).Contents (Elt F) → (⟨S50000x256, .f32⟩ : BufTy).Contents (Elt F)),  -- %373 = stablehlo.broadcast_in_dim %372, dims = [0, 1] : (tensor<1x256xf32>) -> tensor<50000x256xf32>  @ reference:12
    binary main_v363 main_v373 main_v374 (subf : (⟨S50000x256, .f32⟩ : BufTy).Contents (Elt F) → (⟨S50000x256, .f32⟩ : BufTy).Contents (Elt F) → (⟨S50000x256, .f32⟩ : BufTy).Contents (Elt F)),  -- %374 = stablehlo.subtract %363, %373 : tensor<50000x256xf32>  @ reference:12
    unary main_v365 main_v375 (broadcastInDim S1x256 ![1] bcast_S256_S1x256_1 : (⟨S256, .f32⟩ : BufTy).Contents (Elt F) → (⟨S1x256, .f32⟩ : BufTy).Contents (Elt F)),  -- %375 = stablehlo.broadcast_in_dim %365, dims = [1] : (tensor<256xf32>) -> tensor<1x256xf32>  @ reference:12
    unary main_v375 main_v376 (broadcastInDim S50000x256 ![0, 1] bcast_S1x256_S50000x256_0_1 : (⟨S1x256, .f32⟩ : BufTy).Contents (Elt F) → (⟨S50000x256, .f32⟩ : BufTy).Contents (Elt F)),  -- %376 = stablehlo.broadcast_in_dim %375, dims = [0, 1] : (tensor<1x256xf32>) -> tensor<50000x256xf32>  @ reference:12
    binary main_v376 main_v374 main_v377 (mulf : (⟨S50000x256, .f32⟩ : BufTy).Contents (Elt F) → (⟨S50000x256, .f32⟩ : BufTy).Contents (Elt F) → (⟨S50000x256, .f32⟩ : BufTy).Contents (Elt F)),  -- %377 = stablehlo.multiply %376, %374 : tensor<50000x256xf32>  @ reference:12
    nullary main_cst_50 (constant S_ .f32 0x3727C5AC#32),  -- %cst_50 = stablehlo.constant dense<9.99999974E-6> : tensor<f32>
    unary main_cst_50 main_v378 (broadcastInDim S256 ![] bcast_S_S256 : (⟨S_, .f32⟩ : BufTy).Contents (Elt F) → (⟨S256, .f32⟩ : BufTy).Contents (Elt F)),  -- %378 = stablehlo.broadcast_in_dim %cst_50, dims = [] : (tensor<f32>) -> tensor<256xf32>  @ reference:12
    binary main_v371 main_v378 main_v379 (addf : (⟨S256, .f32⟩ : BufTy).Contents (Elt F) → (⟨S256, .f32⟩ : BufTy).Contents (Elt F) → (⟨S256, .f32⟩ : BufTy).Contents (Elt F)),  -- %379 = stablehlo.add %371, %378 : tensor<256xf32>  @ reference:12
    unary main_v379 main_v380 (Host.rsqrt : (⟨S256, .f32⟩ : BufTy).Contents (Elt F) → (⟨S256, .f32⟩ : BufTy).Contents (Elt F)),  -- %380 = stablehlo.rsqrt %379 : tensor<256xf32>  @ reference:12
    unary main_v380 main_v381 (broadcastInDim S1x256 ![1] bcast_S256_S1x256_1 : (⟨S256, .f32⟩ : BufTy).Contents (Elt F) → (⟨S1x256, .f32⟩ : BufTy).Contents (Elt F)),  -- %381 = stablehlo.broadcast_in_dim %380, dims = [1] : (tensor<256xf32>) -> tensor<1x256xf32>  @ reference:12
    unary main_v381 main_v382 (broadcastInDim S50000x256 ![0, 1] bcast_S1x256_S50000x256_0_1 : (⟨S1x256, .f32⟩ : BufTy).Contents (Elt F) → (⟨S50000x256, .f32⟩ : BufTy).Contents (Elt F)),  -- %382 = stablehlo.broadcast_in_dim %381, dims = [0, 1] : (tensor<1x256xf32>) -> tensor<50000x256xf32>  @ reference:12
    binary main_v377 main_v382 main_v383 (mulf : (⟨S50000x256, .f32⟩ : BufTy).Contents (Elt F) → (⟨S50000x256, .f32⟩ : BufTy).Contents (Elt F) → (⟨S50000x256, .f32⟩ : BufTy).Contents (Elt F)),  -- %383 = stablehlo.multiply %377, %382 : tensor<50000x256xf32>  @ reference:12
    unary main_v367 main_v384 (broadcastInDim S1x256 ![1] bcast_S256_S1x256_1 : (⟨S256, .f32⟩ : BufTy).Contents (Elt F) → (⟨S1x256, .f32⟩ : BufTy).Contents (Elt F)),  -- %384 = stablehlo.broadcast_in_dim %367, dims = [1] : (tensor<256xf32>) -> tensor<1x256xf32>  @ reference:12
    unary main_v384 main_v385 (broadcastInDim S50000x256 ![0, 1] bcast_S1x256_S50000x256_0_1 : (⟨S1x256, .f32⟩ : BufTy).Contents (Elt F) → (⟨S50000x256, .f32⟩ : BufTy).Contents (Elt F)),  -- %385 = stablehlo.broadcast_in_dim %384, dims = [0, 1] : (tensor<1x256xf32>) -> tensor<50000x256xf32>  @ reference:12
    binary main_v383 main_v385 main_v386 (addf : (⟨S50000x256, .f32⟩ : BufTy).Contents (Elt F) → (⟨S50000x256, .f32⟩ : BufTy).Contents (Elt F) → (⟨S50000x256, .f32⟩ : BufTy).Contents (Elt F)),  -- %386 = stablehlo.add %383, %385 : tensor<50000x256xf32>  @ reference:12
    TRef.nullary main_call20.cst (constant S_ .f32 0x00000000#32),  -- %cst = stablehlo.constant dense<0.000000e+00> : tensor<f32>   [in fn_relu_0 at main_call20]
    TRef.unary main_call20.cst main_call20.v0 (broadcastInDim S50000x256 ![] bcast_S_S50000x256),  -- %0 = stablehlo.broadcast_in_dim %cst, dims = [] : (tensor<f32>) -> tensor<50000x256xf32>   [in fn_relu_0 at main_call20]
    TRef.binary (.of main_v386) main_call20.v0 main_call20.v1 maximumf ]  -- %1 = stablehlo.maximum %arg0, %0 : tensor<50000x256xf32>   [in fn_relu_0 at main_call20]

/-- Stage 21 of the reference's @main: 8 operations. -/
abbrev rchunk21 : List (HloOp τ sig (Elt F)) :=
  [ unary main_arg9 main_v388 ((extractStridedSlice S1x256x128 ![2, 0, 0] · slices_S3x256x128_S1x256x128_2_0_0) : (⟨S3x256x128, .f32⟩ : BufTy).Contents (Elt F) → (⟨S1x256x128, .f32⟩ : BufTy).Contents (Elt F)),  -- %388 = stablehlo.slice %arg9 [2:3, 0:256, 0:128] : (tensor<3x256x128xf32>) -> tensor<1x256x128xf32>  @ reference:57
    reshape main_v388 main_v389 rfl shapeCasts_S1x256x128_S256x128,  -- %389 = stablehlo.reshape %388 : (tensor<1x256x128xf32>) -> tensor<256x128xf32>  @ reference:57
    binary main_v387 main_v389 main_v390 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),  -- %390 = stablehlo.dot_general %387, %389, contracting_dims = [1] x [0], precision = [DEFAULT, DEFAULT] : (tensor<50000x256xf32>, tensor<256x1
    unary main_arg10 main_v391 ((extractStridedSlice S1x128 ![2, 0] · slices_S3x128_S1x128_2_0) : (⟨S3x128, .f32⟩ : BufTy).Contents (Elt F) → (⟨S1x128, .f32⟩ : BufTy).Contents (Elt F)),  -- %391 = stablehlo.slice %arg10 [2:3, 0:128] : (tensor<3x128xf32>) -> tensor<1x128xf32>  @ reference:57
    reshape main_v391 main_v392 rfl shapeCasts_S1x128_S128,  -- %392 = stablehlo.reshape %391 : (tensor<1x128xf32>) -> tensor<128xf32>  @ reference:57
    unary main_v392 main_v393 (broadcastInDim S1x128 ![1] bcast_S128_S1x128_1 : (⟨S128, .f32⟩ : BufTy).Contents (Elt F) → (⟨S1x128, .f32⟩ : BufTy).Contents (Elt F)),  -- %393 = stablehlo.broadcast_in_dim %392, dims = [1] : (tensor<128xf32>) -> tensor<1x128xf32>  @ reference:57
    unary main_v393 main_v394 (broadcastInDim S50000x128 ![0, 1] bcast_S1x128_S50000x128_0_1 : (⟨S1x128, .f32⟩ : BufTy).Contents (Elt F) → (⟨S50000x128, .f32⟩ : BufTy).Contents (Elt F)),  -- %394 = stablehlo.broadcast_in_dim %393, dims = [0, 1] : (tensor<1x128xf32>) -> tensor<50000x128xf32>  @ reference:57
    binary main_v390 main_v394 main_v395 (addf : (⟨S50000x128, .f32⟩ : BufTy).Contents (Elt F) → (⟨S50000x128, .f32⟩ : BufTy).Contents (Elt F) → (⟨S50000x128, .f32⟩ : BufTy).Contents (Elt F)) ]  -- %395 = stablehlo.add %390, %394 : tensor<50000x128xf32>  @ reference:57

/-- Stage 22 of the reference's @main: 48 operations. -/
abbrev rchunk22 : List (HloOp τ sig (Elt F)) :=
  [ unary main_arg11 main_v396 ((extractStridedSlice S1x128 ![2, 0] · slices_S3x128_S1x128_2_0) : (⟨S3x128, .f32⟩ : BufTy).Contents (Elt F) → (⟨S1x128, .f32⟩ : BufTy).Contents (Elt F)),  -- %396 = stablehlo.slice %arg11 [2:3, 0:128] : (tensor<3x128xf32>) -> tensor<1x128xf32>  @ reference:57
    reshape main_v396 main_v397 rfl shapeCasts_S1x128_S128,  -- %397 = stablehlo.reshape %396 : (tensor<1x128xf32>) -> tensor<128xf32>  @ reference:57
    unary main_arg12 main_v398 ((extractStridedSlice S1x128 ![2, 0] · slices_S3x128_S1x128_2_0) : (⟨S3x128, .f32⟩ : BufTy).Contents (Elt F) → (⟨S1x128, .f32⟩ : BufTy).Contents (Elt F)),  -- %398 = stablehlo.slice %arg12 [2:3, 0:128] : (tensor<3x128xf32>) -> tensor<1x128xf32>  @ reference:57
    reshape main_v398 main_v399 rfl shapeCasts_S1x128_S128,  -- %399 = stablehlo.reshape %398 : (tensor<1x128xf32>) -> tensor<128xf32>  @ reference:57
    nullary main_cst_51 (constant S_ .f32 0x00000000#32),  -- %cst_51 = stablehlo.constant dense<0.000000e+00> : tensor<f32>
    binary main_v395 main_cst_51 main_v400 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),  -- %400 = stablehlo.reduce(%395 init: %cst_51) applies stablehlo.add across dimensions = [0] : (tensor<50000x128xf32>, tensor<f32>) -> tensor<1
    nullary main_cst_52 (constant S_ .f32 0x47435000#32),  -- %cst_52 = stablehlo.constant dense<5.000000e+04> : tensor<f32>
    unary main_cst_52 main_v401 (broadcastInDim S128 ![] bcast_S_S128 : (⟨S_, .f32⟩ : BufTy).Contents (Elt F) → (⟨S128, .f32⟩ : BufTy).Contents (Elt F)),  -- %401 = stablehlo.broadcast_in_dim %cst_52, dims = [] : (tensor<f32>) -> tensor<128xf32>  @ reference:10
    binary main_v400 main_v401 main_v402 (Host.divf : (⟨S128, .f32⟩ : BufTy).Contents (Elt F) → (⟨S128, .f32⟩ : BufTy).Contents (Elt F) → (⟨S128, .f32⟩ : BufTy).Contents (Elt F)),  -- %402 = stablehlo.divide %400, %401 : tensor<128xf32>  @ reference:10
    nullary main_c_53 (constantI S_ 32 0#32),  -- %c_53 = stablehlo.constant dense<0> : tensor<i32>
    TRef.nullary main_call21.cst (constant S_ .f32 0x00000000#32),  -- %cst = stablehlo.constant dense<0.000000e+00> : tensor<f32>   [in fn_var_1 at main_call21]
    TRef.binary (.of main_v395) main_call21.cst main_call21.v0 (fun x v => Host.reduceAdd x v reducesTo_S50000x128_S128_d0 h_S_),  -- %0 = stablehlo.reduce(%arg0 init: %cst) applies stablehlo.add across dimensions = [0] : (tensor<50000x128xf32>, tensor<f32>) -> tensor<128xf
    TRef.unary main_call21.v0 main_call21.v1 (broadcastInDim S1x128 ![1] bcast_S128_S1x128_1),  -- %1 = stablehlo.broadcast_in_dim %0, dims = [1] : (tensor<128xf32>) -> tensor<1x128xf32>   [in fn_var_1 at main_call21]
    TRef.nullary main_call21.cst_0 (constant S_ .f32 0x47435000#32),  -- %cst_0 = stablehlo.constant dense<5.000000e+04> : tensor<f32>   [in fn_var_1 at main_call21]
    TRef.unary main_call21.cst_0 main_call21.v2 (broadcastInDim S1x128 ![] bcast_S_S1x128),  -- %2 = stablehlo.broadcast_in_dim %cst_0, dims = [] : (tensor<f32>) -> tensor<1x128xf32>   [in fn_var_1 at main_call21]
    TRef.binary main_call21.v1 main_call21.v2 main_call21.v3 Host.divf,  -- %3 = stablehlo.divide %1, %2 : tensor<1x128xf32>   [in fn_var_1 at main_call21]
    TRef.unary main_call21.v3 main_call21.v4 (broadcastInDim S50000x128 ![0, 1] bcast_S1x128_S50000x128_0_1),  -- %4 = stablehlo.broadcast_in_dim %3, dims = [0, 1] : (tensor<1x128xf32>) -> tensor<50000x128xf32>   [in fn_var_1 at main_call21]
    TRef.binary (.of main_v395) main_call21.v4 main_call21.v5 subf,  -- %5 = stablehlo.subtract %arg0, %4 : tensor<50000x128xf32>   [in fn_var_1 at main_call21]
    TRef.binary main_call21.v5 main_call21.v5 main_call21.v6 mulf,  -- %6 = chlo.square %5 : tensor<50000x128xf32> -> tensor<50000x128xf32>   [in fn_var_1 at main_call21]
    TRef.unary (.of main_c_53) main_call21.v7 (sitofp .f32),  -- %7 = stablehlo.convert %arg1 : (tensor<i32>) -> tensor<f32>   [in fn_var_1 at main_call21]
    TRef.nullary main_call21.cst_1 (constant S_ .f32 0x47435000#32),  -- %cst_1 = stablehlo.constant dense<5.000000e+04> : tensor<f32>   [in fn_var_1 at main_call21]
    TRef.binary main_call21.cst_1 main_call21.v7 main_call21.v8 subf,  -- %8 = stablehlo.subtract %cst_1, %7 : tensor<f32>   [in fn_var_1 at main_call21]
    TRef.nullary main_call21.cst_2 (constant S_ .f32 0x00000000#32),  -- %cst_2 = stablehlo.constant dense<0.000000e+00> : tensor<f32>   [in fn_var_1 at main_call21]
    TRef.binary main_call21.v6 main_call21.cst_2 main_call21.v9 (fun x v => Host.reduceAdd x v reducesTo_S50000x128_S128_d0 h_S_),  -- %9 = stablehlo.reduce(%6 init: %cst_2) applies stablehlo.add across dimensions = [0] : (tensor<50000x128xf32>, tensor<f32>) -> tensor<128xf3
    TRef.unary main_call21.v8 main_call21.v10 (broadcastInDim S128 ![] bcast_S_S128),  -- %10 = stablehlo.broadcast_in_dim %8, dims = [] : (tensor<f32>) -> tensor<128xf32>   [in fn_var_1 at main_call21]
    TRef.binary main_call21.v9 main_call21.v10 main_call21.v11 Host.divf,  -- %11 = stablehlo.divide %9, %10 : tensor<128xf32>   [in fn_var_1 at main_call21]
    TRef.nullary main_call21.cst_3 (constant S_ .f32 0x00000000#32),  -- %cst_3 = stablehlo.constant dense<0.000000e+00> : tensor<f32>   [in fn_var_1 at main_call21]
    TRef.binary main_call21.v8 main_call21.cst_3 main_call21.v12 (cmpf .ogt),  -- %12 = stablehlo.compare GT, %8, %cst_3, FLOAT : (tensor<f32>, tensor<f32>) -> tensor<i1>   [in fn_var_1 at main_call21]
    TRef.nullary main_call21.cst_4 (constant S_ .f32 0x7FC00000#32),  -- %cst_4 = stablehlo.constant dense<0x7FC00000> : tensor<f32>   [in fn_var_1 at main_call21]
    TRef.unary main_call21.cst_4 main_call21.call0.v0 id,  -- %0 = stablehlo.convert %arg2 : tensor<f32>   [in fn_where_2 at main_call21.call0]   [in fn_var_1 at main_call21]
    TRef.unary main_call21.call0.v0 main_call21.call0.v1 (broadcastInDim S128 ![] bcast_S_S128),  -- %1 = stablehlo.broadcast_in_dim %0, dims = [] : (tensor<f32>) -> tensor<128xf32>   [in fn_where_2 at main_call21.call0]   [in fn_var_1 at ma
    TRef.ternary main_call21.v12 main_call21.v11 main_call21.call0.v1 main_call21.call0.v2 (fun p a b => select (broadcastInDim S128 ![] bcast_S_S128 p) a b),  -- %2 = stablehlo.select %arg0, %arg1, %1 : tensor<i1>, tensor<128xf32>   [in fn_where_2 at main_call21.call0]   [in fn_var_1 at main_call21]
    unary main_v402 main_v404 (broadcastInDim S1x128 ![1] bcast_S128_S1x128_1 : (⟨S128, .f32⟩ : BufTy).Contents (Elt F) → (⟨S1x128, .f32⟩ : BufTy).Contents (Elt F)),  -- %404 = stablehlo.broadcast_in_dim %402, dims = [1] : (tensor<128xf32>) -> tensor<1x128xf32>  @ reference:12
    unary main_v404 main_v405 (broadcastInDim S50000x128 ![0, 1] bcast_S1x128_S50000x128_0_1 : (⟨S1x128, .f32⟩ : BufTy).Contents (Elt F) → (⟨S50000x128, .f32⟩ : BufTy).Contents (Elt F)),  -- %405 = stablehlo.broadcast_in_dim %404, dims = [0, 1] : (tensor<1x128xf32>) -> tensor<50000x128xf32>  @ reference:12
    binary main_v395 main_v405 main_v406 (subf : (⟨S50000x128, .f32⟩ : BufTy).Contents (Elt F) → (⟨S50000x128, .f32⟩ : BufTy).Contents (Elt F) → (⟨S50000x128, .f32⟩ : BufTy).Contents (Elt F)),  -- %406 = stablehlo.subtract %395, %405 : tensor<50000x128xf32>  @ reference:12
    unary main_v397 main_v407 (broadcastInDim S1x128 ![1] bcast_S128_S1x128_1 : (⟨S128, .f32⟩ : BufTy).Contents (Elt F) → (⟨S1x128, .f32⟩ : BufTy).Contents (Elt F)),  -- %407 = stablehlo.broadcast_in_dim %397, dims = [1] : (tensor<128xf32>) -> tensor<1x128xf32>  @ reference:12
    unary main_v407 main_v408 (broadcastInDim S50000x128 ![0, 1] bcast_S1x128_S50000x128_0_1 : (⟨S1x128, .f32⟩ : BufTy).Contents (Elt F) → (⟨S50000x128, .f32⟩ : BufTy).Contents (Elt F)),  -- %408 = stablehlo.broadcast_in_dim %407, dims = [0, 1] : (tensor<1x128xf32>) -> tensor<50000x128xf32>  @ reference:12
    binary main_v408 main_v406 main_v409 (mulf : (⟨S50000x128, .f32⟩ : BufTy).Contents (Elt F) → (⟨S50000x128, .f32⟩ : BufTy).Contents (Elt F) → (⟨S50000x128, .f32⟩ : BufTy).Contents (Elt F)),  -- %409 = stablehlo.multiply %408, %406 : tensor<50000x128xf32>  @ reference:12
    nullary main_cst_54 (constant S_ .f32 0x3727C5AC#32),  -- %cst_54 = stablehlo.constant dense<9.99999974E-6> : tensor<f32>
    unary main_cst_54 main_v410 (broadcastInDim S128 ![] bcast_S_S128 : (⟨S_, .f32⟩ : BufTy).Contents (Elt F) → (⟨S128, .f32⟩ : BufTy).Contents (Elt F)),  -- %410 = stablehlo.broadcast_in_dim %cst_54, dims = [] : (tensor<f32>) -> tensor<128xf32>  @ reference:12
    binary main_v403 main_v410 main_v411 (addf : (⟨S128, .f32⟩ : BufTy).Contents (Elt F) → (⟨S128, .f32⟩ : BufTy).Contents (Elt F) → (⟨S128, .f32⟩ : BufTy).Contents (Elt F)),  -- %411 = stablehlo.add %403, %410 : tensor<128xf32>  @ reference:12
    unary main_v411 main_v412 (Host.rsqrt : (⟨S128, .f32⟩ : BufTy).Contents (Elt F) → (⟨S128, .f32⟩ : BufTy).Contents (Elt F)),  -- %412 = stablehlo.rsqrt %411 : tensor<128xf32>  @ reference:12
    unary main_v412 main_v413 (broadcastInDim S1x128 ![1] bcast_S128_S1x128_1 : (⟨S128, .f32⟩ : BufTy).Contents (Elt F) → (⟨S1x128, .f32⟩ : BufTy).Contents (Elt F)),  -- %413 = stablehlo.broadcast_in_dim %412, dims = [1] : (tensor<128xf32>) -> tensor<1x128xf32>  @ reference:12
    unary main_v413 main_v414 (broadcastInDim S50000x128 ![0, 1] bcast_S1x128_S50000x128_0_1 : (⟨S1x128, .f32⟩ : BufTy).Contents (Elt F) → (⟨S50000x128, .f32⟩ : BufTy).Contents (Elt F)),  -- %414 = stablehlo.broadcast_in_dim %413, dims = [0, 1] : (tensor<1x128xf32>) -> tensor<50000x128xf32>  @ reference:12
    binary main_v409 main_v414 main_v415 (mulf : (⟨S50000x128, .f32⟩ : BufTy).Contents (Elt F) → (⟨S50000x128, .f32⟩ : BufTy).Contents (Elt F) → (⟨S50000x128, .f32⟩ : BufTy).Contents (Elt F)),  -- %415 = stablehlo.multiply %409, %414 : tensor<50000x128xf32>  @ reference:12
    unary main_v399 main_v416 (broadcastInDim S1x128 ![1] bcast_S128_S1x128_1 : (⟨S128, .f32⟩ : BufTy).Contents (Elt F) → (⟨S1x128, .f32⟩ : BufTy).Contents (Elt F)),  -- %416 = stablehlo.broadcast_in_dim %399, dims = [1] : (tensor<128xf32>) -> tensor<1x128xf32>  @ reference:12
    unary main_v416 main_v417 (broadcastInDim S50000x128 ![0, 1] bcast_S1x128_S50000x128_0_1 : (⟨S1x128, .f32⟩ : BufTy).Contents (Elt F) → (⟨S50000x128, .f32⟩ : BufTy).Contents (Elt F)),  -- %417 = stablehlo.broadcast_in_dim %416, dims = [0, 1] : (tensor<1x128xf32>) -> tensor<50000x128xf32>  @ reference:12
    binary main_v415 main_v417 main_v418 (addf : (⟨S50000x128, .f32⟩ : BufTy).Contents (Elt F) → (⟨S50000x128, .f32⟩ : BufTy).Contents (Elt F) → (⟨S50000x128, .f32⟩ : BufTy).Contents (Elt F)) ]  -- %418 = stablehlo.add %415, %417 : tensor<50000x128xf32>  @ reference:12

/-- @main's operations, stage after stage. -/
abbrev rops : List (HloOp τ sig (Elt F)) :=
  rchunk0 ++ rchunk1 ++ rchunk2 ++ rchunk3 ++ rchunk4 ++ rchunk5 ++ rchunk6 ++ rchunk7 ++ rchunk8 ++ rchunk9 ++ rchunk10 ++ rchunk11 ++ rchunk12 ++ rchunk13 ++ rchunk14 ++ rchunk15 ++ rchunk16 ++ rchunk17 ++ rchunk18 ++ rchunk19 ++ rchunk20 ++ rchunk21 ++ rchunk22

end Cert.ReferenceIdeal.Hand

end
-- ==== Proof.RRun.lean ====
import proofs.«403290_j73710228734482_1_alg».proof.Proof.RChunks

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## Lists -/

/-- The fold over two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem take_append_drop_append {α : Type} (n : Nat) (l r : List α) : l.take n ++ (l.drop n ++ r) = l ++ r := by
  rw [← List.append_assoc, List.take_append_drop]

/-! ## @main, window by window, is the line of its operations -/

/-- The operations of @main's window 0, as stretches of the stages. -/
def rpart0 : List (HloOp τ sig (Elt F)) :=
  rchunk0 ++ rchunk1 ++ (rchunk2.take 34)

/-- The operations of @main's window 1, as stretches of the stages. -/
def rpart1 : List (HloOp τ sig (Elt F)) :=
  (rchunk2.drop 34) ++ rchunk3 ++ rchunk4 ++ (rchunk5.take 9)

/-- The operations of @main's window 2, as stretches of the stages. -/
def rpart2 : List (HloOp τ sig (Elt F)) :=
  (rchunk5.drop 9) ++ rchunk6 ++ rchunk7 ++ (rchunk8.take 41)

/-- The operations of @main's window 3, as stretches of the stages. -/
def rpart3 : List (HloOp τ sig (Elt F)) :=
  (rchunk8.drop 41) ++ rchunk9 ++ rchunk10 ++ (rchunk11.take 10)

/-- The operations of @main's window 4, as stretches of the stages. -/
def rpart4 : List (HloOp τ sig (Elt F)) :=
  (rchunk11.drop 10) ++ rchunk12 ++ rchunk13 ++ (rchunk14.take 6)

/-- The operations of @main's window 5, as stretches of the stages. -/
def rpart5 : List (HloOp τ sig (Elt F)) :=
  (rchunk14.drop 6) ++ rchunk15 ++ rchunk16 ++ (rchunk17.take 38)

/-- The operations of @main's window 6, as stretches of the stages. -/
def rpart6 : List (HloOp τ sig (Elt F)) :=
  (rchunk17.drop 38) ++ rchunk18 ++ rchunk19 ++ (rchunk20.take 7)

/-- The operations of @main's window 7, as stretches of the stages. -/
def rpart7 : List (HloOp τ sig (Elt F)) :=
  (rchunk20.drop 7) ++ rchunk21 ++ rchunk22

set_option maxRecDepth 100000 in
set_option maxHeartbeats 4000000 in
theorem main_part0_eq (c : Dev nD) : main_part0 (F := F) c = seq rpart0 := rfl

set_option maxRecDepth 100000 in
set_option maxHeartbeats 4000000 in
theorem main_part1_eq (c : Dev nD) : main_part1 (F := F) c = seq rpart1 := rfl

set_option maxRecDepth 100000 in
set_option maxHeartbeats 4000000 in
theorem main_part2_eq (c : Dev nD) : main_part2 (F := F) c = seq rpart2 := rfl

set_option maxRecDepth 100000 in
set_option maxHeartbeats 4000000 in
theorem main_part3_eq (c : Dev nD) : main_part3 (F := F) c = seq rpart3 := rfl

set_option maxRecDepth 100000 in
set_option maxHeartbeats 4000000 in
theorem main_part4_eq (c : Dev nD) : main_part4 (F := F) c = seq rpart4 := rfl

set_option maxRecDepth 100000 in
set_option maxHeartbeats 4000000 in
theorem main_part5_eq (c : Dev nD) : main_part5 (F := F) c = seq rpart5 := rfl

set_option maxRecDepth 100000 in
set_option maxHeartbeats 4000000 in
theorem main_part6_eq (c : Dev nD) : main_part6 (F := F) c = seq rpart6 := rfl

set_option maxRecDepth 100000 in
set_option maxHeartbeats 4000000 in
theorem main_part7_eq (c : Dev nD) : main_part7 (F := F) c = seq rpart7 := rfl

/-- The stages in order are the windows in order. -/
theorem rops_eq_parts : (rops : List (HloOp τ sig (Elt F))) = rpart0 ++ (rpart1 ++ (rpart2 ++ (rpart3 ++ (rpart4 ++ (rpart5 ++ (rpart6 ++ (rpart7))))))) := by
  simp only [rops, rpart0, rpart1, rpart2, rpart3, rpart4, rpart5, rpart6, rpart7, List.append_assoc, take_append_drop_append, List.take_append_drop]

/-- @main is that straight line. -/
theorem main_eq (c : Dev nD) : main (F := F) c = seq rops := by
  rw [rops_eq_parts]
  simp only [seq_append, main, main_part0_eq, main_part1_eq, main_part2_eq, main_part3_eq, main_part4_eq, main_part5_eq, main_part6_eq, main_part7_eq]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only and determines its results -/

set_option maxRecDepth 8192 in
theorem rchunk0_sub : (rchunk0 : List (HloOp τ sig (Elt F))).Forall fun op => op.bufs ⊆ tcRefs τ sig :=
  ⟨unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
theorem rchunk0_fresh : (rchunk0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk1_sub : (rchunk1 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩
set_option maxRecDepth 8192 in
theorem rchunk1_fresh : (rchunk1 : List (HloOp τ sig (Elt F))).Forall fun op => op.fresh = ∅ :=
  ⟨rfl, rfl, rfl, rfl, rfl, rfl, rfl, rfl, rfl, rfl, rfl, rfl, rfl⟩

set_option maxRecDepth 8192 in
theorem rchunk2_sub : (rchunk2 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk2_fresh : (rchunk2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk3_sub : (rchunk3 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
set_option maxRecDepth 8192 in
theorem rchunk3_fresh : (rchunk3 : List (HloOp τ sig (Elt F))).Forall fun op => op.fresh = ∅ :=
  ⟨rfl, rfl, rfl, rfl, rfl, rfl, rfl, rfl⟩

set_option maxRecDepth 8192 in
theorem rchunk4_sub : (rchunk4 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk4_fresh : (rchunk4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk5_sub : (rchunk5 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩
set_option maxRecDepth 8192 in
theorem rchunk5_fresh : (rchunk5 : List (HloOp τ sig (Elt F))).Forall fun op => op.fresh = ∅ :=
  ⟨rfl, rfl, rfl, rfl, rfl, rfl, rfl, rfl, rfl, rfl, rfl, rfl, rfl⟩

set_option maxRecDepth 8192 in
theorem rchunk6_sub : (rchunk6 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk6_fresh : (rchunk6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk7_sub : (rchunk7 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
set_option maxRecDepth 8192 in
theorem rchunk7_fresh : (rchunk7 : List (HloOp τ sig (Elt F))).Forall fun op => op.fresh = ∅ :=
  ⟨rfl, rfl, rfl, rfl, rfl, rfl, rfl, rfl⟩

set_option maxRecDepth 8192 in
theorem rchunk8_sub : (rchunk8 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk8_fresh : (rchunk8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk9_sub : (rchunk9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
theorem rchunk9_fresh : (rchunk9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk10_sub : (rchunk10 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩
set_option maxRecDepth 8192 in
theorem rchunk10_fresh : (rchunk10 : List (HloOp τ sig (Elt F))).Forall fun op => op.fresh = ∅ :=
  ⟨rfl, rfl, rfl, rfl, rfl, rfl, rfl, rfl, rfl, rfl, rfl, rfl, rfl⟩

set_option maxRecDepth 8192 in
theorem rchunk11_sub : (rchunk11 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk11_fresh : (rchunk11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk12_sub : (rchunk12 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
set_option maxRecDepth 8192 in
theorem rchunk12_fresh : (rchunk12 : List (HloOp τ sig (Elt F))).Forall fun op => op.fresh = ∅ :=
  ⟨rfl, rfl, rfl, rfl, rfl, rfl, rfl, rfl⟩

set_option maxRecDepth 8192 in
theorem rchunk13_sub : (rchunk13 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk13_fresh : (rchunk13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk14_sub : (rchunk14 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩
set_option maxRecDepth 8192 in
theorem rchunk14_fresh : (rchunk14 : List (HloOp τ sig (Elt F))).Forall fun op => op.fresh = ∅ :=
  ⟨rfl, rfl, rfl, rfl, rfl, rfl, rfl, rfl, rfl, rfl, rfl, rfl, rfl⟩

set_option maxRecDepth 8192 in
theorem rchunk15_sub : (rchunk15 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk15_fresh : (rchunk15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk16_sub : (rchunk16 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
set_option maxRecDepth 8192 in
theorem rchunk16_fresh : (rchunk16 : List (HloOp τ sig (Elt F))).Forall fun op => op.fresh = ∅ :=
  ⟨rfl, rfl, rfl, rfl, rfl, rfl, rfl, rfl⟩

set_option maxRecDepth 8192 in
theorem rchunk17_sub : (rchunk17 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk17_fresh : (rchunk17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk18_sub : (rchunk18 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub ..⟩
set_option maxRecDepth 8192 in
theorem rchunk18_fresh : (rchunk18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk19_sub : (rchunk19 : List (HloOp τ sig (Elt F))).Forall fun op => op.bufs ⊆ tcRefs τ sig :=
  ⟨nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub ..⟩
set_option maxRecDepth 8192 in
theorem rchunk19_fresh : (rchunk19 : List (HloOp τ sig (Elt F))).Forall fun op => op.fresh = ∅ :=
  ⟨rfl, rfl, rfl, rfl, rfl, rfl, rfl, rfl, rfl, rfl, rfl, rfl, rfl⟩

set_option maxRecDepth 8192 in
theorem rchunk20_sub : (rchunk20 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
theorem rchunk20_fresh : (rchunk20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem rchunk21_sub : (rchunk21 : List (HloOp τ sig (Elt F))).Forall fun op => op.bufs ⊆ tcRefs τ sig :=
  ⟨unary_bufs_sub .., reshape_bufs_sub .., binary_bufs_sub .., unary_bufs_sub .., reshape_bufs_sub .., unary_bufs_sub .., unary_bufs_sub .., binary_bufs_sub ..⟩
set_option maxRecDepth 8192 in
theorem rchunk21_fresh : (rchunk21 : List (HloOp τ sig (Elt F))).Forall fun op => op.fresh = ∅ :=
  ⟨rfl, rfl, rfl, rfl, rfl, rfl, rfl, rfl⟩

set_option maxRecDepth 8192 in
theorem rchunk22_sub : (rchunk22 : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
set_option maxRecDepth 8192 in
theorem rchunk22_fresh : (rchunk22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : ∀ op ∈ (rops : List (HloOp τ sig (Elt F))), op.bufs ⊆ tcRefs τ sig := fun op h => by
    simp only [rops, List.mem_append] at h
    rcases h with (((((((((((((((((((((h | h) | h) | h) | h) | h) | h) | h) | h) | h) | h) | h) | h) | h) | h) | h) | h) | h) | h) | h) | h) | h) | h
    exacts [List.forall_iff_forall_mem.mp rchunk0_sub op h, List.forall_iff_forall_mem.mp rchunk1_sub op h, List.forall_iff_forall_mem.mp rchunk2_sub op h, List.forall_iff_forall_mem.mp rchunk3_sub op h, List.forall_iff_forall_mem.mp rchunk4_sub op h, List.forall_iff_forall_mem.mp rchunk5_sub op h, List.forall_iff_forall_mem.mp rchunk6_sub op h, List.forall_iff_forall_mem.mp rchunk7_sub op h, List.forall_iff_forall_mem.mp rchunk8_sub op h, List.forall_iff_forall_mem.mp rchunk9_sub op h, List.forall_iff_forall_mem.mp rchunk10_sub op h, List.forall_iff_forall_mem.mp rchunk11_sub op h, List.forall_iff_forall_mem.mp rchunk12_sub op h, List.forall_iff_forall_mem.mp rchunk13_sub op h, List.forall_iff_forall_mem.mp rchunk14_sub op h, List.forall_iff_forall_mem.mp rchunk15_sub op h, List.forall_iff_forall_mem.mp rchunk16_sub op h, List.forall_iff_forall_mem.mp rchunk17_sub op h, List.forall_iff_forall_mem.mp rchunk18_sub op h, List.forall_iff_forall_mem.mp rchunk19_sub op h, List.forall_iff_forall_mem.mp rchunk20_sub op h, List.forall_iff_forall_mem.mp rchunk21_sub op h, List.forall_iff_forall_mem.mp rchunk22_sub op h]

theorem ops_fresh : ∀ op ∈ (rops : List (HloOp τ sig (Elt F))), op.fresh = ∅ := fun op h => by
    simp only [rops, List.mem_append] at h
    rcases h with (((((((((((((((((((((h | h) | h) | h) | h) | h) | h) | h) | h) | h) | h) | h) | h) | h) | h) | h) | h) | h) | h) | h) | h) | h) | h
    exacts [List.forall_iff_forall_mem.mp rchunk0_fresh op h, List.forall_iff_forall_mem.mp rchunk1_fresh op h, List.forall_iff_forall_mem.mp rchunk2_fresh op h, List.forall_iff_forall_mem.mp rchunk3_fresh op h, List.forall_iff_forall_mem.mp rchunk4_fresh op h, List.forall_iff_forall_mem.mp rchunk5_fresh op h, List.forall_iff_forall_mem.mp rchunk6_fresh op h, List.forall_iff_forall_mem.mp rchunk7_fresh op h, List.forall_iff_forall_mem.mp rchunk8_fresh op h, List.forall_iff_forall_mem.mp rchunk9_fresh op h, List.forall_iff_forall_mem.mp rchunk10_fresh op h, List.forall_iff_forall_mem.mp rchunk11_fresh op h, List.forall_iff_forall_mem.mp rchunk12_fresh op h, List.forall_iff_forall_mem.mp rchunk13_fresh op h, List.forall_iff_forall_mem.mp rchunk14_fresh op h, List.forall_iff_forall_mem.mp rchunk15_fresh op h, List.forall_iff_forall_mem.mp rchunk16_fresh op h, List.forall_iff_forall_mem.mp rchunk17_fresh op h, List.forall_iff_forall_mem.mp rchunk18_fresh op h, List.forall_iff_forall_mem.mp rchunk19_fresh op h, List.forall_iff_forall_mem.mp rchunk20_fresh op h, List.forall_iff_forall_mem.mp rchunk21_fresh op h, List.forall_iff_forall_mem.mp rchunk22_fresh op h]

/-! ## The run -/

/-- The run of a straight line, its side condition on the operations' buffers stated member by member. -/
theorem run_seq_of_mem {n : Nat} {t : Topo} {s : RefSig} {Val : EltTy → Type} {L : Labels}
    (hR : (Finset.univ.filter fun b : Ref s .tc => b.isScoped) = ∅)
    (hC : (Finset.univ.filter fun sm : SemLoc s => sm.isScoped .tc) = ∅)
    (dfs : Defs n t s Val L) (mn : Dev n → Prog (TpuEff n t s Val L .tc) PUnit)
    (ops : Dev n → List (HloOp t s Val)) (hmain : ∀ d, mn d = seq (ops d))
    (hS : ∀ d, ∀ op ∈ ops d, op.bufs ⊆ tcRefs t s)
    (m : (ℓ : Loc n t s) → Buf Val ℓ) (ρ : Dev n → PrngReg)
    (hfresh : ∀ d, ∀ op ∈ ops d, op.fresh = ∅) :
    θ_run dfs (onTc (τ := t) mn) ⟨m, fun _ => 0, ρ⟩ fun r =>
      ∀ (d : Dev n) (b : Ref s .tc), r.2.mem ((d.tc : Thread n t).loc b) = after (ops d) (launchContents m d) (Proc.devRef .tc b) :=
  run_seq hR hC dfs mn ops hmain (fun d => List.forall_iff_forall_mem.mpr (hS d)) m ρ hfresh

/-- From any memory with zero counters every weakly fair execution of @main terminates, and every final state has each
    TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after rops (launchContents m c) (b : DevRef τ sig) :=
  run_seq_of_mem scopedRefs_eq scopedSems_eq defs main (fun _ => rops) main_eq (fun _ => ops_sub) m ρ (fun _ => ops_fresh)

/-! ## The valuations stage after stage -/

/-- The buffers' contents after the first stages (as many as the name says), from contents V. -/
def U0 (V : Valuation τ sig (Elt F)) : Valuation τ sig (Elt F) := V
def U1 (V : Valuation τ sig (Elt F)) : Valuation τ sig (Elt F) := after rchunk0 (U0 V)
def U2 (V : Valuation τ sig (Elt F)) : Valuation τ sig (Elt F) := after rchunk1 (U1 V)
def U3 (V : Valuation τ sig (Elt F)) : Valuation τ sig (Elt F) := after rchunk2 (U2 V)
def U4 (V : Valuation τ sig (Elt F)) : Valuation τ sig (Elt F) := after rchunk3 (U3 V)
def U5 (V : Valuation τ sig (Elt F)) : Valuation τ sig (Elt F) := after rchunk4 (U4 V)
def U6 (V : Valuation τ sig (Elt F)) : Valuation τ sig (Elt F) := after rchunk5 (U5 V)
def U7 (V : Valuation τ sig (Elt F)) : Valuation τ sig (Elt F) := after rchunk6 (U6 V)
def U8 (V : Valuation τ sig (Elt F)) : Valuation τ sig (Elt F) := after rchunk7 (U7 V)
def U9 (V : Valuation τ sig (Elt F)) : Valuation τ sig (Elt F) := after rchunk8 (U8 V)
def U10 (V : Valuation τ sig (Elt F)) : Valuation τ sig (Elt F) := after rchunk9 (U9 V)
def U11 (V : Valuation τ sig (Elt F)) : Valuation τ sig (Elt F) := after rchunk10 (U10 V)
def U12 (V : Valuation τ sig (Elt F)) : Valuation τ sig (Elt F) := after rchunk11 (U11 V)
def U13 (V : Valuation τ sig (Elt F)) : Valuation τ sig (Elt F) := after rchunk12 (U12 V)
def U14 (V : Valuation τ sig (Elt F)) : Valuation τ sig (Elt F) := after rchunk13 (U13 V)
def U15 (V : Valuation τ sig (Elt F)) : Valuation τ sig (Elt F) := after rchunk14 (U14 V)
def U16 (V : Valuation τ sig (Elt F)) : Valuation τ sig (Elt F) := after rchunk15 (U15 V)
def U17 (V : Valuation τ sig (Elt F)) : Valuation τ sig (Elt F) := after rchunk16 (U16 V)
def U18 (V : Valuation τ sig (Elt F)) : Valuation τ sig (Elt F) := after rchunk17 (U17 V)
def U19 (V : Valuation τ sig (Elt F)) : Valuation τ sig (Elt F) := after rchunk18 (U18 V)
def U20 (V : Valuation τ sig (Elt F)) : Valuation τ sig (Elt F) := after rchunk19 (U19 V)
def U21 (V : Valuation τ sig (Elt F)) : Valuation τ sig (Elt F) := after rchunk20 (U20 V)
def U22 (V : Valuation τ sig (Elt F)) : Valuation τ sig (Elt F) := after rchunk21 (U21 V)
def U23 (V : Valuation τ sig (Elt F)) : Valuation τ sig (Elt F) := after rchunk22 (U22 V)

theorem U0_eq (V : Valuation τ sig (Elt F)) : U0 V = V := rfl
theorem U1_eq (V : Valuation τ sig (Elt F)) : U1 V = after rchunk0 (U0 V) := rfl
theorem U2_eq (V : Valuation τ sig (Elt F)) : U2 V = after rchunk1 (U1 V) := rfl
theorem U3_eq (V : Valuation τ sig (Elt F)) : U3 V = after rchunk2 (U2 V) := rfl
theorem U4_eq (V : Valuation τ sig (Elt F)) : U4 V = after rchunk3 (U3 V) := rfl
theorem U5_eq (V : Valuation τ sig (Elt F)) : U5 V = after rchunk4 (U4 V) := rfl
theorem U6_eq (V : Valuation τ sig (Elt F)) : U6 V = after rchunk5 (U5 V) := rfl
theorem U7_eq (V : Valuation τ sig (Elt F)) : U7 V = after rchunk6 (U6 V) := rfl
theorem U8_eq (V : Valuation τ sig (Elt F)) : U8 V = after rchunk7 (U7 V) := rfl
theorem U9_eq (V : Valuation τ sig (Elt F)) : U9 V = after rchunk8 (U8 V) := rfl
theorem U10_eq (V : Valuation τ sig (Elt F)) : U10 V = after rchunk9 (U9 V) := rfl
theorem U11_eq (V : Valuation τ sig (Elt F)) : U11 V = after rchunk10 (U10 V) := rfl
theorem U12_eq (V : Valuation τ sig (Elt F)) : U12 V = after rchunk11 (U11 V) := rfl
theorem U13_eq (V : Valuation τ sig (Elt F)) : U13 V = after rchunk12 (U12 V) := rfl
theorem U14_eq (V : Valuation τ sig (Elt F)) : U14 V = after rchunk13 (U13 V) := rfl
theorem U15_eq (V : Valuation τ sig (Elt F)) : U15 V = after rchunk14 (U14 V) := rfl
theorem U16_eq (V : Valuation τ sig (Elt F)) : U16 V = after rchunk15 (U15 V) := rfl
theorem U17_eq (V : Valuation τ sig (Elt F)) : U17 V = after rchunk16 (U16 V) := rfl
theorem U18_eq (V : Valuation τ sig (Elt F)) : U18 V = after rchunk17 (U17 V) := rfl
theorem U19_eq (V : Valuation τ sig (Elt F)) : U19 V = after rchunk18 (U18 V) := rfl
theorem U20_eq (V : Valuation τ sig (Elt F)) : U20 V = after rchunk19 (U19 V) := rfl
theorem U21_eq (V : Valuation τ sig (Elt F)) : U21 V = after rchunk20 (U20 V) := rfl
theorem U22_eq (V : Valuation τ sig (Elt F)) : U22 V = after rchunk21 (U21 V) := rfl
theorem U23_eq (V : Valuation τ sig (Elt F)) : U23 V = after rchunk22 (U22 V) := rfl

/-- The whole line's fold is the last of them. -/
theorem after_rops (V : Valuation τ sig (Elt F)) : after rops V = U23 V := by
  simp only [rops, after_append]
  rfl

end Cert.ReferenceIdeal.Hand

end
-- ==== Proof.RRunKept.lean ====
import proofs.«403290_j73710228734482_1_alg».proof.Proof.RRun

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## What a stage writes, and that every other buffer keeps its contents -/

/-- A line whose operations write, in order, the singletons of the listed references writes within the list. -/
theorem writes_sub_of_map_eq {ops : List (HloOp τ sig (Elt F))} {W : List (Ref sig .tc)}
    (h : ops.map (fun op => op.writes) = W.map fun y => ({Proc.devRef (τ := τ) .tc y} : Finset (DevRef τ sig))) :
    ops.Forall fun op => op.writes ⊆ (W.map (Proc.devRef (τ := τ) .tc)).toFinset :=
  List.forall_iff_forall_mem.mpr fun op hop => by
    have hm : op.writes ∈ W.map fun y => ({Proc.devRef (τ := τ) .tc y} : Finset (DevRef τ sig)) := h ▸ List.mem_map_of_mem hop
    obtain ⟨y, hy, e⟩ := List.mem_map.mp hm
    rw [← e]
    exact Finset.singleton_subset_iff.mpr (List.mem_toFinset.mpr (List.mem_map_of_mem hy))

/-- A reference whose index is not among the indices of a list's references is not in the list. -/
theorem not_mem_of_idx {W : List (Ref sig .tc)} {r : Ref sig .tc} (h : r.idx.val ∉ W.map (fun y => y.idx.val)) : r ∉ W :=
  fun hr => h (List.mem_map_of_mem hr)

/-- The buffers stage 0 writes, in order, and their indices. -/
noncomputable def rwrites0 : List (Ref sig .tc) :=
  [main_v0, main_v1, main_v2, main_v3, main_v4, main_c, main_v5, main_v6, main_c_0, main_v7, main_v8, main_v9, main_v10, main_v11, main_v12, main_v13, main_v14, main_v15, main_v16, main_v17, main_v18, main_v19, main_v20, main_c_1, main_v21, main_v22, main_c_2, main_v23, main_v24, main_v25, main_v26, main_v27, main_v28, main_call0_cst, main_call0_v0, main_v29]
def rwidx0 : List Nat :=
  [23, 24, 25, 26, 27, 28, 29, 30, 31, 32, 33, 34, 35, 36, 37, 38, 39, 40, 41, 42, 43, 44, 45, 46, 47, 48, 49, 50, 51, 52, 53, 54, 55, 56, 57, 58]
theorem rwrites0_idx : rwrites0.map (fun y => y.idx.val) = rwidx0 := rfl
set_option maxRecDepth 8192 in
theorem rchunk0_writes : (rchunk0 : List (HloOp τ sig (Elt F))).Forall fun op =>
    op.writes ⊆ ((rwrites0).map (Proc.devRef (τ := τ) .tc)).toFinset :=
  writes_sub_of_map_eq rfl
/-- A buffer stage 0 does not write (its index is none of the written ones) keeps its contents. -/
theorem kept0 (X : Valuation τ sig (Elt F)) (r : Ref sig .tc) (hr : r.idx.val ∉ rwidx0) :
    after rchunk0 X (Proc.devRef .tc r) = X (Proc.devRef .tc r) :=
  after_of_writes_sub rchunk0 X rchunk0_writes (not_mem_of_idx (rwrites0_idx ▸ hr))

/-- The buffers stage 1 writes, in order, and their indices. -/
noncomputable def rwrites1 : List (Ref sig .tc) :=
  [main_cst, main_v30, main_v31, main_v32, main_v33, main_v34, main_v35, main_v36, main_v37, main_v38, main_v39, main_v40, main_v41]
def rwidx1 : List Nat :=
  [59, 60, 61, 62, 63, 64, 65, 66, 67, 68, 69, 70, 71]
theorem rwrites1_idx : rwrites1.map (fun y => y.idx.val) = rwidx1 := rfl
set_option maxRecDepth 8192 in
theorem rchunk1_writes : (rchunk1 : List (HloOp τ sig (Elt F))).Forall fun op =>
    op.writes ⊆ ((rwrites1).map (Proc.devRef (τ := τ) .tc)).toFinset :=
  writes_sub_of_map_eq rfl
/-- A buffer stage 1 does not write (its index is none of the written ones) keeps its contents. -/
theorem kept1 (X : Valuation τ sig (Elt F)) (r : Ref sig .tc) (hr : r.idx.val ∉ rwidx1) :
    after rchunk1 X (Proc.devRef .tc r) = X (Proc.devRef .tc r) :=
  after_of_writes_sub rchunk1 X rchunk1_writes (not_mem_of_idx (rwrites1_idx ▸ hr))

/-- The buffers stage 2 writes, in order, and their indices. -/
noncomputable def rwrites2 : List (Ref sig .tc) :=
  [main_v42, main_v43, main_v44, main_v45, main_cst_3, main_v46, main_cst_4, main_v47, main_v48, main_c_5, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v49, main_v50, main_v51, main_v52, main_v53, main_v54, main_v55, main_cst_6, main_v56, main_v57, main_v58, main_v59, main_v60, main_v61, main_v62, main_v63, main_v64, main_call2_cst, main_call2_v0, main_v65]
def rwidx2 : List Nat :=
  [72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122]
theorem rwrites2_idx : rwrites2.map (fun y => y.idx.val) = rwidx2 := rfl
set_option maxRecDepth 8192 in
theorem rchunk2_writes : (rchunk2 : List (HloOp τ sig (Elt F))).Forall fun op =>
    op.writes ⊆ ((rwrites2).map (Proc.devRef (τ := τ) .tc)).toFinset :=
  writes_sub_of_map_eq rfl
/-- A buffer stage 2 does not write (its index is none of the written ones) keeps its contents. -/
theorem kept2 (X : Valuation τ sig (Elt F)) (r : Ref sig .tc) (hr : r.idx.val ∉ rwidx2) :
    after rchunk2 X (Proc.devRef .tc r) = X (Proc.devRef .tc r) :=
  after_of_writes_sub rchunk2 X rchunk2_writes (not_mem_of_idx (rwrites2_idx ▸ hr))

/-- The buffers stage 3 writes, in order, and their indices. -/
noncomputable def rwrites3 : List (Ref sig .tc) :=
  [main_v66, main_v67, main_v68, main_v69, main_v70, main_v71, main_v72, main_v73]
def rwidx3 : List Nat :=
  [123, 124, 125, 126, 127, 128, 129, 130]
theorem rwrites3_idx : rwrites3.map (fun y => y.idx.val) = rwidx3 := rfl
set_option maxRecDepth 8192 in
theorem rchunk3_writes : (rchunk3 : List (HloOp τ sig (Elt F))).Forall fun op =>
    op.writes ⊆ ((rwrites3).map (Proc.devRef (τ := τ) .tc)).toFinset :=
  writes_sub_of_map_eq rfl
/-- A buffer stage 3 does not write (its index is none of the written ones) keeps its contents. -/
theorem kept3 (X : Valuation τ sig (Elt F)) (r : Ref sig .tc) (hr : r.idx.val ∉ rwidx3) :
    after rchunk3 X (Proc.devRef .tc r) = X (Proc.devRef .tc r) :=
  after_of_writes_sub rchunk3 X rchunk3_writes (not_mem_of_idx (rwrites3_idx ▸ hr))

/-- The buffers stage 4 writes, in order, and their indices. -/
noncomputable def rwrites4 : List (Ref sig .tc) :=
  [main_v74, main_v75, main_v76, main_v77, main_cst_7, main_v78, main_cst_8, main_v79, main_v80, main_c_9, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v81, main_v82, main_v83, main_v84, main_v85, main_v86, main_v87, main_cst_10, main_v88, main_v89, main_v90, main_v91, main_v92, main_v93, main_v94, main_v95, main_v96, main_call4_cst, main_call4_v0, main_v97]
def rwidx4 : List Nat :=
  [131, 132, 133, 134, 135, 136, 137, 138, 139, 140, 141, 142, 143, 144, 145, 146, 147, 148, 149, 150, 151, 152, 153, 154, 155, 156, 157, 158, 159, 160, 161, 162, 163, 164, 165, 166, 167, 168, 169, 170, 171, 172, 173, 174, 175, 176, 177, 178, 179, 180, 181]
theorem rwrites4_idx : rwrites4.map (fun y => y.idx.val) = rwidx4 := rfl
set_option maxRecDepth 8192 in
theorem rchunk4_writes : (rchunk4 : List (HloOp τ sig (Elt F))).Forall fun op =>
    op.writes ⊆ ((rwrites4).map (Proc.devRef (τ := τ) .tc)).toFinset :=
  writes_sub_of_map_eq rfl
/-- A buffer stage 4 does not write (its index is none of the written ones) keeps its contents. -/
theorem kept4 (X : Valuation τ sig (Elt F)) (r : Ref sig .tc) (hr : r.idx.val ∉ rwidx4) :
    after rchunk4 X (Proc.devRef .tc r) = X (Proc.devRef .tc r) :=
  after_of_writes_sub rchunk4 X rchunk4_writes (not_mem_of_idx (rwrites4_idx ▸ hr))

/-- The buffers stage 5 writes, in order, and their indices. -/
noncomputable def rwrites5 : List (Ref sig .tc) :=
  [main_cst_11, main_v98, main_v99, main_v100, main_v101, main_v102, main_v103, main_v104, main_v105, main_v106, main_v107, main_v108, main_v109]
def rwidx5 : List Nat :=
  [182, 183, 184, 185, 186, 187, 188, 189, 190, 191, 192, 193, 194]
theorem rwrites5_idx : rwrites5.map (fun y => y.idx.val) = rwidx5 := rfl
set_option maxRecDepth 8192 in
theorem rchunk5_writes : (rchunk5 : List (HloOp τ sig (Elt F))).Forall fun op =>
    op.writes ⊆ ((rwrites5).map (Proc.devRef (τ := τ) .tc)).toFinset :=
  writes_sub_of_map_eq rfl
/-- A buffer stage 5 does not write (its index is none of the written ones) keeps its contents. -/
theorem kept5 (X : Valuation τ sig (Elt F)) (r : Ref sig .tc) (hr : r.idx.val ∉ rwidx5) :
    after rchunk5 X (Proc.devRef .tc r) = X (Proc.devRef .tc r) :=
  after_of_writes_sub rchunk5 X rchunk5_writes (not_mem_of_idx (rwrites5_idx ▸ hr))

/-- The buffers stage 6 writes, in order, and their indices. -/
noncomputable def rwrites6 : List (Ref sig .tc) :=
  [main_v110, main_v111, main_v112, main_v113, main_cst_12, main_v114, main_cst_13, main_v115, main_v116, main_c_14, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v117, main_v118, main_v119, main_v120, main_v121, main_v122, main_v123, main_cst_15, main_v124, main_v125, main_v126, main_v127, main_v128, main_v129, main_v130, main_v131, main_v132, main_call6_cst, main_call6_v0, main_v133]
def rwidx6 : List Nat :=
  [195, 196, 197, 198, 199, 200, 201, 202, 203, 204, 205, 206, 207, 208, 209, 210, 211, 212, 213, 214, 215, 216, 217, 218, 219, 220, 221, 222, 223, 224, 225, 226, 227, 228, 229, 230, 231, 232, 233, 234, 235, 236, 237, 238, 239, 240, 241, 242, 243, 244, 245]
theorem rwrites6_idx : rwrites6.map (fun y => y.idx.val) = rwidx6 := rfl
set_option maxRecDepth 8192 in
theorem rchunk6_writes : (rchunk6 : List (HloOp τ sig (Elt F))).Forall fun op =>
    op.writes ⊆ ((rwrites6).map (Proc.devRef (τ := τ) .tc)).toFinset :=
  writes_sub_of_map_eq rfl
/-- A buffer stage 6 does not write (its index is none of the written ones) keeps its contents. -/
theorem kept6 (X : Valuation τ sig (Elt F)) (r : Ref sig .tc) (hr : r.idx.val ∉ rwidx6) :
    after rchunk6 X (Proc.devRef .tc r) = X (Proc.devRef .tc r) :=
  after_of_writes_sub rchunk6 X rchunk6_writes (not_mem_of_idx (rwrites6_idx ▸ hr))

/-- The buffers stage 7 writes, in order, and their indices. -/
noncomputable def rwrites7 : List (Ref sig .tc) :=
  [main_v134, main_v135, main_v136, main_v137, main_v138, main_v139, main_v140, main_v141]
def rwidx7 : List Nat :=
  [246, 247, 248, 249, 250, 251, 252, 253]
theorem rwrites7_idx : rwrites7.map (fun y => y.idx.val) = rwidx7 := rfl
set_option maxRecDepth 8192 in
theorem rchunk7_writes : (rchunk7 : List (HloOp τ sig (Elt F))).Forall fun op =>
    op.writes ⊆ ((rwrites7).map (Proc.devRef (τ := τ) .tc)).toFinset :=
  writes_sub_of_map_eq rfl
/-- A buffer stage 7 does not write (its index is none of the written ones) keeps its contents. -/
theorem kept7 (X : Valuation τ sig (Elt F)) (r : Ref sig .tc) (hr : r.idx.val ∉ rwidx7) :
    after rchunk7 X (Proc.devRef .tc r) = X (Proc.devRef .tc r) :=
  after_of_writes_sub rchunk7 X rchunk7_writes (not_mem_of_idx (rwrites7_idx ▸ hr))

/-- The buffers stage 8 writes, in order, and their indices. -/
noncomputable def rwrites8 : List (Ref sig .tc) :=
  [main_v142, main_v143, main_v144, main_v145, main_cst_16, main_v146, main_cst_17, main_v147, main_v148, main_c_18, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v149, main_v150, main_v151, main_v152, main_v153, main_v154, main_v155, main_cst_19, main_v156, main_v157, main_v158, main_v159, main_v160, main_v161, main_v162, main_v163, main_v164, main_call8_cst, main_call8_v0, main_v165]
def rwidx8 : List Nat :=
  [254, 255, 256, 257, 258, 259, 260, 261, 262, 263, 264, 265, 266, 267, 268, 269, 270, 271, 272, 273, 274, 275, 276, 277, 278, 279, 280, 281, 282, 283, 284, 285, 286, 287, 288, 289, 290, 291, 292, 293, 294, 295, 296, 297, 298, 299, 300, 301, 302, 303, 304]
theorem rwrites8_idx : rwrites8.map (fun y => y.idx.val) = rwidx8 := rfl
set_option maxRecDepth 8192 in
theorem rchunk8_writes : (rchunk8 : List (HloOp τ sig (Elt F))).Forall fun op =>
    op.writes ⊆ ((rwrites8).map (Proc.devRef (τ := τ) .tc)).toFinset :=
  writes_sub_of_map_eq rfl
/-- A buffer stage 8 does not write (its index is none of the written ones) keeps its contents. -/
theorem kept8 (X : Valuation τ sig (Elt F)) (r : Ref sig .tc) (hr : r.idx.val ∉ rwidx8) :
    after rchunk8 X (Proc.devRef .tc r) = X (Proc.devRef .tc r) :=
  after_of_writes_sub rchunk8 X rchunk8_writes (not_mem_of_idx (rwrites8_idx ▸ hr))

/-- The buffers stage 9 writes, in order, and their indices. -/
noncomputable def rwrites9 : List (Ref sig .tc) :=
  [main_c_20, main_v166, main_v167, main_c_21, main_v168, main_v169, main_v170, main_v171, main_v172, main_v173, main_v174, main_v175, main_v176, main_v177, main_v178, main_v179, main_v180, main_v181, main_c_22, main_v182, main_v183, main_c_23, main_v184, main_v185, main_v186, main_v187, main_v188, main_v189, main_call9_cst, main_call9_v0, main_v190]
def rwidx9 : List Nat :=
  [305, 306, 307, 308, 309, 310, 311, 312, 313, 314, 315, 316, 317, 318, 319, 320, 321, 322, 323, 324, 325, 326, 327, 328, 329, 330, 331, 332, 333, 334, 335]
theorem rwrites9_idx : rwrites9.map (fun y => y.idx.val) = rwidx9 := rfl
set_option maxRecDepth 8192 in
theorem rchunk9_writes : (rchunk9 : List (HloOp τ sig (Elt F))).Forall fun op =>
    op.writes ⊆ ((rwrites9).map (Proc.devRef (τ := τ) .tc)).toFinset :=
  writes_sub_of_map_eq rfl
/-- A buffer stage 9 does not write (its index is none of the written ones) keeps its contents. -/
theorem kept9 (X : Valuation τ sig (Elt F)) (r : Ref sig .tc) (hr : r.idx.val ∉ rwidx9) :
    after rchunk9 X (Proc.devRef .tc r) = X (Proc.devRef .tc r) :=
  after_of_writes_sub rchunk9 X rchunk9_writes (not_mem_of_idx (rwrites9_idx ▸ hr))

/-- The buffers stage 10 writes, in order, and their indices. -/
noncomputable def rwrites10 : List (Ref sig .tc) :=
  [main_cst_24, main_v191, main_v192, main_v193, main_v194, main_v195, main_v196, main_v197, main_v198, main_v199, main_v200, main_v201, main_v202]
def rwidx10 : List Nat :=
  [336, 337, 338, 339, 340, 341, 342, 343, 344, 345, 346, 347, 348]
theorem rwrites10_idx : rwrites10.map (fun y => y.idx.val) = rwidx10 := rfl
set_option maxRecDepth 8192 in
theorem rchunk10_writes : (rchunk10 : List (HloOp τ sig (Elt F))).Forall fun op =>
    op.writes ⊆ ((rwrites10).map (Proc.devRef (τ := τ) .tc)).toFinset :=
  writes_sub_of_map_eq rfl
/-- A buffer stage 10 does not write (its index is none of the written ones) keeps its contents. -/
theorem kept10 (X : Valuation τ sig (Elt F)) (r : Ref sig .tc) (hr : r.idx.val ∉ rwidx10) :
    after rchunk10 X (Proc.devRef .tc r) = X (Proc.devRef .tc r) :=
  after_of_writes_sub rchunk10 X rchunk10_writes (not_mem_of_idx (rwrites10_idx ▸ hr))

/-- The buffers stage 11 writes, in order, and their indices. -/
noncomputable def rwrites11 : List (Ref sig .tc) :=
  [main_v203, main_v204, main_v205, main_v206, main_cst_25, main_v207, main_cst_26, main_v208, main_v209, main_c_27, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v210, main_v211, main_v212, main_v213, main_v214, main_v215, main_v216, main_cst_28, main_v217, main_v218, main_v219, main_v220, main_v221, main_v222, main_v223, main_v224, main_v225, main_call11_cst, main_call11_v0, main_v226]
def rwidx11 : List Nat :=
  [349, 350, 351, 352, 353, 354, 355, 356, 357, 358, 359, 360, 361, 362, 363, 364, 365, 366, 367, 368, 369, 370, 371, 372, 373, 374, 375, 376, 377, 378, 379, 380, 381, 382, 383, 384, 385, 386, 387, 388, 389, 390, 391, 392, 393, 394, 395, 396, 397, 398, 399]
theorem rwrites11_idx : rwrites11.map (fun y => y.idx.val) = rwidx11 := rfl
set_option maxRecDepth 8192 in
theorem rchunk11_writes : (rchunk11 : List (HloOp τ sig (Elt F))).Forall fun op =>
    op.writes ⊆ ((rwrites11).map (Proc.devRef (τ := τ) .tc)).toFinset :=
  writes_sub_of_map_eq rfl
/-- A buffer stage 11 does not write (its index is none of the written ones) keeps its contents. -/
theorem kept11 (X : Valuation τ sig (Elt F)) (r : Ref sig .tc) (hr : r.idx.val ∉ rwidx11) :
    after rchunk11 X (Proc.devRef .tc r) = X (Proc.devRef .tc r) :=
  after_of_writes_sub rchunk11 X rchunk11_writes (not_mem_of_idx (rwrites11_idx ▸ hr))

/-- The buffers stage 12 writes, in order, and their indices. -/
noncomputable def rwrites12 : List (Ref sig .tc) :=
  [main_v227, main_v228, main_v229, main_v230, main_v231, main_v232, main_v233, main_v234]
def rwidx12 : List Nat :=
  [400, 401, 402, 403, 404, 405, 406, 407]
theorem rwrites12_idx : rwrites12.map (fun y => y.idx.val) = rwidx12 := rfl
set_option maxRecDepth 8192 in
theorem rchunk12_writes : (rchunk12 : List (HloOp τ sig (Elt F))).Forall fun op =>
    op.writes ⊆ ((rwrites12).map (Proc.devRef (τ := τ) .tc)).toFinset :=
  writes_sub_of_map_eq rfl
/-- A buffer stage 12 does not write (its index is none of the written ones) keeps its contents. -/
theorem kept12 (X : Valuation τ sig (Elt F)) (r : Ref sig .tc) (hr : r.idx.val ∉ rwidx12) :
    after rchunk12 X (Proc.devRef .tc r) = X (Proc.devRef .tc r) :=
  after_of_writes_sub rchunk12 X rchunk12_writes (not_mem_of_idx (rwrites12_idx ▸ hr))

/-- The buffers stage 13 writes, in order, and their indices. -/
noncomputable def rwrites13 : List (Ref sig .tc) :=
  [main_v235, main_v236, main_v237, main_v238, main_cst_29, main_v239, main_cst_30, main_v240, main_v241, main_c_31, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v242, main_v243, main_v244, main_v245, main_v246, main_v247, main_v248, main_cst_32, main_v249, main_v250, main_v251, main_v252, main_v253, main_v254, main_v255, main_v256, main_v257, main_call13_cst, main_call13_v0, main_v258]
def rwidx13 : List Nat :=
  [408, 409, 410, 411, 412, 413, 414, 415, 416, 417, 418, 419, 420, 421, 422, 423, 424, 425, 426, 427, 428, 429, 430, 431, 432, 433, 434, 435, 436, 437, 438, 439, 440, 441, 442, 443, 444, 445, 446, 447, 448, 449, 450, 451, 452, 453, 454, 455, 456, 457, 458]
theorem rwrites13_idx : rwrites13.map (fun y => y.idx.val) = rwidx13 := rfl
set_option maxRecDepth 8192 in
theorem rchunk13_writes : (rchunk13 : List (HloOp τ sig (Elt F))).Forall fun op =>
    op.writes ⊆ ((rwrites13).map (Proc.devRef (τ := τ) .tc)).toFinset :=
  writes_sub_of_map_eq rfl
/-- A buffer stage 13 does not write (its index is none of the written ones) keeps its contents. -/
theorem kept13 (X : Valuation τ sig (Elt F)) (r : Ref sig .tc) (hr : r.idx.val ∉ rwidx13) :
    after rchunk13 X (Proc.devRef .tc r) = X (Proc.devRef .tc r) :=
  after_of_writes_sub rchunk13 X rchunk13_writes (not_mem_of_idx (rwrites13_idx ▸ hr))

/-- The buffers stage 14 writes, in order, and their indices. -/
noncomputable def rwrites14 : List (Ref sig .tc) :=
  [main_cst_33, main_v259, main_v260, main_v261, main_v262, main_v263, main_v264, main_v265, main_v266, main_v267, main_v268, main_v269, main_v270]
def rwidx14 : List Nat :=
  [459, 460, 461, 462, 463, 464, 465, 466, 467, 468, 469, 470, 471]
theorem rwrites14_idx : rwrites14.map (fun y => y.idx.val) = rwidx14 := rfl
set_option maxRecDepth 8192 in
theorem rchunk14_writes : (rchunk14 : List (HloOp τ sig (Elt F))).Forall fun op =>
    op.writes ⊆ ((rwrites14).map (Proc.devRef (τ := τ) .tc)).toFinset :=
  writes_sub_of_map_eq rfl
/-- A buffer stage 14 does not write (its index is none of the written ones) keeps its contents. -/
theorem kept14 (X : Valuation τ sig (Elt F)) (r : Ref sig .tc) (hr : r.idx.val ∉ rwidx14) :
    after rchunk14 X (Proc.devRef .tc r) = X (Proc.devRef .tc r) :=
  after_of_writes_sub rchunk14 X rchunk14_writes (not_mem_of_idx (rwrites14_idx ▸ hr))

/-- The buffers stage 15 writes, in order, and their indices. -/
noncomputable def rwrites15 : List (Ref sig .tc) :=
  [main_v271, main_v272, main_v273, main_v274, main_cst_34, main_v275, main_cst_35, main_v276, main_v277, main_c_36, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v278, main_v279, main_v280, main_v281, main_v282, main_v283, main_v284, main_cst_37, main_v285, main_v286, main_v287, main_v288, main_v289, main_v290, main_v291, main_v292, main_v293, main_call15_cst, main_call15_v0, main_v294]
def rwidx15 : List Nat :=
  [472, 473, 474, 475, 476, 477, 478, 479, 480, 481, 482, 483, 484, 485, 486, 487, 488, 489, 490, 491, 492, 493, 494, 495, 496, 497, 498, 499, 500, 501, 502, 503, 504, 505, 506, 507, 508, 509, 510, 511, 512, 513, 514, 515, 516, 517, 518, 519, 520, 521, 522]
theorem rwrites15_idx : rwrites15.map (fun y => y.idx.val) = rwidx15 := rfl
set_option maxRecDepth 8192 in
theorem rchunk15_writes : (rchunk15 : List (HloOp τ sig (Elt F))).Forall fun op =>
    op.writes ⊆ ((rwrites15).map (Proc.devRef (τ := τ) .tc)).toFinset :=
  writes_sub_of_map_eq rfl
/-- A buffer stage 15 does not write (its index is none of the written ones) keeps its contents. -/
theorem kept15 (X : Valuation τ sig (Elt F)) (r : Ref sig .tc) (hr : r.idx.val ∉ rwidx15) :
    after rchunk15 X (Proc.devRef .tc r) = X (Proc.devRef .tc r) :=
  after_of_writes_sub rchunk15 X rchunk15_writes (not_mem_of_idx (rwrites15_idx ▸ hr))

/-- The buffers stage 16 writes, in order, and their indices. -/
noncomputable def rwrites16 : List (Ref sig .tc) :=
  [main_v295, main_v296, main_v297, main_v298, main_v299, main_v300, main_v301, main_v302]
def rwidx16 : List Nat :=
  [523, 524, 525, 526, 527, 528, 529, 530]
theorem rwrites16_idx : rwrites16.map (fun y => y.idx.val) = rwidx16 := rfl
set_option maxRecDepth 8192 in
theorem rchunk16_writes : (rchunk16 : List (HloOp τ sig (Elt F))).Forall fun op =>
    op.writes ⊆ ((rwrites16).map (Proc.devRef (τ := τ) .tc)).toFinset :=
  writes_sub_of_map_eq rfl
/-- A buffer stage 16 does not write (its index is none of the written ones) keeps its contents. -/
theorem kept16 (X : Valuation τ sig (Elt F)) (r : Ref sig .tc) (hr : r.idx.val ∉ rwidx16) :
    after rchunk16 X (Proc.devRef .tc r) = X (Proc.devRef .tc r) :=
  after_of_writes_sub rchunk16 X rchunk16_writes (not_mem_of_idx (rwrites16_idx ▸ hr))

/-- The buffers stage 17 writes, in order, and their indices. -/
noncomputable def rwrites17 : List (Ref sig .tc) :=
  [main_v303, main_v304, main_v305, main_v306, main_cst_38, main_v307, main_cst_39, main_v308, main_v309, main_c_40, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v310, main_v311, main_v312, main_v313, main_v314, main_v315, main_v316, main_cst_41, main_v317, main_v318, main_v319, main_v320, main_v321, main_v322, main_v323, main_v324, main_v325, main_call17_cst, main_call17_v0, main_v326]
def rwidx17 : List Nat :=
  [531, 532, 533, 534, 535, 536, 537, 538, 539, 540, 541, 542, 543, 544, 545, 546, 547, 548, 549, 550, 551, 552, 553, 554, 555, 556, 557, 558, 559, 560, 561, 562, 563, 564, 565, 566, 567, 568, 569, 570, 571, 572, 573, 574, 575, 576, 577, 578, 579, 580, 581]
theorem rwrites17_idx : rwrites17.map (fun y => y.idx.val) = rwidx17 := rfl
set_option maxRecDepth 8192 in
theorem rchunk17_writes : (rchunk17 : List (HloOp τ sig (Elt F))).Forall fun op =>
    op.writes ⊆ ((rwrites17).map (Proc.devRef (τ := τ) .tc)).toFinset :=
  writes_sub_of_map_eq rfl
/-- A buffer stage 17 does not write (its index is none of the written ones) keeps its contents. -/
theorem kept17 (X : Valuation τ sig (Elt F)) (r : Ref sig .tc) (hr : r.idx.val ∉ rwidx17) :
    after rchunk17 X (Proc.devRef .tc r) = X (Proc.devRef .tc r) :=
  after_of_writes_sub rchunk17 X rchunk17_writes (not_mem_of_idx (rwrites17_idx ▸ hr))

/-- The buffers stage 18 writes, in order, and their indices. -/
noncomputable def rwrites18 : List (Ref sig .tc) :=
  [main_c_42, main_v327, main_v328, main_c_43, main_v329, main_v330, main_v331, main_v332, main_v333, main_v334, main_v335, main_v336, main_v337, main_v338, main_v339, main_v340, main_v341, main_v342, main_c_44, main_v343, main_v344, main_c_45, main_v345, main_v346, main_v347, main_v348, main_v349, main_v350, main_call18_cst, main_call18_v0, main_v351]
def rwidx18 : List Nat :=
  [582, 583, 584, 585, 586, 587, 588, 589, 590, 591, 592, 593, 594, 595, 596, 597, 598, 599, 600, 601, 602, 603, 604, 605, 606, 607, 608, 609, 610, 611, 612]
theorem rwrites18_idx : rwrites18.map (fun y => y.idx.val) = rwidx18 := rfl
set_option maxRecDepth 8192 in
theorem rchunk18_writes : (rchunk18 : List (HloOp τ sig (Elt F))).Forall fun op =>
    op.writes ⊆ ((rwrites18).map (Proc.devRef (τ := τ) .tc)).toFinset :=
  writes_sub_of_map_eq rfl
/-- A buffer stage 18 does not write (its index is none of the written ones) keeps its contents. -/
theorem kept18 (X : Valuation τ sig (Elt F)) (r : Ref sig .tc) (hr : r.idx.val ∉ rwidx18) :
    after rchunk18 X (Proc.devRef .tc r) = X (Proc.devRef .tc r) :=
  after_of_writes_sub rchunk18 X rchunk18_writes (not_mem_of_idx (rwrites18_idx ▸ hr))

/-- The buffers stage 19 writes, in order, and their indices. -/
noncomputable def rwrites19 : List (Ref sig .tc) :=
  [main_cst_46, main_v352, main_v353, main_v354, main_v355, main_v356, main_v357, main_v358, main_v359, main_v360, main_v361, main_v362, main_v363]
def rwidx19 : List Nat :=
  [613, 614, 615, 616, 617, 618, 619, 620, 621, 622, 623, 624, 625]
theorem rwrites19_idx : rwrites19.map (fun y => y.idx.val) = rwidx19 := rfl
set_option maxRecDepth 8192 in
theorem rchunk19_writes : (rchunk19 : List (HloOp τ sig (Elt F))).Forall fun op =>
    op.writes ⊆ ((rwrites19).map (Proc.devRef (τ := τ) .tc)).toFinset :=
  writes_sub_of_map_eq rfl
/-- A buffer stage 19 does not write (its index is none of the written ones) keeps its contents. -/
theorem kept19 (X : Valuation τ sig (Elt F)) (r : Ref sig .tc) (hr : r.idx.val ∉ rwidx19) :
    after rchunk19 X (Proc.devRef .tc r) = X (Proc.devRef .tc r) :=
  after_of_writes_sub rchunk19 X rchunk19_writes (not_mem_of_idx (rwrites19_idx ▸ hr))

/-- The buffers stage 20 writes, in order, and their indices. -/
noncomputable def rwrites20 : List (Ref sig .tc) :=
  [main_v364, main_v365, main_v366, main_v367, main_cst_47, main_v368, main_cst_48, main_v369, main_v370, main_c_49, main_call19_cst, main_call19_v0, main_call19_v1, main_call19_cst_0, main_call19_v2, main_call19_v3, main_call19_v4, main_call19_v5, main_call19_v6, main_call19_v7, main_call19_cst_1, main_call19_v8, main_call19_cst_2, main_call19_v9, main_call19_v10, main_call19_v11, main_call19_cst_3, main_call19_v12, main_call19_cst_4, main_call19_call0_v0, main_call19_call0_v1, main_v371, main_v372, main_v373, main_v374, main_v375, main_v376, main_v377, main_cst_50, main_v378, main_v379, main_v380, main_v381, main_v382, main_v383, main_v384, main_v385, main_v386, main_call20_cst, main_call20_v0, main_v387]
def rwidx20 : List Nat :=
  [626, 627, 628, 629, 630, 631, 632, 633, 634, 635, 636, 637, 638, 639, 640, 641, 642, 643, 644, 645, 646, 647, 648, 649, 650, 651, 652, 653, 654, 655, 656, 657, 658, 659, 660, 661, 662, 663, 664, 665, 666, 667, 668, 669, 670, 671, 672, 673, 674, 675, 676]
theorem rwrites20_idx : rwrites20.map (fun y => y.idx.val) = rwidx20 := rfl
set_option maxRecDepth 8192 in
theorem rchunk20_writes : (rchunk20 : List (HloOp τ sig (Elt F))).Forall fun op =>
    op.writes ⊆ ((rwrites20).map (Proc.devRef (τ := τ) .tc)).toFinset :=
  writes_sub_of_map_eq rfl
/-- A buffer stage 20 does not write (its index is none of the written ones) keeps its contents. -/
theorem kept20 (X : Valuation τ sig (Elt F)) (r : Ref sig .tc) (hr : r.idx.val ∉ rwidx20) :
    after rchunk20 X (Proc.devRef .tc r) = X (Proc.devRef .tc r) :=
  after_of_writes_sub rchunk20 X rchunk20_writes (not_mem_of_idx (rwrites20_idx ▸ hr))

/-- The buffers stage 21 writes, in order, and their indices. -/
noncomputable def rwrites21 : List (Ref sig .tc) :=
  [main_v388, main_v389, main_v390, main_v391, main_v392, main_v393, main_v394, main_v395]
def rwidx21 : List Nat :=
  [677, 678, 679, 680, 681, 682, 683, 684]
theorem rwrites21_idx : rwrites21.map (fun y => y.idx.val) = rwidx21 := rfl
set_option maxRecDepth 8192 in
theorem rchunk21_writes : (rchunk21 : List (HloOp τ sig (Elt F))).Forall fun op =>
    op.writes ⊆ ((rwrites21).map (Proc.devRef (τ := τ) .tc)).toFinset :=
  writes_sub_of_map_eq rfl
/-- A buffer stage 21 does not write (its index is none of the written ones) keeps its contents. -/
theorem kept21 (X : Valuation τ sig (Elt F)) (r : Ref sig .tc) (hr : r.idx.val ∉ rwidx21) :
    after rchunk21 X (Proc.devRef .tc r) = X (Proc.devRef .tc r) :=
  after_of_writes_sub rchunk21 X rchunk21_writes (not_mem_of_idx (rwrites21_idx ▸ hr))

/-- The buffers stage 22 writes, in order, and their indices. -/
noncomputable def rwrites22 : List (Ref sig .tc) :=
  [main_v396, main_v397, main_v398, main_v399, main_cst_51, main_v400, main_cst_52, main_v401, main_v402, main_c_53, main_call21_cst, main_call21_v0, main_call21_v1, main_call21_cst_0, main_call21_v2, main_call21_v3, main_call21_v4, main_call21_v5, main_call21_v6, main_call21_v7, main_call21_cst_1, main_call21_v8, main_call21_cst_2, main_call21_v9, main_call21_v10, main_call21_v11, main_call21_cst_3, main_call21_v12, main_call21_cst_4, main_call21_call0_v0, main_call21_call0_v1, main_v403, main_v404, main_v405, main_v406, main_v407, main_v408, main_v409, main_cst_54, main_v410, main_v411, main_v412, main_v413, main_v414, main_v415, main_v416, main_v417, main_v418]
def rwidx22 : List Nat :=
  [685, 686, 687, 688, 689, 690, 691, 692, 693, 694, 695, 696, 697, 698, 699, 700, 701, 702, 703, 704, 705, 706, 707, 708, 709, 710, 711, 712, 713, 714, 715, 716, 717, 718, 719, 720, 721, 722, 723, 724, 725, 726, 727, 728, 729, 730, 731, 732]
theorem rwrites22_idx : rwrites22.map (fun y => y.idx.val) = rwidx22 := rfl
set_option maxRecDepth 8192 in
theorem rchunk22_writes : (rchunk22 : List (HloOp τ sig (Elt F))).Forall fun op =>
    op.writes ⊆ ((rwrites22).map (Proc.devRef (τ := τ) .tc)).toFinset :=
  writes_sub_of_map_eq rfl
/-- A buffer stage 22 does not write (its index is none of the written ones) keeps its contents. -/
theorem kept22 (X : Valuation τ sig (Elt F)) (r : Ref sig .tc) (hr : r.idx.val ∉ rwidx22) :
    after rchunk22 X (Proc.devRef .tc r) = X (Proc.devRef .tc r) :=
  after_of_writes_sub rchunk22 X rchunk22_writes (not_mem_of_idx (rwrites22_idx ▸ hr))

end Cert.ReferenceIdeal.Hand

end
-- ==== Proof.RRunArgs.lean ====
import proofs.«403290_j73710228734482_1_alg».proof.Proof.RRunKept

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The arguments end as launched -/

/-- The argument buffers: the first 23 references. -/
noncomputable def rargs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]
theorem rargs_idx : rargs.map (fun y => y.idx.val) = [0, 1, 2, 3, 4, 5, 6, 7, 8, 9, 10, 11, 12, 13, 14, 15, 16, 17, 18, 19, 20, 21, 22] := rfl
theorem lt_of_mem_first : ∀ n ∈ [0, 1, 2, 3, 4, 5, 6, 7, 8, 9, 10, 11, 12, 13, 14, 15, 16, 17, 18, 19, 20, 21, 22], n < 23 := by decide +kernel
theorem rargs_idx_lt : ∀ r ∈ rargs, r.idx.val < 23 := fun r hr =>
  lt_of_mem_first _ (rargs_idx ▸ List.mem_map_of_mem (f := fun y : Ref sig .tc => y.idx.val) hr)

theorem rwidx0_ge : ∀ n ∈ rwidx0, 23 ≤ n := by decide +kernel
theorem rargs_not_written0 : ∀ r ∈ rargs, r.idx.val ∉ rwidx0 :=
  fun r hr h => absurd (rwidx0_ge _ h) (Nat.not_le.mpr (rargs_idx_lt r hr))
theorem rwidx1_ge : ∀ n ∈ rwidx1, 23 ≤ n := by decide +kernel
theorem rargs_not_written1 : ∀ r ∈ rargs, r.idx.val ∉ rwidx1 :=
  fun r hr h => absurd (rwidx1_ge _ h) (Nat.not_le.mpr (rargs_idx_lt r hr))
theorem rwidx2_ge : ∀ n ∈ rwidx2, 23 ≤ n := by decide +kernel
theorem rargs_not_written2 : ∀ r ∈ rargs, r.idx.val ∉ rwidx2 :=
  fun r hr h => absurd (rwidx2_ge _ h) (Nat.not_le.mpr (rargs_idx_lt r hr))
theorem rwidx3_ge : ∀ n ∈ rwidx3, 23 ≤ n := by decide +kernel
theorem rargs_not_written3 : ∀ r ∈ rargs, r.idx.val ∉ rwidx3 :=
  fun r hr h => absurd (rwidx3_ge _ h) (Nat.not_le.mpr (rargs_idx_lt r hr))
theorem rwidx4_ge : ∀ n ∈ rwidx4, 23 ≤ n := by decide +kernel
theorem rargs_not_written4 : ∀ r ∈ rargs, r.idx.val ∉ rwidx4 :=
  fun r hr h => absurd (rwidx4_ge _ h) (Nat.not_le.mpr (rargs_idx_lt r hr))
theorem rwidx5_ge : ∀ n ∈ rwidx5, 23 ≤ n := by decide +kernel
theorem rargs_not_written5 : ∀ r ∈ rargs, r.idx.val ∉ rwidx5 :=
  fun r hr h => absurd (rwidx5_ge _ h) (Nat.not_le.mpr (rargs_idx_lt r hr))
theorem rwidx6_ge : ∀ n ∈ rwidx6, 23 ≤ n := by decide +kernel
theorem rargs_not_written6 : ∀ r ∈ rargs, r.idx.val ∉ rwidx6 :=
  fun r hr h => absurd (rwidx6_ge _ h) (Nat.not_le.mpr (rargs_idx_lt r hr))
theorem rwidx7_ge : ∀ n ∈ rwidx7, 23 ≤ n := by decide +kernel
theorem rargs_not_written7 : ∀ r ∈ rargs, r.idx.val ∉ rwidx7 :=
  fun r hr h => absurd (rwidx7_ge _ h) (Nat.not_le.mpr (rargs_idx_lt r hr))
theorem rwidx8_ge : ∀ n ∈ rwidx8, 23 ≤ n := by decide +kernel
theorem rargs_not_written8 : ∀ r ∈ rargs, r.idx.val ∉ rwidx8 :=
  fun r hr h => absurd (rwidx8_ge _ h) (Nat.not_le.mpr (rargs_idx_lt r hr))
theorem rwidx9_ge : ∀ n ∈ rwidx9, 23 ≤ n := by decide +kernel
theorem rargs_not_written9 : ∀ r ∈ rargs, r.idx.val ∉ rwidx9 :=
  fun r hr h => absurd (rwidx9_ge _ h) (Nat.not_le.mpr (rargs_idx_lt r hr))
theorem rwidx10_ge : ∀ n ∈ rwidx10, 23 ≤ n := by decide +kernel
theorem rargs_not_written10 : ∀ r ∈ rargs, r.idx.val ∉ rwidx10 :=
  fun r hr h => absurd (rwidx10_ge _ h) (Nat.not_le.mpr (rargs_idx_lt r hr))
theorem rwidx11_ge : ∀ n ∈ rwidx11, 23 ≤ n := by decide +kernel
theorem rargs_not_written11 : ∀ r ∈ rargs, r.idx.val ∉ rwidx11 :=
  fun r hr h => absurd (rwidx11_ge _ h) (Nat.not_le.mpr (rargs_idx_lt r hr))
theorem rwidx12_ge : ∀ n ∈ rwidx12, 23 ≤ n := by decide +kernel
theorem rargs_not_written12 : ∀ r ∈ rargs, r.idx.val ∉ rwidx12 :=
  fun r hr h => absurd (rwidx12_ge _ h) (Nat.not_le.mpr (rargs_idx_lt r hr))
theorem rwidx13_ge : ∀ n ∈ rwidx13, 23 ≤ n := by decide +kernel
theorem rargs_not_written13 : ∀ r ∈ rargs, r.idx.val ∉ rwidx13 :=
  fun r hr h => absurd (rwidx13_ge _ h) (Nat.not_le.mpr (rargs_idx_lt r hr))
theorem rwidx14_ge : ∀ n ∈ rwidx14, 23 ≤ n := by decide +kernel
theorem rargs_not_written14 : ∀ r ∈ rargs, r.idx.val ∉ rwidx14 :=
  fun r hr h => absurd (rwidx14_ge _ h) (Nat.not_le.mpr (rargs_idx_lt r hr))
theorem rwidx15_ge : ∀ n ∈ rwidx15, 23 ≤ n := by decide +kernel
theorem rargs_not_written15 : ∀ r ∈ rargs, r.idx.val ∉ rwidx15 :=
  fun r hr h => absurd (rwidx15_ge _ h) (Nat.not_le.mpr (rargs_idx_lt r hr))
theorem rwidx16_ge : ∀ n ∈ rwidx16, 23 ≤ n := by decide +kernel
theorem rargs_not_written16 : ∀ r ∈ rargs, r.idx.val ∉ rwidx16 :=
  fun r hr h => absurd (rwidx16_ge _ h) (Nat.not_le.mpr (rargs_idx_lt r hr))
theorem rwidx17_ge : ∀ n ∈ rwidx17, 23 ≤ n := by decide +kernel
theorem rargs_not_written17 : ∀ r ∈ rargs, r.idx.val ∉ rwidx17 :=
  fun r hr h => absurd (rwidx17_ge _ h) (Nat.not_le.mpr (rargs_idx_lt r hr))
theorem rwidx18_ge : ∀ n ∈ rwidx18, 23 ≤ n := by decide +kernel
theorem rargs_not_written18 : ∀ r ∈ rargs, r.idx.val ∉ rwidx18 :=
  fun r hr h => absurd (rwidx18_ge _ h) (Nat.not_le.mpr (rargs_idx_lt r hr))
theorem rwidx19_ge : ∀ n ∈ rwidx19, 23 ≤ n := by decide +kernel
theorem rargs_not_written19 : ∀ r ∈ rargs, r.idx.val ∉ rwidx19 :=
  fun r hr h => absurd (rwidx19_ge _ h) (Nat.not_le.mpr (rargs_idx_lt r hr))
theorem rwidx20_ge : ∀ n ∈ rwidx20, 23 ≤ n := by decide +kernel
theorem rargs_not_written20 : ∀ r ∈ rargs, r.idx.val ∉ rwidx20 :=
  fun r hr h => absurd (rwidx20_ge _ h) (Nat.not_le.mpr (rargs_idx_lt r hr))
theorem rwidx21_ge : ∀ n ∈ rwidx21, 23 ≤ n := by decide +kernel
theorem rargs_not_written21 : ∀ r ∈ rargs, r.idx.val ∉ rwidx21 :=
  fun r hr h => absurd (rwidx21_ge _ h) (Nat.not_le.mpr (rargs_idx_lt r hr))
theorem rwidx22_ge : ∀ n ∈ rwidx22, 23 ≤ n := by decide +kernel
theorem rargs_not_written22 : ∀ r ∈ rargs, r.idx.val ∉ rwidx22 :=
  fun r hr h => absurd (rwidx22_ge _ h) (Nat.not_le.mpr (rargs_idx_lt r hr))

theorem U0_args (V : Valuation τ sig (Elt F)) : ∀ r ∈ rargs, U0 V (Proc.devRef .tc r) = V (Proc.devRef .tc r) := fun _ _ => rfl
theorem U1_args (V : Valuation τ sig (Elt F)) : ∀ r ∈ rargs, U1 V (Proc.devRef .tc r) = V (Proc.devRef .tc r) :=
  fun r hr => (kept0 (U0 V) r (rargs_not_written0 r hr)).trans (U0_args V r hr)
theorem U2_args (V : Valuation τ sig (Elt F)) : ∀ r ∈ rargs, U2 V (Proc.devRef .tc r) = V (Proc.devRef .tc r) :=
  fun r hr => (kept1 (U1 V) r (rargs_not_written1 r hr)).trans (U1_args V r hr)
theorem U3_args (V : Valuation τ sig (Elt F)) : ∀ r ∈ rargs, U3 V (Proc.devRef .tc r) = V (Proc.devRef .tc r) :=
  fun r hr => (kept2 (U2 V) r (rargs_not_written2 r hr)).trans (U2_args V r hr)
theorem U4_args (V : Valuation τ sig (Elt F)) : ∀ r ∈ rargs, U4 V (Proc.devRef .tc r) = V (Proc.devRef .tc r) :=
  fun r hr => (kept3 (U3 V) r (rargs_not_written3 r hr)).trans (U3_args V r hr)
theorem U5_args (V : Valuation τ sig (Elt F)) : ∀ r ∈ rargs, U5 V (Proc.devRef .tc r) = V (Proc.devRef .tc r) :=
  fun r hr => (kept4 (U4 V) r (rargs_not_written4 r hr)).trans (U4_args V r hr)
theorem U6_args (V : Valuation τ sig (Elt F)) : ∀ r ∈ rargs, U6 V (Proc.devRef .tc r) = V (Proc.devRef .tc r) :=
  fun r hr => (kept5 (U5 V) r (rargs_not_written5 r hr)).trans (U5_args V r hr)
theorem U7_args (V : Valuation τ sig (Elt F)) : ∀ r ∈ rargs, U7 V (Proc.devRef .tc r) = V (Proc.devRef .tc r) :=
  fun r hr => (kept6 (U6 V) r (rargs_not_written6 r hr)).trans (U6_args V r hr)
theorem U8_args (V : Valuation τ sig (Elt F)) : ∀ r ∈ rargs, U8 V (Proc.devRef .tc r) = V (Proc.devRef .tc r) :=
  fun r hr => (kept7 (U7 V) r (rargs_not_written7 r hr)).trans (U7_args V r hr)
theorem U9_args (V : Valuation τ sig (Elt F)) : ∀ r ∈ rargs, U9 V (Proc.devRef .tc r) = V (Proc.devRef .tc r) :=
  fun r hr => (kept8 (U8 V) r (rargs_not_written8 r hr)).trans (U8_args V r hr)
theorem U10_args (V : Valuation τ sig (Elt F)) : ∀ r ∈ rargs, U10 V (Proc.devRef .tc r) = V (Proc.devRef .tc r) :=
  fun r hr => (kept9 (U9 V) r (rargs_not_written9 r hr)).trans (U9_args V r hr)
theorem U11_args (V : Valuation τ sig (Elt F)) : ∀ r ∈ rargs, U11 V (Proc.devRef .tc r) = V (Proc.devRef .tc r) :=
  fun r hr => (kept10 (U10 V) r (rargs_not_written10 r hr)).trans (U10_args V r hr)
theorem U12_args (V : Valuation τ sig (Elt F)) : ∀ r ∈ rargs, U12 V (Proc.devRef .tc r) = V (Proc.devRef .tc r) :=
  fun r hr => (kept11 (U11 V) r (rargs_not_written11 r hr)).trans (U11_args V r hr)
theorem U13_args (V : Valuation τ sig (Elt F)) : ∀ r ∈ rargs, U13 V (Proc.devRef .tc r) = V (Proc.devRef .tc r) :=
  fun r hr => (kept12 (U12 V) r (rargs_not_written12 r hr)).trans (U12_args V r hr)
theorem U14_args (V : Valuation τ sig (Elt F)) : ∀ r ∈ rargs, U14 V (Proc.devRef .tc r) = V (Proc.devRef .tc r) :=
  fun r hr => (kept13 (U13 V) r (rargs_not_written13 r hr)).trans (U13_args V r hr)
theorem U15_args (V : Valuation τ sig (Elt F)) : ∀ r ∈ rargs, U15 V (Proc.devRef .tc r) = V (Proc.devRef .tc r) :=
  fun r hr => (kept14 (U14 V) r (rargs_not_written14 r hr)).trans (U14_args V r hr)
theorem U16_args (V : Valuation τ sig (Elt F)) : ∀ r ∈ rargs, U16 V (Proc.devRef .tc r) = V (Proc.devRef .tc r) :=
  fun r hr => (kept15 (U15 V) r (rargs_not_written15 r hr)).trans (U15_args V r hr)
theorem U17_args (V : Valuation τ sig (Elt F)) : ∀ r ∈ rargs, U17 V (Proc.devRef .tc r) = V (Proc.devRef .tc r) :=
  fun r hr => (kept16 (U16 V) r (rargs_not_written16 r hr)).trans (U16_args V r hr)
theorem U18_args (V : Valuation τ sig (Elt F)) : ∀ r ∈ rargs, U18 V (Proc.devRef .tc r) = V (Proc.devRef .tc r) :=
  fun r hr => (kept17 (U17 V) r (rargs_not_written17 r hr)).trans (U17_args V r hr)
theorem U19_args (V : Valuation τ sig (Elt F)) : ∀ r ∈ rargs, U19 V (Proc.devRef .tc r) = V (Proc.devRef .tc r) :=
  fun r hr => (kept18 (U18 V) r (rargs_not_written18 r hr)).trans (U18_args V r hr)
theorem U20_args (V : Valuation τ sig (Elt F)) : ∀ r ∈ rargs, U20 V (Proc.devRef .tc r) = V (Proc.devRef .tc r) :=
  fun r hr => (kept19 (U19 V) r (rargs_not_written19 r hr)).trans (U19_args V r hr)
theorem U21_args (V : Valuation τ sig (Elt F)) : ∀ r ∈ rargs, U21 V (Proc.devRef .tc r) = V (Proc.devRef .tc r) :=
  fun r hr => (kept20 (U20 V) r (rargs_not_written20 r hr)).trans (U20_args V r hr)
theorem U22_args (V : Valuation τ sig (Elt F)) : ∀ r ∈ rargs, U22 V (Proc.devRef .tc r) = V (Proc.devRef .tc r) :=
  fun r hr => (kept21 (U21 V) r (rargs_not_written21 r hr)).trans (U21_args V r hr)
theorem U23_args (V : Valuation τ sig (Elt F)) : ∀ r ∈ rargs, U23 V (Proc.devRef .tc r) = V (Proc.devRef .tc r) :=
  fun r hr => (kept22 (U22 V) r (rargs_not_written22 r hr)).trans (U22_args V r hr)

/-- No operation writes an argument: each holds after the whole line what it held before. -/
theorem rops_args (V : Valuation τ sig (Elt F)) :
    after rops V (main_arg0 : DevRef τ sig) = V (main_arg0 : DevRef τ sig) ∧
    after rops V (main_arg1 : DevRef τ sig) = V (main_arg1 : DevRef τ sig) ∧
    after rops V (main_arg2 : DevRef τ sig) = V (main_arg2 : DevRef τ sig) ∧
    after rops V (main_arg3 : DevRef τ sig) = V (main_arg3 : DevRef τ sig) ∧
    after rops V (main_arg4 : DevRef τ sig) = V (main_arg4 : DevRef τ sig) ∧
    after rops V (main_arg5 : DevRef τ sig) = V (main_arg5 : DevRef τ sig) ∧
    after rops V (main_arg6 : DevRef τ sig) = V (main_arg6 : DevRef τ sig) ∧
    after rops V (main_arg7 : DevRef τ sig) = V (main_arg7 : DevRef τ sig) ∧
    after rops V (main_arg8 : DevRef τ sig) = V (main_arg8 : DevRef τ sig) ∧
    after rops V (main_arg9 : DevRef τ sig) = V (main_arg9 : DevRef τ sig) ∧
    after rops V (main_arg10 : DevRef τ sig) = V (main_arg10 : DevRef τ sig) ∧
    after rops V (main_arg11 : DevRef τ sig) = V (main_arg11 : DevRef τ sig) ∧
    after rops V (main_arg12 : DevRef τ sig) = V (main_arg12 : DevRef τ sig) ∧
    after rops V (main_arg13 : DevRef τ sig) = V (main_arg13 : DevRef τ sig) ∧
    after rops V (main_arg14 : DevRef τ sig) = V (main_arg14 : DevRef τ sig) ∧
    after rops V (main_arg15 : DevRef τ sig) = V (main_arg15 : DevRef τ sig) ∧
    after rops V (main_arg16 : DevRef τ sig) = V (main_arg16 : DevRef τ sig) ∧
    after rops V (main_arg17 : DevRef τ sig) = V (main_arg17 : DevRef τ sig) ∧
    after rops V (main_arg18 : DevRef τ sig) = V (main_arg18 : DevRef τ sig) ∧
    after rops V (main_arg19 : DevRef τ sig) = V (main_arg19 : DevRef τ sig) ∧
    after rops V (main_arg20 : DevRef τ sig) = V (main_arg20 : DevRef τ sig) ∧
    after rops V (main_arg21 : DevRef τ sig) = V (main_arg21 : DevRef τ sig) ∧
    after rops V (main_arg22 : DevRef τ sig) = V (main_arg22 : DevRef τ sig) := by
  rw [after_rops]
  exact ⟨U23_args V main_arg0 (List.Mem.head _),
    U23_args V main_arg1 (List.Mem.tail _ (List.Mem.head _)),
    U23_args V main_arg2 (List.Mem.tail _ (List.Mem.tail _ (List.Mem.head _))),
    U23_args V main_arg3 (List.Mem.tail _ (List.Mem.tail _ (List.Mem.tail _ (List.Mem.head _)))),
    U23_args V main_arg4 (List.Mem.tail _ (List.Mem.tail _ (List.Mem.tail _ (List.Mem.tail _ (List.Mem.head _))))),
    U23_args V main_arg5 (List.Mem.tail _ (List.Mem.tail _ (List.Mem.tail _ (List.Mem.tail _ (List.Mem.tail _ (List.Mem.head _)))))),
    U23_args V main_arg6 (List.Mem.tail _ (List.Mem.tail _ (List.Mem.tail _ (List.Mem.tail _ (List.Mem.tail _ (List.Mem.tail _ (List.Mem.head _))))))),
    U23_args V main_arg7 (List.Mem.tail _ (List.Mem.tail _ (List.Mem.tail _ (List.Mem.tail _ (List.Mem.tail _ (List.Mem.tail _ (List.Mem.tail _ (List.Mem.head _)))))))),
    U23_args V main_arg8 (List.Mem.tail _ (List.Mem.tail _ (List.Mem.tail _ (List.Mem.tail _ (List.Mem.tail _ (List.Mem.tail _ (List.Mem.tail _ (List.Mem.tail _ (List.Mem.head _))))))))),
    U23_args V main_arg9 (List.Mem.tail _ (List.Mem.tail _ (List.Mem.tail _ (List.Mem.tail _ (List.Mem.tail _ (List.Mem.tail _ (List.Mem.tail _ (List.Mem.tail _ (List.Mem.tail _ (List.Mem.head _)))))))))),
    U23_args V main_arg10 (List.Mem.tail _ (List.Mem.tail _ (List.Mem.tail _ (List.Mem.tail _ (List.Mem.tail _ (List.Mem.tail _ (List.Mem.tail _ (List.Mem.tail _ (List.Mem.tail _ (List.Mem.tail _ (List.Mem.head _))))))))))),
    U23_args V main_arg11 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))),
    U23_args V main_arg12 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))),
    U23_args V main_arg13 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))),
    U23_args V main_arg14 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))),
    U23_args V main_arg15 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))),
    U23_args V main_arg16 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))),
    U23_args V main_arg17 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))),
    U23_args V main_arg18 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))),
    U23_args V main_arg19 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))),
    U23_args V main_arg20 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))),
    U23_args V main_arg21 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))),
    U23_args V main_arg22 (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))⟩

end Cert.ReferenceIdeal.Hand

end
-- ==== Proof.RStageLib.lean ====
import proofs.«403290_j73710228734482_1_alg».proof.Proof.Spec
import proofs.«403290_j73710228734482_1_alg».proof.Proof.LibUp
import Idealize.ShloMosaic.Lib.ValueLayout
import Idealize.ShloMosaic.Lib.Pipeline.Value
import Idealize.ShloMosaic.Lib.KernelVsHost
import Idealize.ShloMosaic.Lib.IdealHost

noncomputable section

namespace Cert.ReferenceIdeal.Hand

open Idealize.ShloMosaic Idealize.ShloMosaic.ValueIdx Cert.Spec

theorem rs_slice3 {a b c : Nat} (l : Fin a) (o : Nat) (ho : l.val = o) (W : Ten a b c)
    (hs : (⟨3, ![a, b, c]⟩ : Shape).Slices ![o, 0, 0] ⟨3, ![1, b, c]⟩)
    (hc : (⟨3, ![1, b, c]⟩ : Shape).ShapeCasts ⟨2, ![b, c]⟩) :
    shapeCast ⟨2, ![b, c]⟩ (extractStridedSlice ⟨3, ![1, b, c]⟩ ![o, 0, 0] (up W) hs) hc = up (row3 l W) := by
  subst ho
  funext j
  obtain ⟨i, k, rfl⟩ : ∃ (i : Fin b) (k : Fin c), j = ix2 i k := ⟨j 0, j 1, eq_ix2 j⟩
  rw [shapeCast_1ab_ab_apply]
  exact extractStridedSlice_apply _ _ hs _ (ix3 l i k) (fun ax => match ax with
    | ⟨0, _⟩ => by show l.val = l.val + 0; omega
    | ⟨1, _⟩ => by show i.val = 0 + i.val; omega
    | ⟨2, _⟩ => by show k.val = 0 + k.val; omega)

theorem rs_slice2 {a d : Nat} (l : Fin a) (o : Nat) (ho : l.val = o) (b : Mat a d)
    (hs : (⟨2, ![a, d]⟩ : Shape).Slices ![o, 0] ⟨2, ![1, d]⟩)
    (hc : (⟨2, ![1, d]⟩ : Shape).ShapeCasts ⟨1, ![d]⟩) :
    shapeCast ⟨1, ![d]⟩ (extractStridedSlice ⟨2, ![1, d]⟩ ![o, 0] (up b) hs) hc = up (row2 l b) := by
  subst ho
  funext j
  obtain ⟨k, rfl⟩ : ∃ (k : Fin d), j = ix1 k := ⟨j 0, eq_ix1 j⟩
  rw [shapeCast_1a_a_apply]
  exact extractStridedSlice_apply _ _ hs _ (ix2 l k) (fun ax => match ax with
    | ⟨0, _⟩ => by show l.val = l.val + 0; omega
    | ⟨1, _⟩ => by show k.val = 0 + k.val; omega)

theorem rs_words {E : Nat} (l : Fin 2) (o : Nat) (ho : l.val = o) (ei : (⟨2, ![2, E]⟩ : Shape).Idx → BitVec 32)
    (hs : (⟨2, ![2, E]⟩ : Shape).Slices ![o, 0] ⟨2, ![1, E]⟩)
    (hc : (⟨2, ![1, E]⟩ : Shape).ShapeCasts ⟨1, ![E]⟩) :
    shapeCast ⟨1, ![E]⟩ (extractStridedSlice ⟨2, ![1, E]⟩ ![o, 0] ei hs) hc = fun i => ei (ix2 l (i 0)) := by
  subst ho
  funext j
  obtain ⟨k, rfl⟩ : ∃ (k : Fin E), j = ix1 k := ⟨j 0, eq_ix1 j⟩
  rw [shapeCast_1a_a_apply]
  exact extractStridedSlice_apply _ _ hs _ (ix2 l k) (fun ax => match ax with
    | ⟨0, _⟩ => by show l.val = l.val + 0; omega
    | ⟨1, _⟩ => by show k.val = 0 + k.val; omega)

theorem rs_bcast_vec_row {d : Nat} (v : Vc d) (h : (⟨1, ![d]⟩ : Shape).BroadcastsInDim ⟨2, ![1, d]⟩ ![1]) :
    broadcastInDim ⟨2, ![1, d]⟩ ![1] h (up v) = up (asRow v) := by
  funext j
  obtain ⟨r, t, rfl⟩ : ∃ (r : Fin 1) (t : Fin d), j = ix2 r t := ⟨j 0, j 1, eq_ix2 j⟩
  exact broadcastInDim_apply ![1] h (up v) (ix2 r t) (ix1 t) (fun ax => match ax with
    | ⟨0, _⟩ => by
        show t.val = if d = 1 then 0 else t.val
        split_ifs with hd
        · have := t.isLt; omega
        · rfl)

theorem rs_bcast_row {n d : Nat} (r : Mat 1 d) (h : (⟨2, ![1, d]⟩ : Shape).BroadcastsInDim ⟨2, ![n, d]⟩ ![0, 1]) :
    broadcastInDim ⟨2, ![n, d]⟩ ![0, 1] h (up r) = up (fun i => r (ix2 0 (i 1))) := by
  funext j
  obtain ⟨p, t, rfl⟩ : ∃ (p : Fin n) (t : Fin d), j = ix2 p t := ⟨j 0, j 1, eq_ix2 j⟩
  exact broadcastInDim_oneRow_apply h (up r) p t

theorem rs_relu {S : Shape} (a : S.Idx → ℝ) (h : (⟨0, ![]⟩ : Shape).BroadcastsInDim S ![]) :
    maximumf (F := Ideal) (up a : FVec Ideal S .f32) (broadcastInDim S ![] h (constant (F := Ideal) ⟨0, ![]⟩ .f32 0x00000000#32))
      = up (fun i => max (a i) 0) :=
  up_max_zero a _ (fun i => by rw [broadcastInDim_scalar_apply, constant_apply, ofBits_zero])

theorem rs_bcast_vec {n d : Nat} (v : Vc d) (h1 : (⟨1, ![d]⟩ : Shape).BroadcastsInDim ⟨2, ![1, d]⟩ ![1])
    (h2 : (⟨2, ![1, d]⟩ : Shape).BroadcastsInDim ⟨2, ![n, d]⟩ ![0, 1]) :
    broadcastInDim ⟨2, ![n, d]⟩ ![0, 1] h2 (broadcastInDim ⟨2, ![1, d]⟩ ![1] h1 (up v)) = up (fun i => v (ix1 (i 1))) := by
  rw [rs_bcast_vec_row, rs_bcast_row]; rfl

theorem rs_bcast_const {S : Shape} (h : (⟨0, ![]⟩ : Shape).BroadcastsInDim S ![]) (b : BitVec 32) (r : ℝ)
    (hb : Ideal.ofBits .f32 b = ((r : ℝ) : EReal)) :
    broadcastInDim S ![] h (constant (F := Ideal) ⟨0, ![]⟩ .f32 b) = up (fun _ => r) := by
  funext j
  rw [broadcastInDim_scalar_apply, constant_apply, hb]
  rfl

end Cert.ReferenceIdeal.Hand

end
-- ==== Proof.RStageNode.lean ====
/-
  The reference program's node stages without a normalisation, read on real arrays: for each layer, if the buffers a
  stage reads hold real arrays then the buffer it ends in holds the stage's formula of `Spec` on them — the edge
  messages (with the node features to which the virtual node has been added), the aggregation with the first dense
  layer, and the second dense layer. Each proof first writes the stage's result as the composed term of its
  operations over the entry contents, then reads that term operation by operation on real arrays.
-/
import proofs.«403290_j73710228734482_1_alg».proof.Proof.RChunks
import proofs.«403290_j73710228734482_1_alg».proof.Proof.Spec
import proofs.«403290_j73710228734482_1_alg».proof.Proof.LibUp
import proofs.«403290_j73710228734482_1_alg».proof.Proof.LibDot
import proofs.«403290_j73710228734482_1_alg».proof.Proof.LibRows
import proofs.«403290_j73710228734482_1_alg».proof.Proof.RStageLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

theorem rstage0_v4 (A : Args) (X : Valuation τ sig (Elt Ideal)) (h2 : X (Proc.devRef .tc main_arg2) = up A.vn0) :
    after (rchunk0 (F := Ideal)) X (Proc.devRef .tc main_v4) = up (vnB A) := by
  have e : after (rchunk0 (F := Ideal)) X (Proc.devRef .tc main_v4)
      = (broadcastInDim S512x128 ![0, 1] bcast_S1x128_S512x128_0_1 ((X (Proc.devRef .tc main_arg2) : FVec Ideal S1x128 .f32)) : FVec Ideal S512x128 .f32) := by
    after_results_simp <;> (try simp only [TRef.ofBuf, TRef.toBuf, cast_eq]) <;> rfl
  rw [e, h2, rs_bcast_row]
  rfl

theorem rstage0_v1 (A : Args) (X : Valuation τ sig (Elt Ideal)) (h21 : X (Proc.devRef .tc main_arg21) = A.ei) :
    after (rchunk0 (F := Ideal)) X (Proc.devRef .tc main_v1) = (fun i => srcw A (i 0) : IVec S800000 32) := by
  have e : after (rchunk0 (F := Ideal)) X (Proc.devRef .tc main_v1)
      = (shapeCast S800000 (extractStridedSlice S1x800000 ![0, 0] ((X (Proc.devRef .tc main_arg21) : IVec S2x800000 32)) slices_S2x800000_S1x800000_0_0) shapeCasts_S1x800000_S800000 : IVec S800000 32) := by
    after_results_simp <;> (try simp only [TRef.ofBuf, TRef.toBuf, cast_eq]) <;> rfl
  rw [e, h21, rs_words (0 : Fin 2) 0 rfl]
  rfl

theorem rstage0_v3 (A : Args) (X : Valuation τ sig (Elt Ideal)) (h21 : X (Proc.devRef .tc main_arg21) = A.ei) :
    after (rchunk0 (F := Ideal)) X (Proc.devRef .tc main_v3) = (fun i => dstw A (i 0) : IVec S800000 32) := by
  have e : after (rchunk0 (F := Ideal)) X (Proc.devRef .tc main_v3)
      = (shapeCast S800000 (extractStridedSlice S1x800000 ![1, 0] ((X (Proc.devRef .tc main_arg21) : IVec S2x800000 32)) slices_S2x800000_S1x800000_1_0) shapeCasts_S1x800000_S800000 : IVec S800000 32) := by
    after_results_simp <;> (try simp only [TRef.ofBuf, TRef.toBuf, cast_eq]) <;> rfl
  rw [e, h21, rs_words (1 : Fin 2) 1 rfl]
  rfl

theorem rstage0_hin (A : Args) (X : Valuation τ sig (Elt Ideal)) (h0 : X (Proc.devRef .tc main_arg0) = up A.x)
    (h2 : X (Proc.devRef .tc main_arg2) = up A.vn0) (h22 : X (Proc.devRef .tc main_arg22) = A.batch) :
    after (rchunk0 (F := Ideal)) X (Proc.devRef .tc main_v12) = up (hinOf A A.x (vnB A)) := by
  have e : after (rchunk0 (F := Ideal)) X (Proc.devRef .tc main_v12)
      = (addf ((X (Proc.devRef .tc main_arg0) : FVec Ideal S50000x128 .f32)) (Host.gather gather_S512x128_S50000x1_S50000x128_1_0_n_n_0_1_1128 (broadcastInDim S512x128 ![0, 1] bcast_S1x128_S512x128_0_1 ((X (Proc.devRef .tc main_arg2) : FVec Ideal S1x128 .f32))) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32))))) : FVec Ideal S50000x128 .f32) := by
    after_results_simp <;> (try simp only [TRef.ofBuf, TRef.toBuf, cast_eq]) <;> rfl
  rw [e, h0, h2, h22, rs_bcast_row,
    gather_chain_idx (by norm_num) gather_S512x128_S50000x1_S50000x128_1_0_n_n_0_1_1128 rfl rfl rfl rfl rfl rfl rfl 512#32, up_addf]
  rfl

theorem rstage0_msg (A : Args) (X : Valuation τ sig (Elt Ideal)) (h0 : X (Proc.devRef .tc main_arg0) = up A.x) (h2 : X (Proc.devRef .tc main_arg2) = up A.vn0) (h1 : X (Proc.devRef .tc main_arg1) = up A.ea)
    (h3 : X (Proc.devRef .tc main_arg3) = up A.We) (h4 : X (Proc.devRef .tc main_arg4) = up A.be) (h21 : X (Proc.devRef .tc main_arg21) = A.ei)
    (h22 : X (Proc.devRef .tc main_arg22) = A.batch) :
    after (rchunk0 (F := Ideal)) X (Proc.devRef .tc main_v29) = up (msgOf A 0 (hinOf A A.x (vnB A))) := by
  have e : after (rchunk0 (F := Ideal)) X (Proc.devRef .tc main_v29)
      = (maximumf (addf (Host.gather gather_S50000x128_S800000x1_S800000x128_1_0_n_n_0_1_1128 (addf ((X (Proc.devRef .tc main_arg0) : FVec Ideal S50000x128 .f32)) (Host.gather gather_S512x128_S50000x1_S50000x128_1_0_n_n_0_1_1128 (broadcastInDim S512x128 ![0, 1] bcast_S1x128_S512x128_0_1 ((X (Proc.devRef .tc main_arg2) : FVec Ideal S1x128 .f32))) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32)))))) (broadcastInDim S800000x1 ![0] bcast_S800000_S800000x1_0 (select (cmpi .slt (shapeCast S800000 (extractStridedSlice S1x800000 ![0, 0] ((X (Proc.devRef .tc main_arg21) : IVec S2x800000 32)) slices_S2x800000_S1x800000_0_0) shapeCasts_S1x800000_S800000) (broadcastInDim S800000 ![] bcast_S_S800000 (constantI S_ 32 0#32))) (addi (shapeCast S800000 (extractStridedSlice S1x800000 ![0, 0] ((X (Proc.devRef .tc main_arg21) : IVec S2x800000 32)) slices_S2x800000_S1x800000_0_0) shapeCasts_S1x800000_S800000) (broadcastInDim S800000 ![] bcast_S_S800000 (constantI S_ 32 50000#32))) (shapeCast S800000 (extractStridedSlice S1x800000 ![0, 0] ((X (Proc.devRef .tc main_arg21) : IVec S2x800000 32)) slices_S2x800000_S1x800000_0_0) shapeCasts_S1x800000_S800000)))) (addf (Host.dotGeneral (F := Ideal) (φ₁ := .f32) (φ₂ := .f32) dot_S800000x8_S8x128_S800000x128_1_0_0_1_n_n none ((X (Proc.devRef .tc main_arg1) : FVec Ideal S800000x8 .f32)) (shapeCast S8x128 (extractStridedSlice S1x8x128 ![0, 0, 0] ((X (Proc.devRef .tc main_arg3) : FVec Ideal S3x8x128 .f32)) slices_S3x8x128_S1x8x128_0_0_0) shapeCasts_S1x8x128_S8x128)) (broadcastInDim S800000x128 ![0, 1] bcast_S1x128_S800000x128_0_1 (broadcastInDim S1x128 ![1] bcast_S128_S1x128_1 (shapeCast S128 (extractStridedSlice S1x128 ![0, 0] ((X (Proc.devRef .tc main_arg4) : FVec Ideal S3x128 .f32)) slices_S3x128_S1x128_0_0) shapeCasts_S1x128_S128))))) (broadcastInDim S800000x128 ![] bcast_S_S800000x128 (constant (F := Ideal) S_ .f32 0x00000000#32)) : FVec Ideal S800000x128 .f32) := by
    after_results_simp <;> (try simp only [TRef.ofBuf, TRef.toBuf, cast_eq]) <;> rfl
  rw [e, h0, h2, h1, h3, h4, h21, h22, rs_bcast_row, rs_words (0 : Fin 2) 0 rfl,
    gather_chain_idx (by norm_num) gather_S512x128_S50000x1_S50000x128_1_0_n_n_0_1_1128 rfl rfl rfl rfl rfl rfl rfl 512#32, up_addf,
    gather_chain_idx (by norm_num) gather_S50000x128_S800000x1_S800000x128_1_0_n_n_0_1_1128 rfl rfl rfl rfl rfl rfl rfl 50000#32,
    rs_slice3 (0 : Fin 3) 0 rfl, rs_slice2 (0 : Fin 3) 0 rfl, rs_bcast_vec,
    up_dotGeneral dot_S800000x8_S8x128_S800000x128_1_0_0_1_n_n rfl rfl rfl rfl rfl rfl, up_addf, up_addf, rs_relu]
  rfl

/-- Stage 0: the edge messages of layer 0, the node features with the virtual node added, the virtual node's
    copies, and the source and destination words of the edges. -/
theorem rstage0 (A : Args) (X : Valuation τ sig (Elt Ideal)) (h0 : X (Proc.devRef .tc main_arg0) = up A.x) (h2 : X (Proc.devRef .tc main_arg2) = up A.vn0) (h1 : X (Proc.devRef .tc main_arg1) = up A.ea)
    (h3 : X (Proc.devRef .tc main_arg3) = up A.We) (h4 : X (Proc.devRef .tc main_arg4) = up A.be) (h21 : X (Proc.devRef .tc main_arg21) = A.ei)
    (h22 : X (Proc.devRef .tc main_arg22) = A.batch) :
    after (rchunk0 (F := Ideal)) X (Proc.devRef .tc main_v29) = up (msgOf A 0 (hinOf A A.x (vnB A))) ∧
    after (rchunk0 (F := Ideal)) X (Proc.devRef .tc main_v12) = up (hinOf A A.x (vnB A)) ∧
    after (rchunk0 (F := Ideal)) X (Proc.devRef .tc main_v4) = up (vnB A) ∧
    after (rchunk0 (F := Ideal)) X (Proc.devRef .tc main_v1) = (fun i => srcw A (i 0) : IVec S800000 32) ∧
    after (rchunk0 (F := Ideal)) X (Proc.devRef .tc main_v3) = (fun i => dstw A (i 0) : IVec S800000 32) :=
  ⟨rstage0_msg A X h0 h2 h1 h3 h4 h21 h22, rstage0_hin A X h0 h2 h22, rstage0_v4 A X h2, rstage0_v1 A X h21,
    rstage0_v3 A X h21⟩

/-- Stage 1: the aggregation and the first dense layer of layer 0. -/
theorem rstage1 (A : Args) (X : Valuation τ sig (Elt Ideal)) (hin : Mat 50000 128) (msg : Mat 800000 128)
    (hhin : X (Proc.devRef .tc main_v12) = up hin) (hmsg : X (Proc.devRef .tc main_v29) = up msg)
    (hdst : X (Proc.devRef .tc main_v3) = (fun i => dstw A (i 0) : IVec S800000 32))
    (hW : X (Proc.devRef .tc main_arg5) = up A.W1) (hb : X (Proc.devRef .tc main_arg6) = up A.b1) :
    after (rchunk1 (F := Ideal)) X (Proc.devRef .tc main_v41) = up (lin1Of A 0 hin (aggrOf A msg)) := by
  have e : after (rchunk1 (F := Ideal)) X (Proc.devRef .tc main_v41)
      = (addf (Host.dotGeneral (F := Ideal) (φ₁ := .f32) (φ₂ := .f32) dot_S50000x128_S128x256_S50000x256_1_0_0_1_n_n none (addf ((X (Proc.devRef .tc main_v12) : FVec Ideal S50000x128 .f32)) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 ((X (Proc.devRef .tc main_v3) : IVec S800000 32))) ((X (Proc.devRef .tc main_v29) : FVec Ideal S800000x128 .f32)))) (shapeCast S128x256 (extractStridedSlice S1x128x256 ![0, 0, 0] ((X (Proc.devRef .tc main_arg5) : FVec Ideal S3x128x256 .f32)) slices_S3x128x256_S1x128x256_0_0_0) shapeCasts_S1x128x256_S128x256)) (broadcastInDim S50000x256 ![0, 1] bcast_S1x256_S50000x256_0_1 (broadcastInDim S1x256 ![1] bcast_S256_S1x256_1 (shapeCast S256 (extractStridedSlice S1x256 ![0, 0] ((X (Proc.devRef .tc main_arg6) : FVec Ideal S3x256 .f32)) slices_S3x256_S1x256_0_0) shapeCasts_S1x256_S256))) : FVec Ideal S50000x256 .f32) := by
    after_results_simp <;> (try simp only [TRef.ofBuf, TRef.toBuf, cast_eq]) <;> rfl
  rw [e, hhin, hmsg, hdst, hW, hb, up_scatterAdd_rows_idx scatter_S50000x128_S800000x1_S800000x128_1_0_0_1 rfl rfl rfl rfl, up_addf,
    rs_slice3 (0 : Fin 3) 0 rfl, rs_slice2 (0 : Fin 3) 0 rfl, rs_bcast_vec,
    up_dotGeneral dot_S50000x128_S128x256_S50000x256_1_0_0_1_n_n rfl rfl rfl rfl rfl rfl, up_addf]
  rfl

/-- Stage 3: the second dense layer of layer 0. -/
theorem rstage3 (A : Args) (X : Valuation τ sig (Elt Ideal)) (z : Mat 50000 256)
    (hz : X (Proc.devRef .tc main_v65) = up z) (hW : X (Proc.devRef .tc main_arg9) = up A.W2) (hb : X (Proc.devRef .tc main_arg10) = up A.b2) :
    after (rchunk3 (F := Ideal)) X (Proc.devRef .tc main_v73) = up (lin2Of A 0 z) := by
  have e : after (rchunk3 (F := Ideal)) X (Proc.devRef .tc main_v73)
      = (addf (Host.dotGeneral (F := Ideal) (φ₁ := .f32) (φ₂ := .f32) dot_S50000x256_S256x128_S50000x128_1_0_0_1_n_n none ((X (Proc.devRef .tc main_v65) : FVec Ideal S50000x256 .f32)) (shapeCast S256x128 (extractStridedSlice S1x256x128 ![0, 0, 0] ((X (Proc.devRef .tc main_arg9) : FVec Ideal S3x256x128 .f32)) slices_S3x256x128_S1x256x128_0_0_0) shapeCasts_S1x256x128_S256x128)) (broadcastInDim S50000x128 ![0, 1] bcast_S1x128_S50000x128_0_1 (broadcastInDim S1x128 ![1] bcast_S128_S1x128_1 (shapeCast S128 (extractStridedSlice S1x128 ![0, 0] ((X (Proc.devRef .tc main_arg10) : FVec Ideal S3x128 .f32)) slices_S3x128_S1x128_0_0) shapeCasts_S1x128_S128))) : FVec Ideal S50000x128 .f32) := by
    after_results_simp <;> (try simp only [TRef.ofBuf, TRef.toBuf, cast_eq]) <;> rfl
  rw [e, hz, hW, hb, rs_slice3 (0 : Fin 3) 0 rfl, rs_slice2 (0 : Fin 3) 0 rfl, rs_bcast_vec,
    up_dotGeneral dot_S50000x256_S256x128_S50000x128_1_0_0_1_n_n rfl rfl rfl rfl rfl rfl, up_addf]
  rfl

theorem rstage9_hin (A : Args) (X : Valuation τ sig (Elt Ideal)) (h : Mat 50000 128) (vn : Mat 512 128)
    (hh : X (Proc.devRef .tc main_v97) = up h) (hvn : X (Proc.devRef .tc main_v165) = up vn) (hbatch : X (Proc.devRef .tc main_arg22) = A.batch) :
    after (rchunk9 (F := Ideal)) X (Proc.devRef .tc main_v173) = up (hinOf A h vn) := by
  have e : after (rchunk9 (F := Ideal)) X (Proc.devRef .tc main_v173)
      = (addf ((X (Proc.devRef .tc main_v97) : FVec Ideal S50000x128 .f32)) (Host.gather gather_S512x128_S50000x1_S50000x128_1_0_n_n_0_1_1128 ((X (Proc.devRef .tc main_v165) : FVec Ideal S512x128 .f32)) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32))))) : FVec Ideal S50000x128 .f32) := by
    after_results_simp <;> (try simp only [TRef.ofBuf, TRef.toBuf, cast_eq]) <;> rfl
  rw [e, hh, hvn, hbatch, gather_chain_idx (by norm_num) gather_S512x128_S50000x1_S50000x128_1_0_n_n_0_1_1128 rfl rfl rfl rfl rfl rfl rfl 512#32, up_addf]
  rfl

theorem rstage9_msg (A : Args) (X : Valuation τ sig (Elt Ideal)) (h : Mat 50000 128) (vn : Mat 512 128)
    (hh : X (Proc.devRef .tc main_v97) = up h) (hvn : X (Proc.devRef .tc main_v165) = up vn) (hea : X (Proc.devRef .tc main_arg1) = up A.ea)
    (hWe : X (Proc.devRef .tc main_arg3) = up A.We) (hbe : X (Proc.devRef .tc main_arg4) = up A.be) (hbatch : X (Proc.devRef .tc main_arg22) = A.batch)
    (hsrc : X (Proc.devRef .tc main_v1) = (fun i => srcw A (i 0) : IVec S800000 32)) :
    after (rchunk9 (F := Ideal)) X (Proc.devRef .tc main_v190) = up (msgOf A 1 (hinOf A h vn)) := by
  have e : after (rchunk9 (F := Ideal)) X (Proc.devRef .tc main_v190)
      = (maximumf (addf (Host.gather gather_S50000x128_S800000x1_S800000x128_1_0_n_n_0_1_1128 (addf ((X (Proc.devRef .tc main_v97) : FVec Ideal S50000x128 .f32)) (Host.gather gather_S512x128_S50000x1_S50000x128_1_0_n_n_0_1_1128 ((X (Proc.devRef .tc main_v165) : FVec Ideal S512x128 .f32)) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32)))))) (broadcastInDim S800000x1 ![0] bcast_S800000_S800000x1_0 (select (cmpi .slt ((X (Proc.devRef .tc main_v1) : IVec S800000 32)) (broadcastInDim S800000 ![] bcast_S_S800000 (constantI S_ 32 0#32))) (addi ((X (Proc.devRef .tc main_v1) : IVec S800000 32)) (broadcastInDim S800000 ![] bcast_S_S800000 (constantI S_ 32 50000#32))) ((X (Proc.devRef .tc main_v1) : IVec S800000 32))))) (addf (Host.dotGeneral (F := Ideal) (φ₁ := .f32) (φ₂ := .f32) dot_S800000x8_S8x128_S800000x128_1_0_0_1_n_n none ((X (Proc.devRef .tc main_arg1) : FVec Ideal S800000x8 .f32)) (shapeCast S8x128 (extractStridedSlice S1x8x128 ![1, 0, 0] ((X (Proc.devRef .tc main_arg3) : FVec Ideal S3x8x128 .f32)) slices_S3x8x128_S1x8x128_1_0_0) shapeCasts_S1x8x128_S8x128)) (broadcastInDim S800000x128 ![0, 1] bcast_S1x128_S800000x128_0_1 (broadcastInDim S1x128 ![1] bcast_S128_S1x128_1 (shapeCast S128 (extractStridedSlice S1x128 ![1, 0] ((X (Proc.devRef .tc main_arg4) : FVec Ideal S3x128 .f32)) slices_S3x128_S1x128_1_0) shapeCasts_S1x128_S128))))) (broadcastInDim S800000x128 ![] bcast_S_S800000x128 (constant (F := Ideal) S_ .f32 0x00000000#32)) : FVec Ideal S800000x128 .f32) := by
    after_results_simp <;> (try simp only [TRef.ofBuf, TRef.toBuf, cast_eq]) <;> rfl
  rw [e, hh, hvn, hea, hWe, hbe, hbatch, hsrc,
    gather_chain_idx (by norm_num) gather_S512x128_S50000x1_S50000x128_1_0_n_n_0_1_1128 rfl rfl rfl rfl rfl rfl rfl 512#32, up_addf,
    gather_chain_idx (by norm_num) gather_S50000x128_S800000x1_S800000x128_1_0_n_n_0_1_1128 rfl rfl rfl rfl rfl rfl rfl 50000#32,
    rs_slice3 (1 : Fin 3) 1 rfl, rs_slice2 (1 : Fin 3) 1 rfl, rs_bcast_vec,
    up_dotGeneral dot_S800000x8_S8x128_S800000x128_1_0_0_1_n_n rfl rfl rfl rfl rfl rfl, up_addf, up_addf, rs_relu]
  rfl

/-- Stage 9: the edge messages of layer 1, and the node features with the virtual node added. -/
theorem rstage9 (A : Args) (X : Valuation τ sig (Elt Ideal)) (h : Mat 50000 128) (vn : Mat 512 128)
    (hh : X (Proc.devRef .tc main_v97) = up h) (hvn : X (Proc.devRef .tc main_v165) = up vn) (hea : X (Proc.devRef .tc main_arg1) = up A.ea)
    (hWe : X (Proc.devRef .tc main_arg3) = up A.We) (hbe : X (Proc.devRef .tc main_arg4) = up A.be) (hbatch : X (Proc.devRef .tc main_arg22) = A.batch)
    (hsrc : X (Proc.devRef .tc main_v1) = (fun i => srcw A (i 0) : IVec S800000 32)) :
    after (rchunk9 (F := Ideal)) X (Proc.devRef .tc main_v190) = up (msgOf A 1 (hinOf A h vn)) ∧
    after (rchunk9 (F := Ideal)) X (Proc.devRef .tc main_v173) = up (hinOf A h vn) :=
  ⟨rstage9_msg A X h vn hh hvn hea hWe hbe hbatch hsrc, rstage9_hin A X h vn hh hvn hbatch⟩

/-- Stage 10: the aggregation and the first dense layer of layer 1. -/
theorem rstage10 (A : Args) (X : Valuation τ sig (Elt Ideal)) (hin : Mat 50000 128) (msg : Mat 800000 128)
    (hhin : X (Proc.devRef .tc main_v173) = up hin) (hmsg : X (Proc.devRef .tc main_v190) = up msg)
    (hdst : X (Proc.devRef .tc main_v3) = (fun i => dstw A (i 0) : IVec S800000 32))
    (hW : X (Proc.devRef .tc main_arg5) = up A.W1) (hb : X (Proc.devRef .tc main_arg6) = up A.b1) :
    after (rchunk10 (F := Ideal)) X (Proc.devRef .tc main_v202) = up (lin1Of A 1 hin (aggrOf A msg)) := by
  have e : after (rchunk10 (F := Ideal)) X (Proc.devRef .tc main_v202)
      = (addf (Host.dotGeneral (F := Ideal) (φ₁ := .f32) (φ₂ := .f32) dot_S50000x128_S128x256_S50000x256_1_0_0_1_n_n none (addf ((X (Proc.devRef .tc main_v173) : FVec Ideal S50000x128 .f32)) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 ((X (Proc.devRef .tc main_v3) : IVec S800000 32))) ((X (Proc.devRef .tc main_v190) : FVec Ideal S800000x128 .f32)))) (shapeCast S128x256 (extractStridedSlice S1x128x256 ![1, 0, 0] ((X (Proc.devRef .tc main_arg5) : FVec Ideal S3x128x256 .f32)) slices_S3x128x256_S1x128x256_1_0_0) shapeCasts_S1x128x256_S128x256)) (broadcastInDim S50000x256 ![0, 1] bcast_S1x256_S50000x256_0_1 (broadcastInDim S1x256 ![1] bcast_S256_S1x256_1 (shapeCast S256 (extractStridedSlice S1x256 ![1, 0] ((X (Proc.devRef .tc main_arg6) : FVec Ideal S3x256 .f32)) slices_S3x256_S1x256_1_0) shapeCasts_S1x256_S256))) : FVec Ideal S50000x256 .f32) := by
    after_results_simp <;> (try simp only [TRef.ofBuf, TRef.toBuf, cast_eq]) <;> rfl
  rw [e, hhin, hmsg, hdst, hW, hb, up_scatterAdd_rows_idx scatter_S50000x128_S800000x1_S800000x128_1_0_0_1 rfl rfl rfl rfl, up_addf,
    rs_slice3 (1 : Fin 3) 1 rfl, rs_slice2 (1 : Fin 3) 1 rfl, rs_bcast_vec,
    up_dotGeneral dot_S50000x128_S128x256_S50000x256_1_0_0_1_n_n rfl rfl rfl rfl rfl rfl, up_addf]
  rfl

/-- Stage 12: the second dense layer of layer 1. -/
theorem rstage12 (A : Args) (X : Valuation τ sig (Elt Ideal)) (z : Mat 50000 256)
    (hz : X (Proc.devRef .tc main_v226) = up z) (hW : X (Proc.devRef .tc main_arg9) = up A.W2) (hb : X (Proc.devRef .tc main_arg10) = up A.b2) :
    after (rchunk12 (F := Ideal)) X (Proc.devRef .tc main_v234) = up (lin2Of A 1 z) := by
  have e : after (rchunk12 (F := Ideal)) X (Proc.devRef .tc main_v234)
      = (addf (Host.dotGeneral (F := Ideal) (φ₁ := .f32) (φ₂ := .f32) dot_S50000x256_S256x128_S50000x128_1_0_0_1_n_n none ((X (Proc.devRef .tc main_v226) : FVec Ideal S50000x256 .f32)) (shapeCast S256x128 (extractStridedSlice S1x256x128 ![1, 0, 0] ((X (Proc.devRef .tc main_arg9) : FVec Ideal S3x256x128 .f32)) slices_S3x256x128_S1x256x128_1_0_0) shapeCasts_S1x256x128_S256x128)) (broadcastInDim S50000x128 ![0, 1] bcast_S1x128_S50000x128_0_1 (broadcastInDim S1x128 ![1] bcast_S128_S1x128_1 (shapeCast S128 (extractStridedSlice S1x128 ![1, 0] ((X (Proc.devRef .tc main_arg10) : FVec Ideal S3x128 .f32)) slices_S3x128_S1x128_1_0) shapeCasts_S1x128_S128))) : FVec Ideal S50000x128 .f32) := by
    after_results_simp <;> (try simp only [TRef.ofBuf, TRef.toBuf, cast_eq]) <;> rfl
  rw [e, hz, hW, hb, rs_slice3 (1 : Fin 3) 1 rfl, rs_slice2 (1 : Fin 3) 1 rfl, rs_bcast_vec,
    up_dotGeneral dot_S50000x256_S256x128_S50000x128_1_0_0_1_n_n rfl rfl rfl rfl rfl rfl, up_addf]
  rfl

theorem rstage18_hin (A : Args) (X : Valuation τ sig (Elt Ideal)) (h : Mat 50000 128) (vn : Mat 512 128)
    (hh : X (Proc.devRef .tc main_v258) = up h) (hvn : X (Proc.devRef .tc main_v326) = up vn) (hbatch : X (Proc.devRef .tc main_arg22) = A.batch) :
    after (rchunk18 (F := Ideal)) X (Proc.devRef .tc main_v334) = up (hinOf A h vn) := by
  have e : after (rchunk18 (F := Ideal)) X (Proc.devRef .tc main_v334)
      = (addf ((X (Proc.devRef .tc main_v258) : FVec Ideal S50000x128 .f32)) (Host.gather gather_S512x128_S50000x1_S50000x128_1_0_n_n_0_1_1128 ((X (Proc.devRef .tc main_v326) : FVec Ideal S512x128 .f32)) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32))))) : FVec Ideal S50000x128 .f32) := by
    after_results_simp <;> (try simp only [TRef.ofBuf, TRef.toBuf, cast_eq]) <;> rfl
  rw [e, hh, hvn, hbatch, gather_chain_idx (by norm_num) gather_S512x128_S50000x1_S50000x128_1_0_n_n_0_1_1128 rfl rfl rfl rfl rfl rfl rfl 512#32, up_addf]
  rfl

theorem rstage18_msg (A : Args) (X : Valuation τ sig (Elt Ideal)) (h : Mat 50000 128) (vn : Mat 512 128)
    (hh : X (Proc.devRef .tc main_v258) = up h) (hvn : X (Proc.devRef .tc main_v326) = up vn) (hea : X (Proc.devRef .tc main_arg1) = up A.ea)
    (hWe : X (Proc.devRef .tc main_arg3) = up A.We) (hbe : X (Proc.devRef .tc main_arg4) = up A.be) (hbatch : X (Proc.devRef .tc main_arg22) = A.batch)
    (hsrc : X (Proc.devRef .tc main_v1) = (fun i => srcw A (i 0) : IVec S800000 32)) :
    after (rchunk18 (F := Ideal)) X (Proc.devRef .tc main_v351) = up (msgOf A 2 (hinOf A h vn)) := by
  have e : after (rchunk18 (F := Ideal)) X (Proc.devRef .tc main_v351)
      = (maximumf (addf (Host.gather gather_S50000x128_S800000x1_S800000x128_1_0_n_n_0_1_1128 (addf ((X (Proc.devRef .tc main_v258) : FVec Ideal S50000x128 .f32)) (Host.gather gather_S512x128_S50000x1_S50000x128_1_0_n_n_0_1_1128 ((X (Proc.devRef .tc main_v326) : FVec Ideal S512x128 .f32)) (broadcastInDim S50000x1 ![0] bcast_S50000_S50000x1_0 (select (cmpi .slt ((X (Proc.devRef .tc main_arg22) : IVec S50000 32)) (broadcastInDim S50000 ![] bcast_S_S50000 (constantI S_ 32 0#32))) (addi ((X (Proc.devRef .tc main_arg22) : IVec S50000 32)) (broadcastInDim S50000 ![] bcast_S_S50000 (constantI S_ 32 512#32))) ((X (Proc.devRef .tc main_arg22) : IVec S50000 32)))))) (broadcastInDim S800000x1 ![0] bcast_S800000_S800000x1_0 (select (cmpi .slt ((X (Proc.devRef .tc main_v1) : IVec S800000 32)) (broadcastInDim S800000 ![] bcast_S_S800000 (constantI S_ 32 0#32))) (addi ((X (Proc.devRef .tc main_v1) : IVec S800000 32)) (broadcastInDim S800000 ![] bcast_S_S800000 (constantI S_ 32 50000#32))) ((X (Proc.devRef .tc main_v1) : IVec S800000 32))))) (addf (Host.dotGeneral (F := Ideal) (φ₁ := .f32) (φ₂ := .f32) dot_S800000x8_S8x128_S800000x128_1_0_0_1_n_n none ((X (Proc.devRef .tc main_arg1) : FVec Ideal S800000x8 .f32)) (shapeCast S8x128 (extractStridedSlice S1x8x128 ![2, 0, 0] ((X (Proc.devRef .tc main_arg3) : FVec Ideal S3x8x128 .f32)) slices_S3x8x128_S1x8x128_2_0_0) shapeCasts_S1x8x128_S8x128)) (broadcastInDim S800000x128 ![0, 1] bcast_S1x128_S800000x128_0_1 (broadcastInDim S1x128 ![1] bcast_S128_S1x128_1 (shapeCast S128 (extractStridedSlice S1x128 ![2, 0] ((X (Proc.devRef .tc main_arg4) : FVec Ideal S3x128 .f32)) slices_S3x128_S1x128_2_0) shapeCasts_S1x128_S128))))) (broadcastInDim S800000x128 ![] bcast_S_S800000x128 (constant (F := Ideal) S_ .f32 0x00000000#32)) : FVec Ideal S800000x128 .f32) := by
    after_results_simp <;> (try simp only [TRef.ofBuf, TRef.toBuf, cast_eq]) <;> rfl
  rw [e, hh, hvn, hea, hWe, hbe, hbatch, hsrc,
    gather_chain_idx (by norm_num) gather_S512x128_S50000x1_S50000x128_1_0_n_n_0_1_1128 rfl rfl rfl rfl rfl rfl rfl 512#32, up_addf,
    gather_chain_idx (by norm_num) gather_S50000x128_S800000x1_S800000x128_1_0_n_n_0_1_1128 rfl rfl rfl rfl rfl rfl rfl 50000#32,
    rs_slice3 (2 : Fin 3) 2 rfl, rs_slice2 (2 : Fin 3) 2 rfl, rs_bcast_vec,
    up_dotGeneral dot_S800000x8_S8x128_S800000x128_1_0_0_1_n_n rfl rfl rfl rfl rfl rfl, up_addf, up_addf, rs_relu]
  rfl

/-- Stage 18: the edge messages of layer 2, and the node features with the virtual node added. -/
theorem rstage18 (A : Args) (X : Valuation τ sig (Elt Ideal)) (h : Mat 50000 128) (vn : Mat 512 128)
    (hh : X (Proc.devRef .tc main_v258) = up h) (hvn : X (Proc.devRef .tc main_v326) = up vn) (hea : X (Proc.devRef .tc main_arg1) = up A.ea)
    (hWe : X (Proc.devRef .tc main_arg3) = up A.We) (hbe : X (Proc.devRef .tc main_arg4) = up A.be) (hbatch : X (Proc.devRef .tc main_arg22) = A.batch)
    (hsrc : X (Proc.devRef .tc main_v1) = (fun i => srcw A (i 0) : IVec S800000 32)) :
    after (rchunk18 (F := Ideal)) X (Proc.devRef .tc main_v351) = up (msgOf A 2 (hinOf A h vn)) ∧
    after (rchunk18 (F := Ideal)) X (Proc.devRef .tc main_v334) = up (hinOf A h vn) :=
  ⟨rstage18_msg A X h vn hh hvn hea hWe hbe hbatch hsrc, rstage18_hin A X h vn hh hvn hbatch⟩

/-- Stage 19: the aggregation and the first dense layer of layer 2. -/
theorem rstage19 (A : Args) (X : Valuation τ sig (Elt Ideal)) (hin : Mat 50000 128) (msg : Mat 800000 128)
    (hhin : X (Proc.devRef .tc main_v334) = up hin) (hmsg : X (Proc.devRef .tc main_v351) = up msg)
    (hdst : X (Proc.devRef .tc main_v3) = (fun i => dstw A (i 0) : IVec S800000 32))
    (hW : X (Proc.devRef .tc main_arg5) = up A.W1) (hb : X (Proc.devRef .tc main_arg6) = up A.b1) :
    after (rchunk19 (F := Ideal)) X (Proc.devRef .tc main_v363) = up (lin1Of A 2 hin (aggrOf A msg)) := by
  have e : after (rchunk19 (F := Ideal)) X (Proc.devRef .tc main_v363)
      = (addf (Host.dotGeneral (F := Ideal) (φ₁ := .f32) (φ₂ := .f32) dot_S50000x128_S128x256_S50000x256_1_0_0_1_n_n none (addf ((X (Proc.devRef .tc main_v334) : FVec Ideal S50000x128 .f32)) (Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 ((X (Proc.devRef .tc main_v3) : IVec S800000 32))) ((X (Proc.devRef .tc main_v351) : FVec Ideal S800000x128 .f32)))) (shapeCast S128x256 (extractStridedSlice S1x128x256 ![2, 0, 0] ((X (Proc.devRef .tc main_arg5) : FVec Ideal S3x128x256 .f32)) slices_S3x128x256_S1x128x256_2_0_0) shapeCasts_S1x128x256_S128x256)) (broadcastInDim S50000x256 ![0, 1] bcast_S1x256_S50000x256_0_1 (broadcastInDim S1x256 ![1] bcast_S256_S1x256_1 (shapeCast S256 (extractStridedSlice S1x256 ![2, 0] ((X (Proc.devRef .tc main_arg6) : FVec Ideal S3x256 .f32)) slices_S3x256_S1x256_2_0) shapeCasts_S1x256_S256))) : FVec Ideal S50000x256 .f32) := by
    after_results_simp <;> (try simp only [TRef.ofBuf, TRef.toBuf, cast_eq]) <;> rfl
  rw [e, hhin, hmsg, hdst, hW, hb, up_scatterAdd_rows_idx scatter_S50000x128_S800000x1_S800000x128_1_0_0_1 rfl rfl rfl rfl, up_addf,
    rs_slice3 (2 : Fin 3) 2 rfl, rs_slice2 (2 : Fin 3) 2 rfl, rs_bcast_vec,
    up_dotGeneral dot_S50000x128_S128x256_S50000x256_1_0_0_1_n_n rfl rfl rfl rfl rfl rfl, up_addf]
  rfl

/-- Stage 21: the second dense layer of layer 2. -/
theorem rstage21 (A : Args) (X : Valuation τ sig (Elt Ideal)) (z : Mat 50000 256)
    (hz : X (Proc.devRef .tc main_v387) = up z) (hW : X (Proc.devRef .tc main_arg9) = up A.W2) (hb : X (Proc.devRef .tc main_arg10) = up A.b2) :
    after (rchunk21 (F := Ideal)) X (Proc.devRef .tc main_v395) = up (lin2Of A 2 z) := by
  have e : after (rchunk21 (F := Ideal)) X (Proc.devRef .tc main_v395)
      = (addf (Host.dotGeneral (F := Ideal) (φ₁ := .f32) (φ₂ := .f32) dot_S50000x256_S256x128_S50000x128_1_0_0_1_n_n none ((X (Proc.devRef .tc main_v387) : FVec Ideal S50000x256 .f32)) (shapeCast S256x128 (extractStridedSlice S1x256x128 ![2, 0, 0] ((X (Proc.devRef .tc main_arg9) : FVec Ideal S3x256x128 .f32)) slices_S3x256x128_S1x256x128_2_0_0) shapeCasts_S1x256x128_S256x128)) (broadcastInDim S50000x128 ![0, 1] bcast_S1x128_S50000x128_0_1 (broadcastInDim S1x128 ![1] bcast_S128_S1x128_1 (shapeCast S128 (extractStridedSlice S1x128 ![2, 0] ((X (Proc.devRef .tc main_arg10) : FVec Ideal S3x128 .f32)) slices_S3x128_S1x128_2_0) shapeCasts_S1x128_S128))) : FVec Ideal S50000x128 .f32) := by
    after_results_simp <;> (try simp only [TRef.ofBuf, TRef.toBuf, cast_eq]) <;> rfl
  rw [e, hz, hW, hb, rs_slice3 (2 : Fin 3) 2 rfl, rs_slice2 (2 : Fin 3) 2 rfl, rs_bcast_vec,
    up_dotGeneral dot_S50000x256_S256x128_S50000x128_1_0_0_1_n_n rfl rfl rfl rfl rfl rfl, up_addf]
  rfl

end Cert.ReferenceIdeal.Hand

end
-- ==== Proof.RStageNodeBn.lean ====
/-
  The reference program's batch-normalisation stages of the node part, read on real arrays: if the stage's input
  buffer holds a real array `y` and the scale and shift parameters are real arrays, then the buffer the stage ends in
  holds `Spec.bn y` of that layer's parameter rows (followed by the relu in all but the last stage). Each proof first
  writes the stage's result as the composed term of its operations over the entry contents, then reads the mean, the
  variance chain, the reciprocal square root and the pointwise operations on real arrays.
-/
import proofs.«403290_j73710228734482_1_alg».proof.Proof.RChunks
import proofs.«403290_j73710228734482_1_alg».proof.Proof.Spec
import proofs.«403290_j73710228734482_1_alg».proof.Proof.LibUp
import proofs.«403290_j73710228734482_1_alg».proof.Proof.RStageLib

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

/-- Stage 2: the first batch normalisation, with its relu, of layer 0. -/
theorem rstage2 (A : Args) (X : Valuation τ sig (Elt Ideal)) (y : Mat 50000 256)
    (hy : X (Proc.devRef .tc main_v41) = up y) (hg : X (Proc.devRef .tc main_arg7) = up A.g1) (hb : X (Proc.devRef .tc main_arg8) = up A.bt1) :
    after (rchunk2 (F := Ideal)) X (Proc.devRef .tc main_v65) = up (zOf A 0 y) := by
  have e : after (rchunk2 (F := Ideal)) X (Proc.devRef .tc main_v65)
      = (maximumf (addf (mulf (mulf (broadcastInDim S50000x256 ![0, 1] bcast_S1x256_S50000x256_0_1 (broadcastInDim S1x256 ![1] bcast_S256_S1x256_1 (shapeCast S256 (extractStridedSlice S1x256 ![0, 0] ((X (Proc.devRef .tc main_arg7) : FVec Ideal S3x256 .f32)) slices_S3x256_S1x256_0_0) shapeCasts_S1x256_S256))) (subf ((X (Proc.devRef .tc main_v41) : FVec Ideal S50000x256 .f32)) (broadcastInDim S50000x256 ![0, 1] bcast_S1x256_S50000x256_0_1 (broadcastInDim S1x256 ![1] bcast_S256_S1x256_1 (Host.divf (Host.reduceAdd (F := Ideal) ((X (Proc.devRef .tc main_v41) : FVec Ideal S50000x256 .f32)) (constant (F := Ideal) S_ .f32 0x00000000#32) reducesTo_S50000x256_S256_d0 h_S_) (broadcastInDim S256 ![] bcast_S_S256 (constant (F := Ideal) S_ .f32 0x47435000#32))))))) (broadcastInDim S50000x256 ![0, 1] bcast_S1x256_S50000x256_0_1 (broadcastInDim S1x256 ![1] bcast_S256_S1x256_1 (Host.rsqrt (addf (select (broadcastInDim S256 ![] bcast_S_S256 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v41) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v41) : FVec Ideal S50000x256 .f32)) (constant (F := Ideal) S_ .f32 0x00000000#32) reducesTo_S50000x256_S256_d0 h_S_)) (broadcastInDim S1x256 ![] bcast_S_S1x256 (constant (F := Ideal) S_ .f32 0x47435000#32))))) (subf ((X (Proc.devRef .tc main_v41) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v41) : FVec Ideal S50000x256 .f32)) (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (constant (F := Ideal) S_ .f32 0x47435000#32) (sitofp (F := Ideal) .f32 (constantI S_ 32 0#32))))) (broadcastInDim S256 ![] bcast_S_S256 (constant (F := Ideal) S_ .f32 0x7FC00000#32))) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 (shapeCast S256 (extractStridedSlice S1x256 ![0, 0] ((X (Proc.devRef .tc main_arg8) : FVec Ideal S3x256 .f32)) slices_S3x256_S1x256_0_0) shapeCasts_S1x256_S256)))) (broadcastInDim S50000x256 ![] bcast_S_S50000x256 (constant (F := Ideal) S_ .f32 0x00000000#32)) : FVec Ideal S50000x256 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (0 : Fin 3) 0 rfl, rs_slice2 (0 : Fin 3) 0 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf, rs_relu]
  rfl

/-- Stage 4: the second batch normalisation, with its relu, of layer 0. -/
theorem rstage4 (A : Args) (X : Valuation τ sig (Elt Ideal)) (y : Mat 50000 128)
    (hy : X (Proc.devRef .tc main_v73) = up y) (hg : X (Proc.devRef .tc main_arg11) = up A.gb) (hb : X (Proc.devRef .tc main_arg12) = up A.bb) :
    after (rchunk4 (F := Ideal)) X (Proc.devRef .tc main_v97) = up (relu (hbnOf A 0 y)) := by
  have e : after (rchunk4 (F := Ideal)) X (Proc.devRef .tc main_v97)
      = (maximumf (addf (mulf (mulf (broadcastInDim S50000x128 ![0, 1] bcast_S1x128_S50000x128_0_1 (broadcastInDim S1x128 ![1] bcast_S128_S1x128_1 (shapeCast S128 (extractStridedSlice S1x128 ![0, 0] ((X (Proc.devRef .tc main_arg11) : FVec Ideal S3x128 .f32)) slices_S3x128_S1x128_0_0) shapeCasts_S1x128_S128))) (subf ((X (Proc.devRef .tc main_v73) : FVec Ideal S50000x128 .f32)) (broadcastInDim S50000x128 ![0, 1] bcast_S1x128_S50000x128_0_1 (broadcastInDim S1x128 ![1] bcast_S128_S1x128_1 (Host.divf (Host.reduceAdd (F := Ideal) ((X (Proc.devRef .tc main_v73) : FVec Ideal S50000x128 .f32)) (constant (F := Ideal) S_ .f32 0x00000000#32) reducesTo_S50000x128_S128_d0 h_S_) (broadcastInDim S128 ![] bcast_S_S128 (constant (F := Ideal) S_ .f32 0x47435000#32))))))) (broadcastInDim S50000x128 ![0, 1] bcast_S1x128_S50000x128_0_1 (broadcastInDim S1x128 ![1] bcast_S128_S1x128_1 (Host.rsqrt (addf (select (broadcastInDim S128 ![] bcast_S_S128 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v73) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v73) : FVec Ideal S50000x128 .f32)) (constant (F := Ideal) S_ .f32 0x00000000#32) reducesTo_S50000x128_S128_d0 h_S_)) (broadcastInDim S1x128 ![] bcast_S_S1x128 (constant (F := Ideal) S_ .f32 0x47435000#32))))) (subf ((X (Proc.devRef .tc main_v73) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v73) : FVec Ideal S50000x128 .f32)) (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) (broadcastInDim S128 ![] bcast_S_S128 (constant (F := Ideal) S_ .f32 0x7FC00000#32))) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (shapeCast S128 (extractStridedSlice S1x128 ![0, 0] ((X (Proc.devRef .tc main_arg12) : FVec Ideal S3x128 .f32)) slices_S3x128_S1x128_0_0) shapeCasts_S1x128_S128)))) (broadcastInDim S50000x128 ![] bcast_S_S50000x128 (constant (F := Ideal) S_ .f32 0x00000000#32)) : FVec Ideal S50000x128 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (0 : Fin 3) 0 rfl, rs_slice2 (0 : Fin 3) 0 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf, rs_relu]
  rfl

/-- Stage 11: the first batch normalisation, with its relu, of layer 1. -/
theorem rstage11 (A : Args) (X : Valuation τ sig (Elt Ideal)) (y : Mat 50000 256)
    (hy : X (Proc.devRef .tc main_v202) = up y) (hg : X (Proc.devRef .tc main_arg7) = up A.g1) (hb : X (Proc.devRef .tc main_arg8) = up A.bt1) :
    after (rchunk11 (F := Ideal)) X (Proc.devRef .tc main_v226) = up (zOf A 1 y) := by
  have e : after (rchunk11 (F := Ideal)) X (Proc.devRef .tc main_v226)
      = (maximumf (addf (mulf (mulf (broadcastInDim S50000x256 ![0, 1] bcast_S1x256_S50000x256_0_1 (broadcastInDim S1x256 ![1] bcast_S256_S1x256_1 (shapeCast S256 (extractStridedSlice S1x256 ![1, 0] ((X (Proc.devRef .tc main_arg7) : FVec Ideal S3x256 .f32)) slices_S3x256_S1x256_1_0) shapeCasts_S1x256_S256))) (subf ((X (Proc.devRef .tc main_v202) : FVec Ideal S50000x256 .f32)) (broadcastInDim S50000x256 ![0, 1] bcast_S1x256_S50000x256_0_1 (broadcastInDim S1x256 ![1] bcast_S256_S1x256_1 (Host.divf (Host.reduceAdd (F := Ideal) ((X (Proc.devRef .tc main_v202) : FVec Ideal S50000x256 .f32)) (constant (F := Ideal) S_ .f32 0x00000000#32) reducesTo_S50000x256_S256_d0 h_S_) (broadcastInDim S256 ![] bcast_S_S256 (constant (F := Ideal) S_ .f32 0x47435000#32))))))) (broadcastInDim S50000x256 ![0, 1] bcast_S1x256_S50000x256_0_1 (broadcastInDim S1x256 ![1] bcast_S256_S1x256_1 (Host.rsqrt (addf (select (broadcastInDim S256 ![] bcast_S_S256 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v202) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v202) : FVec Ideal S50000x256 .f32)) (constant (F := Ideal) S_ .f32 0x00000000#32) reducesTo_S50000x256_S256_d0 h_S_)) (broadcastInDim S1x256 ![] bcast_S_S1x256 (constant (F := Ideal) S_ .f32 0x47435000#32))))) (subf ((X (Proc.devRef .tc main_v202) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v202) : FVec Ideal S50000x256 .f32)) (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (constant (F := Ideal) S_ .f32 0x47435000#32) (sitofp (F := Ideal) .f32 (constantI S_ 32 0#32))))) (broadcastInDim S256 ![] bcast_S_S256 (constant (F := Ideal) S_ .f32 0x7FC00000#32))) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 (shapeCast S256 (extractStridedSlice S1x256 ![1, 0] ((X (Proc.devRef .tc main_arg8) : FVec Ideal S3x256 .f32)) slices_S3x256_S1x256_1_0) shapeCasts_S1x256_S256)))) (broadcastInDim S50000x256 ![] bcast_S_S50000x256 (constant (F := Ideal) S_ .f32 0x00000000#32)) : FVec Ideal S50000x256 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (1 : Fin 3) 1 rfl, rs_slice2 (1 : Fin 3) 1 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf, rs_relu]
  rfl

/-- Stage 13: the second batch normalisation, with its relu, of layer 1. -/
theorem rstage13 (A : Args) (X : Valuation τ sig (Elt Ideal)) (y : Mat 50000 128)
    (hy : X (Proc.devRef .tc main_v234) = up y) (hg : X (Proc.devRef .tc main_arg11) = up A.gb) (hb : X (Proc.devRef .tc main_arg12) = up A.bb) :
    after (rchunk13 (F := Ideal)) X (Proc.devRef .tc main_v258) = up (relu (hbnOf A 1 y)) := by
  have e : after (rchunk13 (F := Ideal)) X (Proc.devRef .tc main_v258)
      = (maximumf (addf (mulf (mulf (broadcastInDim S50000x128 ![0, 1] bcast_S1x128_S50000x128_0_1 (broadcastInDim S1x128 ![1] bcast_S128_S1x128_1 (shapeCast S128 (extractStridedSlice S1x128 ![1, 0] ((X (Proc.devRef .tc main_arg11) : FVec Ideal S3x128 .f32)) slices_S3x128_S1x128_1_0) shapeCasts_S1x128_S128))) (subf ((X (Proc.devRef .tc main_v234) : FVec Ideal S50000x128 .f32)) (broadcastInDim S50000x128 ![0, 1] bcast_S1x128_S50000x128_0_1 (broadcastInDim S1x128 ![1] bcast_S128_S1x128_1 (Host.divf (Host.reduceAdd (F := Ideal) ((X (Proc.devRef .tc main_v234) : FVec Ideal S50000x128 .f32)) (constant (F := Ideal) S_ .f32 0x00000000#32) reducesTo_S50000x128_S128_d0 h_S_) (broadcastInDim S128 ![] bcast_S_S128 (constant (F := Ideal) S_ .f32 0x47435000#32))))))) (broadcastInDim S50000x128 ![0, 1] bcast_S1x128_S50000x128_0_1 (broadcastInDim S1x128 ![1] bcast_S128_S1x128_1 (Host.rsqrt (addf (select (broadcastInDim S128 ![] bcast_S_S128 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v234) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v234) : FVec Ideal S50000x128 .f32)) (constant (F := Ideal) S_ .f32 0x00000000#32) reducesTo_S50000x128_S128_d0 h_S_)) (broadcastInDim S1x128 ![] bcast_S_S1x128 (constant (F := Ideal) S_ .f32 0x47435000#32))))) (subf ((X (Proc.devRef .tc main_v234) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v234) : FVec Ideal S50000x128 .f32)) (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) (broadcastInDim S128 ![] bcast_S_S128 (constant (F := Ideal) S_ .f32 0x7FC00000#32))) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (shapeCast S128 (extractStridedSlice S1x128 ![1, 0] ((X (Proc.devRef .tc main_arg12) : FVec Ideal S3x128 .f32)) slices_S3x128_S1x128_1_0) shapeCasts_S1x128_S128)))) (broadcastInDim S50000x128 ![] bcast_S_S50000x128 (constant (F := Ideal) S_ .f32 0x00000000#32)) : FVec Ideal S50000x128 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (1 : Fin 3) 1 rfl, rs_slice2 (1 : Fin 3) 1 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf, rs_relu]
  rfl

/-- Stage 20: the first batch normalisation, with its relu, of layer 2. -/
theorem rstage20 (A : Args) (X : Valuation τ sig (Elt Ideal)) (y : Mat 50000 256)
    (hy : X (Proc.devRef .tc main_v363) = up y) (hg : X (Proc.devRef .tc main_arg7) = up A.g1) (hb : X (Proc.devRef .tc main_arg8) = up A.bt1) :
    after (rchunk20 (F := Ideal)) X (Proc.devRef .tc main_v387) = up (zOf A 2 y) := by
  have e : after (rchunk20 (F := Ideal)) X (Proc.devRef .tc main_v387)
      = (maximumf (addf (mulf (mulf (broadcastInDim S50000x256 ![0, 1] bcast_S1x256_S50000x256_0_1 (broadcastInDim S1x256 ![1] bcast_S256_S1x256_1 (shapeCast S256 (extractStridedSlice S1x256 ![2, 0] ((X (Proc.devRef .tc main_arg7) : FVec Ideal S3x256 .f32)) slices_S3x256_S1x256_2_0) shapeCasts_S1x256_S256))) (subf ((X (Proc.devRef .tc main_v363) : FVec Ideal S50000x256 .f32)) (broadcastInDim S50000x256 ![0, 1] bcast_S1x256_S50000x256_0_1 (broadcastInDim S1x256 ![1] bcast_S256_S1x256_1 (Host.divf (Host.reduceAdd (F := Ideal) ((X (Proc.devRef .tc main_v363) : FVec Ideal S50000x256 .f32)) (constant (F := Ideal) S_ .f32 0x00000000#32) reducesTo_S50000x256_S256_d0 h_S_) (broadcastInDim S256 ![] bcast_S_S256 (constant (F := Ideal) S_ .f32 0x47435000#32))))))) (broadcastInDim S50000x256 ![0, 1] bcast_S1x256_S50000x256_0_1 (broadcastInDim S1x256 ![1] bcast_S256_S1x256_1 (Host.rsqrt (addf (select (broadcastInDim S256 ![] bcast_S_S256 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v363) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v363) : FVec Ideal S50000x256 .f32)) (constant (F := Ideal) S_ .f32 0x00000000#32) reducesTo_S50000x256_S256_d0 h_S_)) (broadcastInDim S1x256 ![] bcast_S_S1x256 (constant (F := Ideal) S_ .f32 0x47435000#32))))) (subf ((X (Proc.devRef .tc main_v363) : FVec Ideal S50000x256 .f32)) (broadcastInDim S50000x256 ![0, 1] bcast_S1x256_S50000x256_0_1 (Host.divf (broadcastInDim S1x256 ![1] bcast_S256_S1x256_1 (Host.reduceAdd (F := Ideal) ((X (Proc.devRef .tc main_v363) : FVec Ideal S50000x256 .f32)) (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (constant (F := Ideal) S_ .f32 0x47435000#32) (sitofp (F := Ideal) .f32 (constantI S_ 32 0#32))))) (broadcastInDim S256 ![] bcast_S_S256 (constant (F := Ideal) S_ .f32 0x7FC00000#32))) (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 (shapeCast S256 (extractStridedSlice S1x256 ![2, 0] ((X (Proc.devRef .tc main_arg8) : FVec Ideal S3x256 .f32)) slices_S3x256_S1x256_2_0) shapeCasts_S1x256_S256)))) (broadcastInDim S50000x256 ![] bcast_S_S50000x256 (constant (F := Ideal) S_ .f32 0x00000000#32)) : FVec Ideal S50000x256 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (2 : Fin 3) 2 rfl, rs_slice2 (2 : Fin 3) 2 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf, rs_relu]
  rfl

/-- Stage 22: the second batch normalisation of layer 2. -/
theorem rstage22 (A : Args) (X : Valuation τ sig (Elt Ideal)) (y : Mat 50000 128)
    (hy : X (Proc.devRef .tc main_v395) = up y) (hg : X (Proc.devRef .tc main_arg11) = up A.gb) (hb : X (Proc.devRef .tc main_arg12) = up A.bb) :
    after (rchunk22 (F := Ideal)) X (Proc.devRef .tc main_v418) = up (hbnOf A 2 y) := by
  have e : after (rchunk22 (F := Ideal)) X (Proc.devRef .tc main_v418)
      = (addf (mulf (mulf (broadcastInDim S50000x128 ![0, 1] bcast_S1x128_S50000x128_0_1 (broadcastInDim S1x128 ![1] bcast_S128_S1x128_1 (shapeCast S128 (extractStridedSlice S1x128 ![2, 0] ((X (Proc.devRef .tc main_arg11) : FVec Ideal S3x128 .f32)) slices_S3x128_S1x128_2_0) shapeCasts_S1x128_S128))) (subf ((X (Proc.devRef .tc main_v395) : FVec Ideal S50000x128 .f32)) (broadcastInDim S50000x128 ![0, 1] bcast_S1x128_S50000x128_0_1 (broadcastInDim S1x128 ![1] bcast_S128_S1x128_1 (Host.divf (Host.reduceAdd (F := Ideal) ((X (Proc.devRef .tc main_v395) : FVec Ideal S50000x128 .f32)) (constant (F := Ideal) S_ .f32 0x00000000#32) reducesTo_S50000x128_S128_d0 h_S_) (broadcastInDim S128 ![] bcast_S_S128 (constant (F := Ideal) S_ .f32 0x47435000#32))))))) (broadcastInDim S50000x128 ![0, 1] bcast_S1x128_S50000x128_0_1 (broadcastInDim S1x128 ![1] bcast_S128_S1x128_1 (Host.rsqrt (addf (select (broadcastInDim S128 ![] bcast_S_S128 (cmpf (F := Ideal) .ogt (subf (constant (F := Ideal) S_ .f32 0x47435000#32) (sitofp (F := Ideal) .f32 (constantI S_ 32 0#32))) (constant (F := Ideal) S_ .f32 0x00000000#32))) (Host.divf (Host.reduceAdd (F := Ideal) (mulf (subf ((X (Proc.devRef .tc main_v395) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v395) : FVec Ideal S50000x128 .f32)) (constant (F := Ideal) S_ .f32 0x00000000#32) reducesTo_S50000x128_S128_d0 h_S_)) (broadcastInDim S1x128 ![] bcast_S_S1x128 (constant (F := Ideal) S_ .f32 0x47435000#32))))) (subf ((X (Proc.devRef .tc main_v395) : FVec Ideal S50000x128 .f32)) (broadcastInDim S50000x128 ![0, 1] bcast_S1x128_S50000x128_0_1 (Host.divf (broadcastInDim S1x128 ![1] bcast_S128_S1x128_1 (Host.reduceAdd (F := Ideal) ((X (Proc.devRef .tc main_v395) : FVec Ideal S50000x128 .f32)) (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_) (broadcastInDim S128 ![] bcast_S_S128 (subf (constant (F := Ideal) S_ .f32 0x47435000#32) (sitofp (F := Ideal) .f32 (constantI S_ 32 0#32))))) (broadcastInDim S128 ![] bcast_S_S128 (constant (F := Ideal) S_ .f32 0x7FC00000#32))) (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 (shapeCast S128 (extractStridedSlice S1x128 ![2, 0] ((X (Proc.devRef .tc main_arg12) : FVec Ideal S3x128 .f32)) slices_S3x128_S1x128_2_0) shapeCasts_S1x128_S128))) : FVec Ideal S50000x128 .f32) := by
    after_results_simp <;> (try simp only [TRef.ofBuf, TRef.toBuf, cast_eq]) <;> rfl
  rw [e, hy, hg, hb, var_chain (by norm_num) 0x47435000#32 ofBits_50000_nat y,
    up_mean (by norm_num) 0x47435000#32 ofBits_50000_nat y,
    rs_slice2 (2 : Fin 3) 2 rfl, rs_slice2 (2 : Fin 3) 2 rfl, rs_bcast_vec, rs_bcast_vec, rs_bcast_vec,
    up_subf, up_mulf, rs_bcast_const _ 0x3727C5AC#32 eps ofBits_eps, up_addf,
    up_rsqrt _ (fun i => var_add_eps_pos y i), rs_bcast_vec, up_mulf, up_addf]
  rfl

end Cert.ReferenceIdeal.Hand

end
-- ==== Proof.RStageVn.lean ====
import proofs.«403290_j73710228734482_1_alg».proof.Proof.RChunks
import proofs.«403290_j73710228734482_1_alg».proof.Proof.Spec
import proofs.«403290_j73710228734482_1_alg».proof.Proof.LibUp
import proofs.«403290_j73710228734482_1_alg».proof.Proof.LibDot
import proofs.«403290_j73710228734482_1_alg».proof.Proof.LibRows
import Idealize.ShloMosaic.Lib.ValueLayout
import Idealize.ShloMosaic.Lib.KernelVsHost
import Idealize.ShloMosaic.Lib.Pipeline.Value

noncomputable section

namespace Cert.ReferenceIdeal.Hand

open Cert.Spec Cert.ReferenceIdeal Cert.ReferenceIdeal.Gen Idealize.ShloMosaic Idealize.ShloMosaic.ValueIdx Idealize.ShloMosaic.TcCoe Idealize.SL.Sem Idealize.ShloMosaic.StableHlo

namespace Vn

theorem bcast_up {s t : Shape} (dims : Fin s.rank → Fin t.rank) (h : s.BroadcastsInDim t dims) (a : s.Idx → ℝ) :
    broadcastInDim t dims h (up a) = up (broadcastInDim t dims h a) := rfl
theorem slice_up {s t : Shape} (off : Fin s.rank → Nat) (a : s.Idx → ℝ) (h : s.Slices off t) :
    extractStridedSlice t off (up a) h = up (extractStridedSlice t off a h) := rfl
theorem cast_up {s t : Shape} (a : s.Idx → ℝ) (h : s.ShapeCasts t) :
    shapeCast t (up a) h = up (shapeCast t a h) := rfl

theorem row3_read {a b c : Nat} (l : Nat) (hl : l < a) (W : Ten a b c)
    (h : (⟨3, ![a, b, c]⟩ : Shape).Slices ![l, 0, 0] ⟨3, ![1, b, c]⟩)
    (h' : (⟨3, ![1, b, c]⟩ : Shape).ShapeCasts ⟨2, ![b, c]⟩) :
    shapeCast ⟨2, ![b, c]⟩ (extractStridedSlice ⟨3, ![1, b, c]⟩ ![l, 0, 0] W h) h' = row3 ⟨l, hl⟩ W := by
  funext j
  obtain ⟨p, q, rfl⟩ : ∃ (p : Fin b) (q : Fin c), j = ix2 p q := ⟨j 0, j 1, eq_ix2 j⟩
  rw [shapeCast_1ab_ab_apply]
  refine extractStridedSlice_apply ![l, 0, 0] W h (ix3 (0 : Fin 1) p q) (ix3 ⟨l, hl⟩ p q) ?_
  intro ax
  match ax with
  | ⟨0, _⟩ => exact (Nat.add_zero l).symm
  | ⟨1, _⟩ => exact (Nat.zero_add _).symm
  | ⟨2, _⟩ => exact (Nat.zero_add _).symm

theorem row2_read {a d : Nat} (l : Nat) (hl : l < a) (b : Mat a d)
    (h : (⟨2, ![a, d]⟩ : Shape).Slices ![l, 0] ⟨2, ![1, d]⟩) (h' : (⟨2, ![1, d]⟩ : Shape).ShapeCasts ⟨1, ![d]⟩) :
    shapeCast ⟨1, ![d]⟩ (extractStridedSlice ⟨2, ![1, d]⟩ ![l, 0] b h) h' = row2 ⟨l, hl⟩ b := by
  funext j
  obtain ⟨t, rfl⟩ : ∃ t : Fin d, j = ix1 t := ⟨j 0, eq_ix1 j⟩
  rw [shapeCast_1a_a_apply]
  exact slice2_axis0_apply l b h (0 : Fin 1) t ⟨l, hl⟩ (Nat.add_zero l).symm

theorem rows_read {α : Type} {n d : Nat} (v : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![n, d]⟩ ![0, 1]) :
    broadcastInDim ⟨2, ![n, d]⟩ ![0, 1] h2 (broadcastInDim ⟨2, ![1, d]⟩ ![1] h1 v) = fun i => v (ix1 (i 1)) := by
  funext i
  obtain ⟨r, t, rfl⟩ : ∃ (r : Fin n) (t : Fin d), i = ix2 r t := ⟨i 0, i 1, eq_ix2 i⟩
  rw [broadcastInDim_oneRow_apply]
  refine broadcastInDim_apply ![1] h1 v (ix2 (0 : Fin 1) t) (ix1 t) ?_
  intro a
  match a with
  | ⟨0, _⟩ =>
    show t.val = if d = 1 then 0 else t.val
    split
    · have := t.isLt; omega
    · rfl

end Vn

namespace Vn

def linOps {F : FTy → Type} [FloatOps F] {n k d a : Nat} (rec : DotDims ⟨2, ![n, k]⟩ ⟨2, ![k, d]⟩ ⟨2, ![n, d]⟩) (l : Nat)
    (hsW : (⟨3, ![a, k, d]⟩ : Shape).Slices ![l, 0, 0] ⟨3, ![1, k, d]⟩)
    (hcW : (⟨3, ![1, k, d]⟩ : Shape).ShapeCasts ⟨2, ![k, d]⟩)
    (hsb : (⟨2, ![a, d]⟩ : Shape).Slices ![l, 0] ⟨2, ![1, d]⟩) (hcb : (⟨2, ![1, d]⟩ : Shape).ShapeCasts ⟨1, ![d]⟩)
    (h1 : (⟨1, ![d]⟩ : Shape).BroadcastsInDim ⟨2, ![1, d]⟩ ![1])
    (h2 : (⟨2, ![1, d]⟩ : Shape).BroadcastsInDim ⟨2, ![n, d]⟩ ![0, 1])
    (x : FVec F ⟨2, ![n, k]⟩ .f32) (W : FVec F ⟨3, ![a, k, d]⟩ .f32) (b : FVec F ⟨2, ![a, d]⟩ .f32) :
    FVec F ⟨2, ![n, d]⟩ .f32 :=
  addf (Host.dotGeneral rec none x (shapeCast ⟨2, ![k, d]⟩ (extractStridedSlice ⟨3, ![1, k, d]⟩ ![l, 0, 0] W hsW) hcW))
    (broadcastInDim ⟨2, ![n, d]⟩ ![0, 1] h2 (broadcastInDim ⟨2, ![1, d]⟩ ![1] h1
      (shapeCast ⟨1, ![d]⟩ (extractStridedSlice ⟨2, ![1, d]⟩ ![l, 0] b hsb) hcb)))

theorem linOps_up {n k d a : Nat} (rec : DotDims ⟨2, ![n, k]⟩ ⟨2, ![k, d]⟩ ⟨2, ![n, d]⟩)
    (r1 : rec.lhsContracting = [1]) (r2 : rec.rhsContracting = [0]) (r3 : rec.lhsNonContracting = [0])
    (r4 : rec.rhsNonContracting = [1]) (r5 : rec.lhsBatch = []) (r6 : rec.rhsBatch = [])
    (l : Nat) (hl : l < a)
    (hsW : (⟨3, ![a, k, d]⟩ : Shape).Slices ![l, 0, 0] ⟨3, ![1, k, d]⟩)
    (hcW : (⟨3, ![1, k, d]⟩ : Shape).ShapeCasts ⟨2, ![k, d]⟩)
    (hsb : (⟨2, ![a, d]⟩ : Shape).Slices ![l, 0] ⟨2, ![1, d]⟩) (hcb : (⟨2, ![1, d]⟩ : Shape).ShapeCasts ⟨1, ![d]⟩)
    (h1 : (⟨1, ![d]⟩ : Shape).BroadcastsInDim ⟨2, ![1, d]⟩ ![1])
    (h2 : (⟨2, ![1, d]⟩ : Shape).BroadcastsInDim ⟨2, ![n, d]⟩ ![0, 1])
    (x : Mat n k) (W : Ten a k d) (b : Mat a d) :
    linOps (F := Ideal) rec l hsW hcW hsb hcb h1 h2 (up x) (up W) (up b)
      = up (lin x (row3 ⟨l, hl⟩ W) (row2 ⟨l, hl⟩ b)) := by
  unfold linOps
  simp only [slice_up, cast_up, bcast_up, row3_read l hl, row2_read l hl,
    up_dotGeneral rec r1 r2 r3 r4 r5 r6, up_addf]
  refine congrArg up (funext fun i => ?_)
  exact congrArg (fun z => (∑ t, x (ix2 (i 0) t) * row3 ⟨l, hl⟩ W (ix2 t (i 1))) + z)
    (congrFun (rows_read (row2 ⟨l, hl⟩ b) h1 h2) i)

end Vn

open Vn

variable (A : Cert.Spec.Args)

theorem Vn.key7 {F : FTy → Type} [FloatOps F] (X : Valuation τ sig (Elt F)) :
    after (rchunk7 (F := F)) X (Proc.devRef .tc main_v141)
      = linOps (F := F) dot_S512x256_S256x128_S512x128_1_0_0_1_n_n 0 slices_S2x256x128_S1x256x128_0_0_0
          shapeCasts_S1x256x128_S256x128 slices_S2x128_S1x128_0_0 shapeCasts_S1x128_S128 bcast_S128_S1x128_1
          bcast_S1x128_S512x128_0_1 (X (Proc.devRef .tc main_v133)) (X (Proc.devRef .tc main_arg17))
          (X (Proc.devRef .tc main_arg18)) := by
  after_results_simp
  rfl

theorem rstage7 (X : Valuation τ sig (Elt Ideal)) (t : Mat 512 256)
    (h133 : X (Proc.devRef .tc main_v133) = up t)
    (h17 : X (Proc.devRef .tc main_arg17) = up A.Wv2) (h18 : X (Proc.devRef .tc main_arg18) = up A.bv2) :
    after (rchunk7 (F := Ideal)) X (Proc.devRef .tc main_v141) = up (linv2Of A 0 t) := by
  rw [key7 X, h133, h17, h18, linOps_up (a := 2) dot_S512x256_S256x128_S512x128_1_0_0_1_n_n rfl rfl rfl rfl rfl rfl 0 (by norm_num)]
  rfl

theorem Vn.key16 {F : FTy → Type} [FloatOps F] (X : Valuation τ sig (Elt F)) :
    after (rchunk16 (F := F)) X (Proc.devRef .tc main_v302)
      = linOps (F := F) dot_S512x256_S256x128_S512x128_1_0_0_1_n_n 1 slices_S2x256x128_S1x256x128_1_0_0
          shapeCasts_S1x256x128_S256x128 slices_S2x128_S1x128_1_0 shapeCasts_S1x128_S128 bcast_S128_S1x128_1
          bcast_S1x128_S512x128_0_1 (X (Proc.devRef .tc main_v294)) (X (Proc.devRef .tc main_arg17))
          (X (Proc.devRef .tc main_arg18)) := by
  after_results_simp
  rfl

theorem rstage16 (X : Valuation τ sig (Elt Ideal)) (t : Mat 512 256)
    (h294 : X (Proc.devRef .tc main_v294) = up t)
    (h17 : X (Proc.devRef .tc main_arg17) = up A.Wv2) (h18 : X (Proc.devRef .tc main_arg18) = up A.bv2) :
    after (rchunk16 (F := Ideal)) X (Proc.devRef .tc main_v302) = up (linv2Of A 1 t) := by
  rw [key16 X, h294, h17, h18, linOps_up (a := 2) dot_S512x256_S256x128_S512x128_1_0_0_1_n_n rfl rfl rfl rfl rfl rfl 1 (by norm_num)]
  rfl

theorem Vn.key5 {F : FTy → Type} [FloatOps F] (X : Valuation τ sig (Elt F)) :
    after (rchunk5 (F := F)) X (Proc.devRef .tc main_v109)
      = linOps (F := F) dot_S512x128_S128x256_S512x256_1_0_0_1_n_n 0 slices_S2x128x256_S1x128x256_0_0_0
          shapeCasts_S1x128x256_S128x256 slices_S2x256_S1x256_0_0 shapeCasts_S1x256_S256 bcast_S256_S1x256_1
          bcast_S1x256_S512x256_0_1
          (addf (Host.scatterAdd scatter_S512x128_S50000x1_S50000x128_1_0_0_1
              (broadcastInDim S512x128 ![] bcast_S_S512x128 (constant (F := F) S_ .f32 0x00000000#32))
              (broadcastInDim S50000x1 ![0] bcast_S50000_S50000x1_0 (X (Proc.devRef .tc main_arg22)))
              (X (Proc.devRef .tc main_v12)))
            (X (Proc.devRef .tc main_v4)))
          (X (Proc.devRef .tc main_arg13)) (X (Proc.devRef .tc main_arg14)) := by
  after_results_simp
  rfl

theorem rstage5 (X : Valuation τ sig (Elt Ideal)) (hin : Mat 50000 128) (vn : Mat 512 128)
    (h12 : X (Proc.devRef .tc main_v12) = up hin) (h4 : X (Proc.devRef .tc main_v4) = up vn)
    (h22 : X (Proc.devRef .tc main_arg22) = A.batch)
    (h13 : X (Proc.devRef .tc main_arg13) = up A.Wv1) (h14 : X (Proc.devRef .tc main_arg14) = up A.bv1) :
    after (rchunk5 (F := Ideal)) X (Proc.devRef .tc main_v109) = up (linv1Of A 0 (pooledOf A hin) vn) := by
  rw [key5 X, h12, h4, h22, h13, h14, up_scatterAdd_rows_idx scatter_S512x128_S50000x1_S50000x128_1_0_0_1 rfl rfl rfl rfl, up_addf,
    linOps_up (a := 2) dot_S512x128_S128x256_S512x256_1_0_0_1_n_n rfl rfl rfl rfl rfl rfl 0 (by norm_num)]
  rfl

theorem Vn.key14 {F : FTy → Type} [FloatOps F] (X : Valuation τ sig (Elt F)) :
    after (rchunk14 (F := F)) X (Proc.devRef .tc main_v270)
      = linOps (F := F) dot_S512x128_S128x256_S512x256_1_0_0_1_n_n 1 slices_S2x128x256_S1x128x256_1_0_0
          shapeCasts_S1x128x256_S128x256 slices_S2x256_S1x256_1_0 shapeCasts_S1x256_S256 bcast_S256_S1x256_1
          bcast_S1x256_S512x256_0_1
          (addf (Host.scatterAdd scatter_S512x128_S50000x1_S50000x128_1_0_0_1
              (broadcastInDim S512x128 ![] bcast_S_S512x128 (constant (F := F) S_ .f32 0x00000000#32))
              (broadcastInDim S50000x1 ![0] bcast_S50000_S50000x1_0 (X (Proc.devRef .tc main_arg22)))
              (X (Proc.devRef .tc main_v173)))
            (X (Proc.devRef .tc main_v165)))
          (X (Proc.devRef .tc main_arg13)) (X (Proc.devRef .tc main_arg14)) := by
  after_results_simp
  rfl

theorem rstage14 (X : Valuation τ sig (Elt Ideal)) (hin : Mat 50000 128) (vn : Mat 512 128)
    (h173 : X (Proc.devRef .tc main_v173) = up hin) (h165 : X (Proc.devRef .tc main_v165) = up vn)
    (h22 : X (Proc.devRef .tc main_arg22) = A.batch)
    (h13 : X (Proc.devRef .tc main_arg13) = up A.Wv1) (h14 : X (Proc.devRef .tc main_arg14) = up A.bv1) :
    after (rchunk14 (F := Ideal)) X (Proc.devRef .tc main_v270) = up (linv1Of A 1 (pooledOf A hin) vn) := by
  rw [key14 X, h173, h165, h22, h13, h14, up_scatterAdd_rows_idx scatter_S512x128_S50000x1_S50000x128_1_0_0_1 rfl rfl rfl rfl, up_addf,
    linOps_up (a := 2) dot_S512x128_S128x256_S512x256_1_0_0_1_n_n rfl rfl rfl rfl rfl rfl 1 (by norm_num)]
  rfl

end Cert.ReferenceIdeal.Hand
end
-- ==== Proof.RStageVnBn.lean ====
/-
  The reference program's batch normalisations of the virtual node, read on real arrays: if the buffer a stage reads
  holds a real matrix and the gain and bias arguments hold real arrays, the buffer the stage ends in holds the relu of
  the batch normalisation of `Spec` (column mean and biased column variance over the 512 graphs) of that matrix.
-/
import proofs.«403290_j73710228734482_1_alg».proof.Proof.RChunks
import proofs.«403290_j73710228734482_1_alg».proof.Proof.Spec
import proofs.«403290_j73710228734482_1_alg».proof.Proof.LibUp
import Idealize.ShloMosaic.Lib.ValueLayout
import Idealize.ShloMosaic.Lib.IdealHost

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

namespace VnBn

/-- Row `l` of a matrix of reals, sliced out and its unit axis dropped, is the vector `row2 l`. -/
theorem row_read {a d : Nat} (l : Fin a) (o : Nat) (ho : l.val = o) (b : Mat a d)
    (hs : (⟨2, ![a, d]⟩ : Shape).Slices ![o, 0] ⟨2, ![1, d]⟩)
    (hc : (⟨2, ![1, d]⟩ : Shape).ShapeCasts ⟨1, ![d]⟩) :
    shapeCast ⟨1, ![d]⟩ (extractStridedSlice ⟨2, ![1, d]⟩ ![o, 0] (up b) hs) hc = up (row2 l b) := by
  subst ho
  funext j
  obtain ⟨k, rfl⟩ : ∃ k : Fin d, j = ix1 k := ⟨j 0, eq_ix1 j⟩
  rw [shapeCast_1a_a_apply]
  exact slice2_axis0_apply l.val (up b) hs (0 : Fin 1) k l (Nat.add_zero _).symm

/-- A vector laid as a row and repeated down `n` rows reads, at an index, the vector's entry of the column. -/
theorem vec_rows_up {n d : Nat} (v : Vc d) (h1 : (⟨1, ![d]⟩ : Shape).BroadcastsInDim ⟨2, ![1, d]⟩ ![1])
    (h2 : (⟨2, ![1, d]⟩ : Shape).BroadcastsInDim ⟨2, ![n, d]⟩ ![0, 1]) :
    broadcastInDim ⟨2, ![n, d]⟩ ![0, 1] h2 (broadcastInDim ⟨2, ![1, d]⟩ ![1] h1 (up v))
      = up (fun i : (⟨2, ![n, d]⟩ : Shape).Idx => v (ix1 (i 1))) := by
  rw [bcast_row_up, bcast_rows_up]; rfl

/-- The maximum with the broadcast zero constant is the relu. -/
theorem relu_read {S : Shape} (a : S.Idx → ℝ) (h : (⟨0, ![]⟩ : Shape).BroadcastsInDim S ![]) :
    maximumf (F := Ideal) (φ := .f32) (up a : FVec Ideal S .f32)
        (broadcastInDim S ![] h (constant (F := Ideal) ⟨0, ![]⟩ .f32 0x00000000#32))
      = up (fun i => max (a i) 0) :=
  up_max_zero a _ (fun i => bcast_scalar_const_apply h _ 0 ofBits_zero i)

end VnBn

variable (A : Cert.Spec.Args)

/-- Stage 6: the virtual node's first batch normalisation, with its relu, of layer 0. -/
theorem rstage6 (X : Valuation τ sig (Elt Ideal)) (y : Mat 512 256)
    (h109 : X (Proc.devRef .tc main_v109) = up y)
    (h15 : X (Proc.devRef .tc main_arg15) = up A.gv1) (h16 : X (Proc.devRef .tc main_arg16) = up A.btv1) :
    after (rchunk6 (F := Ideal)) X (Proc.devRef .tc main_v133) = up (tOf A 0 y) := by
  have e : after (rchunk6 (F := Ideal)) X (Proc.devRef .tc main_v133)
      = (maximumf (addf (mulf (mulf (broadcastInDim S512x256 ![0, 1] bcast_S1x256_S512x256_0_1 (broadcastInDim S1x256 ![1] bcast_S256_S1x256_1 (shapeCast S256 (extractStridedSlice S1x256 ![0, 0] ((X (Proc.devRef .tc main_arg15) : FVec Ideal S2x256 .f32)) slices_S2x256_S1x256_0_0) shapeCasts_S1x256_S256))) (subf ((X (Proc.devRef .tc main_v109) : FVec Ideal S512x256 .f32)) (broadcastInDim S512x256 ![0, 1] bcast_S1x256_S512x256_0_1 (broadcastInDim S1x256 ![1] bcast_S256_S1x256_1 (Host.divf (Host.reduceAdd (F := Ideal) ((X (Proc.devRef .tc main_v109) : FVec Ideal S512x256 .f32)) (constant (F := Ideal) S_ .f32 0x00000000#32) reducesTo_S512x256_S256_d0 h_S_) (broadcastInDim S256 ![] bcast_S_S256 (constant (F := Ideal) S_ .f32 0x44000000#32))))))) (broadcastInDim S512x256 ![0, 1] bcast_S1x256_S512x256_0_1 (broadcastInDim S1x256 ![1] bcast_S256_S1x256_1 (Host.rsqrt (addf (select (broadcastInDim S256 ![] bcast_S_S256 (cmpf (F := Ideal) .ogt (subf (constant (F := Ideal) S_ .f32 0x44000000#32) (sitofp (F := Ideal) .f32 (constantI S_ 32 0#32))) (constant (F := Ideal) S_ .f32 0x00000000#32))) (Host.divf (Host.reduceAdd (F := Ideal) (mulf (subf ((X (Proc.devRef .tc main_v109) : FVec Ideal S512x256 .f32)) (broadcastInDim S512x256 ![0, 1] bcast_S1x256_S512x256_0_1 (Host.divf (broadcastInDim S1x256 ![1] bcast_S256_S1x256_1 (Host.reduceAdd (F := Ideal) ((X (Proc.devRef .tc main_v109) : FVec Ideal S512x256 .f32)) (constant (F := Ideal) S_ .f32 0x00000000#32) reducesTo_S512x256_S256_d0 h_S_)) (broadcastInDim S1x256 ![] bcast_S_S1x256 (constant (F := Ideal) S_ .f32 0x44000000#32))))) (subf ((X (Proc.devRef .tc main_v109) : FVec Ideal S512x256 .f32)) (broadcastInDim S512x256 ![0, 1] bcast_S1x256_S512x256_0_1 (Host.divf (broadcastInDim S1x256 ![1] bcast_S256_S1x256_1 (Host.reduceAdd (F := Ideal) ((X (Proc.devRef .tc main_v109) : FVec Ideal S512x256 .f32)) (constant (F := Ideal) S_ .f32 0x00000000#32) reducesTo_S512x256_S256_d0 h_S_)) (broadcastInDim S1x256 ![] bcast_S_S1x256 (constant (F := Ideal) S_ .f32 0x44000000#32)))))) (constant (F := Ideal) S_ .f32 0x00000000#32) reducesTo_S512x256_S256_d0 h_S_) (broadcastInDim S256 ![] bcast_S_S256 (subf (constant (F := Ideal) S_ .f32 0x44000000#32) (sitofp (F := Ideal) .f32 (constantI S_ 32 0#32))))) (broadcastInDim S256 ![] bcast_S_S256 (constant (F := Ideal) S_ .f32 0x7FC00000#32))) (broadcastInDim S256 ![] bcast_S_S256 (constant (F := Ideal) S_ .f32 0x3727C5AC#32))))))) (broadcastInDim S512x256 ![0, 1] bcast_S1x256_S512x256_0_1 (broadcastInDim S1x256 ![1] bcast_S256_S1x256_1 (shapeCast S256 (extractStridedSlice S1x256 ![0, 0] ((X (Proc.devRef .tc main_arg16) : FVec Ideal S2x256 .f32)) slices_S2x256_S1x256_0_0) shapeCasts_S1x256_S256)))) (broadcastInDim S512x256 ![] bcast_S_S512x256 (constant (F := Ideal) S_ .f32 0x00000000#32)) : FVec Ideal S512x256 .f32) := by
    after_results_simp <;> (try simp only [TRef.ofBuf, TRef.toBuf, cast_eq]) <;> rfl
  rw [e, h109, h15, h16, var_chain (by norm_num) 0x44000000#32 ofBits_512_nat y,
    up_mean (by norm_num) 0x44000000#32 ofBits_512_nat y,
    VnBn.row_read (0 : Fin 2) 0 rfl, VnBn.row_read (0 : Fin 2) 0 rfl,
    VnBn.vec_rows_up, VnBn.vec_rows_up, VnBn.vec_rows_up, up_subf, up_mulf,
    bcast_scalar_const_up _ 0x3727C5AC#32 eps ofBits_eps, up_addf,
    up_rsqrt _ (fun i => var_add_eps_pos y i), VnBn.vec_rows_up, up_mulf, up_addf, VnBn.relu_read]
  rfl

/-- Stage 8: the virtual node's second batch normalisation, with its relu, of layer 0. -/
theorem rstage8 (X : Valuation τ sig (Elt Ideal)) (y : Mat 512 128)
    (h141 : X (Proc.devRef .tc main_v141) = up y)
    (h19 : X (Proc.devRef .tc main_arg19) = up A.gv2) (h20 : X (Proc.devRef .tc main_arg20) = up A.btv2) :
    after (rchunk8 (F := Ideal)) X (Proc.devRef .tc main_v165) = up (vnOf A 0 y) := by
  have e : after (rchunk8 (F := Ideal)) X (Proc.devRef .tc main_v165)
      = (maximumf (addf (mulf (mulf (broadcastInDim S512x128 ![0, 1] bcast_S1x128_S512x128_0_1 (broadcastInDim S1x128 ![1] bcast_S128_S1x128_1 (shapeCast S128 (extractStridedSlice S1x128 ![0, 0] ((X (Proc.devRef .tc main_arg19) : FVec Ideal S2x128 .f32)) slices_S2x128_S1x128_0_0) shapeCasts_S1x128_S128))) (subf ((X (Proc.devRef .tc main_v141) : FVec Ideal S512x128 .f32)) (broadcastInDim S512x128 ![0, 1] bcast_S1x128_S512x128_0_1 (broadcastInDim S1x128 ![1] bcast_S128_S1x128_1 (Host.divf (Host.reduceAdd (F := Ideal) ((X (Proc.devRef .tc main_v141) : FVec Ideal S512x128 .f32)) (constant (F := Ideal) S_ .f32 0x00000000#32) reducesTo_S512x128_S128_d0 h_S_) (broadcastInDim S128 ![] bcast_S_S128 (constant (F := Ideal) S_ .f32 0x44000000#32))))))) (broadcastInDim S512x128 ![0, 1] bcast_S1x128_S512x128_0_1 (broadcastInDim S1x128 ![1] bcast_S128_S1x128_1 (Host.rsqrt (addf (select (broadcastInDim S128 ![] bcast_S_S128 (cmpf (F := Ideal) .ogt (subf (constant (F := Ideal) S_ .f32 0x44000000#32) (sitofp (F := Ideal) .f32 (constantI S_ 32 0#32))) (constant (F := Ideal) S_ .f32 0x00000000#32))) (Host.divf (Host.reduceAdd (F := Ideal) (mulf (subf ((X (Proc.devRef .tc main_v141) : FVec Ideal S512x128 .f32)) (broadcastInDim S512x128 ![0, 1] bcast_S1x128_S512x128_0_1 (Host.divf (broadcastInDim S1x128 ![1] bcast_S128_S1x128_1 (Host.reduceAdd (F := Ideal) ((X (Proc.devRef .tc main_v141) : FVec Ideal S512x128 .f32)) (constant (F := Ideal) S_ .f32 0x00000000#32) reducesTo_S512x128_S128_d0 h_S_)) (broadcastInDim S1x128 ![] bcast_S_S1x128 (constant (F := Ideal) S_ .f32 0x44000000#32))))) (subf ((X (Proc.devRef .tc main_v141) : FVec Ideal S512x128 .f32)) (broadcastInDim S512x128 ![0, 1] bcast_S1x128_S512x128_0_1 (Host.divf (broadcastInDim S1x128 ![1] bcast_S128_S1x128_1 (Host.reduceAdd (F := Ideal) ((X (Proc.devRef .tc main_v141) : FVec Ideal S512x128 .f32)) (constant (F := Ideal) S_ .f32 0x00000000#32) reducesTo_S512x128_S128_d0 h_S_)) (broadcastInDim S1x128 ![] bcast_S_S1x128 (constant (F := Ideal) S_ .f32 0x44000000#32)))))) (constant (F := Ideal) S_ .f32 0x00000000#32) reducesTo_S512x128_S128_d0 h_S_) (broadcastInDim S128 ![] bcast_S_S128 (subf (constant (F := Ideal) S_ .f32 0x44000000#32) (sitofp (F := Ideal) .f32 (constantI S_ 32 0#32))))) (broadcastInDim S128 ![] bcast_S_S128 (constant (F := Ideal) S_ .f32 0x7FC00000#32))) (broadcastInDim S128 ![] bcast_S_S128 (constant (F := Ideal) S_ .f32 0x3727C5AC#32))))))) (broadcastInDim S512x128 ![0, 1] bcast_S1x128_S512x128_0_1 (broadcastInDim S1x128 ![1] bcast_S128_S1x128_1 (shapeCast S128 (extractStridedSlice S1x128 ![0, 0] ((X (Proc.devRef .tc main_arg20) : FVec Ideal S2x128 .f32)) slices_S2x128_S1x128_0_0) shapeCasts_S1x128_S128)))) (broadcastInDim S512x128 ![] bcast_S_S512x128 (constant (F := Ideal) S_ .f32 0x00000000#32)) : FVec Ideal S512x128 .f32) := by
    after_results_simp <;> (try simp only [TRef.ofBuf, TRef.toBuf, cast_eq]) <;> rfl
  rw [e, h141, h19, h20, var_chain (by norm_num) 0x44000000#32 ofBits_512_nat y,
    up_mean (by norm_num) 0x44000000#32 ofBits_512_nat y,
    VnBn.row_read (0 : Fin 2) 0 rfl, VnBn.row_read (0 : Fin 2) 0 rfl,
    VnBn.vec_rows_up, VnBn.vec_rows_up, VnBn.vec_rows_up, up_subf, up_mulf,
    bcast_scalar_const_up _ 0x3727C5AC#32 eps ofBits_eps, up_addf,
    up_rsqrt _ (fun i => var_add_eps_pos y i), VnBn.vec_rows_up, up_mulf, up_addf, VnBn.relu_read]
  rfl

/-- Stage 15: the virtual node's first batch normalisation, with its relu, of layer 1. -/
theorem rstage15 (X : Valuation τ sig (Elt Ideal)) (y : Mat 512 256)
    (h270 : X (Proc.devRef .tc main_v270) = up y)
    (h15 : X (Proc.devRef .tc main_arg15) = up A.gv1) (h16 : X (Proc.devRef .tc main_arg16) = up A.btv1) :
    after (rchunk15 (F := Ideal)) X (Proc.devRef .tc main_v294) = up (tOf A 1 y) := by
  have e : after (rchunk15 (F := Ideal)) X (Proc.devRef .tc main_v294)
      = (maximumf (addf (mulf (mulf (broadcastInDim S512x256 ![0, 1] bcast_S1x256_S512x256_0_1 (broadcastInDim S1x256 ![1] bcast_S256_S1x256_1 (shapeCast S256 (extractStridedSlice S1x256 ![1, 0] ((X (Proc.devRef .tc main_arg15) : FVec Ideal S2x256 .f32)) slices_S2x256_S1x256_1_0) shapeCasts_S1x256_S256))) (subf ((X (Proc.devRef .tc main_v270) : FVec Ideal S512x256 .f32)) (broadcastInDim S512x256 ![0, 1] bcast_S1x256_S512x256_0_1 (broadcastInDim S1x256 ![1] bcast_S256_S1x256_1 (Host.divf (Host.reduceAdd (F := Ideal) ((X (Proc.devRef .tc main_v270) : FVec Ideal S512x256 .f32)) (constant (F := Ideal) S_ .f32 0x00000000#32) reducesTo_S512x256_S256_d0 h_S_) (broadcastInDim S256 ![] bcast_S_S256 (constant (F := Ideal) S_ .f32 0x44000000#32))))))) (broadcastInDim S512x256 ![0, 1] bcast_S1x256_S512x256_0_1 (broadcastInDim S1x256 ![1] bcast_S256_S1x256_1 (Host.rsqrt (addf (select (broadcastInDim S256 ![] bcast_S_S256 (cmpf (F := Ideal) .ogt (subf (constant (F := Ideal) S_ .f32 0x44000000#32) (sitofp (F := Ideal) .f32 (constantI S_ 32 0#32))) (constant (F := Ideal) S_ .f32 0x00000000#32))) (Host.divf (Host.reduceAdd (F := Ideal) (mulf (subf ((X (Proc.devRef .tc main_v270) : FVec Ideal S512x256 .f32)) (broadcastInDim S512x256 ![0, 1] bcast_S1x256_S512x256_0_1 (Host.divf (broadcastInDim S1x256 ![1] bcast_S256_S1x256_1 (Host.reduceAdd (F := Ideal) ((X (Proc.devRef .tc main_v270) : FVec Ideal S512x256 .f32)) (constant (F := Ideal) S_ .f32 0x00000000#32) reducesTo_S512x256_S256_d0 h_S_)) (broadcastInDim S1x256 ![] bcast_S_S1x256 (constant (F := Ideal) S_ .f32 0x44000000#32))))) (subf ((X (Proc.devRef .tc main_v270) : FVec Ideal S512x256 .f32)) (broadcastInDim S512x256 ![0, 1] bcast_S1x256_S512x256_0_1 (Host.divf (broadcastInDim S1x256 ![1] bcast_S256_S1x256_1 (Host.reduceAdd (F := Ideal) ((X (Proc.devRef .tc main_v270) : FVec Ideal S512x256 .f32)) (constant (F := Ideal) S_ .f32 0x00000000#32) reducesTo_S512x256_S256_d0 h_S_)) (broadcastInDim S1x256 ![] bcast_S_S1x256 (constant (F := Ideal) S_ .f32 0x44000000#32)))))) (constant (F := Ideal) S_ .f32 0x00000000#32) reducesTo_S512x256_S256_d0 h_S_) (broadcastInDim S256 ![] bcast_S_S256 (subf (constant (F := Ideal) S_ .f32 0x44000000#32) (sitofp (F := Ideal) .f32 (constantI S_ 32 0#32))))) (broadcastInDim S256 ![] bcast_S_S256 (constant (F := Ideal) S_ .f32 0x7FC00000#32))) (broadcastInDim S256 ![] bcast_S_S256 (constant (F := Ideal) S_ .f32 0x3727C5AC#32))))))) (broadcastInDim S512x256 ![0, 1] bcast_S1x256_S512x256_0_1 (broadcastInDim S1x256 ![1] bcast_S256_S1x256_1 (shapeCast S256 (extractStridedSlice S1x256 ![1, 0] ((X (Proc.devRef .tc main_arg16) : FVec Ideal S2x256 .f32)) slices_S2x256_S1x256_1_0) shapeCasts_S1x256_S256)))) (broadcastInDim S512x256 ![] bcast_S_S512x256 (constant (F := Ideal) S_ .f32 0x00000000#32)) : FVec Ideal S512x256 .f32) := by
    after_results_simp <;> (try simp only [TRef.ofBuf, TRef.toBuf, cast_eq]) <;> rfl
  rw [e, h270, h15, h16, var_chain (by norm_num) 0x44000000#32 ofBits_512_nat y,
    up_mean (by norm_num) 0x44000000#32 ofBits_512_nat y,
    VnBn.row_read (1 : Fin 2) 1 rfl, VnBn.row_read (1 : Fin 2) 1 rfl,
    VnBn.vec_rows_up, VnBn.vec_rows_up, VnBn.vec_rows_up, up_subf, up_mulf,
    bcast_scalar_const_up _ 0x3727C5AC#32 eps ofBits_eps, up_addf,
    up_rsqrt _ (fun i => var_add_eps_pos y i), VnBn.vec_rows_up, up_mulf, up_addf, VnBn.relu_read]
  rfl

/-- Stage 17: the virtual node's second batch normalisation, with its relu, of layer 1. -/
theorem rstage17 (X : Valuation τ sig (Elt Ideal)) (y : Mat 512 128)
    (h302 : X (Proc.devRef .tc main_v302) = up y)
    (h19 : X (Proc.devRef .tc main_arg19) = up A.gv2) (h20 : X (Proc.devRef .tc main_arg20) = up A.btv2) :
    after (rchunk17 (F := Ideal)) X (Proc.devRef .tc main_v326) = up (vnOf A 1 y) := by
  have e : after (rchunk17 (F := Ideal)) X (Proc.devRef .tc main_v326)
      = (maximumf (addf (mulf (mulf (broadcastInDim S512x128 ![0, 1] bcast_S1x128_S512x128_0_1 (broadcastInDim S1x128 ![1] bcast_S128_S1x128_1 (shapeCast S128 (extractStridedSlice S1x128 ![1, 0] ((X (Proc.devRef .tc main_arg19) : FVec Ideal S2x128 .f32)) slices_S2x128_S1x128_1_0) shapeCasts_S1x128_S128))) (subf ((X (Proc.devRef .tc main_v302) : FVec Ideal S512x128 .f32)) (broadcastInDim S512x128 ![0, 1] bcast_S1x128_S512x128_0_1 (broadcastInDim S1x128 ![1] bcast_S128_S1x128_1 (Host.divf (Host.reduceAdd (F := Ideal) ((X (Proc.devRef .tc main_v302) : FVec Ideal S512x128 .f32)) (constant (F := Ideal) S_ .f32 0x00000000#32) reducesTo_S512x128_S128_d0 h_S_) (broadcastInDim S128 ![] bcast_S_S128 (constant (F := Ideal) S_ .f32 0x44000000#32))))))) (broadcastInDim S512x128 ![0, 1] bcast_S1x128_S512x128_0_1 (broadcastInDim S1x128 ![1] bcast_S128_S1x128_1 (Host.rsqrt (addf (select (broadcastInDim S128 ![] bcast_S_S128 (cmpf (F := Ideal) .ogt (subf (constant (F := Ideal) S_ .f32 0x44000000#32) (sitofp (F := Ideal) .f32 (constantI S_ 32 0#32))) (constant (F := Ideal) S_ .f32 0x00000000#32))) (Host.divf (Host.reduceAdd (F := Ideal) (mulf (subf ((X (Proc.devRef .tc main_v302) : FVec Ideal S512x128 .f32)) (broadcastInDim S512x128 ![0, 1] bcast_S1x128_S512x128_0_1 (Host.divf (broadcastInDim S1x128 ![1] bcast_S128_S1x128_1 (Host.reduceAdd (F := Ideal) ((X (Proc.devRef .tc main_v302) : FVec Ideal S512x128 .f32)) (constant (F := Ideal) S_ .f32 0x00000000#32) reducesTo_S512x128_S128_d0 h_S_)) (broadcastInDim S1x128 ![] bcast_S_S1x128 (constant (F := Ideal) S_ .f32 0x44000000#32))))) (subf ((X (Proc.devRef .tc main_v302) : FVec Ideal S512x128 .f32)) (broadcastInDim S512x128 ![0, 1] bcast_S1x128_S512x128_0_1 (Host.divf (broadcastInDim S1x128 ![1] bcast_S128_S1x128_1 (Host.reduceAdd (F := Ideal) ((X (Proc.devRef .tc main_v302) : FVec Ideal S512x128 .f32)) (constant (F := Ideal) S_ .f32 0x00000000#32) reducesTo_S512x128_S128_d0 h_S_)) (broadcastInDim S1x128 ![] bcast_S_S1x128 (constant (F := Ideal) S_ .f32 0x44000000#32)))))) (constant (F := Ideal) S_ .f32 0x00000000#32) reducesTo_S512x128_S128_d0 h_S_) (broadcastInDim S128 ![] bcast_S_S128 (subf (constant (F := Ideal) S_ .f32 0x44000000#32) (sitofp (F := Ideal) .f32 (constantI S_ 32 0#32))))) (broadcastInDim S128 ![] bcast_S_S128 (constant (F := Ideal) S_ .f32 0x7FC00000#32))) (broadcastInDim S128 ![] bcast_S_S128 (constant (F := Ideal) S_ .f32 0x3727C5AC#32))))))) (broadcastInDim S512x128 ![0, 1] bcast_S1x128_S512x128_0_1 (broadcastInDim S1x128 ![1] bcast_S128_S1x128_1 (shapeCast S128 (extractStridedSlice S1x128 ![1, 0] ((X (Proc.devRef .tc main_arg20) : FVec Ideal S2x128 .f32)) slices_S2x128_S1x128_1_0) shapeCasts_S1x128_S128)))) (broadcastInDim S512x128 ![] bcast_S_S512x128 (constant (F := Ideal) S_ .f32 0x00000000#32)) : FVec Ideal S512x128 .f32) := by
    after_results_simp <;> (try simp only [TRef.ofBuf, TRef.toBuf, cast_eq]) <;> rfl
  rw [e, h302, h19, h20, var_chain (by norm_num) 0x44000000#32 ofBits_512_nat y,
    up_mean (by norm_num) 0x44000000#32 ofBits_512_nat y,
    VnBn.row_read (1 : Fin 2) 1 rfl, VnBn.row_read (1 : Fin 2) 1 rfl,
    VnBn.vec_rows_up, VnBn.vec_rows_up, VnBn.vec_rows_up, up_subf, up_mulf,
    bcast_scalar_const_up _ 0x3727C5AC#32 eps ofBits_eps, up_addf,
    up_rsqrt _ (fun i => var_add_eps_pos y i), VnBn.vec_rows_up, up_mulf, up_addf, VnBn.relu_read]
  rfl

end Cert.ReferenceIdeal.Hand

end
-- ==== Proof.RChain.lean ====
/-
  The reference's stages composed. From contents V whose argument buffers hold the arguments A, the valuations
  U1 V … U23 V hold stage by stage what the network of Spec.lean computes: layer 0's node features and virtual node,
  layer 1's, and at the end the result buffer holds up (out A). Each stage's lemma gives its result from its inputs;
  an input made several stages earlier is carried to its reader by the lemmas that a stage keeps every buffer it does
  not write, and the argument buffers are kept by every stage.
-/
import proofs.«403290_j73710228734482_1_alg».proof.Proof.RRunArgs
import proofs.«403290_j73710228734482_1_alg».proof.Proof.RStageNode
import proofs.«403290_j73710228734482_1_alg».proof.Proof.RStageNodeBn
import proofs.«403290_j73710228734482_1_alg».proof.Proof.RStageVn
import proofs.«403290_j73710228734482_1_alg».proof.Proof.RStageVnBn

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo Cert.Spec

/-- The argument buffers of a valuation hold the arguments A: the float arrays as real arrays read in the extended
    reals, the two index arrays as they are. -/
structure ArgsIn (V : Valuation τ sig (Elt Ideal)) (A : Args) : Prop where
  a0 : V (Proc.devRef .tc main_arg0) = up A.x
  a1 : V (Proc.devRef .tc main_arg1) = up A.ea
  a2 : V (Proc.devRef .tc main_arg2) = up A.vn0
  a3 : V (Proc.devRef .tc main_arg3) = up A.We
  a4 : V (Proc.devRef .tc main_arg4) = up A.be
  a5 : V (Proc.devRef .tc main_arg5) = up A.W1
  a6 : V (Proc.devRef .tc main_arg6) = up A.b1
  a7 : V (Proc.devRef .tc main_arg7) = up A.g1
  a8 : V (Proc.devRef .tc main_arg8) = up A.bt1
  a9 : V (Proc.devRef .tc main_arg9) = up A.W2
  a10 : V (Proc.devRef .tc main_arg10) = up A.b2
  a11 : V (Proc.devRef .tc main_arg11) = up A.gb
  a12 : V (Proc.devRef .tc main_arg12) = up A.bb
  a13 : V (Proc.devRef .tc main_arg13) = up A.Wv1
  a14 : V (Proc.devRef .tc main_arg14) = up A.bv1
  a15 : V (Proc.devRef .tc main_arg15) = up A.gv1
  a16 : V (Proc.devRef .tc main_arg16) = up A.btv1
  a17 : V (Proc.devRef .tc main_arg17) = up A.Wv2
  a18 : V (Proc.devRef .tc main_arg18) = up A.bv2
  a19 : V (Proc.devRef .tc main_arg19) = up A.gv2
  a20 : V (Proc.devRef .tc main_arg20) = up A.btv2
  a21 : V (Proc.devRef .tc main_arg21) = A.ei
  a22 : V (Proc.devRef .tc main_arg22) = A.batch

/-- A valuation that agrees with one holding the arguments on the argument buffers holds them too. -/
theorem ArgsIn.of_eq {V W : Valuation τ sig (Elt Ideal)} {A : Args} (h : ArgsIn V A)
    (e : ∀ r ∈ rargs, W (Proc.devRef .tc r) = V (Proc.devRef .tc r)) : ArgsIn W A where
  a0 := (e main_arg0 (by decide)).trans h.a0
  a1 := (e main_arg1 (by decide)).trans h.a1
  a2 := (e main_arg2 (by decide)).trans h.a2
  a3 := (e main_arg3 (by decide)).trans h.a3
  a4 := (e main_arg4 (by decide)).trans h.a4
  a5 := (e main_arg5 (by decide)).trans h.a5
  a6 := (e main_arg6 (by decide)).trans h.a6
  a7 := (e main_arg7 (by decide)).trans h.a7
  a8 := (e main_arg8 (by decide)).trans h.a8
  a9 := (e main_arg9 (by decide)).trans h.a9
  a10 := (e main_arg10 (by decide)).trans h.a10
  a11 := (e main_arg11 (by decide)).trans h.a11
  a12 := (e main_arg12 (by decide)).trans h.a12
  a13 := (e main_arg13 (by decide)).trans h.a13
  a14 := (e main_arg14 (by decide)).trans h.a14
  a15 := (e main_arg15 (by decide)).trans h.a15
  a16 := (e main_arg16 (by decide)).trans h.a16
  a17 := (e main_arg17 (by decide)).trans h.a17
  a18 := (e main_arg18 (by decide)).trans h.a18
  a19 := (e main_arg19 (by decide)).trans h.a19
  a20 := (e main_arg20 (by decide)).trans h.a20
  a21 := (e main_arg21 (by decide)).trans h.a21
  a22 := (e main_arg22 (by decide)).trans h.a22

/-- Stage after stage: the result buffer ends at the network's result. -/
theorem chain (V : Valuation τ sig (Elt Ideal)) (A : Args) (hV : ArgsIn V A) :
    U23 V (Proc.devRef .tc main_v418) = up (out A) := by
  -- the arguments at each stage's entry
  have a0 : ArgsIn (U0 V) A := hV
  have a1 : ArgsIn (U1 V) A := hV.of_eq (U1_args V)
  have a2 : ArgsIn (U2 V) A := hV.of_eq (U2_args V)
  have a3 : ArgsIn (U3 V) A := hV.of_eq (U3_args V)
  have a4 : ArgsIn (U4 V) A := hV.of_eq (U4_args V)
  have a5 : ArgsIn (U5 V) A := hV.of_eq (U5_args V)
  have a6 : ArgsIn (U6 V) A := hV.of_eq (U6_args V)
  have a7 : ArgsIn (U7 V) A := hV.of_eq (U7_args V)
  have a8 : ArgsIn (U8 V) A := hV.of_eq (U8_args V)
  have a9 : ArgsIn (U9 V) A := hV.of_eq (U9_args V)
  have a10 : ArgsIn (U10 V) A := hV.of_eq (U10_args V)
  have a11 : ArgsIn (U11 V) A := hV.of_eq (U11_args V)
  have a12 : ArgsIn (U12 V) A := hV.of_eq (U12_args V)
  have a13 : ArgsIn (U13 V) A := hV.of_eq (U13_args V)
  have a14 : ArgsIn (U14 V) A := hV.of_eq (U14_args V)
  have a15 : ArgsIn (U15 V) A := hV.of_eq (U15_args V)
  have a16 : ArgsIn (U16 V) A := hV.of_eq (U16_args V)
  have a17 : ArgsIn (U17 V) A := hV.of_eq (U17_args V)
  have a18 : ArgsIn (U18 V) A := hV.of_eq (U18_args V)
  have a19 : ArgsIn (U19 V) A := hV.of_eq (U19_args V)
  have a20 : ArgsIn (U20 V) A := hV.of_eq (U20_args V)
  have a21 : ArgsIn (U21 V) A := hV.of_eq (U21_args V)
  have a22 : ArgsIn (U22 V) A := hV.of_eq (U22_args V)
  -- layer 0: the node stages
  obtain ⟨m0, hin0, vnb0, src1, dst1⟩ := rstage0 A (U0 V) a0.a0 a0.a2 a0.a1 a0.a3 a0.a4 a0.a21 a0.a22
  have m0 : U1 V (Proc.devRef .tc main_v29) = up (msgOf A 0 (hinOf A A.x (vnB A))) :=
    m0
  have hin0 : U1 V (Proc.devRef .tc main_v12) = up (hinOf A A.x (vnB A)) :=
    hin0
  have vnb0 : U1 V (Proc.devRef .tc main_v4) = up (vnB A) :=
    vnb0
  have src1 : U1 V (Proc.devRef .tc main_v1) = (fun i => srcw A (i 0)) :=
    src1
  have dst1 : U1 V (Proc.devRef .tc main_v3) = (fun i => dstw A (i 0)) :=
    dst1
  have l1 : U2 V (Proc.devRef .tc main_v41) = up _ :=
    rstage1 A (U1 V) _ _ hin0 m0 dst1 a1.a5 a1.a6
  have z1 : U3 V (Proc.devRef .tc main_v65) = up _ :=
    rstage2 A (U2 V) _ l1 a2.a7 a2.a8
  have l2 : U4 V (Proc.devRef .tc main_v73) = up _ :=
    rstage3 A (U3 V) _ z1 a3.a9 a3.a10
  have eh1 : U5 V (Proc.devRef .tc main_v97) = up (h1 A) :=
    rstage4 A (U4 V) _ l2 a4.a11 a4.a12
  -- layer 0: the virtual node's stages read the node stages' input and the virtual node's rows made in stage 0
  have hin5 : U5 V (Proc.devRef .tc main_v12) = up (hinOf A A.x (vnB A)) :=
    (kept4 (U4 V) main_v12 (by decide)).trans ((kept3 (U3 V) main_v12 (by decide)).trans ((kept2 (U2 V) main_v12 (by decide)).trans ((kept1 (U1 V) main_v12 (by decide)).trans (hin0))))
  have vnb5 : U5 V (Proc.devRef .tc main_v4) = up (vnB A) :=
    (kept4 (U4 V) main_v4 (by decide)).trans ((kept3 (U3 V) main_v4 (by decide)).trans ((kept2 (U2 V) main_v4 (by decide)).trans ((kept1 (U1 V) main_v4 (by decide)).trans (vnb0))))
  have p1 : U6 V (Proc.devRef .tc main_v109) = up _ :=
    rstage5 A (U5 V) _ _ hin5 vnb5 a5.a22 a5.a13 a5.a14
  have t1 : U7 V (Proc.devRef .tc main_v133) = up _ :=
    rstage6 A (U6 V) _ p1 a6.a15 a6.a16
  have q1 : U8 V (Proc.devRef .tc main_v141) = up _ :=
    rstage7 A (U7 V) _ t1 a7.a17 a7.a18
  have evn1 : U9 V (Proc.devRef .tc main_v165) = up (vn1 A) :=
    rstage8 A (U8 V) _ q1 a8.a19 a8.a20
  -- layer 1
  have eh1' : U9 V (Proc.devRef .tc main_v97) = up (h1 A) :=
    (kept8 (U8 V) main_v97 (by decide)).trans ((kept7 (U7 V) main_v97 (by decide)).trans ((kept6 (U6 V) main_v97 (by decide)).trans ((kept5 (U5 V) main_v97 (by decide)).trans (eh1))))
  have src9 : U9 V (Proc.devRef .tc main_v1) = (fun i => srcw A (i 0)) :=
    (kept8 (U8 V) main_v1 (by decide)).trans ((kept7 (U7 V) main_v1 (by decide)).trans ((kept6 (U6 V) main_v1 (by decide)).trans ((kept5 (U5 V) main_v1 (by decide)).trans ((kept4 (U4 V) main_v1 (by decide)).trans ((kept3 (U3 V) main_v1 (by decide)).trans ((kept2 (U2 V) main_v1 (by decide)).trans ((kept1 (U1 V) main_v1 (by decide)).trans (src1))))))))
  obtain ⟨m9, hin9⟩ := rstage9 A (U9 V) _ _ eh1' evn1 a9.a1 a9.a3 a9.a4 a9.a22 src9
  have m9 : U10 V (Proc.devRef .tc main_v190) = up (msgOf A 1 (hinOf A (h1 A) (vn1 A))) :=
    m9
  have hin9 : U10 V (Proc.devRef .tc main_v173) = up (hinOf A (h1 A) (vn1 A)) :=
    hin9
  have dst10 : U10 V (Proc.devRef .tc main_v3) = (fun i => dstw A (i 0)) :=
    (kept9 (U9 V) main_v3 (by decide)).trans ((kept8 (U8 V) main_v3 (by decide)).trans ((kept7 (U7 V) main_v3 (by decide)).trans ((kept6 (U6 V) main_v3 (by decide)).trans ((kept5 (U5 V) main_v3 (by decide)).trans ((kept4 (U4 V) main_v3 (by decide)).trans ((kept3 (U3 V) main_v3 (by decide)).trans ((kept2 (U2 V) main_v3 (by decide)).trans ((kept1 (U1 V) main_v3 (by decide)).trans (dst1)))))))))
  have l10 : U11 V (Proc.devRef .tc main_v202) = up _ :=
    rstage10 A (U10 V) _ _ hin9 m9 dst10 a10.a5 a10.a6
  have z11 : U12 V (Proc.devRef .tc main_v226) = up _ :=
    rstage11 A (U11 V) _ l10 a11.a7 a11.a8
  have l12 : U13 V (Proc.devRef .tc main_v234) = up _ :=
    rstage12 A (U12 V) _ z11 a12.a9 a12.a10
  have eh2 : U14 V (Proc.devRef .tc main_v258) = up (h2 A) :=
    rstage13 A (U13 V) _ l12 a13.a11 a13.a12
  have hin14 : U14 V (Proc.devRef .tc main_v173) = up (hinOf A (h1 A) (vn1 A)) :=
    (kept13 (U13 V) main_v173 (by decide)).trans ((kept12 (U12 V) main_v173 (by decide)).trans ((kept11 (U11 V) main_v173 (by decide)).trans ((kept10 (U10 V) main_v173 (by decide)).trans (hin9))))
  have evn1' : U14 V (Proc.devRef .tc main_v165) = up (vn1 A) :=
    (kept13 (U13 V) main_v165 (by decide)).trans ((kept12 (U12 V) main_v165 (by decide)).trans ((kept11 (U11 V) main_v165 (by decide)).trans ((kept10 (U10 V) main_v165 (by decide)).trans ((kept9 (U9 V) main_v165 (by decide)).trans (evn1)))))
  have p14 : U15 V (Proc.devRef .tc main_v270) = up _ :=
    rstage14 A (U14 V) _ _ hin14 evn1' a14.a22 a14.a13 a14.a14
  have t15 : U16 V (Proc.devRef .tc main_v294) = up _ :=
    rstage15 A (U15 V) _ p14 a15.a15 a15.a16
  have q16 : U17 V (Proc.devRef .tc main_v302) = up _ :=
    rstage16 A (U16 V) _ t15 a16.a17 a16.a18
  have evn2 : U18 V (Proc.devRef .tc main_v326) = up (vn2 A) :=
    rstage17 A (U17 V) _ q16 a17.a19 a17.a20
  -- layer 2
  have eh2' : U18 V (Proc.devRef .tc main_v258) = up (h2 A) :=
    (kept17 (U17 V) main_v258 (by decide)).trans ((kept16 (U16 V) main_v258 (by decide)).trans ((kept15 (U15 V) main_v258 (by decide)).trans ((kept14 (U14 V) main_v258 (by decide)).trans (eh2))))
  have src18 : U18 V (Proc.devRef .tc main_v1) = (fun i => srcw A (i 0)) :=
    (kept17 (U17 V) main_v1 (by decide)).trans ((kept16 (U16 V) main_v1 (by decide)).trans ((kept15 (U15 V) main_v1 (by decide)).trans ((kept14 (U14 V) main_v1 (by decide)).trans ((kept13 (U13 V) main_v1 (by decide)).trans ((kept12 (U12 V) main_v1 (by decide)).trans ((kept11 (U11 V) main_v1 (by decide)).trans ((kept10 (U10 V) main_v1 (by decide)).trans ((kept9 (U9 V) main_v1 (by decide)).trans (src9)))))))))
  obtain ⟨m18, hin18⟩ := rstage18 A (U18 V) _ _ eh2' evn2 a18.a1 a18.a3 a18.a4 a18.a22 src18
  have m18 : U19 V (Proc.devRef .tc main_v351) = up (msgOf A 2 (hinOf A (h2 A) (vn2 A))) :=
    m18
  have hin18 : U19 V (Proc.devRef .tc main_v334) = up (hinOf A (h2 A) (vn2 A)) :=
    hin18
  have dst19 : U19 V (Proc.devRef .tc main_v3) = (fun i => dstw A (i 0)) :=
    (kept18 (U18 V) main_v3 (by decide)).trans ((kept17 (U17 V) main_v3 (by decide)).trans ((kept16 (U16 V) main_v3 (by decide)).trans ((kept15 (U15 V) main_v3 (by decide)).trans ((kept14 (U14 V) main_v3 (by decide)).trans ((kept13 (U13 V) main_v3 (by decide)).trans ((kept12 (U12 V) main_v3 (by decide)).trans ((kept11 (U11 V) main_v3 (by decide)).trans ((kept10 (U10 V) main_v3 (by decide)).trans (dst10)))))))))
  have l19 : U20 V (Proc.devRef .tc main_v363) = up _ :=
    rstage19 A (U19 V) _ _ hin18 m18 dst19 a19.a5 a19.a6
  have z20 : U21 V (Proc.devRef .tc main_v387) = up _ :=
    rstage20 A (U20 V) _ l19 a20.a7 a20.a8
  have l21 : U22 V (Proc.devRef .tc main_v395) = up _ :=
    rstage21 A (U21 V) _ z20 a21.a9 a21.a10
  exact rstage22 A (U22 V) _ l21 a22.a11 a22.a12

/-- The launch memory holds the arguments A on core c: 23 equations in argument order. -/
def RArgsAt (m : (ℓ : Loc nD τ sig) → Buf (Elt Ideal) ℓ) (c : Dev nD) (A : Args) : Prop :=
  m ((c.tc : Thread nD τ).loc main_arg0) = up A.x ∧
  m ((c.tc : Thread nD τ).loc main_arg1) = up A.ea ∧
  m ((c.tc : Thread nD τ).loc main_arg2) = up A.vn0 ∧
  m ((c.tc : Thread nD τ).loc main_arg3) = up A.We ∧
  m ((c.tc : Thread nD τ).loc main_arg4) = up A.be ∧
  m ((c.tc : Thread nD τ).loc main_arg5) = up A.W1 ∧
  m ((c.tc : Thread nD τ).loc main_arg6) = up A.b1 ∧
  m ((c.tc : Thread nD τ).loc main_arg7) = up A.g1 ∧
  m ((c.tc : Thread nD τ).loc main_arg8) = up A.bt1 ∧
  m ((c.tc : Thread nD τ).loc main_arg9) = up A.W2 ∧
  m ((c.tc : Thread nD τ).loc main_arg10) = up A.b2 ∧
  m ((c.tc : Thread nD τ).loc main_arg11) = up A.gb ∧
  m ((c.tc : Thread nD τ).loc main_arg12) = up A.bb ∧
  m ((c.tc : Thread nD τ).loc main_arg13) = up A.Wv1 ∧
  m ((c.tc : Thread nD τ).loc main_arg14) = up A.bv1 ∧
  m ((c.tc : Thread nD τ).loc main_arg15) = up A.gv1 ∧
  m ((c.tc : Thread nD τ).loc main_arg16) = up A.btv1 ∧
  m ((c.tc : Thread nD τ).loc main_arg17) = up A.Wv2 ∧
  m ((c.tc : Thread nD τ).loc main_arg18) = up A.bv2 ∧
  m ((c.tc : Thread nD τ).loc main_arg19) = up A.gv2 ∧
  m ((c.tc : Thread nD τ).loc main_arg20) = up A.btv2 ∧
  m ((c.tc : Thread nD τ).loc main_arg21) = A.ei ∧
  m ((c.tc : Thread nD τ).loc main_arg22) = A.batch

/-- From a launch memory holding the arguments, the whole line of @main leaves the network's result in the result buffer. -/
theorem rchain (m : (ℓ : Loc nD τ sig) → Buf (Elt Ideal) ℓ) (c : Dev nD) (A : Args) (hargs : RArgsAt m c A) :
    after (rops (F := Ideal)) (launchContents m c) (main_v418 : DevRef τ sig) = up (out A) := by
  obtain ⟨h0, h1, h2, h3, h4, h5, h6, h7, h8, h9, h10, h11, h12, h13, h14, h15, h16, h17, h18, h19, h20, h21, h22⟩ := hargs
  rw [after_rops]
  exact chain (launchContents m c) A ⟨h0, h1, h2, h3, h4, h5, h6, h7, h8, h9, h10, h11, h12, h13, h14, h15, h16, h17, h18, h19, h20, h21, h22⟩

end Cert.ReferenceIdeal.Hand

end
-- ==== Proof.lean ====
import proofs.«403290_j73710228734482_1_alg».proof.Defs
import proofs.«403290_j73710228734482_1_alg».proof.Proof.Gen.Kernel
import proofs.«403290_j73710228734482_1_alg».proof.Proof.Gen.Kernel.Frame
import proofs.«403290_j73710228734482_1_alg».proof.Proof.Gen.KernelIdeal
import proofs.«403290_j73710228734482_1_alg».proof.Proof.Gen.KernelIdeal.Frame
import proofs.«403290_j73710228734482_1_alg».proof.Proof.Gen.ReferenceIdeal
import proofs.«403290_j73710228734482_1_alg».proof.Proof.Gen.Pre_finite_inputs
import proofs.«403290_j73710228734482_1_alg».proof.Proof.PreFacts
import proofs.«403290_j73710228734482_1_alg».proof.Proof.KRun
import proofs.«403290_j73710228734482_1_alg».proof.Proof.KChain
import proofs.«403290_j73710228734482_1_alg».proof.Proof.RRun
import proofs.«403290_j73710228734482_1_alg».proof.Proof.RChain

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun r h c => by
      have ha := Cert.ReferenceIdeal.Hand.rops_args (F := Ideal) (StableHlo.launchContents m c)
      obtain ⟨a0, a1, a2, a3, a4, a5, a6, a7, a8, a9, a10, a11, a12, a13, a14, a15, a16, a17, a18, a19, a20, a21, a22⟩ := ha
      exact ⟨(h c _).trans a0, (h c _).trans a1, (h c _).trans a2, (h c _).trans a3, (h c _).trans a4, (h c _).trans a5,
        (h c _).trans a6, (h c _).trans a7, (h c _).trans a8, (h c _).trans a9, (h c _).trans a10, (h c _).trans a11,
        (h c _).trans a12, (h c _).trans a13, (h c _).trans a14, (h c _).trans a15, (h c _).trans a16, (h c _).trans a17,
        (h c _).trans a18, (h c _).trans a19, (h c _).trans a20, (h c _).trans a21, (h c _).trans a22⟩)
    (Cert.ReferenceIdeal.Hand.run_main (F := Ideal) m ρ)

theorem preserves : Cert.preserves_Kernel_KernelIdeal := trivial

/-- Both programs leave the network `Spec.out` of the arguments in their result buffer. -/
theorem algebraic : Cert.algebraic_KernelIdeal_ReferenceIdeal := by
  intro m ρ m' ρ' hpre hagree

  have hA : ∀ c : Dev Cert.KernelIdeal.nD, ∃ A : Cert.Spec.Args, Cert.KernelIdeal.Hand.ArgsAt m c A ∧
      ∀ e : Fin 800000, 0 ≤ (Cert.Spec.srcw A e).toInt ∧ (Cert.Spec.srcw A e).toInt < 50000 := by
    intro c
    obtain ⟨A, e0, e1, e2, e3, e4, e5, e6, e7, e8, e9, e10, e11, e12, e13, e14, e15, e16, e17, e18, e19, e20, e21, e22, hsrc⟩ :=
      Cert.PreFacts.args_of_pre _ _ _ _ _ _ _ _ _ _ _ _ _ _ _ _ _ _ _ _ _ _ _ (hpre c)
    exact ⟨A, ⟨e0, e1, e2, e3, e4, e5, e6, e7, e8, e9, e10, e11, e12, e13, e14, e15, e16, e17, e18, e19, e20, e21, e22⟩, hsrc⟩
  choose A hA using hA
  refine ⟨fun c => Cert.Spec.up (Cert.Spec.out (A c)), ?_, ?_⟩
  · refine (θ_run Cert.KernelIdeal.defs _ _).mono (fun r h c => ⟨(h c).1.trans ?_, (h c).2⟩)
      (Cert.KernelIdeal.Hand.krun (F := Ideal) m ρ)
    exact Cert.KernelIdeal.Hand.kchain m ρ c (A c) (hA c).1 (hA c).2
  · refine (θ_run Cert.ReferenceIdeal.defs _ _).mono (fun r h c => ?_)
      (Cert.ReferenceIdeal.Hand.run_main (F := Ideal) m' ρ')
    have ha := Cert.ReferenceIdeal.Hand.rops_args (F := Ideal) (StableHlo.launchContents m' c)
    obtain ⟨a0, a1, a2, a3, a4, a5, a6, a7, a8, a9, a10, a11, a12, a13, a14, a15, a16, a17, a18, a19, a20, a21, a22⟩ := ha
    obtain ⟨g0, g1, g2, g3, g4, g5, g6, g7, g8, g9, g10, g11, g12, g13, g14, g15, g16, g17, g18, g19, g20, g21, g22⟩ := hagree c
    obtain ⟨k0, k1, k2, k3, k4, k5, k6, k7, k8, k9, k10, k11, k12, k13, k14, k15, k16, k17, k18, k19, k20, k21, k22⟩ := (hA c).1
    refine ⟨(h c _).trans ?_, (h c _).trans a0, (h c _).trans a1, (h c _).trans a2, (h c _).trans a3, (h c _).trans a4,
      (h c _).trans a5, (h c _).trans a6, (h c _).trans a7, (h c _).trans a8, (h c _).trans a9, (h c _).trans a10,
      (h c _).trans a11, (h c _).trans a12, (h c _).trans a13, (h c _).trans a14, (h c _).trans a15, (h c _).trans a16,
      (h c _).trans a17, (h c _).trans a18, (h c _).trans a19, (h c _).trans a20, (h c _).trans a21, (h c _).trans a22⟩
    exact Cert.ReferenceIdeal.Hand.rchain m' c (A c)
      ⟨g0.trans k0, g1.trans k1, g2.trans k2, g3.trans k3, g4.trans k4, g5.trans k5, g6.trans k6, g7.trans k7, g8.trans k8,
        g9.trans k9, g10.trans k10, g11.trans k11, g12.trans k12, g13.trans k13, g14.trans k14, g15.trans k15, g16.trans k16,
        g17.trans k17, g18.trans k18, g19.trans k19, g20.trans k20, g21.trans k21, g22.trans k22⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
